-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_19" .f32 0x3D579436#32 ((1 / 19 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v231)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v231) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v390) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192 : Shape := ⟨2, ![8, 8192]⟩
abbrev S18x4097x256 : Shape := ⟨3, ![18, 4097, 256]⟩
abbrev S_ : Shape := ⟨0, ![]⟩

class Facts : Prop where
  bcast_S_S18x4097x256 : S_.BroadcastsInDim S18x4097x256 (![] : Fin 0 → Fin S18x4097x256.rank)
  reducesTo_S18x4097x256_S_d0_1_2 : S18x4097x256.ReducesTo [0, 1, 2] S_
  h_S_ : 0 < S_.numel

variable [Facts]

def fn {F : FTy → Type} [FloatOps F] (main_arg0 : IVec S8x8192 32) (main_arg1 : FVec F S18x4097x256 .f32) : IVec S_ 1 :=
  let main_v0 : FVec F S18x4097x256 .f32 := Host.absf main_arg1
  let main_cst : FVec F S_ .f32 := constant S_ .f32 0x7F800000#32
  let main_v1 : FVec F S18x4097x256 .f32 := broadcastInDim S18x4097x256 ![] bcast_S_S18x4097x256 main_cst
  let main_v2 : IVec S18x4097x256 1 := cmpf .olt main_v0 main_v1
  let main_c : IVec S_ 1 := constantI S_ 1 1#1
  let main_v3 : IVec S_ 1 := (fun x v => Host.reduce IntOp.andi x v reducesTo_S18x4097x256_S_d0_1_2 h_S_) main_v2 main_c
  main_v3
-- ==== Kernel.lean ====
abbrev S8x8192 : Shape := ⟨2, ![8, 8192]⟩
abbrev S18x4097x256 : Shape := ⟨3, ![18, 4097, 256]⟩
abbrev S4 : Shape := ⟨1, ![4]⟩
abbrev S_ : Shape := ⟨0, ![]⟩
abbrev S14 : Shape := ⟨1, ![14]⟩
abbrev S4x1 : Shape := ⟨2, ![4, 1]⟩
abbrev S8x8192x1 : Shape := ⟨3, ![8, 8192, 1]⟩
abbrev S8x8191 : Shape := ⟨2, ![8, 8191]⟩
abbrev S1x8x8192 : Shape := ⟨3, ![1, 8, 8192]⟩
abbrev S16x8x8192 : Shape := ⟨3, ![16, 8, 8192]⟩
abbrev S2x8x8192 : Shape := ⟨3, ![2, 8, 8192]⟩
abbrev S18x8x8192 : Shape := ⟨3, ![18, 8, 8192]⟩
abbrev S18x4224x256 : Shape := ⟨3, ![18, 4224, 256]⟩
abbrev S8x8192x256 : Shape := ⟨3, ![8, 8192, 256]⟩
abbrev S1x8x128 : Shape := ⟨3, ![1, 8, 128]⟩
abbrev S1x4224x256 : Shape := ⟨3, ![1, 4224, 256]⟩
abbrev S8x128x256 : Shape := ⟨3, ![8, 128, 256]⟩
abbrev S8x128 : Shape := ⟨2, ![8, 128]⟩
abbrev S1x1x4224 : Shape := ⟨3, ![1, 1, 4224]⟩
abbrev S8x128x1 : Shape := ⟨3, ![8, 128, 1]⟩
abbrev S8x128x4224 : Shape := ⟨3, ![8, 128, 4224]⟩
abbrev S1024x4224 : Shape := ⟨2, ![1024, 4224]⟩
abbrev S4224x256 : Shape := ⟨2, ![4224, 256]⟩
abbrev S1024x256 : Shape := ⟨2, ![1024, 256]⟩

abbrev nBuf : Space → Nat
  | .hbm => 774
  | .vmem => 7
  | .smem => 0
  | _ => 0

abbrev hbmTy0_0 (i : Nat) : BufTy := match i % 128 with
  | 0 => ⟨S8x8192, .i32⟩
  | 1 => ⟨S18x4097x256, .f32⟩
  | 2 => ⟨S4, .i32⟩
  | 3 => ⟨S4, .i32⟩
  | 4 => ⟨S_, .i32⟩
  | 5 => ⟨S14, .i32⟩
  | 6 => ⟨S_, .i32⟩
  | 7 => ⟨S4, .i32⟩
  | 8 => ⟨S4, .i1⟩
  | 9 => ⟨S_, .i32⟩
  | 10 => ⟨S4, .i32⟩
  | 11 => ⟨S4, .i32⟩
  | 12 => ⟨S4, .i32⟩
  | 13 => ⟨S4x1, .i32⟩
  | 14 => ⟨S14, .i32⟩
  | 15 => ⟨S_, .i32⟩
  | 16 => ⟨S8x8192, .i32⟩
  | 17 => ⟨S8x8192, .i1⟩
  | 18 => ⟨S_, .i32⟩
  | 19 => ⟨S8x8192, .i32⟩
  | 20 => ⟨S8x8192, .i32⟩
  | 21 => ⟨S8x8192, .i32⟩
  | 22 => ⟨S8x8192x1, .i32⟩
  | 23 => ⟨S8x8192, .i32⟩
  | 24 => ⟨S_, .i32⟩
  | 25 => ⟨S8x8192, .i32⟩
  | 26 => ⟨S8x8192, .i32⟩
  | 27 => ⟨S_, .i32⟩
  | 28 => ⟨S8x8192, .i32⟩
  | 29 => ⟨S8x8192, .i1⟩
  | 30 => ⟨S8x8191, .i32⟩
  | 31 => ⟨S_, .i32⟩
  | 32 => ⟨S_, .i32⟩
  | 33 => ⟨S8x8192, .i32⟩
  | 34 => ⟨S_, .i32⟩
  | 35 => ⟨S8x8192, .i32⟩
  | 36 => ⟨S8x8192, .i32⟩
  | 37 => ⟨S8x8192, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S8x8192, .i32⟩
  | 45 => ⟨S8x8192, .i32⟩
  | 46 => ⟨S_, .i32⟩
  | 47 => ⟨S8x8192, .i32⟩
  | 48 => ⟨S8x8192, .i1⟩
  | 49 => ⟨S_, .i32⟩
  | 50 => ⟨S8x8192, .i32⟩
  | 51 => ⟨S8x8192, .i1⟩
  | 52 => ⟨S_, .i32⟩
  | 53 => ⟨S_, .i1⟩
  | 54 => ⟨S8x8192, .i1⟩
  | 55 => ⟨S8x8192, .i1⟩
  | 56 => ⟨S8x8192, .i1⟩
  | 57 => ⟨S8x8192, .i32⟩
  | 58 => ⟨S8x8192, .i32⟩
  | 59 => ⟨S8x8192, .i32⟩
  | 60 => ⟨S8x8191, .i1⟩
  | 61 => ⟨S_, .i1⟩
  | 62 => ⟨S8x8192, .i1⟩
  | 63 => ⟨S8x8192, .i1⟩
  | 64 => ⟨S8x8191, .i32⟩
  | 65 => ⟨S_, .i32⟩
  | 66 => ⟨S_, .i32⟩
  | 67 => ⟨S8x8192, .i32⟩
  | 68 => ⟨S_, .i32⟩
  | 69 => ⟨S8x8192, .i32⟩
  | 70 => ⟨S8x8192, .i32⟩
  | 71 => ⟨S8x8192, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S8x8192, .i32⟩
  | 79 => ⟨S8x8192, .i32⟩
  | 80 => ⟨S_, .i32⟩
  | 81 => ⟨S8x8192, .i32⟩
  | 82 => ⟨S8x8192, .i1⟩
  | 83 => ⟨S_, .i32⟩
  | 84 => ⟨S8x8192, .i32⟩
  | 85 => ⟨S8x8192, .i1⟩
  | 86 => ⟨S_, .i32⟩
  | 87 => ⟨S_, .i1⟩
  | 88 => ⟨S8x8192, .i1⟩
  | 89 => ⟨S8x8192, .i1⟩
  | 90 => ⟨S8x8192, .i1⟩
  | 91 => ⟨S8x8192, .i32⟩
  | 92 => ⟨S8x8192, .i32⟩
  | 93 => ⟨S8x8192, .i32⟩
  | 94 => ⟨S8x8191, .i1⟩
  | 95 => ⟨S_, .i1⟩
  | 96 => ⟨S8x8192, .i1⟩
  | 97 => ⟨S8x8192, .i1⟩
  | 98 => ⟨S_, .i32⟩
  | 99 => ⟨S_, .i32⟩
  | 100 => ⟨S8x8192, .i32⟩
  | 101 => ⟨S8x8192, .i32⟩
  | 102 => ⟨S8x8191, .i32⟩
  | 103 => ⟨S_, .i32⟩
  | 104 => ⟨S_, .i32⟩
  | 105 => ⟨S8x8192, .i32⟩
  | 106 => ⟨S_, .i32⟩
  | 107 => ⟨S8x8192, .i32⟩
  | 108 => ⟨S8x8192, .i32⟩
  | 109 => ⟨S8x8192, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S8x8192, .i32⟩
  | 117 => ⟨S8x8192, .i32⟩
  | 118 => ⟨S_, .i32⟩
  | 119 => ⟨S8x8192, .i32⟩
  | 120 => ⟨S8x8192, .i1⟩
  | 121 => ⟨S_, .i32⟩
  | 122 => ⟨S8x8192, .i32⟩
  | 123 => ⟨S8x8192, .i1⟩
  | 124 => ⟨S_, .i32⟩
  | 125 => ⟨S_, .i1⟩
  | 126 => ⟨S8x8192, .i1⟩
  | 127 => ⟨S8x8192, .i1⟩
  | _ => ⟨S8x8192, .i32⟩

abbrev hbmTy0_1 (i : Nat) : BufTy := match i % 128 with
  | 0 => ⟨S8x8192, .i1⟩
  | 1 => ⟨S8x8192, .i32⟩
  | 2 => ⟨S8x8192, .i32⟩
  | 3 => ⟨S8x8192, .i32⟩
  | 4 => ⟨S8x8191, .i1⟩
  | 5 => ⟨S_, .i1⟩
  | 6 => ⟨S8x8192, .i1⟩
  | 7 => ⟨S8x8192, .i1⟩
  | 8 => ⟨S_, .i32⟩
  | 9 => ⟨S_, .i32⟩
  | 10 => ⟨S8x8192, .i32⟩
  | 11 => ⟨S8x8192, .i32⟩
  | 12 => ⟨S8x8191, .i32⟩
  | 13 => ⟨S_, .i32⟩
  | 14 => ⟨S_, .i32⟩
  | 15 => ⟨S8x8192, .i32⟩
  | 16 => ⟨S_, .i32⟩
  | 17 => ⟨S8x8192, .i32⟩
  | 18 => ⟨S8x8192, .i32⟩
  | 19 => ⟨S8x8192, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S8x8192, .i32⟩
  | 27 => ⟨S8x8192, .i32⟩
  | 28 => ⟨S_, .i32⟩
  | 29 => ⟨S8x8192, .i32⟩
  | 30 => ⟨S8x8192, .i1⟩
  | 31 => ⟨S_, .i32⟩
  | 32 => ⟨S8x8192, .i32⟩
  | 33 => ⟨S8x8192, .i1⟩
  | 34 => ⟨S_, .i32⟩
  | 35 => ⟨S_, .i1⟩
  | 36 => ⟨S8x8192, .i1⟩
  | 37 => ⟨S8x8192, .i1⟩
  | 38 => ⟨S8x8192, .i1⟩
  | 39 => ⟨S8x8192, .i32⟩
  | 40 => ⟨S8x8192, .i32⟩
  | 41 => ⟨S8x8192, .i32⟩
  | 42 => ⟨S8x8191, .i1⟩
  | 43 => ⟨S_, .i1⟩
  | 44 => ⟨S8x8192, .i1⟩
  | 45 => ⟨S8x8192, .i1⟩
  | 46 => ⟨S_, .i32⟩
  | 47 => ⟨S_, .i32⟩
  | 48 => ⟨S8x8192, .i32⟩
  | 49 => ⟨S8x8192, .i32⟩
  | 50 => ⟨S8x8191, .i32⟩
  | 51 => ⟨S_, .i32⟩
  | 52 => ⟨S_, .i32⟩
  | 53 => ⟨S8x8192, .i32⟩
  | 54 => ⟨S_, .i32⟩
  | 55 => ⟨S8x8192, .i32⟩
  | 56 => ⟨S8x8192, .i32⟩
  | 57 => ⟨S8x8192, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S8x8192, .i32⟩
  | 65 => ⟨S8x8192, .i32⟩
  | 66 => ⟨S_, .i32⟩
  | 67 => ⟨S8x8192, .i32⟩
  | 68 => ⟨S8x8192, .i1⟩
  | 69 => ⟨S_, .i32⟩
  | 70 => ⟨S8x8192, .i32⟩
  | 71 => ⟨S8x8192, .i1⟩
  | 72 => ⟨S_, .i32⟩
  | 73 => ⟨S_, .i1⟩
  | 74 => ⟨S8x8192, .i1⟩
  | 75 => ⟨S8x8192, .i1⟩
  | 76 => ⟨S8x8192, .i1⟩
  | 77 => ⟨S8x8192, .i32⟩
  | 78 => ⟨S8x8192, .i32⟩
  | 79 => ⟨S8x8192, .i32⟩
  | 80 => ⟨S8x8191, .i1⟩
  | 81 => ⟨S_, .i1⟩
  | 82 => ⟨S8x8192, .i1⟩
  | 83 => ⟨S8x8192, .i1⟩
  | 84 => ⟨S_, .i32⟩
  | 85 => ⟨S_, .i32⟩
  | 86 => ⟨S8x8192, .i32⟩
  | 87 => ⟨S8x8192, .i32⟩
  | 88 => ⟨S8x8191, .i32⟩
  | 89 => ⟨S_, .i32⟩
  | 90 => ⟨S_, .i32⟩
  | 91 => ⟨S8x8192, .i32⟩
  | 92 => ⟨S_, .i32⟩
  | 93 => ⟨S8x8192, .i32⟩
  | 94 => ⟨S8x8192, .i32⟩
  | 95 => ⟨S8x8192, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S8x8192, .i32⟩
  | 103 => ⟨S8x8192, .i32⟩
  | 104 => ⟨S_, .i32⟩
  | 105 => ⟨S8x8192, .i32⟩
  | 106 => ⟨S8x8192, .i1⟩
  | 107 => ⟨S_, .i32⟩
  | 108 => ⟨S8x8192, .i32⟩
  | 109 => ⟨S8x8192, .i1⟩
  | 110 => ⟨S_, .i32⟩
  | 111 => ⟨S_, .i1⟩
  | 112 => ⟨S8x8192, .i1⟩
  | 113 => ⟨S8x8192, .i1⟩
  | 114 => ⟨S8x8192, .i1⟩
  | 115 => ⟨S8x8192, .i32⟩
  | 116 => ⟨S8x8192, .i32⟩
  | 117 => ⟨S8x8192, .i32⟩
  | 118 => ⟨S8x8191, .i1⟩
  | 119 => ⟨S_, .i1⟩
  | 120 => ⟨S8x8192, .i1⟩
  | 121 => ⟨S8x8192, .i1⟩
  | 122 => ⟨S_, .i32⟩
  | 123 => ⟨S_, .i32⟩
  | 124 => ⟨S8x8192, .i32⟩
  | 125 => ⟨S8x8192, .i32⟩
  | 126 => ⟨S8x8191, .i32⟩
  | 127 => ⟨S_, .i32⟩
  | _ => ⟨S8x8192, .i32⟩

abbrev hbmTy0_2 (i : Nat) : BufTy := match i % 128 with
  | 0 => ⟨S_, .i32⟩
  | 1 => ⟨S8x8192, .i32⟩
  | 2 => ⟨S_, .i32⟩
  | 3 => ⟨S8x8192, .i32⟩
  | 4 => ⟨S8x8192, .i32⟩
  | 5 => ⟨S8x8192, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S8x8192, .i32⟩
  | 13 => ⟨S8x8192, .i32⟩
  | 14 => ⟨S_, .i32⟩
  | 15 => ⟨S8x8192, .i32⟩
  | 16 => ⟨S8x8192, .i1⟩
  | 17 => ⟨S_, .i32⟩
  | 18 => ⟨S8x8192, .i32⟩
  | 19 => ⟨S8x8192, .i1⟩
  | 20 => ⟨S_, .i32⟩
  | 21 => ⟨S_, .i1⟩
  | 22 => ⟨S8x8192, .i1⟩
  | 23 => ⟨S8x8192, .i1⟩
  | 24 => ⟨S8x8192, .i1⟩
  | 25 => ⟨S8x8192, .i32⟩
  | 26 => ⟨S8x8192, .i32⟩
  | 27 => ⟨S8x8192, .i32⟩
  | 28 => ⟨S8x8191, .i1⟩
  | 29 => ⟨S_, .i1⟩
  | 30 => ⟨S8x8192, .i1⟩
  | 31 => ⟨S8x8192, .i1⟩
  | 32 => ⟨S_, .i32⟩
  | 33 => ⟨S_, .i32⟩
  | 34 => ⟨S8x8192, .i32⟩
  | 35 => ⟨S8x8192, .i32⟩
  | 36 => ⟨S8x8191, .i32⟩
  | 37 => ⟨S_, .i32⟩
  | 38 => ⟨S_, .i32⟩
  | 39 => ⟨S8x8192, .i32⟩
  | 40 => ⟨S_, .i32⟩
  | 41 => ⟨S8x8192, .i32⟩
  | 42 => ⟨S8x8192, .i32⟩
  | 43 => ⟨S8x8192, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S8x8192, .i32⟩
  | 51 => ⟨S8x8192, .i32⟩
  | 52 => ⟨S_, .i32⟩
  | 53 => ⟨S8x8192, .i32⟩
  | 54 => ⟨S8x8192, .i1⟩
  | 55 => ⟨S_, .i32⟩
  | 56 => ⟨S8x8192, .i32⟩
  | 57 => ⟨S8x8192, .i1⟩
  | 58 => ⟨S_, .i32⟩
  | 59 => ⟨S_, .i1⟩
  | 60 => ⟨S8x8192, .i1⟩
  | 61 => ⟨S8x8192, .i1⟩
  | 62 => ⟨S8x8192, .i1⟩
  | 63 => ⟨S8x8192, .i32⟩
  | 64 => ⟨S8x8192, .i32⟩
  | 65 => ⟨S8x8192, .i32⟩
  | 66 => ⟨S8x8191, .i1⟩
  | 67 => ⟨S_, .i1⟩
  | 68 => ⟨S8x8192, .i1⟩
  | 69 => ⟨S8x8192, .i1⟩
  | 70 => ⟨S_, .i32⟩
  | 71 => ⟨S_, .i32⟩
  | 72 => ⟨S8x8192, .i32⟩
  | 73 => ⟨S8x8192, .i32⟩
  | 74 => ⟨S8x8191, .i32⟩
  | 75 => ⟨S_, .i32⟩
  | 76 => ⟨S_, .i32⟩
  | 77 => ⟨S8x8192, .i32⟩
  | 78 => ⟨S_, .i32⟩
  | 79 => ⟨S8x8192, .i32⟩
  | 80 => ⟨S8x8192, .i32⟩
  | 81 => ⟨S8x8192, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S8x8192, .i32⟩
  | 89 => ⟨S8x8192, .i32⟩
  | 90 => ⟨S_, .i32⟩
  | 91 => ⟨S8x8192, .i32⟩
  | 92 => ⟨S8x8192, .i1⟩
  | 93 => ⟨S_, .i32⟩
  | 94 => ⟨S8x8192, .i32⟩
  | 95 => ⟨S8x8192, .i1⟩
  | 96 => ⟨S_, .i32⟩
  | 97 => ⟨S_, .i1⟩
  | 98 => ⟨S8x8192, .i1⟩
  | 99 => ⟨S8x8192, .i1⟩
  | 100 => ⟨S8x8192, .i1⟩
  | 101 => ⟨S8x8192, .i32⟩
  | 102 => ⟨S8x8192, .i32⟩
  | 103 => ⟨S8x8192, .i32⟩
  | 104 => ⟨S8x8191, .i1⟩
  | 105 => ⟨S_, .i1⟩
  | 106 => ⟨S8x8192, .i1⟩
  | 107 => ⟨S8x8192, .i1⟩
  | 108 => ⟨S_, .i32⟩
  | 109 => ⟨S_, .i32⟩
  | 110 => ⟨S8x8192, .i32⟩
  | 111 => ⟨S8x8192, .i32⟩
  | 112 => ⟨S8x8191, .i32⟩
  | 113 => ⟨S_, .i32⟩
  | 114 => ⟨S_, .i32⟩
  | 115 => ⟨S8x8192, .i32⟩
  | 116 => ⟨S_, .i32⟩
  | 117 => ⟨S8x8192, .i32⟩
  | 118 => ⟨S8x8192, .i32⟩
  | 119 => ⟨S8x8192, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S8x8192, .i32⟩
  | 127 => ⟨S8x8192, .i32⟩
  | _ => ⟨S8x8192, .i32⟩

abbrev hbmTy0_3 (i : Nat) : BufTy := match i % 128 with
  | 0 => ⟨S_, .i32⟩
  | 1 => ⟨S8x8192, .i32⟩
  | 2 => ⟨S8x8192, .i1⟩
  | 3 => ⟨S_, .i32⟩
  | 4 => ⟨S8x8192, .i32⟩
  | 5 => ⟨S8x8192, .i1⟩
  | 6 => ⟨S_, .i32⟩
  | 7 => ⟨S_, .i1⟩
  | 8 => ⟨S8x8192, .i1⟩
  | 9 => ⟨S8x8192, .i1⟩
  | 10 => ⟨S8x8192, .i1⟩
  | 11 => ⟨S8x8192, .i32⟩
  | 12 => ⟨S8x8192, .i32⟩
  | 13 => ⟨S8x8192, .i32⟩
  | 14 => ⟨S8x8191, .i1⟩
  | 15 => ⟨S_, .i1⟩
  | 16 => ⟨S8x8192, .i1⟩
  | 17 => ⟨S8x8192, .i1⟩
  | 18 => ⟨S_, .i32⟩
  | 19 => ⟨S_, .i32⟩
  | 20 => ⟨S8x8192, .i32⟩
  | 21 => ⟨S8x8192, .i32⟩
  | 22 => ⟨S8x8191, .i32⟩
  | 23 => ⟨S_, .i32⟩
  | 24 => ⟨S_, .i32⟩
  | 25 => ⟨S8x8192, .i32⟩
  | 26 => ⟨S_, .i32⟩
  | 27 => ⟨S8x8192, .i32⟩
  | 28 => ⟨S8x8192, .i32⟩
  | 29 => ⟨S8x8192, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S8x8192, .i32⟩
  | 37 => ⟨S8x8192, .i32⟩
  | 38 => ⟨S_, .i32⟩
  | 39 => ⟨S8x8192, .i32⟩
  | 40 => ⟨S8x8192, .i1⟩
  | 41 => ⟨S_, .i32⟩
  | 42 => ⟨S8x8192, .i32⟩
  | 43 => ⟨S8x8192, .i1⟩
  | 44 => ⟨S_, .i32⟩
  | 45 => ⟨S_, .i1⟩
  | 46 => ⟨S8x8192, .i1⟩
  | 47 => ⟨S8x8192, .i1⟩
  | 48 => ⟨S8x8192, .i1⟩
  | 49 => ⟨S8x8192, .i32⟩
  | 50 => ⟨S8x8192, .i32⟩
  | 51 => ⟨S8x8192, .i32⟩
  | 52 => ⟨S8x8191, .i1⟩
  | 53 => ⟨S_, .i1⟩
  | 54 => ⟨S8x8192, .i1⟩
  | 55 => ⟨S8x8192, .i1⟩
  | 56 => ⟨S_, .i32⟩
  | 57 => ⟨S_, .i32⟩
  | 58 => ⟨S8x8192, .i32⟩
  | 59 => ⟨S8x8192, .i32⟩
  | 60 => ⟨S8x8191, .i32⟩
  | 61 => ⟨S_, .i32⟩
  | 62 => ⟨S_, .i32⟩
  | 63 => ⟨S8x8192, .i32⟩
  | 64 => ⟨S_, .i32⟩
  | 65 => ⟨S8x8192, .i32⟩
  | 66 => ⟨S8x8192, .i32⟩
  | 67 => ⟨S8x8192, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S8x8192, .i32⟩
  | 75 => ⟨S8x8192, .i32⟩
  | 76 => ⟨S_, .i32⟩
  | 77 => ⟨S8x8192, .i32⟩
  | 78 => ⟨S8x8192, .i1⟩
  | 79 => ⟨S_, .i32⟩
  | 80 => ⟨S8x8192, .i32⟩
  | 81 => ⟨S8x8192, .i1⟩
  | 82 => ⟨S_, .i32⟩
  | 83 => ⟨S_, .i1⟩
  | 84 => ⟨S8x8192, .i1⟩
  | 85 => ⟨S8x8192, .i1⟩
  | 86 => ⟨S8x8192, .i1⟩
  | 87 => ⟨S8x8192, .i32⟩
  | 88 => ⟨S8x8192, .i32⟩
  | 89 => ⟨S8x8192, .i32⟩
  | 90 => ⟨S8x8191, .i1⟩
  | 91 => ⟨S_, .i1⟩
  | 92 => ⟨S8x8192, .i1⟩
  | 93 => ⟨S8x8192, .i1⟩
  | 94 => ⟨S_, .i32⟩
  | 95 => ⟨S_, .i32⟩
  | 96 => ⟨S8x8192, .i32⟩
  | 97 => ⟨S8x8192, .i32⟩
  | 98 => ⟨S8x8191, .i32⟩
  | 99 => ⟨S_, .i32⟩
  | 100 => ⟨S_, .i32⟩
  | 101 => ⟨S8x8192, .i32⟩
  | 102 => ⟨S_, .i32⟩
  | 103 => ⟨S8x8192, .i32⟩
  | 104 => ⟨S8x8192, .i32⟩
  | 105 => ⟨S8x8192, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S8x8192, .i32⟩
  | 113 => ⟨S8x8192, .i32⟩
  | 114 => ⟨S_, .i32⟩
  | 115 => ⟨S8x8192, .i32⟩
  | 116 => ⟨S8x8192, .i1⟩
  | 117 => ⟨S_, .i32⟩
  | 118 => ⟨S8x8192, .i32⟩
  | 119 => ⟨S8x8192, .i1⟩
  | 120 => ⟨S_, .i32⟩
  | 121 => ⟨S_, .i1⟩
  | 122 => ⟨S8x8192, .i1⟩
  | 123 => ⟨S8x8192, .i1⟩
  | 124 => ⟨S8x8192, .i1⟩
  | 125 => ⟨S8x8192, .i32⟩
  | 126 => ⟨S8x8192, .i32⟩
  | 127 => ⟨S8x8192, .i32⟩
  | _ => ⟨S8x8192, .i32⟩

abbrev hbmTy0_4 (i : Nat) : BufTy := match i % 128 with
  | 0 => ⟨S8x8191, .i1⟩
  | 1 => ⟨S_, .i1⟩
  | 2 => ⟨S8x8192, .i1⟩
  | 3 => ⟨S8x8192, .i1⟩
  | 4 => ⟨S_, .i32⟩
  | 5 => ⟨S_, .i32⟩
  | 6 => ⟨S8x8192, .i32⟩
  | 7 => ⟨S8x8192, .i32⟩
  | 8 => ⟨S8x8191, .i32⟩
  | 9 => ⟨S_, .i32⟩
  | 10 => ⟨S_, .i32⟩
  | 11 => ⟨S8x8192, .i32⟩
  | 12 => ⟨S_, .i32⟩
  | 13 => ⟨S8x8192, .i32⟩
  | 14 => ⟨S8x8192, .i32⟩
  | 15 => ⟨S8x8192, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S8x8192, .i32⟩
  | 23 => ⟨S8x8192, .i32⟩
  | 24 => ⟨S_, .i32⟩
  | 25 => ⟨S8x8192, .i32⟩
  | 26 => ⟨S8x8192, .i1⟩
  | 27 => ⟨S_, .i32⟩
  | 28 => ⟨S8x8192, .i32⟩
  | 29 => ⟨S8x8192, .i1⟩
  | 30 => ⟨S_, .i32⟩
  | 31 => ⟨S_, .i1⟩
  | 32 => ⟨S8x8192, .i1⟩
  | 33 => ⟨S8x8192, .i1⟩
  | 34 => ⟨S8x8192, .i1⟩
  | 35 => ⟨S8x8192, .i32⟩
  | 36 => ⟨S8x8192, .i32⟩
  | 37 => ⟨S8x8192, .i32⟩
  | 38 => ⟨S8x8191, .i1⟩
  | 39 => ⟨S_, .i1⟩
  | 40 => ⟨S8x8192, .i1⟩
  | 41 => ⟨S8x8192, .i1⟩
  | 42 => ⟨S_, .i32⟩
  | 43 => ⟨S_, .i32⟩
  | 44 => ⟨S8x8192, .i32⟩
  | 45 => ⟨S8x8192, .i32⟩
  | 46 => ⟨S8x8191, .i32⟩
  | 47 => ⟨S_, .i32⟩
  | 48 => ⟨S_, .i32⟩
  | 49 => ⟨S8x8192, .i32⟩
  | 50 => ⟨S_, .i32⟩
  | 51 => ⟨S8x8192, .i32⟩
  | 52 => ⟨S8x8192, .i32⟩
  | 53 => ⟨S8x8192, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S8x8192, .i32⟩
  | 61 => ⟨S8x8192, .i32⟩
  | 62 => ⟨S_, .i32⟩
  | 63 => ⟨S8x8192, .i32⟩
  | 64 => ⟨S8x8192, .i1⟩
  | 65 => ⟨S_, .i32⟩
  | 66 => ⟨S8x8192, .i32⟩
  | 67 => ⟨S8x8192, .i1⟩
  | 68 => ⟨S_, .i32⟩
  | 69 => ⟨S_, .i1⟩
  | 70 => ⟨S8x8192, .i1⟩
  | 71 => ⟨S8x8192, .i1⟩
  | 72 => ⟨S8x8192, .i1⟩
  | 73 => ⟨S8x8192, .i32⟩
  | 74 => ⟨S8x8192, .i32⟩
  | 75 => ⟨S8x8192, .i32⟩
  | 76 => ⟨S8x8191, .i1⟩
  | 77 => ⟨S_, .i1⟩
  | 78 => ⟨S8x8192, .i1⟩
  | 79 => ⟨S8x8192, .i1⟩
  | 80 => ⟨S_, .i32⟩
  | 81 => ⟨S_, .i32⟩
  | 82 => ⟨S8x8192, .i32⟩
  | 83 => ⟨S8x8192, .i32⟩
  | 84 => ⟨S8x8191, .i32⟩
  | 85 => ⟨S_, .i32⟩
  | 86 => ⟨S_, .i32⟩
  | 87 => ⟨S8x8192, .i32⟩
  | 88 => ⟨S_, .i32⟩
  | 89 => ⟨S8x8192, .i32⟩
  | 90 => ⟨S8x8192, .i32⟩
  | 91 => ⟨S8x8192, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S8x8192, .i32⟩
  | 99 => ⟨S8x8192, .i32⟩
  | 100 => ⟨S_, .i32⟩
  | 101 => ⟨S8x8192, .i32⟩
  | 102 => ⟨S8x8192, .i1⟩
  | 103 => ⟨S_, .i32⟩
  | 104 => ⟨S8x8192, .i32⟩
  | 105 => ⟨S8x8192, .i1⟩
  | 106 => ⟨S_, .i32⟩
  | 107 => ⟨S_, .i1⟩
  | 108 => ⟨S8x8192, .i1⟩
  | 109 => ⟨S8x8192, .i1⟩
  | 110 => ⟨S8x8192, .i1⟩
  | 111 => ⟨S8x8192, .i32⟩
  | 112 => ⟨S8x8192, .i32⟩
  | 113 => ⟨S8x8192, .i32⟩
  | 114 => ⟨S8x8191, .i1⟩
  | 115 => ⟨S_, .i1⟩
  | 116 => ⟨S8x8192, .i1⟩
  | 117 => ⟨S8x8192, .i1⟩
  | 118 => ⟨S_, .i32⟩
  | 119 => ⟨S_, .i32⟩
  | 120 => ⟨S8x8192, .i32⟩
  | 121 => ⟨S8x8192, .i32⟩
  | 122 => ⟨S8x8191, .i32⟩
  | 123 => ⟨S_, .i32⟩
  | 124 => ⟨S_, .i32⟩
  | 125 => ⟨S8x8192, .i32⟩
  | 126 => ⟨S_, .i32⟩
  | 127 => ⟨S8x8192, .i32⟩
  | _ => ⟨S8x8192, .i32⟩

abbrev hbmTy0_5 (i : Nat) : BufTy := match i % 128 with
  | 0 => ⟨S8x8192, .i32⟩
  | 1 => ⟨S8x8192, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S8x8192, .i32⟩
  | 9 => ⟨S8x8192, .i32⟩
  | 10 => ⟨S_, .i32⟩
  | 11 => ⟨S8x8192, .i32⟩
  | 12 => ⟨S8x8192, .i1⟩
  | 13 => ⟨S_, .i32⟩
  | 14 => ⟨S8x8192, .i32⟩
  | 15 => ⟨S8x8192, .i1⟩
  | 16 => ⟨S_, .i32⟩
  | 17 => ⟨S_, .i1⟩
  | 18 => ⟨S8x8192, .i1⟩
  | 19 => ⟨S8x8192, .i1⟩
  | 20 => ⟨S8x8192, .i1⟩
  | 21 => ⟨S8x8192, .i32⟩
  | 22 => ⟨S8x8192, .i32⟩
  | 23 => ⟨S8x8192, .i32⟩
  | 24 => ⟨S8x8191, .i1⟩
  | 25 => ⟨S_, .i1⟩
  | 26 => ⟨S8x8192, .i1⟩
  | 27 => ⟨S8x8192, .i1⟩
  | 28 => ⟨S_, .i32⟩
  | 29 => ⟨S_, .i32⟩
  | 30 => ⟨S8x8192, .i32⟩
  | 31 => ⟨S8x8192, .i32⟩
  | 32 => ⟨S8x8191, .i32⟩
  | 33 => ⟨S_, .i32⟩
  | 34 => ⟨S_, .i32⟩
  | 35 => ⟨S8x8192, .i32⟩
  | 36 => ⟨S_, .i32⟩
  | 37 => ⟨S8x8192, .i32⟩
  | 38 => ⟨S8x8192, .i32⟩
  | 39 => ⟨S8x8192, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S8x8192, .i32⟩
  | 47 => ⟨S8x8192, .i32⟩
  | 48 => ⟨S_, .i32⟩
  | 49 => ⟨S8x8192, .i32⟩
  | 50 => ⟨S8x8192, .i1⟩
  | 51 => ⟨S_, .i32⟩
  | 52 => ⟨S8x8192, .i32⟩
  | 53 => ⟨S8x8192, .i1⟩
  | 54 => ⟨S_, .i32⟩
  | 55 => ⟨S_, .i1⟩
  | 56 => ⟨S8x8192, .i1⟩
  | 57 => ⟨S8x8192, .i1⟩
  | 58 => ⟨S8x8192, .i1⟩
  | 59 => ⟨S8x8192, .i32⟩
  | 60 => ⟨S8x8192, .i32⟩
  | 61 => ⟨S8x8192, .i32⟩
  | 62 => ⟨S8x8191, .i1⟩
  | 63 => ⟨S_, .i1⟩
  | 64 => ⟨S8x8192, .i1⟩
  | 65 => ⟨S8x8192, .i1⟩
  | 66 => ⟨S_, .i32⟩
  | 67 => ⟨S_, .i32⟩
  | 68 => ⟨S8x8192, .i32⟩
  | 69 => ⟨S8x8192, .i32⟩
  | 70 => ⟨S8x8191, .i32⟩
  | 71 => ⟨S_, .i32⟩
  | 72 => ⟨S_, .i32⟩
  | 73 => ⟨S8x8192, .i32⟩
  | 74 => ⟨S_, .i32⟩
  | 75 => ⟨S8x8192, .i32⟩
  | 76 => ⟨S8x8192, .i32⟩
  | 77 => ⟨S8x8192, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S8x8192, .i32⟩
  | 85 => ⟨S8x8192, .i32⟩
  | 86 => ⟨S_, .i32⟩
  | 87 => ⟨S8x8192, .i32⟩
  | 88 => ⟨S8x8192, .i1⟩
  | 89 => ⟨S_, .i32⟩
  | 90 => ⟨S8x8192, .i32⟩
  | 91 => ⟨S8x8192, .i1⟩
  | 92 => ⟨S_, .i32⟩
  | 93 => ⟨S_, .i1⟩
  | 94 => ⟨S8x8192, .i1⟩
  | 95 => ⟨S8x8192, .i1⟩
  | 96 => ⟨S8x8192, .i1⟩
  | 97 => ⟨S8x8192, .i32⟩
  | 98 => ⟨S8x8192, .i32⟩
  | 99 => ⟨S8x8192, .i32⟩
  | 100 => ⟨S8x8191, .i1⟩
  | 101 => ⟨S_, .i1⟩
  | 102 => ⟨S8x8192, .i1⟩
  | 103 => ⟨S8x8192, .i1⟩
  | 104 => ⟨S_, .i32⟩
  | 105 => ⟨S_, .i32⟩
  | 106 => ⟨S8x8192, .i32⟩
  | 107 => ⟨S8x8192, .i32⟩
  | 108 => ⟨S1x8x8192, .i32⟩
  | 109 => ⟨S1x8x8192, .i32⟩
  | 110 => ⟨S1x8x8192, .i32⟩
  | 111 => ⟨S1x8x8192, .i32⟩
  | 112 => ⟨S1x8x8192, .i32⟩
  | 113 => ⟨S1x8x8192, .i32⟩
  | 114 => ⟨S1x8x8192, .i32⟩
  | 115 => ⟨S1x8x8192, .i32⟩
  | 116 => ⟨S1x8x8192, .i32⟩
  | 117 => ⟨S1x8x8192, .i32⟩
  | 118 => ⟨S1x8x8192, .i32⟩
  | 119 => ⟨S1x8x8192, .i32⟩
  | 120 => ⟨S1x8x8192, .i32⟩
  | 121 => ⟨S1x8x8192, .i32⟩
  | 122 => ⟨S1x8x8192, .i32⟩
  | 123 => ⟨S1x8x8192, .i32⟩
  | 124 => ⟨S1x8x8192, .i32⟩
  | 125 => ⟨S1x8x8192, .i32⟩
  | 126 => ⟨S16x8x8192, .i32⟩
  | 127 => ⟨S2x8x8192, .i32⟩
  | _ => ⟨S8x8192, .i32⟩

abbrev hbmTy0_6 (i : Nat) : BufTy := match i % 128 with
  | 0 => ⟨S18x8x8192, .i32⟩
  | 1 => ⟨S_, .i32⟩
  | 2 => ⟨S_, .f32⟩
  | 3 => ⟨S18x4224x256, .f32⟩
  | 4 => ⟨S18x4224x256, .bf16⟩
  | 5 => ⟨S8x8192x256, .f32⟩
  | _ => ⟨S8x8192, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8x8192, .i32⟩

abbrev bufTy : (tb : Table) → Fin (tcTables nBuf tb) → BufTy
  | .hbm, ⟨i, _⟩ => hbmTy i
  | .local _ .vmem, ⟨0, _⟩ => ⟨S1x8x128, .i32⟩
  | .local _ .vmem, ⟨1, _⟩ => ⟨S1x8x128, .i32⟩
  | .local _ .vmem, ⟨2, _⟩ => ⟨S1x4224x256, .bf16⟩
  | .local _ .vmem, ⟨3, _⟩ => ⟨S1x4224x256, .bf16⟩
  | .local _ .vmem, ⟨4, _⟩ => ⟨S8x128x256, .f32⟩
  | .local _ .vmem, ⟨5, _⟩ => ⟨S8x128x256, .f32⟩
  | .local _ .vmem, ⟨6, _⟩ => ⟨S8x128x256, .f32⟩
  | _, _ => ⟨S8x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_c_2 : Ref sig .tc := ⟨.hbm, 6, rfl⟩
abbrev main_v1 : Ref sig .tc := ⟨.hbm, 7, rfl⟩
abbrev main_v2 : Ref sig .tc := ⟨.hbm, 8, rfl⟩
abbrev main_c_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_4 : Ref sig .tc := ⟨.hbm, 15, rfl⟩
abbrev main_v8 : Ref sig .tc := ⟨.hbm, 16, rfl⟩
abbrev main_v9 : Ref sig .tc := ⟨.hbm, 17, rfl⟩
abbrev main_c_5 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_6 : Ref sig .tc := ⟨.hbm, 24, rfl⟩
abbrev main_v15 : Ref sig .tc := ⟨.hbm, 25, rfl⟩
abbrev main_v16 : Ref sig .tc := ⟨.hbm, 26, rfl⟩
abbrev main_c_7 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_8 : Ref sig .tc := ⟨.hbm, 31, rfl⟩
abbrev main_call0_v0 : Ref sig .tc := ⟨.hbm, 32, rfl⟩
abbrev main_v20 : Ref sig .tc := ⟨.hbm, 33, rfl⟩
abbrev main_c_9 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_10 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_v5 : Ref sig .tc := ⟨.hbm, 47, rfl⟩
abbrev main_call1_v6 : Ref sig .tc := ⟨.hbm, 48, rfl⟩
abbrev main_call1_c_2 : Ref sig .tc := ⟨.hbm, 49, rfl⟩
abbrev main_call1_v7 : Ref sig .tc := ⟨.hbm, 50, rfl⟩
abbrev main_call1_v8 : Ref sig .tc := ⟨.hbm, 51, rfl⟩
abbrev main_call1_c_3 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_v24 : Ref sig .tc := ⟨.hbm, 59, rfl⟩
abbrev main_v25 : Ref sig .tc := ⟨.hbm, 60, rfl⟩
abbrev main_c_11 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_c_12 : Ref sig .tc := ⟨.hbm, 65, rfl⟩
abbrev main_call3_v0 : Ref sig .tc := ⟨.hbm, 66, rfl⟩
abbrev main_v29 : Ref sig .tc := ⟨.hbm, 67, rfl⟩
abbrev main_c_13 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_c_14 : Ref sig .tc := ⟨.hbm, 72, rfl⟩
abbrev main_call4_v0 : Ref sig .tc := ⟨.hbm, 73, rfl⟩
abbrev main_call4_c : Ref sig .tc := ⟨.hbm, 74, rfl⟩
abbrev main_call4_v1 : Ref sig .tc := ⟨.hbm, 75, rfl⟩
abbrev main_call4_c_0 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_call4_c_1 : Ref sig .tc := ⟨.hbm, 80, rfl⟩
abbrev main_call4_v5 : Ref sig .tc := ⟨.hbm, 81, rfl⟩
abbrev main_call4_v6 : Ref sig .tc := ⟨.hbm, 82, rfl⟩
abbrev main_call4_c_2 : Ref sig .tc := ⟨.hbm, 83, rfl⟩
abbrev main_call4_v7 : Ref sig .tc := ⟨.hbm, 84, rfl⟩
abbrev main_call4_v8 : Ref sig .tc := ⟨.hbm, 85, rfl⟩
abbrev main_call4_c_3 : Ref sig .tc := ⟨.hbm, 86, rfl⟩
abbrev main_call4_v9 : Ref sig .tc := ⟨.hbm, 87, rfl⟩
abbrev main_call4_v10 : Ref sig .tc := ⟨.hbm, 88, rfl⟩
abbrev main_call4_v11 : Ref sig .tc := ⟨.hbm, 89, rfl⟩
abbrev main_call4_v12 : Ref sig .tc := ⟨.hbm, 90, rfl⟩
abbrev main_call4_v13 : Ref sig .tc := ⟨.hbm, 91, rfl⟩
abbrev main_call4_v14 : Ref sig .tc := ⟨.hbm, 92, rfl⟩
abbrev main_v33 : Ref sig .tc := ⟨.hbm, 93, rfl⟩
abbrev main_v34 : Ref sig .tc := ⟨.hbm, 94, rfl⟩
abbrev main_c_15 : Ref sig .tc := ⟨.hbm, 95, rfl⟩
abbrev main_v35 : Ref sig .tc := ⟨.hbm, 96, rfl⟩
abbrev main_v36 : Ref sig .tc := ⟨.hbm, 97, rfl⟩
abbrev main_c_16 : Ref sig .tc := ⟨.hbm, 98, rfl⟩
abbrev main_call6_v0 : Ref sig .tc := ⟨.hbm, 99, rfl⟩
abbrev main_call6_v1 : Ref sig .tc := ⟨.hbm, 100, rfl⟩
abbrev main_v37 : Ref sig .tc := ⟨.hbm, 101, rfl⟩
abbrev main_v38 : Ref sig .tc := ⟨.hbm, 102, rfl⟩
abbrev main_c_17 : Ref sig .tc := ⟨.hbm, 103, rfl⟩
abbrev main_call7_v0 : Ref sig .tc := ⟨.hbm, 104, rfl⟩
abbrev main_v39 : Ref sig .tc := ⟨.hbm, 105, rfl⟩
abbrev main_c_18 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_c_19 : Ref sig .tc := ⟨.hbm, 110, rfl⟩
abbrev main_call8_v0 : Ref sig .tc := ⟨.hbm, 111, rfl⟩
abbrev main_call8_c : Ref sig .tc := ⟨.hbm, 112, rfl⟩
abbrev main_call8_v1 : Ref sig .tc := ⟨.hbm, 113, rfl⟩
abbrev main_call8_c_0 : Ref sig .tc := ⟨.hbm, 114, rfl⟩
abbrev main_call8_v2 : Ref sig .tc := ⟨.hbm, 115, rfl⟩
abbrev main_call8_v3 : Ref sig .tc := ⟨.hbm, 116, rfl⟩
abbrev main_call8_v4 : Ref sig .tc := ⟨.hbm, 117, rfl⟩
abbrev main_call8_c_1 : Ref sig .tc := ⟨.hbm, 118, rfl⟩
abbrev main_call8_v5 : Ref sig .tc := ⟨.hbm, 119, rfl⟩
abbrev main_call8_v6 : Ref sig .tc := ⟨.hbm, 120, rfl⟩
abbrev main_call8_c_2 : Ref sig .tc := ⟨.hbm, 121, rfl⟩
abbrev main_call8_v7 : Ref sig .tc := ⟨.hbm, 122, rfl⟩
abbrev main_call8_v8 : Ref sig .tc := ⟨.hbm, 123, rfl⟩
abbrev main_call8_c_3 : Ref sig .tc := ⟨.hbm, 124, rfl⟩
abbrev main_call8_v9 : Ref sig .tc := ⟨.hbm, 125, rfl⟩
abbrev main_call8_v10 : Ref sig .tc := ⟨.hbm, 126, rfl⟩
abbrev main_call8_v11 : Ref sig .tc := ⟨.hbm, 127, rfl⟩
abbrev main_call8_v12 : Ref sig .tc := ⟨.hbm, 128, rfl⟩
abbrev main_call8_v13 : Ref sig .tc := ⟨.hbm, 129, rfl⟩
abbrev main_call8_v14 : Ref sig .tc := ⟨.hbm, 130, rfl⟩
abbrev main_v43 : Ref sig .tc := ⟨.hbm, 131, rfl⟩
abbrev main_v44 : Ref sig .tc := ⟨.hbm, 132, rfl⟩
abbrev main_c_20 : Ref sig .tc := ⟨.hbm, 133, rfl⟩
abbrev main_v45 : Ref sig .tc := ⟨.hbm, 134, rfl⟩
abbrev main_v46 : Ref sig .tc := ⟨.hbm, 135, rfl⟩
abbrev main_c_21 : Ref sig .tc := ⟨.hbm, 136, rfl⟩
abbrev main_call10_v0 : Ref sig .tc := ⟨.hbm, 137, rfl⟩
abbrev main_call10_v1 : Ref sig .tc := ⟨.hbm, 138, rfl⟩
abbrev main_v47 : Ref sig .tc := ⟨.hbm, 139, rfl⟩
abbrev main_v48 : Ref sig .tc := ⟨.hbm, 140, rfl⟩
abbrev main_c_22 : Ref sig .tc := ⟨.hbm, 141, rfl⟩
abbrev main_call11_v0 : Ref sig .tc := ⟨.hbm, 142, rfl⟩
abbrev main_v49 : Ref sig .tc := ⟨.hbm, 143, rfl⟩
abbrev main_c_23 : Ref sig .tc := ⟨.hbm, 144, rfl⟩
abbrev main_v50 : Ref sig .tc := ⟨.hbm, 145, rfl⟩
abbrev main_v51 : Ref sig .tc := ⟨.hbm, 146, rfl⟩
abbrev main_v52 : Ref sig .tc := ⟨.hbm, 147, rfl⟩
abbrev main_c_24 : Ref sig .tc := ⟨.hbm, 148, rfl⟩
abbrev main_call12_v0 : Ref sig .tc := ⟨.hbm, 149, rfl⟩
abbrev main_call12_c : Ref sig .tc := ⟨.hbm, 150, rfl⟩
abbrev main_call12_v1 : Ref sig .tc := ⟨.hbm, 151, rfl⟩
abbrev main_call12_c_0 : Ref sig .tc := ⟨.hbm, 152, rfl⟩
abbrev main_call12_v2 : Ref sig .tc := ⟨.hbm, 153, rfl⟩
abbrev main_call12_v3 : Ref sig .tc := ⟨.hbm, 154, rfl⟩
abbrev main_call12_v4 : Ref sig .tc := ⟨.hbm, 155, rfl⟩
abbrev main_call12_c_1 : Ref sig .tc := ⟨.hbm, 156, rfl⟩
abbrev main_call12_v5 : Ref sig .tc := ⟨.hbm, 157, rfl⟩
abbrev main_call12_v6 : Ref sig .tc := ⟨.hbm, 158, rfl⟩
abbrev main_call12_c_2 : Ref sig .tc := ⟨.hbm, 159, rfl⟩
abbrev main_call12_v7 : Ref sig .tc := ⟨.hbm, 160, rfl⟩
abbrev main_call12_v8 : Ref sig .tc := ⟨.hbm, 161, rfl⟩
abbrev main_call12_c_3 : Ref sig .tc := ⟨.hbm, 162, rfl⟩
abbrev main_call12_v9 : Ref sig .tc := ⟨.hbm, 163, rfl⟩
abbrev main_call12_v10 : Ref sig .tc := ⟨.hbm, 164, rfl⟩
abbrev main_call12_v11 : Ref sig .tc := ⟨.hbm, 165, rfl⟩
abbrev main_call12_v12 : Ref sig .tc := ⟨.hbm, 166, rfl⟩
abbrev main_call12_v13 : Ref sig .tc := ⟨.hbm, 167, rfl⟩
abbrev main_call12_v14 : Ref sig .tc := ⟨.hbm, 168, rfl⟩
abbrev main_v53 : Ref sig .tc := ⟨.hbm, 169, rfl⟩
abbrev main_v54 : Ref sig .tc := ⟨.hbm, 170, rfl⟩
abbrev main_c_25 : Ref sig .tc := ⟨.hbm, 171, rfl⟩
abbrev main_v55 : Ref sig .tc := ⟨.hbm, 172, rfl⟩
abbrev main_v56 : Ref sig .tc := ⟨.hbm, 173, rfl⟩
abbrev main_c_26 : Ref sig .tc := ⟨.hbm, 174, rfl⟩
abbrev main_call14_v0 : Ref sig .tc := ⟨.hbm, 175, rfl⟩
abbrev main_call14_v1 : Ref sig .tc := ⟨.hbm, 176, rfl⟩
abbrev main_v57 : Ref sig .tc := ⟨.hbm, 177, rfl⟩
abbrev main_v58 : Ref sig .tc := ⟨.hbm, 178, rfl⟩
abbrev main_c_27 : Ref sig .tc := ⟨.hbm, 179, rfl⟩
abbrev main_call15_v0 : Ref sig .tc := ⟨.hbm, 180, rfl⟩
abbrev main_v59 : Ref sig .tc := ⟨.hbm, 181, rfl⟩
abbrev main_c_28 : Ref sig .tc := ⟨.hbm, 182, rfl⟩
abbrev main_v60 : Ref sig .tc := ⟨.hbm, 183, rfl⟩
abbrev main_v61 : Ref sig .tc := ⟨.hbm, 184, rfl⟩
abbrev main_v62 : Ref sig .tc := ⟨.hbm, 185, rfl⟩
abbrev main_c_29 : Ref sig .tc := ⟨.hbm, 186, rfl⟩
abbrev main_call16_v0 : Ref sig .tc := ⟨.hbm, 187, rfl⟩
abbrev main_call16_c : Ref sig .tc := ⟨.hbm, 188, rfl⟩
abbrev main_call16_v1 : Ref sig .tc := ⟨.hbm, 189, rfl⟩
abbrev main_call16_c_0 : Ref sig .tc := ⟨.hbm, 190, rfl⟩
abbrev main_call16_v2 : Ref sig .tc := ⟨.hbm, 191, rfl⟩
abbrev main_call16_v3 : Ref sig .tc := ⟨.hbm, 192, rfl⟩
abbrev main_call16_v4 : Ref sig .tc := ⟨.hbm, 193, rfl⟩
abbrev main_call16_c_1 : Ref sig .tc := ⟨.hbm, 194, rfl⟩
abbrev main_call16_v5 : Ref sig .tc := ⟨.hbm, 195, rfl⟩
abbrev main_call16_v6 : Ref sig .tc := ⟨.hbm, 196, rfl⟩
abbrev main_call16_c_2 : Ref sig .tc := ⟨.hbm, 197, rfl⟩
abbrev main_call16_v7 : Ref sig .tc := ⟨.hbm, 198, rfl⟩
abbrev main_call16_v8 : Ref sig .tc := ⟨.hbm, 199, rfl⟩
abbrev main_call16_c_3 : Ref sig .tc := ⟨.hbm, 200, rfl⟩
abbrev main_call16_v9 : Ref sig .tc := ⟨.hbm, 201, rfl⟩
abbrev main_call16_v10 : Ref sig .tc := ⟨.hbm, 202, rfl⟩
abbrev main_call16_v11 : Ref sig .tc := ⟨.hbm, 203, rfl⟩
abbrev main_call16_v12 : Ref sig .tc := ⟨.hbm, 204, rfl⟩
abbrev main_call16_v13 : Ref sig .tc := ⟨.hbm, 205, rfl⟩
abbrev main_call16_v14 : Ref sig .tc := ⟨.hbm, 206, rfl⟩
abbrev main_v63 : Ref sig .tc := ⟨.hbm, 207, rfl⟩
abbrev main_v64 : Ref sig .tc := ⟨.hbm, 208, rfl⟩
abbrev main_c_30 : Ref sig .tc := ⟨.hbm, 209, rfl⟩
abbrev main_v65 : Ref sig .tc := ⟨.hbm, 210, rfl⟩
abbrev main_v66 : Ref sig .tc := ⟨.hbm, 211, rfl⟩
abbrev main_c_31 : Ref sig .tc := ⟨.hbm, 212, rfl⟩
abbrev main_call18_v0 : Ref sig .tc := ⟨.hbm, 213, rfl⟩
abbrev main_call18_v1 : Ref sig .tc := ⟨.hbm, 214, rfl⟩
abbrev main_v67 : Ref sig .tc := ⟨.hbm, 215, rfl⟩
abbrev main_v68 : Ref sig .tc := ⟨.hbm, 216, rfl⟩
abbrev main_c_32 : Ref sig .tc := ⟨.hbm, 217, rfl⟩
abbrev main_call19_v0 : Ref sig .tc := ⟨.hbm, 218, rfl⟩
abbrev main_v69 : Ref sig .tc := ⟨.hbm, 219, rfl⟩
abbrev main_c_33 : Ref sig .tc := ⟨.hbm, 220, rfl⟩
abbrev main_v70 : Ref sig .tc := ⟨.hbm, 221, rfl⟩
abbrev main_v71 : Ref sig .tc := ⟨.hbm, 222, rfl⟩
abbrev main_v72 : Ref sig .tc := ⟨.hbm, 223, rfl⟩
abbrev main_c_34 : Ref sig .tc := ⟨.hbm, 224, rfl⟩
abbrev main_call20_v0 : Ref sig .tc := ⟨.hbm, 225, rfl⟩
abbrev main_call20_c : Ref sig .tc := ⟨.hbm, 226, rfl⟩
abbrev main_call20_v1 : Ref sig .tc := ⟨.hbm, 227, rfl⟩
abbrev main_call20_c_0 : Ref sig .tc := ⟨.hbm, 228, rfl⟩
abbrev main_call20_v2 : Ref sig .tc := ⟨.hbm, 229, rfl⟩
abbrev main_call20_v3 : Ref sig .tc := ⟨.hbm, 230, rfl⟩
abbrev main_call20_v4 : Ref sig .tc := ⟨.hbm, 231, rfl⟩
abbrev main_call20_c_1 : Ref sig .tc := ⟨.hbm, 232, rfl⟩
abbrev main_call20_v5 : Ref sig .tc := ⟨.hbm, 233, rfl⟩
abbrev main_call20_v6 : Ref sig .tc := ⟨.hbm, 234, rfl⟩
abbrev main_call20_c_2 : Ref sig .tc := ⟨.hbm, 235, rfl⟩
abbrev main_call20_v7 : Ref sig .tc := ⟨.hbm, 236, rfl⟩
abbrev main_call20_v8 : Ref sig .tc := ⟨.hbm, 237, rfl⟩
abbrev main_call20_c_3 : Ref sig .tc := ⟨.hbm, 238, rfl⟩
abbrev main_call20_v9 : Ref sig .tc := ⟨.hbm, 239, rfl⟩
abbrev main_call20_v10 : Ref sig .tc := ⟨.hbm, 240, rfl⟩
abbrev main_call20_v11 : Ref sig .tc := ⟨.hbm, 241, rfl⟩
abbrev main_call20_v12 : Ref sig .tc := ⟨.hbm, 242, rfl⟩
abbrev main_call20_v13 : Ref sig .tc := ⟨.hbm, 243, rfl⟩
abbrev main_call20_v14 : Ref sig .tc := ⟨.hbm, 244, rfl⟩
abbrev main_v73 : Ref sig .tc := ⟨.hbm, 245, rfl⟩
abbrev main_v74 : Ref sig .tc := ⟨.hbm, 246, rfl⟩
abbrev main_c_35 : Ref sig .tc := ⟨.hbm, 247, rfl⟩
abbrev main_v75 : Ref sig .tc := ⟨.hbm, 248, rfl⟩
abbrev main_v76 : Ref sig .tc := ⟨.hbm, 249, rfl⟩
abbrev main_c_36 : Ref sig .tc := ⟨.hbm, 250, rfl⟩
abbrev main_call22_v0 : Ref sig .tc := ⟨.hbm, 251, rfl⟩
abbrev main_call22_v1 : Ref sig .tc := ⟨.hbm, 252, rfl⟩
abbrev main_v77 : Ref sig .tc := ⟨.hbm, 253, rfl⟩
abbrev main_v78 : Ref sig .tc := ⟨.hbm, 254, rfl⟩
abbrev main_c_37 : Ref sig .tc := ⟨.hbm, 255, rfl⟩
abbrev main_call23_v0 : Ref sig .tc := ⟨.hbm, 256, rfl⟩
abbrev main_v79 : Ref sig .tc := ⟨.hbm, 257, rfl⟩
abbrev main_c_38 : Ref sig .tc := ⟨.hbm, 258, rfl⟩
abbrev main_v80 : Ref sig .tc := ⟨.hbm, 259, rfl⟩
abbrev main_v81 : Ref sig .tc := ⟨.hbm, 260, rfl⟩
abbrev main_v82 : Ref sig .tc := ⟨.hbm, 261, rfl⟩
abbrev main_c_39 : Ref sig .tc := ⟨.hbm, 262, rfl⟩
abbrev main_call24_v0 : Ref sig .tc := ⟨.hbm, 263, rfl⟩
abbrev main_call24_c : Ref sig .tc := ⟨.hbm, 264, rfl⟩
abbrev main_call24_v1 : Ref sig .tc := ⟨.hbm, 265, rfl⟩
abbrev main_call24_c_0 : Ref sig .tc := ⟨.hbm, 266, rfl⟩
abbrev main_call24_v2 : Ref sig .tc := ⟨.hbm, 267, rfl⟩
abbrev main_call24_v3 : Ref sig .tc := ⟨.hbm, 268, rfl⟩
abbrev main_call24_v4 : Ref sig .tc := ⟨.hbm, 269, rfl⟩
abbrev main_call24_c_1 : Ref sig .tc := ⟨.hbm, 270, rfl⟩
abbrev main_call24_v5 : Ref sig .tc := ⟨.hbm, 271, rfl⟩
abbrev main_call24_v6 : Ref sig .tc := ⟨.hbm, 272, rfl⟩
abbrev main_call24_c_2 : Ref sig .tc := ⟨.hbm, 273, rfl⟩
abbrev main_call24_v7 : Ref sig .tc := ⟨.hbm, 274, rfl⟩
abbrev main_call24_v8 : Ref sig .tc := ⟨.hbm, 275, rfl⟩
abbrev main_call24_c_3 : Ref sig .tc := ⟨.hbm, 276, rfl⟩
abbrev main_call24_v9 : Ref sig .tc := ⟨.hbm, 277, rfl⟩
abbrev main_call24_v10 : Ref sig .tc := ⟨.hbm, 278, rfl⟩
abbrev main_call24_v11 : Ref sig .tc := ⟨.hbm, 279, rfl⟩
abbrev main_call24_v12 : Ref sig .tc := ⟨.hbm, 280, rfl⟩
abbrev main_call24_v13 : Ref sig .tc := ⟨.hbm, 281, rfl⟩
abbrev main_call24_v14 : Ref sig .tc := ⟨.hbm, 282, rfl⟩
abbrev main_v83 : Ref sig .tc := ⟨.hbm, 283, rfl⟩
abbrev main_v84 : Ref sig .tc := ⟨.hbm, 284, rfl⟩
abbrev main_c_40 : Ref sig .tc := ⟨.hbm, 285, rfl⟩
abbrev main_v85 : Ref sig .tc := ⟨.hbm, 286, rfl⟩
abbrev main_v86 : Ref sig .tc := ⟨.hbm, 287, rfl⟩
abbrev main_c_41 : Ref sig .tc := ⟨.hbm, 288, rfl⟩
abbrev main_call26_v0 : Ref sig .tc := ⟨.hbm, 289, rfl⟩
abbrev main_call26_v1 : Ref sig .tc := ⟨.hbm, 290, rfl⟩
abbrev main_v87 : Ref sig .tc := ⟨.hbm, 291, rfl⟩
abbrev main_v88 : Ref sig .tc := ⟨.hbm, 292, rfl⟩
abbrev main_c_42 : Ref sig .tc := ⟨.hbm, 293, rfl⟩
abbrev main_call27_v0 : Ref sig .tc := ⟨.hbm, 294, rfl⟩
abbrev main_v89 : Ref sig .tc := ⟨.hbm, 295, rfl⟩
abbrev main_c_43 : Ref sig .tc := ⟨.hbm, 296, rfl⟩
abbrev main_v90 : Ref sig .tc := ⟨.hbm, 297, rfl⟩
abbrev main_v91 : Ref sig .tc := ⟨.hbm, 298, rfl⟩
abbrev main_v92 : Ref sig .tc := ⟨.hbm, 299, rfl⟩
abbrev main_c_44 : Ref sig .tc := ⟨.hbm, 300, rfl⟩
abbrev main_call28_v0 : Ref sig .tc := ⟨.hbm, 301, rfl⟩
abbrev main_call28_c : Ref sig .tc := ⟨.hbm, 302, rfl⟩
abbrev main_call28_v1 : Ref sig .tc := ⟨.hbm, 303, rfl⟩
abbrev main_call28_c_0 : Ref sig .tc := ⟨.hbm, 304, rfl⟩
abbrev main_call28_v2 : Ref sig .tc := ⟨.hbm, 305, rfl⟩
abbrev main_call28_v3 : Ref sig .tc := ⟨.hbm, 306, rfl⟩
abbrev main_call28_v4 : Ref sig .tc := ⟨.hbm, 307, rfl⟩
abbrev main_call28_c_1 : Ref sig .tc := ⟨.hbm, 308, rfl⟩
abbrev main_call28_v5 : Ref sig .tc := ⟨.hbm, 309, rfl⟩
abbrev main_call28_v6 : Ref sig .tc := ⟨.hbm, 310, rfl⟩
abbrev main_call28_c_2 : Ref sig .tc := ⟨.hbm, 311, rfl⟩
abbrev main_call28_v7 : Ref sig .tc := ⟨.hbm, 312, rfl⟩
abbrev main_call28_v8 : Ref sig .tc := ⟨.hbm, 313, rfl⟩
abbrev main_call28_c_3 : Ref sig .tc := ⟨.hbm, 314, rfl⟩
abbrev main_call28_v9 : Ref sig .tc := ⟨.hbm, 315, rfl⟩
abbrev main_call28_v10 : Ref sig .tc := ⟨.hbm, 316, rfl⟩
abbrev main_call28_v11 : Ref sig .tc := ⟨.hbm, 317, rfl⟩
abbrev main_call28_v12 : Ref sig .tc := ⟨.hbm, 318, rfl⟩
abbrev main_call28_v13 : Ref sig .tc := ⟨.hbm, 319, rfl⟩
abbrev main_call28_v14 : Ref sig .tc := ⟨.hbm, 320, rfl⟩
abbrev main_v93 : Ref sig .tc := ⟨.hbm, 321, rfl⟩
abbrev main_v94 : Ref sig .tc := ⟨.hbm, 322, rfl⟩
abbrev main_c_45 : Ref sig .tc := ⟨.hbm, 323, rfl⟩
abbrev main_v95 : Ref sig .tc := ⟨.hbm, 324, rfl⟩
abbrev main_v96 : Ref sig .tc := ⟨.hbm, 325, rfl⟩
abbrev main_c_46 : Ref sig .tc := ⟨.hbm, 326, rfl⟩
abbrev main_call30_v0 : Ref sig .tc := ⟨.hbm, 327, rfl⟩
abbrev main_call30_v1 : Ref sig .tc := ⟨.hbm, 328, rfl⟩
abbrev main_v97 : Ref sig .tc := ⟨.hbm, 329, rfl⟩
abbrev main_v98 : Ref sig .tc := ⟨.hbm, 330, rfl⟩
abbrev main_c_47 : Ref sig .tc := ⟨.hbm, 331, rfl⟩
abbrev main_call31_v0 : Ref sig .tc := ⟨.hbm, 332, rfl⟩
abbrev main_v99 : Ref sig .tc := ⟨.hbm, 333, rfl⟩
abbrev main_c_48 : Ref sig .tc := ⟨.hbm, 334, rfl⟩
abbrev main_v100 : Ref sig .tc := ⟨.hbm, 335, rfl⟩
abbrev main_v101 : Ref sig .tc := ⟨.hbm, 336, rfl⟩
abbrev main_v102 : Ref sig .tc := ⟨.hbm, 337, rfl⟩
abbrev main_c_49 : Ref sig .tc := ⟨.hbm, 338, rfl⟩
abbrev main_call32_v0 : Ref sig .tc := ⟨.hbm, 339, rfl⟩
abbrev main_call32_c : Ref sig .tc := ⟨.hbm, 340, rfl⟩
abbrev main_call32_v1 : Ref sig .tc := ⟨.hbm, 341, rfl⟩
abbrev main_call32_c_0 : Ref sig .tc := ⟨.hbm, 342, rfl⟩
abbrev main_call32_v2 : Ref sig .tc := ⟨.hbm, 343, rfl⟩
abbrev main_call32_v3 : Ref sig .tc := ⟨.hbm, 344, rfl⟩
abbrev main_call32_v4 : Ref sig .tc := ⟨.hbm, 345, rfl⟩
abbrev main_call32_c_1 : Ref sig .tc := ⟨.hbm, 346, rfl⟩
abbrev main_call32_v5 : Ref sig .tc := ⟨.hbm, 347, rfl⟩
abbrev main_call32_v6 : Ref sig .tc := ⟨.hbm, 348, rfl⟩
abbrev main_call32_c_2 : Ref sig .tc := ⟨.hbm, 349, rfl⟩
abbrev main_call32_v7 : Ref sig .tc := ⟨.hbm, 350, rfl⟩
abbrev main_call32_v8 : Ref sig .tc := ⟨.hbm, 351, rfl⟩
abbrev main_call32_c_3 : Ref sig .tc := ⟨.hbm, 352, rfl⟩
abbrev main_call32_v9 : Ref sig .tc := ⟨.hbm, 353, rfl⟩
abbrev main_call32_v10 : Ref sig .tc := ⟨.hbm, 354, rfl⟩
abbrev main_call32_v11 : Ref sig .tc := ⟨.hbm, 355, rfl⟩
abbrev main_call32_v12 : Ref sig .tc := ⟨.hbm, 356, rfl⟩
abbrev main_call32_v13 : Ref sig .tc := ⟨.hbm, 357, rfl⟩
abbrev main_call32_v14 : Ref sig .tc := ⟨.hbm, 358, rfl⟩
abbrev main_v103 : Ref sig .tc := ⟨.hbm, 359, rfl⟩
abbrev main_v104 : Ref sig .tc := ⟨.hbm, 360, rfl⟩
abbrev main_c_50 : Ref sig .tc := ⟨.hbm, 361, rfl⟩
abbrev main_v105 : Ref sig .tc := ⟨.hbm, 362, rfl⟩
abbrev main_v106 : Ref sig .tc := ⟨.hbm, 363, rfl⟩
abbrev main_c_51 : Ref sig .tc := ⟨.hbm, 364, rfl⟩
abbrev main_call34_v0 : Ref sig .tc := ⟨.hbm, 365, rfl⟩
abbrev main_call34_v1 : Ref sig .tc := ⟨.hbm, 366, rfl⟩
abbrev main_v107 : Ref sig .tc := ⟨.hbm, 367, rfl⟩
abbrev main_v108 : Ref sig .tc := ⟨.hbm, 368, rfl⟩
abbrev main_c_52 : Ref sig .tc := ⟨.hbm, 369, rfl⟩
abbrev main_call35_v0 : Ref sig .tc := ⟨.hbm, 370, rfl⟩
abbrev main_v109 : Ref sig .tc := ⟨.hbm, 371, rfl⟩
abbrev main_c_53 : Ref sig .tc := ⟨.hbm, 372, rfl⟩
abbrev main_v110 : Ref sig .tc := ⟨.hbm, 373, rfl⟩
abbrev main_v111 : Ref sig .tc := ⟨.hbm, 374, rfl⟩
abbrev main_v112 : Ref sig .tc := ⟨.hbm, 375, rfl⟩
abbrev main_c_54 : Ref sig .tc := ⟨.hbm, 376, rfl⟩
abbrev main_call36_v0 : Ref sig .tc := ⟨.hbm, 377, rfl⟩
abbrev main_call36_c : Ref sig .tc := ⟨.hbm, 378, rfl⟩
abbrev main_call36_v1 : Ref sig .tc := ⟨.hbm, 379, rfl⟩
abbrev main_call36_c_0 : Ref sig .tc := ⟨.hbm, 380, rfl⟩
abbrev main_call36_v2 : Ref sig .tc := ⟨.hbm, 381, rfl⟩
abbrev main_call36_v3 : Ref sig .tc := ⟨.hbm, 382, rfl⟩
abbrev main_call36_v4 : Ref sig .tc := ⟨.hbm, 383, rfl⟩
abbrev main_call36_c_1 : Ref sig .tc := ⟨.hbm, 384, rfl⟩
abbrev main_call36_v5 : Ref sig .tc := ⟨.hbm, 385, rfl⟩
abbrev main_call36_v6 : Ref sig .tc := ⟨.hbm, 386, rfl⟩
abbrev main_call36_c_2 : Ref sig .tc := ⟨.hbm, 387, rfl⟩
abbrev main_call36_v7 : Ref sig .tc := ⟨.hbm, 388, rfl⟩
abbrev main_call36_v8 : Ref sig .tc := ⟨.hbm, 389, rfl⟩
abbrev main_call36_c_3 : Ref sig .tc := ⟨.hbm, 390, rfl⟩
abbrev main_call36_v9 : Ref sig .tc := ⟨.hbm, 391, rfl⟩
abbrev main_call36_v10 : Ref sig .tc := ⟨.hbm, 392, rfl⟩
abbrev main_call36_v11 : Ref sig .tc := ⟨.hbm, 393, rfl⟩
abbrev main_call36_v12 : Ref sig .tc := ⟨.hbm, 394, rfl⟩
abbrev main_call36_v13 : Ref sig .tc := ⟨.hbm, 395, rfl⟩
abbrev main_call36_v14 : Ref sig .tc := ⟨.hbm, 396, rfl⟩
abbrev main_v113 : Ref sig .tc := ⟨.hbm, 397, rfl⟩
abbrev main_v114 : Ref sig .tc := ⟨.hbm, 398, rfl⟩
abbrev main_c_55 : Ref sig .tc := ⟨.hbm, 399, rfl⟩
abbrev main_v115 : Ref sig .tc := ⟨.hbm, 400, rfl⟩
abbrev main_v116 : Ref sig .tc := ⟨.hbm, 401, rfl⟩
abbrev main_c_56 : Ref sig .tc := ⟨.hbm, 402, rfl⟩
abbrev main_call38_v0 : Ref sig .tc := ⟨.hbm, 403, rfl⟩
abbrev main_call38_v1 : Ref sig .tc := ⟨.hbm, 404, rfl⟩
abbrev main_v117 : Ref sig .tc := ⟨.hbm, 405, rfl⟩
abbrev main_v118 : Ref sig .tc := ⟨.hbm, 406, rfl⟩
abbrev main_c_57 : Ref sig .tc := ⟨.hbm, 407, rfl⟩
abbrev main_call39_v0 : Ref sig .tc := ⟨.hbm, 408, rfl⟩
abbrev main_v119 : Ref sig .tc := ⟨.hbm, 409, rfl⟩
abbrev main_c_58 : Ref sig .tc := ⟨.hbm, 410, rfl⟩
abbrev main_v120 : Ref sig .tc := ⟨.hbm, 411, rfl⟩
abbrev main_v121 : Ref sig .tc := ⟨.hbm, 412, rfl⟩
abbrev main_v122 : Ref sig .tc := ⟨.hbm, 413, rfl⟩
abbrev main_c_59 : Ref sig .tc := ⟨.hbm, 414, rfl⟩
abbrev main_call40_v0 : Ref sig .tc := ⟨.hbm, 415, rfl⟩
abbrev main_call40_c : Ref sig .tc := ⟨.hbm, 416, rfl⟩
abbrev main_call40_v1 : Ref sig .tc := ⟨.hbm, 417, rfl⟩
abbrev main_call40_c_0 : Ref sig .tc := ⟨.hbm, 418, rfl⟩
abbrev main_call40_v2 : Ref sig .tc := ⟨.hbm, 419, rfl⟩
abbrev main_call40_v3 : Ref sig .tc := ⟨.hbm, 420, rfl⟩
abbrev main_call40_v4 : Ref sig .tc := ⟨.hbm, 421, rfl⟩
abbrev main_call40_c_1 : Ref sig .tc := ⟨.hbm, 422, rfl⟩
abbrev main_call40_v5 : Ref sig .tc := ⟨.hbm, 423, rfl⟩
abbrev main_call40_v6 : Ref sig .tc := ⟨.hbm, 424, rfl⟩
abbrev main_call40_c_2 : Ref sig .tc := ⟨.hbm, 425, rfl⟩
abbrev main_call40_v7 : Ref sig .tc := ⟨.hbm, 426, rfl⟩
abbrev main_call40_v8 : Ref sig .tc := ⟨.hbm, 427, rfl⟩
abbrev main_call40_c_3 : Ref sig .tc := ⟨.hbm, 428, rfl⟩
abbrev main_call40_v9 : Ref sig .tc := ⟨.hbm, 429, rfl⟩
abbrev main_call40_v10 : Ref sig .tc := ⟨.hbm, 430, rfl⟩
abbrev main_call40_v11 : Ref sig .tc := ⟨.hbm, 431, rfl⟩
abbrev main_call40_v12 : Ref sig .tc := ⟨.hbm, 432, rfl⟩
abbrev main_call40_v13 : Ref sig .tc := ⟨.hbm, 433, rfl⟩
abbrev main_call40_v14 : Ref sig .tc := ⟨.hbm, 434, rfl⟩
abbrev main_v123 : Ref sig .tc := ⟨.hbm, 435, rfl⟩
abbrev main_v124 : Ref sig .tc := ⟨.hbm, 436, rfl⟩
abbrev main_c_60 : Ref sig .tc := ⟨.hbm, 437, rfl⟩
abbrev main_v125 : Ref sig .tc := ⟨.hbm, 438, rfl⟩
abbrev main_v126 : Ref sig .tc := ⟨.hbm, 439, rfl⟩
abbrev main_c_61 : Ref sig .tc := ⟨.hbm, 440, rfl⟩
abbrev main_call42_v0 : Ref sig .tc := ⟨.hbm, 441, rfl⟩
abbrev main_call42_v1 : Ref sig .tc := ⟨.hbm, 442, rfl⟩
abbrev main_v127 : Ref sig .tc := ⟨.hbm, 443, rfl⟩
abbrev main_v128 : Ref sig .tc := ⟨.hbm, 444, rfl⟩
abbrev main_c_62 : Ref sig .tc := ⟨.hbm, 445, rfl⟩
abbrev main_call43_v0 : Ref sig .tc := ⟨.hbm, 446, rfl⟩
abbrev main_v129 : Ref sig .tc := ⟨.hbm, 447, rfl⟩
abbrev main_c_63 : Ref sig .tc := ⟨.hbm, 448, rfl⟩
abbrev main_v130 : Ref sig .tc := ⟨.hbm, 449, rfl⟩
abbrev main_v131 : Ref sig .tc := ⟨.hbm, 450, rfl⟩
abbrev main_v132 : Ref sig .tc := ⟨.hbm, 451, rfl⟩
abbrev main_c_64 : Ref sig .tc := ⟨.hbm, 452, rfl⟩
abbrev main_call44_v0 : Ref sig .tc := ⟨.hbm, 453, rfl⟩
abbrev main_call44_c : Ref sig .tc := ⟨.hbm, 454, rfl⟩
abbrev main_call44_v1 : Ref sig .tc := ⟨.hbm, 455, rfl⟩
abbrev main_call44_c_0 : Ref sig .tc := ⟨.hbm, 456, rfl⟩
abbrev main_call44_v2 : Ref sig .tc := ⟨.hbm, 457, rfl⟩
abbrev main_call44_v3 : Ref sig .tc := ⟨.hbm, 458, rfl⟩
abbrev main_call44_v4 : Ref sig .tc := ⟨.hbm, 459, rfl⟩
abbrev main_call44_c_1 : Ref sig .tc := ⟨.hbm, 460, rfl⟩
abbrev main_call44_v5 : Ref sig .tc := ⟨.hbm, 461, rfl⟩
abbrev main_call44_v6 : Ref sig .tc := ⟨.hbm, 462, rfl⟩
abbrev main_call44_c_2 : Ref sig .tc := ⟨.hbm, 463, rfl⟩
abbrev main_call44_v7 : Ref sig .tc := ⟨.hbm, 464, rfl⟩
abbrev main_call44_v8 : Ref sig .tc := ⟨.hbm, 465, rfl⟩
abbrev main_call44_c_3 : Ref sig .tc := ⟨.hbm, 466, rfl⟩
abbrev main_call44_v9 : Ref sig .tc := ⟨.hbm, 467, rfl⟩
abbrev main_call44_v10 : Ref sig .tc := ⟨.hbm, 468, rfl⟩
abbrev main_call44_v11 : Ref sig .tc := ⟨.hbm, 469, rfl⟩
abbrev main_call44_v12 : Ref sig .tc := ⟨.hbm, 470, rfl⟩
abbrev main_call44_v13 : Ref sig .tc := ⟨.hbm, 471, rfl⟩
abbrev main_call44_v14 : Ref sig .tc := ⟨.hbm, 472, rfl⟩
abbrev main_v133 : Ref sig .tc := ⟨.hbm, 473, rfl⟩
abbrev main_v134 : Ref sig .tc := ⟨.hbm, 474, rfl⟩
abbrev main_c_65 : Ref sig .tc := ⟨.hbm, 475, rfl⟩
abbrev main_v135 : Ref sig .tc := ⟨.hbm, 476, rfl⟩
abbrev main_v136 : Ref sig .tc := ⟨.hbm, 477, rfl⟩
abbrev main_c_66 : Ref sig .tc := ⟨.hbm, 478, rfl⟩
abbrev main_call46_v0 : Ref sig .tc := ⟨.hbm, 479, rfl⟩
abbrev main_call46_v1 : Ref sig .tc := ⟨.hbm, 480, rfl⟩
abbrev main_v137 : Ref sig .tc := ⟨.hbm, 481, rfl⟩
abbrev main_v138 : Ref sig .tc := ⟨.hbm, 482, rfl⟩
abbrev main_c_67 : Ref sig .tc := ⟨.hbm, 483, rfl⟩
abbrev main_call47_v0 : Ref sig .tc := ⟨.hbm, 484, rfl⟩
abbrev main_v139 : Ref sig .tc := ⟨.hbm, 485, rfl⟩
abbrev main_c_68 : Ref sig .tc := ⟨.hbm, 486, rfl⟩
abbrev main_v140 : Ref sig .tc := ⟨.hbm, 487, rfl⟩
abbrev main_v141 : Ref sig .tc := ⟨.hbm, 488, rfl⟩
abbrev main_v142 : Ref sig .tc := ⟨.hbm, 489, rfl⟩
abbrev main_c_69 : Ref sig .tc := ⟨.hbm, 490, rfl⟩
abbrev main_call48_v0 : Ref sig .tc := ⟨.hbm, 491, rfl⟩
abbrev main_call48_c : Ref sig .tc := ⟨.hbm, 492, rfl⟩
abbrev main_call48_v1 : Ref sig .tc := ⟨.hbm, 493, rfl⟩
abbrev main_call48_c_0 : Ref sig .tc := ⟨.hbm, 494, rfl⟩
abbrev main_call48_v2 : Ref sig .tc := ⟨.hbm, 495, rfl⟩
abbrev main_call48_v3 : Ref sig .tc := ⟨.hbm, 496, rfl⟩
abbrev main_call48_v4 : Ref sig .tc := ⟨.hbm, 497, rfl⟩
abbrev main_call48_c_1 : Ref sig .tc := ⟨.hbm, 498, rfl⟩
abbrev main_call48_v5 : Ref sig .tc := ⟨.hbm, 499, rfl⟩
abbrev main_call48_v6 : Ref sig .tc := ⟨.hbm, 500, rfl⟩
abbrev main_call48_c_2 : Ref sig .tc := ⟨.hbm, 501, rfl⟩
abbrev main_call48_v7 : Ref sig .tc := ⟨.hbm, 502, rfl⟩
abbrev main_call48_v8 : Ref sig .tc := ⟨.hbm, 503, rfl⟩
abbrev main_call48_c_3 : Ref sig .tc := ⟨.hbm, 504, rfl⟩
abbrev main_call48_v9 : Ref sig .tc := ⟨.hbm, 505, rfl⟩
abbrev main_call48_v10 : Ref sig .tc := ⟨.hbm, 506, rfl⟩
abbrev main_call48_v11 : Ref sig .tc := ⟨.hbm, 507, rfl⟩
abbrev main_call48_v12 : Ref sig .tc := ⟨.hbm, 508, rfl⟩
abbrev main_call48_v13 : Ref sig .tc := ⟨.hbm, 509, rfl⟩
abbrev main_call48_v14 : Ref sig .tc := ⟨.hbm, 510, rfl⟩
abbrev main_v143 : Ref sig .tc := ⟨.hbm, 511, rfl⟩
abbrev main_v144 : Ref sig .tc := ⟨.hbm, 512, rfl⟩
abbrev main_c_70 : Ref sig .tc := ⟨.hbm, 513, rfl⟩
abbrev main_v145 : Ref sig .tc := ⟨.hbm, 514, rfl⟩
abbrev main_v146 : Ref sig .tc := ⟨.hbm, 515, rfl⟩
abbrev main_c_71 : Ref sig .tc := ⟨.hbm, 516, rfl⟩
abbrev main_call50_v0 : Ref sig .tc := ⟨.hbm, 517, rfl⟩
abbrev main_call50_v1 : Ref sig .tc := ⟨.hbm, 518, rfl⟩
abbrev main_v147 : Ref sig .tc := ⟨.hbm, 519, rfl⟩
abbrev main_v148 : Ref sig .tc := ⟨.hbm, 520, rfl⟩
abbrev main_c_72 : Ref sig .tc := ⟨.hbm, 521, rfl⟩
abbrev main_call51_v0 : Ref sig .tc := ⟨.hbm, 522, rfl⟩
abbrev main_v149 : Ref sig .tc := ⟨.hbm, 523, rfl⟩
abbrev main_c_73 : Ref sig .tc := ⟨.hbm, 524, rfl⟩
abbrev main_v150 : Ref sig .tc := ⟨.hbm, 525, rfl⟩
abbrev main_v151 : Ref sig .tc := ⟨.hbm, 526, rfl⟩
abbrev main_v152 : Ref sig .tc := ⟨.hbm, 527, rfl⟩
abbrev main_c_74 : Ref sig .tc := ⟨.hbm, 528, rfl⟩
abbrev main_call52_v0 : Ref sig .tc := ⟨.hbm, 529, rfl⟩
abbrev main_call52_c : Ref sig .tc := ⟨.hbm, 530, rfl⟩
abbrev main_call52_v1 : Ref sig .tc := ⟨.hbm, 531, rfl⟩
abbrev main_call52_c_0 : Ref sig .tc := ⟨.hbm, 532, rfl⟩
abbrev main_call52_v2 : Ref sig .tc := ⟨.hbm, 533, rfl⟩
abbrev main_call52_v3 : Ref sig .tc := ⟨.hbm, 534, rfl⟩
abbrev main_call52_v4 : Ref sig .tc := ⟨.hbm, 535, rfl⟩
abbrev main_call52_c_1 : Ref sig .tc := ⟨.hbm, 536, rfl⟩
abbrev main_call52_v5 : Ref sig .tc := ⟨.hbm, 537, rfl⟩
abbrev main_call52_v6 : Ref sig .tc := ⟨.hbm, 538, rfl⟩
abbrev main_call52_c_2 : Ref sig .tc := ⟨.hbm, 539, rfl⟩
abbrev main_call52_v7 : Ref sig .tc := ⟨.hbm, 540, rfl⟩
abbrev main_call52_v8 : Ref sig .tc := ⟨.hbm, 541, rfl⟩
abbrev main_call52_c_3 : Ref sig .tc := ⟨.hbm, 542, rfl⟩
abbrev main_call52_v9 : Ref sig .tc := ⟨.hbm, 543, rfl⟩
abbrev main_call52_v10 : Ref sig .tc := ⟨.hbm, 544, rfl⟩
abbrev main_call52_v11 : Ref sig .tc := ⟨.hbm, 545, rfl⟩
abbrev main_call52_v12 : Ref sig .tc := ⟨.hbm, 546, rfl⟩
abbrev main_call52_v13 : Ref sig .tc := ⟨.hbm, 547, rfl⟩
abbrev main_call52_v14 : Ref sig .tc := ⟨.hbm, 548, rfl⟩
abbrev main_v153 : Ref sig .tc := ⟨.hbm, 549, rfl⟩
abbrev main_v154 : Ref sig .tc := ⟨.hbm, 550, rfl⟩
abbrev main_c_75 : Ref sig .tc := ⟨.hbm, 551, rfl⟩
abbrev main_v155 : Ref sig .tc := ⟨.hbm, 552, rfl⟩
abbrev main_v156 : Ref sig .tc := ⟨.hbm, 553, rfl⟩
abbrev main_c_76 : Ref sig .tc := ⟨.hbm, 554, rfl⟩
abbrev main_call54_v0 : Ref sig .tc := ⟨.hbm, 555, rfl⟩
abbrev main_call54_v1 : Ref sig .tc := ⟨.hbm, 556, rfl⟩
abbrev main_v157 : Ref sig .tc := ⟨.hbm, 557, rfl⟩
abbrev main_v158 : Ref sig .tc := ⟨.hbm, 558, rfl⟩
abbrev main_c_77 : Ref sig .tc := ⟨.hbm, 559, rfl⟩
abbrev main_call55_v0 : Ref sig .tc := ⟨.hbm, 560, rfl⟩
abbrev main_v159 : Ref sig .tc := ⟨.hbm, 561, rfl⟩
abbrev main_c_78 : Ref sig .tc := ⟨.hbm, 562, rfl⟩
abbrev main_v160 : Ref sig .tc := ⟨.hbm, 563, rfl⟩
abbrev main_v161 : Ref sig .tc := ⟨.hbm, 564, rfl⟩
abbrev main_v162 : Ref sig .tc := ⟨.hbm, 565, rfl⟩
abbrev main_c_79 : Ref sig .tc := ⟨.hbm, 566, rfl⟩
abbrev main_call56_v0 : Ref sig .tc := ⟨.hbm, 567, rfl⟩
abbrev main_call56_c : Ref sig .tc := ⟨.hbm, 568, rfl⟩
abbrev main_call56_v1 : Ref sig .tc := ⟨.hbm, 569, rfl⟩
abbrev main_call56_c_0 : Ref sig .tc := ⟨.hbm, 570, rfl⟩
abbrev main_call56_v2 : Ref sig .tc := ⟨.hbm, 571, rfl⟩
abbrev main_call56_v3 : Ref sig .tc := ⟨.hbm, 572, rfl⟩
abbrev main_call56_v4 : Ref sig .tc := ⟨.hbm, 573, rfl⟩
abbrev main_call56_c_1 : Ref sig .tc := ⟨.hbm, 574, rfl⟩
abbrev main_call56_v5 : Ref sig .tc := ⟨.hbm, 575, rfl⟩
abbrev main_call56_v6 : Ref sig .tc := ⟨.hbm, 576, rfl⟩
abbrev main_call56_c_2 : Ref sig .tc := ⟨.hbm, 577, rfl⟩
abbrev main_call56_v7 : Ref sig .tc := ⟨.hbm, 578, rfl⟩
abbrev main_call56_v8 : Ref sig .tc := ⟨.hbm, 579, rfl⟩
abbrev main_call56_c_3 : Ref sig .tc := ⟨.hbm, 580, rfl⟩
abbrev main_call56_v9 : Ref sig .tc := ⟨.hbm, 581, rfl⟩
abbrev main_call56_v10 : Ref sig .tc := ⟨.hbm, 582, rfl⟩
abbrev main_call56_v11 : Ref sig .tc := ⟨.hbm, 583, rfl⟩
abbrev main_call56_v12 : Ref sig .tc := ⟨.hbm, 584, rfl⟩
abbrev main_call56_v13 : Ref sig .tc := ⟨.hbm, 585, rfl⟩
abbrev main_call56_v14 : Ref sig .tc := ⟨.hbm, 586, rfl⟩
abbrev main_v163 : Ref sig .tc := ⟨.hbm, 587, rfl⟩
abbrev main_v164 : Ref sig .tc := ⟨.hbm, 588, rfl⟩
abbrev main_c_80 : Ref sig .tc := ⟨.hbm, 589, rfl⟩
abbrev main_v165 : Ref sig .tc := ⟨.hbm, 590, rfl⟩
abbrev main_v166 : Ref sig .tc := ⟨.hbm, 591, rfl⟩
abbrev main_c_81 : Ref sig .tc := ⟨.hbm, 592, rfl⟩
abbrev main_call58_v0 : Ref sig .tc := ⟨.hbm, 593, rfl⟩
abbrev main_call58_v1 : Ref sig .tc := ⟨.hbm, 594, rfl⟩
abbrev main_v167 : Ref sig .tc := ⟨.hbm, 595, rfl⟩
abbrev main_v168 : Ref sig .tc := ⟨.hbm, 596, rfl⟩
abbrev main_c_82 : Ref sig .tc := ⟨.hbm, 597, rfl⟩
abbrev main_call59_v0 : Ref sig .tc := ⟨.hbm, 598, rfl⟩
abbrev main_v169 : Ref sig .tc := ⟨.hbm, 599, rfl⟩
abbrev main_c_83 : Ref sig .tc := ⟨.hbm, 600, rfl⟩
abbrev main_v170 : Ref sig .tc := ⟨.hbm, 601, rfl⟩
abbrev main_v171 : Ref sig .tc := ⟨.hbm, 602, rfl⟩
abbrev main_v172 : Ref sig .tc := ⟨.hbm, 603, rfl⟩
abbrev main_c_84 : Ref sig .tc := ⟨.hbm, 604, rfl⟩
abbrev main_call60_v0 : Ref sig .tc := ⟨.hbm, 605, rfl⟩
abbrev main_call60_c : Ref sig .tc := ⟨.hbm, 606, rfl⟩
abbrev main_call60_v1 : Ref sig .tc := ⟨.hbm, 607, rfl⟩
abbrev main_call60_c_0 : Ref sig .tc := ⟨.hbm, 608, rfl⟩
abbrev main_call60_v2 : Ref sig .tc := ⟨.hbm, 609, rfl⟩
abbrev main_call60_v3 : Ref sig .tc := ⟨.hbm, 610, rfl⟩
abbrev main_call60_v4 : Ref sig .tc := ⟨.hbm, 611, rfl⟩
abbrev main_call60_c_1 : Ref sig .tc := ⟨.hbm, 612, rfl⟩
abbrev main_call60_v5 : Ref sig .tc := ⟨.hbm, 613, rfl⟩
abbrev main_call60_v6 : Ref sig .tc := ⟨.hbm, 614, rfl⟩
abbrev main_call60_c_2 : Ref sig .tc := ⟨.hbm, 615, rfl⟩
abbrev main_call60_v7 : Ref sig .tc := ⟨.hbm, 616, rfl⟩
abbrev main_call60_v8 : Ref sig .tc := ⟨.hbm, 617, rfl⟩
abbrev main_call60_c_3 : Ref sig .tc := ⟨.hbm, 618, rfl⟩
abbrev main_call60_v9 : Ref sig .tc := ⟨.hbm, 619, rfl⟩
abbrev main_call60_v10 : Ref sig .tc := ⟨.hbm, 620, rfl⟩
abbrev main_call60_v11 : Ref sig .tc := ⟨.hbm, 621, rfl⟩
abbrev main_call60_v12 : Ref sig .tc := ⟨.hbm, 622, rfl⟩
abbrev main_call60_v13 : Ref sig .tc := ⟨.hbm, 623, rfl⟩
abbrev main_call60_v14 : Ref sig .tc := ⟨.hbm, 624, rfl⟩
abbrev main_v173 : Ref sig .tc := ⟨.hbm, 625, rfl⟩
abbrev main_v174 : Ref sig .tc := ⟨.hbm, 626, rfl⟩
abbrev main_c_85 : Ref sig .tc := ⟨.hbm, 627, rfl⟩
abbrev main_v175 : Ref sig .tc := ⟨.hbm, 628, rfl⟩
abbrev main_v176 : Ref sig .tc := ⟨.hbm, 629, rfl⟩
abbrev main_c_86 : Ref sig .tc := ⟨.hbm, 630, rfl⟩
abbrev main_call62_v0 : Ref sig .tc := ⟨.hbm, 631, rfl⟩
abbrev main_call62_v1 : Ref sig .tc := ⟨.hbm, 632, rfl⟩
abbrev main_v177 : Ref sig .tc := ⟨.hbm, 633, rfl⟩
abbrev main_v178 : Ref sig .tc := ⟨.hbm, 634, rfl⟩
abbrev main_c_87 : Ref sig .tc := ⟨.hbm, 635, rfl⟩
abbrev main_call63_v0 : Ref sig .tc := ⟨.hbm, 636, rfl⟩
abbrev main_v179 : Ref sig .tc := ⟨.hbm, 637, rfl⟩
abbrev main_c_88 : Ref sig .tc := ⟨.hbm, 638, rfl⟩
abbrev main_v180 : Ref sig .tc := ⟨.hbm, 639, rfl⟩
abbrev main_v181 : Ref sig .tc := ⟨.hbm, 640, rfl⟩
abbrev main_v182 : Ref sig .tc := ⟨.hbm, 641, rfl⟩
abbrev main_c_89 : Ref sig .tc := ⟨.hbm, 642, rfl⟩
abbrev main_call64_v0 : Ref sig .tc := ⟨.hbm, 643, rfl⟩
abbrev main_call64_c : Ref sig .tc := ⟨.hbm, 644, rfl⟩
abbrev main_call64_v1 : Ref sig .tc := ⟨.hbm, 645, rfl⟩
abbrev main_call64_c_0 : Ref sig .tc := ⟨.hbm, 646, rfl⟩
abbrev main_call64_v2 : Ref sig .tc := ⟨.hbm, 647, rfl⟩
abbrev main_call64_v3 : Ref sig .tc := ⟨.hbm, 648, rfl⟩
abbrev main_call64_v4 : Ref sig .tc := ⟨.hbm, 649, rfl⟩
abbrev main_call64_c_1 : Ref sig .tc := ⟨.hbm, 650, rfl⟩
abbrev main_call64_v5 : Ref sig .tc := ⟨.hbm, 651, rfl⟩
abbrev main_call64_v6 : Ref sig .tc := ⟨.hbm, 652, rfl⟩
abbrev main_call64_c_2 : Ref sig .tc := ⟨.hbm, 653, rfl⟩
abbrev main_call64_v7 : Ref sig .tc := ⟨.hbm, 654, rfl⟩
abbrev main_call64_v8 : Ref sig .tc := ⟨.hbm, 655, rfl⟩
abbrev main_call64_c_3 : Ref sig .tc := ⟨.hbm, 656, rfl⟩
abbrev main_call64_v9 : Ref sig .tc := ⟨.hbm, 657, rfl⟩
abbrev main_call64_v10 : Ref sig .tc := ⟨.hbm, 658, rfl⟩
abbrev main_call64_v11 : Ref sig .tc := ⟨.hbm, 659, rfl⟩
abbrev main_call64_v12 : Ref sig .tc := ⟨.hbm, 660, rfl⟩
abbrev main_call64_v13 : Ref sig .tc := ⟨.hbm, 661, rfl⟩
abbrev main_call64_v14 : Ref sig .tc := ⟨.hbm, 662, rfl⟩
abbrev main_v183 : Ref sig .tc := ⟨.hbm, 663, rfl⟩
abbrev main_v184 : Ref sig .tc := ⟨.hbm, 664, rfl⟩
abbrev main_c_90 : Ref sig .tc := ⟨.hbm, 665, rfl⟩
abbrev main_v185 : Ref sig .tc := ⟨.hbm, 666, rfl⟩
abbrev main_v186 : Ref sig .tc := ⟨.hbm, 667, rfl⟩
abbrev main_c_91 : Ref sig .tc := ⟨.hbm, 668, rfl⟩
abbrev main_call66_v0 : Ref sig .tc := ⟨.hbm, 669, rfl⟩
abbrev main_call66_v1 : Ref sig .tc := ⟨.hbm, 670, rfl⟩
abbrev main_v187 : Ref sig .tc := ⟨.hbm, 671, rfl⟩
abbrev main_v188 : Ref sig .tc := ⟨.hbm, 672, rfl⟩
abbrev main_c_92 : Ref sig .tc := ⟨.hbm, 673, rfl⟩
abbrev main_call67_v0 : Ref sig .tc := ⟨.hbm, 674, rfl⟩
abbrev main_v189 : Ref sig .tc := ⟨.hbm, 675, rfl⟩
abbrev main_c_93 : Ref sig .tc := ⟨.hbm, 676, rfl⟩
abbrev main_v190 : Ref sig .tc := ⟨.hbm, 677, rfl⟩
abbrev main_v191 : Ref sig .tc := ⟨.hbm, 678, rfl⟩
abbrev main_v192 : Ref sig .tc := ⟨.hbm, 679, rfl⟩
abbrev main_c_94 : Ref sig .tc := ⟨.hbm, 680, rfl⟩
abbrev main_call68_v0 : Ref sig .tc := ⟨.hbm, 681, rfl⟩
abbrev main_call68_c : Ref sig .tc := ⟨.hbm, 682, rfl⟩
abbrev main_call68_v1 : Ref sig .tc := ⟨.hbm, 683, rfl⟩
abbrev main_call68_c_0 : Ref sig .tc := ⟨.hbm, 684, rfl⟩
abbrev main_call68_v2 : Ref sig .tc := ⟨.hbm, 685, rfl⟩
abbrev main_call68_v3 : Ref sig .tc := ⟨.hbm, 686, rfl⟩
abbrev main_call68_v4 : Ref sig .tc := ⟨.hbm, 687, rfl⟩
abbrev main_call68_c_1 : Ref sig .tc := ⟨.hbm, 688, rfl⟩
abbrev main_call68_v5 : Ref sig .tc := ⟨.hbm, 689, rfl⟩
abbrev main_call68_v6 : Ref sig .tc := ⟨.hbm, 690, rfl⟩
abbrev main_call68_c_2 : Ref sig .tc := ⟨.hbm, 691, rfl⟩
abbrev main_call68_v7 : Ref sig .tc := ⟨.hbm, 692, rfl⟩
abbrev main_call68_v8 : Ref sig .tc := ⟨.hbm, 693, rfl⟩
abbrev main_call68_c_3 : Ref sig .tc := ⟨.hbm, 694, rfl⟩
abbrev main_call68_v9 : Ref sig .tc := ⟨.hbm, 695, rfl⟩
abbrev main_call68_v10 : Ref sig .tc := ⟨.hbm, 696, rfl⟩
abbrev main_call68_v11 : Ref sig .tc := ⟨.hbm, 697, rfl⟩
abbrev main_call68_v12 : Ref sig .tc := ⟨.hbm, 698, rfl⟩
abbrev main_call68_v13 : Ref sig .tc := ⟨.hbm, 699, rfl⟩
abbrev main_call68_v14 : Ref sig .tc := ⟨.hbm, 700, rfl⟩
abbrev main_v193 : Ref sig .tc := ⟨.hbm, 701, rfl⟩
abbrev main_v194 : Ref sig .tc := ⟨.hbm, 702, rfl⟩
abbrev main_c_95 : Ref sig .tc := ⟨.hbm, 703, rfl⟩
abbrev main_v195 : Ref sig .tc := ⟨.hbm, 704, rfl⟩
abbrev main_v196 : Ref sig .tc := ⟨.hbm, 705, rfl⟩
abbrev main_c_96 : Ref sig .tc := ⟨.hbm, 706, rfl⟩
abbrev main_call70_v0 : Ref sig .tc := ⟨.hbm, 707, rfl⟩
abbrev main_call70_v1 : Ref sig .tc := ⟨.hbm, 708, rfl⟩
abbrev main_v197 : Ref sig .tc := ⟨.hbm, 709, rfl⟩
abbrev main_v198 : Ref sig .tc := ⟨.hbm, 710, rfl⟩
abbrev main_c_97 : Ref sig .tc := ⟨.hbm, 711, rfl⟩
abbrev main_call71_v0 : Ref sig .tc := ⟨.hbm, 712, rfl⟩
abbrev main_v199 : Ref sig .tc := ⟨.hbm, 713, rfl⟩
abbrev main_c_98 : Ref sig .tc := ⟨.hbm, 714, rfl⟩
abbrev main_v200 : Ref sig .tc := ⟨.hbm, 715, rfl⟩
abbrev main_v201 : Ref sig .tc := ⟨.hbm, 716, rfl⟩
abbrev main_v202 : Ref sig .tc := ⟨.hbm, 717, rfl⟩
abbrev main_c_99 : Ref sig .tc := ⟨.hbm, 718, rfl⟩
abbrev main_call72_v0 : Ref sig .tc := ⟨.hbm, 719, rfl⟩
abbrev main_call72_c : Ref sig .tc := ⟨.hbm, 720, rfl⟩
abbrev main_call72_v1 : Ref sig .tc := ⟨.hbm, 721, rfl⟩
abbrev main_call72_c_0 : Ref sig .tc := ⟨.hbm, 722, rfl⟩
abbrev main_call72_v2 : Ref sig .tc := ⟨.hbm, 723, rfl⟩
abbrev main_call72_v3 : Ref sig .tc := ⟨.hbm, 724, rfl⟩
abbrev main_call72_v4 : Ref sig .tc := ⟨.hbm, 725, rfl⟩
abbrev main_call72_c_1 : Ref sig .tc := ⟨.hbm, 726, rfl⟩
abbrev main_call72_v5 : Ref sig .tc := ⟨.hbm, 727, rfl⟩
abbrev main_call72_v6 : Ref sig .tc := ⟨.hbm, 728, rfl⟩
abbrev main_call72_c_2 : Ref sig .tc := ⟨.hbm, 729, rfl⟩
abbrev main_call72_v7 : Ref sig .tc := ⟨.hbm, 730, rfl⟩
abbrev main_call72_v8 : Ref sig .tc := ⟨.hbm, 731, rfl⟩
abbrev main_call72_c_3 : Ref sig .tc := ⟨.hbm, 732, rfl⟩
abbrev main_call72_v9 : Ref sig .tc := ⟨.hbm, 733, rfl⟩
abbrev main_call72_v10 : Ref sig .tc := ⟨.hbm, 734, rfl⟩
abbrev main_call72_v11 : Ref sig .tc := ⟨.hbm, 735, rfl⟩
abbrev main_call72_v12 : Ref sig .tc := ⟨.hbm, 736, rfl⟩
abbrev main_call72_v13 : Ref sig .tc := ⟨.hbm, 737, rfl⟩
abbrev main_call72_v14 : Ref sig .tc := ⟨.hbm, 738, rfl⟩
abbrev main_v203 : Ref sig .tc := ⟨.hbm, 739, rfl⟩
abbrev main_v204 : Ref sig .tc := ⟨.hbm, 740, rfl⟩
abbrev main_c_100 : Ref sig .tc := ⟨.hbm, 741, rfl⟩
abbrev main_v205 : Ref sig .tc := ⟨.hbm, 742, rfl⟩
abbrev main_v206 : Ref sig .tc := ⟨.hbm, 743, rfl⟩
abbrev main_c_101 : Ref sig .tc := ⟨.hbm, 744, rfl⟩
abbrev main_call74_v0 : Ref sig .tc := ⟨.hbm, 745, rfl⟩
abbrev main_call74_v1 : Ref sig .tc := ⟨.hbm, 746, rfl⟩
abbrev main_v207 : Ref sig .tc := ⟨.hbm, 747, rfl⟩
abbrev main_v208 : Ref sig .tc := ⟨.hbm, 748, rfl⟩
abbrev main_v209 : Ref sig .tc := ⟨.hbm, 749, rfl⟩
abbrev main_v210 : Ref sig .tc := ⟨.hbm, 750, rfl⟩
abbrev main_v211 : Ref sig .tc := ⟨.hbm, 751, rfl⟩
abbrev main_v212 : Ref sig .tc := ⟨.hbm, 752, rfl⟩
abbrev main_v213 : Ref sig .tc := ⟨.hbm, 753, rfl⟩
abbrev main_v214 : Ref sig .tc := ⟨.hbm, 754, rfl⟩
abbrev main_v215 : Ref sig .tc := ⟨.hbm, 755, rfl⟩
abbrev main_v216 : Ref sig .tc := ⟨.hbm, 756, rfl⟩
abbrev main_v217 : Ref sig .tc := ⟨.hbm, 757, rfl⟩
abbrev main_v218 : Ref sig .tc := ⟨.hbm, 758, rfl⟩
abbrev main_v219 : Ref sig .tc := ⟨.hbm, 759, rfl⟩
abbrev main_v220 : Ref sig .tc := ⟨.hbm, 760, rfl⟩
abbrev main_v221 : Ref sig .tc := ⟨.hbm, 761, rfl⟩
abbrev main_v222 : Ref sig .tc := ⟨.hbm, 762, rfl⟩
abbrev main_v223 : Ref sig .tc := ⟨.hbm, 763, rfl⟩
abbrev main_v224 : Ref sig .tc := ⟨.hbm, 764, rfl⟩
abbrev main_v225 : Ref sig .tc := ⟨.hbm, 765, rfl⟩
abbrev main_v226 : Ref sig .tc := ⟨.hbm, 766, rfl⟩
abbrev main_v227 : Ref sig .tc := ⟨.hbm, 767, rfl⟩
abbrev main_v228 : Ref sig .tc := ⟨.hbm, 768, rfl⟩
abbrev main_c_102 : Ref sig .tc := ⟨.hbm, 769, rfl⟩
abbrev main_call75_v0 : Ref sig .tc := ⟨.hbm, 770, rfl⟩
abbrev main_v229 : Ref sig .tc := ⟨.hbm, 771, rfl⟩
abbrev main_v230 : Ref sig .tc := ⟨.hbm, 772, rfl⟩
abbrev main_v231 : Ref sig .tc := ⟨.hbm, 773, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 18], ![false, false]⟩

def k0_cond2 (i : grid0.Coords) : BitVec 1 :=
  let arg1 : BitVec 32 := BitVec.ofNat 32 (i 1).val
  let c17_i32 : BitVec 32 := 17#32
  let v23 : BitVec 1 := Scalar.cmpi .eq arg1 c17_i32
  let v24 : BitVec 32 := Scalar.extui v23
  let c0_i32_12 : BitVec 32 := 0#32
  let v25 : BitVec 1 := Scalar.cmpi .ne v24 c0_i32_12
  v25

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4224x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S14 : S_.BroadcastsInDim S14 (![] : Fin 0 → Fin S14.rank)
  bcast_S_S4 : S_.BroadcastsInDim S4 (![] : Fin 0 → Fin S4.rank)
  bcast_S4_S4x1_0 : S4.BroadcastsInDim S4x1 (![0] : Fin 1 → Fin S4x1.rank)
  bcast_S_S8x8192 : S_.BroadcastsInDim S8x8192 (![] : Fin 0 → Fin S8x8192.rank)
  bcast_S8x8192_S8x8192x1_0_1 : S8x8192.BroadcastsInDim S8x8192x1 (![0, 1] : Fin 2 → Fin S8x8192x1.rank)
  slices_S8x8192_S8x8191_0_0 : S8x8192.Slices ![0, 0] S8x8191
  pads_S8x8191_S8x8192_000_100 : S8x8191.Pads (![0, 1] : Fin 2 → Nat) ![0, 0] ![0, 0] S8x8192
  h_S_ : 0 < S_.numel
  bcast_S8x8192_S1x8x8192_1_2 : S8x8192.BroadcastsInDim S1x8x8192 (![1, 2] : Fin 2 → Fin S1x8x8192.rank)
  concatenates_S1x8x8192_S1x8x8192_S1x8x8192_S1x8x8192_S1x8x8192_S1x8x8192_S1x8x8192_S1x8x8192_S1x8x8192_S1x8x8192_S1x8x8192_S1x8x8192_S1x8x8192_S1x8x8192_S1x8x8192_S1x8x8192_S16x8x8192_d0 : Shape.Concatenates [S1x8x8192, S1x8x8192, S1x8x8192, S1x8x8192, S1x8x8192, S1x8x8192, S1x8x8192, S1x8x8192, S1x8x8192, S1x8x8192, S1x8x8192, S1x8x8192, S1x8x8192, S1x8x8192, S1x8x8192, S1x8x8192] S16x8x8192 0
  concatenates_S1x8x8192_S1x8x8192_S2x8x8192_d0 : Shape.Concatenates [S1x8x8192, S1x8x8192] S2x8x8192 0
  concatenates_S16x8x8192_S2x8x8192_S18x8x8192_d0 : Shape.Concatenates [S16x8x8192, S2x8x8192] S18x8x8192 0
  pads_S18x4097x256_S18x4224x256_000_01270_000 : S18x4097x256.Pads (![0, 0, 0] : Fin 3 → Nat) ![0, 127, 0] ![0, 0, 0] S18x4224x256
  bitsLt_bf16_f32 : FTy.bits .bf16 < FTy.bits .f32
  inb_S8x128x256_S8x128x256_0_0_0 : ∀ a, (![0, 0, 0] : Fin 3 → Nat) a + S8x128x256.size a ≤ S8x128x256.size a
  h_S8x128x256 : 0 < S8x128x256.numel
  shapeCasts_S8x128x256_S8x128x256 : S8x128x256.ShapeCasts S8x128x256
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  iota_S1x1x4224_d2_w32 : S1x1x4224.Iotas .tc 32 [2]
  shapeCasts_S8x128_S8x128x1 : S8x128.ShapeCasts S8x128x1
  broadcasts_S1x1x4224_S8x128x4224 : S1x1x4224.Broadcasts S8x128x4224
  broadcasts_S8x128x1_S8x128x4224 : S8x128x1.Broadcasts S8x128x4224
  natLt_1_32 : 1 < 32
  shapeCasts_S8x128x4224_S1024x4224 : S8x128x4224.ShapeCasts S1024x4224
  inb_S1x4224x256_S1x4224x256_0_0_0 : ∀ a, (![0, 0, 0] : Fin 3 → Nat) a + S1x4224x256.size a ≤ S1x4224x256.size a
  h_S1x4224x256 : 0 < S1x4224x256.numel
  shapeCasts_S1x4224x256_S4224x256 : S1x4224x256.ShapeCasts S4224x256
  shapeCasts_S1024x256_S8x128x256 : S1024x256.ShapeCasts S8x128x256
  scatter_S14_S4x1_S4_n_0_0_1_wf : ScatterDims.WF S14 S4x1 S4 [] [0] [0] 1
  gather_S14_S8x8192x1_S8x8192_n_0_n_n_0_2_1_wf : GatherDims.WF S14 S8x8192x1 S8x8192 [] [0] [] [0] [] 2 ![1]
  dot_S1024x4224_S4224x256_S1024x256_1_0_0_1_n_n_wf : DotDims.WF S1024x4224 S4224x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x128.size a ≤ S18x8x8192.size a
  hwx0_0 : ∀ i : grid0.Coords, EltTy.bits .i32 = 32 ∨ (Rect.block (s := S18x8x8192) S1x8x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4224x256.size a ≤ S18x4224x256.size a
  hwx0_1 : ∀ i : grid0.Coords, EltTy.bits .bf16 = 32 ∨ (Rect.block (s := S18x4224x256) S1x4224x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x256.size a ≤ S8x8192x256.size a
  hwx0_2 : ∀ i : grid0.Coords, EltTy.bits .f32 = 32 ∨ (Rect.block (s := S8x8192x256) S8x128x256.size (cc0_transform_2 i) (hinb0_2 i)).WholeWords (EltTy.packing .f32)

variable [Facts₀]

def scatter_S14_S4x1_S4_n_0_0_1 : ScatterDims S14 S4x1 S4 where
  updateWindowDims := []
  insertedWindowDims := [0]
  scatterDimsToOperandDims := [0]
  indexVectorDim := 1
  wf := scatter_S14_S4x1_S4_n_0_0_1_wf
def gather_S14_S8x8192x1_S8x8192_n_0_n_n_0_2_1 : GatherDims S14 S8x8192x1 S8x8192 where
  offsetDims := []
  collapsedSliceDims := [0]
  operandBatchingDims := []
  startIndicesBatchingDims := []
  startIndexMap := [0]
  indexVectorDim := 2
  sliceSizes := ![1]
  wf := gather_S14_S8x8192x1_S8x8192_n_0_n_n_0_2_1_wf
def dot_S1024x4224_S4224x256_S1024x256_1_0_0_1_n_n : DotDims S1024x4224 S4224x256 S1024x256 where
  lhsContracting := [1]
  rhsContracting := [0]
  lhsNonContracting := [0]
  rhsNonContracting := [1]
  lhsBatch := []
  rhsBatch := []
  wf := dot_S1024x4224_S4224x256_S1024x256_1_0_0_1_n_n_wf

abbrev win0_0 : Pipeline.Window sig grid0 :=
  Pipeline.Window.ofSpec (Memref.whole main_v228) S1x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v230) S1x4224x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v231) S8x128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x8192 : Shape := ⟨2, ![8, 8192]⟩
abbrev S18x4097x256 : Shape := ⟨3, ![18, 4097, 256]⟩
abbrev S4 : Shape := ⟨1, ![4]⟩
abbrev S_ : Shape := ⟨0, ![]⟩
abbrev S14 : Shape := ⟨1, ![14]⟩
abbrev S4x1 : Shape := ⟨2, ![4, 1]⟩
abbrev S8x8192x1 : Shape := ⟨3, ![8, 8192, 1]⟩
abbrev S8x8191 : Shape := ⟨2, ![8, 8191]⟩
abbrev S8x8192x256 : Shape := ⟨3, ![8, 8192, 256]⟩
abbrev S1x4097x256 : Shape := ⟨3, ![1, 4097, 256]⟩
abbrev S4097x256 : Shape := ⟨2, ![4097, 256]⟩

abbrev nBuf : Space → Nat
  | .hbm => 969
  | .vmem => 0
  | .smem => 0
  | _ => 0

abbrev hbmTy0_0 (i : Nat) : BufTy := match i % 128 with
  | 0 => ⟨S8x8192, .i32⟩
  | 1 => ⟨S18x4097x256, .f32⟩
  | 2 => ⟨S4, .i32⟩
  | 3 => ⟨S4, .i32⟩
  | 4 => ⟨S_, .i32⟩
  | 5 => ⟨S14, .i32⟩
  | 6 => ⟨S_, .i32⟩
  | 7 => ⟨S4, .i32⟩
  | 8 => ⟨S4, .i1⟩
  | 9 => ⟨S_, .i32⟩
  | 10 => ⟨S4, .i32⟩
  | 11 => ⟨S4, .i32⟩
  | 12 => ⟨S4, .i32⟩
  | 13 => ⟨S4x1, .i32⟩
  | 14 => ⟨S14, .i32⟩
  | 15 => ⟨S_, .i32⟩
  | 16 => ⟨S8x8192, .i32⟩
  | 17 => ⟨S8x8192, .i1⟩
  | 18 => ⟨S_, .i32⟩
  | 19 => ⟨S8x8192, .i32⟩
  | 20 => ⟨S8x8192, .i32⟩
  | 21 => ⟨S8x8192, .i32⟩
  | 22 => ⟨S8x8192x1, .i32⟩
  | 23 => ⟨S8x8192, .i32⟩
  | 24 => ⟨S_, .i32⟩
  | 25 => ⟨S8x8192, .i32⟩
  | 26 => ⟨S8x8192, .i32⟩
  | 27 => ⟨S_, .i32⟩
  | 28 => ⟨S8x8192, .i32⟩
  | 29 => ⟨S8x8192, .i1⟩
  | 30 => ⟨S8x8191, .i32⟩
  | 31 => ⟨S_, .i32⟩
  | 32 => ⟨S_, .i32⟩
  | 33 => ⟨S8x8192, .i32⟩
  | 34 => ⟨S_, .i32⟩
  | 35 => ⟨S8x8192, .i32⟩
  | 36 => ⟨S8x8192, .i32⟩
  | 37 => ⟨S8x8192, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S8x8192, .i32⟩
  | 45 => ⟨S8x8192, .i32⟩
  | 46 => ⟨S_, .i32⟩
  | 47 => ⟨S8x8192, .i32⟩
  | 48 => ⟨S8x8192, .i1⟩
  | 49 => ⟨S_, .i32⟩
  | 50 => ⟨S8x8192, .i32⟩
  | 51 => ⟨S8x8192, .i1⟩
  | 52 => ⟨S_, .i32⟩
  | 53 => ⟨S_, .i1⟩
  | 54 => ⟨S8x8192, .i1⟩
  | 55 => ⟨S8x8192, .i1⟩
  | 56 => ⟨S8x8192, .i1⟩
  | 57 => ⟨S8x8192, .i32⟩
  | 58 => ⟨S8x8192, .i32⟩
  | 59 => ⟨S8x8192, .i32⟩
  | 60 => ⟨S8x8191, .i1⟩
  | 61 => ⟨S_, .i1⟩
  | 62 => ⟨S8x8192, .i1⟩
  | 63 => ⟨S8x8192, .i1⟩
  | 64 => ⟨S8x8191, .i32⟩
  | 65 => ⟨S_, .i32⟩
  | 66 => ⟨S_, .i32⟩
  | 67 => ⟨S8x8192, .i32⟩
  | 68 => ⟨S_, .i32⟩
  | 69 => ⟨S8x8192, .i32⟩
  | 70 => ⟨S8x8192, .i32⟩
  | 71 => ⟨S8x8192, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S8x8192, .i32⟩
  | 79 => ⟨S8x8192, .i32⟩
  | 80 => ⟨S_, .i32⟩
  | 81 => ⟨S8x8192, .i32⟩
  | 82 => ⟨S8x8192, .i1⟩
  | 83 => ⟨S_, .i32⟩
  | 84 => ⟨S8x8192, .i32⟩
  | 85 => ⟨S8x8192, .i1⟩
  | 86 => ⟨S_, .i32⟩
  | 87 => ⟨S_, .i1⟩
  | 88 => ⟨S8x8192, .i1⟩
  | 89 => ⟨S8x8192, .i1⟩
  | 90 => ⟨S8x8192, .i1⟩
  | 91 => ⟨S8x8192, .i32⟩
  | 92 => ⟨S8x8192, .i32⟩
  | 93 => ⟨S8x8192, .i32⟩
  | 94 => ⟨S8x8191, .i1⟩
  | 95 => ⟨S_, .i1⟩
  | 96 => ⟨S8x8192, .i1⟩
  | 97 => ⟨S8x8192, .i1⟩
  | 98 => ⟨S_, .i32⟩
  | 99 => ⟨S_, .i32⟩
  | 100 => ⟨S8x8192, .i32⟩
  | 101 => ⟨S8x8192, .i32⟩
  | 102 => ⟨S8x8191, .i32⟩
  | 103 => ⟨S_, .i32⟩
  | 104 => ⟨S_, .i32⟩
  | 105 => ⟨S8x8192, .i32⟩
  | 106 => ⟨S_, .i32⟩
  | 107 => ⟨S8x8192, .i32⟩
  | 108 => ⟨S8x8192, .i32⟩
  | 109 => ⟨S8x8192, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S8x8192, .i32⟩
  | 117 => ⟨S8x8192, .i32⟩
  | 118 => ⟨S_, .i32⟩
  | 119 => ⟨S8x8192, .i32⟩
  | 120 => ⟨S8x8192, .i1⟩
  | 121 => ⟨S_, .i32⟩
  | 122 => ⟨S8x8192, .i32⟩
  | 123 => ⟨S8x8192, .i1⟩
  | 124 => ⟨S_, .i32⟩
  | 125 => ⟨S_, .i1⟩
  | 126 => ⟨S8x8192, .i1⟩
  | 127 => ⟨S8x8192, .i1⟩
  | _ => ⟨S8x8192, .i32⟩

abbrev hbmTy0_1 (i : Nat) : BufTy := match i % 128 with
  | 0 => ⟨S8x8192, .i1⟩
  | 1 => ⟨S8x8192, .i32⟩
  | 2 => ⟨S8x8192, .i32⟩
  | 3 => ⟨S8x8192, .i32⟩
  | 4 => ⟨S8x8191, .i1⟩
  | 5 => ⟨S_, .i1⟩
  | 6 => ⟨S8x8192, .i1⟩
  | 7 => ⟨S8x8192, .i1⟩
  | 8 => ⟨S_, .i32⟩
  | 9 => ⟨S_, .i32⟩
  | 10 => ⟨S8x8192, .i32⟩
  | 11 => ⟨S8x8192, .i32⟩
  | 12 => ⟨S8x8191, .i32⟩
  | 13 => ⟨S_, .i32⟩
  | 14 => ⟨S_, .i32⟩
  | 15 => ⟨S8x8192, .i32⟩
  | 16 => ⟨S_, .i32⟩
  | 17 => ⟨S8x8192, .i32⟩
  | 18 => ⟨S8x8192, .i32⟩
  | 19 => ⟨S8x8192, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S8x8192, .i32⟩
  | 27 => ⟨S8x8192, .i32⟩
  | 28 => ⟨S_, .i32⟩
  | 29 => ⟨S8x8192, .i32⟩
  | 30 => ⟨S8x8192, .i1⟩
  | 31 => ⟨S_, .i32⟩
  | 32 => ⟨S8x8192, .i32⟩
  | 33 => ⟨S8x8192, .i1⟩
  | 34 => ⟨S_, .i32⟩
  | 35 => ⟨S_, .i1⟩
  | 36 => ⟨S8x8192, .i1⟩
  | 37 => ⟨S8x8192, .i1⟩
  | 38 => ⟨S8x8192, .i1⟩
  | 39 => ⟨S8x8192, .i32⟩
  | 40 => ⟨S8x8192, .i32⟩
  | 41 => ⟨S8x8192, .i32⟩
  | 42 => ⟨S8x8191, .i1⟩
  | 43 => ⟨S_, .i1⟩
  | 44 => ⟨S8x8192, .i1⟩
  | 45 => ⟨S8x8192, .i1⟩
  | 46 => ⟨S_, .i32⟩
  | 47 => ⟨S_, .i32⟩
  | 48 => ⟨S8x8192, .i32⟩
  | 49 => ⟨S8x8192, .i32⟩
  | 50 => ⟨S8x8191, .i32⟩
  | 51 => ⟨S_, .i32⟩
  | 52 => ⟨S_, .i32⟩
  | 53 => ⟨S8x8192, .i32⟩
  | 54 => ⟨S_, .i32⟩
  | 55 => ⟨S8x8192, .i32⟩
  | 56 => ⟨S8x8192, .i32⟩
  | 57 => ⟨S8x8192, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S8x8192, .i32⟩
  | 65 => ⟨S8x8192, .i32⟩
  | 66 => ⟨S_, .i32⟩
  | 67 => ⟨S8x8192, .i32⟩
  | 68 => ⟨S8x8192, .i1⟩
  | 69 => ⟨S_, .i32⟩
  | 70 => ⟨S8x8192, .i32⟩
  | 71 => ⟨S8x8192, .i1⟩
  | 72 => ⟨S_, .i32⟩
  | 73 => ⟨S_, .i1⟩
  | 74 => ⟨S8x8192, .i1⟩
  | 75 => ⟨S8x8192, .i1⟩
  | 76 => ⟨S8x8192, .i1⟩
  | 77 => ⟨S8x8192, .i32⟩
  | 78 => ⟨S8x8192, .i32⟩
  | 79 => ⟨S8x8192, .i32⟩
  | 80 => ⟨S8x8191, .i1⟩
  | 81 => ⟨S_, .i1⟩
  | 82 => ⟨S8x8192, .i1⟩
  | 83 => ⟨S8x8192, .i1⟩
  | 84 => ⟨S_, .i32⟩
  | 85 => ⟨S_, .i32⟩
  | 86 => ⟨S8x8192, .i32⟩
  | 87 => ⟨S8x8192, .i32⟩
  | 88 => ⟨S8x8191, .i32⟩
  | 89 => ⟨S_, .i32⟩
  | 90 => ⟨S_, .i32⟩
  | 91 => ⟨S8x8192, .i32⟩
  | 92 => ⟨S_, .i32⟩
  | 93 => ⟨S8x8192, .i32⟩
  | 94 => ⟨S8x8192, .i32⟩
  | 95 => ⟨S8x8192, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S8x8192, .i32⟩
  | 103 => ⟨S8x8192, .i32⟩
  | 104 => ⟨S_, .i32⟩
  | 105 => ⟨S8x8192, .i32⟩
  | 106 => ⟨S8x8192, .i1⟩
  | 107 => ⟨S_, .i32⟩
  | 108 => ⟨S8x8192, .i32⟩
  | 109 => ⟨S8x8192, .i1⟩
  | 110 => ⟨S_, .i32⟩
  | 111 => ⟨S_, .i1⟩
  | 112 => ⟨S8x8192, .i1⟩
  | 113 => ⟨S8x8192, .i1⟩
  | 114 => ⟨S8x8192, .i1⟩
  | 115 => ⟨S8x8192, .i32⟩
  | 116 => ⟨S8x8192, .i32⟩
  | 117 => ⟨S8x8192, .i32⟩
  | 118 => ⟨S8x8191, .i1⟩
  | 119 => ⟨S_, .i1⟩
  | 120 => ⟨S8x8192, .i1⟩
  | 121 => ⟨S8x8192, .i1⟩
  | 122 => ⟨S_, .i32⟩
  | 123 => ⟨S_, .i32⟩
  | 124 => ⟨S8x8192, .i32⟩
  | 125 => ⟨S8x8192, .i32⟩
  | 126 => ⟨S8x8191, .i32⟩
  | 127 => ⟨S_, .i32⟩
  | _ => ⟨S8x8192, .i32⟩

abbrev hbmTy0_2 (i : Nat) : BufTy := match i % 128 with
  | 0 => ⟨S_, .i32⟩
  | 1 => ⟨S8x8192, .i32⟩
  | 2 => ⟨S_, .i32⟩
  | 3 => ⟨S8x8192, .i32⟩
  | 4 => ⟨S8x8192, .i32⟩
  | 5 => ⟨S8x8192, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S8x8192, .i32⟩
  | 13 => ⟨S8x8192, .i32⟩
  | 14 => ⟨S_, .i32⟩
  | 15 => ⟨S8x8192, .i32⟩
  | 16 => ⟨S8x8192, .i1⟩
  | 17 => ⟨S_, .i32⟩
  | 18 => ⟨S8x8192, .i32⟩
  | 19 => ⟨S8x8192, .i1⟩
  | 20 => ⟨S_, .i32⟩
  | 21 => ⟨S_, .i1⟩
  | 22 => ⟨S8x8192, .i1⟩
  | 23 => ⟨S8x8192, .i1⟩
  | 24 => ⟨S8x8192, .i1⟩
  | 25 => ⟨S8x8192, .i32⟩
  | 26 => ⟨S8x8192, .i32⟩
  | 27 => ⟨S8x8192, .i32⟩
  | 28 => ⟨S8x8191, .i1⟩
  | 29 => ⟨S_, .i1⟩
  | 30 => ⟨S8x8192, .i1⟩
  | 31 => ⟨S8x8192, .i1⟩
  | 32 => ⟨S_, .i32⟩
  | 33 => ⟨S_, .i32⟩
  | 34 => ⟨S8x8192, .i32⟩
  | 35 => ⟨S8x8192, .i32⟩
  | 36 => ⟨S8x8191, .i32⟩
  | 37 => ⟨S_, .i32⟩
  | 38 => ⟨S_, .i32⟩
  | 39 => ⟨S8x8192, .i32⟩
  | 40 => ⟨S_, .i32⟩
  | 41 => ⟨S8x8192, .i32⟩
  | 42 => ⟨S8x8192, .i32⟩
  | 43 => ⟨S8x8192, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S8x8192, .i32⟩
  | 51 => ⟨S8x8192, .i32⟩
  | 52 => ⟨S_, .i32⟩
  | 53 => ⟨S8x8192, .i32⟩
  | 54 => ⟨S8x8192, .i1⟩
  | 55 => ⟨S_, .i32⟩
  | 56 => ⟨S8x8192, .i32⟩
  | 57 => ⟨S8x8192, .i1⟩
  | 58 => ⟨S_, .i32⟩
  | 59 => ⟨S_, .i1⟩
  | 60 => ⟨S8x8192, .i1⟩
  | 61 => ⟨S8x8192, .i1⟩
  | 62 => ⟨S8x8192, .i1⟩
  | 63 => ⟨S8x8192, .i32⟩
  | 64 => ⟨S8x8192, .i32⟩
  | 65 => ⟨S8x8192, .i32⟩
  | 66 => ⟨S8x8191, .i1⟩
  | 67 => ⟨S_, .i1⟩
  | 68 => ⟨S8x8192, .i1⟩
  | 69 => ⟨S8x8192, .i1⟩
  | 70 => ⟨S_, .i32⟩
  | 71 => ⟨S_, .i32⟩
  | 72 => ⟨S8x8192, .i32⟩
  | 73 => ⟨S8x8192, .i32⟩
  | 74 => ⟨S8x8191, .i32⟩
  | 75 => ⟨S_, .i32⟩
  | 76 => ⟨S_, .i32⟩
  | 77 => ⟨S8x8192, .i32⟩
  | 78 => ⟨S_, .i32⟩
  | 79 => ⟨S8x8192, .i32⟩
  | 80 => ⟨S8x8192, .i32⟩
  | 81 => ⟨S8x8192, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S8x8192, .i32⟩
  | 89 => ⟨S8x8192, .i32⟩
  | 90 => ⟨S_, .i32⟩
  | 91 => ⟨S8x8192, .i32⟩
  | 92 => ⟨S8x8192, .i1⟩
  | 93 => ⟨S_, .i32⟩
  | 94 => ⟨S8x8192, .i32⟩
  | 95 => ⟨S8x8192, .i1⟩
  | 96 => ⟨S_, .i32⟩
  | 97 => ⟨S_, .i1⟩
  | 98 => ⟨S8x8192, .i1⟩
  | 99 => ⟨S8x8192, .i1⟩
  | 100 => ⟨S8x8192, .i1⟩
  | 101 => ⟨S8x8192, .i32⟩
  | 102 => ⟨S8x8192, .i32⟩
  | 103 => ⟨S8x8192, .i32⟩
  | 104 => ⟨S8x8191, .i1⟩
  | 105 => ⟨S_, .i1⟩
  | 106 => ⟨S8x8192, .i1⟩
  | 107 => ⟨S8x8192, .i1⟩
  | 108 => ⟨S_, .i32⟩
  | 109 => ⟨S_, .i32⟩
  | 110 => ⟨S8x8192, .i32⟩
  | 111 => ⟨S8x8192, .i32⟩
  | 112 => ⟨S8x8191, .i32⟩
  | 113 => ⟨S_, .i32⟩
  | 114 => ⟨S_, .i32⟩
  | 115 => ⟨S8x8192, .i32⟩
  | 116 => ⟨S_, .i32⟩
  | 117 => ⟨S8x8192, .i32⟩
  | 118 => ⟨S8x8192, .i32⟩
  | 119 => ⟨S8x8192, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S8x8192, .i32⟩
  | 127 => ⟨S8x8192, .i32⟩
  | _ => ⟨S8x8192, .i32⟩

abbrev hbmTy0_3 (i : Nat) : BufTy := match i % 128 with
  | 0 => ⟨S_, .i32⟩
  | 1 => ⟨S8x8192, .i32⟩
  | 2 => ⟨S8x8192, .i1⟩
  | 3 => ⟨S_, .i32⟩
  | 4 => ⟨S8x8192, .i32⟩
  | 5 => ⟨S8x8192, .i1⟩
  | 6 => ⟨S_, .i32⟩
  | 7 => ⟨S_, .i1⟩
  | 8 => ⟨S8x8192, .i1⟩
  | 9 => ⟨S8x8192, .i1⟩
  | 10 => ⟨S8x8192, .i1⟩
  | 11 => ⟨S8x8192, .i32⟩
  | 12 => ⟨S8x8192, .i32⟩
  | 13 => ⟨S8x8192, .i32⟩
  | 14 => ⟨S8x8191, .i1⟩
  | 15 => ⟨S_, .i1⟩
  | 16 => ⟨S8x8192, .i1⟩
  | 17 => ⟨S8x8192, .i1⟩
  | 18 => ⟨S_, .i32⟩
  | 19 => ⟨S_, .i32⟩
  | 20 => ⟨S8x8192, .i32⟩
  | 21 => ⟨S8x8192, .i32⟩
  | 22 => ⟨S8x8191, .i32⟩
  | 23 => ⟨S_, .i32⟩
  | 24 => ⟨S_, .i32⟩
  | 25 => ⟨S8x8192, .i32⟩
  | 26 => ⟨S_, .i32⟩
  | 27 => ⟨S8x8192, .i32⟩
  | 28 => ⟨S8x8192, .i32⟩
  | 29 => ⟨S8x8192, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S8x8192, .i32⟩
  | 37 => ⟨S8x8192, .i32⟩
  | 38 => ⟨S_, .i32⟩
  | 39 => ⟨S8x8192, .i32⟩
  | 40 => ⟨S8x8192, .i1⟩
  | 41 => ⟨S_, .i32⟩
  | 42 => ⟨S8x8192, .i32⟩
  | 43 => ⟨S8x8192, .i1⟩
  | 44 => ⟨S_, .i32⟩
  | 45 => ⟨S_, .i1⟩
  | 46 => ⟨S8x8192, .i1⟩
  | 47 => ⟨S8x8192, .i1⟩
  | 48 => ⟨S8x8192, .i1⟩
  | 49 => ⟨S8x8192, .i32⟩
  | 50 => ⟨S8x8192, .i32⟩
  | 51 => ⟨S8x8192, .i32⟩
  | 52 => ⟨S8x8191, .i1⟩
  | 53 => ⟨S_, .i1⟩
  | 54 => ⟨S8x8192, .i1⟩
  | 55 => ⟨S8x8192, .i1⟩
  | 56 => ⟨S_, .i32⟩
  | 57 => ⟨S_, .i32⟩
  | 58 => ⟨S8x8192, .i32⟩
  | 59 => ⟨S8x8192, .i32⟩
  | 60 => ⟨S8x8191, .i32⟩
  | 61 => ⟨S_, .i32⟩
  | 62 => ⟨S_, .i32⟩
  | 63 => ⟨S8x8192, .i32⟩
  | 64 => ⟨S_, .i32⟩
  | 65 => ⟨S8x8192, .i32⟩
  | 66 => ⟨S8x8192, .i32⟩
  | 67 => ⟨S8x8192, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S8x8192, .i32⟩
  | 75 => ⟨S8x8192, .i32⟩
  | 76 => ⟨S_, .i32⟩
  | 77 => ⟨S8x8192, .i32⟩
  | 78 => ⟨S8x8192, .i1⟩
  | 79 => ⟨S_, .i32⟩
  | 80 => ⟨S8x8192, .i32⟩
  | 81 => ⟨S8x8192, .i1⟩
  | 82 => ⟨S_, .i32⟩
  | 83 => ⟨S_, .i1⟩
  | 84 => ⟨S8x8192, .i1⟩
  | 85 => ⟨S8x8192, .i1⟩
  | 86 => ⟨S8x8192, .i1⟩
  | 87 => ⟨S8x8192, .i32⟩
  | 88 => ⟨S8x8192, .i32⟩
  | 89 => ⟨S8x8192, .i32⟩
  | 90 => ⟨S8x8191, .i1⟩
  | 91 => ⟨S_, .i1⟩
  | 92 => ⟨S8x8192, .i1⟩
  | 93 => ⟨S8x8192, .i1⟩
  | 94 => ⟨S_, .i32⟩
  | 95 => ⟨S_, .i32⟩
  | 96 => ⟨S8x8192, .i32⟩
  | 97 => ⟨S8x8192, .i32⟩
  | 98 => ⟨S8x8191, .i32⟩
  | 99 => ⟨S_, .i32⟩
  | 100 => ⟨S_, .i32⟩
  | 101 => ⟨S8x8192, .i32⟩
  | 102 => ⟨S_, .i32⟩
  | 103 => ⟨S8x8192, .i32⟩
  | 104 => ⟨S8x8192, .i32⟩
  | 105 => ⟨S8x8192, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S8x8192, .i32⟩
  | 113 => ⟨S8x8192, .i32⟩
  | 114 => ⟨S_, .i32⟩
  | 115 => ⟨S8x8192, .i32⟩
  | 116 => ⟨S8x8192, .i1⟩
  | 117 => ⟨S_, .i32⟩
  | 118 => ⟨S8x8192, .i32⟩
  | 119 => ⟨S8x8192, .i1⟩
  | 120 => ⟨S_, .i32⟩
  | 121 => ⟨S_, .i1⟩
  | 122 => ⟨S8x8192, .i1⟩
  | 123 => ⟨S8x8192, .i1⟩
  | 124 => ⟨S8x8192, .i1⟩
  | 125 => ⟨S8x8192, .i32⟩
  | 126 => ⟨S8x8192, .i32⟩
  | 127 => ⟨S8x8192, .i32⟩
  | _ => ⟨S8x8192, .i32⟩

abbrev hbmTy0_4 (i : Nat) : BufTy := match i % 128 with
  | 0 => ⟨S8x8191, .i1⟩
  | 1 => ⟨S_, .i1⟩
  | 2 => ⟨S8x8192, .i1⟩
  | 3 => ⟨S8x8192, .i1⟩
  | 4 => ⟨S_, .i32⟩
  | 5 => ⟨S_, .i32⟩
  | 6 => ⟨S8x8192, .i32⟩
  | 7 => ⟨S8x8192, .i32⟩
  | 8 => ⟨S8x8191, .i32⟩
  | 9 => ⟨S_, .i32⟩
  | 10 => ⟨S_, .i32⟩
  | 11 => ⟨S8x8192, .i32⟩
  | 12 => ⟨S_, .i32⟩
  | 13 => ⟨S8x8192, .i32⟩
  | 14 => ⟨S8x8192, .i32⟩
  | 15 => ⟨S8x8192, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S8x8192, .i32⟩
  | 23 => ⟨S8x8192, .i32⟩
  | 24 => ⟨S_, .i32⟩
  | 25 => ⟨S8x8192, .i32⟩
  | 26 => ⟨S8x8192, .i1⟩
  | 27 => ⟨S_, .i32⟩
  | 28 => ⟨S8x8192, .i32⟩
  | 29 => ⟨S8x8192, .i1⟩
  | 30 => ⟨S_, .i32⟩
  | 31 => ⟨S_, .i1⟩
  | 32 => ⟨S8x8192, .i1⟩
  | 33 => ⟨S8x8192, .i1⟩
  | 34 => ⟨S8x8192, .i1⟩
  | 35 => ⟨S8x8192, .i32⟩
  | 36 => ⟨S8x8192, .i32⟩
  | 37 => ⟨S8x8192, .i32⟩
  | 38 => ⟨S8x8191, .i1⟩
  | 39 => ⟨S_, .i1⟩
  | 40 => ⟨S8x8192, .i1⟩
  | 41 => ⟨S8x8192, .i1⟩
  | 42 => ⟨S_, .i32⟩
  | 43 => ⟨S_, .i32⟩
  | 44 => ⟨S8x8192, .i32⟩
  | 45 => ⟨S8x8192, .i32⟩
  | 46 => ⟨S8x8191, .i32⟩
  | 47 => ⟨S_, .i32⟩
  | 48 => ⟨S_, .i32⟩
  | 49 => ⟨S8x8192, .i32⟩
  | 50 => ⟨S_, .i32⟩
  | 51 => ⟨S8x8192, .i32⟩
  | 52 => ⟨S8x8192, .i32⟩
  | 53 => ⟨S8x8192, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S8x8192, .i32⟩
  | 61 => ⟨S8x8192, .i32⟩
  | 62 => ⟨S_, .i32⟩
  | 63 => ⟨S8x8192, .i32⟩
  | 64 => ⟨S8x8192, .i1⟩
  | 65 => ⟨S_, .i32⟩
  | 66 => ⟨S8x8192, .i32⟩
  | 67 => ⟨S8x8192, .i1⟩
  | 68 => ⟨S_, .i32⟩
  | 69 => ⟨S_, .i1⟩
  | 70 => ⟨S8x8192, .i1⟩
  | 71 => ⟨S8x8192, .i1⟩
  | 72 => ⟨S8x8192, .i1⟩
  | 73 => ⟨S8x8192, .i32⟩
  | 74 => ⟨S8x8192, .i32⟩
  | 75 => ⟨S8x8192, .i32⟩
  | 76 => ⟨S8x8191, .i1⟩
  | 77 => ⟨S_, .i1⟩
  | 78 => ⟨S8x8192, .i1⟩
  | 79 => ⟨S8x8192, .i1⟩
  | 80 => ⟨S_, .i32⟩
  | 81 => ⟨S_, .i32⟩
  | 82 => ⟨S8x8192, .i32⟩
  | 83 => ⟨S8x8192, .i32⟩
  | 84 => ⟨S8x8191, .i32⟩
  | 85 => ⟨S_, .i32⟩
  | 86 => ⟨S_, .i32⟩
  | 87 => ⟨S8x8192, .i32⟩
  | 88 => ⟨S_, .i32⟩
  | 89 => ⟨S8x8192, .i32⟩
  | 90 => ⟨S8x8192, .i32⟩
  | 91 => ⟨S8x8192, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S8x8192, .i32⟩
  | 99 => ⟨S8x8192, .i32⟩
  | 100 => ⟨S_, .i32⟩
  | 101 => ⟨S8x8192, .i32⟩
  | 102 => ⟨S8x8192, .i1⟩
  | 103 => ⟨S_, .i32⟩
  | 104 => ⟨S8x8192, .i32⟩
  | 105 => ⟨S8x8192, .i1⟩
  | 106 => ⟨S_, .i32⟩
  | 107 => ⟨S_, .i1⟩
  | 108 => ⟨S8x8192, .i1⟩
  | 109 => ⟨S8x8192, .i1⟩
  | 110 => ⟨S8x8192, .i1⟩
  | 111 => ⟨S8x8192, .i32⟩
  | 112 => ⟨S8x8192, .i32⟩
  | 113 => ⟨S8x8192, .i32⟩
  | 114 => ⟨S8x8191, .i1⟩
  | 115 => ⟨S_, .i1⟩
  | 116 => ⟨S8x8192, .i1⟩
  | 117 => ⟨S8x8192, .i1⟩
  | 118 => ⟨S_, .i32⟩
  | 119 => ⟨S_, .i32⟩
  | 120 => ⟨S8x8192, .i32⟩
  | 121 => ⟨S8x8192, .i32⟩
  | 122 => ⟨S8x8191, .i32⟩
  | 123 => ⟨S_, .i32⟩
  | 124 => ⟨S_, .i32⟩
  | 125 => ⟨S8x8192, .i32⟩
  | 126 => ⟨S_, .i32⟩
  | 127 => ⟨S8x8192, .i32⟩
  | _ => ⟨S8x8192, .i32⟩

abbrev hbmTy0_5 (i : Nat) : BufTy := match i % 128 with
  | 0 => ⟨S8x8192, .i32⟩
  | 1 => ⟨S8x8192, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S8x8192, .i32⟩
  | 9 => ⟨S8x8192, .i32⟩
  | 10 => ⟨S_, .i32⟩
  | 11 => ⟨S8x8192, .i32⟩
  | 12 => ⟨S8x8192, .i1⟩
  | 13 => ⟨S_, .i32⟩
  | 14 => ⟨S8x8192, .i32⟩
  | 15 => ⟨S8x8192, .i1⟩
  | 16 => ⟨S_, .i32⟩
  | 17 => ⟨S_, .i1⟩
  | 18 => ⟨S8x8192, .i1⟩
  | 19 => ⟨S8x8192, .i1⟩
  | 20 => ⟨S8x8192, .i1⟩
  | 21 => ⟨S8x8192, .i32⟩
  | 22 => ⟨S8x8192, .i32⟩
  | 23 => ⟨S8x8192, .i32⟩
  | 24 => ⟨S8x8191, .i1⟩
  | 25 => ⟨S_, .i1⟩
  | 26 => ⟨S8x8192, .i1⟩
  | 27 => ⟨S8x8192, .i1⟩
  | 28 => ⟨S_, .i32⟩
  | 29 => ⟨S_, .i32⟩
  | 30 => ⟨S8x8192, .i32⟩
  | 31 => ⟨S8x8192, .i32⟩
  | 32 => ⟨S8x8191, .i32⟩
  | 33 => ⟨S_, .i32⟩
  | 34 => ⟨S_, .i32⟩
  | 35 => ⟨S8x8192, .i32⟩
  | 36 => ⟨S_, .i32⟩
  | 37 => ⟨S8x8192, .i32⟩
  | 38 => ⟨S8x8192, .i32⟩
  | 39 => ⟨S8x8192, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S8x8192, .i32⟩
  | 47 => ⟨S8x8192, .i32⟩
  | 48 => ⟨S_, .i32⟩
  | 49 => ⟨S8x8192, .i32⟩
  | 50 => ⟨S8x8192, .i1⟩
  | 51 => ⟨S_, .i32⟩
  | 52 => ⟨S8x8192, .i32⟩
  | 53 => ⟨S8x8192, .i1⟩
  | 54 => ⟨S_, .i32⟩
  | 55 => ⟨S_, .i1⟩
  | 56 => ⟨S8x8192, .i1⟩
  | 57 => ⟨S8x8192, .i1⟩
  | 58 => ⟨S8x8192, .i1⟩
  | 59 => ⟨S8x8192, .i32⟩
  | 60 => ⟨S8x8192, .i32⟩
  | 61 => ⟨S8x8192, .i32⟩
  | 62 => ⟨S8x8191, .i1⟩
  | 63 => ⟨S_, .i1⟩
  | 64 => ⟨S8x8192, .i1⟩
  | 65 => ⟨S8x8192, .i1⟩
  | 66 => ⟨S_, .i32⟩
  | 67 => ⟨S_, .i32⟩
  | 68 => ⟨S8x8192, .i32⟩
  | 69 => ⟨S8x8192, .i32⟩
  | 70 => ⟨S8x8191, .i32⟩
  | 71 => ⟨S_, .i32⟩
  | 72 => ⟨S_, .i32⟩
  | 73 => ⟨S8x8192, .i32⟩
  | 74 => ⟨S_, .i32⟩
  | 75 => ⟨S8x8192, .i32⟩
  | 76 => ⟨S8x8192, .i32⟩
  | 77 => ⟨S8x8192, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S8x8192, .i32⟩
  | 85 => ⟨S8x8192, .i32⟩
  | 86 => ⟨S_, .i32⟩
  | 87 => ⟨S8x8192, .i32⟩
  | 88 => ⟨S8x8192, .i1⟩
  | 89 => ⟨S_, .i32⟩
  | 90 => ⟨S8x8192, .i32⟩
  | 91 => ⟨S8x8192, .i1⟩
  | 92 => ⟨S_, .i32⟩
  | 93 => ⟨S_, .i1⟩
  | 94 => ⟨S8x8192, .i1⟩
  | 95 => ⟨S8x8192, .i1⟩
  | 96 => ⟨S8x8192, .i1⟩
  | 97 => ⟨S8x8192, .i32⟩
  | 98 => ⟨S8x8192, .i32⟩
  | 99 => ⟨S8x8192, .i32⟩
  | 100 => ⟨S8x8191, .i1⟩
  | 101 => ⟨S_, .i1⟩
  | 102 => ⟨S8x8192, .i1⟩
  | 103 => ⟨S8x8192, .i1⟩
  | 104 => ⟨S_, .i32⟩
  | 105 => ⟨S_, .i32⟩
  | 106 => ⟨S8x8192, .i32⟩
  | 107 => ⟨S8x8192, .i32⟩
  | 108 => ⟨S_, .f32⟩
  | 109 => ⟨S8x8192x256, .f32⟩
  | 110 => ⟨S1x4097x256, .f32⟩
  | 111 => ⟨S4097x256, .f32⟩
  | 112 => ⟨S_, .i32⟩
  | 113 => ⟨S8x8192, .i32⟩
  | 114 => ⟨S8x8192, .i1⟩
  | 115 => ⟨S_, .i32⟩
  | 116 => ⟨S8x8192, .i32⟩
  | 117 => ⟨S8x8192, .i32⟩
  | 118 => ⟨S8x8192, .i32⟩
  | 119 => ⟨S8x8192x1, .i32⟩
  | 120 => ⟨S8x8192x256, .f32⟩
  | 121 => ⟨S8x8192x256, .f32⟩
  | 122 => ⟨S1x4097x256, .f32⟩
  | 123 => ⟨S4097x256, .f32⟩
  | 124 => ⟨S_, .i32⟩
  | 125 => ⟨S8x8192, .i32⟩
  | 126 => ⟨S8x8192, .i1⟩
  | 127 => ⟨S_, .i32⟩
  | _ => ⟨S8x8192, .i32⟩

abbrev hbmTy0_6 (i : Nat) : BufTy := match i % 128 with
  | 0 => ⟨S8x8192, .i32⟩
  | 1 => ⟨S8x8192, .i32⟩
  | 2 => ⟨S8x8192, .i32⟩
  | 3 => ⟨S8x8192x1, .i32⟩
  | 4 => ⟨S8x8192x256, .f32⟩
  | 5 => ⟨S8x8192x256, .f32⟩
  | 6 => ⟨S1x4097x256, .f32⟩
  | 7 => ⟨S4097x256, .f32⟩
  | 8 => ⟨S_, .i32⟩
  | 9 => ⟨S8x8192, .i32⟩
  | 10 => ⟨S8x8192, .i1⟩
  | 11 => ⟨S_, .i32⟩
  | 12 => ⟨S8x8192, .i32⟩
  | 13 => ⟨S8x8192, .i32⟩
  | 14 => ⟨S8x8192, .i32⟩
  | 15 => ⟨S8x8192x1, .i32⟩
  | 16 => ⟨S8x8192x256, .f32⟩
  | 17 => ⟨S8x8192x256, .f32⟩
  | 18 => ⟨S1x4097x256, .f32⟩
  | 19 => ⟨S4097x256, .f32⟩
  | 20 => ⟨S_, .i32⟩
  | 21 => ⟨S8x8192, .i32⟩
  | 22 => ⟨S8x8192, .i1⟩
  | 23 => ⟨S_, .i32⟩
  | 24 => ⟨S8x8192, .i32⟩
  | 25 => ⟨S8x8192, .i32⟩
  | 26 => ⟨S8x8192, .i32⟩
  | 27 => ⟨S8x8192x1, .i32⟩
  | 28 => ⟨S8x8192x256, .f32⟩
  | 29 => ⟨S8x8192x256, .f32⟩
  | 30 => ⟨S1x4097x256, .f32⟩
  | 31 => ⟨S4097x256, .f32⟩
  | 32 => ⟨S_, .i32⟩
  | 33 => ⟨S8x8192, .i32⟩
  | 34 => ⟨S8x8192, .i1⟩
  | 35 => ⟨S_, .i32⟩
  | 36 => ⟨S8x8192, .i32⟩
  | 37 => ⟨S8x8192, .i32⟩
  | 38 => ⟨S8x8192, .i32⟩
  | 39 => ⟨S8x8192x1, .i32⟩
  | 40 => ⟨S8x8192x256, .f32⟩
  | 41 => ⟨S8x8192x256, .f32⟩
  | 42 => ⟨S1x4097x256, .f32⟩
  | 43 => ⟨S4097x256, .f32⟩
  | 44 => ⟨S_, .i32⟩
  | 45 => ⟨S8x8192, .i32⟩
  | 46 => ⟨S8x8192, .i1⟩
  | 47 => ⟨S_, .i32⟩
  | 48 => ⟨S8x8192, .i32⟩
  | 49 => ⟨S8x8192, .i32⟩
  | 50 => ⟨S8x8192, .i32⟩
  | 51 => ⟨S8x8192x1, .i32⟩
  | 52 => ⟨S8x8192x256, .f32⟩
  | 53 => ⟨S8x8192x256, .f32⟩
  | 54 => ⟨S1x4097x256, .f32⟩
  | 55 => ⟨S4097x256, .f32⟩
  | 56 => ⟨S_, .i32⟩
  | 57 => ⟨S8x8192, .i32⟩
  | 58 => ⟨S8x8192, .i1⟩
  | 59 => ⟨S_, .i32⟩
  | 60 => ⟨S8x8192, .i32⟩
  | 61 => ⟨S8x8192, .i32⟩
  | 62 => ⟨S8x8192, .i32⟩
  | 63 => ⟨S8x8192x1, .i32⟩
  | 64 => ⟨S8x8192x256, .f32⟩
  | 65 => ⟨S8x8192x256, .f32⟩
  | 66 => ⟨S1x4097x256, .f32⟩
  | 67 => ⟨S4097x256, .f32⟩
  | 68 => ⟨S_, .i32⟩
  | 69 => ⟨S8x8192, .i32⟩
  | 70 => ⟨S8x8192, .i1⟩
  | 71 => ⟨S_, .i32⟩
  | 72 => ⟨S8x8192, .i32⟩
  | 73 => ⟨S8x8192, .i32⟩
  | 74 => ⟨S8x8192, .i32⟩
  | 75 => ⟨S8x8192x1, .i32⟩
  | 76 => ⟨S8x8192x256, .f32⟩
  | 77 => ⟨S8x8192x256, .f32⟩
  | 78 => ⟨S1x4097x256, .f32⟩
  | 79 => ⟨S4097x256, .f32⟩
  | 80 => ⟨S_, .i32⟩
  | 81 => ⟨S8x8192, .i32⟩
  | 82 => ⟨S8x8192, .i1⟩
  | 83 => ⟨S_, .i32⟩
  | 84 => ⟨S8x8192, .i32⟩
  | 85 => ⟨S8x8192, .i32⟩
  | 86 => ⟨S8x8192, .i32⟩
  | 87 => ⟨S8x8192x1, .i32⟩
  | 88 => ⟨S8x8192x256, .f32⟩
  | 89 => ⟨S8x8192x256, .f32⟩
  | 90 => ⟨S1x4097x256, .f32⟩
  | 91 => ⟨S4097x256, .f32⟩
  | 92 => ⟨S_, .i32⟩
  | 93 => ⟨S8x8192, .i32⟩
  | 94 => ⟨S8x8192, .i1⟩
  | 95 => ⟨S_, .i32⟩
  | 96 => ⟨S8x8192, .i32⟩
  | 97 => ⟨S8x8192, .i32⟩
  | 98 => ⟨S8x8192, .i32⟩
  | 99 => ⟨S8x8192x1, .i32⟩
  | 100 => ⟨S8x8192x256, .f32⟩
  | 101 => ⟨S8x8192x256, .f32⟩
  | 102 => ⟨S1x4097x256, .f32⟩
  | 103 => ⟨S4097x256, .f32⟩
  | 104 => ⟨S_, .i32⟩
  | 105 => ⟨S8x8192, .i32⟩
  | 106 => ⟨S8x8192, .i1⟩
  | 107 => ⟨S_, .i32⟩
  | 108 => ⟨S8x8192, .i32⟩
  | 109 => ⟨S8x8192, .i32⟩
  | 110 => ⟨S8x8192, .i32⟩
  | 111 => ⟨S8x8192x1, .i32⟩
  | 112 => ⟨S8x8192x256, .f32⟩
  | 113 => ⟨S8x8192x256, .f32⟩
  | 114 => ⟨S1x4097x256, .f32⟩
  | 115 => ⟨S4097x256, .f32⟩
  | 116 => ⟨S_, .i32⟩
  | 117 => ⟨S8x8192, .i32⟩
  | 118 => ⟨S8x8192, .i1⟩
  | 119 => ⟨S_, .i32⟩
  | 120 => ⟨S8x8192, .i32⟩
  | 121 => ⟨S8x8192, .i32⟩
  | 122 => ⟨S8x8192, .i32⟩
  | 123 => ⟨S8x8192x1, .i32⟩
  | 124 => ⟨S8x8192x256, .f32⟩
  | 125 => ⟨S8x8192x256, .f32⟩
  | 126 => ⟨S1x4097x256, .f32⟩
  | 127 => ⟨S4097x256, .f32⟩
  | _ => ⟨S8x8192, .i32⟩

abbrev hbmTy0_7 (i : Nat) : BufTy := match i % 128 with
  | 0 => ⟨S_, .i32⟩
  | 1 => ⟨S8x8192, .i32⟩
  | 2 => ⟨S8x8192, .i1⟩
  | 3 => ⟨S_, .i32⟩
  | 4 => ⟨S8x8192, .i32⟩
  | 5 => ⟨S8x8192, .i32⟩
  | 6 => ⟨S8x8192, .i32⟩
  | 7 => ⟨S8x8192x1, .i32⟩
  | 8 => ⟨S8x8192x256, .f32⟩
  | 9 => ⟨S8x8192x256, .f32⟩
  | 10 => ⟨S1x4097x256, .f32⟩
  | 11 => ⟨S4097x256, .f32⟩
  | 12 => ⟨S_, .i32⟩
  | 13 => ⟨S8x8192, .i32⟩
  | 14 => ⟨S8x8192, .i1⟩
  | 15 => ⟨S_, .i32⟩
  | 16 => ⟨S8x8192, .i32⟩
  | 17 => ⟨S8x8192, .i32⟩
  | 18 => ⟨S8x8192, .i32⟩
  | 19 => ⟨S8x8192x1, .i32⟩
  | 20 => ⟨S8x8192x256, .f32⟩
  | 21 => ⟨S8x8192x256, .f32⟩
  | 22 => ⟨S1x4097x256, .f32⟩
  | 23 => ⟨S4097x256, .f32⟩
  | 24 => ⟨S_, .i32⟩
  | 25 => ⟨S8x8192, .i32⟩
  | 26 => ⟨S8x8192, .i1⟩
  | 27 => ⟨S_, .i32⟩
  | 28 => ⟨S8x8192, .i32⟩
  | 29 => ⟨S8x8192, .i32⟩
  | 30 => ⟨S8x8192, .i32⟩
  | 31 => ⟨S8x8192x1, .i32⟩
  | 32 => ⟨S8x8192x256, .f32⟩
  | 33 => ⟨S8x8192x256, .f32⟩
  | 34 => ⟨S1x4097x256, .f32⟩
  | 35 => ⟨S4097x256, .f32⟩
  | 36 => ⟨S_, .i32⟩
  | 37 => ⟨S8x8192, .i32⟩
  | 38 => ⟨S8x8192, .i1⟩
  | 39 => ⟨S_, .i32⟩
  | 40 => ⟨S8x8192, .i32⟩
  | 41 => ⟨S8x8192, .i32⟩
  | 42 => ⟨S8x8192, .i32⟩
  | 43 => ⟨S8x8192x1, .i32⟩
  | 44 => ⟨S8x8192x256, .f32⟩
  | 45 => ⟨S8x8192x256, .f32⟩
  | 46 => ⟨S1x4097x256, .f32⟩
  | 47 => ⟨S4097x256, .f32⟩
  | 48 => ⟨S_, .i32⟩
  | 49 => ⟨S8x8192, .i32⟩
  | 50 => ⟨S8x8192, .i1⟩
  | 51 => ⟨S_, .i32⟩
  | 52 => ⟨S8x8192, .i32⟩
  | 53 => ⟨S8x8192, .i32⟩
  | 54 => ⟨S8x8192, .i32⟩
  | 55 => ⟨S8x8192x1, .i32⟩
  | 56 => ⟨S8x8192x256, .f32⟩
  | 57 => ⟨S8x8192x256, .f32⟩
  | 58 => ⟨S1x4097x256, .f32⟩
  | 59 => ⟨S4097x256, .f32⟩
  | 60 => ⟨S_, .i32⟩
  | 61 => ⟨S8x8192, .i32⟩
  | 62 => ⟨S8x8192, .i1⟩
  | 63 => ⟨S_, .i32⟩
  | 64 => ⟨S8x8192, .i32⟩
  | 65 => ⟨S8x8192, .i32⟩
  | 66 => ⟨S8x8192, .i32⟩
  | 67 => ⟨S8x8192x1, .i32⟩
  | 68 => ⟨S8x8192x256, .f32⟩
  | 69 => ⟨S8x8192x256, .f32⟩
  | 70 => ⟨S_, .f32⟩
  | 71 => ⟨S8x8192x256, .f32⟩
  | 72 => ⟨S8x8192x256, .f32⟩
  | _ => ⟨S8x8192, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S8x8192, .i32⟩

abbrev bufTy : (tb : Table) → Fin (tcTables nBuf tb) → BufTy
  | .hbm, ⟨i, _⟩ => hbmTy i
  | _, _ => ⟨S8x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_c_2 : Ref sig .tc := ⟨.hbm, 6, rfl⟩
abbrev main_v1 : Ref sig .tc := ⟨.hbm, 7, rfl⟩
abbrev main_v2 : Ref sig .tc := ⟨.hbm, 8, rfl⟩
abbrev main_c_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_4 : Ref sig .tc := ⟨.hbm, 15, rfl⟩
abbrev main_v8 : Ref sig .tc := ⟨.hbm, 16, rfl⟩
abbrev main_v9 : Ref sig .tc := ⟨.hbm, 17, rfl⟩
abbrev main_c_5 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_6 : Ref sig .tc := ⟨.hbm, 24, rfl⟩
abbrev main_v15 : Ref sig .tc := ⟨.hbm, 25, rfl⟩
abbrev main_v16 : Ref sig .tc := ⟨.hbm, 26, rfl⟩
abbrev main_c_7 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_8 : Ref sig .tc := ⟨.hbm, 31, rfl⟩
abbrev main_call0_v0 : Ref sig .tc := ⟨.hbm, 32, rfl⟩
abbrev main_v20 : Ref sig .tc := ⟨.hbm, 33, rfl⟩
abbrev main_c_9 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_10 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_v5 : Ref sig .tc := ⟨.hbm, 47, rfl⟩
abbrev main_call1_v6 : Ref sig .tc := ⟨.hbm, 48, rfl⟩
abbrev main_call1_c_2 : Ref sig .tc := ⟨.hbm, 49, rfl⟩
abbrev main_call1_v7 : Ref sig .tc := ⟨.hbm, 50, rfl⟩
abbrev main_call1_v8 : Ref sig .tc := ⟨.hbm, 51, rfl⟩
abbrev main_call1_c_3 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_v24 : Ref sig .tc := ⟨.hbm, 59, rfl⟩
abbrev main_v25 : Ref sig .tc := ⟨.hbm, 60, rfl⟩
abbrev main_c_11 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_c_12 : Ref sig .tc := ⟨.hbm, 65, rfl⟩
abbrev main_call3_v0 : Ref sig .tc := ⟨.hbm, 66, rfl⟩
abbrev main_v29 : Ref sig .tc := ⟨.hbm, 67, rfl⟩
abbrev main_c_13 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_c_14 : Ref sig .tc := ⟨.hbm, 72, rfl⟩
abbrev main_call4_v0 : Ref sig .tc := ⟨.hbm, 73, rfl⟩
abbrev main_call4_c : Ref sig .tc := ⟨.hbm, 74, rfl⟩
abbrev main_call4_v1 : Ref sig .tc := ⟨.hbm, 75, rfl⟩
abbrev main_call4_c_0 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_call4_c_1 : Ref sig .tc := ⟨.hbm, 80, rfl⟩
abbrev main_call4_v5 : Ref sig .tc := ⟨.hbm, 81, rfl⟩
abbrev main_call4_v6 : Ref sig .tc := ⟨.hbm, 82, rfl⟩
abbrev main_call4_c_2 : Ref sig .tc := ⟨.hbm, 83, rfl⟩
abbrev main_call4_v7 : Ref sig .tc := ⟨.hbm, 84, rfl⟩
abbrev main_call4_v8 : Ref sig .tc := ⟨.hbm, 85, rfl⟩
abbrev main_call4_c_3 : Ref sig .tc := ⟨.hbm, 86, rfl⟩
abbrev main_call4_v9 : Ref sig .tc := ⟨.hbm, 87, rfl⟩
abbrev main_call4_v10 : Ref sig .tc := ⟨.hbm, 88, rfl⟩
abbrev main_call4_v11 : Ref sig .tc := ⟨.hbm, 89, rfl⟩
abbrev main_call4_v12 : Ref sig .tc := ⟨.hbm, 90, rfl⟩
abbrev main_call4_v13 : Ref sig .tc := ⟨.hbm, 91, rfl⟩
abbrev main_call4_v14 : Ref sig .tc := ⟨.hbm, 92, rfl⟩
abbrev main_v33 : Ref sig .tc := ⟨.hbm, 93, rfl⟩
abbrev main_v34 : Ref sig .tc := ⟨.hbm, 94, rfl⟩
abbrev main_c_15 : Ref sig .tc := ⟨.hbm, 95, rfl⟩
abbrev main_v35 : Ref sig .tc := ⟨.hbm, 96, rfl⟩
abbrev main_v36 : Ref sig .tc := ⟨.hbm, 97, rfl⟩
abbrev main_c_16 : Ref sig .tc := ⟨.hbm, 98, rfl⟩
abbrev main_call6_v0 : Ref sig .tc := ⟨.hbm, 99, rfl⟩
abbrev main_call6_v1 : Ref sig .tc := ⟨.hbm, 100, rfl⟩
abbrev main_v37 : Ref sig .tc := ⟨.hbm, 101, rfl⟩
abbrev main_v38 : Ref sig .tc := ⟨.hbm, 102, rfl⟩
abbrev main_c_17 : Ref sig .tc := ⟨.hbm, 103, rfl⟩
abbrev main_call7_v0 : Ref sig .tc := ⟨.hbm, 104, rfl⟩
abbrev main_v39 : Ref sig .tc := ⟨.hbm, 105, rfl⟩
abbrev main_c_18 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_c_19 : Ref sig .tc := ⟨.hbm, 110, rfl⟩
abbrev main_call8_v0 : Ref sig .tc := ⟨.hbm, 111, rfl⟩
abbrev main_call8_c : Ref sig .tc := ⟨.hbm, 112, rfl⟩
abbrev main_call8_v1 : Ref sig .tc := ⟨.hbm, 113, rfl⟩
abbrev main_call8_c_0 : Ref sig .tc := ⟨.hbm, 114, rfl⟩
abbrev main_call8_v2 : Ref sig .tc := ⟨.hbm, 115, rfl⟩
abbrev main_call8_v3 : Ref sig .tc := ⟨.hbm, 116, rfl⟩
abbrev main_call8_v4 : Ref sig .tc := ⟨.hbm, 117, rfl⟩
abbrev main_call8_c_1 : Ref sig .tc := ⟨.hbm, 118, rfl⟩
abbrev main_call8_v5 : Ref sig .tc := ⟨.hbm, 119, rfl⟩
abbrev main_call8_v6 : Ref sig .tc := ⟨.hbm, 120, rfl⟩
abbrev main_call8_c_2 : Ref sig .tc := ⟨.hbm, 121, rfl⟩
abbrev main_call8_v7 : Ref sig .tc := ⟨.hbm, 122, rfl⟩
abbrev main_call8_v8 : Ref sig .tc := ⟨.hbm, 123, rfl⟩
abbrev main_call8_c_3 : Ref sig .tc := ⟨.hbm, 124, rfl⟩
abbrev main_call8_v9 : Ref sig .tc := ⟨.hbm, 125, rfl⟩
abbrev main_call8_v10 : Ref sig .tc := ⟨.hbm, 126, rfl⟩
abbrev main_call8_v11 : Ref sig .tc := ⟨.hbm, 127, rfl⟩
abbrev main_call8_v12 : Ref sig .tc := ⟨.hbm, 128, rfl⟩
abbrev main_call8_v13 : Ref sig .tc := ⟨.hbm, 129, rfl⟩
abbrev main_call8_v14 : Ref sig .tc := ⟨.hbm, 130, rfl⟩
abbrev main_v43 : Ref sig .tc := ⟨.hbm, 131, rfl⟩
abbrev main_v44 : Ref sig .tc := ⟨.hbm, 132, rfl⟩
abbrev main_c_20 : Ref sig .tc := ⟨.hbm, 133, rfl⟩
abbrev main_v45 : Ref sig .tc := ⟨.hbm, 134, rfl⟩
abbrev main_v46 : Ref sig .tc := ⟨.hbm, 135, rfl⟩
abbrev main_c_21 : Ref sig .tc := ⟨.hbm, 136, rfl⟩
abbrev main_call10_v0 : Ref sig .tc := ⟨.hbm, 137, rfl⟩
abbrev main_call10_v1 : Ref sig .tc := ⟨.hbm, 138, rfl⟩
abbrev main_v47 : Ref sig .tc := ⟨.hbm, 139, rfl⟩
abbrev main_v48 : Ref sig .tc := ⟨.hbm, 140, rfl⟩
abbrev main_c_22 : Ref sig .tc := ⟨.hbm, 141, rfl⟩
abbrev main_call11_v0 : Ref sig .tc := ⟨.hbm, 142, rfl⟩
abbrev main_v49 : Ref sig .tc := ⟨.hbm, 143, rfl⟩
abbrev main_c_23 : Ref sig .tc := ⟨.hbm, 144, rfl⟩
abbrev main_v50 : Ref sig .tc := ⟨.hbm, 145, rfl⟩
abbrev main_v51 : Ref sig .tc := ⟨.hbm, 146, rfl⟩
abbrev main_v52 : Ref sig .tc := ⟨.hbm, 147, rfl⟩
abbrev main_c_24 : Ref sig .tc := ⟨.hbm, 148, rfl⟩
abbrev main_call12_v0 : Ref sig .tc := ⟨.hbm, 149, rfl⟩
abbrev main_call12_c : Ref sig .tc := ⟨.hbm, 150, rfl⟩
abbrev main_call12_v1 : Ref sig .tc := ⟨.hbm, 151, rfl⟩
abbrev main_call12_c_0 : Ref sig .tc := ⟨.hbm, 152, rfl⟩
abbrev main_call12_v2 : Ref sig .tc := ⟨.hbm, 153, rfl⟩
abbrev main_call12_v3 : Ref sig .tc := ⟨.hbm, 154, rfl⟩
abbrev main_call12_v4 : Ref sig .tc := ⟨.hbm, 155, rfl⟩
abbrev main_call12_c_1 : Ref sig .tc := ⟨.hbm, 156, rfl⟩
abbrev main_call12_v5 : Ref sig .tc := ⟨.hbm, 157, rfl⟩
abbrev main_call12_v6 : Ref sig .tc := ⟨.hbm, 158, rfl⟩
abbrev main_call12_c_2 : Ref sig .tc := ⟨.hbm, 159, rfl⟩
abbrev main_call12_v7 : Ref sig .tc := ⟨.hbm, 160, rfl⟩
abbrev main_call12_v8 : Ref sig .tc := ⟨.hbm, 161, rfl⟩
abbrev main_call12_c_3 : Ref sig .tc := ⟨.hbm, 162, rfl⟩
abbrev main_call12_v9 : Ref sig .tc := ⟨.hbm, 163, rfl⟩
abbrev main_call12_v10 : Ref sig .tc := ⟨.hbm, 164, rfl⟩
abbrev main_call12_v11 : Ref sig .tc := ⟨.hbm, 165, rfl⟩
abbrev main_call12_v12 : Ref sig .tc := ⟨.hbm, 166, rfl⟩
abbrev main_call12_v13 : Ref sig .tc := ⟨.hbm, 167, rfl⟩
abbrev main_call12_v14 : Ref sig .tc := ⟨.hbm, 168, rfl⟩
abbrev main_v53 : Ref sig .tc := ⟨.hbm, 169, rfl⟩
abbrev main_v54 : Ref sig .tc := ⟨.hbm, 170, rfl⟩
abbrev main_c_25 : Ref sig .tc := ⟨.hbm, 171, rfl⟩
abbrev main_v55 : Ref sig .tc := ⟨.hbm, 172, rfl⟩
abbrev main_v56 : Ref sig .tc := ⟨.hbm, 173, rfl⟩
abbrev main_c_26 : Ref sig .tc := ⟨.hbm, 174, rfl⟩
abbrev main_call14_v0 : Ref sig .tc := ⟨.hbm, 175, rfl⟩
abbrev main_call14_v1 : Ref sig .tc := ⟨.hbm, 176, rfl⟩
abbrev main_v57 : Ref sig .tc := ⟨.hbm, 177, rfl⟩
abbrev main_v58 : Ref sig .tc := ⟨.hbm, 178, rfl⟩
abbrev main_c_27 : Ref sig .tc := ⟨.hbm, 179, rfl⟩
abbrev main_call15_v0 : Ref sig .tc := ⟨.hbm, 180, rfl⟩
abbrev main_v59 : Ref sig .tc := ⟨.hbm, 181, rfl⟩
abbrev main_c_28 : Ref sig .tc := ⟨.hbm, 182, rfl⟩
abbrev main_v60 : Ref sig .tc := ⟨.hbm, 183, rfl⟩
abbrev main_v61 : Ref sig .tc := ⟨.hbm, 184, rfl⟩
abbrev main_v62 : Ref sig .tc := ⟨.hbm, 185, rfl⟩
abbrev main_c_29 : Ref sig .tc := ⟨.hbm, 186, rfl⟩
abbrev main_call16_v0 : Ref sig .tc := ⟨.hbm, 187, rfl⟩
abbrev main_call16_c : Ref sig .tc := ⟨.hbm, 188, rfl⟩
abbrev main_call16_v1 : Ref sig .tc := ⟨.hbm, 189, rfl⟩
abbrev main_call16_c_0 : Ref sig .tc := ⟨.hbm, 190, rfl⟩
abbrev main_call16_v2 : Ref sig .tc := ⟨.hbm, 191, rfl⟩
abbrev main_call16_v3 : Ref sig .tc := ⟨.hbm, 192, rfl⟩
abbrev main_call16_v4 : Ref sig .tc := ⟨.hbm, 193, rfl⟩
abbrev main_call16_c_1 : Ref sig .tc := ⟨.hbm, 194, rfl⟩
abbrev main_call16_v5 : Ref sig .tc := ⟨.hbm, 195, rfl⟩
abbrev main_call16_v6 : Ref sig .tc := ⟨.hbm, 196, rfl⟩
abbrev main_call16_c_2 : Ref sig .tc := ⟨.hbm, 197, rfl⟩
abbrev main_call16_v7 : Ref sig .tc := ⟨.hbm, 198, rfl⟩
abbrev main_call16_v8 : Ref sig .tc := ⟨.hbm, 199, rfl⟩
abbrev main_call16_c_3 : Ref sig .tc := ⟨.hbm, 200, rfl⟩
abbrev main_call16_v9 : Ref sig .tc := ⟨.hbm, 201, rfl⟩
abbrev main_call16_v10 : Ref sig .tc := ⟨.hbm, 202, rfl⟩
abbrev main_call16_v11 : Ref sig .tc := ⟨.hbm, 203, rfl⟩
abbrev main_call16_v12 : Ref sig .tc := ⟨.hbm, 204, rfl⟩
abbrev main_call16_v13 : Ref sig .tc := ⟨.hbm, 205, rfl⟩
abbrev main_call16_v14 : Ref sig .tc := ⟨.hbm, 206, rfl⟩
abbrev main_v63 : Ref sig .tc := ⟨.hbm, 207, rfl⟩
abbrev main_v64 : Ref sig .tc := ⟨.hbm, 208, rfl⟩
abbrev main_c_30 : Ref sig .tc := ⟨.hbm, 209, rfl⟩
abbrev main_v65 : Ref sig .tc := ⟨.hbm, 210, rfl⟩
abbrev main_v66 : Ref sig .tc := ⟨.hbm, 211, rfl⟩
abbrev main_c_31 : Ref sig .tc := ⟨.hbm, 212, rfl⟩
abbrev main_call18_v0 : Ref sig .tc := ⟨.hbm, 213, rfl⟩
abbrev main_call18_v1 : Ref sig .tc := ⟨.hbm, 214, rfl⟩
abbrev main_v67 : Ref sig .tc := ⟨.hbm, 215, rfl⟩
abbrev main_v68 : Ref sig .tc := ⟨.hbm, 216, rfl⟩
abbrev main_c_32 : Ref sig .tc := ⟨.hbm, 217, rfl⟩
abbrev main_call19_v0 : Ref sig .tc := ⟨.hbm, 218, rfl⟩
abbrev main_v69 : Ref sig .tc := ⟨.hbm, 219, rfl⟩
abbrev main_c_33 : Ref sig .tc := ⟨.hbm, 220, rfl⟩
abbrev main_v70 : Ref sig .tc := ⟨.hbm, 221, rfl⟩
abbrev main_v71 : Ref sig .tc := ⟨.hbm, 222, rfl⟩
abbrev main_v72 : Ref sig .tc := ⟨.hbm, 223, rfl⟩
abbrev main_c_34 : Ref sig .tc := ⟨.hbm, 224, rfl⟩
abbrev main_call20_v0 : Ref sig .tc := ⟨.hbm, 225, rfl⟩
abbrev main_call20_c : Ref sig .tc := ⟨.hbm, 226, rfl⟩
abbrev main_call20_v1 : Ref sig .tc := ⟨.hbm, 227, rfl⟩
abbrev main_call20_c_0 : Ref sig .tc := ⟨.hbm, 228, rfl⟩
abbrev main_call20_v2 : Ref sig .tc := ⟨.hbm, 229, rfl⟩
abbrev main_call20_v3 : Ref sig .tc := ⟨.hbm, 230, rfl⟩
abbrev main_call20_v4 : Ref sig .tc := ⟨.hbm, 231, rfl⟩
abbrev main_call20_c_1 : Ref sig .tc := ⟨.hbm, 232, rfl⟩
abbrev main_call20_v5 : Ref sig .tc := ⟨.hbm, 233, rfl⟩
abbrev main_call20_v6 : Ref sig .tc := ⟨.hbm, 234, rfl⟩
abbrev main_call20_c_2 : Ref sig .tc := ⟨.hbm, 235, rfl⟩
abbrev main_call20_v7 : Ref sig .tc := ⟨.hbm, 236, rfl⟩
abbrev main_call20_v8 : Ref sig .tc := ⟨.hbm, 237, rfl⟩
abbrev main_call20_c_3 : Ref sig .tc := ⟨.hbm, 238, rfl⟩
abbrev main_call20_v9 : Ref sig .tc := ⟨.hbm, 239, rfl⟩
abbrev main_call20_v10 : Ref sig .tc := ⟨.hbm, 240, rfl⟩
abbrev main_call20_v11 : Ref sig .tc := ⟨.hbm, 241, rfl⟩
abbrev main_call20_v12 : Ref sig .tc := ⟨.hbm, 242, rfl⟩
abbrev main_call20_v13 : Ref sig .tc := ⟨.hbm, 243, rfl⟩
abbrev main_call20_v14 : Ref sig .tc := ⟨.hbm, 244, rfl⟩
abbrev main_v73 : Ref sig .tc := ⟨.hbm, 245, rfl⟩
abbrev main_v74 : Ref sig .tc := ⟨.hbm, 246, rfl⟩
abbrev main_c_35 : Ref sig .tc := ⟨.hbm, 247, rfl⟩
abbrev main_v75 : Ref sig .tc := ⟨.hbm, 248, rfl⟩
abbrev main_v76 : Ref sig .tc := ⟨.hbm, 249, rfl⟩
abbrev main_c_36 : Ref sig .tc := ⟨.hbm, 250, rfl⟩
abbrev main_call22_v0 : Ref sig .tc := ⟨.hbm, 251, rfl⟩
abbrev main_call22_v1 : Ref sig .tc := ⟨.hbm, 252, rfl⟩
abbrev main_v77 : Ref sig .tc := ⟨.hbm, 253, rfl⟩
abbrev main_v78 : Ref sig .tc := ⟨.hbm, 254, rfl⟩
abbrev main_c_37 : Ref sig .tc := ⟨.hbm, 255, rfl⟩
abbrev main_call23_v0 : Ref sig .tc := ⟨.hbm, 256, rfl⟩
abbrev main_v79 : Ref sig .tc := ⟨.hbm, 257, rfl⟩
abbrev main_c_38 : Ref sig .tc := ⟨.hbm, 258, rfl⟩
abbrev main_v80 : Ref sig .tc := ⟨.hbm, 259, rfl⟩
abbrev main_v81 : Ref sig .tc := ⟨.hbm, 260, rfl⟩
abbrev main_v82 : Ref sig .tc := ⟨.hbm, 261, rfl⟩
abbrev main_c_39 : Ref sig .tc := ⟨.hbm, 262, rfl⟩
abbrev main_call24_v0 : Ref sig .tc := ⟨.hbm, 263, rfl⟩
abbrev main_call24_c : Ref sig .tc := ⟨.hbm, 264, rfl⟩
abbrev main_call24_v1 : Ref sig .tc := ⟨.hbm, 265, rfl⟩
abbrev main_call24_c_0 : Ref sig .tc := ⟨.hbm, 266, rfl⟩
abbrev main_call24_v2 : Ref sig .tc := ⟨.hbm, 267, rfl⟩
abbrev main_call24_v3 : Ref sig .tc := ⟨.hbm, 268, rfl⟩
abbrev main_call24_v4 : Ref sig .tc := ⟨.hbm, 269, rfl⟩
abbrev main_call24_c_1 : Ref sig .tc := ⟨.hbm, 270, rfl⟩
abbrev main_call24_v5 : Ref sig .tc := ⟨.hbm, 271, rfl⟩
abbrev main_call24_v6 : Ref sig .tc := ⟨.hbm, 272, rfl⟩
abbrev main_call24_c_2 : Ref sig .tc := ⟨.hbm, 273, rfl⟩
abbrev main_call24_v7 : Ref sig .tc := ⟨.hbm, 274, rfl⟩
abbrev main_call24_v8 : Ref sig .tc := ⟨.hbm, 275, rfl⟩
abbrev main_call24_c_3 : Ref sig .tc := ⟨.hbm, 276, rfl⟩
abbrev main_call24_v9 : Ref sig .tc := ⟨.hbm, 277, rfl⟩
abbrev main_call24_v10 : Ref sig .tc := ⟨.hbm, 278, rfl⟩
abbrev main_call24_v11 : Ref sig .tc := ⟨.hbm, 279, rfl⟩
abbrev main_call24_v12 : Ref sig .tc := ⟨.hbm, 280, rfl⟩
abbrev main_call24_v13 : Ref sig .tc := ⟨.hbm, 281, rfl⟩
abbrev main_call24_v14 : Ref sig .tc := ⟨.hbm, 282, rfl⟩
abbrev main_v83 : Ref sig .tc := ⟨.hbm, 283, rfl⟩
abbrev main_v84 : Ref sig .tc := ⟨.hbm, 284, rfl⟩
abbrev main_c_40 : Ref sig .tc := ⟨.hbm, 285, rfl⟩
abbrev main_v85 : Ref sig .tc := ⟨.hbm, 286, rfl⟩
abbrev main_v86 : Ref sig .tc := ⟨.hbm, 287, rfl⟩
abbrev main_c_41 : Ref sig .tc := ⟨.hbm, 288, rfl⟩
abbrev main_call26_v0 : Ref sig .tc := ⟨.hbm, 289, rfl⟩
abbrev main_call26_v1 : Ref sig .tc := ⟨.hbm, 290, rfl⟩
abbrev main_v87 : Ref sig .tc := ⟨.hbm, 291, rfl⟩
abbrev main_v88 : Ref sig .tc := ⟨.hbm, 292, rfl⟩
abbrev main_c_42 : Ref sig .tc := ⟨.hbm, 293, rfl⟩
abbrev main_call27_v0 : Ref sig .tc := ⟨.hbm, 294, rfl⟩
abbrev main_v89 : Ref sig .tc := ⟨.hbm, 295, rfl⟩
abbrev main_c_43 : Ref sig .tc := ⟨.hbm, 296, rfl⟩
abbrev main_v90 : Ref sig .tc := ⟨.hbm, 297, rfl⟩
abbrev main_v91 : Ref sig .tc := ⟨.hbm, 298, rfl⟩
abbrev main_v92 : Ref sig .tc := ⟨.hbm, 299, rfl⟩
abbrev main_c_44 : Ref sig .tc := ⟨.hbm, 300, rfl⟩
abbrev main_call28_v0 : Ref sig .tc := ⟨.hbm, 301, rfl⟩
abbrev main_call28_c : Ref sig .tc := ⟨.hbm, 302, rfl⟩
abbrev main_call28_v1 : Ref sig .tc := ⟨.hbm, 303, rfl⟩
abbrev main_call28_c_0 : Ref sig .tc := ⟨.hbm, 304, rfl⟩
abbrev main_call28_v2 : Ref sig .tc := ⟨.hbm, 305, rfl⟩
abbrev main_call28_v3 : Ref sig .tc := ⟨.hbm, 306, rfl⟩
abbrev main_call28_v4 : Ref sig .tc := ⟨.hbm, 307, rfl⟩
abbrev main_call28_c_1 : Ref sig .tc := ⟨.hbm, 308, rfl⟩
abbrev main_call28_v5 : Ref sig .tc := ⟨.hbm, 309, rfl⟩
abbrev main_call28_v6 : Ref sig .tc := ⟨.hbm, 310, rfl⟩
abbrev main_call28_c_2 : Ref sig .tc := ⟨.hbm, 311, rfl⟩
abbrev main_call28_v7 : Ref sig .tc := ⟨.hbm, 312, rfl⟩
abbrev main_call28_v8 : Ref sig .tc := ⟨.hbm, 313, rfl⟩
abbrev main_call28_c_3 : Ref sig .tc := ⟨.hbm, 314, rfl⟩
abbrev main_call28_v9 : Ref sig .tc := ⟨.hbm, 315, rfl⟩
abbrev main_call28_v10 : Ref sig .tc := ⟨.hbm, 316, rfl⟩
abbrev main_call28_v11 : Ref sig .tc := ⟨.hbm, 317, rfl⟩
abbrev main_call28_v12 : Ref sig .tc := ⟨.hbm, 318, rfl⟩
abbrev main_call28_v13 : Ref sig .tc := ⟨.hbm, 319, rfl⟩
abbrev main_call28_v14 : Ref sig .tc := ⟨.hbm, 320, rfl⟩
abbrev main_v93 : Ref sig .tc := ⟨.hbm, 321, rfl⟩
abbrev main_v94 : Ref sig .tc := ⟨.hbm, 322, rfl⟩
abbrev main_c_45 : Ref sig .tc := ⟨.hbm, 323, rfl⟩
abbrev main_v95 : Ref sig .tc := ⟨.hbm, 324, rfl⟩
abbrev main_v96 : Ref sig .tc := ⟨.hbm, 325, rfl⟩
abbrev main_c_46 : Ref sig .tc := ⟨.hbm, 326, rfl⟩
abbrev main_call30_v0 : Ref sig .tc := ⟨.hbm, 327, rfl⟩
abbrev main_call30_v1 : Ref sig .tc := ⟨.hbm, 328, rfl⟩
abbrev main_v97 : Ref sig .tc := ⟨.hbm, 329, rfl⟩
abbrev main_v98 : Ref sig .tc := ⟨.hbm, 330, rfl⟩
abbrev main_c_47 : Ref sig .tc := ⟨.hbm, 331, rfl⟩
abbrev main_call31_v0 : Ref sig .tc := ⟨.hbm, 332, rfl⟩
abbrev main_v99 : Ref sig .tc := ⟨.hbm, 333, rfl⟩
abbrev main_c_48 : Ref sig .tc := ⟨.hbm, 334, rfl⟩
abbrev main_v100 : Ref sig .tc := ⟨.hbm, 335, rfl⟩
abbrev main_v101 : Ref sig .tc := ⟨.hbm, 336, rfl⟩
abbrev main_v102 : Ref sig .tc := ⟨.hbm, 337, rfl⟩
abbrev main_c_49 : Ref sig .tc := ⟨.hbm, 338, rfl⟩
abbrev main_call32_v0 : Ref sig .tc := ⟨.hbm, 339, rfl⟩
abbrev main_call32_c : Ref sig .tc := ⟨.hbm, 340, rfl⟩
abbrev main_call32_v1 : Ref sig .tc := ⟨.hbm, 341, rfl⟩
abbrev main_call32_c_0 : Ref sig .tc := ⟨.hbm, 342, rfl⟩
abbrev main_call32_v2 : Ref sig .tc := ⟨.hbm, 343, rfl⟩
abbrev main_call32_v3 : Ref sig .tc := ⟨.hbm, 344, rfl⟩
abbrev main_call32_v4 : Ref sig .tc := ⟨.hbm, 345, rfl⟩
abbrev main_call32_c_1 : Ref sig .tc := ⟨.hbm, 346, rfl⟩
abbrev main_call32_v5 : Ref sig .tc := ⟨.hbm, 347, rfl⟩
abbrev main_call32_v6 : Ref sig .tc := ⟨.hbm, 348, rfl⟩
abbrev main_call32_c_2 : Ref sig .tc := ⟨.hbm, 349, rfl⟩
abbrev main_call32_v7 : Ref sig .tc := ⟨.hbm, 350, rfl⟩
abbrev main_call32_v8 : Ref sig .tc := ⟨.hbm, 351, rfl⟩
abbrev main_call32_c_3 : Ref sig .tc := ⟨.hbm, 352, rfl⟩
abbrev main_call32_v9 : Ref sig .tc := ⟨.hbm, 353, rfl⟩
abbrev main_call32_v10 : Ref sig .tc := ⟨.hbm, 354, rfl⟩
abbrev main_call32_v11 : Ref sig .tc := ⟨.hbm, 355, rfl⟩
abbrev main_call32_v12 : Ref sig .tc := ⟨.hbm, 356, rfl⟩
abbrev main_call32_v13 : Ref sig .tc := ⟨.hbm, 357, rfl⟩
abbrev main_call32_v14 : Ref sig .tc := ⟨.hbm, 358, rfl⟩
abbrev main_v103 : Ref sig .tc := ⟨.hbm, 359, rfl⟩
abbrev main_v104 : Ref sig .tc := ⟨.hbm, 360, rfl⟩
abbrev main_c_50 : Ref sig .tc := ⟨.hbm, 361, rfl⟩
abbrev main_v105 : Ref sig .tc := ⟨.hbm, 362, rfl⟩
abbrev main_v106 : Ref sig .tc := ⟨.hbm, 363, rfl⟩
abbrev main_c_51 : Ref sig .tc := ⟨.hbm, 364, rfl⟩
abbrev main_call34_v0 : Ref sig .tc := ⟨.hbm, 365, rfl⟩
abbrev main_call34_v1 : Ref sig .tc := ⟨.hbm, 366, rfl⟩
abbrev main_v107 : Ref sig .tc := ⟨.hbm, 367, rfl⟩
abbrev main_v108 : Ref sig .tc := ⟨.hbm, 368, rfl⟩
abbrev main_c_52 : Ref sig .tc := ⟨.hbm, 369, rfl⟩
abbrev main_call35_v0 : Ref sig .tc := ⟨.hbm, 370, rfl⟩
abbrev main_v109 : Ref sig .tc := ⟨.hbm, 371, rfl⟩
abbrev main_c_53 : Ref sig .tc := ⟨.hbm, 372, rfl⟩
abbrev main_v110 : Ref sig .tc := ⟨.hbm, 373, rfl⟩
abbrev main_v111 : Ref sig .tc := ⟨.hbm, 374, rfl⟩
abbrev main_v112 : Ref sig .tc := ⟨.hbm, 375, rfl⟩
abbrev main_c_54 : Ref sig .tc := ⟨.hbm, 376, rfl⟩
abbrev main_call36_v0 : Ref sig .tc := ⟨.hbm, 377, rfl⟩
abbrev main_call36_c : Ref sig .tc := ⟨.hbm, 378, rfl⟩
abbrev main_call36_v1 : Ref sig .tc := ⟨.hbm, 379, rfl⟩
abbrev main_call36_c_0 : Ref sig .tc := ⟨.hbm, 380, rfl⟩
abbrev main_call36_v2 : Ref sig .tc := ⟨.hbm, 381, rfl⟩
abbrev main_call36_v3 : Ref sig .tc := ⟨.hbm, 382, rfl⟩
abbrev main_call36_v4 : Ref sig .tc := ⟨.hbm, 383, rfl⟩
abbrev main_call36_c_1 : Ref sig .tc := ⟨.hbm, 384, rfl⟩
abbrev main_call36_v5 : Ref sig .tc := ⟨.hbm, 385, rfl⟩
abbrev main_call36_v6 : Ref sig .tc := ⟨.hbm, 386, rfl⟩
abbrev main_call36_c_2 : Ref sig .tc := ⟨.hbm, 387, rfl⟩
abbrev main_call36_v7 : Ref sig .tc := ⟨.hbm, 388, rfl⟩
abbrev main_call36_v8 : Ref sig .tc := ⟨.hbm, 389, rfl⟩
abbrev main_call36_c_3 : Ref sig .tc := ⟨.hbm, 390, rfl⟩
abbrev main_call36_v9 : Ref sig .tc := ⟨.hbm, 391, rfl⟩
abbrev main_call36_v10 : Ref sig .tc := ⟨.hbm, 392, rfl⟩
abbrev main_call36_v11 : Ref sig .tc := ⟨.hbm, 393, rfl⟩
abbrev main_call36_v12 : Ref sig .tc := ⟨.hbm, 394, rfl⟩
abbrev main_call36_v13 : Ref sig .tc := ⟨.hbm, 395, rfl⟩
abbrev main_call36_v14 : Ref sig .tc := ⟨.hbm, 396, rfl⟩
abbrev main_v113 : Ref sig .tc := ⟨.hbm, 397, rfl⟩
abbrev main_v114 : Ref sig .tc := ⟨.hbm, 398, rfl⟩
abbrev main_c_55 : Ref sig .tc := ⟨.hbm, 399, rfl⟩
abbrev main_v115 : Ref sig .tc := ⟨.hbm, 400, rfl⟩
abbrev main_v116 : Ref sig .tc := ⟨.hbm, 401, rfl⟩
abbrev main_c_56 : Ref sig .tc := ⟨.hbm, 402, rfl⟩
abbrev main_call38_v0 : Ref sig .tc := ⟨.hbm, 403, rfl⟩
abbrev main_call38_v1 : Ref sig .tc := ⟨.hbm, 404, rfl⟩
abbrev main_v117 : Ref sig .tc := ⟨.hbm, 405, rfl⟩
abbrev main_v118 : Ref sig .tc := ⟨.hbm, 406, rfl⟩
abbrev main_c_57 : Ref sig .tc := ⟨.hbm, 407, rfl⟩
abbrev main_call39_v0 : Ref sig .tc := ⟨.hbm, 408, rfl⟩
abbrev main_v119 : Ref sig .tc := ⟨.hbm, 409, rfl⟩
abbrev main_c_58 : Ref sig .tc := ⟨.hbm, 410, rfl⟩
abbrev main_v120 : Ref sig .tc := ⟨.hbm, 411, rfl⟩
abbrev main_v121 : Ref sig .tc := ⟨.hbm, 412, rfl⟩
abbrev main_v122 : Ref sig .tc := ⟨.hbm, 413, rfl⟩
abbrev main_c_59 : Ref sig .tc := ⟨.hbm, 414, rfl⟩
abbrev main_call40_v0 : Ref sig .tc := ⟨.hbm, 415, rfl⟩
abbrev main_call40_c : Ref sig .tc := ⟨.hbm, 416, rfl⟩
abbrev main_call40_v1 : Ref sig .tc := ⟨.hbm, 417, rfl⟩
abbrev main_call40_c_0 : Ref sig .tc := ⟨.hbm, 418, rfl⟩
abbrev main_call40_v2 : Ref sig .tc := ⟨.hbm, 419, rfl⟩
abbrev main_call40_v3 : Ref sig .tc := ⟨.hbm, 420, rfl⟩
abbrev main_call40_v4 : Ref sig .tc := ⟨.hbm, 421, rfl⟩
abbrev main_call40_c_1 : Ref sig .tc := ⟨.hbm, 422, rfl⟩
abbrev main_call40_v5 : Ref sig .tc := ⟨.hbm, 423, rfl⟩
abbrev main_call40_v6 : Ref sig .tc := ⟨.hbm, 424, rfl⟩
abbrev main_call40_c_2 : Ref sig .tc := ⟨.hbm, 425, rfl⟩
abbrev main_call40_v7 : Ref sig .tc := ⟨.hbm, 426, rfl⟩
abbrev main_call40_v8 : Ref sig .tc := ⟨.hbm, 427, rfl⟩
abbrev main_call40_c_3 : Ref sig .tc := ⟨.hbm, 428, rfl⟩
abbrev main_call40_v9 : Ref sig .tc := ⟨.hbm, 429, rfl⟩
abbrev main_call40_v10 : Ref sig .tc := ⟨.hbm, 430, rfl⟩
abbrev main_call40_v11 : Ref sig .tc := ⟨.hbm, 431, rfl⟩
abbrev main_call40_v12 : Ref sig .tc := ⟨.hbm, 432, rfl⟩
abbrev main_call40_v13 : Ref sig .tc := ⟨.hbm, 433, rfl⟩
abbrev main_call40_v14 : Ref sig .tc := ⟨.hbm, 434, rfl⟩
abbrev main_v123 : Ref sig .tc := ⟨.hbm, 435, rfl⟩
abbrev main_v124 : Ref sig .tc := ⟨.hbm, 436, rfl⟩
abbrev main_c_60 : Ref sig .tc := ⟨.hbm, 437, rfl⟩
abbrev main_v125 : Ref sig .tc := ⟨.hbm, 438, rfl⟩
abbrev main_v126 : Ref sig .tc := ⟨.hbm, 439, rfl⟩
abbrev main_c_61 : Ref sig .tc := ⟨.hbm, 440, rfl⟩
abbrev main_call42_v0 : Ref sig .tc := ⟨.hbm, 441, rfl⟩
abbrev main_call42_v1 : Ref sig .tc := ⟨.hbm, 442, rfl⟩
abbrev main_v127 : Ref sig .tc := ⟨.hbm, 443, rfl⟩
abbrev main_v128 : Ref sig .tc := ⟨.hbm, 444, rfl⟩
abbrev main_c_62 : Ref sig .tc := ⟨.hbm, 445, rfl⟩
abbrev main_call43_v0 : Ref sig .tc := ⟨.hbm, 446, rfl⟩
abbrev main_v129 : Ref sig .tc := ⟨.hbm, 447, rfl⟩
abbrev main_c_63 : Ref sig .tc := ⟨.hbm, 448, rfl⟩
abbrev main_v130 : Ref sig .tc := ⟨.hbm, 449, rfl⟩
abbrev main_v131 : Ref sig .tc := ⟨.hbm, 450, rfl⟩
abbrev main_v132 : Ref sig .tc := ⟨.hbm, 451, rfl⟩
abbrev main_c_64 : Ref sig .tc := ⟨.hbm, 452, rfl⟩
abbrev main_call44_v0 : Ref sig .tc := ⟨.hbm, 453, rfl⟩
abbrev main_call44_c : Ref sig .tc := ⟨.hbm, 454, rfl⟩
abbrev main_call44_v1 : Ref sig .tc := ⟨.hbm, 455, rfl⟩
abbrev main_call44_c_0 : Ref sig .tc := ⟨.hbm, 456, rfl⟩
abbrev main_call44_v2 : Ref sig .tc := ⟨.hbm, 457, rfl⟩
abbrev main_call44_v3 : Ref sig .tc := ⟨.hbm, 458, rfl⟩
abbrev main_call44_v4 : Ref sig .tc := ⟨.hbm, 459, rfl⟩
abbrev main_call44_c_1 : Ref sig .tc := ⟨.hbm, 460, rfl⟩
abbrev main_call44_v5 : Ref sig .tc := ⟨.hbm, 461, rfl⟩
abbrev main_call44_v6 : Ref sig .tc := ⟨.hbm, 462, rfl⟩
abbrev main_call44_c_2 : Ref sig .tc := ⟨.hbm, 463, rfl⟩
abbrev main_call44_v7 : Ref sig .tc := ⟨.hbm, 464, rfl⟩
abbrev main_call44_v8 : Ref sig .tc := ⟨.hbm, 465, rfl⟩
abbrev main_call44_c_3 : Ref sig .tc := ⟨.hbm, 466, rfl⟩
abbrev main_call44_v9 : Ref sig .tc := ⟨.hbm, 467, rfl⟩
abbrev main_call44_v10 : Ref sig .tc := ⟨.hbm, 468, rfl⟩
abbrev main_call44_v11 : Ref sig .tc := ⟨.hbm, 469, rfl⟩
abbrev main_call44_v12 : Ref sig .tc := ⟨.hbm, 470, rfl⟩
abbrev main_call44_v13 : Ref sig .tc := ⟨.hbm, 471, rfl⟩
abbrev main_call44_v14 : Ref sig .tc := ⟨.hbm, 472, rfl⟩
abbrev main_v133 : Ref sig .tc := ⟨.hbm, 473, rfl⟩
abbrev main_v134 : Ref sig .tc := ⟨.hbm, 474, rfl⟩
abbrev main_c_65 : Ref sig .tc := ⟨.hbm, 475, rfl⟩
abbrev main_v135 : Ref sig .tc := ⟨.hbm, 476, rfl⟩
abbrev main_v136 : Ref sig .tc := ⟨.hbm, 477, rfl⟩
abbrev main_c_66 : Ref sig .tc := ⟨.hbm, 478, rfl⟩
abbrev main_call46_v0 : Ref sig .tc := ⟨.hbm, 479, rfl⟩
abbrev main_call46_v1 : Ref sig .tc := ⟨.hbm, 480, rfl⟩
abbrev main_v137 : Ref sig .tc := ⟨.hbm, 481, rfl⟩
abbrev main_v138 : Ref sig .tc := ⟨.hbm, 482, rfl⟩
abbrev main_c_67 : Ref sig .tc := ⟨.hbm, 483, rfl⟩
abbrev main_call47_v0 : Ref sig .tc := ⟨.hbm, 484, rfl⟩
abbrev main_v139 : Ref sig .tc := ⟨.hbm, 485, rfl⟩
abbrev main_c_68 : Ref sig .tc := ⟨.hbm, 486, rfl⟩
abbrev main_v140 : Ref sig .tc := ⟨.hbm, 487, rfl⟩
abbrev main_v141 : Ref sig .tc := ⟨.hbm, 488, rfl⟩
abbrev main_v142 : Ref sig .tc := ⟨.hbm, 489, rfl⟩
abbrev main_c_69 : Ref sig .tc := ⟨.hbm, 490, rfl⟩
abbrev main_call48_v0 : Ref sig .tc := ⟨.hbm, 491, rfl⟩
abbrev main_call48_c : Ref sig .tc := ⟨.hbm, 492, rfl⟩
abbrev main_call48_v1 : Ref sig .tc := ⟨.hbm, 493, rfl⟩
abbrev main_call48_c_0 : Ref sig .tc := ⟨.hbm, 494, rfl⟩
abbrev main_call48_v2 : Ref sig .tc := ⟨.hbm, 495, rfl⟩
abbrev main_call48_v3 : Ref sig .tc := ⟨.hbm, 496, rfl⟩
abbrev main_call48_v4 : Ref sig .tc := ⟨.hbm, 497, rfl⟩
abbrev main_call48_c_1 : Ref sig .tc := ⟨.hbm, 498, rfl⟩
abbrev main_call48_v5 : Ref sig .tc := ⟨.hbm, 499, rfl⟩
abbrev main_call48_v6 : Ref sig .tc := ⟨.hbm, 500, rfl⟩
abbrev main_call48_c_2 : Ref sig .tc := ⟨.hbm, 501, rfl⟩
abbrev main_call48_v7 : Ref sig .tc := ⟨.hbm, 502, rfl⟩
abbrev main_call48_v8 : Ref sig .tc := ⟨.hbm, 503, rfl⟩
abbrev main_call48_c_3 : Ref sig .tc := ⟨.hbm, 504, rfl⟩
abbrev main_call48_v9 : Ref sig .tc := ⟨.hbm, 505, rfl⟩
abbrev main_call48_v10 : Ref sig .tc := ⟨.hbm, 506, rfl⟩
abbrev main_call48_v11 : Ref sig .tc := ⟨.hbm, 507, rfl⟩
abbrev main_call48_v12 : Ref sig .tc := ⟨.hbm, 508, rfl⟩
abbrev main_call48_v13 : Ref sig .tc := ⟨.hbm, 509, rfl⟩
abbrev main_call48_v14 : Ref sig .tc := ⟨.hbm, 510, rfl⟩
abbrev main_v143 : Ref sig .tc := ⟨.hbm, 511, rfl⟩
abbrev main_v144 : Ref sig .tc := ⟨.hbm, 512, rfl⟩
abbrev main_c_70 : Ref sig .tc := ⟨.hbm, 513, rfl⟩
abbrev main_v145 : Ref sig .tc := ⟨.hbm, 514, rfl⟩
abbrev main_v146 : Ref sig .tc := ⟨.hbm, 515, rfl⟩
abbrev main_c_71 : Ref sig .tc := ⟨.hbm, 516, rfl⟩
abbrev main_call50_v0 : Ref sig .tc := ⟨.hbm, 517, rfl⟩
abbrev main_call50_v1 : Ref sig .tc := ⟨.hbm, 518, rfl⟩
abbrev main_v147 : Ref sig .tc := ⟨.hbm, 519, rfl⟩
abbrev main_v148 : Ref sig .tc := ⟨.hbm, 520, rfl⟩
abbrev main_c_72 : Ref sig .tc := ⟨.hbm, 521, rfl⟩
abbrev main_call51_v0 : Ref sig .tc := ⟨.hbm, 522, rfl⟩
abbrev main_v149 : Ref sig .tc := ⟨.hbm, 523, rfl⟩
abbrev main_c_73 : Ref sig .tc := ⟨.hbm, 524, rfl⟩
abbrev main_v150 : Ref sig .tc := ⟨.hbm, 525, rfl⟩
abbrev main_v151 : Ref sig .tc := ⟨.hbm, 526, rfl⟩
abbrev main_v152 : Ref sig .tc := ⟨.hbm, 527, rfl⟩
abbrev main_c_74 : Ref sig .tc := ⟨.hbm, 528, rfl⟩
abbrev main_call52_v0 : Ref sig .tc := ⟨.hbm, 529, rfl⟩
abbrev main_call52_c : Ref sig .tc := ⟨.hbm, 530, rfl⟩
abbrev main_call52_v1 : Ref sig .tc := ⟨.hbm, 531, rfl⟩
abbrev main_call52_c_0 : Ref sig .tc := ⟨.hbm, 532, rfl⟩
abbrev main_call52_v2 : Ref sig .tc := ⟨.hbm, 533, rfl⟩
abbrev main_call52_v3 : Ref sig .tc := ⟨.hbm, 534, rfl⟩
abbrev main_call52_v4 : Ref sig .tc := ⟨.hbm, 535, rfl⟩
abbrev main_call52_c_1 : Ref sig .tc := ⟨.hbm, 536, rfl⟩
abbrev main_call52_v5 : Ref sig .tc := ⟨.hbm, 537, rfl⟩
abbrev main_call52_v6 : Ref sig .tc := ⟨.hbm, 538, rfl⟩
abbrev main_call52_c_2 : Ref sig .tc := ⟨.hbm, 539, rfl⟩
abbrev main_call52_v7 : Ref sig .tc := ⟨.hbm, 540, rfl⟩
abbrev main_call52_v8 : Ref sig .tc := ⟨.hbm, 541, rfl⟩
abbrev main_call52_c_3 : Ref sig .tc := ⟨.hbm, 542, rfl⟩
abbrev main_call52_v9 : Ref sig .tc := ⟨.hbm, 543, rfl⟩
abbrev main_call52_v10 : Ref sig .tc := ⟨.hbm, 544, rfl⟩
abbrev main_call52_v11 : Ref sig .tc := ⟨.hbm, 545, rfl⟩
abbrev main_call52_v12 : Ref sig .tc := ⟨.hbm, 546, rfl⟩
abbrev main_call52_v13 : Ref sig .tc := ⟨.hbm, 547, rfl⟩
abbrev main_call52_v14 : Ref sig .tc := ⟨.hbm, 548, rfl⟩
abbrev main_v153 : Ref sig .tc := ⟨.hbm, 549, rfl⟩
abbrev main_v154 : Ref sig .tc := ⟨.hbm, 550, rfl⟩
abbrev main_c_75 : Ref sig .tc := ⟨.hbm, 551, rfl⟩
abbrev main_v155 : Ref sig .tc := ⟨.hbm, 552, rfl⟩
abbrev main_v156 : Ref sig .tc := ⟨.hbm, 553, rfl⟩
abbrev main_c_76 : Ref sig .tc := ⟨.hbm, 554, rfl⟩
abbrev main_call54_v0 : Ref sig .tc := ⟨.hbm, 555, rfl⟩
abbrev main_call54_v1 : Ref sig .tc := ⟨.hbm, 556, rfl⟩
abbrev main_v157 : Ref sig .tc := ⟨.hbm, 557, rfl⟩
abbrev main_v158 : Ref sig .tc := ⟨.hbm, 558, rfl⟩
abbrev main_c_77 : Ref sig .tc := ⟨.hbm, 559, rfl⟩
abbrev main_call55_v0 : Ref sig .tc := ⟨.hbm, 560, rfl⟩
abbrev main_v159 : Ref sig .tc := ⟨.hbm, 561, rfl⟩
abbrev main_c_78 : Ref sig .tc := ⟨.hbm, 562, rfl⟩
abbrev main_v160 : Ref sig .tc := ⟨.hbm, 563, rfl⟩
abbrev main_v161 : Ref sig .tc := ⟨.hbm, 564, rfl⟩
abbrev main_v162 : Ref sig .tc := ⟨.hbm, 565, rfl⟩
abbrev main_c_79 : Ref sig .tc := ⟨.hbm, 566, rfl⟩
abbrev main_call56_v0 : Ref sig .tc := ⟨.hbm, 567, rfl⟩
abbrev main_call56_c : Ref sig .tc := ⟨.hbm, 568, rfl⟩
abbrev main_call56_v1 : Ref sig .tc := ⟨.hbm, 569, rfl⟩
abbrev main_call56_c_0 : Ref sig .tc := ⟨.hbm, 570, rfl⟩
abbrev main_call56_v2 : Ref sig .tc := ⟨.hbm, 571, rfl⟩
abbrev main_call56_v3 : Ref sig .tc := ⟨.hbm, 572, rfl⟩
abbrev main_call56_v4 : Ref sig .tc := ⟨.hbm, 573, rfl⟩
abbrev main_call56_c_1 : Ref sig .tc := ⟨.hbm, 574, rfl⟩
abbrev main_call56_v5 : Ref sig .tc := ⟨.hbm, 575, rfl⟩
abbrev main_call56_v6 : Ref sig .tc := ⟨.hbm, 576, rfl⟩
abbrev main_call56_c_2 : Ref sig .tc := ⟨.hbm, 577, rfl⟩
abbrev main_call56_v7 : Ref sig .tc := ⟨.hbm, 578, rfl⟩
abbrev main_call56_v8 : Ref sig .tc := ⟨.hbm, 579, rfl⟩
abbrev main_call56_c_3 : Ref sig .tc := ⟨.hbm, 580, rfl⟩
abbrev main_call56_v9 : Ref sig .tc := ⟨.hbm, 581, rfl⟩
abbrev main_call56_v10 : Ref sig .tc := ⟨.hbm, 582, rfl⟩
abbrev main_call56_v11 : Ref sig .tc := ⟨.hbm, 583, rfl⟩
abbrev main_call56_v12 : Ref sig .tc := ⟨.hbm, 584, rfl⟩
abbrev main_call56_v13 : Ref sig .tc := ⟨.hbm, 585, rfl⟩
abbrev main_call56_v14 : Ref sig .tc := ⟨.hbm, 586, rfl⟩
abbrev main_v163 : Ref sig .tc := ⟨.hbm, 587, rfl⟩
abbrev main_v164 : Ref sig .tc := ⟨.hbm, 588, rfl⟩
abbrev main_c_80 : Ref sig .tc := ⟨.hbm, 589, rfl⟩
abbrev main_v165 : Ref sig .tc := ⟨.hbm, 590, rfl⟩
abbrev main_v166 : Ref sig .tc := ⟨.hbm, 591, rfl⟩
abbrev main_c_81 : Ref sig .tc := ⟨.hbm, 592, rfl⟩
abbrev main_call58_v0 : Ref sig .tc := ⟨.hbm, 593, rfl⟩
abbrev main_call58_v1 : Ref sig .tc := ⟨.hbm, 594, rfl⟩
abbrev main_v167 : Ref sig .tc := ⟨.hbm, 595, rfl⟩
abbrev main_v168 : Ref sig .tc := ⟨.hbm, 596, rfl⟩
abbrev main_c_82 : Ref sig .tc := ⟨.hbm, 597, rfl⟩
abbrev main_call59_v0 : Ref sig .tc := ⟨.hbm, 598, rfl⟩
abbrev main_v169 : Ref sig .tc := ⟨.hbm, 599, rfl⟩
abbrev main_c_83 : Ref sig .tc := ⟨.hbm, 600, rfl⟩
abbrev main_v170 : Ref sig .tc := ⟨.hbm, 601, rfl⟩
abbrev main_v171 : Ref sig .tc := ⟨.hbm, 602, rfl⟩
abbrev main_v172 : Ref sig .tc := ⟨.hbm, 603, rfl⟩
abbrev main_c_84 : Ref sig .tc := ⟨.hbm, 604, rfl⟩
abbrev main_call60_v0 : Ref sig .tc := ⟨.hbm, 605, rfl⟩
abbrev main_call60_c : Ref sig .tc := ⟨.hbm, 606, rfl⟩
abbrev main_call60_v1 : Ref sig .tc := ⟨.hbm, 607, rfl⟩
abbrev main_call60_c_0 : Ref sig .tc := ⟨.hbm, 608, rfl⟩
abbrev main_call60_v2 : Ref sig .tc := ⟨.hbm, 609, rfl⟩
abbrev main_call60_v3 : Ref sig .tc := ⟨.hbm, 610, rfl⟩
abbrev main_call60_v4 : Ref sig .tc := ⟨.hbm, 611, rfl⟩
abbrev main_call60_c_1 : Ref sig .tc := ⟨.hbm, 612, rfl⟩
abbrev main_call60_v5 : Ref sig .tc := ⟨.hbm, 613, rfl⟩
abbrev main_call60_v6 : Ref sig .tc := ⟨.hbm, 614, rfl⟩
abbrev main_call60_c_2 : Ref sig .tc := ⟨.hbm, 615, rfl⟩
abbrev main_call60_v7 : Ref sig .tc := ⟨.hbm, 616, rfl⟩
abbrev main_call60_v8 : Ref sig .tc := ⟨.hbm, 617, rfl⟩
abbrev main_call60_c_3 : Ref sig .tc := ⟨.hbm, 618, rfl⟩
abbrev main_call60_v9 : Ref sig .tc := ⟨.hbm, 619, rfl⟩
abbrev main_call60_v10 : Ref sig .tc := ⟨.hbm, 620, rfl⟩
abbrev main_call60_v11 : Ref sig .tc := ⟨.hbm, 621, rfl⟩
abbrev main_call60_v12 : Ref sig .tc := ⟨.hbm, 622, rfl⟩
abbrev main_call60_v13 : Ref sig .tc := ⟨.hbm, 623, rfl⟩
abbrev main_call60_v14 : Ref sig .tc := ⟨.hbm, 624, rfl⟩
abbrev main_v173 : Ref sig .tc := ⟨.hbm, 625, rfl⟩
abbrev main_v174 : Ref sig .tc := ⟨.hbm, 626, rfl⟩
abbrev main_c_85 : Ref sig .tc := ⟨.hbm, 627, rfl⟩
abbrev main_v175 : Ref sig .tc := ⟨.hbm, 628, rfl⟩
abbrev main_v176 : Ref sig .tc := ⟨.hbm, 629, rfl⟩
abbrev main_c_86 : Ref sig .tc := ⟨.hbm, 630, rfl⟩
abbrev main_call62_v0 : Ref sig .tc := ⟨.hbm, 631, rfl⟩
abbrev main_call62_v1 : Ref sig .tc := ⟨.hbm, 632, rfl⟩
abbrev main_v177 : Ref sig .tc := ⟨.hbm, 633, rfl⟩
abbrev main_v178 : Ref sig .tc := ⟨.hbm, 634, rfl⟩
abbrev main_c_87 : Ref sig .tc := ⟨.hbm, 635, rfl⟩
abbrev main_call63_v0 : Ref sig .tc := ⟨.hbm, 636, rfl⟩
abbrev main_v179 : Ref sig .tc := ⟨.hbm, 637, rfl⟩
abbrev main_c_88 : Ref sig .tc := ⟨.hbm, 638, rfl⟩
abbrev main_v180 : Ref sig .tc := ⟨.hbm, 639, rfl⟩
abbrev main_v181 : Ref sig .tc := ⟨.hbm, 640, rfl⟩
abbrev main_v182 : Ref sig .tc := ⟨.hbm, 641, rfl⟩
abbrev main_c_89 : Ref sig .tc := ⟨.hbm, 642, rfl⟩
abbrev main_call64_v0 : Ref sig .tc := ⟨.hbm, 643, rfl⟩
abbrev main_call64_c : Ref sig .tc := ⟨.hbm, 644, rfl⟩
abbrev main_call64_v1 : Ref sig .tc := ⟨.hbm, 645, rfl⟩
abbrev main_call64_c_0 : Ref sig .tc := ⟨.hbm, 646, rfl⟩
abbrev main_call64_v2 : Ref sig .tc := ⟨.hbm, 647, rfl⟩
abbrev main_call64_v3 : Ref sig .tc := ⟨.hbm, 648, rfl⟩
abbrev main_call64_v4 : Ref sig .tc := ⟨.hbm, 649, rfl⟩
abbrev main_call64_c_1 : Ref sig .tc := ⟨.hbm, 650, rfl⟩
abbrev main_call64_v5 : Ref sig .tc := ⟨.hbm, 651, rfl⟩
abbrev main_call64_v6 : Ref sig .tc := ⟨.hbm, 652, rfl⟩
abbrev main_call64_c_2 : Ref sig .tc := ⟨.hbm, 653, rfl⟩
abbrev main_call64_v7 : Ref sig .tc := ⟨.hbm, 654, rfl⟩
abbrev main_call64_v8 : Ref sig .tc := ⟨.hbm, 655, rfl⟩
abbrev main_call64_c_3 : Ref sig .tc := ⟨.hbm, 656, rfl⟩
abbrev main_call64_v9 : Ref sig .tc := ⟨.hbm, 657, rfl⟩
abbrev main_call64_v10 : Ref sig .tc := ⟨.hbm, 658, rfl⟩
abbrev main_call64_v11 : Ref sig .tc := ⟨.hbm, 659, rfl⟩
abbrev main_call64_v12 : Ref sig .tc := ⟨.hbm, 660, rfl⟩
abbrev main_call64_v13 : Ref sig .tc := ⟨.hbm, 661, rfl⟩
abbrev main_call64_v14 : Ref sig .tc := ⟨.hbm, 662, rfl⟩
abbrev main_v183 : Ref sig .tc := ⟨.hbm, 663, rfl⟩
abbrev main_v184 : Ref sig .tc := ⟨.hbm, 664, rfl⟩
abbrev main_c_90 : Ref sig .tc := ⟨.hbm, 665, rfl⟩
abbrev main_v185 : Ref sig .tc := ⟨.hbm, 666, rfl⟩
abbrev main_v186 : Ref sig .tc := ⟨.hbm, 667, rfl⟩
abbrev main_c_91 : Ref sig .tc := ⟨.hbm, 668, rfl⟩
abbrev main_call66_v0 : Ref sig .tc := ⟨.hbm, 669, rfl⟩
abbrev main_call66_v1 : Ref sig .tc := ⟨.hbm, 670, rfl⟩
abbrev main_v187 : Ref sig .tc := ⟨.hbm, 671, rfl⟩
abbrev main_v188 : Ref sig .tc := ⟨.hbm, 672, rfl⟩
abbrev main_c_92 : Ref sig .tc := ⟨.hbm, 673, rfl⟩
abbrev main_call67_v0 : Ref sig .tc := ⟨.hbm, 674, rfl⟩
abbrev main_v189 : Ref sig .tc := ⟨.hbm, 675, rfl⟩
abbrev main_c_93 : Ref sig .tc := ⟨.hbm, 676, rfl⟩
abbrev main_v190 : Ref sig .tc := ⟨.hbm, 677, rfl⟩
abbrev main_v191 : Ref sig .tc := ⟨.hbm, 678, rfl⟩
abbrev main_v192 : Ref sig .tc := ⟨.hbm, 679, rfl⟩
abbrev main_c_94 : Ref sig .tc := ⟨.hbm, 680, rfl⟩
abbrev main_call68_v0 : Ref sig .tc := ⟨.hbm, 681, rfl⟩
abbrev main_call68_c : Ref sig .tc := ⟨.hbm, 682, rfl⟩
abbrev main_call68_v1 : Ref sig .tc := ⟨.hbm, 683, rfl⟩
abbrev main_call68_c_0 : Ref sig .tc := ⟨.hbm, 684, rfl⟩
abbrev main_call68_v2 : Ref sig .tc := ⟨.hbm, 685, rfl⟩
abbrev main_call68_v3 : Ref sig .tc := ⟨.hbm, 686, rfl⟩
abbrev main_call68_v4 : Ref sig .tc := ⟨.hbm, 687, rfl⟩
abbrev main_call68_c_1 : Ref sig .tc := ⟨.hbm, 688, rfl⟩
abbrev main_call68_v5 : Ref sig .tc := ⟨.hbm, 689, rfl⟩
abbrev main_call68_v6 : Ref sig .tc := ⟨.hbm, 690, rfl⟩
abbrev main_call68_c_2 : Ref sig .tc := ⟨.hbm, 691, rfl⟩
abbrev main_call68_v7 : Ref sig .tc := ⟨.hbm, 692, rfl⟩
abbrev main_call68_v8 : Ref sig .tc := ⟨.hbm, 693, rfl⟩
abbrev main_call68_c_3 : Ref sig .tc := ⟨.hbm, 694, rfl⟩
abbrev main_call68_v9 : Ref sig .tc := ⟨.hbm, 695, rfl⟩
abbrev main_call68_v10 : Ref sig .tc := ⟨.hbm, 696, rfl⟩
abbrev main_call68_v11 : Ref sig .tc := ⟨.hbm, 697, rfl⟩
abbrev main_call68_v12 : Ref sig .tc := ⟨.hbm, 698, rfl⟩
abbrev main_call68_v13 : Ref sig .tc := ⟨.hbm, 699, rfl⟩
abbrev main_call68_v14 : Ref sig .tc := ⟨.hbm, 700, rfl⟩
abbrev main_v193 : Ref sig .tc := ⟨.hbm, 701, rfl⟩
abbrev main_v194 : Ref sig .tc := ⟨.hbm, 702, rfl⟩
abbrev main_c_95 : Ref sig .tc := ⟨.hbm, 703, rfl⟩
abbrev main_v195 : Ref sig .tc := ⟨.hbm, 704, rfl⟩
abbrev main_v196 : Ref sig .tc := ⟨.hbm, 705, rfl⟩
abbrev main_c_96 : Ref sig .tc := ⟨.hbm, 706, rfl⟩
abbrev main_call70_v0 : Ref sig .tc := ⟨.hbm, 707, rfl⟩
abbrev main_call70_v1 : Ref sig .tc := ⟨.hbm, 708, rfl⟩
abbrev main_v197 : Ref sig .tc := ⟨.hbm, 709, rfl⟩
abbrev main_v198 : Ref sig .tc := ⟨.hbm, 710, rfl⟩
abbrev main_c_97 : Ref sig .tc := ⟨.hbm, 711, rfl⟩
abbrev main_call71_v0 : Ref sig .tc := ⟨.hbm, 712, rfl⟩
abbrev main_v199 : Ref sig .tc := ⟨.hbm, 713, rfl⟩
abbrev main_c_98 : Ref sig .tc := ⟨.hbm, 714, rfl⟩
abbrev main_v200 : Ref sig .tc := ⟨.hbm, 715, rfl⟩
abbrev main_v201 : Ref sig .tc := ⟨.hbm, 716, rfl⟩
abbrev main_v202 : Ref sig .tc := ⟨.hbm, 717, rfl⟩
abbrev main_c_99 : Ref sig .tc := ⟨.hbm, 718, rfl⟩
abbrev main_call72_v0 : Ref sig .tc := ⟨.hbm, 719, rfl⟩
abbrev main_call72_c : Ref sig .tc := ⟨.hbm, 720, rfl⟩
abbrev main_call72_v1 : Ref sig .tc := ⟨.hbm, 721, rfl⟩
abbrev main_call72_c_0 : Ref sig .tc := ⟨.hbm, 722, rfl⟩
abbrev main_call72_v2 : Ref sig .tc := ⟨.hbm, 723, rfl⟩
abbrev main_call72_v3 : Ref sig .tc := ⟨.hbm, 724, rfl⟩
abbrev main_call72_v4 : Ref sig .tc := ⟨.hbm, 725, rfl⟩
abbrev main_call72_c_1 : Ref sig .tc := ⟨.hbm, 726, rfl⟩
abbrev main_call72_v5 : Ref sig .tc := ⟨.hbm, 727, rfl⟩
abbrev main_call72_v6 : Ref sig .tc := ⟨.hbm, 728, rfl⟩
abbrev main_call72_c_2 : Ref sig .tc := ⟨.hbm, 729, rfl⟩
abbrev main_call72_v7 : Ref sig .tc := ⟨.hbm, 730, rfl⟩
abbrev main_call72_v8 : Ref sig .tc := ⟨.hbm, 731, rfl⟩
abbrev main_call72_c_3 : Ref sig .tc := ⟨.hbm, 732, rfl⟩
abbrev main_call72_v9 : Ref sig .tc := ⟨.hbm, 733, rfl⟩
abbrev main_call72_v10 : Ref sig .tc := ⟨.hbm, 734, rfl⟩
abbrev main_call72_v11 : Ref sig .tc := ⟨.hbm, 735, rfl⟩
abbrev main_call72_v12 : Ref sig .tc := ⟨.hbm, 736, rfl⟩
abbrev main_call72_v13 : Ref sig .tc := ⟨.hbm, 737, rfl⟩
abbrev main_call72_v14 : Ref sig .tc := ⟨.hbm, 738, rfl⟩
abbrev main_v203 : Ref sig .tc := ⟨.hbm, 739, rfl⟩
abbrev main_v204 : Ref sig .tc := ⟨.hbm, 740, rfl⟩
abbrev main_c_100 : Ref sig .tc := ⟨.hbm, 741, rfl⟩
abbrev main_v205 : Ref sig .tc := ⟨.hbm, 742, rfl⟩
abbrev main_v206 : Ref sig .tc := ⟨.hbm, 743, rfl⟩
abbrev main_c_101 : Ref sig .tc := ⟨.hbm, 744, rfl⟩
abbrev main_call74_v0 : Ref sig .tc := ⟨.hbm, 745, rfl⟩
abbrev main_call74_v1 : Ref sig .tc := ⟨.hbm, 746, rfl⟩
abbrev main_v207 : Ref sig .tc := ⟨.hbm, 747, rfl⟩
abbrev main_cst : Ref sig .tc := ⟨.hbm, 748, rfl⟩
abbrev main_v208 : Ref sig .tc := ⟨.hbm, 749, rfl⟩
abbrev main_v209 : Ref sig .tc := ⟨.hbm, 750, rfl⟩
abbrev main_v210 : Ref sig .tc := ⟨.hbm, 751, rfl⟩
abbrev main_c_102 : Ref sig .tc := ⟨.hbm, 752, rfl⟩
abbrev main_v211 : Ref sig .tc := ⟨.hbm, 753, rfl⟩
abbrev main_v212 : Ref sig .tc := ⟨.hbm, 754, rfl⟩
abbrev main_c_103 : Ref sig .tc := ⟨.hbm, 755, rfl⟩
abbrev main_v213 : Ref sig .tc := ⟨.hbm, 756, rfl⟩
abbrev main_v214 : Ref sig .tc := ⟨.hbm, 757, rfl⟩
abbrev main_v215 : Ref sig .tc := ⟨.hbm, 758, rfl⟩
abbrev main_v216 : Ref sig .tc := ⟨.hbm, 759, rfl⟩
abbrev main_v217 : Ref sig .tc := ⟨.hbm, 760, rfl⟩
abbrev main_v218 : Ref sig .tc := ⟨.hbm, 761, rfl⟩
abbrev main_v219 : Ref sig .tc := ⟨.hbm, 762, rfl⟩
abbrev main_v220 : Ref sig .tc := ⟨.hbm, 763, rfl⟩
abbrev main_c_104 : Ref sig .tc := ⟨.hbm, 764, rfl⟩
abbrev main_v221 : Ref sig .tc := ⟨.hbm, 765, rfl⟩
abbrev main_v222 : Ref sig .tc := ⟨.hbm, 766, rfl⟩
abbrev main_c_105 : Ref sig .tc := ⟨.hbm, 767, rfl⟩
abbrev main_v223 : Ref sig .tc := ⟨.hbm, 768, rfl⟩
abbrev main_v224 : Ref sig .tc := ⟨.hbm, 769, rfl⟩
abbrev main_v225 : Ref sig .tc := ⟨.hbm, 770, rfl⟩
abbrev main_v226 : Ref sig .tc := ⟨.hbm, 771, rfl⟩
abbrev main_v227 : Ref sig .tc := ⟨.hbm, 772, rfl⟩
abbrev main_v228 : Ref sig .tc := ⟨.hbm, 773, rfl⟩
abbrev main_v229 : Ref sig .tc := ⟨.hbm, 774, rfl⟩
abbrev main_v230 : Ref sig .tc := ⟨.hbm, 775, rfl⟩
abbrev main_c_106 : Ref sig .tc := ⟨.hbm, 776, rfl⟩
abbrev main_v231 : Ref sig .tc := ⟨.hbm, 777, rfl⟩
abbrev main_v232 : Ref sig .tc := ⟨.hbm, 778, rfl⟩
abbrev main_c_107 : Ref sig .tc := ⟨.hbm, 779, rfl⟩
abbrev main_v233 : Ref sig .tc := ⟨.hbm, 780, rfl⟩
abbrev main_v234 : Ref sig .tc := ⟨.hbm, 781, rfl⟩
abbrev main_v235 : Ref sig .tc := ⟨.hbm, 782, rfl⟩
abbrev main_v236 : Ref sig .tc := ⟨.hbm, 783, rfl⟩
abbrev main_v237 : Ref sig .tc := ⟨.hbm, 784, rfl⟩
abbrev main_v238 : Ref sig .tc := ⟨.hbm, 785, rfl⟩
abbrev main_v239 : Ref sig .tc := ⟨.hbm, 786, rfl⟩
abbrev main_v240 : Ref sig .tc := ⟨.hbm, 787, rfl⟩
abbrev main_c_108 : Ref sig .tc := ⟨.hbm, 788, rfl⟩
abbrev main_v241 : Ref sig .tc := ⟨.hbm, 789, rfl⟩
abbrev main_v242 : Ref sig .tc := ⟨.hbm, 790, rfl⟩
abbrev main_c_109 : Ref sig .tc := ⟨.hbm, 791, rfl⟩
abbrev main_v243 : Ref sig .tc := ⟨.hbm, 792, rfl⟩
abbrev main_v244 : Ref sig .tc := ⟨.hbm, 793, rfl⟩
abbrev main_v245 : Ref sig .tc := ⟨.hbm, 794, rfl⟩
abbrev main_v246 : Ref sig .tc := ⟨.hbm, 795, rfl⟩
abbrev main_v247 : Ref sig .tc := ⟨.hbm, 796, rfl⟩
abbrev main_v248 : Ref sig .tc := ⟨.hbm, 797, rfl⟩
abbrev main_v249 : Ref sig .tc := ⟨.hbm, 798, rfl⟩
abbrev main_v250 : Ref sig .tc := ⟨.hbm, 799, rfl⟩
abbrev main_c_110 : Ref sig .tc := ⟨.hbm, 800, rfl⟩
abbrev main_v251 : Ref sig .tc := ⟨.hbm, 801, rfl⟩
abbrev main_v252 : Ref sig .tc := ⟨.hbm, 802, rfl⟩
abbrev main_c_111 : Ref sig .tc := ⟨.hbm, 803, rfl⟩
abbrev main_v253 : Ref sig .tc := ⟨.hbm, 804, rfl⟩
abbrev main_v254 : Ref sig .tc := ⟨.hbm, 805, rfl⟩
abbrev main_v255 : Ref sig .tc := ⟨.hbm, 806, rfl⟩
abbrev main_v256 : Ref sig .tc := ⟨.hbm, 807, rfl⟩
abbrev main_v257 : Ref sig .tc := ⟨.hbm, 808, rfl⟩
abbrev main_v258 : Ref sig .tc := ⟨.hbm, 809, rfl⟩
abbrev main_v259 : Ref sig .tc := ⟨.hbm, 810, rfl⟩
abbrev main_v260 : Ref sig .tc := ⟨.hbm, 811, rfl⟩
abbrev main_c_112 : Ref sig .tc := ⟨.hbm, 812, rfl⟩
abbrev main_v261 : Ref sig .tc := ⟨.hbm, 813, rfl⟩
abbrev main_v262 : Ref sig .tc := ⟨.hbm, 814, rfl⟩
abbrev main_c_113 : Ref sig .tc := ⟨.hbm, 815, rfl⟩
abbrev main_v263 : Ref sig .tc := ⟨.hbm, 816, rfl⟩
abbrev main_v264 : Ref sig .tc := ⟨.hbm, 817, rfl⟩
abbrev main_v265 : Ref sig .tc := ⟨.hbm, 818, rfl⟩
abbrev main_v266 : Ref sig .tc := ⟨.hbm, 819, rfl⟩
abbrev main_v267 : Ref sig .tc := ⟨.hbm, 820, rfl⟩
abbrev main_v268 : Ref sig .tc := ⟨.hbm, 821, rfl⟩
abbrev main_v269 : Ref sig .tc := ⟨.hbm, 822, rfl⟩
abbrev main_v270 : Ref sig .tc := ⟨.hbm, 823, rfl⟩
abbrev main_c_114 : Ref sig .tc := ⟨.hbm, 824, rfl⟩
abbrev main_v271 : Ref sig .tc := ⟨.hbm, 825, rfl⟩
abbrev main_v272 : Ref sig .tc := ⟨.hbm, 826, rfl⟩
abbrev main_c_115 : Ref sig .tc := ⟨.hbm, 827, rfl⟩
abbrev main_v273 : Ref sig .tc := ⟨.hbm, 828, rfl⟩
abbrev main_v274 : Ref sig .tc := ⟨.hbm, 829, rfl⟩
abbrev main_v275 : Ref sig .tc := ⟨.hbm, 830, rfl⟩
abbrev main_v276 : Ref sig .tc := ⟨.hbm, 831, rfl⟩
abbrev main_v277 : Ref sig .tc := ⟨.hbm, 832, rfl⟩
abbrev main_v278 : Ref sig .tc := ⟨.hbm, 833, rfl⟩
abbrev main_v279 : Ref sig .tc := ⟨.hbm, 834, rfl⟩
abbrev main_v280 : Ref sig .tc := ⟨.hbm, 835, rfl⟩
abbrev main_c_116 : Ref sig .tc := ⟨.hbm, 836, rfl⟩
abbrev main_v281 : Ref sig .tc := ⟨.hbm, 837, rfl⟩
abbrev main_v282 : Ref sig .tc := ⟨.hbm, 838, rfl⟩
abbrev main_c_117 : Ref sig .tc := ⟨.hbm, 839, rfl⟩
abbrev main_v283 : Ref sig .tc := ⟨.hbm, 840, rfl⟩
abbrev main_v284 : Ref sig .tc := ⟨.hbm, 841, rfl⟩
abbrev main_v285 : Ref sig .tc := ⟨.hbm, 842, rfl⟩
abbrev main_v286 : Ref sig .tc := ⟨.hbm, 843, rfl⟩
abbrev main_v287 : Ref sig .tc := ⟨.hbm, 844, rfl⟩
abbrev main_v288 : Ref sig .tc := ⟨.hbm, 845, rfl⟩
abbrev main_v289 : Ref sig .tc := ⟨.hbm, 846, rfl⟩
abbrev main_v290 : Ref sig .tc := ⟨.hbm, 847, rfl⟩
abbrev main_c_118 : Ref sig .tc := ⟨.hbm, 848, rfl⟩
abbrev main_v291 : Ref sig .tc := ⟨.hbm, 849, rfl⟩
abbrev main_v292 : Ref sig .tc := ⟨.hbm, 850, rfl⟩
abbrev main_c_119 : Ref sig .tc := ⟨.hbm, 851, rfl⟩
abbrev main_v293 : Ref sig .tc := ⟨.hbm, 852, rfl⟩
abbrev main_v294 : Ref sig .tc := ⟨.hbm, 853, rfl⟩
abbrev main_v295 : Ref sig .tc := ⟨.hbm, 854, rfl⟩
abbrev main_v296 : Ref sig .tc := ⟨.hbm, 855, rfl⟩
abbrev main_v297 : Ref sig .tc := ⟨.hbm, 856, rfl⟩
abbrev main_v298 : Ref sig .tc := ⟨.hbm, 857, rfl⟩
abbrev main_v299 : Ref sig .tc := ⟨.hbm, 858, rfl⟩
abbrev main_v300 : Ref sig .tc := ⟨.hbm, 859, rfl⟩
abbrev main_c_120 : Ref sig .tc := ⟨.hbm, 860, rfl⟩
abbrev main_v301 : Ref sig .tc := ⟨.hbm, 861, rfl⟩
abbrev main_v302 : Ref sig .tc := ⟨.hbm, 862, rfl⟩
abbrev main_c_121 : Ref sig .tc := ⟨.hbm, 863, rfl⟩
abbrev main_v303 : Ref sig .tc := ⟨.hbm, 864, rfl⟩
abbrev main_v304 : Ref sig .tc := ⟨.hbm, 865, rfl⟩
abbrev main_v305 : Ref sig .tc := ⟨.hbm, 866, rfl⟩
abbrev main_v306 : Ref sig .tc := ⟨.hbm, 867, rfl⟩
abbrev main_v307 : Ref sig .tc := ⟨.hbm, 868, rfl⟩
abbrev main_v308 : Ref sig .tc := ⟨.hbm, 869, rfl⟩
abbrev main_v309 : Ref sig .tc := ⟨.hbm, 870, rfl⟩
abbrev main_v310 : Ref sig .tc := ⟨.hbm, 871, rfl⟩
abbrev main_c_122 : Ref sig .tc := ⟨.hbm, 872, rfl⟩
abbrev main_v311 : Ref sig .tc := ⟨.hbm, 873, rfl⟩
abbrev main_v312 : Ref sig .tc := ⟨.hbm, 874, rfl⟩
abbrev main_c_123 : Ref sig .tc := ⟨.hbm, 875, rfl⟩
abbrev main_v313 : Ref sig .tc := ⟨.hbm, 876, rfl⟩
abbrev main_v314 : Ref sig .tc := ⟨.hbm, 877, rfl⟩
abbrev main_v315 : Ref sig .tc := ⟨.hbm, 878, rfl⟩
abbrev main_v316 : Ref sig .tc := ⟨.hbm, 879, rfl⟩
abbrev main_v317 : Ref sig .tc := ⟨.hbm, 880, rfl⟩
abbrev main_v318 : Ref sig .tc := ⟨.hbm, 881, rfl⟩
abbrev main_v319 : Ref sig .tc := ⟨.hbm, 882, rfl⟩
abbrev main_v320 : Ref sig .tc := ⟨.hbm, 883, rfl⟩
abbrev main_c_124 : Ref sig .tc := ⟨.hbm, 884, rfl⟩
abbrev main_v321 : Ref sig .tc := ⟨.hbm, 885, rfl⟩
abbrev main_v322 : Ref sig .tc := ⟨.hbm, 886, rfl⟩
abbrev main_c_125 : Ref sig .tc := ⟨.hbm, 887, rfl⟩
abbrev main_v323 : Ref sig .tc := ⟨.hbm, 888, rfl⟩
abbrev main_v324 : Ref sig .tc := ⟨.hbm, 889, rfl⟩
abbrev main_v325 : Ref sig .tc := ⟨.hbm, 890, rfl⟩
abbrev main_v326 : Ref sig .tc := ⟨.hbm, 891, rfl⟩
abbrev main_v327 : Ref sig .tc := ⟨.hbm, 892, rfl⟩
abbrev main_v328 : Ref sig .tc := ⟨.hbm, 893, rfl⟩
abbrev main_v329 : Ref sig .tc := ⟨.hbm, 894, rfl⟩
abbrev main_v330 : Ref sig .tc := ⟨.hbm, 895, rfl⟩
abbrev main_c_126 : Ref sig .tc := ⟨.hbm, 896, rfl⟩
abbrev main_v331 : Ref sig .tc := ⟨.hbm, 897, rfl⟩
abbrev main_v332 : Ref sig .tc := ⟨.hbm, 898, rfl⟩
abbrev main_c_127 : Ref sig .tc := ⟨.hbm, 899, rfl⟩
abbrev main_v333 : Ref sig .tc := ⟨.hbm, 900, rfl⟩
abbrev main_v334 : Ref sig .tc := ⟨.hbm, 901, rfl⟩
abbrev main_v335 : Ref sig .tc := ⟨.hbm, 902, rfl⟩
abbrev main_v336 : Ref sig .tc := ⟨.hbm, 903, rfl⟩
abbrev main_v337 : Ref sig .tc := ⟨.hbm, 904, rfl⟩
abbrev main_v338 : Ref sig .tc := ⟨.hbm, 905, rfl⟩
abbrev main_v339 : Ref sig .tc := ⟨.hbm, 906, rfl⟩
abbrev main_v340 : Ref sig .tc := ⟨.hbm, 907, rfl⟩
abbrev main_c_128 : Ref sig .tc := ⟨.hbm, 908, rfl⟩
abbrev main_v341 : Ref sig .tc := ⟨.hbm, 909, rfl⟩
abbrev main_v342 : Ref sig .tc := ⟨.hbm, 910, rfl⟩
abbrev main_c_129 : Ref sig .tc := ⟨.hbm, 911, rfl⟩
abbrev main_v343 : Ref sig .tc := ⟨.hbm, 912, rfl⟩
abbrev main_v344 : Ref sig .tc := ⟨.hbm, 913, rfl⟩
abbrev main_v345 : Ref sig .tc := ⟨.hbm, 914, rfl⟩
abbrev main_v346 : Ref sig .tc := ⟨.hbm, 915, rfl⟩
abbrev main_v347 : Ref sig .tc := ⟨.hbm, 916, rfl⟩
abbrev main_v348 : Ref sig .tc := ⟨.hbm, 917, rfl⟩
abbrev main_v349 : Ref sig .tc := ⟨.hbm, 918, rfl⟩
abbrev main_v350 : Ref sig .tc := ⟨.hbm, 919, rfl⟩
abbrev main_c_130 : Ref sig .tc := ⟨.hbm, 920, rfl⟩
abbrev main_v351 : Ref sig .tc := ⟨.hbm, 921, rfl⟩
abbrev main_v352 : Ref sig .tc := ⟨.hbm, 922, rfl⟩
abbrev main_c_131 : Ref sig .tc := ⟨.hbm, 923, rfl⟩
abbrev main_v353 : Ref sig .tc := ⟨.hbm, 924, rfl⟩
abbrev main_v354 : Ref sig .tc := ⟨.hbm, 925, rfl⟩
abbrev main_v355 : Ref sig .tc := ⟨.hbm, 926, rfl⟩
abbrev main_v356 : Ref sig .tc := ⟨.hbm, 927, rfl⟩
abbrev main_v357 : Ref sig .tc := ⟨.hbm, 928, rfl⟩
abbrev main_v358 : Ref sig .tc := ⟨.hbm, 929, rfl⟩
abbrev main_v359 : Ref sig .tc := ⟨.hbm, 930, rfl⟩
abbrev main_v360 : Ref sig .tc := ⟨.hbm, 931, rfl⟩
abbrev main_c_132 : Ref sig .tc := ⟨.hbm, 932, rfl⟩
abbrev main_v361 : Ref sig .tc := ⟨.hbm, 933, rfl⟩
abbrev main_v362 : Ref sig .tc := ⟨.hbm, 934, rfl⟩
abbrev main_c_133 : Ref sig .tc := ⟨.hbm, 935, rfl⟩
abbrev main_v363 : Ref sig .tc := ⟨.hbm, 936, rfl⟩
abbrev main_v364 : Ref sig .tc := ⟨.hbm, 937, rfl⟩
abbrev main_v365 : Ref sig .tc := ⟨.hbm, 938, rfl⟩
abbrev main_v366 : Ref sig .tc := ⟨.hbm, 939, rfl⟩
abbrev main_v367 : Ref sig .tc := ⟨.hbm, 940, rfl⟩
abbrev main_v368 : Ref sig .tc := ⟨.hbm, 941, rfl⟩
abbrev main_v369 : Ref sig .tc := ⟨.hbm, 942, rfl⟩
abbrev main_v370 : Ref sig .tc := ⟨.hbm, 943, rfl⟩
abbrev main_c_134 : Ref sig .tc := ⟨.hbm, 944, rfl⟩
abbrev main_v371 : Ref sig .tc := ⟨.hbm, 945, rfl⟩
abbrev main_v372 : Ref sig .tc := ⟨.hbm, 946, rfl⟩
abbrev main_c_135 : Ref sig .tc := ⟨.hbm, 947, rfl⟩
abbrev main_v373 : Ref sig .tc := ⟨.hbm, 948, rfl⟩
abbrev main_v374 : Ref sig .tc := ⟨.hbm, 949, rfl⟩
abbrev main_v375 : Ref sig .tc := ⟨.hbm, 950, rfl⟩
abbrev main_v376 : Ref sig .tc := ⟨.hbm, 951, rfl⟩
abbrev main_v377 : Ref sig .tc := ⟨.hbm, 952, rfl⟩
abbrev main_v378 : Ref sig .tc := ⟨.hbm, 953, rfl⟩
abbrev main_v379 : Ref sig .tc := ⟨.hbm, 954, rfl⟩
abbrev main_v380 : Ref sig .tc := ⟨.hbm, 955, rfl⟩
abbrev main_c_136 : Ref sig .tc := ⟨.hbm, 956, rfl⟩
abbrev main_v381 : Ref sig .tc := ⟨.hbm, 957, rfl⟩
abbrev main_v382 : Ref sig .tc := ⟨.hbm, 958, rfl⟩
abbrev main_c_137 : Ref sig .tc := ⟨.hbm, 959, rfl⟩
abbrev main_v383 : Ref sig .tc := ⟨.hbm, 960, rfl⟩
abbrev main_v384 : Ref sig .tc := ⟨.hbm, 961, rfl⟩
abbrev main_v385 : Ref sig .tc := ⟨.hbm, 962, rfl⟩
abbrev main_v386 : Ref sig .tc := ⟨.hbm, 963, rfl⟩
abbrev main_v387 : Ref sig .tc := ⟨.hbm, 964, rfl⟩
abbrev main_v388 : Ref sig .tc := ⟨.hbm, 965, rfl⟩
abbrev main_cst_138 : Ref sig .tc := ⟨.hbm, 966, rfl⟩
abbrev main_v389 : Ref sig .tc := ⟨.hbm, 967, rfl⟩
abbrev main_v390 : Ref sig .tc := ⟨.hbm, 968, rfl⟩

abbrev nD : Nat := 1
abbrev τ : Topo := Topo.v7x

variable {F : FTy → Type} [FloatOps F]

class Facts₀ : Prop where
  bcast_S_S14 : S_.BroadcastsInDim S14 (![] : Fin 0 → Fin S14.rank)
  bcast_S_S4 : S_.BroadcastsInDim S4 (![] : Fin 0 → Fin S4.rank)
  bcast_S4_S4x1_0 : S4.BroadcastsInDim S4x1 (![0] : Fin 1 → Fin S4x1.rank)
  bcast_S_S8x8192 : S_.BroadcastsInDim S8x8192 (![] : Fin 0 → Fin S8x8192.rank)
  bcast_S8x8192_S8x8192x1_0_1 : S8x8192.BroadcastsInDim S8x8192x1 (![0, 1] : Fin 2 → Fin S8x8192x1.rank)
  slices_S8x8192_S8x8191_0_0 : S8x8192.Slices ![0, 0] S8x8191
  pads_S8x8191_S8x8192_000_100 : S8x8191.Pads (![0, 1] : Fin 2 → Nat) ![0, 0] ![0, 0] S8x8192
  h_S_ : 0 < S_.numel
  bcast_S_S8x8192x256 : S_.BroadcastsInDim S8x8192x256 (![] : Fin 0 → Fin S8x8192x256.rank)
  slices_S18x4097x256_S1x4097x256_0_0_0 : S18x4097x256.Slices ![0, 0, 0] S1x4097x256
  shapeCasts_S1x4097x256_S4097x256 : S1x4097x256.ShapeCasts S4097x256
  slices_S18x4097x256_S1x4097x256_1_0_0 : S18x4097x256.Slices ![1, 0, 0] S1x4097x256
  slices_S18x4097x256_S1x4097x256_2_0_0 : S18x4097x256.Slices ![2, 0, 0] S1x4097x256
  slices_S18x4097x256_S1x4097x256_3_0_0 : S18x4097x256.Slices ![3, 0, 0] S1x4097x256
  slices_S18x4097x256_S1x4097x256_4_0_0 : S18x4097x256.Slices ![4, 0, 0] S1x4097x256
  slices_S18x4097x256_S1x4097x256_5_0_0 : S18x4097x256.Slices ![5, 0, 0] S1x4097x256
  slices_S18x4097x256_S1x4097x256_6_0_0 : S18x4097x256.Slices ![6, 0, 0] S1x4097x256
  slices_S18x4097x256_S1x4097x256_7_0_0 : S18x4097x256.Slices ![7, 0, 0] S1x4097x256
  slices_S18x4097x256_S1x4097x256_8_0_0 : S18x4097x256.Slices ![8, 0, 0] S1x4097x256
  slices_S18x4097x256_S1x4097x256_9_0_0 : S18x4097x256.Slices ![9, 0, 0] S1x4097x256
  slices_S18x4097x256_S1x4097x256_10_0_0 : S18x4097x256.Slices ![10, 0, 0] S1x4097x256
  slices_S18x4097x256_S1x4097x256_11_0_0 : S18x4097x256.Slices ![11, 0, 0] S1x4097x256
  slices_S18x4097x256_S1x4097x256_12_0_0 : S18x4097x256.Slices ![12, 0, 0] S1x4097x256
  slices_S18x4097x256_S1x4097x256_13_0_0 : S18x4097x256.Slices ![13, 0, 0] S1x4097x256
  slices_S18x4097x256_S1x4097x256_14_0_0 : S18x4097x256.Slices ![14, 0, 0] S1x4097x256
  slices_S18x4097x256_S1x4097x256_15_0_0 : S18x4097x256.Slices ![15, 0, 0] S1x4097x256
  slices_S18x4097x256_S1x4097x256_16_0_0 : S18x4097x256.Slices ![16, 0, 0] S1x4097x256
  slices_S18x4097x256_S1x4097x256_17_0_0 : S18x4097x256.Slices ![17, 0, 0] S1x4097x256
  scatter_S14_S4x1_S4_n_0_0_1_wf : ScatterDims.WF S14 S4x1 S4 [] [0] [0] 1
  gather_S14_S8x8192x1_S8x8192_n_0_n_n_0_2_1_wf : GatherDims.WF S14 S8x8192x1 S8x8192 [] [0] [] [0] [] 2 ![1]
  gather_S4097x256_S8x8192x1_S8x8192x256_2_0_n_n_0_2_1256_wf : GatherDims.WF S4097x256 S8x8192x1 S8x8192x256 [2] [0] [] [0] [] 2 ![1, 256]

variable [Facts₀]

def scatter_S14_S4x1_S4_n_0_0_1 : ScatterDims S14 S4x1 S4 where
  updateWindowDims := []
  insertedWindowDims := [0]
  scatterDimsToOperandDims := [0]
  indexVectorDim := 1
  wf := scatter_S14_S4x1_S4_n_0_0_1_wf
def gather_S14_S8x8192x1_S8x8192_n_0_n_n_0_2_1 : GatherDims S14 S8x8192x1 S8x8192 where
  offsetDims := []
  collapsedSliceDims := [0]
  operandBatchingDims := []
  startIndicesBatchingDims := []
  startIndexMap := [0]
  indexVectorDim := 2
  sliceSizes := ![1]
  wf := gather_S14_S8x8192x1_S8x8192_n_0_n_n_0_2_1_wf
def gather_S4097x256_S8x8192x1_S8x8192x256_2_0_n_n_0_2_1256 : GatherDims S4097x256 S8x8192x1 S8x8192x256 where
  offsetDims := [2]
  collapsedSliceDims := [0]
  operandBatchingDims := []
  startIndicesBatchingDims := []
  startIndexMap := [0]
  indexVectorDim := 2
  sliceSizes := ![1, 256]
  wf := gather_S4097x256_S8x8192x1_S8x8192x256_2_0_n_n_0_2_1256_wf

class Facts : Prop extends Facts₀ where

variable [Facts]
-- ==== Proof.K.Host.lean ====
import proofs.«175239_j73718818668652_1_alg».proof.Proof.Gen.Kernel.Launch
import Idealize.ShloMosaic.Lib.Pipeline.FrameBody
import Idealize.ShloMosaic.Lib.Pipeline.FrameSuffix

set_option maxRecDepth 16384

noncomputable section

namespace Cert.Kernel.Fr

open Idealize.ShloMosaic Idealize.ShloMosaic.TcCoe
open Idealize.SL Idealize.SL.Sem
open Cert.Kernel Cert.Kernel.Gen

variable {F : FTy → Type} [FloatOps F]

abbrev stretches : List (List (HloOp τ sig (Elt F))) :=
  [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, Gen.hostOps0_25, Gen.hostOps0_26, Gen.hostOps0_27, Gen.hostOps0_28, Gen.hostOps0_29, Gen.hostOps0_30, Gen.hostOps0_31, Gen.hostOps0_32, Gen.hostOps0_33, Gen.hostOps0_34, Gen.hostOps0_35, Gen.hostOps0_36, Gen.hostOps0_37, Gen.hostOps0_38, Gen.hostOps0_39, Gen.hostOps0_40, Gen.hostOps0_41, Gen.hostOps0_42, Gen.hostOps0_43, Gen.hostOps0_44, Gen.hostOps0_45, Gen.hostOps0_46, Gen.hostOps0_47, Gen.hostOps0_48, Gen.hostOps0_49, Gen.hostOps0_50, Gen.hostOps0_51, Gen.hostOps0_52, Gen.hostOps0_53, Gen.hostOps0_54, Gen.hostOps0_55, Gen.hostOps0_56, Gen.hostOps0_57, Gen.hostOps0_58, Gen.hostOps0_59, Gen.hostOps0_60, Gen.hostOps0_61, Gen.hostOps0_62, Gen.hostOps0_63, Gen.hostOps0_64, Gen.hostOps0_65, Gen.hostOps0_66, Gen.hostOps0_67, Gen.hostOps0_68, Gen.hostOps0_69, Gen.hostOps0_70, Gen.hostOps0_71, Gen.hostOps0_72, Gen.hostOps0_73, Gen.hostOps0_74, Gen.hostOps0_75, Gen.hostOps0_76, Gen.hostOps0_77, Gen.hostOps0_78, Gen.hostOps0_79, Gen.hostOps0_80, Gen.hostOps0_81, Gen.hostOps0_82, Gen.hostOps0_83, Gen.hostOps0_84, Gen.hostOps0_85, Gen.hostOps0_86, Gen.hostOps0_87, Gen.hostOps0_88, Gen.hostOps0_89, Gen.hostOps0_90, Gen.hostOps0_91, Gen.hostOps0_92, Gen.hostOps0_93, Gen.hostOps0_94, Gen.hostOps0_95, Gen.hostOps0_96, Gen.hostOps0_97, Gen.hostOps0_98, Gen.hostOps0_99, Gen.hostOps0_100, Gen.hostOps0_101, Gen.hostOps0_102, Gen.hostOps0_103, Gen.hostOps0_104, Gen.hostOps0_105, Gen.hostOps0_106, Gen.hostOps0_107, Gen.hostOps0_108, Gen.hostOps0_109, Gen.hostOps0_110, Gen.hostOps0_111, Gen.hostOps0_112, Gen.hostOps0_113, Gen.hostOps0_114, Gen.hostOps0_115, Gen.hostOps0_116, Gen.hostOps0_117, Gen.hostOps0_118, Gen.hostOps0_119, Gen.hostOps0_120, Gen.hostOps0_121, Gen.hostOps0_122, Gen.hostOps0_123, Gen.hostOps0_124, Gen.hostOps0_125, Gen.hostOps0_126, Gen.hostOps0_127, Gen.hostOps0_128, Gen.hostOps0_129, Gen.hostOps0_130, Gen.hostOps0_131, Gen.hostOps0_132, Gen.hostOps0_133, Gen.hostOps0_134, Gen.hostOps0_135, Gen.hostOps0_136, Gen.hostOps0_137, Gen.hostOps0_138, Gen.hostOps0_139, Gen.hostOps0_140, Gen.hostOps0_141, Gen.hostOps0_142, Gen.hostOps0_143, Gen.hostOps0_144, Gen.hostOps0_145, Gen.hostOps0_146, Gen.hostOps0_147, Gen.hostOps0_148, Gen.hostOps0_149, Gen.hostOps0_150, Gen.hostOps0_151, Gen.hostOps0_152]

theorem hsub : (stretches : List (List (HloOp τ sig (Elt F)))).Forall fun ops => ops.Forall fun op => op.bufs ⊆ StableHlo.tcRefs τ sig := by
  simp only [List.Forall]
  exact ⟨Gen.hostOps0_sub, Gen.hostOps0_1_sub, Gen.hostOps0_2_sub, Gen.hostOps0_3_sub, Gen.hostOps0_4_sub, Gen.hostOps0_5_sub, Gen.hostOps0_6_sub, Gen.hostOps0_7_sub, Gen.hostOps0_8_sub, Gen.hostOps0_9_sub, Gen.hostOps0_10_sub, Gen.hostOps0_11_sub, Gen.hostOps0_12_sub, Gen.hostOps0_13_sub, Gen.hostOps0_14_sub, Gen.hostOps0_15_sub, Gen.hostOps0_16_sub, Gen.hostOps0_17_sub, Gen.hostOps0_18_sub, Gen.hostOps0_19_sub, Gen.hostOps0_20_sub, Gen.hostOps0_21_sub, Gen.hostOps0_22_sub, Gen.hostOps0_23_sub, Gen.hostOps0_24_sub, Gen.hostOps0_25_sub, Gen.hostOps0_26_sub, Gen.hostOps0_27_sub, Gen.hostOps0_28_sub, Gen.hostOps0_29_sub, Gen.hostOps0_30_sub, Gen.hostOps0_31_sub, Gen.hostOps0_32_sub, Gen.hostOps0_33_sub, Gen.hostOps0_34_sub, Gen.hostOps0_35_sub, Gen.hostOps0_36_sub, Gen.hostOps0_37_sub, Gen.hostOps0_38_sub, Gen.hostOps0_39_sub, Gen.hostOps0_40_sub, Gen.hostOps0_41_sub, Gen.hostOps0_42_sub, Gen.hostOps0_43_sub, Gen.hostOps0_44_sub, Gen.hostOps0_45_sub, Gen.hostOps0_46_sub, Gen.hostOps0_47_sub, Gen.hostOps0_48_sub, Gen.hostOps0_49_sub, Gen.hostOps0_50_sub, Gen.hostOps0_51_sub, Gen.hostOps0_52_sub, Gen.hostOps0_53_sub, Gen.hostOps0_54_sub, Gen.hostOps0_55_sub, Gen.hostOps0_56_sub, Gen.hostOps0_57_sub, Gen.hostOps0_58_sub, Gen.hostOps0_59_sub, Gen.hostOps0_60_sub, Gen.hostOps0_61_sub, Gen.hostOps0_62_sub, Gen.hostOps0_63_sub, Gen.hostOps0_64_sub, Gen.hostOps0_65_sub, Gen.hostOps0_66_sub, Gen.hostOps0_67_sub, Gen.hostOps0_68_sub, Gen.hostOps0_69_sub, Gen.hostOps0_70_sub, Gen.hostOps0_71_sub, Gen.hostOps0_72_sub, Gen.hostOps0_73_sub, Gen.hostOps0_74_sub, Gen.hostOps0_75_sub, Gen.hostOps0_76_sub, Gen.hostOps0_77_sub, Gen.hostOps0_78_sub, Gen.hostOps0_79_sub, Gen.hostOps0_80_sub, Gen.hostOps0_81_sub, Gen.hostOps0_82_sub, Gen.hostOps0_83_sub, Gen.hostOps0_84_sub, Gen.hostOps0_85_sub, Gen.hostOps0_86_sub, Gen.hostOps0_87_sub, Gen.hostOps0_88_sub, Gen.hostOps0_89_sub, Gen.hostOps0_90_sub, Gen.hostOps0_91_sub, Gen.hostOps0_92_sub, Gen.hostOps0_93_sub, Gen.hostOps0_94_sub, Gen.hostOps0_95_sub, Gen.hostOps0_96_sub, Gen.hostOps0_97_sub, Gen.hostOps0_98_sub, Gen.hostOps0_99_sub, Gen.hostOps0_100_sub, Gen.hostOps0_101_sub, Gen.hostOps0_102_sub, Gen.hostOps0_103_sub, Gen.hostOps0_104_sub, Gen.hostOps0_105_sub, Gen.hostOps0_106_sub, Gen.hostOps0_107_sub, Gen.hostOps0_108_sub, Gen.hostOps0_109_sub, Gen.hostOps0_110_sub, Gen.hostOps0_111_sub, Gen.hostOps0_112_sub, Gen.hostOps0_113_sub, Gen.hostOps0_114_sub, Gen.hostOps0_115_sub, Gen.hostOps0_116_sub, Gen.hostOps0_117_sub, Gen.hostOps0_118_sub, Gen.hostOps0_119_sub, Gen.hostOps0_120_sub, Gen.hostOps0_121_sub, Gen.hostOps0_122_sub, Gen.hostOps0_123_sub, Gen.hostOps0_124_sub, Gen.hostOps0_125_sub, Gen.hostOps0_126_sub, Gen.hostOps0_127_sub, Gen.hostOps0_128_sub, Gen.hostOps0_129_sub, Gen.hostOps0_130_sub, Gen.hostOps0_131_sub, Gen.hostOps0_132_sub, Gen.hostOps0_133_sub, Gen.hostOps0_134_sub, Gen.hostOps0_135_sub, Gen.hostOps0_136_sub, Gen.hostOps0_137_sub, Gen.hostOps0_138_sub, Gen.hostOps0_139_sub, Gen.hostOps0_140_sub, Gen.hostOps0_141_sub, Gen.hostOps0_142_sub, Gen.hostOps0_143_sub, Gen.hostOps0_144_sub, Gen.hostOps0_145_sub, Gen.hostOps0_146_sub, Gen.hostOps0_147_sub, Gen.hostOps0_148_sub, Gen.hostOps0_149_sub, Gen.hostOps0_150_sub, Gen.hostOps0_151_sub, Gen.hostOps0_152_sub⟩

/-- Each operation is one of the host forms, and none of them allocates. -/
theorem hfresh : (stretches : List (List (HloOp τ sig (Elt F)))).Forall fun ops => ops.Forall fun op => op.fresh = ∅ := by
  simp only [List.Forall]; repeat' constructor

variable (m : (ℓ : Loc nD τ sig) → Buf (Elt F) ℓ)

abbrev V (c : Dev nD) (b : Ref sig .tc) : Buf (Elt F) ((c : Thread nD τ).loc b) :=
  StableHlo.after (List.flatten stretches) (fun b => m (c, b)) b

end Cert.Kernel.Fr

end
-- ==== Proof.K.Kit.lean ====
import proofs.«175239_j73718818668652_1_alg».proof.Proof.K.Host
import proofs.«175239_j73718818668652_1_alg».proof.Proof.Gen.Kernel.Skeleton
import proofs.«175239_j73718818668652_1_alg».proof.Proof.Gen.Kernel.Points
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches hsub hfresh Gen.main_chain

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 18 = 0 :=
  (by decide +kernel : ∀ t : Fin grid0.N, cond0_0 (grid0.coords t) ↔ t.val % 18 = 0)

abbrev cond0_1 (i : grid0.Coords) : Prop := k0_cond2 i = 1#1

theorem hcond0_1 : ∀ t : Fin cfg0.N, cond0_1 (grid0.coords t) ↔ t.val % 18 = 17 :=
  (by decide +kernel : ∀ t : Fin grid0.N, cond0_1 (grid0.coords t) ↔ t.val % 18 = 17)

theorem liveAt0_0 : ∀ t : Fin cfg0.N, cfg0.idle 0 (grid0.coords t) = false := by decide +kernel

theorem liveAt0_1 : ∀ t : Fin cfg0.N, cfg0.idle 1 (grid0.coords t) = false := by decide +kernel

theorem idleAt0_2_A : ∀ t : Fin cfg0.N, cond0_0 (grid0.coords t) → ¬cond0_1 (grid0.coords t) → cfg0.idle 2 (grid0.coords t) = true := by decide +kernel

theorem noFlush0_2_A : ∀ t : Fin cfg0.N, cond0_0 (grid0.coords t) → ¬cond0_1 (grid0.coords t) → (cfg0.win 2).flush t = false := by decide +kernel

theorem idleAt0_2_B : ∀ t : Fin cfg0.N, ¬cond0_0 (grid0.coords t) → ¬cond0_1 (grid0.coords t) → cfg0.idle 2 (grid0.coords t) = true := by decide +kernel

theorem noFlush0_2_B : ∀ t : Fin cfg0.N, ¬cond0_0 (grid0.coords t) → ¬cond0_1 (grid0.coords t) → (cfg0.win 2).flush t = false := by decide +kernel

theorem liveAt0_2_C : ∀ t : Fin cfg0.N, ¬cond0_0 (grid0.coords t) → cond0_1 (grid0.coords t) → cfg0.idle 2 (grid0.coords t) = false := by decide +kernel

abbrev VO0_2 : View sig .tc .vmem S8x128x256 .f32 := (Memref.whole cc0_stg2_0 : Memref sig .tc .vmem S8x128x256 .f32).view

abbrev ms0_0 (t : Fin cfg0.N) : Memref sig .tc .vmem S1x8x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4224x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128x256 .f32 := win0_2.stage (cfg0.slots t 2)
abbrev hs0_2 (t : Fin cfg0.N) : (ms0_2 t).IsWhole := hstage0_2 ((cfg0.slots t 2).cast nbuf0_2)

abbrev scM0_0 : Memref sig .tc .vmem S8x128x256 .f32 := Memref.whole cc0_scratch0

abbrev VS0_0 : View sig .tc .vmem S8x128x256 .f32 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.K.RunA.lean ====
import proofs.«175239_j73718818668652_1_alg».proof.Proof.K.Kit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_A (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : cond0_0 i) (hc1 : ¬cond0_1 i)
    (x0 : Vec F S1x8x128 .i32) (x1 : Vec F S1x4224x256 .bf16) :
    Σ' (L2 : List (View.Piece (Elt F) S8x128x256 .f32)), { LS0 : List (View.Piece (Elt F) S8x128x256 .f32) //
      ∀ (xi2 : Vec F S8x128x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_sum_kernel i arg2 harg2 arg3 harg3 arg4 harg4 arg5 harg5) K } := by
  refine ⟨[], ?_, fun xi2 E K => ?run⟩
  case run =>
    simp only [cc0__gather_sum_kernel_eq_skeleton]; unfold cc0__gather_sum_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.RunB.lean ====
import proofs.«175239_j73718818668652_1_alg».proof.Proof.K.RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_B (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : ¬cond0_0 i) (hc1 : ¬cond0_1 i)
    (x0 : Vec F S1x8x128 .i32) (x1 : Vec F S1x4224x256 .bf16) (xs0 : Vec F S8x128x256 .f32) :
    Σ' (L2 : List (View.Piece (Elt F) S8x128x256 .f32)), { LS0 : List (View.Piece (Elt F) S8x128x256 .f32) //
      ∀ (xi2 : Vec F S8x128x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_sum_kernel i arg2 harg2 arg3 harg3 arg4 harg4 arg5 harg5) K } := by
  refine ⟨[], ?_, fun xi2 E K => ?run⟩
  case run =>
    simp only [cc0__gather_sum_kernel_eq_skeleton]; unfold cc0__gather_sum_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.RunC.lean ====
import proofs.«175239_j73718818668652_1_alg».proof.Proof.K.RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_C (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : ¬cond0_0 i) (hc1 : cond0_1 i)
    (x0 : Vec F S1x8x128 .i32) (x1 : Vec F S1x4224x256 .bf16) (xs0 : Vec F S8x128x256 .f32) :
    Σ' (L2 : List (View.Piece (Elt F) S8x128x256 .f32)), { LS0 : List (View.Piece (Elt F) S8x128x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__gather_sum_kernel i arg2 harg2 arg3 harg3 arg4 harg4 arg5 harg5) K } := by
  refine ⟨?_, ?_, fun E K => ?run⟩
  case run =>
    simp only [cc0__gather_sum_kernel_eq_skeleton]; unfold cc0__gather_sum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.K.Frame.lean ====
import proofs.«175239_j73718818668652_1_alg».proof.Proof.K.RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def out0_A_2 (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : cond0_0 i) (hc1 : ¬cond0_1 i)
    (x0 : Vec F S1x8x128 .i32) (x1 : Vec F S1x4224x256 .bf16) : Vec F S8x128x256 .f32 :=
  VO0_2.read (Elt F) (VO0_2.writes (Elt F) VO0_2.junk (kernelRun0_A c i arg2 harg2 arg3 harg3 arg4 harg4 arg5 harg5 hc0 hc1 x0 x1).1)

theorem scover0_A_0 (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : cond0_0 i) (hc1 : ¬cond0_1 i)
    (x0 : Vec F S1x8x128 .i32) (x1 : Vec F S1x4224x256 .bf16) (y : S8x128x256.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S8x128x256.size (by sl_kernel_rfl) y

def sout0_A_0 (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : cond0_0 i) (hc1 : ¬cond0_1 i)
    (x0 : Vec F S1x8x128 .i32) (x1 : Vec F S1x4224x256 .bf16) : Vec F S8x128x256 .f32 :=
  VS0_0.read (Elt F) (VS0_0.writes (Elt F) VS0_0.junk (kernelRun0_A c i arg2 harg2 arg3 harg3 arg4 harg4 arg5 harg5 hc0 hc1 x0 x1).2.1)

def out0_B_2 (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : ¬cond0_0 i) (hc1 : ¬cond0_1 i)
    (x0 : Vec F S1x8x128 .i32) (x1 : Vec F S1x4224x256 .bf16) (xs0 : Vec F S8x128x256 .f32) : Vec F S8x128x256 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : ¬cond0_0 i) (hc1 : ¬cond0_1 i)
    (x0 : Vec F S1x8x128 .i32) (x1 : Vec F S1x4224x256 .bf16) (xs0 : Vec F S8x128x256 .f32) (y : S8x128x256.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S8x128x256.size (by sl_kernel_rfl) y

def sout0_B_0 (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : ¬cond0_0 i) (hc1 : ¬cond0_1 i)
    (x0 : Vec F S1x8x128 .i32) (x1 : Vec F S1x4224x256 .bf16) (xs0 : Vec F S8x128x256 .f32) : Vec F S8x128x256 .f32 :=
  VS0_0.read (Elt F) (VS0_0.writes (Elt F) VS0_0.junk (kernelRun0_B c i arg2 harg2 arg3 harg3 arg4 harg4 arg5 harg5 hc0 hc1 x0 x1 xs0).2.1)

theorem cover0_C_2 (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : ¬cond0_0 i) (hc1 : cond0_1 i)
    (x0 : Vec F S1x8x128 .i32) (x1 : Vec F S1x4224x256 .bf16) (xs0 : Vec F S8x128x256 .f32) (y : S8x128x256.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S8x128x256.size (by sl_kernel_rfl) y

def out0_C_2 (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : ¬cond0_0 i) (hc1 : cond0_1 i)
    (x0 : Vec F S1x8x128 .i32) (x1 : Vec F S1x4224x256 .bf16) (xs0 : Vec F S8x128x256 .f32) : Vec F S8x128x256 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : ¬cond0_0 i) (hc1 : cond0_1 i)
    (x0 : Vec F S1x8x128 .i32) (x1 : Vec F S1x4224x256 .bf16) (xs0 : Vec F S8x128x256 .f32) (y : S8x128x256.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S8x128x256.size (by sl_kernel_rfl) y

def sout0_C_0 (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : ¬cond0_0 i) (hc1 : cond0_1 i)
    (x0 : Vec F S1x8x128 .i32) (x1 : Vec F S1x4224x256 .bf16) (xs0 : Vec F S8x128x256 .f32) : Vec F S8x128x256 .f32 :=
  VS0_0.read (Elt F) (VS0_0.writes (Elt F) VS0_0.junk (kernelRun0_C c i arg2 harg2 arg3 harg3 arg4 harg4 arg5 harg5 hc0 hc1 x0 x1 xs0).2.1)

def outsAt0 (c : Dev nD) : (n : ℕ) → n < cfg0.N → Vec F S8x128x256 .f32 × Vec F S8x128x256 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 18 = 0 then
      if h1 : (n + 1) % 18 = 17 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 18 = 17 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 18 = 0) (h1 : ¬t.val % 18 = 17) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 18 = 0) (h1 : ¬t.val % 18 = 17) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 18 = 0) (h1 : t.val % 18 = 17) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 1152 := lt_of_lt_of_eq t.isLt (show cfg0.N = 1152 from N_0)
  by_cases h0 : t.val % 18 = 0
  · by_cases h1 : t.val % 18 = 17
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · by_cases h1 : t.val % 18 = 17
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk m c 0 t) (iblk m c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _)
          iexact Hg
        isplitl [Ho]; · iexact Ho
        isplitl [H0]; · iexact H0
        isplitl [H1]; · iexact H1
        iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 1152 := N_0; omega)

set_option backward.isDefEq.respectTransparency.types false in

theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.Kernel.Fr

end
-- ==== Proof.LibHostFold.lean ====
import Idealize.ShloMosaic.Lib.StableHlo.Run

noncomputable section

namespace Cert.LibHostFold

open Idealize.ShloMosaic Idealize.ShloMosaic.StableHlo

variable {τ : Topo} {sig : RefSig} {Val : EltTy → Type}

theorem forall_append {α : Type} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

def afterS : List (List (HloOp τ sig Val)) → Valuation τ sig Val → Valuation τ sig Val
  | [], V => V
  | ops :: rest, V => afterS rest (after ops V)

@[simp] theorem afterS_nil (V : Valuation τ sig Val) : afterS [] V = V := rfl
@[simp] theorem afterS_cons (ops : List (HloOp τ sig Val)) (rest : List (List (HloOp τ sig Val))) (V : Valuation τ sig Val) :
    afterS (ops :: rest) V = afterS rest (after ops V) := rfl

theorem after_flatten (items : List (List (HloOp τ sig Val))) (V : Valuation τ sig Val) :
    after items.flatten V = afterS items V := by
  induction items generalizing V with
  | nil => rfl
  | cons ops rest ih => rw [List.flatten_cons, after_append, ih, afterS_cons]

theorem afterS_append (l₁ l₂ : List (List (HloOp τ sig Val))) (V : Valuation τ sig Val) :
    afterS (l₁ ++ l₂) V = afterS l₂ (afterS l₁ V) := by
  induction l₁ generalizing V with
  | nil => rfl
  | cons ops l ih => simp only [List.cons_append, afterS_cons, ih]

def valAt (items : List (List (HloOp τ sig Val))) (V : Valuation τ sig Val) (n : ℕ) : Valuation τ sig Val :=
  afterS (items.take n) V

theorem valAt_zero (items : List (List (HloOp τ sig Val))) (V : Valuation τ sig Val) : valAt items V 0 = V := rfl

theorem valAt_add (items : List (List (HloOp τ sig Val))) (V : Valuation τ sig Val) (n k : ℕ) :
    valAt items V (n + k) = afterS ((items.drop n).take k) (valAt items V n) := by
  unfold valAt
  rw [← afterS_append, List.take_add]

theorem valAt_succ (items : List (List (HloOp τ sig Val))) (V : Valuation τ sig Val) (n : ℕ) (h : n < items.length) :
    valAt items V (n + 1) = after items[n] (valAt items V n) := by
  rw [valAt_add, List.take_one_drop_eq_of_lt_length h]
  rfl

theorem valAt_of_length_le (items : List (List (HloOp τ sig Val))) (V : Valuation τ sig Val) (n : ℕ)
    (h : items.length ≤ n) : valAt items V n = after items.flatten V := by
  unfold valAt
  rw [List.take_of_length_le h, after_flatten]

def WritesIn (τ : Topo) {Val : EltTy → Type} (ops : List (HloOp τ sig Val)) (W : List (Ref sig .tc)) : Prop :=
  ops.Forall fun op => op.writes ⊆ (W.map (Proc.devRef (τ := τ) .tc)).toFinset

def WritesAll (τ : Topo) {Val : EltTy → Type} : List (List (HloOp τ sig Val)) → List (List (Ref sig .tc)) → Prop
  | [], [] => True
  | ops :: rest, W :: Ws => WritesIn τ ops W ∧ WritesAll τ rest Ws
  | [], _ :: _ => False
  | _ :: _, [] => False

/-- Operation by operation, each writes exactly the reference at its place in the list. -/
def WritesEach (τ : Topo) {Val : EltTy → Type} : List (HloOp τ sig Val) → List (Ref sig .tc) → Prop
  | [], [] => True
  | op :: ops, r :: W => op.writes = {Proc.devRef .tc r} ∧ WritesEach τ ops W
  | [], _ :: _ => False
  | _ :: _, [] => False

theorem WritesEach.sub : ∀ (ops : List (HloOp τ sig Val)) (W : List (Ref sig .tc)), WritesEach τ ops W →
    ∀ op ∈ ops, ∃ r ∈ W, op.writes = {Proc.devRef .tc r}
  | [], [], _, _, ho => nomatch ho
  | op :: ops, r :: W, h, o, ho => by
    rcases List.mem_cons.mp ho with rfl | ho
    · exact ⟨r, List.mem_cons_self, h.1⟩
    · obtain ⟨r', hr', e⟩ := WritesEach.sub ops W h.2 o ho
      exact ⟨r', List.mem_cons_of_mem _ hr', e⟩
  | [], _ :: _, h, _, _ => h.elim
  | _ :: _, [], h, _, _ => h.elim

theorem WritesEach.writesIn {ops : List (HloOp τ sig Val)} {W : List (Ref sig .tc)} (h : WritesEach τ ops W) :
    WritesIn τ ops W :=
  List.forall_iff_forall_mem.mpr fun o ho => by
    obtain ⟨r, hr, e⟩ := h.sub ops W o ho
    rw [e, Finset.singleton_subset_iff, List.mem_toFinset]
    exact List.mem_map_of_mem hr

/-- Stretch by stretch, operation by operation, each writes exactly the reference at its place. -/
def WritesEachAll (τ : Topo) {Val : EltTy → Type} : List (List (HloOp τ sig Val)) → List (List (Ref sig .tc)) → Prop
  | [], [] => True
  | ops :: rest, W :: Ws => WritesEach τ ops W ∧ WritesEachAll τ rest Ws
  | [], _ :: _ => False
  | _ :: _, [] => False

theorem WritesEachAll.writesAll : ∀ (items : List (List (HloOp τ sig Val))) (Ws : List (List (Ref sig .tc))),
    WritesEachAll τ items Ws → WritesAll τ items Ws
  | [], [], _ => trivial
  | _ :: rest, _ :: Ws, h => ⟨h.1.writesIn, WritesEachAll.writesAll rest Ws h.2⟩
  | [], _ :: _, h => h.elim
  | _ :: _, [], h => h.elim

theorem WritesAll.take : ∀ (n : ℕ) (items : List (List (HloOp τ sig Val))) (Ws : List (List (Ref sig .tc))),
    WritesAll τ items Ws → WritesAll τ (items.take n) (Ws.take n)
  | 0, _, _, _ => trivial
  | _ + 1, [], [], _ => trivial
  | n + 1, _ :: rest, _ :: Ws, h => ⟨h.1, WritesAll.take n rest Ws h.2⟩
  | _ + 1, [], _ :: _, h => h.elim
  | _ + 1, _ :: _, [], h => h.elim

theorem WritesAll.drop : ∀ (n : ℕ) (items : List (List (HloOp τ sig Val))) (Ws : List (List (Ref sig .tc))),
    WritesAll τ items Ws → WritesAll τ (items.drop n) (Ws.drop n)
  | 0, _, _, h => h
  | _ + 1, [], [], _ => trivial
  | n + 1, _ :: rest, _ :: Ws, h => WritesAll.drop n rest Ws h.2
  | _ + 1, [], _ :: _, h => h.elim
  | _ + 1, _ :: _, [], h => h.elim

theorem afterS_keep : ∀ (items : List (List (HloOp τ sig Val))) (Ws : List (List (Ref sig .tc))),
    WritesAll τ items Ws → ∀ (V : Valuation τ sig Val) (r : Ref sig .tc), (∀ W ∈ Ws, r ∉ W) →
      afterS items V (Proc.devRef .tc r) = V (Proc.devRef .tc r)
  | [], _, _, _, _, _ => rfl
  | ops :: rest, W :: Ws, h, V, r, hr => by
    rw [afterS_cons, afterS_keep rest Ws h.2 _ r fun W' hW' => hr W' (List.mem_cons_of_mem _ hW'),
      after_of_writes_sub ops V h.1 (hr W List.mem_cons_self)]
  | _ :: _, [], h, _, _, _ => h.elim

theorem valAt_keep (items : List (List (HloOp τ sig Val))) (Ws : List (List (Ref sig .tc))) (hW : WritesAll τ items Ws)
    (V : Valuation τ sig Val) (n k : ℕ) (r : Ref sig .tc) (hr : ∀ W ∈ (Ws.drop n).take k, r ∉ W) :
    valAt items V (n + k) (Proc.devRef .tc r) = valAt items V n (Proc.devRef .tc r) := by
  rw [valAt_add]
  exact afterS_keep _ _ ((hW.drop n).take k) _ r hr

theorem after_flatten_keep (items : List (List (HloOp τ sig Val))) (Ws : List (List (Ref sig .tc))) (hW : WritesAll τ items Ws)
    (V : Valuation τ sig Val) (n : ℕ) (r : Ref sig .tc) (hr : ∀ W ∈ Ws.drop n, r ∉ W) :
    after items.flatten V (Proc.devRef .tc r) = valAt items V n (Proc.devRef .tc r) := by
  have h := valAt_keep items Ws hW V n items.length r fun W hW' => hr W (List.mem_of_mem_take hW')
  rw [valAt_of_length_le items V (n + items.length) (Nat.le_add_left _ _)] at h
  exact h

theorem after_flatten_untouched (items : List (List (HloOp τ sig Val))) (Ws : List (List (Ref sig .tc))) (hW : WritesAll τ items Ws)
    (V : Valuation τ sig Val) (r : Ref sig .tc) (hr : ∀ W ∈ Ws, r ∉ W) :
    after items.flatten V (Proc.devRef .tc r) = V (Proc.devRef .tc r) :=
  after_flatten_keep items Ws hW V 0 r hr

end Cert.LibHostFold

end
-- ==== Proof.K.HostArgs.lean ====
import proofs.«175239_j73718818668652_1_alg».proof.Proof.K.Host
import proofs.«175239_j73718818668652_1_alg».proof.Proof.LibHostFold

set_option maxRecDepth 16384

noncomputable section

namespace Cert.Kernel.FrHost

open Idealize.ShloMosaic Idealize.ShloMosaic.TcCoe Idealize.ShloMosaic.StableHlo
open Idealize.SL Idealize.SL.Sem
open Cert.Kernel Cert.Kernel.Gen Cert.Kernel.Fr
open Cert.LibHostFold

variable {F : FTy → Type} [FloatOps F]

/-- Stretch by stretch, the results of the operations, in order. -/
abbrev Ws : List (List (Ref sig .tc)) :=
  [[main_c, main_c_0, main_c_1, main_v0, main_c_2, main_v1, main_v2, main_c_3, main_v3, main_v4, main_v5, main_v6, main_v7, main_c_4, main_v8, main_v9, main_c_5, main_v10, main_v11, main_v12, main_v13, main_v14, main_c_6, main_v15, main_v16, main_c_7, main_v17, main_v18, main_v19, main_c_8],
   [main_call0_v0, main_v20],
   [main_c_9, main_v21, main_v22, main_v23, main_c_10],
   [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v24],
   [main_v25, main_c_11],
   [main_v26],
   [main_v27, main_v28, main_c_12],
   [main_call3_v0, main_v29],
   [main_c_13, main_v30, main_v31, main_v32, main_c_14],
   [main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v33],
   [main_v34, main_c_15],
   [main_v35],
   [main_v36, main_c_16],
   [main_call6_v0, main_call6_v1, main_v37],
   [main_v38, main_c_17],
   [main_call7_v0, main_v39],
   [main_c_18, main_v40, main_v41, main_v42, main_c_19],
   [main_call8_v0, main_call8_c, main_call8_v1, main_call8_c_0, main_call8_v2, main_call8_v3, main_call8_v4, main_call8_c_1, main_call8_v5, main_call8_v6, main_call8_c_2, main_call8_v7, main_call8_v8, main_call8_c_3, main_call8_v9, main_call8_v10, main_call8_v11, main_call8_v12, main_call8_v13, main_call8_v14, main_v43],
   [main_v44, main_c_20],
   [main_v45],
   [main_v46, main_c_21],
   [main_call10_v0, main_call10_v1, main_v47],
   [main_v48, main_c_22],
   [main_call11_v0, main_v49],
   [main_c_23, main_v50, main_v51, main_v52, main_c_24],
   [main_call12_v0, main_call12_c, main_call12_v1, main_call12_c_0, main_call12_v2, main_call12_v3, main_call12_v4, main_call12_c_1, main_call12_v5, main_call12_v6, main_call12_c_2, main_call12_v7, main_call12_v8, main_call12_c_3, main_call12_v9, main_call12_v10, main_call12_v11, main_call12_v12, main_call12_v13, main_call12_v14, main_v53],
   [main_v54, main_c_25],
   [main_v55],
   [main_v56, main_c_26],
   [main_call14_v0, main_call14_v1, main_v57],
   [main_v58, main_c_27],
   [main_call15_v0, main_v59],
   [main_c_28, main_v60, main_v61, main_v62, main_c_29],
   [main_call16_v0, main_call16_c, main_call16_v1, main_call16_c_0, main_call16_v2, main_call16_v3, main_call16_v4, main_call16_c_1, main_call16_v5, main_call16_v6, main_call16_c_2, main_call16_v7, main_call16_v8, main_call16_c_3, main_call16_v9, main_call16_v10, main_call16_v11, main_call16_v12, main_call16_v13, main_call16_v14, main_v63],
   [main_v64, main_c_30],
   [main_v65],
   [main_v66, main_c_31],
   [main_call18_v0, main_call18_v1, main_v67],
   [main_v68, main_c_32],
   [main_call19_v0, main_v69],
   [main_c_33, main_v70, main_v71, main_v72, main_c_34],
   [main_call20_v0, main_call20_c, main_call20_v1, main_call20_c_0, main_call20_v2, main_call20_v3, main_call20_v4, main_call20_c_1, main_call20_v5, main_call20_v6, main_call20_c_2, main_call20_v7, main_call20_v8, main_call20_c_3, main_call20_v9, main_call20_v10, main_call20_v11, main_call20_v12, main_call20_v13, main_call20_v14, main_v73],
   [main_v74, main_c_35],
   [main_v75],
   [main_v76, main_c_36],
   [main_call22_v0, main_call22_v1, main_v77],
   [main_v78, main_c_37],
   [main_call23_v0, main_v79],
   [main_c_38, main_v80, main_v81, main_v82, main_c_39],
   [main_call24_v0, main_call24_c, main_call24_v1, main_call24_c_0, main_call24_v2, main_call24_v3, main_call24_v4, main_call24_c_1, main_call24_v5, main_call24_v6, main_call24_c_2, main_call24_v7, main_call24_v8, main_call24_c_3, main_call24_v9, main_call24_v10, main_call24_v11, main_call24_v12, main_call24_v13, main_call24_v14, main_v83],
   [main_v84, main_c_40],
   [main_v85],
   [main_v86, main_c_41],
   [main_call26_v0, main_call26_v1, main_v87],
   [main_v88, main_c_42],
   [main_call27_v0, main_v89],
   [main_c_43, main_v90, main_v91, main_v92, main_c_44],
   [main_call28_v0, main_call28_c, main_call28_v1, main_call28_c_0, main_call28_v2, main_call28_v3, main_call28_v4, main_call28_c_1, main_call28_v5, main_call28_v6, main_call28_c_2, main_call28_v7, main_call28_v8, main_call28_c_3, main_call28_v9, main_call28_v10, main_call28_v11, main_call28_v12, main_call28_v13, main_call28_v14, main_v93],
   [main_v94, main_c_45],
   [main_v95],
   [main_v96, main_c_46],
   [main_call30_v0, main_call30_v1, main_v97],
   [main_v98, main_c_47],
   [main_call31_v0, main_v99],
   [main_c_48, main_v100, main_v101, main_v102, main_c_49],
   [main_call32_v0, main_call32_c, main_call32_v1, main_call32_c_0, main_call32_v2, main_call32_v3, main_call32_v4, main_call32_c_1, main_call32_v5, main_call32_v6, main_call32_c_2, main_call32_v7, main_call32_v8, main_call32_c_3, main_call32_v9, main_call32_v10, main_call32_v11, main_call32_v12, main_call32_v13, main_call32_v14, main_v103],
   [main_v104, main_c_50],
   [main_v105],
   [main_v106, main_c_51],
   [main_call34_v0, main_call34_v1, main_v107],
   [main_v108, main_c_52],
   [main_call35_v0, main_v109],
   [main_c_53, main_v110, main_v111, main_v112, main_c_54],
   [main_call36_v0, main_call36_c, main_call36_v1, main_call36_c_0, main_call36_v2, main_call36_v3, main_call36_v4, main_call36_c_1, main_call36_v5, main_call36_v6, main_call36_c_2, main_call36_v7, main_call36_v8, main_call36_c_3, main_call36_v9, main_call36_v10, main_call36_v11, main_call36_v12, main_call36_v13, main_call36_v14, main_v113],
   [main_v114, main_c_55],
   [main_v115],
   [main_v116, main_c_56],
   [main_call38_v0, main_call38_v1, main_v117],
   [main_v118, main_c_57],
   [main_call39_v0, main_v119],
   [main_c_58, main_v120, main_v121, main_v122, main_c_59],
   [main_call40_v0, main_call40_c, main_call40_v1, main_call40_c_0, main_call40_v2, main_call40_v3, main_call40_v4, main_call40_c_1, main_call40_v5, main_call40_v6, main_call40_c_2, main_call40_v7, main_call40_v8, main_call40_c_3, main_call40_v9, main_call40_v10, main_call40_v11, main_call40_v12, main_call40_v13, main_call40_v14, main_v123],
   [main_v124, main_c_60],
   [main_v125],
   [main_v126, main_c_61],
   [main_call42_v0, main_call42_v1, main_v127],
   [main_v128, main_c_62],
   [main_call43_v0, main_v129],
   [main_c_63, main_v130, main_v131, main_v132, main_c_64],
   [main_call44_v0, main_call44_c, main_call44_v1, main_call44_c_0, main_call44_v2, main_call44_v3, main_call44_v4, main_call44_c_1, main_call44_v5, main_call44_v6, main_call44_c_2, main_call44_v7, main_call44_v8, main_call44_c_3, main_call44_v9, main_call44_v10, main_call44_v11, main_call44_v12, main_call44_v13, main_call44_v14, main_v133],
   [main_v134, main_c_65],
   [main_v135],
   [main_v136, main_c_66],
   [main_call46_v0, main_call46_v1, main_v137],
   [main_v138, main_c_67],
   [main_call47_v0, main_v139],
   [main_c_68, main_v140, main_v141, main_v142, main_c_69],
   [main_call48_v0, main_call48_c, main_call48_v1, main_call48_c_0, main_call48_v2, main_call48_v3, main_call48_v4, main_call48_c_1, main_call48_v5, main_call48_v6, main_call48_c_2, main_call48_v7, main_call48_v8, main_call48_c_3, main_call48_v9, main_call48_v10, main_call48_v11, main_call48_v12, main_call48_v13, main_call48_v14, main_v143],
   [main_v144, main_c_70],
   [main_v145],
   [main_v146, main_c_71],
   [main_call50_v0, main_call50_v1, main_v147],
   [main_v148, main_c_72],
   [main_call51_v0, main_v149],
   [main_c_73, main_v150, main_v151, main_v152, main_c_74],
   [main_call52_v0, main_call52_c, main_call52_v1, main_call52_c_0, main_call52_v2, main_call52_v3, main_call52_v4, main_call52_c_1, main_call52_v5, main_call52_v6, main_call52_c_2, main_call52_v7, main_call52_v8, main_call52_c_3, main_call52_v9, main_call52_v10, main_call52_v11, main_call52_v12, main_call52_v13, main_call52_v14, main_v153],
   [main_v154, main_c_75],
   [main_v155],
   [main_v156, main_c_76],
   [main_call54_v0, main_call54_v1, main_v157],
   [main_v158, main_c_77],
   [main_call55_v0, main_v159],
   [main_c_78, main_v160, main_v161, main_v162, main_c_79],
   [main_call56_v0, main_call56_c, main_call56_v1, main_call56_c_0, main_call56_v2, main_call56_v3, main_call56_v4, main_call56_c_1, main_call56_v5, main_call56_v6, main_call56_c_2, main_call56_v7, main_call56_v8, main_call56_c_3, main_call56_v9, main_call56_v10, main_call56_v11, main_call56_v12, main_call56_v13, main_call56_v14, main_v163],
   [main_v164, main_c_80],
   [main_v165],
   [main_v166, main_c_81],
   [main_call58_v0, main_call58_v1, main_v167],
   [main_v168, main_c_82],
   [main_call59_v0, main_v169],
   [main_c_83, main_v170, main_v171, main_v172, main_c_84],
   [main_call60_v0, main_call60_c, main_call60_v1, main_call60_c_0, main_call60_v2, main_call60_v3, main_call60_v4, main_call60_c_1, main_call60_v5, main_call60_v6, main_call60_c_2, main_call60_v7, main_call60_v8, main_call60_c_3, main_call60_v9, main_call60_v10, main_call60_v11, main_call60_v12, main_call60_v13, main_call60_v14, main_v173],
   [main_v174, main_c_85],
   [main_v175],
   [main_v176, main_c_86],
   [main_call62_v0, main_call62_v1, main_v177],
   [main_v178, main_c_87],
   [main_call63_v0, main_v179],
   [main_c_88, main_v180, main_v181, main_v182, main_c_89],
   [main_call64_v0, main_call64_c, main_call64_v1, main_call64_c_0, main_call64_v2, main_call64_v3, main_call64_v4, main_call64_c_1, main_call64_v5, main_call64_v6, main_call64_c_2, main_call64_v7, main_call64_v8, main_call64_c_3, main_call64_v9, main_call64_v10, main_call64_v11, main_call64_v12, main_call64_v13, main_call64_v14, main_v183],
   [main_v184, main_c_90],
   [main_v185],
   [main_v186, main_c_91],
   [main_call66_v0, main_call66_v1, main_v187],
   [main_v188, main_c_92],
   [main_call67_v0, main_v189],
   [main_c_93, main_v190, main_v191, main_v192, main_c_94],
   [main_call68_v0, main_call68_c, main_call68_v1, main_call68_c_0, main_call68_v2, main_call68_v3, main_call68_v4, main_call68_c_1, main_call68_v5, main_call68_v6, main_call68_c_2, main_call68_v7, main_call68_v8, main_call68_c_3, main_call68_v9, main_call68_v10, main_call68_v11, main_call68_v12, main_call68_v13, main_call68_v14, main_v193],
   [main_v194, main_c_95],
   [main_v195],
   [main_v196, main_c_96],
   [main_call70_v0, main_call70_v1, main_v197],
   [main_v198, main_c_97],
   [main_call71_v0, main_v199],
   [main_c_98, main_v200, main_v201, main_v202, main_c_99],
   [main_call72_v0, main_call72_c, main_call72_v1, main_call72_c_0, main_call72_v2, main_call72_v3, main_call72_v4, main_call72_c_1, main_call72_v5, main_call72_v6, main_call72_c_2, main_call72_v7, main_call72_v8, main_call72_c_3, main_call72_v9, main_call72_v10, main_call72_v11, main_call72_v12, main_call72_v13, main_call72_v14, main_v203],
   [main_v204, main_c_100],
   [main_v205],
   [main_v206, main_c_101],
   [main_call74_v0, main_call74_v1, main_v207],
   [main_v208, main_v209, main_v210, main_v211, main_v212, main_v213, main_v214, main_v215, main_v216, main_v217, main_v218, main_v219, main_v220, main_v221, main_v222, main_v223, main_v224, main_v225, main_v226, main_v227, main_v228, main_c_102],
   [main_call75_v0, main_v229],
   [main_v230]]

/-- Each operation writes its one result, which stands at its place in its stretch's list. -/
theorem Ws_ok : WritesAll τ (stretches : List (List (HloOp τ sig (Elt F)))) Ws :=
  WritesEachAll.writesAll _ _ (by simp only [WritesEachAll, WritesEach]; repeat' constructor)

end Cert.Kernel.FrHost

namespace Cert.Kernel.Fr

open Idealize.ShloMosaic Idealize.ShloMosaic.TcCoe Idealize.ShloMosaic.StableHlo
open Idealize.SL Idealize.SL.Sem
open Cert.Kernel Cert.Kernel.Gen Cert.Kernel.Fr
open Cert.LibHostFold

variable {F : FTy → Type} [FloatOps F]
variable (m : (ℓ : Loc nD τ sig) → Buf (Elt F) ℓ)

theorem V_main_arg0 (c : Dev nD) : V m c main_arg0 = m ((c : Thread nD τ).loc main_arg0) :=
  after_flatten_untouched stretches FrHost.Ws FrHost.Ws_ok _ main_arg0 (by decide)

theorem V_main_arg1 (c : Dev nD) : V m c main_arg1 = m ((c : Thread nD τ).loc main_arg1) :=
  after_flatten_untouched stretches FrHost.Ws FrHost.Ws_ok _ main_arg1 (by decide)

end Cert.Kernel.Fr

end
-- ==== Proof.K.FrameClaim.lean ====
import proofs.«175239_j73718818668652_1_alg».proof.Proof.K.Frame
import proofs.«175239_j73718818668652_1_alg».proof.Proof.K.HostArgs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Fr

end
-- ==== Proof.KI.Host.lean ====
import proofs.«175239_j73718818668652_1_alg».proof.Proof.Gen.KernelIdeal.Launch
import Idealize.ShloMosaic.Lib.Pipeline.FrameBody
import Idealize.ShloMosaic.Lib.Pipeline.FrameSuffix

set_option maxRecDepth 16384

noncomputable section

namespace Cert.KernelIdeal.Fr

open Idealize.ShloMosaic Idealize.ShloMosaic.TcCoe
open Idealize.SL Idealize.SL.Sem
open Cert.KernelIdeal Cert.KernelIdeal.Gen

variable {F : FTy → Type} [FloatOps F] [Named F]

abbrev stretches : List (List (HloOp τ sig (Elt F))) :=
  [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, Gen.hostOps0_25, Gen.hostOps0_26, Gen.hostOps0_27, Gen.hostOps0_28, Gen.hostOps0_29, Gen.hostOps0_30, Gen.hostOps0_31, Gen.hostOps0_32, Gen.hostOps0_33, Gen.hostOps0_34, Gen.hostOps0_35, Gen.hostOps0_36, Gen.hostOps0_37, Gen.hostOps0_38, Gen.hostOps0_39, Gen.hostOps0_40, Gen.hostOps0_41, Gen.hostOps0_42, Gen.hostOps0_43, Gen.hostOps0_44, Gen.hostOps0_45, Gen.hostOps0_46, Gen.hostOps0_47, Gen.hostOps0_48, Gen.hostOps0_49, Gen.hostOps0_50, Gen.hostOps0_51, Gen.hostOps0_52, Gen.hostOps0_53, Gen.hostOps0_54, Gen.hostOps0_55, Gen.hostOps0_56, Gen.hostOps0_57, Gen.hostOps0_58, Gen.hostOps0_59, Gen.hostOps0_60, Gen.hostOps0_61, Gen.hostOps0_62, Gen.hostOps0_63, Gen.hostOps0_64, Gen.hostOps0_65, Gen.hostOps0_66, Gen.hostOps0_67, Gen.hostOps0_68, Gen.hostOps0_69, Gen.hostOps0_70, Gen.hostOps0_71, Gen.hostOps0_72, Gen.hostOps0_73, Gen.hostOps0_74, Gen.hostOps0_75, Gen.hostOps0_76, Gen.hostOps0_77, Gen.hostOps0_78, Gen.hostOps0_79, Gen.hostOps0_80, Gen.hostOps0_81, Gen.hostOps0_82, Gen.hostOps0_83, Gen.hostOps0_84, Gen.hostOps0_85, Gen.hostOps0_86, Gen.hostOps0_87, Gen.hostOps0_88, Gen.hostOps0_89, Gen.hostOps0_90, Gen.hostOps0_91, Gen.hostOps0_92, Gen.hostOps0_93, Gen.hostOps0_94, Gen.hostOps0_95, Gen.hostOps0_96, Gen.hostOps0_97, Gen.hostOps0_98, Gen.hostOps0_99, Gen.hostOps0_100, Gen.hostOps0_101, Gen.hostOps0_102, Gen.hostOps0_103, Gen.hostOps0_104, Gen.hostOps0_105, Gen.hostOps0_106, Gen.hostOps0_107, Gen.hostOps0_108, Gen.hostOps0_109, Gen.hostOps0_110, Gen.hostOps0_111, Gen.hostOps0_112, Gen.hostOps0_113, Gen.hostOps0_114, Gen.hostOps0_115, Gen.hostOps0_116, Gen.hostOps0_117, Gen.hostOps0_118, Gen.hostOps0_119, Gen.hostOps0_120, Gen.hostOps0_121, Gen.hostOps0_122, Gen.hostOps0_123, Gen.hostOps0_124, Gen.hostOps0_125, Gen.hostOps0_126, Gen.hostOps0_127, Gen.hostOps0_128, Gen.hostOps0_129, Gen.hostOps0_130, Gen.hostOps0_131, Gen.hostOps0_132, Gen.hostOps0_133, Gen.hostOps0_134, Gen.hostOps0_135, Gen.hostOps0_136, Gen.hostOps0_137, Gen.hostOps0_138, Gen.hostOps0_139, Gen.hostOps0_140, Gen.hostOps0_141, Gen.hostOps0_142, Gen.hostOps0_143, Gen.hostOps0_144, Gen.hostOps0_145, Gen.hostOps0_146, Gen.hostOps0_147, Gen.hostOps0_148, Gen.hostOps0_149, Gen.hostOps0_150, Gen.hostOps0_151, Gen.hostOps0_152]

theorem hsub : (stretches : List (List (HloOp τ sig (Elt F)))).Forall fun ops => ops.Forall fun op => op.bufs ⊆ StableHlo.tcRefs τ sig := by
  simp only [List.Forall]
  exact ⟨Gen.hostOps0_sub, Gen.hostOps0_1_sub, Gen.hostOps0_2_sub, Gen.hostOps0_3_sub, Gen.hostOps0_4_sub, Gen.hostOps0_5_sub, Gen.hostOps0_6_sub, Gen.hostOps0_7_sub, Gen.hostOps0_8_sub, Gen.hostOps0_9_sub, Gen.hostOps0_10_sub, Gen.hostOps0_11_sub, Gen.hostOps0_12_sub, Gen.hostOps0_13_sub, Gen.hostOps0_14_sub, Gen.hostOps0_15_sub, Gen.hostOps0_16_sub, Gen.hostOps0_17_sub, Gen.hostOps0_18_sub, Gen.hostOps0_19_sub, Gen.hostOps0_20_sub, Gen.hostOps0_21_sub, Gen.hostOps0_22_sub, Gen.hostOps0_23_sub, Gen.hostOps0_24_sub, Gen.hostOps0_25_sub, Gen.hostOps0_26_sub, Gen.hostOps0_27_sub, Gen.hostOps0_28_sub, Gen.hostOps0_29_sub, Gen.hostOps0_30_sub, Gen.hostOps0_31_sub, Gen.hostOps0_32_sub, Gen.hostOps0_33_sub, Gen.hostOps0_34_sub, Gen.hostOps0_35_sub, Gen.hostOps0_36_sub, Gen.hostOps0_37_sub, Gen.hostOps0_38_sub, Gen.hostOps0_39_sub, Gen.hostOps0_40_sub, Gen.hostOps0_41_sub, Gen.hostOps0_42_sub, Gen.hostOps0_43_sub, Gen.hostOps0_44_sub, Gen.hostOps0_45_sub, Gen.hostOps0_46_sub, Gen.hostOps0_47_sub, Gen.hostOps0_48_sub, Gen.hostOps0_49_sub, Gen.hostOps0_50_sub, Gen.hostOps0_51_sub, Gen.hostOps0_52_sub, Gen.hostOps0_53_sub, Gen.hostOps0_54_sub, Gen.hostOps0_55_sub, Gen.hostOps0_56_sub, Gen.hostOps0_57_sub, Gen.hostOps0_58_sub, Gen.hostOps0_59_sub, Gen.hostOps0_60_sub, Gen.hostOps0_61_sub, Gen.hostOps0_62_sub, Gen.hostOps0_63_sub, Gen.hostOps0_64_sub, Gen.hostOps0_65_sub, Gen.hostOps0_66_sub, Gen.hostOps0_67_sub, Gen.hostOps0_68_sub, Gen.hostOps0_69_sub, Gen.hostOps0_70_sub, Gen.hostOps0_71_sub, Gen.hostOps0_72_sub, Gen.hostOps0_73_sub, Gen.hostOps0_74_sub, Gen.hostOps0_75_sub, Gen.hostOps0_76_sub, Gen.hostOps0_77_sub, Gen.hostOps0_78_sub, Gen.hostOps0_79_sub, Gen.hostOps0_80_sub, Gen.hostOps0_81_sub, Gen.hostOps0_82_sub, Gen.hostOps0_83_sub, Gen.hostOps0_84_sub, Gen.hostOps0_85_sub, Gen.hostOps0_86_sub, Gen.hostOps0_87_sub, Gen.hostOps0_88_sub, Gen.hostOps0_89_sub, Gen.hostOps0_90_sub, Gen.hostOps0_91_sub, Gen.hostOps0_92_sub, Gen.hostOps0_93_sub, Gen.hostOps0_94_sub, Gen.hostOps0_95_sub, Gen.hostOps0_96_sub, Gen.hostOps0_97_sub, Gen.hostOps0_98_sub, Gen.hostOps0_99_sub, Gen.hostOps0_100_sub, Gen.hostOps0_101_sub, Gen.hostOps0_102_sub, Gen.hostOps0_103_sub, Gen.hostOps0_104_sub, Gen.hostOps0_105_sub, Gen.hostOps0_106_sub, Gen.hostOps0_107_sub, Gen.hostOps0_108_sub, Gen.hostOps0_109_sub, Gen.hostOps0_110_sub, Gen.hostOps0_111_sub, Gen.hostOps0_112_sub, Gen.hostOps0_113_sub, Gen.hostOps0_114_sub, Gen.hostOps0_115_sub, Gen.hostOps0_116_sub, Gen.hostOps0_117_sub, Gen.hostOps0_118_sub, Gen.hostOps0_119_sub, Gen.hostOps0_120_sub, Gen.hostOps0_121_sub, Gen.hostOps0_122_sub, Gen.hostOps0_123_sub, Gen.hostOps0_124_sub, Gen.hostOps0_125_sub, Gen.hostOps0_126_sub, Gen.hostOps0_127_sub, Gen.hostOps0_128_sub, Gen.hostOps0_129_sub, Gen.hostOps0_130_sub, Gen.hostOps0_131_sub, Gen.hostOps0_132_sub, Gen.hostOps0_133_sub, Gen.hostOps0_134_sub, Gen.hostOps0_135_sub, Gen.hostOps0_136_sub, Gen.hostOps0_137_sub, Gen.hostOps0_138_sub, Gen.hostOps0_139_sub, Gen.hostOps0_140_sub, Gen.hostOps0_141_sub, Gen.hostOps0_142_sub, Gen.hostOps0_143_sub, Gen.hostOps0_144_sub, Gen.hostOps0_145_sub, Gen.hostOps0_146_sub, Gen.hostOps0_147_sub, Gen.hostOps0_148_sub, Gen.hostOps0_149_sub, Gen.hostOps0_150_sub, Gen.hostOps0_151_sub, Gen.hostOps0_152_sub⟩

/-- Each operation is one of the host forms, and none of them allocates. -/
theorem hfresh : (stretches : List (List (HloOp τ sig (Elt F)))).Forall fun ops => ops.Forall fun op => op.fresh = ∅ := by
  simp only [List.Forall]; repeat' constructor

variable (m : (ℓ : Loc nD τ sig) → Buf (Elt F) ℓ)

abbrev V (c : Dev nD) (b : Ref sig .tc) : Buf (Elt F) ((c : Thread nD τ).loc b) :=
  StableHlo.after (List.flatten stretches) (fun b => m (c, b)) b

end Cert.KernelIdeal.Fr

end
-- ==== Proof.KI.Kit.lean ====
import proofs.«175239_j73718818668652_1_alg».proof.Proof.KI.Host
import proofs.«175239_j73718818668652_1_alg».proof.Proof.Gen.KernelIdeal.Skeleton
import proofs.«175239_j73718818668652_1_alg».proof.Proof.Gen.KernelIdeal.Points
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches hsub hfresh Gen.main_chain

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 18 = 0 :=
  (by decide +kernel : ∀ t : Fin grid0.N, cond0_0 (grid0.coords t) ↔ t.val % 18 = 0)

abbrev cond0_1 (i : grid0.Coords) : Prop := k0_cond2 i = 1#1

theorem hcond0_1 : ∀ t : Fin cfg0.N, cond0_1 (grid0.coords t) ↔ t.val % 18 = 17 :=
  (by decide +kernel : ∀ t : Fin grid0.N, cond0_1 (grid0.coords t) ↔ t.val % 18 = 17)

theorem liveAt0_0 : ∀ t : Fin cfg0.N, cfg0.idle 0 (grid0.coords t) = false := by decide +kernel

theorem liveAt0_1 : ∀ t : Fin cfg0.N, cfg0.idle 1 (grid0.coords t) = false := by decide +kernel

theorem idleAt0_2_A : ∀ t : Fin cfg0.N, cond0_0 (grid0.coords t) → ¬cond0_1 (grid0.coords t) → cfg0.idle 2 (grid0.coords t) = true := by decide +kernel

theorem noFlush0_2_A : ∀ t : Fin cfg0.N, cond0_0 (grid0.coords t) → ¬cond0_1 (grid0.coords t) → (cfg0.win 2).flush t = false := by decide +kernel

theorem idleAt0_2_B : ∀ t : Fin cfg0.N, ¬cond0_0 (grid0.coords t) → ¬cond0_1 (grid0.coords t) → cfg0.idle 2 (grid0.coords t) = true := by decide +kernel

theorem noFlush0_2_B : ∀ t : Fin cfg0.N, ¬cond0_0 (grid0.coords t) → ¬cond0_1 (grid0.coords t) → (cfg0.win 2).flush t = false := by decide +kernel

theorem liveAt0_2_C : ∀ t : Fin cfg0.N, ¬cond0_0 (grid0.coords t) → cond0_1 (grid0.coords t) → cfg0.idle 2 (grid0.coords t) = false := by decide +kernel

abbrev VO0_2 : View sig .tc .vmem S8x128x256 .f32 := (Memref.whole cc0_stg2_0 : Memref sig .tc .vmem S8x128x256 .f32).view

abbrev ms0_0 (t : Fin cfg0.N) : Memref sig .tc .vmem S1x8x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4224x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128x256 .f32 := win0_2.stage (cfg0.slots t 2)
abbrev hs0_2 (t : Fin cfg0.N) : (ms0_2 t).IsWhole := hstage0_2 ((cfg0.slots t 2).cast nbuf0_2)

abbrev scM0_0 : Memref sig .tc .vmem S8x128x256 .f32 := Memref.whole cc0_scratch0

abbrev VS0_0 : View sig .tc .vmem S8x128x256 .f32 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KI.RunA.lean ====
import proofs.«175239_j73718818668652_1_alg».proof.Proof.KI.Kit

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_A (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : cond0_0 i) (hc1 : ¬cond0_1 i)
    (x0 : Vec F S1x8x128 .i32) (x1 : Vec F S1x4224x256 .bf16) :
    Σ' (L2 : List (View.Piece (Elt F) S8x128x256 .f32)), { LS0 : List (View.Piece (Elt F) S8x128x256 .f32) //
      ∀ (xi2 : Vec F S8x128x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_sum_kernel i arg2 harg2 arg3 harg3 arg4 harg4 arg5 harg5) K } := by
  refine ⟨[], ?_, fun xi2 E K => ?run⟩
  case run =>
    simp only [cc0__gather_sum_kernel_eq_skeleton]; unfold cc0__gather_sum_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.RunB.lean ====
import proofs.«175239_j73718818668652_1_alg».proof.Proof.KI.RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_B (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : ¬cond0_0 i) (hc1 : ¬cond0_1 i)
    (x0 : Vec F S1x8x128 .i32) (x1 : Vec F S1x4224x256 .bf16) (xs0 : Vec F S8x128x256 .f32) :
    Σ' (L2 : List (View.Piece (Elt F) S8x128x256 .f32)), { LS0 : List (View.Piece (Elt F) S8x128x256 .f32) //
      ∀ (xi2 : Vec F S8x128x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_sum_kernel i arg2 harg2 arg3 harg3 arg4 harg4 arg5 harg5) K } := by
  refine ⟨[], ?_, fun xi2 E K => ?run⟩
  case run =>
    simp only [cc0__gather_sum_kernel_eq_skeleton]; unfold cc0__gather_sum_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.RunC.lean ====
import proofs.«175239_j73718818668652_1_alg».proof.Proof.KI.RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_C (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : ¬cond0_0 i) (hc1 : cond0_1 i)
    (x0 : Vec F S1x8x128 .i32) (x1 : Vec F S1x4224x256 .bf16) (xs0 : Vec F S8x128x256 .f32) :
    Σ' (L2 : List (View.Piece (Elt F) S8x128x256 .f32)), { LS0 : List (View.Piece (Elt F) S8x128x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__gather_sum_kernel i arg2 harg2 arg3 harg3 arg4 harg4 arg5 harg5) K } := by
  refine ⟨?_, ?_, fun E K => ?run⟩
  case run =>
    simp only [cc0__gather_sum_kernel_eq_skeleton]; unfold cc0__gather_sum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI.Frame.lean ====
import proofs.«175239_j73718818668652_1_alg».proof.Proof.KI.RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

def out0_A_2 (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : cond0_0 i) (hc1 : ¬cond0_1 i)
    (x0 : Vec F S1x8x128 .i32) (x1 : Vec F S1x4224x256 .bf16) : Vec F S8x128x256 .f32 :=
  VO0_2.read (Elt F) (VO0_2.writes (Elt F) VO0_2.junk (kernelRun0_A c i arg2 harg2 arg3 harg3 arg4 harg4 arg5 harg5 hc0 hc1 x0 x1).1)

theorem scover0_A_0 (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : cond0_0 i) (hc1 : ¬cond0_1 i)
    (x0 : Vec F S1x8x128 .i32) (x1 : Vec F S1x4224x256 .bf16) (y : S8x128x256.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S8x128x256.size (by sl_kernel_rfl) y

def sout0_A_0 (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : cond0_0 i) (hc1 : ¬cond0_1 i)
    (x0 : Vec F S1x8x128 .i32) (x1 : Vec F S1x4224x256 .bf16) : Vec F S8x128x256 .f32 :=
  VS0_0.read (Elt F) (VS0_0.writes (Elt F) VS0_0.junk (kernelRun0_A c i arg2 harg2 arg3 harg3 arg4 harg4 arg5 harg5 hc0 hc1 x0 x1).2.1)

def out0_B_2 (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : ¬cond0_0 i) (hc1 : ¬cond0_1 i)
    (x0 : Vec F S1x8x128 .i32) (x1 : Vec F S1x4224x256 .bf16) (xs0 : Vec F S8x128x256 .f32) : Vec F S8x128x256 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : ¬cond0_0 i) (hc1 : ¬cond0_1 i)
    (x0 : Vec F S1x8x128 .i32) (x1 : Vec F S1x4224x256 .bf16) (xs0 : Vec F S8x128x256 .f32) (y : S8x128x256.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S8x128x256.size (by sl_kernel_rfl) y

def sout0_B_0 (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : ¬cond0_0 i) (hc1 : ¬cond0_1 i)
    (x0 : Vec F S1x8x128 .i32) (x1 : Vec F S1x4224x256 .bf16) (xs0 : Vec F S8x128x256 .f32) : Vec F S8x128x256 .f32 :=
  VS0_0.read (Elt F) (VS0_0.writes (Elt F) VS0_0.junk (kernelRun0_B c i arg2 harg2 arg3 harg3 arg4 harg4 arg5 harg5 hc0 hc1 x0 x1 xs0).2.1)

theorem cover0_C_2 (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : ¬cond0_0 i) (hc1 : cond0_1 i)
    (x0 : Vec F S1x8x128 .i32) (x1 : Vec F S1x4224x256 .bf16) (xs0 : Vec F S8x128x256 .f32) (y : S8x128x256.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S8x128x256.size (by sl_kernel_rfl) y

def out0_C_2 (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : ¬cond0_0 i) (hc1 : cond0_1 i)
    (x0 : Vec F S1x8x128 .i32) (x1 : Vec F S1x4224x256 .bf16) (xs0 : Vec F S8x128x256 .f32) : Vec F S8x128x256 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : ¬cond0_0 i) (hc1 : cond0_1 i)
    (x0 : Vec F S1x8x128 .i32) (x1 : Vec F S1x4224x256 .bf16) (xs0 : Vec F S8x128x256 .f32) (y : S8x128x256.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S8x128x256.size (by sl_kernel_rfl) y

def sout0_C_0 (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : ¬cond0_0 i) (hc1 : cond0_1 i)
    (x0 : Vec F S1x8x128 .i32) (x1 : Vec F S1x4224x256 .bf16) (xs0 : Vec F S8x128x256 .f32) : Vec F S8x128x256 .f32 :=
  VS0_0.read (Elt F) (VS0_0.writes (Elt F) VS0_0.junk (kernelRun0_C c i arg2 harg2 arg3 harg3 arg4 harg4 arg5 harg5 hc0 hc1 x0 x1 xs0).2.1)

def outsAt0 (c : Dev nD) : (n : ℕ) → n < cfg0.N → Vec F S8x128x256 .f32 × Vec F S8x128x256 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 18 = 0 then
      if h1 : (n + 1) % 18 = 17 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 18 = 17 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 18 = 0) (h1 : ¬t.val % 18 = 17) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 18 = 0) (h1 : ¬t.val % 18 = 17) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 18 = 0) (h1 : t.val % 18 = 17) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 1152 := lt_of_lt_of_eq t.isLt (show cfg0.N = 1152 from N_0)
  by_cases h0 : t.val % 18 = 0
  · by_cases h1 : t.val % 18 = 17
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · by_cases h1 : t.val % 18 = 17
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk m c 0 t) (iblk m c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _)
          iexact Hg
        isplitl [Ho]; · iexact Ho
        isplitl [H0]; · iexact H0
        isplitl [H1]; · iexact H1
        iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 1152 := N_0; omega)

set_option backward.isDefEq.respectTransparency.types false in

theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Fr

end
-- ==== Proof.KI.HostArgs.lean ====
import proofs.«175239_j73718818668652_1_alg».proof.Proof.KI.Host
import proofs.«175239_j73718818668652_1_alg».proof.Proof.LibHostFold

set_option maxRecDepth 16384

noncomputable section

namespace Cert.KernelIdeal.FrHost

open Idealize.ShloMosaic Idealize.ShloMosaic.TcCoe Idealize.ShloMosaic.StableHlo
open Idealize.SL Idealize.SL.Sem
open Cert.KernelIdeal Cert.KernelIdeal.Gen Cert.KernelIdeal.Fr
open Cert.LibHostFold

variable {F : FTy → Type} [FloatOps F] [Named F]

/-- Stretch by stretch, the results of the operations, in order. -/
abbrev Ws : List (List (Ref sig .tc)) :=
  [[main_c, main_c_0, main_c_1, main_v0, main_c_2, main_v1, main_v2, main_c_3, main_v3, main_v4, main_v5, main_v6, main_v7, main_c_4, main_v8, main_v9, main_c_5, main_v10, main_v11, main_v12, main_v13, main_v14, main_c_6, main_v15, main_v16, main_c_7, main_v17, main_v18, main_v19, main_c_8],
   [main_call0_v0, main_v20],
   [main_c_9, main_v21, main_v22, main_v23, main_c_10],
   [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v24],
   [main_v25, main_c_11],
   [main_v26],
   [main_v27, main_v28, main_c_12],
   [main_call3_v0, main_v29],
   [main_c_13, main_v30, main_v31, main_v32, main_c_14],
   [main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v33],
   [main_v34, main_c_15],
   [main_v35],
   [main_v36, main_c_16],
   [main_call6_v0, main_call6_v1, main_v37],
   [main_v38, main_c_17],
   [main_call7_v0, main_v39],
   [main_c_18, main_v40, main_v41, main_v42, main_c_19],
   [main_call8_v0, main_call8_c, main_call8_v1, main_call8_c_0, main_call8_v2, main_call8_v3, main_call8_v4, main_call8_c_1, main_call8_v5, main_call8_v6, main_call8_c_2, main_call8_v7, main_call8_v8, main_call8_c_3, main_call8_v9, main_call8_v10, main_call8_v11, main_call8_v12, main_call8_v13, main_call8_v14, main_v43],
   [main_v44, main_c_20],
   [main_v45],
   [main_v46, main_c_21],
   [main_call10_v0, main_call10_v1, main_v47],
   [main_v48, main_c_22],
   [main_call11_v0, main_v49],
   [main_c_23, main_v50, main_v51, main_v52, main_c_24],
   [main_call12_v0, main_call12_c, main_call12_v1, main_call12_c_0, main_call12_v2, main_call12_v3, main_call12_v4, main_call12_c_1, main_call12_v5, main_call12_v6, main_call12_c_2, main_call12_v7, main_call12_v8, main_call12_c_3, main_call12_v9, main_call12_v10, main_call12_v11, main_call12_v12, main_call12_v13, main_call12_v14, main_v53],
   [main_v54, main_c_25],
   [main_v55],
   [main_v56, main_c_26],
   [main_call14_v0, main_call14_v1, main_v57],
   [main_v58, main_c_27],
   [main_call15_v0, main_v59],
   [main_c_28, main_v60, main_v61, main_v62, main_c_29],
   [main_call16_v0, main_call16_c, main_call16_v1, main_call16_c_0, main_call16_v2, main_call16_v3, main_call16_v4, main_call16_c_1, main_call16_v5, main_call16_v6, main_call16_c_2, main_call16_v7, main_call16_v8, main_call16_c_3, main_call16_v9, main_call16_v10, main_call16_v11, main_call16_v12, main_call16_v13, main_call16_v14, main_v63],
   [main_v64, main_c_30],
   [main_v65],
   [main_v66, main_c_31],
   [main_call18_v0, main_call18_v1, main_v67],
   [main_v68, main_c_32],
   [main_call19_v0, main_v69],
   [main_c_33, main_v70, main_v71, main_v72, main_c_34],
   [main_call20_v0, main_call20_c, main_call20_v1, main_call20_c_0, main_call20_v2, main_call20_v3, main_call20_v4, main_call20_c_1, main_call20_v5, main_call20_v6, main_call20_c_2, main_call20_v7, main_call20_v8, main_call20_c_3, main_call20_v9, main_call20_v10, main_call20_v11, main_call20_v12, main_call20_v13, main_call20_v14, main_v73],
   [main_v74, main_c_35],
   [main_v75],
   [main_v76, main_c_36],
   [main_call22_v0, main_call22_v1, main_v77],
   [main_v78, main_c_37],
   [main_call23_v0, main_v79],
   [main_c_38, main_v80, main_v81, main_v82, main_c_39],
   [main_call24_v0, main_call24_c, main_call24_v1, main_call24_c_0, main_call24_v2, main_call24_v3, main_call24_v4, main_call24_c_1, main_call24_v5, main_call24_v6, main_call24_c_2, main_call24_v7, main_call24_v8, main_call24_c_3, main_call24_v9, main_call24_v10, main_call24_v11, main_call24_v12, main_call24_v13, main_call24_v14, main_v83],
   [main_v84, main_c_40],
   [main_v85],
   [main_v86, main_c_41],
   [main_call26_v0, main_call26_v1, main_v87],
   [main_v88, main_c_42],
   [main_call27_v0, main_v89],
   [main_c_43, main_v90, main_v91, main_v92, main_c_44],
   [main_call28_v0, main_call28_c, main_call28_v1, main_call28_c_0, main_call28_v2, main_call28_v3, main_call28_v4, main_call28_c_1, main_call28_v5, main_call28_v6, main_call28_c_2, main_call28_v7, main_call28_v8, main_call28_c_3, main_call28_v9, main_call28_v10, main_call28_v11, main_call28_v12, main_call28_v13, main_call28_v14, main_v93],
   [main_v94, main_c_45],
   [main_v95],
   [main_v96, main_c_46],
   [main_call30_v0, main_call30_v1, main_v97],
   [main_v98, main_c_47],
   [main_call31_v0, main_v99],
   [main_c_48, main_v100, main_v101, main_v102, main_c_49],
   [main_call32_v0, main_call32_c, main_call32_v1, main_call32_c_0, main_call32_v2, main_call32_v3, main_call32_v4, main_call32_c_1, main_call32_v5, main_call32_v6, main_call32_c_2, main_call32_v7, main_call32_v8, main_call32_c_3, main_call32_v9, main_call32_v10, main_call32_v11, main_call32_v12, main_call32_v13, main_call32_v14, main_v103],
   [main_v104, main_c_50],
   [main_v105],
   [main_v106, main_c_51],
   [main_call34_v0, main_call34_v1, main_v107],
   [main_v108, main_c_52],
   [main_call35_v0, main_v109],
   [main_c_53, main_v110, main_v111, main_v112, main_c_54],
   [main_call36_v0, main_call36_c, main_call36_v1, main_call36_c_0, main_call36_v2, main_call36_v3, main_call36_v4, main_call36_c_1, main_call36_v5, main_call36_v6, main_call36_c_2, main_call36_v7, main_call36_v8, main_call36_c_3, main_call36_v9, main_call36_v10, main_call36_v11, main_call36_v12, main_call36_v13, main_call36_v14, main_v113],
   [main_v114, main_c_55],
   [main_v115],
   [main_v116, main_c_56],
   [main_call38_v0, main_call38_v1, main_v117],
   [main_v118, main_c_57],
   [main_call39_v0, main_v119],
   [main_c_58, main_v120, main_v121, main_v122, main_c_59],
   [main_call40_v0, main_call40_c, main_call40_v1, main_call40_c_0, main_call40_v2, main_call40_v3, main_call40_v4, main_call40_c_1, main_call40_v5, main_call40_v6, main_call40_c_2, main_call40_v7, main_call40_v8, main_call40_c_3, main_call40_v9, main_call40_v10, main_call40_v11, main_call40_v12, main_call40_v13, main_call40_v14, main_v123],
   [main_v124, main_c_60],
   [main_v125],
   [main_v126, main_c_61],
   [main_call42_v0, main_call42_v1, main_v127],
   [main_v128, main_c_62],
   [main_call43_v0, main_v129],
   [main_c_63, main_v130, main_v131, main_v132, main_c_64],
   [main_call44_v0, main_call44_c, main_call44_v1, main_call44_c_0, main_call44_v2, main_call44_v3, main_call44_v4, main_call44_c_1, main_call44_v5, main_call44_v6, main_call44_c_2, main_call44_v7, main_call44_v8, main_call44_c_3, main_call44_v9, main_call44_v10, main_call44_v11, main_call44_v12, main_call44_v13, main_call44_v14, main_v133],
   [main_v134, main_c_65],
   [main_v135],
   [main_v136, main_c_66],
   [main_call46_v0, main_call46_v1, main_v137],
   [main_v138, main_c_67],
   [main_call47_v0, main_v139],
   [main_c_68, main_v140, main_v141, main_v142, main_c_69],
   [main_call48_v0, main_call48_c, main_call48_v1, main_call48_c_0, main_call48_v2, main_call48_v3, main_call48_v4, main_call48_c_1, main_call48_v5, main_call48_v6, main_call48_c_2, main_call48_v7, main_call48_v8, main_call48_c_3, main_call48_v9, main_call48_v10, main_call48_v11, main_call48_v12, main_call48_v13, main_call48_v14, main_v143],
   [main_v144, main_c_70],
   [main_v145],
   [main_v146, main_c_71],
   [main_call50_v0, main_call50_v1, main_v147],
   [main_v148, main_c_72],
   [main_call51_v0, main_v149],
   [main_c_73, main_v150, main_v151, main_v152, main_c_74],
   [main_call52_v0, main_call52_c, main_call52_v1, main_call52_c_0, main_call52_v2, main_call52_v3, main_call52_v4, main_call52_c_1, main_call52_v5, main_call52_v6, main_call52_c_2, main_call52_v7, main_call52_v8, main_call52_c_3, main_call52_v9, main_call52_v10, main_call52_v11, main_call52_v12, main_call52_v13, main_call52_v14, main_v153],
   [main_v154, main_c_75],
   [main_v155],
   [main_v156, main_c_76],
   [main_call54_v0, main_call54_v1, main_v157],
   [main_v158, main_c_77],
   [main_call55_v0, main_v159],
   [main_c_78, main_v160, main_v161, main_v162, main_c_79],
   [main_call56_v0, main_call56_c, main_call56_v1, main_call56_c_0, main_call56_v2, main_call56_v3, main_call56_v4, main_call56_c_1, main_call56_v5, main_call56_v6, main_call56_c_2, main_call56_v7, main_call56_v8, main_call56_c_3, main_call56_v9, main_call56_v10, main_call56_v11, main_call56_v12, main_call56_v13, main_call56_v14, main_v163],
   [main_v164, main_c_80],
   [main_v165],
   [main_v166, main_c_81],
   [main_call58_v0, main_call58_v1, main_v167],
   [main_v168, main_c_82],
   [main_call59_v0, main_v169],
   [main_c_83, main_v170, main_v171, main_v172, main_c_84],
   [main_call60_v0, main_call60_c, main_call60_v1, main_call60_c_0, main_call60_v2, main_call60_v3, main_call60_v4, main_call60_c_1, main_call60_v5, main_call60_v6, main_call60_c_2, main_call60_v7, main_call60_v8, main_call60_c_3, main_call60_v9, main_call60_v10, main_call60_v11, main_call60_v12, main_call60_v13, main_call60_v14, main_v173],
   [main_v174, main_c_85],
   [main_v175],
   [main_v176, main_c_86],
   [main_call62_v0, main_call62_v1, main_v177],
   [main_v178, main_c_87],
   [main_call63_v0, main_v179],
   [main_c_88, main_v180, main_v181, main_v182, main_c_89],
   [main_call64_v0, main_call64_c, main_call64_v1, main_call64_c_0, main_call64_v2, main_call64_v3, main_call64_v4, main_call64_c_1, main_call64_v5, main_call64_v6, main_call64_c_2, main_call64_v7, main_call64_v8, main_call64_c_3, main_call64_v9, main_call64_v10, main_call64_v11, main_call64_v12, main_call64_v13, main_call64_v14, main_v183],
   [main_v184, main_c_90],
   [main_v185],
   [main_v186, main_c_91],
   [main_call66_v0, main_call66_v1, main_v187],
   [main_v188, main_c_92],
   [main_call67_v0, main_v189],
   [main_c_93, main_v190, main_v191, main_v192, main_c_94],
   [main_call68_v0, main_call68_c, main_call68_v1, main_call68_c_0, main_call68_v2, main_call68_v3, main_call68_v4, main_call68_c_1, main_call68_v5, main_call68_v6, main_call68_c_2, main_call68_v7, main_call68_v8, main_call68_c_3, main_call68_v9, main_call68_v10, main_call68_v11, main_call68_v12, main_call68_v13, main_call68_v14, main_v193],
   [main_v194, main_c_95],
   [main_v195],
   [main_v196, main_c_96],
   [main_call70_v0, main_call70_v1, main_v197],
   [main_v198, main_c_97],
   [main_call71_v0, main_v199],
   [main_c_98, main_v200, main_v201, main_v202, main_c_99],
   [main_call72_v0, main_call72_c, main_call72_v1, main_call72_c_0, main_call72_v2, main_call72_v3, main_call72_v4, main_call72_c_1, main_call72_v5, main_call72_v6, main_call72_c_2, main_call72_v7, main_call72_v8, main_call72_c_3, main_call72_v9, main_call72_v10, main_call72_v11, main_call72_v12, main_call72_v13, main_call72_v14, main_v203],
   [main_v204, main_c_100],
   [main_v205],
   [main_v206, main_c_101],
   [main_call74_v0, main_call74_v1, main_v207],
   [main_v208, main_v209, main_v210, main_v211, main_v212, main_v213, main_v214, main_v215, main_v216, main_v217, main_v218, main_v219, main_v220, main_v221, main_v222, main_v223, main_v224, main_v225, main_v226, main_v227, main_v228, main_c_102],
   [main_call75_v0, main_v229],
   [main_v230]]

/-- Each operation writes its one result, which stands at its place in its stretch's list. -/
theorem Ws_ok : WritesAll τ (stretches : List (List (HloOp τ sig (Elt F)))) Ws :=
  WritesEachAll.writesAll _ _ (by simp only [WritesEachAll, WritesEach]; repeat' constructor)

end Cert.KernelIdeal.FrHost

namespace Cert.KernelIdeal.Fr

open Idealize.ShloMosaic Idealize.ShloMosaic.TcCoe Idealize.ShloMosaic.StableHlo
open Idealize.SL Idealize.SL.Sem
open Cert.KernelIdeal Cert.KernelIdeal.Gen Cert.KernelIdeal.Fr
open Cert.LibHostFold

variable {F : FTy → Type} [FloatOps F] [Named F]
variable (m : (ℓ : Loc nD τ sig) → Buf (Elt F) ℓ)

theorem V_main_arg0 (c : Dev nD) : V m c main_arg0 = m ((c : Thread nD τ).loc main_arg0) :=
  after_flatten_untouched stretches FrHost.Ws FrHost.Ws_ok _ main_arg0 (by decide)

theorem V_main_arg1 (c : Dev nD) : V m c main_arg1 = m ((c : Thread nD τ).loc main_arg1) :=
  after_flatten_untouched stretches FrHost.Ws FrHost.Ws_ok _ main_arg1 (by decide)

end Cert.KernelIdeal.Fr

end
-- ==== Proof.KI.FrameClaim.lean ====
import proofs.«175239_j73718818668652_1_alg».proof.Proof.KI.Frame
import proofs.«175239_j73718818668652_1_alg».proof.Proof.KI.HostArgs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Fr

end
-- ==== Proof.KI.Pieces.lean ====
import proofs.«175239_j73718818668652_1_alg».proof.Proof.KI.Frame
import Idealize.ShloMosaic.Lib.Pipeline.Value
import Idealize.ShloMosaic.Lib.Tactic

set_option maxRecDepth 16384

noncomputable section

namespace Cert.KernelIdeal.FrValue

open Idealize.ShloMosaic Idealize.ShloMosaic.TcCoe Idealize.ShloMosaic.Tactic Idealize.SL.Sem
open Idealize.ShloMosaic.Pipeline (Dat)
open Cert.KernelIdeal Cert.KernelIdeal.Gen Cert.KernelIdeal.Fr

variable {F : FTy → Type} [FloatOps F] [Named F]

theorem origin3 : (![0, 0, 0] : Fin 3 → Nat) = fun _ => 0 := funext fun a => by fin_cases a <;> rfl

theorem total_A (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : cond0_0 i) (hc1 : ¬cond0_1 i)
    (x0 : Vec F S1x8x128 .i32) (x1 : Vec F S1x4224x256 .bf16) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x128x256) origin3, View.readCov_unit_zero (S := S8x128x256) _ origin3]
  simp only [View.readAt_eq_ld, harg2.read_unread, harg3.read_unread, View.ld_unit_zero (S := S1x8x128) origin3,
    View.ld_unit_zero (S := S1x4224x256) origin3]

theorem total_B (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : ¬cond0_0 i) (hc1 : ¬cond0_1 i)
    (x0 : Vec F S1x8x128 .i32) (x1 : Vec F S1x4224x256 .bf16) (xs0 : Vec F S8x128x256 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero origin3]
  simp only [View.readAt_eq_ld, harg2.read_unread, harg3.read_unread, harg5.read_unread,
    View.ld_unit_zero (S := S1x8x128) origin3, View.ld_unit_zero (S := S1x4224x256) origin3,
    View.ld_unit_zero (S := S8x128x256) origin3]

theorem total_C (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : ¬cond0_0 i) (hc1 : cond0_1 i)
    (x0 : Vec F S1x8x128 .i32) (x1 : Vec F S1x4224x256 .bf16) (xs0 : Vec F S8x128x256 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero origin3]
  simp only [View.readAt_eq_ld, harg2.read_unread, harg3.read_unread, harg5.read_unread,
    View.ld_unit_zero (S := S1x8x128) origin3, View.ld_unit_zero (S := S1x4224x256) origin3,
    View.ld_unit_zero (S := S8x128x256) origin3]

theorem block_C (c : Dev nD) (i : grid0.Coords) (arg2 : Memref sig .tc .vmem S1x8x128 .i32) (harg2 : arg2.IsWhole) (arg3 : Memref sig .tc .vmem S1x4224x256 .bf16) (harg3 : arg3.IsWhole) (arg4 : Memref sig .tc .vmem S8x128x256 .f32) (harg4 : arg4.IsWhole) (arg5 : Memref sig .tc .vmem S8x128x256 .f32) (harg5 : arg5.IsWhole) (hc0 : ¬cond0_0 i) (hc1 : cond0_1 i)
    (x0 : Vec F S1x8x128 .i32) (x1 : Vec F S1x4224x256 .bf16) (xs0 : Vec F S8x128x256 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero origin3]
  simp only [View.readAt_eq_ld, harg2.read_unread, harg3.read_unread, harg5.read_unread,
    View.ld_unit_zero (S := S1x8x128) origin3, View.ld_unit_zero (S := S1x4224x256) origin3,
    View.ld_unit_zero (S := S8x128x256) origin3, View.readCov_unit_zero (S := S8x128x256) _ origin3]

variable (m : (ℓ : Loc nD τ sig) → Buf (Elt F) ℓ)

abbrev idsBlk (c : Dev nD) (t : Fin cfg0.N) : Vec F S1x8x128 .i32 := iblk m c 0 t

abbrev tabBlk (c : Dev nD) (t : Fin cfg0.N) : Vec F S1x4224x256 .bf16 := iblk m c 1 t

theorem total_first (c : Dev nD) (t : Fin cfg0.N) (h0 : t.val % 18 = 0) (h1 : ¬t.val % 18 = 17) :
    (outsAt0 m c t.val t.isLt).2 = k0_pay2 (idsBlk m c t) (tabBlk m c t) (k0_pay1 (F := F)) := by
  rw [outsAt0_A m c t h0 h1]
  dsimp only
  exact total_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

theorem total_mid (c : Dev nD) (t : Fin cfg0.N) (h0 : ¬t.val % 18 = 0) (h1 : ¬t.val % 18 = 17) :
    (outsAt0 m c t.val t.isLt).2 = k0_pay2 (idsBlk m c t) (tabBlk m c t) (outsAt0 m c (t.val - 1) (Nat.lt_of_le_of_lt (Nat.sub_le _ _) t.isLt)).2 := by
  rw [outsAt0_B m c t h0 h1]
  dsimp only
  exact total_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

theorem total_last (c : Dev nD) (t : Fin cfg0.N) (h0 : ¬t.val % 18 = 0) (h1 : t.val % 18 = 17) :
    (outsAt0 m c t.val t.isLt).2 = k0_pay2 (idsBlk m c t) (tabBlk m c t) (outsAt0 m c (t.val - 1) (Nat.lt_of_le_of_lt (Nat.sub_le _ _) t.isLt)).2 := by
  rw [outsAt0_C m c t h0 h1]
  dsimp only
  exact total_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

theorem block_last (c : Dev nD) (t : Fin cfg0.N) (h0 : ¬t.val % 18 = 0) (h1 : t.val % 18 = 17) :
    (outsAt0 m c t.val t.isLt).1 = k0_pay3 (outsAt0 m c t.val t.isLt).2 := by
  rw [outsAt0_C m c t h0 h1]
  dsimp only
  rw [total_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2]
  exact block_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

end Cert.KernelIdeal.FrValue

end
-- ==== Proof.Spec.Ids.lean ====
import Idealize.ShloMosaic.PureOps.ShapeOps

namespace Cert.Spec

open Idealize.ShloMosaic

abbrev S_ : Shape := ⟨0, ![]⟩
abbrev S4 : Shape := ⟨1, ![4]⟩
abbrev S14 : Shape := ⟨1, ![14]⟩
abbrev S4x1 : Shape := ⟨2, ![4, 1]⟩
abbrev S8x8192 : Shape := ⟨2, ![8, 8192]⟩
abbrev S8x8192x1 : Shape := ⟨3, ![8, 8192, 1]⟩
abbrev S8x8191 : Shape := ⟨2, ![8, 8191]⟩

theorem bcast_S_S14 : S_.BroadcastsInDim S14 (![] : Fin 0 → Fin S14.rank) := by decide
theorem bcast_S_S4 : S_.BroadcastsInDim S4 (![] : Fin 0 → Fin S4.rank) := by decide
theorem bcast_S4_S4x1_0 : S4.BroadcastsInDim S4x1 (![0] : Fin 1 → Fin S4x1.rank) := by decide
theorem bcast_S_S8x8192 : S_.BroadcastsInDim S8x8192 (![] : Fin 0 → Fin S8x8192.rank) := by decide
theorem bcast_S8x8192_S8x8192x1_0_1 : S8x8192.BroadcastsInDim S8x8192x1 (![0, 1] : Fin 2 → Fin S8x8192x1.rank) := by decide
theorem slices_S8x8192_S8x8191_0_0 : S8x8192.Slices ![0, 0] S8x8191 := by decide
theorem pads_S8x8191_S8x8192_000_100 : S8x8191.Pads (![0, 1] : Fin 2 → Nat) ![0, 0] ![0, 0] S8x8192 := by decide
theorem h_S_ : 0 < S_.numel := by decide

def scatterDims : ScatterDims S14 S4x1 S4 where
  updateWindowDims := []
  insertedWindowDims := [0]
  scatterDimsToOperandDims := [0]
  indexVectorDim := 1
  wf := by decide

def gatherDims : GatherDims S14 S8x8192x1 S8x8192 where
  offsetDims := []
  collapsedSliceDims := [0]
  operandBatchingDims := []
  startIndicesBatchingDims := []
  startIndexMap := [0]
  indexVectorDim := 2
  sliceSizes := ![1]
  wf := by decide

abbrev keys : Fin 4 → BitVec 32 := fun
  | 0 => 1#32 | 1 => 2#32 | 2 => 3#32 | 3 => 4#32
  | _ => 0#32

abbrev codes : Fin 4 → BitVec 32 := fun
  | 0 => 0#32 | 1 => 1#32 | 2 => 2#32 | 3 => 3#32
  | _ => 0#32

def fill (b : BitVec 32) : IVec S8x8192 32 := broadcastInDim S8x8192 ![] bcast_S_S8x8192 (constantI S_ 32 b)

def keyVec : IVec S4 32 := fun i => keys (S4.rowMajor i)

def keyPos : IVec S4 32 :=
  select (cmpi .slt keyVec (broadcastInDim S4 ![] bcast_S_S4 (constantI S_ 32 0#32)))
    (addi keyVec (broadcastInDim S4 ![] bcast_S_S4 (constantI S_ 32 14#32))) keyVec

def table : IVec S14 32 :=
  Host.scatter scatterDims (fun _ b => b) (broadcastInDim S14 ![] bcast_S_S14 (constantI S_ 32 4294967295#32))
    (broadcastInDim S4x1 ![0] bcast_S4_S4x1_0 keyPos) (fun i => codes (S4.rowMajor i))

def bytePos (x : IVec S8x8192 32) : IVec S8x8192 32 :=
  select (cmpi .slt x (fill 0#32)) (addi x (fill 14#32)) x

def code (x : IVec S8x8192 32) : IVec S8x8192 32 :=
  Host.gather gatherDims table (broadcastInDim S8x8192x1 ![0, 1] bcast_S8x8192_S8x8192x1_0_1 (bytePos x))

def safe (x : IVec S8x8192 32) : IVec S8x8192 32 := maxsi (code x) (fill 0#32)

def bad1 (x : IVec S8x8192 32) : IVec S8x8192 1 := cmpi .eq (code x) (fill 4294967295#32)

def shift {α : Type} (v : S_.Idx → α) (a : S8x8192.Idx → α) : S8x8192.Idx → α :=
  pad S8x8192 ![0, 1] ![0, 0] ![0, 0] (extractStridedSlice S8x8191 ![0, 0] a slices_S8x8192_S8x8191_0_0) v
    pads_S8x8191_S8x8192_000_100 h_S_

def modulus : IVec S_ 32 :=
  select (cmpi .eq (constantI S_ 32 4096#32) (constantI S_ 32 0#32)) (constantI S_ 32 1#32) (constantI S_ 32 4096#32)

def modulusB : IVec S8x8192 32 := broadcastInDim S8x8192 ![] bcast_S_S8x8192 modulus

def truncRem (a : IVec S8x8192 32) : IVec S8x8192 32 := Host.remsi a modulusB

def fixSign (r : IVec S8x8192 32) : IVec S8x8192 32 :=
  select
    (andi
      (cmpi .ne (cmpi .slt r (fill 0#32))
        (broadcastInDim S8x8192 ![] bcast_S_S8x8192 (cmpi .slt modulus (constantI S_ 32 0#32))))
      (cmpi .ne r (fill 0#32)))
    (addi r modulusB) r

def floorMod (a : IVec S8x8192 32) : IVec S8x8192 32 := fixSign (truncRem a)

def stepH (s h : IVec S8x8192 32) : IVec S8x8192 32 :=
  floorMod (addi (muli (shift (constantI S_ 32 0#32) h) (fill 31#32)) s)

def stepB (b1 b : IVec S8x8192 1) : IVec S8x8192 1 := ori (shift (constantI S_ 1 1#1) b) b1

def idsSel (b : IVec S8x8192 1) (h : IVec S8x8192 32) : IVec S8x8192 32 := select b (fill 4096#32) h

def H : ℕ → IVec S8x8192 32 → IVec S8x8192 32
  | 0, x => safe x
  | 1, x => safe x
  | k + 2, x => stepH (safe x) (H (k + 1) x)

def B : ℕ → IVec S8x8192 32 → IVec S8x8192 1
  | 0, x => bad1 x
  | 1, x => bad1 x
  | k + 2, x => stepB (bad1 x) (B (k + 1) x)

def ids (k : ℕ) (x : IVec S8x8192 32) : IVec S8x8192 32 := idsSel (B k x) (H k x)

theorem H_one (x : IVec S8x8192 32) : H 1 x = safe x := rfl
theorem H_succ (k : ℕ) (x : IVec S8x8192 32) : H (k + 2) x = stepH (safe x) (H (k + 1) x) := rfl
theorem B_one (x : IVec S8x8192 32) : B 1 x = bad1 x := rfl
theorem B_succ (k : ℕ) (x : IVec S8x8192 32) : B (k + 2) x = stepB (bad1 x) (B (k + 1) x) := rfl
theorem ids_eq (k : ℕ) (x : IVec S8x8192 32) : ids k x = idsSel (B k x) (H k x) := rfl

end Cert.Spec
-- ==== Proof.Spec.G.lean ====
import proofs.«175239_j73718818668652_1_alg».proof.Proof.Spec.Ids
import Idealize.ShloMosaic.PureOps.Ideal
import Idealize.ShloMosaic.Lib.ValueIdx
import Mathlib.Algebra.BigOperators.Group.Finset.Basic
import Mathlib.Data.EReal.Basic

noncomputable section

open scoped BigOperators

namespace Cert.Spec

open Idealize.ShloMosaic Idealize.ShloMosaic.ValueIdx

abbrev S18x4097x256 : Shape := ⟨3, ![18, 4097, 256]⟩

abbrev S18x4224x256 : Shape := ⟨3, ![18, 4224, 256]⟩

abbrev S8x8192x256 : Shape := ⟨3, ![8, 8192, 256]⟩

abbrev S18x8x8192 : Shape := ⟨3, ![18, 8, 8192]⟩

def rowIdx (w : BitVec 32) : Fin 4097 := ⟨min w.toNat 4096, by omega⟩

def c19 : EReal := ((1 / 19 : ℝ) : EReal)

def G (x : IVec S8x8192 32) (tab : S18x4097x256.Idx → EReal) : S8x8192x256.Idx → EReal :=
  fun i => (∑ t : Fin 18, tab (ix3 t (rowIdx (ids (t.val + 3) x (ix2 (i 0) (i 1)))) (i 2))) * c19

def stackIds (x : IVec S8x8192 32) : S18x8x8192.Idx → BitVec 32 :=
  fun j => ids ((j 0).val + 3) x (ix2 (j 1) (j 2))

def padTab (tab : S18x4097x256.Idx → EReal) : S18x4224x256.Idx → EReal :=
  fun j => if h : (j 1).val < 4097 then tab (ix3 (j 0) ⟨(j 1).val, h⟩ (j 2)) else 0

def oneHot (w : BitVec 32) (k : Fin 4224) : EReal := if w.toNat = k.val then 1 else 0

def Gk (I : S18x8x8192.Idx → BitVec 32) (T : S18x4224x256.Idx → EReal) : S8x8192x256.Idx → EReal :=
  fun i => (∑ t : Fin 18, ∑ k : Fin 4224, oneHot (I (ix3 t (i 0) (i 1))) k * T (ix3 t k (i 2))) * c19

theorem sum_oneHot (w : BitVec 32) (hw : w.toNat < 4224) (f : Fin 4224 → EReal) :
    ∑ k : Fin 4224, oneHot w k * f k = f ⟨w.toNat, hw⟩ := by
  rw [Finset.sum_eq_single (⟨w.toNat, hw⟩ : Fin 4224)]
  · simp [oneHot]
  · intro b _ hb
    have : w.toNat ≠ b.val := fun h => hb (Fin.ext h.symm)
    simp [oneHot, this]
  · intro h; exact absurd (Finset.mem_univ _) h

theorem padTab_at (tab : S18x4097x256.Idx → EReal) (t : Fin 18) (r : Fin 4224) (c : Fin 256) (h : r.val < 4097) :
    padTab tab (ix3 t r c) = tab (ix3 t ⟨r.val, h⟩ c) := by
  unfold padTab; exact dif_pos h

theorem rowIdx_of_le (w : BitVec 32) (h : w.toNat ≤ 4096) : rowIdx w = ⟨w.toNat, by omega⟩ :=
  Fin.ext (Nat.min_eq_left h)

theorem Gk_stack_pad_of_le (x : IVec S8x8192 32)
    (ids_le : ∀ (t : Fin 18) (i : S8x8192.Idx), (ids (t.val + 3) x i).toNat ≤ 4096)
    (tab : S18x4097x256.Idx → EReal) :
    Gk (stackIds x) (padTab tab) = G x tab := by
  funext i
  unfold Gk G
  congr 1
  refine Finset.sum_congr rfl fun t _ => ?_
  have hle := ids_le t (ix2 (i 0) (i 1))
  have hst : stackIds x (ix3 t (i 0) (i 1)) = ids (t.val + 3) x (ix2 (i 0) (i 1)) := rfl
  rw [hst, sum_oneHot _ (by omega) (fun k => padTab tab (ix3 t k (i 2))),
    padTab_at tab t _ (i 2) (by show (ids (t.val + 3) x (ix2 (i 0) (i 1))).toNat < 4097; omega),
    rowIdx_of_le _ hle]

end Cert.Spec
-- ==== Proof.KI.Payload.lean ====
import proofs.«175239_j73718818668652_1_alg».proof.Proof.Gen.KernelIdeal.Skeleton
import proofs.«175239_j73718818668652_1_alg».proof.Proof.Spec.G
import Idealize.ShloMosaic.PureOps.Ideal.Laws
import Idealize.ShloMosaic.PureOps.IdealRules
import Idealize.ShloMosaic.Lib.ValueIdx
import Idealize.ShloMosaic.Lib.Pipeline.Value

noncomputable section

open scoped BigOperators

namespace Cert.KernelIdeal.FrValue

open Idealize.ShloMosaic Idealize.ShloMosaic.ValueIdx Cert.KernelIdeal

theorem hot_word (w : BitVec 32) (k : Fin 4224) :
    FloatOps.sitofp (F := Ideal) .f32 ((IntOp.cmpi .eq (BitVec.ofNat 32 k.val) w).setWidth 32) = Spec.oneHot w k := by
  show ((((IntOp.cmpi .eq (BitVec.ofNat 32 k.val) w).setWidth 32).toInt : ℝ) : EReal) = _
  unfold Spec.oneHot IntOp.cmpi
  have hk : k.val < 4224 := k.isLt
  by_cases h : w.toNat = k.val
  · have e : (BitVec.ofNat 32 k.val == w) = true := by
      rw [beq_iff_eq]; apply BitVec.eq_of_toNat_eq; rw [BitVec.toNat_ofNat, h]; omega
    rw [if_pos h]; simp only [e]
    rw [show (BitVec.setWidth 32 (BitVec.ofBool true)).toInt = 1 from by decide]; norm_num
  · have e : (BitVec.ofNat 32 k.val == w) = false := by
      rw [beq_eq_false_iff_ne]; intro e; apply h; rw [← e, BitVec.toNat_ofNat]; omega
    rw [if_neg h]; simp only [e]
    rw [show (BitVec.setWidth 32 (BitVec.ofBool false)).toInt = 0 from by decide]; norm_num

theorem rows_view_apply {α : Type} (x : S8x128x4224.Idx → α) (h : S8x128x4224.ShapeCasts S1024x4224)
    (b : Fin 8) (r : Fin 128) (k : Fin 4224) (hp : b.val * 128 + r.val < 1024) :
    shapeCast S1024x4224 x h (ix2 (⟨b.val * 128 + r.val, hp⟩ : Fin 1024) k) = x (ix3 b r k) := by
  refine shapeCast_apply x h _ _ ?_
  rw [Shape.rowMajor_val_two, Shape.rowMajor_val_three]
  show (b.val * 128 + r.val) * 4224 + k.val = (b.val * 128 + r.val) * 4224 + k.val
  rfl

theorem prod_view_apply {α : Type} (x : S1024x256.Idx → α) (h : S1024x256.ShapeCasts S8x128x256)
    (b : Fin 8) (r : Fin 128) (d : Fin 256) (hp : b.val * 128 + r.val < 1024) :
    shapeCast S8x128x256 x h (ix3 b r d) = x (ix2 (⟨b.val * 128 + r.val, hp⟩ : Fin 1024) d) := by
  refine shapeCast_apply x h _ _ ?_
  rw [Shape.rowMajor_val_two, Shape.rowMajor_val_three]
  show (b.val * 128 + r.val) * 256 + d.val = (b.val * 128 + r.val) * 256 + d.val
  rfl

theorem slab_view_apply {α : Type} (x : S1x4224x256.Idx → α) (h : S1x4224x256.ShapeCasts S4224x256)
    (k : Fin 4224) (d : Fin 256) :
    shapeCast S4224x256 x h (ix2 k d) = x (ix3 (0 : Fin 1) k d) := by
  refine shapeCast_apply x h _ _ ?_
  rw [Shape.rowMajor_val_two, Shape.rowMajor_val_three]
  show (0 * 4224 + k.val) * 256 + d.val = k.val * 256 + d.val
  omega

theorem lane_apply (h1 : S1x1x4224.Iotas .tc 32 [2]) (h2 : S1x1x4224.Broadcasts S8x128x4224)
    (b : Fin 8) (r : Fin 128) (k : Fin 4224) :
    broadcastTo S8x128x4224 (iota .tc S1x1x4224 32 [2] h1) h2 (ix3 b r k) = BitVec.ofNat 32 k.val := by
  refine (broadcastTo_apply _ h2 (ix3 b r k) (ix3 (0 : Fin 1) (0 : Fin 1) k) ?_).trans ?_
  · intro a
    match a with
    | ⟨0, _⟩ => rfl
    | ⟨1, _⟩ => rfl
    | ⟨2, _⟩ => rfl
  · exact iota_single_apply .tc S1x1x4224 32 2 h1 _

theorem ids_apply (v3 : S1x8x128.Idx → BitVec 32) (h1 : S1x8x128.ShapeCasts S8x128) (h2 : S8x128.ShapeCasts S8x128x1)
    (h3 : S8x128x1.Broadcasts S8x128x4224) (b : Fin 8) (r : Fin 128) (k : Fin 4224) :
    broadcastTo S8x128x4224 (shapeCast S8x128x1 (shapeCast S8x128 v3 h1) h2) h3 (ix3 b r k) = v3 (ix3 (0 : Fin 1) b r) := by
  refine (broadcastTo_apply _ h3 (ix3 b r k) (ix3 b r (0 : Fin 1)) ?_).trans ?_
  · intro a
    match a with
    | ⟨0, _⟩ => rfl
    | ⟨1, _⟩ => rfl
    | ⟨2, _⟩ => rfl
  refine (shapeCast_apply _ h2 (ix3 b r (0 : Fin 1)) (ix2 b r) ?_).trans ?_
  · rw [Shape.rowMajor_val_two, Shape.rowMajor_val_three]
    show b.val * 128 + r.val = (b.val * 128 + r.val) * 1 + 0
    omega
  refine shapeCast_apply _ h1 (ix2 b r) (ix3 (0 : Fin 1) b r) ?_
  rw [Shape.rowMajor_val_two, Shape.rowMajor_val_three]
  show (0 * 8 + b.val) * 128 + r.val = b.val * 128 + r.val
  omega

theorem lhs_axis0 (i : S1024x256.Idx) (q : dot_S1024x4224_S4224x256_S1024x256_1_0_0_1_n_n.contr.Idx) :
    (dot_S1024x4224_S4224x256_S1024x256_1_0_0_1_n_n.lhsIdx i q 0).val = (i 0).val := by
  unfold DotDims.lhsIdx
  rw [dif_neg (show ¬(0 : Fin S1024x4224.rank) ∈ dot_S1024x4224_S4224x256_S1024x256_1_0_0_1_n_n.lhsBatch by decide),
    dif_pos (show (0 : Fin S1024x4224.rank) ∈ dot_S1024x4224_S4224x256_S1024x256_1_0_0_1_n_n.lhsNonContracting by decide)]
  rfl

theorem lhs_axis1 (i : S1024x256.Idx) (q : dot_S1024x4224_S4224x256_S1024x256_1_0_0_1_n_n.contr.Idx) :
    (dot_S1024x4224_S4224x256_S1024x256_1_0_0_1_n_n.lhsIdx i q 1).val = (q ⟨0, by decide⟩).val :=
  dot_S1024x4224_S4224x256_S1024x256_1_0_0_1_n_n.lhsIdx_val_of_single rfl i q

theorem rhs_axis0 (i : S1024x256.Idx) (q : dot_S1024x4224_S4224x256_S1024x256_1_0_0_1_n_n.contr.Idx) :
    (dot_S1024x4224_S4224x256_S1024x256_1_0_0_1_n_n.rhsIdx i q 0).val = (q ⟨0, by decide⟩).val :=
  dot_S1024x4224_S4224x256_S1024x256_1_0_0_1_n_n.rhsIdx_val_of_single rfl i q

theorem rhs_axis1 (i : S1024x256.Idx) (q : dot_S1024x4224_S4224x256_S1024x256_1_0_0_1_n_n.contr.Idx) :
    (dot_S1024x4224_S4224x256_S1024x256_1_0_0_1_n_n.rhsIdx i q 1).val = (i 1).val := by
  unfold DotDims.rhsIdx
  rw [dif_neg (show ¬(1 : Fin S4224x256.rank) ∈ dot_S1024x4224_S4224x256_S1024x256_1_0_0_1_n_n.rhsBatch by decide),
    dif_pos (show (1 : Fin S4224x256.rank) ∈ dot_S1024x4224_S4224x256_S1024x256_1_0_0_1_n_n.rhsNonContracting by decide)]
  rfl

theorem product_apply (lhs : FVec Ideal S1024x4224 .bf16) (rhs : FVec Ideal S4224x256 .bf16) (p : Fin 1024) (d : Fin 256) :
    matmul dot_S1024x4224_S4224x256_S1024x256_1_0_0_1_n_n none lhs rhs (constant (F := Ideal) S1024x256 .f32 0x00000000#32) (ix2 p d)
      = ∑ k : Fin 4224, lhs (ix2 p k) * rhs (ix2 k d) := by
  simp only [matmul]
  rw [Ideal.matmul_constant_zero_apply, ← Equiv.sum_comp (contrEquiv1 dot_S1024x4224_S4224x256_S1024x256_1_0_0_1_n_n 4224 rfl rfl).symm]
  refine Finset.sum_congr rfl fun k _ => ?_
  have hk := contrEquiv1_symm_val dot_S1024x4224_S4224x256_S1024x256_1_0_0_1_n_n 4224 rfl rfl k
  have el : dot_S1024x4224_S4224x256_S1024x256_1_0_0_1_n_n.lhsIdx (ix2 p d) ((contrEquiv1 dot_S1024x4224_S4224x256_S1024x256_1_0_0_1_n_n 4224 rfl rfl).symm k) = ix2 p k :=
    funext fun a => Fin.ext (by
      match a with
      | ⟨0, _⟩ => exact lhs_axis0 _ _
      | ⟨1, _⟩ => exact (lhs_axis1 _ _).trans hk)
  have er : dot_S1024x4224_S4224x256_S1024x256_1_0_0_1_n_n.rhsIdx (ix2 p d) ((contrEquiv1 dot_S1024x4224_S4224x256_S1024x256_1_0_0_1_n_n 4224 rfl rfl).symm k) = ix2 k d :=
    funext fun a => Fin.ext (by
      match a with
      | ⟨0, _⟩ => exact (rhs_axis0 _ _).trans hk
      | ⟨1, _⟩ => exact rhs_axis1 _ _)
  rw [el, er]

theorem update_apply (v3 : Vec Ideal S1x8x128 .i32) (v14 : Vec Ideal S1x4224x256 .bf16) (v17 : Vec Ideal S8x128x256 .f32)
    (b : Fin 8) (r : Fin 128) (d : Fin 256) :
    Gen.k0_pay2 v3 v14 v17 (ix3 b r d)
      = v17 (ix3 b r d) + ∑ k : Fin 4224, Spec.oneHot (v3 (ix3 (0 : Fin 1) b r)) k * v14 (ix3 (0 : Fin 1) k d) := by
  have hp : b.val * 128 + r.val < 1024 := by have := b.isLt; have := r.isLt; omega
  unfold Gen.k0_pay2
  dsimp only
  refine (congrFun (shapeCast_self _ _) _).trans ?_
  refine congrArg (v17 (ix3 b r d) + ·) ?_
  refine (prod_view_apply _ _ b r d hp).trans ?_
  refine (product_apply _ _ ⟨_, hp⟩ d).trans ?_
  refine Finset.sum_congr rfl fun k _ => ?_
  refine congrArg₂ (· * ·) ?_ (slab_view_apply v14 _ k d)
  refine (rows_view_apply _ _ b r k hp).trans ?_
  refine Eq.trans ?_ (hot_word (v3 (ix3 (0 : Fin 1) b r)) k)
  exact congrArg₂ (fun a c => FloatOps.sitofp (F := Ideal) .f32 ((IntOp.cmpi .eq a c).setWidth 32))
    (lane_apply _ _ b r k) (ids_apply v3 _ _ _ b r k)

theorem reset_apply (i : S8x128x256.Idx) : (Gen.k0_pay1 (F := Ideal)) i = 0 := by
  unfold Gen.k0_pay1
  refine (congrFun (shapeCast_self _ _) _).trans ?_
  exact Ideal.ofBits_zero_f32

theorem inv19 : Named.named (F := Ideal) κ "inv_19" (φ := .f32) 0x3D579436#32 = Spec.c19 :=
  IdealRules.named_const.ideal_named_scalar _ _ _ _ rfl

theorem scale_apply (v26 : Vec Ideal S8x128x256 .f32) (i : S8x128x256.Idx) :
    Gen.k0_pay3 v26 i = v26 i * Spec.c19 := by
  unfold Gen.k0_pay3
  exact congrArg (v26 i * ·) inv19

end Cert.KernelIdeal.FrValue

end
-- ==== Proof.KI.Accum.lean ====
import proofs.«175239_j73718818668652_1_alg».proof.Proof.KI.Pieces
import proofs.«175239_j73718818668652_1_alg».proof.Proof.KI.Payload

set_option maxRecDepth 16384

noncomputable section

open scoped BigOperators

namespace Cert.KernelIdeal.FrValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr

theorem sum_upto_zero (f : Fin 18 → EReal) : (∑ s : Fin 18, if s.val ≤ 0 then f s else 0) = f 0 := by
  rw [Finset.sum_eq_single (0 : Fin 18)]
  · exact if_pos (Nat.le_refl 0)
  · intro s _ hs
    exact if_neg fun h => hs (Fin.ext (Nat.le_zero.mp h))
  · intro h
    exact absurd (Finset.mem_univ _) h

theorem sum_upto_succ (f : Fin 18 → EReal) (j : ℕ) (hj : j + 1 < 18) :
    (∑ s : Fin 18, if s.val ≤ j + 1 then f s else 0) = (∑ s : Fin 18, if s.val ≤ j then f s else 0) + f ⟨j + 1, hj⟩ := by
  have e : f ⟨j + 1, hj⟩ = ∑ s : Fin 18, if s = ⟨j + 1, hj⟩ then f s else 0 :=
    ((Finset.sum_ite_eq' Finset.univ (⟨j + 1, hj⟩ : Fin 18) f).trans (if_pos (Finset.mem_univ _))).symm
  rw [e, ← Finset.sum_add_distrib]
  refine Finset.sum_congr rfl fun s _ => ?_
  by_cases h1 : s.val ≤ j
  · have h2 : s ≠ ⟨j + 1, hj⟩ := fun h => by
      have : s.val = j + 1 := congrArg Fin.val h
      omega
    rw [if_pos h1, if_pos (Nat.le_succ_of_le h1), if_neg h2, add_zero]
  · by_cases h2 : s = ⟨j + 1, hj⟩
    · have h3 : s.val ≤ j + 1 := by
        have : s.val = j + 1 := congrArg Fin.val h2
        omega
      rw [if_neg h1, if_pos h2, if_pos h3, zero_add]
    · have h3 : ¬s.val ≤ j + 1 := fun h => h2 (Fin.ext (by show s.val = j + 1; omega))
      rw [if_neg h1, if_neg h2, if_neg h3, add_zero]

theorem sum_upto_top (f : Fin 18 → EReal) : (∑ s : Fin 18, if s.val ≤ 17 then f s else 0) = ∑ s, f s :=
  Finset.sum_congr rfl fun s _ => if_pos (by have := s.isLt; omega)

variable (m : (ℓ : Loc nD τ sig) → Buf (Elt Ideal) ℓ)

abbrev idsArr (c : Dev nD) : S18x8x8192.Idx → BitVec 32 := V m c main_v228

abbrev tabArr (c : Dev nD) : S18x4224x256.Idx → EReal := V m c main_v230

theorem index_facts : ∀ t : Fin cfg0.N,
    win0_0.index t (0 : Fin 3) = t.val % 18 ∧ win0_0.index t (1 : Fin 3) = 0 ∧ win0_0.index t (2 : Fin 3) = t.val / 18
    ∧ win0_1.index t (0 : Fin 3) = t.val % 18 ∧ win0_1.index t (1 : Fin 3) = 0 ∧ win0_1.index t (2 : Fin 3) = 0
    ∧ win0_2.index t (0 : Fin 3) = 0 ∧ win0_2.index t (1 : Fin 3) = t.val / 18 ∧ win0_2.index t (2 : Fin 3) = 0 :=
  (by decide +kernel : ∀ t : Fin grid0.N, _)

def col (l : Fin 64) (r : Fin 128) : Fin 8192 := ⟨128 * l.val + r.val, by have := l.isLt; have := r.isLt; omega⟩

theorem idsBlk_apply (c : Dev nD) (t : Fin cfg0.N) (l : Fin 64) (s : Fin 18) (ht : t.val = 18 * l.val + s.val)
    (b : Fin 8) (r : Fin 128) :
    idsBlk m c t (ix3 (0 : Fin 1) b r) = idsArr m c (ix3 s b (col l r)) := by
  obtain ⟨e0, e1, e2, -⟩ := index_facts t
  have hl := l.isLt
  have hs := s.isLt
  show iblk m c 0 t (ix3 (0 : Fin 1) b r) = _
  unfold iblk
  rw [View.read_apply]
  show V m c main_v228 _ = V m c main_v228 _
  refine congrArg (V m c main_v228) (funext fun a => Fin.ext ?_)
  match a with
  | ⟨0, _⟩ => show win0_0.index t (0 : Fin 3) * 1 + 1 * 0 = s.val; rw [e0]; omega
  | ⟨1, _⟩ => show win0_0.index t (1 : Fin 3) * 8 + 1 * b.val = b.val; rw [e1]; omega
  | ⟨2, _⟩ => show win0_0.index t (2 : Fin 3) * 128 + 1 * r.val = 128 * l.val + r.val; rw [e2]; omega

theorem tabBlk_apply (c : Dev nD) (t : Fin cfg0.N) (l : Fin 64) (s : Fin 18) (ht : t.val = 18 * l.val + s.val)
    (k : Fin 4224) (d : Fin 256) :
    tabBlk m c t (ix3 (0 : Fin 1) k d) = tabArr m c (ix3 s k d) := by
  obtain ⟨-, -, -, e0, e1, e2, -⟩ := index_facts t
  have hl := l.isLt
  have hs := s.isLt
  show iblk m c 1 t (ix3 (0 : Fin 1) k d) = _
  unfold iblk
  rw [View.read_apply]
  show V m c main_v230 _ = V m c main_v230 _
  refine congrArg (V m c main_v230) (funext fun a => Fin.ext ?_)
  match a with
  | ⟨0, _⟩ => show win0_1.index t (0 : Fin 3) * 1 + 1 * 0 = s.val; rw [e0]; omega
  | ⟨1, _⟩ => show win0_1.index t (1 : Fin 3) * 4224 + 1 * k.val = k.val; rw [e1]; omega
  | ⟨2, _⟩ => show win0_1.index t (2 : Fin 3) * 256 + 1 * d.val = d.val; rw [e2]; omega

def part (I : S18x8x8192.Idx → BitVec 32) (T : S18x4224x256.Idx → EReal) (l : Fin 64) (s : Fin 18)
    (b : Fin 8) (r : Fin 128) (d : Fin 256) : EReal :=
  ∑ k : Fin 4224, Spec.oneHot (I (ix3 s b (col l r))) k * T (ix3 s k d)

theorem update_at (c : Dev nD) (t : Fin cfg0.N) (l : Fin 64) (s : Fin 18) (ht : t.val = 18 * l.val + s.val)
    (acc : Vec Ideal S8x128x256 .f32) (b : Fin 8) (r : Fin 128) (d : Fin 256) :
    k0_pay2 (idsBlk m c t) (tabBlk m c t) acc (ix3 b r d)
      = acc (ix3 b r d) + part (idsArr m c) (tabArr m c) l s b r d := by
  refine (update_apply (idsBlk m c t) (tabBlk m c t) acc b r d).trans ?_
  refine congrArg (acc (ix3 b r d) + ·) ?_
  unfold part
  refine Finset.sum_congr rfl fun k _ => ?_
  rw [idsBlk_apply m c t l s ht b r, tabBlk_apply m c t l s ht k d]

theorem total_eq (c : Dev nD) (l : Fin 64) : ∀ (s : ℕ) (hs : s < 18) (h : 18 * l.val + s < cfg0.N)
    (b : Fin 8) (r : Fin 128) (d : Fin 256),
    (outsAt0 m c (18 * l.val + s) h).2 (ix3 b r d)
      = ∑ s' : Fin 18, if s'.val ≤ s then part (idsArr m c) (tabArr m c) l s' b r d else 0 := by
  intro s
  induction s with
  | zero =>
    intro hs h b r d
    have e := total_first m c ⟨18 * l.val + 0, h⟩ (by show (18 * l.val + 0) % 18 = 0; omega)
      (by show ¬(18 * l.val + 0) % 18 = 17; omega)
    refine (congrFun e (ix3 b r d)).trans ?_
    refine (update_at m c ⟨18 * l.val + 0, h⟩ l ⟨0, hs⟩ rfl (k0_pay1 (F := Ideal)) b r d).trans ?_
    rw [reset_apply, zero_add]
    exact (sum_upto_zero fun s' => part (idsArr m c) (tabArr m c) l s' b r d).symm
  | succ s ih =>
    intro hs h b r d
    have h0 : ¬(18 * l.val + (s + 1)) % 18 = 0 := by omega
    have hprev : 18 * l.val + s < cfg0.N := Nat.lt_of_succ_lt h
    have step : (outsAt0 m c (18 * l.val + (s + 1)) h).2
        = k0_pay2 (idsBlk m c ⟨18 * l.val + (s + 1), h⟩) (tabBlk m c ⟨18 * l.val + (s + 1), h⟩)
            (outsAt0 m c (18 * l.val + s) hprev).2 := by
      by_cases h1 : (18 * l.val + (s + 1)) % 18 = 17
      · exact total_last m c ⟨18 * l.val + (s + 1), h⟩ h0 h1
      · exact total_mid m c ⟨18 * l.val + (s + 1), h⟩ h0 h1
    refine (congrFun step (ix3 b r d)).trans ?_
    refine (update_at m c ⟨18 * l.val + (s + 1), h⟩ l ⟨s + 1, hs⟩ rfl (outsAt0 m c (18 * l.val + s) hprev).2 b r d).trans ?_
    rw [ih (Nat.lt_of_succ_lt hs) hprev b r d]
    exact (sum_upto_succ (fun s' => part (idsArr m c) (tabArr m c) l s' b r d) s hs).symm

theorem block_at (c : Dev nD) (t : Fin cfg0.N) (l : Fin 64) (ht : t.val = 18 * l.val + 17)
    (b : Fin 8) (r : Fin 128) (d : Fin 256) :
    (outsAt0 m c t.val t.isLt).1 (ix3 b r d) = Spec.Gk (idsArr m c) (tabArr m c) (ix3 b (col l r) d) := by
  obtain ⟨n, hn⟩ := t
  dsimp only at ht
  subst ht
  have e := block_last m c ⟨18 * l.val + 17, hn⟩ (by show ¬(18 * l.val + 17) % 18 = 0; omega)
    (by show (18 * l.val + 17) % 18 = 17; omega)
  refine (congrFun e (ix3 b r d)).trans ?_
  refine (scale_apply _ (ix3 b r d)).trans ?_
  show _ * Spec.c19 = (∑ s' : Fin 18, part (idsArr m c) (tabArr m c) l s' b r d) * Spec.c19
  refine congrArg (· * Spec.c19) ?_
  exact (total_eq m c l 17 (by decide) hn b r d).trans
    (sum_upto_top fun s' => part (idsArr m c) (tabArr m c) l s' b r d)

end Cert.KernelIdeal.FrValue

end
-- ==== Proof.KI.Final.lean ====
import proofs.«175239_j73718818668652_1_alg».proof.Proof.KI.Accum
import proofs.«175239_j73718818668652_1_alg».proof.Proof.KI.HostArgs

set_option maxRecDepth 16384

noncomputable section

open scoped BigOperators

namespace Cert.KernelIdeal.FrValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr

variable (m : (ℓ : Loc nD τ sig) → Buf (Elt Ideal) ℓ)

theorem flushed_eq (c : Dev nD) (t : Fin cfg0.N) (hf : (cfg0.win 2).flush t = true) :
    (dats m 0 c).flushed 2 t
      = ((cfg0.win 2).blk t).view.read (Elt Ideal) (Spec.Gk (idsArr m c) (tabArr m c)) := by
  have hN : cfg0.N = 1152 := N_0
  have h17 : t.val % 18 = 17 := (flush0_2 t).mp hf
  have htl : t.val < 1152 := lt_of_lt_of_eq t.isLt hN
  obtain ⟨-, -, -, -, -, -, e0, e1, e2⟩ := index_facts t
  have hl : t.val / 18 < 64 := by omega
  have ht : t.val = 18 * (t.val / 18) + 17 := by omega
  show (cfg0.win 2).cut (grid0.coords t) ((dats m 0 c).after 2 t) = _
  rw [after0_2]
  funext j
  have hj0 : (j 0).val < 8 := (j 0).isLt
  have hj1 : (j 1).val < 128 := (j 1).isLt
  have hj2 : (j 2).val < 256 := (j 2).isLt
  show (outsAt0 m c t.val t.isLt).1 j
    = Spec.Gk (idsArr m c) (tabArr m c) (((cfg0.win 2).blk t).view.emb j)
  have ej : (j : S8x128x256.Idx) = ix3 (⟨(j 0).val, hj0⟩ : Fin 8) (⟨(j 1).val, hj1⟩ : Fin 128) (⟨(j 2).val, hj2⟩ : Fin 256) :=
    funext fun a => by
      match a with
      | ⟨0, _⟩ => rfl
      | ⟨1, _⟩ => rfl
      | ⟨2, _⟩ => rfl
  refine (congrArg (outsAt0 m c t.val t.isLt).1 ej).trans ?_
  refine (block_at m c t ⟨t.val / 18, hl⟩ ht ⟨(j 0).val, hj0⟩ ⟨(j 1).val, hj1⟩ ⟨(j 2).val, hj2⟩).trans ?_
  refine congrArg (Spec.Gk (idsArr m c) (tabArr m c)) (funext fun a => Fin.ext ?_)
  match a with
  | ⟨0, _⟩ => show (j 0).val = win0_2.index t (0 : Fin 3) * 8 + 1 * (j 0).val; rw [e0]; omega
  | ⟨1, _⟩ => show 128 * (t.val / 18) + (j 1).val = win0_2.index t (1 : Fin 3) * 128 + 1 * (j 1).val; rw [e1]; omega
  | ⟨2, _⟩ => show (j 2).val = win0_2.index t (2 : Fin 3) * 256 + 1 * (j 2).val; rw [e2]; omega

theorem mem_blk (t : Fin cfg0.N) (i : S8x8192x256.Idx) :
    i ∈ ((cfg0.win 2).blk t).view.set
      ↔ ∀ a : Fin 3, win0_2.index t a * S8x128x256.size a ≤ (i a).val
          ∧ (i a).val < win0_2.index t a * S8x128x256.size a + S8x128x256.size a := by
  show i ∈ ((View.whole main_v231).slice (win0_2.rect t)).set ↔ _
  rw [View.set_slice_whole, Rect.mem_set_unit]
  exact Iff.rfl

theorem cover (i : S8x8192x256.Idx) :
    ∃ t : Fin cfg0.N, (cfg0.win 2).flush t = true ∧ i ∈ ((cfg0.win 2).blk t).view.set := by
  have hN : cfg0.N = 1152 := N_0
  have hi0 : (i 0).val < 8 := (i 0).isLt
  have hi1 : (i 1).val < 8192 := (i 1).isLt
  have hi2 : (i 2).val < 256 := (i 2).isLt
  have hlt : 18 * ((i 1).val / 128) + 17 < cfg0.N := by rw [hN]; omega
  refine ⟨⟨18 * ((i 1).val / 128) + 17, hlt⟩,
    (flush0_2 _).mpr (by show (18 * ((i 1).val / 128) + 17) % 18 = 17; omega), ?_⟩
  obtain ⟨-, -, -, -, -, -, e0, e1, e2⟩ := index_facts ⟨18 * ((i 1).val / 128) + 17, hlt⟩
  have e1' : win0_2.index ⟨18 * ((i 1).val / 128) + 17, hlt⟩ (1 : Fin 3) = (18 * ((i 1).val / 128) + 17) / 18 := e1
  rw [mem_blk]
  intro a
  match a with
  | ⟨0, _⟩ =>
    show win0_2.index ⟨18 * ((i 1).val / 128) + 17, hlt⟩ (0 : Fin 3) * 8 ≤ (i 0).val
      ∧ (i 0).val < win0_2.index ⟨18 * ((i 1).val / 128) + 17, hlt⟩ (0 : Fin 3) * 8 + 8
    rw [e0]; omega
  | ⟨1, _⟩ =>
    show win0_2.index ⟨18 * ((i 1).val / 128) + 17, hlt⟩ (1 : Fin 3) * 128 ≤ (i 1).val
      ∧ (i 1).val < win0_2.index ⟨18 * ((i 1).val / 128) + 17, hlt⟩ (1 : Fin 3) * 128 + 128
    rw [e1']; omega
  | ⟨2, _⟩ =>
    show win0_2.index ⟨18 * ((i 1).val / 128) + 17, hlt⟩ (2 : Fin 3) * 256 ≤ (i 2).val
      ∧ (i 2).val < win0_2.index ⟨18 * ((i 1).val / 128) + 17, hlt⟩ (2 : Fin 3) * 256 + 256
    rw [e2]; omega

theorem final (c : Dev nD) :
    (dats m 0 c).arrAt 2 cfg0.N = Spec.Gk (V m c main_v228) (V m c main_v230) :=
  (dats m 0 c).arrAt_eq_of_cover 2 (Spec.Gk (idsArr m c) (tabArr m c)) (flushed_eq m c) cover

theorem run_found (ρ : Dev nD → PrngReg) :
    θ_run defs (onTc (τ := τ) (main (F := Ideal))) ⟨m, fun _ => 0, ρ⟩ (fun r => ∀ c : Dev nD,
      r.2.mem ((c.tc : Thread nD τ).loc main_v231) = Spec.Gk (V m c main_v228) (V m c main_v230)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).1 2).trans (final m c),
        ((h c).2 main_arg0 (Pipeline.mem_restRefs_of main_arg0 (by decide) (by decide))).trans (V_main_arg0 m c),
        ((h c).2 main_arg1 (Pipeline.mem_restRefs_of main_arg1 (by decide) (by decide))).trans (V_main_arg1 m c)⟩)
    (run_main m ρ)

end Cert.KernelIdeal.FrValue

end
-- ==== Proof.KI.HostStepA.lean ====
import proofs.«175239_j73718818668652_1_alg».proof.Proof.Gen.KernelIdeal.Launch
import Idealize.ShloMosaic.Lib.StableHlo.Run
import proofs.«175239_j73718818668652_1_alg».proof.Proof.Spec.Ids

set_option maxRecDepth 16384

noncomputable section

namespace Cert.KernelIdeal.FrHost

open Idealize.ShloMosaic Idealize.ShloMosaic.TcCoe Idealize.ShloMosaic.StableHlo
open Idealize.SL Idealize.SL.Sem
open Cert.KernelIdeal Cert.KernelIdeal.Gen

def cutLast {α : Type} (a : Spec.S8x8192.Idx → α) : Spec.S8x8191.Idx → α :=
  extractStridedSlice Spec.S8x8191 ![0, 0] a Spec.slices_S8x8192_S8x8191_0_0

def padFront {α : Type} (v : Spec.S_.Idx → α) (y : Spec.S8x8191.Idx → α) : Spec.S8x8192.Idx → α :=
  pad Spec.S8x8192 ![0, 1] ![0, 0] ![0, 0] y v Spec.pads_S8x8191_S8x8192_000_100 Spec.h_S_

theorem shift_eq {α : Type} (v : Spec.S_.Idx → α) (a : Spec.S8x8192.Idx → α) : Spec.shift v a = padFront v (cutLast a) := rfl

variable (W : Valuation τ sig (Elt Ideal))

set_option maxHeartbeats 1000000 in
/-- What the window's stretches leave, read at the buffers the later windows use. -/
theorem stepA (R : Valuation τ sig (Elt Ideal))
    (hR : R = after hostOps0 (W)) :
    R (no_index (Proc.devRef .tc main_v16)) = Spec.safe (W (Proc.devRef .tc main_arg0))
    ∧ R (no_index (Proc.devRef .tc main_v18)) = Spec.bad1 (W (Proc.devRef .tc main_arg0))
    ∧ R (no_index (Proc.devRef .tc main_v19)) = cutLast (Spec.safe (W (Proc.devRef .tc main_arg0)))
    ∧ R (no_index (Proc.devRef .tc main_c_8)) = constantI Spec.S_ 32 0#32 := by
  subst hR
  simp only [hostOps0]
  refine ⟨?_, ?_, ?_, ?_⟩ <;> after_results_simp <;> rfl

end Cert.KernelIdeal.FrHost

end
-- ==== Proof.KI.HostStep02.lean ====
import proofs.«175239_j73718818668652_1_alg».proof.Proof.Gen.KernelIdeal.Launch
import Idealize.ShloMosaic.Lib.StableHlo.Run
import proofs.«175239_j73718818668652_1_alg».proof.Proof.Spec.Ids
import proofs.«175239_j73718818668652_1_alg».proof.Proof.KI.HostStepA

set_option maxRecDepth 16384

noncomputable section

namespace Cert.KernelIdeal.FrHost

open Idealize.ShloMosaic Idealize.ShloMosaic.TcCoe Idealize.ShloMosaic.StableHlo
open Idealize.SL Idealize.SL.Sem
open Cert.KernelIdeal Cert.KernelIdeal.Gen

variable (W : Valuation τ sig (Elt Ideal))

set_option maxHeartbeats 1000000 in
/-- What the window's stretches leave, read at the buffers the later windows use. -/
theorem step2 (R : Valuation τ sig (Elt Ideal))
    (hR : R = after hostOps0_5 (after hostOps0_4 (after hostOps0_3 (after hostOps0_2 (after hostOps0_1 (W)))))) :
    R (no_index (Proc.devRef .tc main_v24)) = Spec.floorMod (addi (muli (padFront (W (Proc.devRef .tc main_c_8)) (W (Proc.devRef .tc main_v19))) (Spec.fill 31#32)) (W (Proc.devRef .tc main_v16)))
    ∧ R (no_index (Proc.devRef .tc main_v26)) = Spec.shift (constantI Spec.S_ 1 1#1) (W (Proc.devRef .tc main_v18)) := by
  subst hR
  simp only [hostOps0_1, hostOps0_2, hostOps0_3, hostOps0_4, hostOps0_5]
  refine ⟨?_, ?_⟩ <;> after_results_simp <;> rfl

end Cert.KernelIdeal.FrHost

end
-- ==== Proof.KI.HostStep03.lean ====
import proofs.«175239_j73718818668652_1_alg».proof.Proof.Gen.KernelIdeal.Launch
import Idealize.ShloMosaic.Lib.StableHlo.Run
import proofs.«175239_j73718818668652_1_alg».proof.Proof.Spec.Ids

set_option maxRecDepth 16384

noncomputable section

namespace Cert.KernelIdeal.FrHost

open Idealize.ShloMosaic Idealize.ShloMosaic.TcCoe Idealize.ShloMosaic.StableHlo
open Idealize.SL Idealize.SL.Sem
open Cert.KernelIdeal Cert.KernelIdeal.Gen

variable (W : Valuation τ sig (Elt Ideal))

set_option maxHeartbeats 1000000 in
/-- What the window's stretches leave, read at the buffers the later windows use. -/
theorem step3 (R : Valuation τ sig (Elt Ideal))
    (hR : R = after hostOps0_13 (after hostOps0_12 (after hostOps0_11 (after hostOps0_10 (after hostOps0_9 (after hostOps0_8 (after hostOps0_7 (after hostOps0_6 (W))))))))) :
    R (no_index (Proc.devRef .tc main_v33)) = Spec.stepH (W (Proc.devRef .tc main_v16)) (W (Proc.devRef .tc main_v24))
    ∧ R (no_index (Proc.devRef .tc main_v36)) = Spec.stepB (W (Proc.devRef .tc main_v18)) (ori (W (Proc.devRef .tc main_v26)) (W (Proc.devRef .tc main_v18)))
    ∧ R (no_index (Proc.devRef .tc main_v37)) = Spec.idsSel (Spec.stepB (W (Proc.devRef .tc main_v18)) (ori (W (Proc.devRef .tc main_v26)) (W (Proc.devRef .tc main_v18)))) (Spec.stepH (W (Proc.devRef .tc main_v16)) (W (Proc.devRef .tc main_v24))) := by
  subst hR
  simp only [hostOps0_6, hostOps0_7, hostOps0_8, hostOps0_9, hostOps0_10, hostOps0_11, hostOps0_12, hostOps0_13]
  refine ⟨?_, ?_, ?_⟩ <;> after_results_simp <;> rfl

end Cert.KernelIdeal.FrHost

end
-- ==== Proof.KI.HostStep04.lean ====
import proofs.«175239_j73718818668652_1_alg».proof.Proof.Gen.KernelIdeal.Launch
import Idealize.ShloMosaic.Lib.StableHlo.Run
import proofs.«175239_j73718818668652_1_alg».proof.Proof.Spec.Ids

set_option maxRecDepth 16384

noncomputable section

namespace Cert.KernelIdeal.FrHost

open Idealize.ShloMosaic Idealize.ShloMosaic.TcCoe Idealize.ShloMosaic.StableHlo
open Idealize.SL Idealize.SL.Sem
open Cert.KernelIdeal Cert.KernelIdeal.Gen

variable (W : Valuation τ sig (Elt Ideal))

set_option maxHeartbeats 1000000 in
/-- What the window's stretches leave, read at the buffers the later windows use. -/
theorem step4 (R : Valuation τ sig (Elt Ideal))
    (hR : R = after hostOps0_21 (after hostOps0_20 (after hostOps0_19 (after hostOps0_18 (after hostOps0_17 (after hostOps0_16 (after hostOps0_15 (after hostOps0_14 (W))))))))) :
    R (no_index (Proc.devRef .tc main_v43)) = Spec.stepH (W (Proc.devRef .tc main_v16)) (W (Proc.devRef .tc main_v33))
    ∧ R (no_index (Proc.devRef .tc main_v46)) = Spec.stepB (W (Proc.devRef .tc main_v18)) (W (Proc.devRef .tc main_v36))
    ∧ R (no_index (Proc.devRef .tc main_v47)) = Spec.idsSel (Spec.stepB (W (Proc.devRef .tc main_v18)) (W (Proc.devRef .tc main_v36))) (Spec.stepH (W (Proc.devRef .tc main_v16)) (W (Proc.devRef .tc main_v33))) := by
  subst hR
  simp only [hostOps0_14, hostOps0_15, hostOps0_16, hostOps0_17, hostOps0_18, hostOps0_19, hostOps0_20, hostOps0_21]
  refine ⟨?_, ?_, ?_⟩ <;> after_results_simp <;> rfl

end Cert.KernelIdeal.FrHost

end
-- ==== Proof.KI.HostStep05.lean ====
import proofs.«175239_j73718818668652_1_alg».proof.Proof.Gen.KernelIdeal.Launch
import Idealize.ShloMosaic.Lib.StableHlo.Run
import proofs.«175239_j73718818668652_1_alg».proof.Proof.Spec.Ids

set_option maxRecDepth 16384

noncomputable section

namespace Cert.KernelIdeal.FrHost

open Idealize.ShloMosaic Idealize.ShloMosaic.TcCoe Idealize.ShloMosaic.StableHlo
open Idealize.SL Idealize.SL.Sem
open Cert.KernelIdeal Cert.KernelIdeal.Gen

variable (W : Valuation τ sig (Elt Ideal))

set_option maxHeartbeats 1000000 in
/-- What the window's stretches leave, read at the buffers the later windows use. -/
theorem step5 (R : Valuation τ sig (Elt Ideal))
    (hR : R = after hostOps0_29 (after hostOps0_28 (after hostOps0_27 (after hostOps0_26 (after hostOps0_25 (after hostOps0_24 (after hostOps0_23 (after hostOps0_22 (W))))))))) :
    R (no_index (Proc.devRef .tc main_v53)) = Spec.stepH (W (Proc.devRef .tc main_v16)) (W (Proc.devRef .tc main_v43))
    ∧ R (no_index (Proc.devRef .tc main_v56)) = Spec.stepB (W (Proc.devRef .tc main_v18)) (W (Proc.devRef .tc main_v46))
    ∧ R (no_index (Proc.devRef .tc main_v57)) = Spec.idsSel (Spec.stepB (W (Proc.devRef .tc main_v18)) (W (Proc.devRef .tc main_v46))) (Spec.stepH (W (Proc.devRef .tc main_v16)) (W (Proc.devRef .tc main_v43))) := by
  subst hR
  simp only [hostOps0_22, hostOps0_23, hostOps0_24, hostOps0_25, hostOps0_26, hostOps0_27, hostOps0_28, hostOps0_29]
  refine ⟨?_, ?_, ?_⟩ <;> after_results_simp <;> rfl

end Cert.KernelIdeal.FrHost

end
-- ==== Proof.KI.HostStep06.lean ====
import proofs.«175239_j73718818668652_1_alg».proof.Proof.Gen.KernelIdeal.Launch
import Idealize.ShloMosaic.Lib.StableHlo.Run
import proofs.«175239_j73718818668652_1_alg».proof.Proof.Spec.Ids

set_option maxRecDepth 16384

noncomputable section

namespace Cert.KernelIdeal.FrHost

open Idealize.ShloMosaic Idealize.ShloMosaic.TcCoe Idealize.ShloMosaic.StableHlo
open Idealize.SL Idealize.SL.Sem
open Cert.KernelIdeal Cert.KernelIdeal.Gen

variable (W : Valuation τ sig (Elt Ideal))

set_option maxHeartbeats 1000000 in
/-- What the window's stretches leave, read at the buffers the later windows use. -/
theorem step6 (R : Valuation τ sig (Elt Ideal))
    (hR : R = after hostOps0_37 (after hostOps0_36 (after hostOps0_35 (after hostOps0_34 (after hostOps0_33 (after hostOps0_32 (after hostOps0_31 (after hostOps0_30 (W))))))))) :
    R (no_index (Proc.devRef .tc main_v63)) = Spec.stepH (W (Proc.devRef .tc main_v16)) (W (Proc.devRef .tc main_v53))
    ∧ R (no_index (Proc.devRef .tc main_v66)) = Spec.stepB (W (Proc.devRef .tc main_v18)) (W (Proc.devRef .tc main_v56))
    ∧ R (no_index (Proc.devRef .tc main_v67)) = Spec.idsSel (Spec.stepB (W (Proc.devRef .tc main_v18)) (W (Proc.devRef .tc main_v56))) (Spec.stepH (W (Proc.devRef .tc main_v16)) (W (Proc.devRef .tc main_v53))) := by
  subst hR
  simp only [hostOps0_30, hostOps0_31, hostOps0_32, hostOps0_33, hostOps0_34, hostOps0_35, hostOps0_36, hostOps0_37]
  refine ⟨?_, ?_, ?_⟩ <;> after_results_simp <;> rfl

end Cert.KernelIdeal.FrHost

end
-- ==== Proof.KI.HostStep07.lean ====
import proofs.«175239_j73718818668652_1_alg».proof.Proof.Gen.KernelIdeal.Launch
import Idealize.ShloMosaic.Lib.StableHlo.Run
import proofs.«175239_j73718818668652_1_alg».proof.Proof.Spec.Ids

set_option maxRecDepth 16384

noncomputable section

namespace Cert.KernelIdeal.FrHost

open Idealize.ShloMosaic Idealize.ShloMosaic.TcCoe Idealize.ShloMosaic.StableHlo
open Idealize.SL Idealize.SL.Sem
open Cert.KernelIdeal Cert.KernelIdeal.Gen

variable (W : Valuation τ sig (Elt Ideal))

set_option maxHeartbeats 1000000 in
/-- What the window's stretches leave, read at the buffers the later windows use. -/
theorem step7 (R : Valuation τ sig (Elt Ideal))
    (hR : R = after hostOps0_45 (after hostOps0_44 (after hostOps0_43 (after hostOps0_42 (after hostOps0_41 (after hostOps0_40 (after hostOps0_39 (after hostOps0_38 (W))))))))) :
    R (no_index (Proc.devRef .tc main_v73)) = Spec.stepH (W (Proc.devRef .tc main_v16)) (W (Proc.devRef .tc main_v63))
    ∧ R (no_index (Proc.devRef .tc main_v76)) = Spec.stepB (W (Proc.devRef .tc main_v18)) (W (Proc.devRef .tc main_v66))
    ∧ R (no_index (Proc.devRef .tc main_v77)) = Spec.idsSel (Spec.stepB (W (Proc.devRef .tc main_v18)) (W (Proc.devRef .tc main_v66))) (Spec.stepH (W (Proc.devRef .tc main_v16)) (W (Proc.devRef .tc main_v63))) := by
  subst hR
  simp only [hostOps0_38, hostOps0_39, hostOps0_40, hostOps0_41, hostOps0_42, hostOps0_43, hostOps0_44, hostOps0_45]
  refine ⟨?_, ?_, ?_⟩ <;> after_results_simp <;> rfl

end Cert.KernelIdeal.FrHost

end
-- ==== Proof.KI.HostStep08.lean ====
import proofs.«175239_j73718818668652_1_alg».proof.Proof.Gen.KernelIdeal.Launch
import Idealize.ShloMosaic.Lib.StableHlo.Run
import proofs.«175239_j73718818668652_1_alg».proof.Proof.Spec.Ids

set_option maxRecDepth 16384

noncomputable section

namespace Cert.KernelIdeal.FrHost

open Idealize.ShloMosaic Idealize.ShloMosaic.TcCoe Idealize.ShloMosaic.StableHlo
open Idealize.SL Idealize.SL.Sem
open Cert.KernelIdeal Cert.KernelIdeal.Gen

variable (W : Valuation τ sig (Elt Ideal))

set_option maxHeartbeats 1000000 in
/-- What the window's stretches leave, read at the buffers the later windows use. -/
theorem step8 (R : Valuation τ sig (Elt Ideal))
    (hR : R = after hostOps0_53 (after hostOps0_52 (after hostOps0_51 (after hostOps0_50 (after hostOps0_49 (after hostOps0_48 (after hostOps0_47 (after hostOps0_46 (W))))))))) :
    R (no_index (Proc.devRef .tc main_v83)) = Spec.stepH (W (Proc.devRef .tc main_v16)) (W (Proc.devRef .tc main_v73))
    ∧ R (no_index (Proc.devRef .tc main_v86)) = Spec.stepB (W (Proc.devRef .tc main_v18)) (W (Proc.devRef .tc main_v76))
    ∧ R (no_index (Proc.devRef .tc main_v87)) = Spec.idsSel (Spec.stepB (W (Proc.devRef .tc main_v18)) (W (Proc.devRef .tc main_v76))) (Spec.stepH (W (Proc.devRef .tc main_v16)) (W (Proc.devRef .tc main_v73))) := by
  subst hR
  simp only [hostOps0_46, hostOps0_47, hostOps0_48, hostOps0_49, hostOps0_50, hostOps0_51, hostOps0_52, hostOps0_53]
  refine ⟨?_, ?_, ?_⟩ <;> after_results_simp <;> rfl

end Cert.KernelIdeal.FrHost

end
-- ==== Proof.KI.HostStep09.lean ====
import proofs.«175239_j73718818668652_1_alg».proof.Proof.Gen.KernelIdeal.Launch
import Idealize.ShloMosaic.Lib.StableHlo.Run
import proofs.«175239_j73718818668652_1_alg».proof.Proof.Spec.Ids

set_option maxRecDepth 16384

noncomputable section

namespace Cert.KernelIdeal.FrHost

open Idealize.ShloMosaic Idealize.ShloMosaic.TcCoe Idealize.ShloMosaic.StableHlo
open Idealize.SL Idealize.SL.Sem
open Cert.KernelIdeal Cert.KernelIdeal.Gen

variable (W : Valuation τ sig (Elt Ideal))

set_option maxHeartbeats 1000000 in
/-- What the window's stretches leave, read at the buffers the later windows use. -/
theorem step9 (R : Valuation τ sig (Elt Ideal))
    (hR : R = after hostOps0_61 (after hostOps0_60 (after hostOps0_59 (after hostOps0_58 (after hostOps0_57 (after hostOps0_56 (after hostOps0_55 (after hostOps0_54 (W))))))))) :
    R (no_index (Proc.devRef .tc main_v93)) = Spec.stepH (W (Proc.devRef .tc main_v16)) (W (Proc.devRef .tc main_v83))
    ∧ R (no_index (Proc.devRef .tc main_v96)) = Spec.stepB (W (Proc.devRef .tc main_v18)) (W (Proc.devRef .tc main_v86))
    ∧ R (no_index (Proc.devRef .tc main_v97)) = Spec.idsSel (Spec.stepB (W (Proc.devRef .tc main_v18)) (W (Proc.devRef .tc main_v86))) (Spec.stepH (W (Proc.devRef .tc main_v16)) (W (Proc.devRef .tc main_v83))) := by
  subst hR
  simp only [hostOps0_54, hostOps0_55, hostOps0_56, hostOps0_57, hostOps0_58, hostOps0_59, hostOps0_60, hostOps0_61]
  refine ⟨?_, ?_, ?_⟩ <;> after_results_simp <;> rfl

end Cert.KernelIdeal.FrHost

end
-- ==== Proof.KI.HostStep10.lean ====
import proofs.«175239_j73718818668652_1_alg».proof.Proof.Gen.KernelIdeal.Launch
import Idealize.ShloMosaic.Lib.StableHlo.Run
import proofs.«175239_j73718818668652_1_alg».proof.Proof.Spec.Ids

set_option maxRecDepth 16384

noncomputable section

namespace Cert.KernelIdeal.FrHost

open Idealize.ShloMosaic Idealize.ShloMosaic.TcCoe Idealize.ShloMosaic.StableHlo
open Idealize.SL Idealize.SL.Sem
open Cert.KernelIdeal Cert.KernelIdeal.Gen

variable (W : Valuation τ sig (Elt Ideal))

set_option maxHeartbeats 1000000 in
/-- What the window's stretches leave, read at the buffers the later windows use. -/
theorem step10 (R : Valuation τ sig (Elt Ideal))
    (hR : R = after hostOps0_69 (after hostOps0_68 (after hostOps0_67 (after hostOps0_66 (after hostOps0_65 (after hostOps0_64 (after hostOps0_63 (after hostOps0_62 (W))))))))) :
    R (no_index (Proc.devRef .tc main_v103)) = Spec.stepH (W (Proc.devRef .tc main_v16)) (W (Proc.devRef .tc main_v93))
    ∧ R (no_index (Proc.devRef .tc main_v106)) = Spec.stepB (W (Proc.devRef .tc main_v18)) (W (Proc.devRef .tc main_v96))
    ∧ R (no_index (Proc.devRef .tc main_v107)) = Spec.idsSel (Spec.stepB (W (Proc.devRef .tc main_v18)) (W (Proc.devRef .tc main_v96))) (Spec.stepH (W (Proc.devRef .tc main_v16)) (W (Proc.devRef .tc main_v93))) := by
  subst hR
  simp only [hostOps0_62, hostOps0_63, hostOps0_64, hostOps0_65, hostOps0_66, hostOps0_67, hostOps0_68, hostOps0_69]
  refine ⟨?_, ?_, ?_⟩ <;> after_results_simp <;> rfl

end Cert.KernelIdeal.FrHost

end
-- ==== Proof.KI.HostStep11.lean ====
import proofs.«175239_j73718818668652_1_alg».proof.Proof.Gen.KernelIdeal.Launch
import Idealize.ShloMosaic.Lib.StableHlo.Run
import proofs.«175239_j73718818668652_1_alg».proof.Proof.Spec.Ids

set_option maxRecDepth 16384

noncomputable section

namespace Cert.KernelIdeal.FrHost

open Idealize.ShloMosaic Idealize.ShloMosaic.TcCoe Idealize.ShloMosaic.StableHlo
open Idealize.SL Idealize.SL.Sem
open Cert.KernelIdeal Cert.KernelIdeal.Gen

variable (W : Valuation τ sig (Elt Ideal))

set_option maxHeartbeats 1000000 in
/-- What the window's stretches leave, read at the buffers the later windows use. -/
theorem step11 (R : Valuation τ sig (Elt Ideal))
    (hR : R = after hostOps0_77 (after hostOps0_76 (after hostOps0_75 (after hostOps0_74 (after hostOps0_73 (after hostOps0_72 (after hostOps0_71 (after hostOps0_70 (W))))))))) :
    R (no_index (Proc.devRef .tc main_v113)) = Spec.stepH (W (Proc.devRef .tc main_v16)) (W (Proc.devRef .tc main_v103))
    ∧ R (no_index (Proc.devRef .tc main_v116)) = Spec.stepB (W (Proc.devRef .tc main_v18)) (W (Proc.devRef .tc main_v106))
    ∧ R (no_index (Proc.devRef .tc main_v117)) = Spec.idsSel (Spec.stepB (W (Proc.devRef .tc main_v18)) (W (Proc.devRef .tc main_v106))) (Spec.stepH (W (Proc.devRef .tc main_v16)) (W (Proc.devRef .tc main_v103))) := by
  subst hR
  simp only [hostOps0_70, hostOps0_71, hostOps0_72, hostOps0_73, hostOps0_74, hostOps0_75, hostOps0_76, hostOps0_77]
  refine ⟨?_, ?_, ?_⟩ <;> after_results_simp <;> rfl

end Cert.KernelIdeal.FrHost

end
-- ==== Proof.KI.HostStep12.lean ====
import proofs.«175239_j73718818668652_1_alg».proof.Proof.Gen.KernelIdeal.Launch
import Idealize.ShloMosaic.Lib.StableHlo.Run
import proofs.«175239_j73718818668652_1_alg».proof.Proof.Spec.Ids

set_option maxRecDepth 16384

noncomputable section

namespace Cert.KernelIdeal.FrHost

open Idealize.ShloMosaic Idealize.ShloMosaic.TcCoe Idealize.ShloMosaic.StableHlo
open Idealize.SL Idealize.SL.Sem
open Cert.KernelIdeal Cert.KernelIdeal.Gen

variable (W : Valuation τ sig (Elt Ideal))

set_option maxHeartbeats 1000000 in
/-- What the window's stretches leave, read at the buffers the later windows use. -/
theorem step12 (R : Valuation τ sig (Elt Ideal))
    (hR : R = after hostOps0_85 (after hostOps0_84 (after hostOps0_83 (after hostOps0_82 (after hostOps0_81 (after hostOps0_80 (after hostOps0_79 (after hostOps0_78 (W))))))))) :
    R (no_index (Proc.devRef .tc main_v123)) = Spec.stepH (W (Proc.devRef .tc main_v16)) (W (Proc.devRef .tc main_v113))
    ∧ R (no_index (Proc.devRef .tc main_v126)) = Spec.stepB (W (Proc.devRef .tc main_v18)) (W (Proc.devRef .tc main_v116))
    ∧ R (no_index (Proc.devRef .tc main_v127)) = Spec.idsSel (Spec.stepB (W (Proc.devRef .tc main_v18)) (W (Proc.devRef .tc main_v116))) (Spec.stepH (W (Proc.devRef .tc main_v16)) (W (Proc.devRef .tc main_v113))) := by
  subst hR
  simp only [hostOps0_78, hostOps0_79, hostOps0_80, hostOps0_81, hostOps0_82, hostOps0_83, hostOps0_84, hostOps0_85]
  refine ⟨?_, ?_, ?_⟩ <;> after_results_simp <;> rfl

end Cert.KernelIdeal.FrHost

end
-- ==== Proof.KI.HostStep13.lean ====
import proofs.«175239_j73718818668652_1_alg».proof.Proof.Gen.KernelIdeal.Launch
import Idealize.ShloMosaic.Lib.StableHlo.Run
import proofs.«175239_j73718818668652_1_alg».proof.Proof.Spec.Ids

set_option maxRecDepth 16384

noncomputable section

namespace Cert.KernelIdeal.FrHost

open Idealize.ShloMosaic Idealize.ShloMosaic.TcCoe Idealize.ShloMosaic.StableHlo
open Idealize.SL Idealize.SL.Sem
open Cert.KernelIdeal Cert.KernelIdeal.Gen

variable (W : Valuation τ sig (Elt Ideal))

set_option maxHeartbeats 1000000 in
/-- What the window's stretches leave, read at the buffers the later windows use. -/
theorem step13 (R : Valuation τ sig (Elt Ideal))
    (hR : R = after hostOps0_93 (after hostOps0_92 (after hostOps0_91 (after hostOps0_90 (after hostOps0_89 (after hostOps0_88 (after hostOps0_87 (after hostOps0_86 (W))))))))) :
    R (no_index (Proc.devRef .tc main_v133)) = Spec.stepH (W (Proc.devRef .tc main_v16)) (W (Proc.devRef .tc main_v123))
    ∧ R (no_index (Proc.devRef .tc main_v136)) = Spec.stepB (W (Proc.devRef .tc main_v18)) (W (Proc.devRef .tc main_v126))
    ∧ R (no_index (Proc.devRef .tc main_v137)) = Spec.idsSel (Spec.stepB (W (Proc.devRef .tc main_v18)) (W (Proc.devRef .tc main_v126))) (Spec.stepH (W (Proc.devRef .tc main_v16)) (W (Proc.devRef .tc main_v123))) := by
  subst hR
  simp only [hostOps0_86, hostOps0_87, hostOps0_88, hostOps0_89, hostOps0_90, hostOps0_91, hostOps0_92, hostOps0_93]
  refine ⟨?_, ?_, ?_⟩ <;> after_results_simp <;> rfl

end Cert.KernelIdeal.FrHost

end
-- ==== Proof.KI.HostStep14.lean ====
import proofs.«175239_j73718818668652_1_alg».proof.Proof.Gen.KernelIdeal.Launch
import Idealize.ShloMosaic.Lib.StableHlo.Run
import proofs.«175239_j73718818668652_1_alg».proof.Proof.Spec.Ids

set_option maxRecDepth 16384

noncomputable section

namespace Cert.KernelIdeal.FrHost

open Idealize.ShloMosaic Idealize.ShloMosaic.TcCoe Idealize.ShloMosaic.StableHlo
open Idealize.SL Idealize.SL.Sem
open Cert.KernelIdeal Cert.KernelIdeal.Gen

variable (W : Valuation τ sig (Elt Ideal))

set_option maxHeartbeats 1000000 in
/-- What the window's stretches leave, read at the buffers the later windows use. -/
theorem step14 (R : Valuation τ sig (Elt Ideal))
    (hR : R = after hostOps0_101 (after hostOps0_100 (after hostOps0_99 (after hostOps0_98 (after hostOps0_97 (after hostOps0_96 (after hostOps0_95 (after hostOps0_94 (W))))))))) :
    R (no_index (Proc.devRef .tc main_v143)) = Spec.stepH (W (Proc.devRef .tc main_v16)) (W (Proc.devRef .tc main_v133))
    ∧ R (no_index (Proc.devRef .tc main_v146)) = Spec.stepB (W (Proc.devRef .tc main_v18)) (W (Proc.devRef .tc main_v136))
    ∧ R (no_index (Proc.devRef .tc main_v147)) = Spec.idsSel (Spec.stepB (W (Proc.devRef .tc main_v18)) (W (Proc.devRef .tc main_v136))) (Spec.stepH (W (Proc.devRef .tc main_v16)) (W (Proc.devRef .tc main_v133))) := by
  subst hR
  simp only [hostOps0_94, hostOps0_95, hostOps0_96, hostOps0_97, hostOps0_98, hostOps0_99, hostOps0_100, hostOps0_101]
  refine ⟨?_, ?_, ?_⟩ <;> after_results_simp <;> rfl

end Cert.KernelIdeal.FrHost

end
-- ==== Proof.KI.HostStep15.lean ====
import proofs.«175239_j73718818668652_1_alg».proof.Proof.Gen.KernelIdeal.Launch
import Idealize.ShloMosaic.Lib.StableHlo.Run
import proofs.«175239_j73718818668652_1_alg».proof.Proof.Spec.Ids

set_option maxRecDepth 16384

noncomputable section

namespace Cert.KernelIdeal.FrHost

open Idealize.ShloMosaic Idealize.ShloMosaic.TcCoe Idealize.ShloMosaic.StableHlo
open Idealize.SL Idealize.SL.Sem
open Cert.KernelIdeal Cert.KernelIdeal.Gen

variable (W : Valuation τ sig (Elt Ideal))

set_option maxHeartbeats 1000000 in
/-- What the window's stretches leave, read at the buffers the later windows use. -/
theorem step15 (R : Valuation τ sig (Elt Ideal))
    (hR : R = after hostOps0_109 (after hostOps0_108 (after hostOps0_107 (after hostOps0_106 (after hostOps0_105 (after hostOps0_104 (after hostOps0_103 (after hostOps0_102 (W))))))))) :
    R (no_index (Proc.devRef .tc main_v153)) = Spec.stepH (W (Proc.devRef .tc main_v16)) (W (Proc.devRef .tc main_v143))
    ∧ R (no_index (Proc.devRef .tc main_v156)) = Spec.stepB (W (Proc.devRef .tc main_v18)) (W (Proc.devRef .tc main_v146))
    ∧ R (no_index (Proc.devRef .tc main_v157)) = Spec.idsSel (Spec.stepB (W (Proc.devRef .tc main_v18)) (W (Proc.devRef .tc main_v146))) (Spec.stepH (W (Proc.devRef .tc main_v16)) (W (Proc.devRef .tc main_v143))) := by
  subst hR
  simp only [hostOps0_102, hostOps0_103, hostOps0_104, hostOps0_105, hostOps0_106, hostOps0_107, hostOps0_108, hostOps0_109]
  refine ⟨?_, ?_, ?_⟩ <;> after_results_simp <;> rfl

end Cert.KernelIdeal.FrHost

end
-- ==== Proof.KI.HostStep16.lean ====
import proofs.«175239_j73718818668652_1_alg».proof.Proof.Gen.KernelIdeal.Launch
import Idealize.ShloMosaic.Lib.StableHlo.Run
import proofs.«175239_j73718818668652_1_alg».proof.Proof.Spec.Ids

set_option maxRecDepth 16384

noncomputable section

namespace Cert.KernelIdeal.FrHost

open Idealize.ShloMosaic Idealize.ShloMosaic.TcCoe Idealize.ShloMosaic.StableHlo
open Idealize.SL Idealize.SL.Sem
open Cert.KernelIdeal Cert.KernelIdeal.Gen

variable (W : Valuation τ sig (Elt Ideal))

set_option maxHeartbeats 1000000 in
/-- What the window's stretches leave, read at the buffers the later windows use. -/
theorem step16 (R : Valuation τ sig (Elt Ideal))
    (hR : R = after hostOps0_117 (after hostOps0_116 (after hostOps0_115 (after hostOps0_114 (after hostOps0_113 (after hostOps0_112 (after hostOps0_111 (after hostOps0_110 (W))))))))) :
    R (no_index (Proc.devRef .tc main_v163)) = Spec.stepH (W (Proc.devRef .tc main_v16)) (W (Proc.devRef .tc main_v153))
    ∧ R (no_index (Proc.devRef .tc main_v166)) = Spec.stepB (W (Proc.devRef .tc main_v18)) (W (Proc.devRef .tc main_v156))
    ∧ R (no_index (Proc.devRef .tc main_v167)) = Spec.idsSel (Spec.stepB (W (Proc.devRef .tc main_v18)) (W (Proc.devRef .tc main_v156))) (Spec.stepH (W (Proc.devRef .tc main_v16)) (W (Proc.devRef .tc main_v153))) := by
  subst hR
  simp only [hostOps0_110, hostOps0_111, hostOps0_112, hostOps0_113, hostOps0_114, hostOps0_115, hostOps0_116, hostOps0_117]
  refine ⟨?_, ?_, ?_⟩ <;> after_results_simp <;> rfl

end Cert.KernelIdeal.FrHost

end
-- ==== Proof.KI.HostStep17.lean ====
import proofs.«175239_j73718818668652_1_alg».proof.Proof.Gen.KernelIdeal.Launch
import Idealize.ShloMosaic.Lib.StableHlo.Run
import proofs.«175239_j73718818668652_1_alg».proof.Proof.Spec.Ids

set_option maxRecDepth 16384

noncomputable section

namespace Cert.KernelIdeal.FrHost

open Idealize.ShloMosaic Idealize.ShloMosaic.TcCoe Idealize.ShloMosaic.StableHlo
open Idealize.SL Idealize.SL.Sem
open Cert.KernelIdeal Cert.KernelIdeal.Gen

variable (W : Valuation τ sig (Elt Ideal))

set_option maxHeartbeats 1000000 in
/-- What the window's stretches leave, read at the buffers the later windows use. -/
theorem step17 (R : Valuation τ sig (Elt Ideal))
    (hR : R = after hostOps0_125 (after hostOps0_124 (after hostOps0_123 (after hostOps0_122 (after hostOps0_121 (after hostOps0_120 (after hostOps0_119 (after hostOps0_118 (W))))))))) :
    R (no_index (Proc.devRef .tc main_v173)) = Spec.stepH (W (Proc.devRef .tc main_v16)) (W (Proc.devRef .tc main_v163))
    ∧ R (no_index (Proc.devRef .tc main_v176)) = Spec.stepB (W (Proc.devRef .tc main_v18)) (W (Proc.devRef .tc main_v166))
    ∧ R (no_index (Proc.devRef .tc main_v177)) = Spec.idsSel (Spec.stepB (W (Proc.devRef .tc main_v18)) (W (Proc.devRef .tc main_v166))) (Spec.stepH (W (Proc.devRef .tc main_v16)) (W (Proc.devRef .tc main_v163))) := by
  subst hR
  simp only [hostOps0_118, hostOps0_119, hostOps0_120, hostOps0_121, hostOps0_122, hostOps0_123, hostOps0_124, hostOps0_125]
  refine ⟨?_, ?_, ?_⟩ <;> after_results_simp <;> rfl

end Cert.KernelIdeal.FrHost

end
-- ==== Proof.KI.HostStep18.lean ====
import proofs.«175239_j73718818668652_1_alg».proof.Proof.Gen.KernelIdeal.Launch
import Idealize.ShloMosaic.Lib.StableHlo.Run
import proofs.«175239_j73718818668652_1_alg».proof.Proof.Spec.Ids

set_option maxRecDepth 16384

noncomputable section

namespace Cert.KernelIdeal.FrHost

open Idealize.ShloMosaic Idealize.ShloMosaic.TcCoe Idealize.ShloMosaic.StableHlo
open Idealize.SL Idealize.SL.Sem
open Cert.KernelIdeal Cert.KernelIdeal.Gen

variable (W : Valuation τ sig (Elt Ideal))

set_option maxHeartbeats 1000000 in
/-- What the window's stretches leave, read at the buffers the later windows use. -/
theorem step18 (R : Valuation τ sig (Elt Ideal))
    (hR : R = after hostOps0_133 (after hostOps0_132 (after hostOps0_131 (after hostOps0_130 (after hostOps0_129 (after hostOps0_128 (after hostOps0_127 (after hostOps0_126 (W))))))))) :
    R (no_index (Proc.devRef .tc main_v183)) = Spec.stepH (W (Proc.devRef .tc main_v16)) (W (Proc.devRef .tc main_v173))
    ∧ R (no_index (Proc.devRef .tc main_v186)) = Spec.stepB (W (Proc.devRef .tc main_v18)) (W (Proc.devRef .tc main_v176))
    ∧ R (no_index (Proc.devRef .tc main_v187)) = Spec.idsSel (Spec.stepB (W (Proc.devRef .tc main_v18)) (W (Proc.devRef .tc main_v176))) (Spec.stepH (W (Proc.devRef .tc main_v16)) (W (Proc.devRef .tc main_v173))) := by
  subst hR
  simp only [hostOps0_126, hostOps0_127, hostOps0_128, hostOps0_129, hostOps0_130, hostOps0_131, hostOps0_132, hostOps0_133]
  refine ⟨?_, ?_, ?_⟩ <;> after_results_simp <;> rfl

end Cert.KernelIdeal.FrHost

end
-- ==== Proof.KI.HostStep19.lean ====
import proofs.«175239_j73718818668652_1_alg».proof.Proof.Gen.KernelIdeal.Launch
import Idealize.ShloMosaic.Lib.StableHlo.Run
import proofs.«175239_j73718818668652_1_alg».proof.Proof.Spec.Ids

set_option maxRecDepth 16384

noncomputable section

namespace Cert.KernelIdeal.FrHost

open Idealize.ShloMosaic Idealize.ShloMosaic.TcCoe Idealize.ShloMosaic.StableHlo
open Idealize.SL Idealize.SL.Sem
open Cert.KernelIdeal Cert.KernelIdeal.Gen

variable (W : Valuation τ sig (Elt Ideal))

set_option maxHeartbeats 1000000 in
/-- What the window's stretches leave, read at the buffers the later windows use. -/
theorem step19 (R : Valuation τ sig (Elt Ideal))
    (hR : R = after hostOps0_141 (after hostOps0_140 (after hostOps0_139 (after hostOps0_138 (after hostOps0_137 (after hostOps0_136 (after hostOps0_135 (after hostOps0_134 (W))))))))) :
    R (no_index (Proc.devRef .tc main_v193)) = Spec.stepH (W (Proc.devRef .tc main_v16)) (W (Proc.devRef .tc main_v183))
    ∧ R (no_index (Proc.devRef .tc main_v196)) = Spec.stepB (W (Proc.devRef .tc main_v18)) (W (Proc.devRef .tc main_v186))
    ∧ R (no_index (Proc.devRef .tc main_v197)) = Spec.idsSel (Spec.stepB (W (Proc.devRef .tc main_v18)) (W (Proc.devRef .tc main_v186))) (Spec.stepH (W (Proc.devRef .tc main_v16)) (W (Proc.devRef .tc main_v183))) := by
  subst hR
  simp only [hostOps0_134, hostOps0_135, hostOps0_136, hostOps0_137, hostOps0_138, hostOps0_139, hostOps0_140, hostOps0_141]
  refine ⟨?_, ?_, ?_⟩ <;> after_results_simp <;> rfl

end Cert.KernelIdeal.FrHost

end
-- ==== Proof.KI.HostStep20.lean ====
import proofs.«175239_j73718818668652_1_alg».proof.Proof.Gen.KernelIdeal.Launch
import Idealize.ShloMosaic.Lib.StableHlo.Run
import proofs.«175239_j73718818668652_1_alg».proof.Proof.Spec.Ids

set_option maxRecDepth 16384

noncomputable section

namespace Cert.KernelIdeal.FrHost

open Idealize.ShloMosaic Idealize.ShloMosaic.TcCoe Idealize.ShloMosaic.StableHlo
open Idealize.SL Idealize.SL.Sem
open Cert.KernelIdeal Cert.KernelIdeal.Gen

variable (W : Valuation τ sig (Elt Ideal))

set_option maxHeartbeats 1000000 in
/-- What the window's stretches leave, read at the buffers the later windows use. -/
theorem step20 (R : Valuation τ sig (Elt Ideal))
    (hR : R = after hostOps0_149 (after hostOps0_148 (after hostOps0_147 (after hostOps0_146 (after hostOps0_145 (after hostOps0_144 (after hostOps0_143 (after hostOps0_142 (W))))))))) :
    R (no_index (Proc.devRef .tc main_v203)) = Spec.stepH (W (Proc.devRef .tc main_v16)) (W (Proc.devRef .tc main_v193))
    ∧ R (no_index (Proc.devRef .tc main_v206)) = Spec.stepB (W (Proc.devRef .tc main_v18)) (W (Proc.devRef .tc main_v196))
    ∧ R (no_index (Proc.devRef .tc main_v207)) = Spec.idsSel (Spec.stepB (W (Proc.devRef .tc main_v18)) (W (Proc.devRef .tc main_v196))) (Spec.stepH (W (Proc.devRef .tc main_v16)) (W (Proc.devRef .tc main_v193))) := by
  subst hR
  simp only [hostOps0_142, hostOps0_143, hostOps0_144, hostOps0_145, hostOps0_146, hostOps0_147, hostOps0_148, hostOps0_149]
  refine ⟨?_, ?_, ?_⟩ <;> after_results_simp <;> rfl

end Cert.KernelIdeal.FrHost

end
-- ==== Proof.KI.HostRec.lean ====
import proofs.«175239_j73718818668652_1_alg».proof.Proof.KI.HostArgs
import proofs.«175239_j73718818668652_1_alg».proof.Proof.KI.HostStepA
import proofs.«175239_j73718818668652_1_alg».proof.Proof.KI.HostStep02
import proofs.«175239_j73718818668652_1_alg».proof.Proof.KI.HostStep03
import proofs.«175239_j73718818668652_1_alg».proof.Proof.KI.HostStep04
import proofs.«175239_j73718818668652_1_alg».proof.Proof.KI.HostStep05
import proofs.«175239_j73718818668652_1_alg».proof.Proof.KI.HostStep06
import proofs.«175239_j73718818668652_1_alg».proof.Proof.KI.HostStep07
import proofs.«175239_j73718818668652_1_alg».proof.Proof.KI.HostStep08
import proofs.«175239_j73718818668652_1_alg».proof.Proof.KI.HostStep09
import proofs.«175239_j73718818668652_1_alg».proof.Proof.KI.HostStep10
import proofs.«175239_j73718818668652_1_alg».proof.Proof.KI.HostStep11
import proofs.«175239_j73718818668652_1_alg».proof.Proof.KI.HostStep12
import proofs.«175239_j73718818668652_1_alg».proof.Proof.KI.HostStep13
import proofs.«175239_j73718818668652_1_alg».proof.Proof.KI.HostStep14
import proofs.«175239_j73718818668652_1_alg».proof.Proof.KI.HostStep15
import proofs.«175239_j73718818668652_1_alg».proof.Proof.KI.HostStep16
import proofs.«175239_j73718818668652_1_alg».proof.Proof.KI.HostStep17
import proofs.«175239_j73718818668652_1_alg».proof.Proof.KI.HostStep18
import proofs.«175239_j73718818668652_1_alg».proof.Proof.KI.HostStep19
import proofs.«175239_j73718818668652_1_alg».proof.Proof.KI.HostStep20

set_option maxRecDepth 16384

noncomputable section

namespace Cert.KernelIdeal.FrHost

open Idealize.ShloMosaic Idealize.ShloMosaic.TcCoe Idealize.ShloMosaic.StableHlo
open Idealize.SL Idealize.SL.Sem
open Cert.KernelIdeal Cert.KernelIdeal.Gen Cert.KernelIdeal.Fr
open Cert.LibHostFold

variable (V0 : Valuation τ sig (Elt Ideal))

def val (n : ℕ) : Valuation τ sig (Elt Ideal) := valAt (stretches (F := Ideal)) V0 n

abbrev X : IVec Spec.S8x8192 32 := V0 (Proc.devRef .tc main_arg0)

theorem val_keep (n k : ℕ) (r : Ref sig .tc) (hr : ∀ W ∈ (Ws.drop n).take k, r ∉ W) :
    val V0 (n + k) (Proc.devRef .tc r) = val V0 n (Proc.devRef .tc r) :=
  valAt_keep (stretches (F := Ideal)) Ws Ws_ok V0 n k r hr

theorem val_end : val V0 153 = after (List.flatten (stretches (F := Ideal))) V0 :=
  valAt_of_length_le _ V0 153 (by decide)

theorem val1_safe : val V0 1 (no_index (Proc.devRef .tc main_v16)) = Spec.safe (X V0) :=
  (stepA (val V0 0) _ (valAt_succ _ V0 0 (by decide))).1
theorem val1_bad1 : val V0 1 (no_index (Proc.devRef .tc main_v18)) = Spec.bad1 (X V0) :=
  (stepA (val V0 0) _ (valAt_succ _ V0 0 (by decide))).2.1

theorem val_keep_from (n k : ℕ) (r : Ref sig .tc) (hr : ∀ W ∈ Ws.drop n, r ∉ W) :
    val V0 (n + k) (Proc.devRef .tc r) = val V0 n (Proc.devRef .tc r) :=
  val_keep V0 n k r fun W hW => hr W (List.mem_of_mem_take hW)

/-- Only the first stretch writes the codes, so every later state holds them. -/
theorem val_safe (n : ℕ) (h : 1 ≤ n := by decide) : val V0 n (no_index (Proc.devRef .tc main_v16)) = Spec.safe (X V0) := by
  obtain ⟨k, rfl⟩ := Nat.exists_eq_add_of_le h
  exact (val_keep_from V0 1 k main_v16 (by decide)).trans (val1_safe V0)

/-- Likewise the codes' mask. -/
theorem val_bad1 (n : ℕ) (h : 1 ≤ n := by decide) : val V0 n (no_index (Proc.devRef .tc main_v18)) = Spec.bad1 (X V0) := by
  obtain ⟨k, rfl⟩ := Nat.exists_eq_add_of_le h
  exact (val_keep_from V0 1 k main_v18 (by decide)).trans (val1_bad1 V0)

theorem val1_cut : val V0 1 (no_index (Proc.devRef .tc main_v19)) = cutLast (Spec.safe (X V0)) :=
  (stepA (val V0 0) _ (valAt_succ _ V0 0 (by decide))).2.2.1
theorem val1_zero : val V0 1 (no_index (Proc.devRef .tc main_c_8)) = constantI Spec.S_ 32 0#32 :=
  (stepA (val V0 0) _ (valAt_succ _ V0 0 (by decide))).2.2.2

theorem val6_H : val V0 6 (no_index (Proc.devRef .tc main_v24)) = Spec.H 2 (X V0) :=
  ((step2 (val V0 1) _ (valAt_add _ V0 1 5)).1).trans (by rw [val1_zero V0, val1_cut V0, val1_safe V0]; rfl)
theorem val6_Bshift : val V0 6 (no_index (Proc.devRef .tc main_v26)) = Spec.shift (constantI Spec.S_ 1 1#1) (Spec.bad1 (X V0)) :=
  ((step2 (val V0 1) _ (valAt_add _ V0 1 5)).2).trans (by rw [val1_bad1 V0])

theorem val14_H : val V0 14 (no_index (Proc.devRef .tc main_v33)) = Spec.H 3 (X V0) :=
  ((step3 (val V0 6) _ (valAt_add _ V0 6 8)).1).trans (by rw [val_safe V0 6, val6_H V0]; rfl)
theorem val14_B : val V0 14 (no_index (Proc.devRef .tc main_v36)) = Spec.B 3 (X V0) :=
  ((step3 (val V0 6) _ (valAt_add _ V0 6 8)).2.1).trans (by rw [val_bad1 V0 6, val6_Bshift V0]; rfl)
theorem val14_ids : val V0 14 (no_index (Proc.devRef .tc main_v37)) = Spec.ids 3 (X V0) :=
  ((step3 (val V0 6) _ (valAt_add _ V0 6 8)).2.2).trans (by rw [val_safe V0 6, val_bad1 V0 6, val6_H V0, val6_Bshift V0]; rfl)

theorem val22_H : val V0 22 (no_index (Proc.devRef .tc main_v43)) = Spec.H 4 (X V0) :=
  ((step4 (val V0 14) _ (valAt_add _ V0 14 8)).1).trans (by rw [val_safe V0 14, val14_H V0]; rfl)
theorem val22_B : val V0 22 (no_index (Proc.devRef .tc main_v46)) = Spec.B 4 (X V0) :=
  ((step4 (val V0 14) _ (valAt_add _ V0 14 8)).2.1).trans (by rw [val_bad1 V0 14, val14_B V0]; rfl)
theorem val22_ids : val V0 22 (no_index (Proc.devRef .tc main_v47)) = Spec.ids 4 (X V0) :=
  ((step4 (val V0 14) _ (valAt_add _ V0 14 8)).2.2).trans (by rw [val_safe V0 14, val_bad1 V0 14, val14_H V0, val14_B V0]; rfl)

theorem val30_H : val V0 30 (no_index (Proc.devRef .tc main_v53)) = Spec.H 5 (X V0) :=
  ((step5 (val V0 22) _ (valAt_add _ V0 22 8)).1).trans (by rw [val_safe V0 22, val22_H V0]; rfl)
theorem val30_B : val V0 30 (no_index (Proc.devRef .tc main_v56)) = Spec.B 5 (X V0) :=
  ((step5 (val V0 22) _ (valAt_add _ V0 22 8)).2.1).trans (by rw [val_bad1 V0 22, val22_B V0]; rfl)
theorem val30_ids : val V0 30 (no_index (Proc.devRef .tc main_v57)) = Spec.ids 5 (X V0) :=
  ((step5 (val V0 22) _ (valAt_add _ V0 22 8)).2.2).trans (by rw [val_safe V0 22, val_bad1 V0 22, val22_H V0, val22_B V0]; rfl)

theorem val38_H : val V0 38 (no_index (Proc.devRef .tc main_v63)) = Spec.H 6 (X V0) :=
  ((step6 (val V0 30) _ (valAt_add _ V0 30 8)).1).trans (by rw [val_safe V0 30, val30_H V0]; rfl)
theorem val38_B : val V0 38 (no_index (Proc.devRef .tc main_v66)) = Spec.B 6 (X V0) :=
  ((step6 (val V0 30) _ (valAt_add _ V0 30 8)).2.1).trans (by rw [val_bad1 V0 30, val30_B V0]; rfl)
theorem val38_ids : val V0 38 (no_index (Proc.devRef .tc main_v67)) = Spec.ids 6 (X V0) :=
  ((step6 (val V0 30) _ (valAt_add _ V0 30 8)).2.2).trans (by rw [val_safe V0 30, val_bad1 V0 30, val30_H V0, val30_B V0]; rfl)

theorem val46_H : val V0 46 (no_index (Proc.devRef .tc main_v73)) = Spec.H 7 (X V0) :=
  ((step7 (val V0 38) _ (valAt_add _ V0 38 8)).1).trans (by rw [val_safe V0 38, val38_H V0]; rfl)
theorem val46_B : val V0 46 (no_index (Proc.devRef .tc main_v76)) = Spec.B 7 (X V0) :=
  ((step7 (val V0 38) _ (valAt_add _ V0 38 8)).2.1).trans (by rw [val_bad1 V0 38, val38_B V0]; rfl)
theorem val46_ids : val V0 46 (no_index (Proc.devRef .tc main_v77)) = Spec.ids 7 (X V0) :=
  ((step7 (val V0 38) _ (valAt_add _ V0 38 8)).2.2).trans (by rw [val_safe V0 38, val_bad1 V0 38, val38_H V0, val38_B V0]; rfl)

theorem val54_H : val V0 54 (no_index (Proc.devRef .tc main_v83)) = Spec.H 8 (X V0) :=
  ((step8 (val V0 46) _ (valAt_add _ V0 46 8)).1).trans (by rw [val_safe V0 46, val46_H V0]; rfl)
theorem val54_B : val V0 54 (no_index (Proc.devRef .tc main_v86)) = Spec.B 8 (X V0) :=
  ((step8 (val V0 46) _ (valAt_add _ V0 46 8)).2.1).trans (by rw [val_bad1 V0 46, val46_B V0]; rfl)
theorem val54_ids : val V0 54 (no_index (Proc.devRef .tc main_v87)) = Spec.ids 8 (X V0) :=
  ((step8 (val V0 46) _ (valAt_add _ V0 46 8)).2.2).trans (by rw [val_safe V0 46, val_bad1 V0 46, val46_H V0, val46_B V0]; rfl)

theorem val62_H : val V0 62 (no_index (Proc.devRef .tc main_v93)) = Spec.H 9 (X V0) :=
  ((step9 (val V0 54) _ (valAt_add _ V0 54 8)).1).trans (by rw [val_safe V0 54, val54_H V0]; rfl)
theorem val62_B : val V0 62 (no_index (Proc.devRef .tc main_v96)) = Spec.B 9 (X V0) :=
  ((step9 (val V0 54) _ (valAt_add _ V0 54 8)).2.1).trans (by rw [val_bad1 V0 54, val54_B V0]; rfl)
theorem val62_ids : val V0 62 (no_index (Proc.devRef .tc main_v97)) = Spec.ids 9 (X V0) :=
  ((step9 (val V0 54) _ (valAt_add _ V0 54 8)).2.2).trans (by rw [val_safe V0 54, val_bad1 V0 54, val54_H V0, val54_B V0]; rfl)

theorem val70_H : val V0 70 (no_index (Proc.devRef .tc main_v103)) = Spec.H 10 (X V0) :=
  ((step10 (val V0 62) _ (valAt_add _ V0 62 8)).1).trans (by rw [val_safe V0 62, val62_H V0]; rfl)
theorem val70_B : val V0 70 (no_index (Proc.devRef .tc main_v106)) = Spec.B 10 (X V0) :=
  ((step10 (val V0 62) _ (valAt_add _ V0 62 8)).2.1).trans (by rw [val_bad1 V0 62, val62_B V0]; rfl)
theorem val70_ids : val V0 70 (no_index (Proc.devRef .tc main_v107)) = Spec.ids 10 (X V0) :=
  ((step10 (val V0 62) _ (valAt_add _ V0 62 8)).2.2).trans (by rw [val_safe V0 62, val_bad1 V0 62, val62_H V0, val62_B V0]; rfl)

theorem val78_H : val V0 78 (no_index (Proc.devRef .tc main_v113)) = Spec.H 11 (X V0) :=
  ((step11 (val V0 70) _ (valAt_add _ V0 70 8)).1).trans (by rw [val_safe V0 70, val70_H V0]; rfl)
theorem val78_B : val V0 78 (no_index (Proc.devRef .tc main_v116)) = Spec.B 11 (X V0) :=
  ((step11 (val V0 70) _ (valAt_add _ V0 70 8)).2.1).trans (by rw [val_bad1 V0 70, val70_B V0]; rfl)
theorem val78_ids : val V0 78 (no_index (Proc.devRef .tc main_v117)) = Spec.ids 11 (X V0) :=
  ((step11 (val V0 70) _ (valAt_add _ V0 70 8)).2.2).trans (by rw [val_safe V0 70, val_bad1 V0 70, val70_H V0, val70_B V0]; rfl)

theorem val86_H : val V0 86 (no_index (Proc.devRef .tc main_v123)) = Spec.H 12 (X V0) :=
  ((step12 (val V0 78) _ (valAt_add _ V0 78 8)).1).trans (by rw [val_safe V0 78, val78_H V0]; rfl)
theorem val86_B : val V0 86 (no_index (Proc.devRef .tc main_v126)) = Spec.B 12 (X V0) :=
  ((step12 (val V0 78) _ (valAt_add _ V0 78 8)).2.1).trans (by rw [val_bad1 V0 78, val78_B V0]; rfl)
theorem val86_ids : val V0 86 (no_index (Proc.devRef .tc main_v127)) = Spec.ids 12 (X V0) :=
  ((step12 (val V0 78) _ (valAt_add _ V0 78 8)).2.2).trans (by rw [val_safe V0 78, val_bad1 V0 78, val78_H V0, val78_B V0]; rfl)

theorem val94_H : val V0 94 (no_index (Proc.devRef .tc main_v133)) = Spec.H 13 (X V0) :=
  ((step13 (val V0 86) _ (valAt_add _ V0 86 8)).1).trans (by rw [val_safe V0 86, val86_H V0]; rfl)
theorem val94_B : val V0 94 (no_index (Proc.devRef .tc main_v136)) = Spec.B 13 (X V0) :=
  ((step13 (val V0 86) _ (valAt_add _ V0 86 8)).2.1).trans (by rw [val_bad1 V0 86, val86_B V0]; rfl)
theorem val94_ids : val V0 94 (no_index (Proc.devRef .tc main_v137)) = Spec.ids 13 (X V0) :=
  ((step13 (val V0 86) _ (valAt_add _ V0 86 8)).2.2).trans (by rw [val_safe V0 86, val_bad1 V0 86, val86_H V0, val86_B V0]; rfl)

theorem val102_H : val V0 102 (no_index (Proc.devRef .tc main_v143)) = Spec.H 14 (X V0) :=
  ((step14 (val V0 94) _ (valAt_add _ V0 94 8)).1).trans (by rw [val_safe V0 94, val94_H V0]; rfl)
theorem val102_B : val V0 102 (no_index (Proc.devRef .tc main_v146)) = Spec.B 14 (X V0) :=
  ((step14 (val V0 94) _ (valAt_add _ V0 94 8)).2.1).trans (by rw [val_bad1 V0 94, val94_B V0]; rfl)
theorem val102_ids : val V0 102 (no_index (Proc.devRef .tc main_v147)) = Spec.ids 14 (X V0) :=
  ((step14 (val V0 94) _ (valAt_add _ V0 94 8)).2.2).trans (by rw [val_safe V0 94, val_bad1 V0 94, val94_H V0, val94_B V0]; rfl)

theorem val110_H : val V0 110 (no_index (Proc.devRef .tc main_v153)) = Spec.H 15 (X V0) :=
  ((step15 (val V0 102) _ (valAt_add _ V0 102 8)).1).trans (by rw [val_safe V0 102, val102_H V0]; rfl)
theorem val110_B : val V0 110 (no_index (Proc.devRef .tc main_v156)) = Spec.B 15 (X V0) :=
  ((step15 (val V0 102) _ (valAt_add _ V0 102 8)).2.1).trans (by rw [val_bad1 V0 102, val102_B V0]; rfl)
theorem val110_ids : val V0 110 (no_index (Proc.devRef .tc main_v157)) = Spec.ids 15 (X V0) :=
  ((step15 (val V0 102) _ (valAt_add _ V0 102 8)).2.2).trans (by rw [val_safe V0 102, val_bad1 V0 102, val102_H V0, val102_B V0]; rfl)

theorem val118_H : val V0 118 (no_index (Proc.devRef .tc main_v163)) = Spec.H 16 (X V0) :=
  ((step16 (val V0 110) _ (valAt_add _ V0 110 8)).1).trans (by rw [val_safe V0 110, val110_H V0]; rfl)
theorem val118_B : val V0 118 (no_index (Proc.devRef .tc main_v166)) = Spec.B 16 (X V0) :=
  ((step16 (val V0 110) _ (valAt_add _ V0 110 8)).2.1).trans (by rw [val_bad1 V0 110, val110_B V0]; rfl)
theorem val118_ids : val V0 118 (no_index (Proc.devRef .tc main_v167)) = Spec.ids 16 (X V0) :=
  ((step16 (val V0 110) _ (valAt_add _ V0 110 8)).2.2).trans (by rw [val_safe V0 110, val_bad1 V0 110, val110_H V0, val110_B V0]; rfl)

theorem val126_H : val V0 126 (no_index (Proc.devRef .tc main_v173)) = Spec.H 17 (X V0) :=
  ((step17 (val V0 118) _ (valAt_add _ V0 118 8)).1).trans (by rw [val_safe V0 118, val118_H V0]; rfl)
theorem val126_B : val V0 126 (no_index (Proc.devRef .tc main_v176)) = Spec.B 17 (X V0) :=
  ((step17 (val V0 118) _ (valAt_add _ V0 118 8)).2.1).trans (by rw [val_bad1 V0 118, val118_B V0]; rfl)
theorem val126_ids : val V0 126 (no_index (Proc.devRef .tc main_v177)) = Spec.ids 17 (X V0) :=
  ((step17 (val V0 118) _ (valAt_add _ V0 118 8)).2.2).trans (by rw [val_safe V0 118, val_bad1 V0 118, val118_H V0, val118_B V0]; rfl)

theorem val134_H : val V0 134 (no_index (Proc.devRef .tc main_v183)) = Spec.H 18 (X V0) :=
  ((step18 (val V0 126) _ (valAt_add _ V0 126 8)).1).trans (by rw [val_safe V0 126, val126_H V0]; rfl)
theorem val134_B : val V0 134 (no_index (Proc.devRef .tc main_v186)) = Spec.B 18 (X V0) :=
  ((step18 (val V0 126) _ (valAt_add _ V0 126 8)).2.1).trans (by rw [val_bad1 V0 126, val126_B V0]; rfl)
theorem val134_ids : val V0 134 (no_index (Proc.devRef .tc main_v187)) = Spec.ids 18 (X V0) :=
  ((step18 (val V0 126) _ (valAt_add _ V0 126 8)).2.2).trans (by rw [val_safe V0 126, val_bad1 V0 126, val126_H V0, val126_B V0]; rfl)

theorem val142_H : val V0 142 (no_index (Proc.devRef .tc main_v193)) = Spec.H 19 (X V0) :=
  ((step19 (val V0 134) _ (valAt_add _ V0 134 8)).1).trans (by rw [val_safe V0 134, val134_H V0]; rfl)
theorem val142_B : val V0 142 (no_index (Proc.devRef .tc main_v196)) = Spec.B 19 (X V0) :=
  ((step19 (val V0 134) _ (valAt_add _ V0 134 8)).2.1).trans (by rw [val_bad1 V0 134, val134_B V0]; rfl)
theorem val142_ids : val V0 142 (no_index (Proc.devRef .tc main_v197)) = Spec.ids 19 (X V0) :=
  ((step19 (val V0 134) _ (valAt_add _ V0 134 8)).2.2).trans (by rw [val_safe V0 134, val_bad1 V0 134, val134_H V0, val134_B V0]; rfl)

theorem val150_H : val V0 150 (no_index (Proc.devRef .tc main_v203)) = Spec.H 20 (X V0) :=
  ((step20 (val V0 142) _ (valAt_add _ V0 142 8)).1).trans (by rw [val_safe V0 142, val142_H V0]; rfl)
theorem val150_B : val V0 150 (no_index (Proc.devRef .tc main_v206)) = Spec.B 20 (X V0) :=
  ((step20 (val V0 142) _ (valAt_add _ V0 142 8)).2.1).trans (by rw [val_bad1 V0 142, val142_B V0]; rfl)
theorem val150_ids : val V0 150 (no_index (Proc.devRef .tc main_v207)) = Spec.ids 20 (X V0) :=
  ((step20 (val V0 142) _ (valAt_add _ V0 142 8)).2.2).trans (by rw [val_safe V0 142, val_bad1 V0 142, val142_H V0, val142_B V0]; rfl)

theorem val150_ids3 : val V0 150 (no_index (Proc.devRef .tc main_v37)) = Spec.ids 3 (X V0) :=
  (val_keep V0 14 136 main_v37 (by decide)).trans (val14_ids V0)

theorem val150_ids4 : val V0 150 (no_index (Proc.devRef .tc main_v47)) = Spec.ids 4 (X V0) :=
  (val_keep V0 22 128 main_v47 (by decide)).trans (val22_ids V0)

theorem val150_ids5 : val V0 150 (no_index (Proc.devRef .tc main_v57)) = Spec.ids 5 (X V0) :=
  (val_keep V0 30 120 main_v57 (by decide)).trans (val30_ids V0)

theorem val150_ids6 : val V0 150 (no_index (Proc.devRef .tc main_v67)) = Spec.ids 6 (X V0) :=
  (val_keep V0 38 112 main_v67 (by decide)).trans (val38_ids V0)

theorem val150_ids7 : val V0 150 (no_index (Proc.devRef .tc main_v77)) = Spec.ids 7 (X V0) :=
  (val_keep V0 46 104 main_v77 (by decide)).trans (val46_ids V0)

theorem val150_ids8 : val V0 150 (no_index (Proc.devRef .tc main_v87)) = Spec.ids 8 (X V0) :=
  (val_keep V0 54 96 main_v87 (by decide)).trans (val54_ids V0)

theorem val150_ids9 : val V0 150 (no_index (Proc.devRef .tc main_v97)) = Spec.ids 9 (X V0) :=
  (val_keep V0 62 88 main_v97 (by decide)).trans (val62_ids V0)

theorem val150_ids10 : val V0 150 (no_index (Proc.devRef .tc main_v107)) = Spec.ids 10 (X V0) :=
  (val_keep V0 70 80 main_v107 (by decide)).trans (val70_ids V0)

theorem val150_ids11 : val V0 150 (no_index (Proc.devRef .tc main_v117)) = Spec.ids 11 (X V0) :=
  (val_keep V0 78 72 main_v117 (by decide)).trans (val78_ids V0)

theorem val150_ids12 : val V0 150 (no_index (Proc.devRef .tc main_v127)) = Spec.ids 12 (X V0) :=
  (val_keep V0 86 64 main_v127 (by decide)).trans (val86_ids V0)

theorem val150_ids13 : val V0 150 (no_index (Proc.devRef .tc main_v137)) = Spec.ids 13 (X V0) :=
  (val_keep V0 94 56 main_v137 (by decide)).trans (val94_ids V0)

theorem val150_ids14 : val V0 150 (no_index (Proc.devRef .tc main_v147)) = Spec.ids 14 (X V0) :=
  (val_keep V0 102 48 main_v147 (by decide)).trans (val102_ids V0)

theorem val150_ids15 : val V0 150 (no_index (Proc.devRef .tc main_v157)) = Spec.ids 15 (X V0) :=
  (val_keep V0 110 40 main_v157 (by decide)).trans (val110_ids V0)

theorem val150_ids16 : val V0 150 (no_index (Proc.devRef .tc main_v167)) = Spec.ids 16 (X V0) :=
  (val_keep V0 118 32 main_v167 (by decide)).trans (val118_ids V0)

theorem val150_ids17 : val V0 150 (no_index (Proc.devRef .tc main_v177)) = Spec.ids 17 (X V0) :=
  (val_keep V0 126 24 main_v177 (by decide)).trans (val126_ids V0)

theorem val150_ids18 : val V0 150 (no_index (Proc.devRef .tc main_v187)) = Spec.ids 18 (X V0) :=
  (val_keep V0 134 16 main_v187 (by decide)).trans (val134_ids V0)

theorem val150_ids19 : val V0 150 (no_index (Proc.devRef .tc main_v197)) = Spec.ids 19 (X V0) :=
  (val_keep V0 142 8 main_v197 (by decide)).trans (val142_ids V0)

theorem val150_ids20 : val V0 150 (no_index (Proc.devRef .tc main_v207)) = Spec.ids 20 (X V0) :=
  val150_ids V0

theorem val150_arg1 : val V0 150 (Proc.devRef .tc main_arg1) = V0 (Proc.devRef .tc main_arg1) :=
  val_keep V0 0 150 main_arg1 (by decide)

theorem val150_arg0 : val V0 150 (Proc.devRef .tc main_arg0) = V0 (Proc.devRef .tc main_arg0) :=
  val_keep V0 0 150 main_arg0 (by decide)

end Cert.KernelIdeal.FrHost

end
-- ==== Proof.Spec.Stack.lean ====
import proofs.«175239_j73718818668652_1_alg».proof.Proof.Spec.G
import Idealize.ShloMosaic.Lib.KernelVsHost

noncomputable section

namespace Cert.Spec

open Idealize.ShloMosaic Idealize.ShloMosaic.ValueIdx

abbrev S1x8x8192 : Shape := ⟨3, ![1, 8, 8192]⟩

abbrev S2x8x8192 : Shape := ⟨3, ![2, 8, 8192]⟩

abbrev S16x8x8192 : Shape := ⟨3, ![16, 8, 8192]⟩

theorem bcast1 : S8x8192.BroadcastsInDim S1x8x8192 (![1, 2] : Fin 2 → Fin S1x8x8192.rank) := by decide
theorem cat16 : Shape.Concatenates [S1x8x8192, S1x8x8192, S1x8x8192, S1x8x8192, S1x8x8192, S1x8x8192, S1x8x8192, S1x8x8192,
    S1x8x8192, S1x8x8192, S1x8x8192, S1x8x8192, S1x8x8192, S1x8x8192, S1x8x8192, S1x8x8192] S16x8x8192 0 := by decide
theorem cat2 : Shape.Concatenates [S1x8x8192, S1x8x8192] S2x8x8192 0 := by decide
theorem cat18 : Shape.Concatenates [S16x8x8192, S2x8x8192] S18x8x8192 0 := by decide

def lift1 (y : IVec S8x8192 32) : IVec S1x8x8192 32 := broadcastInDim S1x8x8192 ![1, 2] bcast1 y

theorem lift1_apply (y : IVec S8x8192 32) (i : S1x8x8192.Idx) : lift1 y i = y (ix2 (i 1) (i 2)) := by
  unfold lift1
  refine broadcastInDim_apply _ _ y i (ix2 (i 1) (i 2)) ?_
  intro a
  match a with
  | ⟨0, _⟩ => rfl
  | ⟨1, _⟩ => rfl

theorem cat_units_apply {α : Type} {t s₁ : Shape} (a : Fin t.rank) {N : Nat} (f : Fin N → (s₁.Idx → α))
    (xs : List ((s : Shape) × (s.Idx → α)))
    (hxs : xs = List.ofFn fun n : Fin N => (⟨s₁, f n⟩ : (s : Shape) × (s.Idx → α)))
    (h : Shape.Concatenates (xs.map (·.1)) t a) (hr : s₁.rank = t.rank) (h1 : s₁.size (a.cast hr.symm) = 1)
    (j : t.Idx) (n : Fin N) (hn : (j a).val = n.val) (i : s₁.Idx)
    (hi : ∀ b : Fin s₁.rank, b.cast hr ≠ a → (i b).val = (j (b.cast hr)).val) :
    concatenate t a xs h j = f n i := by
  subst hxs
  exact concatenate_ofFn_unit_apply a f h hr h1 j n hn i hi

def stack18 (a : Fin 18 → IVec S8x8192 32) : IVec S18x8x8192 32 :=
  concatenate S18x8x8192 0
    [⟨S16x8x8192, concatenate S16x8x8192 0
        [⟨S1x8x8192, lift1 (a 0)⟩, ⟨S1x8x8192, lift1 (a 1)⟩, ⟨S1x8x8192, lift1 (a 2)⟩, ⟨S1x8x8192, lift1 (a 3)⟩,
         ⟨S1x8x8192, lift1 (a 4)⟩, ⟨S1x8x8192, lift1 (a 5)⟩, ⟨S1x8x8192, lift1 (a 6)⟩, ⟨S1x8x8192, lift1 (a 7)⟩,
         ⟨S1x8x8192, lift1 (a 8)⟩, ⟨S1x8x8192, lift1 (a 9)⟩, ⟨S1x8x8192, lift1 (a 10)⟩, ⟨S1x8x8192, lift1 (a 11)⟩,
         ⟨S1x8x8192, lift1 (a 12)⟩, ⟨S1x8x8192, lift1 (a 13)⟩, ⟨S1x8x8192, lift1 (a 14)⟩, ⟨S1x8x8192, lift1 (a 15)⟩] cat16⟩,
     ⟨S2x8x8192, concatenate S2x8x8192 0 [⟨S1x8x8192, lift1 (a 16)⟩, ⟨S1x8x8192, lift1 (a 17)⟩] cat2⟩] cat18

theorem stack18_apply (a : Fin 18 → IVec S8x8192 32) (j : S18x8x8192.Idx) :
    stack18 a j = a (j 0) (ix2 (j 1) (j 2)) := by
  have hj : (j 0).val < 18 := (j 0).isLt
  unfold stack18
  by_cases h : (j 0).val < 16
  · refine (concatenate_pair_apply_left (t := S18x8x8192) (s₁ := S16x8x8192) (s₂ := S2x8x8192) (0 : Fin 3) _ _ cat18 j rfl
      (ix3 (⟨(j 0).val, h⟩ : Fin 16) (j 1) (j 2))
      (by intro b; match b with | ⟨0, _⟩ => rfl | ⟨1, _⟩ => rfl | ⟨2, _⟩ => rfl)).trans ?_
    refine (cat_units_apply (t := S16x8x8192) (s₁ := S1x8x8192) (0 : Fin 3)
      (fun n : Fin 16 => lift1 (a (Fin.castLE (by decide) n))) _ ?hxs _ rfl rfl
      (ix3 (⟨(j 0).val, h⟩ : Fin 16) (j 1) (j 2)) ⟨(j 0).val, h⟩ rfl (ix3 (0 : Fin 1) (j 1) (j 2)) ?hi).trans ?fin
    case hxs => rfl
    case hi => intro b hb; match b with | ⟨0, _⟩ => exact absurd rfl hb | ⟨1, _⟩ => rfl | ⟨2, _⟩ => rfl
    case fin => rw [lift1_apply]; all_goals rfl
  · refine (concatenate_pair_apply_right (t := S18x8x8192) (s₁ := S16x8x8192) (s₂ := S2x8x8192) (0 : Fin 3) _ _ cat18 j rfl rfl
      (ix3 (⟨(j 0).val - 16, by omega⟩ : Fin 2) (j 1) (j 2))
      (by intro b hb; match b with | ⟨0, _⟩ => exact absurd rfl hb | ⟨1, _⟩ => rfl | ⟨2, _⟩ => rfl)
      (by show (j 0).val - 16 + 16 = (j 0).val; omega)).trans ?_
    refine (cat_units_apply (t := S2x8x8192) (s₁ := S1x8x8192) (0 : Fin 3)
      (fun n : Fin 2 => lift1 (a (Fin.natAdd 16 n))) _ ?hxs _ rfl rfl
      (ix3 (⟨(j 0).val - 16, by omega⟩ : Fin 2) (j 1) (j 2)) ⟨(j 0).val - 16, by omega⟩ rfl (ix3 (0 : Fin 1) (j 1) (j 2)) ?hi).trans ?fin
    case hxs => rfl
    case hi => intro b hb; match b with | ⟨0, _⟩ => exact absurd rfl hb | ⟨1, _⟩ => rfl | ⟨2, _⟩ => rfl
    case fin =>
      rw [lift1_apply]
      have e : Fin.natAdd 16 (⟨(j 0).val - 16, by omega⟩ : Fin 2) = j 0 :=
        Fin.ext (by show 16 + ((j 0).val - 16) = (j 0).val; omega)
      rw [e]
      all_goals rfl

theorem pad_eq_padTab (tab : S18x4097x256.Idx → EReal) {u : Shape} (v : u.Idx → EReal) (hu : 0 < u.numel)
    (hv : v (Shape.Idx.first hu) = 0)
    (h : S18x4097x256.Pads (![0, 0, 0] : Fin 3 → Nat) ![0, 127, 0] ![0, 0, 0] S18x4224x256) :
    pad S18x4224x256 ![0, 0, 0] ![0, 127, 0] ![0, 0, 0] tab v h hu = padTab tab := by
  funext j
  unfold padTab
  by_cases hj : (j 1).val < 4097
  · rw [dif_pos hj]
    refine pad_apply_of_inside _ _ _ tab v h hu j (ix3 (j 0) ⟨(j 1).val, hj⟩ (j 2)) ?_
    intro a
    match a with
    | ⟨0, _⟩ => show (j 0).val = 0 + (j 0).val * (0 + 1); omega
    | ⟨1, _⟩ => show (j 1).val = 0 + (j 1).val * (0 + 1); omega
    | ⟨2, _⟩ => show (j 2).val = 0 + (j 2).val * (0 + 1); omega
  · rw [dif_neg hj, pad_apply_of_not_inside _ _ _ tab v h hu j 1
      (by show ¬(0 ≤ (j 1).val ∧ ((j 1).val - 0) % (0 + 1) = 0 ∧ ((j 1).val - 0) / (0 + 1) < 4097); omega), hv]

end Cert.Spec
-- ==== Proof.KI.HostEnd.lean ====
import proofs.«175239_j73718818668652_1_alg».proof.Proof.KI.Host
import proofs.«175239_j73718818668652_1_alg».proof.Proof.LibHostFold
import proofs.«175239_j73718818668652_1_alg».proof.Proof.Spec.Stack
import Idealize.ShloMosaic.Lib.StableHlo.Run

set_option maxRecDepth 16384

noncomputable section

namespace Cert.KernelIdeal.FrHostEnd

open Idealize.ShloMosaic Idealize.ShloMosaic.TcCoe Idealize.ShloMosaic.StableHlo
open Idealize.SL Idealize.SL.Sem
open Cert.KernelIdeal Cert.KernelIdeal.Gen

theorem stretches_drop_150 :
    (Cert.KernelIdeal.Fr.stretches (F := Ideal)).drop 150 = [hostOps0_150, hostOps0_151, hostOps0_152] := rfl

variable (W : Valuation τ sig (Elt Ideal))

def idsOf : Fin 18 → IVec Spec.S8x8192 32 :=
  ![W (Proc.devRef .tc main_v37), W (Proc.devRef .tc main_v47), W (Proc.devRef .tc main_v57), W (Proc.devRef .tc main_v67), W (Proc.devRef .tc main_v77), W (Proc.devRef .tc main_v87), W (Proc.devRef .tc main_v97), W (Proc.devRef .tc main_v107), W (Proc.devRef .tc main_v117), W (Proc.devRef .tc main_v127), W (Proc.devRef .tc main_v137), W (Proc.devRef .tc main_v147), W (Proc.devRef .tc main_v157), W (Proc.devRef .tc main_v167), W (Proc.devRef .tc main_v177), W (Proc.devRef .tc main_v187), W (Proc.devRef .tc main_v197), W (Proc.devRef .tc main_v207)]

theorem idsOf_eq (x : IVec Spec.S8x8192 32)
    (h3 : W (Proc.devRef .tc main_v37) = Spec.ids 3 x)
    (h4 : W (Proc.devRef .tc main_v47) = Spec.ids 4 x)
    (h5 : W (Proc.devRef .tc main_v57) = Spec.ids 5 x)
    (h6 : W (Proc.devRef .tc main_v67) = Spec.ids 6 x)
    (h7 : W (Proc.devRef .tc main_v77) = Spec.ids 7 x)
    (h8 : W (Proc.devRef .tc main_v87) = Spec.ids 8 x)
    (h9 : W (Proc.devRef .tc main_v97) = Spec.ids 9 x)
    (h10 : W (Proc.devRef .tc main_v107) = Spec.ids 10 x)
    (h11 : W (Proc.devRef .tc main_v117) = Spec.ids 11 x)
    (h12 : W (Proc.devRef .tc main_v127) = Spec.ids 12 x)
    (h13 : W (Proc.devRef .tc main_v137) = Spec.ids 13 x)
    (h14 : W (Proc.devRef .tc main_v147) = Spec.ids 14 x)
    (h15 : W (Proc.devRef .tc main_v157) = Spec.ids 15 x)
    (h16 : W (Proc.devRef .tc main_v167) = Spec.ids 16 x)
    (h17 : W (Proc.devRef .tc main_v177) = Spec.ids 17 x)
    (h18 : W (Proc.devRef .tc main_v187) = Spec.ids 18 x)
    (h19 : W (Proc.devRef .tc main_v197) = Spec.ids 19 x)
    (h20 : W (Proc.devRef .tc main_v207) = Spec.ids 20 x) :
    ∀ t : Fin 18, idsOf W t = Spec.ids (t.val + 3) x
  | ⟨0, _⟩ => h3
  | ⟨1, _⟩ => h4
  | ⟨2, _⟩ => h5
  | ⟨3, _⟩ => h6
  | ⟨4, _⟩ => h7
  | ⟨5, _⟩ => h8
  | ⟨6, _⟩ => h9
  | ⟨7, _⟩ => h10
  | ⟨8, _⟩ => h11
  | ⟨9, _⟩ => h12
  | ⟨10, _⟩ => h13
  | ⟨11, _⟩ => h14
  | ⟨12, _⟩ => h15
  | ⟨13, _⟩ => h16
  | ⟨14, _⟩ => h17
  | ⟨15, _⟩ => h18
  | ⟨16, _⟩ => h19
  | ⟨17, _⟩ => h20
  | ⟨_ + 18, h⟩ => absurd h (Nat.not_lt.2 (Nat.le_add_left _ _))

set_option maxHeartbeats 4000000 in

theorem end_ids_fold :
    after hostOps0_152 (after hostOps0_151 (after hostOps0_150 W)) (no_index (Proc.devRef .tc main_v228))
      = Spec.stack18 (idsOf W) := by
  simp only [hostOps0_150, hostOps0_151, hostOps0_152]
  after_results_simp
  try dsimp only [Matrix.cons_val]
  try after_results_simp
  rfl

set_option maxHeartbeats 4000000 in

theorem end_tab_fold :
    after hostOps0_152 (after hostOps0_151 (after hostOps0_150 W)) (no_index (Proc.devRef .tc main_v230))
      = truncf .bf16 (pad S18x4224x256 ![0, 0, 0] ![0, 127, 0] ![0, 0, 0] (W (Proc.devRef .tc main_arg1))
          (sitofp (F := Ideal) .f32 (constantI S_ 32 0#32)) pads_S18x4097x256_S18x4224x256_000_01270_000 h_S_) bitsLt_bf16_f32 := by
  simp only [hostOps0_150, hostOps0_151, hostOps0_152]
  after_results_simp
  rfl

theorem end_ids (x : IVec Spec.S8x8192 32) (hW : ∀ t : Fin 18, idsOf W t = Spec.ids (t.val + 3) x) :
    (after (List.flatten [hostOps0_150, hostOps0_151, hostOps0_152]) W (Proc.devRef .tc main_v228)
      : Spec.S18x8x8192.Idx → BitVec 32) = Spec.stackIds x := by
  rw [Cert.LibHostFold.after_flatten]
  simp only [Cert.LibHostFold.afterS_cons, Cert.LibHostFold.afterS_nil]
  rw [end_ids_fold]
  funext j
  rw [Spec.stack18_apply]
  exact congrFun (hW (j 0)) (ValueIdx.ix2 (j 1) (j 2))

theorem end_tab (tab : Spec.S18x4097x256.Idx → EReal) (hW : W (Proc.devRef .tc main_arg1) = tab) :
    (after (List.flatten [hostOps0_150, hostOps0_151, hostOps0_152]) W (Proc.devRef .tc main_v230)
      : Spec.S18x4224x256.Idx → EReal) = Spec.padTab tab := by
  rw [Cert.LibHostFold.after_flatten]
  simp only [Cert.LibHostFold.afterS_cons, Cert.LibHostFold.afterS_nil]
  rw [end_tab_fold, hW]
  have hv : (sitofp (F := Ideal) .f32 (constantI S_ 32 0#32)) (Shape.Idx.first h_S_) = 0 := by
    show (((0#32 : BitVec 32).toInt : ℝ) : EReal) = 0
    simp
  refine Eq.trans ?_ (Spec.pad_eq_padTab tab _ h_S_ hv pads_S18x4097x256_S18x4224x256_000_01270_000)
  rfl

end Cert.KernelIdeal.FrHostEnd

end
-- ==== Proof.KI.HostVals.lean ====
import proofs.«175239_j73718818668652_1_alg».proof.Proof.KI.HostRec
import proofs.«175239_j73718818668652_1_alg».proof.Proof.KI.HostEnd

set_option maxRecDepth 16384

noncomputable section

namespace Cert.KernelIdeal.FrHost

open Idealize.ShloMosaic Idealize.ShloMosaic.TcCoe Idealize.ShloMosaic.StableHlo
open Idealize.SL Idealize.SL.Sem
open Cert.KernelIdeal Cert.KernelIdeal.Gen Cert.KernelIdeal.Fr
open Cert.LibHostFold

theorem after_all (V0 : Valuation τ sig (Elt Ideal)) :
    after (List.flatten (stretches (F := Ideal))) V0
      = after (List.flatten [hostOps0_150, hostOps0_151, hostOps0_152]) (val V0 150) :=
  (val_end V0).symm.trans ((valAt_add _ V0 150 3).trans (Cert.LibHostFold.after_flatten _ _).symm)

end Cert.KernelIdeal.FrHost

namespace Cert.KernelIdeal.Fr

open Idealize.ShloMosaic Idealize.ShloMosaic.TcCoe Idealize.ShloMosaic.StableHlo
open Idealize.SL Idealize.SL.Sem
open Cert.KernelIdeal Cert.KernelIdeal.Gen Cert.KernelIdeal.FrHost

variable (m : (ℓ : Loc nD τ sig) → Buf (Elt Ideal) ℓ)

theorem V_ids (c : Dev nD) :
    (V m c main_v228 : Spec.S18x8x8192.Idx → BitVec 32) = Spec.stackIds (m ((c : Thread nD τ).loc main_arg0)) :=
  (congrFun (after_all (fun b => m (c, b))) (Proc.devRef .tc main_v228)).trans
    (FrHostEnd.end_ids _ _ (FrHostEnd.idsOf_eq _ _ (val150_ids3 _) (val150_ids4 _) (val150_ids5 _) (val150_ids6 _) (val150_ids7 _) (val150_ids8 _) (val150_ids9 _) (val150_ids10 _) (val150_ids11 _) (val150_ids12 _) (val150_ids13 _) (val150_ids14 _) (val150_ids15 _) (val150_ids16 _) (val150_ids17 _) (val150_ids18 _) (val150_ids19 _) (val150_ids20 _)))

theorem V_tab (c : Dev nD) :
    (V m c main_v230 : Spec.S18x4224x256.Idx → EReal) = Spec.padTab (m ((c : Thread nD τ).loc main_arg1)) :=
  (congrFun (after_all (fun b => m (c, b))) (Proc.devRef .tc main_v230)).trans
    (FrHostEnd.end_tab _ _ (val150_arg1 _))

end Cert.KernelIdeal.Fr

end
-- ==== Proof.Spec.FloorRem.lean ====
import Idealize.ShloMosaic.PureOps.Vector

namespace Cert.Spec

open Idealize.ShloMosaic

theorem remsi_4096 (y : BitVec 32) : IntOp.remsi .host y 4096#32 = y.srem 4096#32 := by
  unfold IntOp.remsi
  rw [if_neg]
  rintro (h | ⟨_, h⟩) <;> exact absurd h (by decide)

theorem srem_4096_bounds (y : BitVec 32) : -4096 < (y.srem 4096#32).toInt ∧ (y.srem 4096#32).toInt < 4096 := by
  rw [BitVec.toInt_srem]
  have h : (4096#32 : BitVec 32).toInt = 4096 := by decide
  rw [h]
  exact ⟨Int.lt_tmod_of_pos _ (by decide), Int.tmod_lt_of_pos _ (by decide)⟩

theorem floorFix_lt (r : BitVec 32) (hr : -4096 < r.toInt ∧ r.toInt < 4096) :
    (Scalar.select (IntOp.andi (IntOp.cmpi .ne (IntOp.cmpi .slt r 0#32) (IntOp.cmpi .slt 4096#32 0#32)) (IntOp.cmpi .ne r 0#32))
      (IntOp.addi r 4096#32) r).toNat < 4096 := by
  have hc := BitVec.toInt_eq_toNat_cond r
  have hlt := r.isLt
  have h4 : (IntOp.cmpi .slt 4096#32 0#32 : BitVec 1) = 0#1 := by decide
  rw [h4]
  by_cases hs : r.slt 0#32 = true
  · have hneg : r.toInt < 0 := by
      have := BitVec.slt_iff_toInt_lt.mp hs
      simpa using this
    have hz : r ≠ 0#32 := by
      rintro rfl; simp at hneg
    have hz' : (r != 0#32) = true := by simpa using hz
    have hcond : IntOp.andi (IntOp.cmpi .ne (IntOp.cmpi .slt r 0#32) 0#1) (IntOp.cmpi .ne r 0#32) = 1#1 := by
      simp only [IntOp.andi, IntOp.cmpi, hs, hz']; decide
    rw [hcond]
    simp only [Scalar.select]
    rw [if_pos (by decide)]
    simp only [IntOp.addi, BitVec.toNat_add, BitVec.toNat_ofNat]
    split at hc <;> omega
  · have hs' : r.slt 0#32 = false := by simpa using hs
    have hnn : 0 ≤ r.toInt := by
      have : ¬ r.toInt < (0#32 : BitVec 32).toInt := fun h => hs (BitVec.slt_iff_toInt_lt.mpr h)
      simpa using this
    have hcond : IntOp.andi (IntOp.cmpi .ne (IntOp.cmpi .slt r 0#32) 0#1) (IntOp.cmpi .ne r 0#32) = 0#1 := by
      simp only [IntOp.andi, IntOp.cmpi, hs']
      cases (r != 0#32) <;> decide
    rw [hcond]
    simp only [Scalar.select]
    rw [if_neg (by decide)]
    split at hc <;> omega

theorem floorRem_lt (y m : BitVec 32) (hm : m = 4096#32) :
    (Scalar.select
      (IntOp.andi (IntOp.cmpi .ne (IntOp.cmpi .slt (IntOp.remsi .host y m) 0#32) (IntOp.cmpi .slt m 0#32))
        (IntOp.cmpi .ne (IntOp.remsi .host y m) 0#32))
      (IntOp.addi (IntOp.remsi .host y m) m) (IntOp.remsi .host y m)).toNat < 4096 := by
  subst hm
  rw [remsi_4096]
  exact floorFix_lt _ (srem_4096_bounds y)

theorem select_4096_le (c : BitVec 1) (h : BitVec 32) (hh : h.toNat < 4096) :
    (Scalar.select c 4096#32 h).toNat ≤ 4096 := by
  unfold Scalar.select
  split
  · decide
  · omega

end Cert.Spec
-- ==== Proof.Spec.IdsRange.lean ====
import proofs.«175239_j73718818668652_1_alg».proof.Proof.Spec.Ids
import proofs.«175239_j73718818668652_1_alg».proof.Proof.Spec.FloorRem
import proofs.«175239_j73718818668652_1_alg».proof.Proof.Spec.G

noncomputable section

namespace Cert.Spec

open Idealize.ShloMosaic

theorem modulusB_eq (i : S8x8192.Idx) : modulusB i = 4096#32 := by
  show Scalar.select (IntOp.cmpi .eq 4096#32 0#32) 1#32 4096#32 = 4096#32
  decide

theorem floorMod_lt (a : IVec S8x8192 32) (i : S8x8192.Idx) : (floorMod a i).toNat < 4096 :=
  floorRem_lt (a i) (modulusB i) (modulusB_eq i)

theorem H_lt (k : ℕ) (hk : 2 ≤ k) (x : IVec S8x8192 32) (i : S8x8192.Idx) : (H k x i).toNat < 4096 := by
  obtain ⟨n, rfl⟩ : ∃ n, k = n + 2 := ⟨k - 2, by omega⟩
  rw [H_succ]
  exact floorMod_lt _ i

theorem ids_le (k : ℕ) (hk : 2 ≤ k) (x : IVec S8x8192 32) (i : S8x8192.Idx) : (ids k x i).toNat ≤ 4096 :=
  select_4096_le (B k x i) (H k x i) (H_lt k hk x i)

theorem Gk_stack_pad (x : IVec S8x8192 32) (tab : S18x4097x256.Idx → EReal) :
    Gk (stackIds x) (padTab tab) = G x tab :=
  Gk_stack_pad_of_le x (fun t i => ids_le (t.val + 3) (by omega) x i) tab

end Cert.Spec
-- ==== Proof.KI.Value.lean ====
import proofs.«175239_j73718818668652_1_alg».proof.Proof.KI.Final
import proofs.«175239_j73718818668652_1_alg».proof.Proof.KI.HostVals
import proofs.«175239_j73718818668652_1_alg».proof.Proof.Spec.IdsRange

noncomputable section

namespace Cert.KernelIdeal.FrValue

open Idealize.ShloMosaic Idealize.ShloMosaic.TcCoe Idealize.SL.Sem
open Cert.KernelIdeal Cert.KernelIdeal.Gen Cert.KernelIdeal.Fr

variable (m : (ℓ : Loc nD τ sig) → Buf (Elt Ideal) ℓ)

theorem run (ρ : Dev nD → PrngReg) :
    θ_run defs (onTc (τ := τ) (main (F := Ideal))) ⟨m, fun _ => 0, ρ⟩ (fun r => ∀ c : Dev nD,
      r.2.mem ((c.tc : Thread nD τ).loc main_v231)
        = Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c).1.trans ((congrArg₂ Spec.Gk (V_ids m c) (V_tab m c)).trans (Spec.Gk_stack_pad _ _)), (h c).2⟩)
    (run_found m ρ)

end Cert.KernelIdeal.FrValue

end
-- ==== Proof.R.Ops0a.lean ====
import proofs.«175239_j73718818668652_1_alg».proof.Proof.Gen.ReferenceIdeal
import Idealize.ShloMosaic.Lib.StableHlo.Run

set_option maxRecDepth 3636

noncomputable section

namespace Cert.ReferenceIdeal.Hand

open Idealize.ShloMosaic Idealize.ShloMosaic.TcCoe
open Idealize.SL Idealize.SL.Sem
open Cert.ReferenceIdeal Cert.ReferenceIdeal.Gen

variable {F : FTy → Type} [FloatOps F]

abbrev hostOps0 : List (HloOp τ sig (Elt F)) :=
  [ StableHlo.nullary main_c (fun i => lit0 (S4.rowMajor i)),
    StableHlo.nullary main_c_0 (fun i => lit1 (S4.rowMajor i)),
    StableHlo.nullary main_c_1 (constantI S_ 32 4294967295#32),
    StableHlo.unary main_c_1 main_v0 (broadcastInDim S14 ![] bcast_S_S14),
    StableHlo.nullary main_c_2 (constantI S_ 32 0#32),
    StableHlo.unary main_c_2 main_v1 (broadcastInDim S4 ![] bcast_S_S4),
    StableHlo.binary main_c main_v1 main_v2 (cmpi .slt),
    StableHlo.nullary main_c_3 (constantI S_ 32 14#32),
    StableHlo.unary main_c_3 main_v3 (broadcastInDim S4 ![] bcast_S_S4),
    StableHlo.binary main_c main_v3 main_v4 addi,
    StableHlo.ternary main_v2 main_v4 main_c main_v5 select,
    StableHlo.unary main_v5 main_v6 (broadcastInDim S4x1 ![0] bcast_S4_S4x1_0),
    StableHlo.ternary main_v0 main_v6 main_c_0 main_v7 ((fun x i u => Host.scatter scatter_S14_S4x1_S4_n_0_0_1 (fun _ b => b) x i u) : (⟨S14, .i32⟩ : BufTy).Contents (Elt F) → (⟨S4x1, .i32⟩ : BufTy).Contents (Elt F) → (⟨S4, .i32⟩ : BufTy).Contents (Elt F) → (⟨S14, .i32⟩ : BufTy).Contents (Elt F)),
    StableHlo.nullary main_c_4 (constantI S_ 32 0#32),
    StableHlo.unary main_c_4 main_v8 (broadcastInDim S8x8192 ![] bcast_S_S8x8192),
    StableHlo.binary main_arg0 main_v8 main_v9 (cmpi .slt),
    StableHlo.nullary main_c_5 (constantI S_ 32 14#32),
    StableHlo.unary main_c_5 main_v10 (broadcastInDim S8x8192 ![] bcast_S_S8x8192),
    StableHlo.binary main_arg0 main_v10 main_v11 addi,
    StableHlo.ternary main_v9 main_v11 main_arg0 main_v12 select,
    StableHlo.unary main_v12 main_v13 (broadcastInDim S8x8192x1 ![0, 1] bcast_S8x8192_S8x8192x1_0_1),
    StableHlo.binary main_v7 main_v13 main_v14 ((fun x i => Host.gather gather_S14_S8x8192x1_S8x8192_n_0_n_n_0_2_1 x i) : (⟨S14, .i32⟩ : BufTy).Contents (Elt F) → (⟨S8x8192x1, .i32⟩ : BufTy).Contents (Elt F) → (⟨S8x8192, .i32⟩ : BufTy).Contents (Elt F)),
    StableHlo.nullary main_c_6 (constantI S_ 32 0#32),
    StableHlo.unary main_c_6 main_v15 (broadcastInDim S8x8192 ![] bcast_S_S8x8192),
    StableHlo.binary main_v14 main_v15 main_v16 maxsi,
    StableHlo.nullary main_c_7 (constantI S_ 32 4294967295#32),
    StableHlo.unary main_c_7 main_v17 (broadcastInDim S8x8192 ![] bcast_S_S8x8192),
    StableHlo.binary main_v14 main_v17 main_v18 (cmpi .eq),
    StableHlo.unary main_v16 main_v19 ((extractStridedSlice S8x8191 ![0, 0] · slices_S8x8192_S8x8191_0_0) : (⟨S8x8192, .i32⟩ : BufTy).Contents (Elt F) → (⟨S8x8191, .i32⟩ : BufTy).Contents (Elt F)),
    StableHlo.nullary main_c_8 (constantI S_ 32 0#32) ]

abbrev hostOps0_1 : List (HloOp τ sig (Elt F)) :=
  [ StableHlo.TRef.unary (.of main_c_8 : StableHlo.TRef sig ⟨S_, .i32⟩) (.of main_call0_v0 : StableHlo.TRef sig ⟨S_, .i32⟩) id,
    StableHlo.TRef.binary (.of main_v19 : StableHlo.TRef sig ⟨S8x8191, .i32⟩) (.of main_call0_v0 : StableHlo.TRef sig ⟨S_, .i32⟩) (.of main_v20 : StableHlo.TRef sig ⟨S8x8192, .i32⟩) (fun x v => pad S8x8192 ![0, 1] ![0, 0] ![0, 0] x v pads_S8x8191_S8x8192_000_100 h_S_) ]

abbrev hostOps0_2 : List (HloOp τ sig (Elt F)) :=
  [ StableHlo.nullary main_c_9 (constantI S_ 32 31#32),
    StableHlo.unary main_c_9 main_v21 (broadcastInDim S8x8192 ![] bcast_S_S8x8192),
    StableHlo.binary main_v20 main_v21 main_v22 muli,
    StableHlo.binary main_v22 main_v16 main_v23 addi,
    StableHlo.nullary main_c_10 (constantI S_ 32 4096#32) ]

abbrev hostOps0_3 : List (HloOp τ sig (Elt F)) :=
  [ StableHlo.TRef.unary (.of main_c_10 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary main_call1_call0.v0 (.of main_call1_v3 : StableHlo.TRef sig ⟨S8x8192, .i32⟩) (broadcastInDim S8x8192 ![] bcast_S_S8x8192),
    StableHlo.TRef.binary (.of main_v23 : StableHlo.TRef sig ⟨S8x8192, .i32⟩) (.of main_call1_v3 : StableHlo.TRef sig ⟨S8x8192, .i32⟩) (.of main_call1_v4 : StableHlo.TRef sig ⟨S8x8192, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S8x8192, .i32⟩) (broadcastInDim S8x8192 ![] bcast_S_S8x8192),
    StableHlo.TRef.binary (.of main_call1_v4 : StableHlo.TRef sig ⟨S8x8192, .i32⟩) (.of main_call1_v5 : StableHlo.TRef sig ⟨S8x8192, .i32⟩) (.of main_call1_v6 : StableHlo.TRef sig ⟨S8x8192, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S8x8192, .i32⟩) (broadcastInDim S8x8192 ![] bcast_S_S8x8192),
    StableHlo.TRef.binary (.of main_call1_v4 : StableHlo.TRef sig ⟨S8x8192, .i32⟩) (.of main_call1_v7 : StableHlo.TRef sig ⟨S8x8192, .i32⟩) (.of main_call1_v8 : StableHlo.TRef sig ⟨S8x8192, .i1⟩) (cmpi .slt),
    StableHlo.TRef.nullary (.of main_call1_c_3 : StableHlo.TRef sig ⟨S_, .i32⟩) (constantI S_ 32 0#32),
    StableHlo.TRef.binary main_call1_call0.v0 (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S8x8192, .i1⟩) (broadcastInDim S8x8192 ![] bcast_S_S8x8192),
    StableHlo.TRef.binary (.of main_call1_v8 : StableHlo.TRef sig ⟨S8x8192, .i1⟩) (.of main_call1_v10 : StableHlo.TRef sig ⟨S8x8192, .i1⟩) (.of main_call1_v11 : StableHlo.TRef sig ⟨S8x8192, .i1⟩) (cmpi .ne),
    StableHlo.TRef.binary (.of main_call1_v11 : StableHlo.TRef sig ⟨S8x8192, .i1⟩) (.of main_call1_v6 : StableHlo.TRef sig ⟨S8x8192, .i1⟩) (.of main_call1_v12 : StableHlo.TRef sig ⟨S8x8192, .i1⟩) andi,
    StableHlo.TRef.unary main_call1_call0.v0 (.of main_call1_v13 : StableHlo.TRef sig ⟨S8x8192, .i32⟩) (broadcastInDim S8x8192 ![] bcast_S_S8x8192),
    StableHlo.TRef.binary (.of main_call1_v4 : StableHlo.TRef sig ⟨S8x8192, .i32⟩) (.of main_call1_v13 : StableHlo.TRef sig ⟨S8x8192, .i32⟩) (.of main_call1_v14 : StableHlo.TRef sig ⟨S8x8192, .i32⟩) addi,
    StableHlo.TRef.ternary (.of main_call1_v12 : StableHlo.TRef sig ⟨S8x8192, .i1⟩) (.of main_call1_v14 : StableHlo.TRef sig ⟨S8x8192, .i32⟩) (.of main_call1_v4 : StableHlo.TRef sig ⟨S8x8192, .i32⟩) (.of main_v24 : StableHlo.TRef sig ⟨S8x8192, .i32⟩) select ]

abbrev hostOps0_4 : List (HloOp τ sig (Elt F)) :=
  [ StableHlo.unary main_v18 main_v25 ((extractStridedSlice S8x8191 ![0, 0] · slices_S8x8192_S8x8191_0_0) : (⟨S8x8192, .i1⟩ : BufTy).Contents (Elt F) → (⟨S8x8191, .i1⟩ : BufTy).Contents (Elt F)),
    StableHlo.nullary main_c_11 (constantI S_ 1 1#1) ]

abbrev hostOps0_5 : List (HloOp τ sig (Elt F)) :=
  [ StableHlo.TRef.binary (.of main_v25 : StableHlo.TRef sig ⟨S8x8191, .i1⟩) (.of main_c_11 : StableHlo.TRef sig ⟨S_, .i1⟩) (.of main_v26 : StableHlo.TRef sig ⟨S8x8192, .i1⟩) (fun x v => pad S8x8192 ![0, 1] ![0, 0] ![0, 0] x v pads_S8x8191_S8x8192_000_100 h_S_) ]

abbrev hostOps0_6 : List (HloOp τ sig (Elt F)) :=
  [ StableHlo.binary main_v26 main_v18 main_v27 ori,
    StableHlo.unary main_v24 main_v28 ((extractStridedSlice S8x8191 ![0, 0] · slices_S8x8192_S8x8191_0_0) : (⟨S8x8192, .i32⟩ : BufTy).Contents (Elt F) → (⟨S8x8191, .i32⟩ : BufTy).Contents (Elt F)),
    StableHlo.nullary main_c_12 (constantI S_ 32 0#32) ]

abbrev hostOps0_7 : List (HloOp τ sig (Elt F)) :=
  [ StableHlo.TRef.unary (.of main_c_12 : StableHlo.TRef sig ⟨S_, .i32⟩) (.of main_call3_v0 : StableHlo.TRef sig ⟨S_, .i32⟩) id,
    StableHlo.TRef.binary (.of main_v28 : StableHlo.TRef sig ⟨S8x8191, .i32⟩) (.of main_call3_v0 : StableHlo.TRef sig ⟨S_, .i32⟩) (.of main_v29 : StableHlo.TRef sig ⟨S8x8192, .i32⟩) (fun x v => pad S8x8192 ![0, 1] ![0, 0] ![0, 0] x v pads_S8x8191_S8x8192_000_100 h_S_) ]

abbrev hostOps0_8 : List (HloOp τ sig (Elt F)) :=
  [ StableHlo.nullary main_c_13 (constantI S_ 32 31#32),
    StableHlo.unary main_c_13 main_v30 (broadcastInDim S8x8192 ![] bcast_S_S8x8192),
    StableHlo.binary main_v29 main_v30 main_v31 muli,
    StableHlo.binary main_v31 main_v16 main_v32 addi,
    StableHlo.nullary main_c_14 (constantI S_ 32 4096#32) ]

abbrev hostOps0_9 : List (HloOp τ sig (Elt F)) :=
  [ StableHlo.TRef.unary (.of main_c_14 : StableHlo.TRef sig ⟨S_, .i32⟩) (.of main_call4_v0 : StableHlo.TRef sig ⟨S_, .i32⟩) id,
    StableHlo.TRef.nullary (.of main_call4_c : StableHlo.TRef sig ⟨S_, .i32⟩) (constantI S_ 32 0#32),
    StableHlo.TRef.binary (.of main_call4_v0 : StableHlo.TRef sig ⟨S_, .i32⟩) (.of main_call4_c : StableHlo.TRef sig ⟨S_, .i32⟩) (.of main_call4_v1 : StableHlo.TRef sig ⟨S_, .i1⟩) (cmpi .eq),
    StableHlo.TRef.nullary (.of main_call4_c_0 : StableHlo.TRef sig ⟨S_, .i32⟩) (constantI S_ 32 1#32),
    StableHlo.TRef.ternary (.of main_call4_v1 : StableHlo.TRef sig ⟨S_, .i1⟩) (.of main_call4_c_0 : StableHlo.TRef sig ⟨S_, .i32⟩) (.of main_call4_v0 : StableHlo.TRef sig ⟨S_, .i32⟩) (.of main_call4_v2 : StableHlo.TRef sig ⟨S_, .i32⟩) select,
    StableHlo.TRef.unary main_call4_call0.v0 (.of main_call4_v3 : StableHlo.TRef sig ⟨S8x8192, .i32⟩) (broadcastInDim S8x8192 ![] bcast_S_S8x8192),
    StableHlo.TRef.binary (.of main_v32 : StableHlo.TRef sig ⟨S8x8192, .i32⟩) (.of main_call4_v3 : StableHlo.TRef sig ⟨S8x8192, .i32⟩) (.of main_call4_v4 : StableHlo.TRef sig ⟨S8x8192, .i32⟩) Host.remsi,
    StableHlo.TRef.nullary (.of main_call4_c_1 : StableHlo.TRef sig ⟨S_, .i32⟩) (constantI S_ 32 0#32),
    StableHlo.TRef.unary (.of main_call4_c_1 : StableHlo.TRef sig ⟨S_, .i32⟩) (.of main_call4_v5 : StableHlo.TRef sig ⟨S8x8192, .i32⟩) (broadcastInDim S8x8192 ![] bcast_S_S8x8192),
    StableHlo.TRef.binary (.of main_call4_v4 : StableHlo.TRef sig ⟨S8x8192, .i32⟩) (.of main_call4_v5 : StableHlo.TRef sig ⟨S8x8192, .i32⟩) (.of main_call4_v6 : StableHlo.TRef sig ⟨S8x8192, .i1⟩) (cmpi .ne),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v7 : StableHlo.TRef sig ⟨S8x8192, .i32⟩) (broadcastInDim S8x8192 ![] bcast_S_S8x8192),
    StableHlo.TRef.binary (.of main_call4_v4 : StableHlo.TRef sig ⟨S8x8192, .i32⟩) (.of main_call4_v7 : StableHlo.TRef sig ⟨S8x8192, .i32⟩) (.of main_call4_v8 : StableHlo.TRef sig ⟨S8x8192, .i1⟩) (cmpi .slt),
    StableHlo.TRef.nullary (.of main_call4_c_3 : StableHlo.TRef sig ⟨S_, .i32⟩) (constantI S_ 32 0#32),
    StableHlo.TRef.binary main_call4_call0.v0 (.of main_call4_c_3 : StableHlo.TRef sig ⟨S_, .i32⟩) (.of main_call4_v9 : StableHlo.TRef sig ⟨S_, .i1⟩) (cmpi .slt),
    StableHlo.TRef.unary (.of main_call4_v9 : StableHlo.TRef sig ⟨S_, .i1⟩) (.of main_call4_v10 : StableHlo.TRef sig ⟨S8x8192, .i1⟩) (broadcastInDim S8x8192 ![] bcast_S_S8x8192),
    StableHlo.TRef.binary (.of main_call4_v8 : StableHlo.TRef sig ⟨S8x8192, .i1⟩) (.of main_call4_v10 : StableHlo.TRef sig ⟨S8x8192, .i1⟩) (.of main_call4_v11 : StableHlo.TRef sig ⟨S8x8192, .i1⟩) (cmpi .ne),
    StableHlo.TRef.binary (.of main_call4_v11 : StableHlo.TRef sig ⟨S8x8192, .i1⟩) (.of main_call4_v6 : StableHlo.TRef sig ⟨S8x8192, .i1⟩) (.of main_call4_v12 : StableHlo.TRef sig ⟨S8x8192, .i1⟩) andi,
    StableHlo.TRef.unary main_call4_call0.v0 (.of main_call4_v13 : StableHlo.TRef sig ⟨S8x8192, .i32⟩) (broadcastInDim S8x8192 ![] bcast_S_S8x8192),
    StableHlo.TRef.binary (.of main_call4_v4 : StableHlo.TRef sig ⟨S8x8192, .i32⟩) (.of main_call4_v13 : StableHlo.TRef sig ⟨S8x8192, .i32⟩) (.of main_call4_v14 : StableHlo.TRef sig ⟨S8x8192, .i32⟩) addi,
    StableHlo.TRef.ternary (.of main_call4_v12 : StableHlo.TRef sig ⟨S8x8192, .i1⟩) (.of main_call4_v14 : StableHlo.TRef sig ⟨S8x8192, .i32⟩) (.of main_call4_v4 : StableHlo.TRef sig ⟨S8x8192, .i32⟩) (.of main_v33 : StableHlo.TRef sig ⟨S8x8192, .i32⟩) select ]

abbrev hostOps0_10 : List (HloOp τ sig (Elt F)) :=
  [ StableHlo.unary main_v27 main_v34 ((extractStridedSlice S8x8191 ![0, 0] · slices_S8x8192_S8x8191_0_0) : (⟨S8x8192, .i1⟩ : BufTy).Contents (Elt F) → (⟨S8x8191, .i1⟩ : BufTy).Contents (Elt F)),
    StableHlo.nullary main_c_15 (constantI S_ 1 1#1) ]

abbrev hostOps0_11 : List (HloOp τ sig (Elt F)) :=
  [ StableHlo.TRef.binary (.of main_v34 : StableHlo.TRef sig ⟨S8x8191, .i1⟩) (.of main_c_15 : StableHlo.TRef sig ⟨S_, .i1⟩) (.of main_v35 : StableHlo.TRef sig ⟨S8x8192, .i1⟩) (fun x v => pad S8x8192 ![0, 1] ![0, 0] ![0, 0] x v pads_S8x8191_S8x8192_000_100 h_S_) ]

abbrev hostOps0_12 : List (HloOp τ sig (Elt F)) :=
  [ StableHlo.binary main_v35 main_v18 main_v36 ori,
    StableHlo.nullary main_c_16 (constantI S_ 32 4096#32) ]

abbrev hostOps0_13 : List (HloOp τ sig (Elt F)) :=
  [ StableHlo.TRef.unary (.of main_c_16 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S8x8192, .i32⟩) (broadcastInDim S8x8192 ![] bcast_S_S8x8192),
    StableHlo.TRef.ternary (.of main_v36 : StableHlo.TRef sig ⟨S8x8192, .i1⟩) (.of main_call6_v1 : StableHlo.TRef sig ⟨S8x8192, .i32⟩) (.of main_v33 : StableHlo.TRef sig ⟨S8x8192, .i32⟩) (.of main_v37 : StableHlo.TRef sig ⟨S8x8192, .i32⟩) select ]

abbrev hostOps0_14 : List (HloOp τ sig (Elt F)) :=
  [ StableHlo.unary main_v33 main_v38 ((extractStridedSlice S8x8191 ![0, 0] · slices_S8x8192_S8x8191_0_0) : (⟨S8x8192, .i32⟩ : BufTy).Contents (Elt F) → (⟨S8x8191, .i32⟩ : BufTy).Contents (Elt F)),
    StableHlo.nullary main_c_17 (constantI S_ 32 0#32) ]

abbrev hostOps0_15 : List (HloOp τ sig (Elt F)) :=
  [ StableHlo.TRef.unary (.of main_c_17 : StableHlo.TRef sig ⟨S_, .i32⟩) (.of main_call7_v0 : StableHlo.TRef sig ⟨S_, .i32⟩) id,
    StableHlo.TRef.binary (.of main_v38 : StableHlo.TRef sig ⟨S8x8191, .i32⟩) (.of main_call7_v0 : StableHlo.TRef sig ⟨S_, .i32⟩) (.of main_v39 : StableHlo.TRef sig ⟨S8x8192, .i32⟩) (fun x v => pad S8x8192 ![0, 1] ![0, 0] ![0, 0] x v pads_S8x8191_S8x8192_000_100 h_S_) ]

abbrev hostOps0_16 : List (HloOp τ sig (Elt F)) :=
  [ StableHlo.nullary main_c_18 (constantI S_ 32 31#32),
    StableHlo.unary main_c_18 main_v40 (broadcastInDim S8x8192 ![] bcast_S_S8x8192),
    StableHlo.binary main_v39 main_v40 main_v41 muli,
    StableHlo.binary main_v41 main_v16 main_v42 addi,
    StableHlo.nullary main_c_19 (constantI S_ 32 4096#32) ]

abbrev hostOps0_17 : List (HloOp τ sig (Elt F)) :=
  [ StableHlo.TRef.unary (.of main_c_19 : StableHlo.TRef sig ⟨S_, .i32⟩) (.of main_call8_v0 : StableHlo.TRef sig ⟨S_, .i32⟩) id,
    StableHlo.TRef.nullary (.of main_call8_c : StableHlo.TRef sig ⟨S_, .i32⟩) (constantI S_ 32 0#32),
    StableHlo.TRef.binary (.of main_call8_v0 : StableHlo.TRef sig ⟨S_, .i32⟩) (.of main_call8_c : StableHlo.TRef sig ⟨S_, .i32⟩) (.of main_call8_v1 : StableHlo.TRef sig ⟨S_, .i1⟩) (cmpi .eq),
    StableHlo.TRef.nullary (.of main_call8_c_0 : StableHlo.TRef sig ⟨S_, .i32⟩) (constantI S_ 32 1#32),
    StableHlo.TRef.ternary (.of main_call8_v1 : StableHlo.TRef sig ⟨S_, .i1⟩) (.of main_call8_c_0 : StableHlo.TRef sig ⟨S_, .i32⟩) (.of main_call8_v0 : StableHlo.TRef sig ⟨S_, .i32⟩) (.of main_call8_v2 : StableHlo.TRef sig ⟨S_, .i32⟩) select,
    StableHlo.TRef.unary main_call8_call0.v0 (.of main_call8_v3 : StableHlo.TRef sig ⟨S8x8192, .i32⟩) (broadcastInDim S8x8192 ![] bcast_S_S8x8192),
    StableHlo.TRef.binary (.of main_v42 : StableHlo.TRef sig ⟨S8x8192, .i32⟩) (.of main_call8_v3 : StableHlo.TRef sig ⟨S8x8192, .i32⟩) (.of main_call8_v4 : StableHlo.TRef sig ⟨S8x8192, .i32⟩) Host.remsi,
    StableHlo.TRef.nullary (.of main_call8_c_1 : StableHlo.TRef sig ⟨S_, .i32⟩) (constantI S_ 32 0#32),
    StableHlo.TRef.unary (.of main_call8_c_1 : StableHlo.TRef sig ⟨S_, .i32⟩) (.of main_call8_v5 : StableHlo.TRef sig ⟨S8x8192, .i32⟩) (broadcastInDim S8x8192 ![] bcast_S_S8x8192),
    StableHlo.TRef.binary (.of main_call8_v4 : StableHlo.TRef sig ⟨S8x8192, .i32⟩) (.of main_call8_v5 : StableHlo.TRef sig ⟨S8x8192, .i32⟩) (.of main_call8_v6 : StableHlo.TRef sig ⟨S8x8192, .i1⟩) (cmpi .ne),
    StableHlo.TRef.nullary (.of main_call8_c_2 : StableHlo.TRef sig ⟨S_, .i32⟩) (constantI S_ 32 0#32),
    StableHlo.TRef.unary (.of main_call8_c_2 : StableHlo.TRef sig ⟨S_, .i32⟩) (.of main_call8_v7 : StableHlo.TRef sig ⟨S8x8192, .i32⟩) (broadcastInDim S8x8192 ![] bcast_S_S8x8192),
    StableHlo.TRef.binary (.of main_call8_v4 : StableHlo.TRef sig ⟨S8x8192, .i32⟩) (.of main_call8_v7 : StableHlo.TRef sig ⟨S8x8192, .i32⟩) (.of main_call8_v8 : StableHlo.TRef sig ⟨S8x8192, .i1⟩) (cmpi .slt),
    StableHlo.TRef.nullary (.of main_call8_c_3 : StableHlo.TRef sig ⟨S_, .i32⟩) (constantI S_ 32 0#32),
    StableHlo.TRef.binary main_call8_call0.v0 (.of main_call8_c_3 : StableHlo.TRef sig ⟨S_, .i32⟩) (.of main_call8_v9 : StableHlo.TRef sig ⟨S_, .i1⟩) (cmpi .slt),
    StableHlo.TRef.unary (.of main_call8_v9 : StableHlo.TRef sig ⟨S_, .i1⟩) (.of main_call8_v10 : StableHlo.TRef sig ⟨S8x8192, .i1⟩) (broadcastInDim S8x8192 ![] bcast_S_S8x8192),
    StableHlo.TRef.binary (.of main_call8_v8 : StableHlo.TRef sig ⟨S8x8192, .i1⟩) (.of main_call8_v10 : StableHlo.TRef sig ⟨S8x8192, .i1⟩) (.of main_call8_v11 : StableHlo.TRef sig ⟨S8x8192, .i1⟩) (cmpi .ne),
    StableHlo.TRef.binary (.of main_call8_v11 : StableHlo.TRef sig ⟨S8x8192, .i1⟩) (.of main_call8_v6 : StableHlo.TRef sig ⟨S8x8192, .i1⟩) (.of main_call8_v12 : StableHlo.TRef sig ⟨S8x8192, .i1⟩) andi,
    StableHlo.TRef.unary main_call8_call0.v0 (.of main_call8_v13 : StableHlo.TRef sig ⟨S8x8192, .i32⟩) (broadcastInDim S8x8192 ![] bcast_S_S8x8192),
    StableHlo.TRef.binary (.of main_call8_v4 : StableHlo.TRef sig ⟨S8x8192, .i32⟩) (.of main_call8_v13 : StableHlo.TRef sig ⟨S8x8192, .i32⟩) (.of main_call8_v14 : StableHlo.TRef sig ⟨S8x8192, .i32⟩) addi,
    StableHlo.TRef.ternary (.of main_call8_v12 : StableHlo.TRef sig ⟨S8x8192, .i1⟩) (.of main_call8_v14 : StableHlo.TRef sig ⟨S8x8192, .i32⟩) (.of main_call8_v4 : StableHlo.TRef sig ⟨S8x8192, .i32⟩) (.of main_v43 : StableHlo.TRef sig ⟨S8x8192, .i32⟩) select ]

abbrev hostOps0_18 : List (HloOp τ sig (Elt F)) :=
  [ StableHlo.unary main_v36 main_v44 ((extractStridedSlice S8x8191 ![0, 0] · slices_S8x8192_S8x8191_0_0) : (⟨S8x8192, .i1⟩ : BufTy).Contents (Elt F) → (⟨S8x8191, .i1⟩ : BufTy).Contents (Elt F)),
    StableHlo.nullary main_c_20 (constantI S_ 1 1#1) ]

abbrev hostOps0_19 : List (HloOp τ sig (Elt F)) :=
  [ StableHlo.TRef.binary (.of main_v44 : StableHlo.TRef sig ⟨S8x8191, .i1⟩) (.of main_c_20 : StableHlo.TRef sig ⟨S_, .i1⟩) (.of main_v45 : StableHlo.TRef sig ⟨S8x8192, .i1⟩) (fun x v => pad S8x8192 ![0, 1] ![0, 0] ![0, 0] x v pads_S8x8191_S8x8192_000_100 h_S_) ]

abbrev hostOps0_20 : List (HloOp τ sig (Elt F)) :=
  [ StableHlo.binary main_v45 main_v18 main_v46 ori,
    StableHlo.nullary main_c_21 (constantI S_ 32 4096#32) ]

abbrev hostOps0_21 : List (HloOp τ sig (Elt F)) :=
  [ StableHlo.TRef.unary (.of main_c_21 : StableHlo.TRef sig ⟨S_, .i32⟩) (.of main_call10_v0 : StableHlo.TRef sig ⟨S_, .i32⟩) id,
    StableHlo.TRef.unary (.of main_call10_v0 : StableHlo.TRef sig ⟨S_, .i32⟩) (.of main_call10_v1 : StableHlo.TRef sig ⟨S8x8192, .i32⟩) (broadcastInDim S8x8192 ![] bcast_S_S8x8192),
    StableHlo.TRef.ternary (.of main_v46 : StableHlo.TRef sig ⟨S8x8192, .i1⟩) (.of main_call10_v1 : StableHlo.TRef sig ⟨S8x8192, .i32⟩) (.of main_v43 : StableHlo.TRef sig ⟨S8x8192, .i32⟩) (.of main_v47 : StableHlo.TRef sig ⟨S8x8192, .i32⟩) select ]

abbrev hostOps0_22 : List (HloOp τ sig (Elt F)) :=
  [ StableHlo.unary main_v43 main_v48 ((extractStridedSlice S8x8191 ![0, 0] · slices_S8x8192_S8x8191_0_0) : (⟨S8x8192, .i32⟩ : BufTy).Contents (Elt F) → (⟨S8x8191, .i32⟩ : BufTy).Contents (Elt F)),
    StableHlo.nullary main_c_22 (constantI S_ 32 0#32) ]

abbrev hostOps0_23 : List (HloOp τ sig (Elt F)) :=
  [ StableHlo.TRef.unary (.of main_c_22 : StableHlo.TRef sig ⟨S_, .i32⟩) (.of main_call11_v0 : StableHlo.TRef sig ⟨S_, .i32⟩) id,
    StableHlo.TRef.binary (.of main_v48 : StableHlo.TRef sig ⟨S8x8191, .i32⟩) (.of main_call11_v0 : StableHlo.TRef sig ⟨S_, .i32⟩) (.of main_v49 : StableHlo.TRef sig ⟨S8x8192, .i32⟩) (fun x v => pad S8x8192 ![0, 1] ![0, 0] ![0, 0] x v pads_S8x8191_S8x8192_000_100 h_S_) ]

abbrev hostOps0_24 : List (HloOp τ sig (Elt F)) :=
  [ StableHlo.nullary main_c_23 (constantI S_ 32 31#32),
    StableHlo.unary main_c_23 main_v50 (broadcastInDim S8x8192 ![] bcast_S_S8x8192),
    StableHlo.binary main_v49 main_v50 main_v51 muli,
    StableHlo.binary main_v51 main_v16 main_v52 addi,
    StableHlo.nullary main_c_24 (constantI S_ 32 4096#32) ]

abbrev hostOps0_25 : List (HloOp τ sig (Elt F)) :=
  [ StableHlo.TRef.unary (.of main_c_24 : StableHlo.TRef sig ⟨S_, .i32⟩) (.of main_call12_v0 : StableHlo.TRef sig ⟨S_, .i32⟩) id,
    StableHlo.TRef.nullary (.of main_call12_c : StableHlo.TRef sig ⟨S_, .i32⟩) (constantI S_ 32 0#32),
    StableHlo.TRef.binary (.of main_call12_v0 : StableHlo.TRef sig ⟨S_, .i32⟩) (.of main_call12_c : StableHlo.TRef sig ⟨S_, .i32⟩) (.of main_call12_v1 : StableHlo.TRef sig ⟨S_, .i1⟩) (cmpi .eq),
    StableHlo.TRef.nullary (.of main_call12_c_0 : StableHlo.TRef sig ⟨S_, .i32⟩) (constantI S_ 32 1#32),
    StableHlo.TRef.ternary (.of main_call12_v1 : StableHlo.TRef sig ⟨S_, .i1⟩) (.of main_call12_c_0 : StableHlo.TRef sig ⟨S_, .i32⟩) (.of main_call12_v0 : StableHlo.TRef sig ⟨S_, .i32⟩) (.of main_call12_v2 : StableHlo.TRef sig ⟨S_, .i32⟩) select,
    StableHlo.TRef.unary main_call12_call0.v0 (.of main_call12_v3 : StableHlo.TRef sig ⟨S8x8192, .i32⟩) (broadcastInDim S8x8192 ![] bcast_S_S8x8192),
    StableHlo.TRef.binary (.of main_v52 : StableHlo.TRef sig ⟨S8x8192, .i32⟩) (.of main_call12_v3 : StableHlo.TRef sig ⟨S8x8192, .i32⟩) (.of main_call12_v4 : StableHlo.TRef sig ⟨S8x8192, .i32⟩) Host.remsi,
    StableHlo.TRef.nullary (.of main_call12_c_1 : StableHlo.TRef sig ⟨S_, .i32⟩) (constantI S_ 32 0#32),
    StableHlo.TRef.unary (.of main_call12_c_1 : StableHlo.TRef sig ⟨S_, .i32⟩) (.of main_call12_v5 : StableHlo.TRef sig ⟨S8x8192, .i32⟩) (broadcastInDim S8x8192 ![] bcast_S_S8x8192),
    StableHlo.TRef.binary (.of main_call12_v4 : StableHlo.TRef sig ⟨S8x8192, .i32⟩) (.of main_call12_v5 : StableHlo.TRef sig ⟨S8x8192, .i32⟩) (.of main_call12_v6 : StableHlo.TRef sig ⟨S8x8192, .i1⟩) (cmpi .ne),
    StableHlo.TRef.nullary (.of main_call12_c_2 : StableHlo.TRef sig ⟨S_, .i32⟩) (constantI S_ 32 0#32),
    StableHlo.TRef.unary (.of main_call12_c_2 : StableHlo.TRef sig ⟨S_, .i32⟩) (.of main_call12_v7 : StableHlo.TRef sig ⟨S8x8192, .i32⟩) (broadcastInDim S8x8192 ![] bcast_S_S8x8192),
    StableHlo.TRef.binary (.of main_call12_v4 : StableHlo.TRef sig ⟨S8x8192, .i32⟩) (.of main_call12_v7 : StableHlo.TRef sig ⟨S8x8192, .i32⟩) (.of main_call12_v8 : StableHlo.TRef sig ⟨S8x8192, .i1⟩) (cmpi .slt),
    StableHlo.TRef.nullary (.of main_call12_c_3 : StableHlo.TRef sig ⟨S_, .i32⟩) (constantI S_ 32 0#32),
    StableHlo.TRef.binary main_call12_call0.v0 (.of main_call12_c_3 : StableHlo.TRef sig ⟨S_, .i32⟩) (.of main_call12_v9 : StableHlo.TRef sig ⟨S_, .i1⟩) (cmpi .slt),
    StableHlo.TRef.unary (.of main_call12_v9 : StableHlo.TRef sig ⟨S_, .i1⟩) (.of main_call12_v10 : StableHlo.TRef sig ⟨S8x8192, .i1⟩) (broadcastInDim S8x8192 ![] bcast_S_S8x8192),
    StableHlo.TRef.binary (.of main_call12_v8 : StableHlo.TRef sig ⟨S8x8192, .i1⟩) (.of main_call12_v10 : StableHlo.TRef sig ⟨S8x8192, .i1⟩) (.of main_call12_v11 : StableHlo.TRef sig ⟨S8x8192, .i1⟩) (cmpi .ne),
    StableHlo.TRef.binary (.of main_call12_v11 : StableHlo.TRef sig ⟨S8x8192, .i1⟩) (.of main_call12_v6 : StableHlo.TRef sig ⟨S8x8192, .i1⟩) (.of main_call12_v12 : StableHlo.TRef sig ⟨S8x8192, .i1⟩) andi,
    StableHlo.TRef.unary main_call12_call0.v0 (.of main_call12_v13 : StableHlo.TRef sig ⟨S8x8192, .i32⟩) (broadcastInDim S8x8192 ![] bcast_S_S8x8192),
    StableHlo.TRef.binary (.of main_call12_v4 : StableHlo.TRef sig ⟨S8x8192, .i32⟩) (.of main_call12_v13 : StableHlo.TRef sig ⟨S8x8192, .i32⟩) (.of main_call12_v14 : StableHlo.TRef sig ⟨S8x8192, .i32⟩) addi,
    StableHlo.TRef.ternary (.of main_call12_v12 : StableHlo.TRef sig ⟨S8x8192, .i1⟩) (.of main_call12_v14 : StableHlo.TRef sig ⟨S8x8192, .i32⟩) (.of main_call12_v4 : StableHlo.TRef sig ⟨S8x8192, .i32⟩) (.of main_v53 : StableHlo.TRef sig ⟨S8x8192, .i32⟩) select ]

abbrev hostOps0_26 : List (HloOp τ sig (Elt F)) :=
  [ StableHlo.unary main_v46 main_v54 ((extractStridedSlice S8x8191 ![0, 0] · slices_S8x8192_S8x8191_0_0) : (⟨S8x8192, .i1⟩ : BufTy).Contents (Elt F) → (⟨S8x8191, .i1⟩ : BufTy).Contents (Elt F)),
    StableHlo.nullary main_c_25 (constantI S_ 1 1#1) ]

abbrev hostOps0_27 : List (HloOp τ sig (Elt F)) :=
  [ StableHlo.TRef.binary (.of main_v54 : StableHlo.TRef sig ⟨S8x8191, .i1⟩) (.of main_c_25 : StableHlo.TRef sig ⟨S_, .i1⟩) (.of main_v55 : StableHlo.TRef sig ⟨S8x8192, .i1⟩) (fun x v => pad S8x8192 ![0, 1] ![0, 0] ![0, 0] x v pads_S8x8191_S8x8192_000_100 h_S_) ]

abbrev hostOps0_28 : List (HloOp τ sig (Elt F)) :=
  [ StableHlo.binary main_v55 main_v18 main_v56 ori,
    StableHlo.nullary main_c_26 (constantI S_ 32 4096#32) ]

abbrev hostOps0_29 : List (HloOp τ sig (Elt F)) :=
  [ StableHlo.TRef.unary (.of main_c_26 : StableHlo.TRef sig ⟨S_, .i32⟩) (.of main_call14_v0 : StableHlo.TRef sig ⟨S_, .i32⟩) id,
    StableHlo.TRef.unary (.of main_call14_v0 : StableHlo.TRef sig ⟨S_, .i32⟩) (.of main_call14_v1 : StableHlo.TRef sig ⟨S8x8192, .i32⟩) (broadcastInDim S8x8192 ![] bcast_S_S8x8192),
    StableHlo.TRef.ternary (.of main_v56 : StableHlo.TRef sig ⟨S8x8192, .i1⟩) (.of main_call14_v1 : StableHlo.TRef sig ⟨S8x8192, .i32⟩) (.of main_v53 : StableHlo.TRef sig ⟨S8x8192, .i32⟩) (.of main_v57 : StableHlo.TRef sig ⟨S8x8192, .i32⟩) select ]

abbrev hostOps0_30 : List (HloOp τ sig (Elt F)) :=
  [ StableHlo.unary main_v53 main_v58 ((extractStridedSlice S8x8191 ![0, 0] · slices_S8x8192_S8x8191_0_0) : (⟨S8x8192, .i32⟩ : BufTy).Contents (Elt F) → (⟨S8x8191, .i32⟩ : BufTy).Contents (Elt F)),
    StableHlo.nullary main_c_27 (constantI S_ 32 0#32) ]

abbrev hostOps0_31 : List (HloOp τ sig (Elt F)) :=
  [ StableHlo.TRef.unary (.of main_c_27 : StableHlo.TRef sig ⟨S_, .i32⟩) (.of main_call15_v0 : StableHlo.TRef sig ⟨S_, .i32⟩) id,
    StableHlo.TRef.binary (.of main_v58 : StableHlo.TRef sig ⟨S8x8191, .i32⟩) (.of main_call15_v0 : StableHlo.TRef sig ⟨S_, .i32⟩) (.of main_v59 : StableHlo.TRef sig ⟨S8x8192, .i32⟩) (fun x v => pad S8x8192 ![0, 1] ![0, 0] ![0, 0] x v pads_S8x8191_S8x8192_000_100 h_S_) ]

abbrev hostOps0_32 : List (HloOp τ sig (Elt F)) :=
  [ StableHlo.nullary main_c_28 (constantI S_ 32 31#32),
    StableHlo.unary main_c_28 main_v60 (broadcastInDim S8x8192 ![] bcast_S_S8x8192),
    StableHlo.binary main_v59 main_v60 main_v61 muli,
    StableHlo.binary main_v61 main_v16 main_v62 addi,
    StableHlo.nullary main_c_29 (constantI S_ 32 4096#32) ]

abbrev hostOps0_33 : List (HloOp τ sig (Elt F)) :=
  [ StableHlo.TRef.unary (.of main_c_29 : StableHlo.TRef sig ⟨S_, .i32⟩) (.of main_call16_v0 : StableHlo.TRef sig ⟨S_, .i32⟩) id,
    StableHlo.TRef.nullary (.of main_call16_c : StableHlo.TRef sig ⟨S_, .i32⟩) (constantI S_ 32 0#32),
    StableHlo.TRef.binary (.of main_call16_v0 : StableHlo.TRef sig ⟨S_, .i32⟩) (.of main_call16_c : StableHlo.TRef sig ⟨S_, .i32⟩) (.of main_call16_v1 : StableHlo.TRef sig ⟨S_, .i1⟩) (cmpi .eq),
    StableHlo.TRef.nullary (.of main_call16_c_0 : StableHlo.TRef sig ⟨S_, .i32⟩) (constantI S_ 32 1#32),
    StableHlo.TRef.ternary (.of main_call16_v1 : StableHlo.TRef sig ⟨S_, .i1⟩) (.of main_call16_c_0 : StableHlo.TRef sig ⟨S_, .i32⟩) (.of main_call16_v0 : StableHlo.TRef sig ⟨S_, .i32⟩) (.of main_call16_v2 : StableHlo.TRef sig ⟨S_, .i32⟩) select,
    StableHlo.TRef.unary main_call16_call0.v0 (.of main_call16_v3 : StableHlo.TRef sig ⟨S8x8192, .i32⟩) (broadcastInDim S8x8192 ![] bcast_S_S8x8192),
    StableHlo.TRef.binary (.of main_v62 : StableHlo.TRef sig ⟨S8x8192, .i32⟩) (.of main_call16_v3 : StableHlo.TRef sig ⟨S8x8192, .i32⟩) (.of main_call16_v4 : StableHlo.TRef sig ⟨S8x8192, .i32⟩) Host.remsi,
    StableHlo.TRef.nullary (.of main_call16_c_1 : StableHlo.TRef sig ⟨S_, .i32⟩) (constantI S_ 32 0#32),
    StableHlo.TRef.unary (.of main_call16_c_1 : StableHlo.TRef sig ⟨S_, .i32⟩) (.of main_call16_v5 : StableHlo.TRef sig ⟨S8x8192, .i32⟩) (broadcastInDim S8x8192 ![] bcast_S_S8x8192),
    StableHlo.TRef.binary (.of main_call16_v4 : StableHlo.TRef sig ⟨S8x8192, .i32⟩) (.of main_call16_v5 : StableHlo.TRef sig ⟨S8x8192, .i32⟩) (.of main_call16_v6 : StableHlo.TRef sig ⟨S8x8192, .i1⟩) (cmpi .ne),
    StableHlo.TRef.nullary (.of main_call16_c_2 : StableHlo.TRef sig ⟨S_, .i32⟩) (constantI S_ 32 0#32),
    StableHlo.TRef.unary (.of main_call16_c_2 : StableHlo.TRef sig ⟨S_, .i32⟩) (.of main_call16_v7 : StableHlo.TRef sig ⟨S8x8192, .i32⟩) (broadcastInDim S8x8192 ![] bcast_S_S8x8192),
    StableHlo.TRef.binary (.of main_call16_v4 : StableHlo.TRef sig ⟨S8x8192, .i32⟩) (.of main_call16_v7 : StableHlo.TRef sig ⟨S8x8192, .i32⟩) (.of main_call16_v8 : StableHlo.TRef sig ⟨S8x8192, .i1⟩) (cmpi .slt),
    StableHlo.TRef.nullary (.of main_call16_c_3 : StableHlo.TRef sig ⟨S_, .i32⟩) (constantI S_ 32 0#32),
    StableHlo.TRef.binary main_call16_call0.v0 (.of main_call16_c_3 : StableHlo.TRef sig ⟨S_, .i32⟩) (.of main_call16_v9 : StableHlo.TRef sig ⟨S_, .i1⟩) (cmpi .slt),
    StableHlo.TRef.unary (.of main_call16_v9 : StableHlo.TRef sig ⟨S_, .i1⟩) (.of main_call16_v10 : StableHlo.TRef sig ⟨S8x8192, .i1⟩) (broadcastInDim S8x8192 ![] bcast_S_S8x8192),
    StableHlo.TRef.binary (.of main_call16_v8 : StableHlo.TRef sig ⟨S8x8192, .i1⟩) (.of main_call16_v10 : StableHlo.TRef sig ⟨S8x8192, .i1⟩) (.of main_call16_v11 : StableHlo.TRef sig ⟨S8x8192, .i1⟩) (cmpi .ne),
    StableHlo.TRef.binary (.of main_call16_v11 : StableHlo.TRef sig ⟨S8x8192, .i1⟩) (.of main_call16_v6 : StableHlo.TRef sig ⟨S8x8192, .i1⟩) (.of main_call16_v12 : StableHlo.TRef sig ⟨S8x8192, .i1⟩) andi,
    StableHlo.TRef.unary main_call16_call0.v0 (.of main_call16_v13 : StableHlo.TRef sig ⟨S8x8192, .i32⟩) (broadcastInDim S8x8192 ![] bcast_S_S8x8192),
    StableHlo.TRef.binary (.of main_call16_v4 : StableHlo.TRef sig ⟨S8x8192, .i32⟩) (.of main_call16_v13 : StableHlo.TRef sig ⟨S8x8192, .i32⟩) (.of main_call16_v14 : StableHlo.TRef sig ⟨S8x8192, .i32⟩) addi,
    StableHlo.TRef.ternary (.of main_call16_v12 : StableHlo.TRef sig ⟨S8x8192, .i1⟩) (.of main_call16_v14 : StableHlo.TRef sig ⟨S8x8192, .i32⟩) (.of main_call16_v4 : StableHlo.TRef sig ⟨S8x8192, .i32⟩) (.of main_v63 : StableHlo.TRef sig ⟨S8x8192, .i32⟩) select ]

abbrev hostOps0_34 : List (HloOp τ sig (Elt F)) :=
  [ StableHlo.unary main_v56 main_v64 ((extractStridedSlice S8x8191 ![0, 0] · slices_S8x8192_S8x8191_0_0) : (⟨S8x8192, .i1⟩ : BufTy).Contents (Elt F) → (⟨S8x8191, .i1⟩ : BufTy).Contents (Elt F)),
    StableHlo.nullary main_c_30 (constantI S_ 1 1#1) ]

abbrev hostOps0_35 : List (HloOp τ sig (Elt F)) :=
  [ StableHlo.TRef.binary (.of main_v64 : StableHlo.TRef sig ⟨S8x8191, .i1⟩) (.of main_c_30 : StableHlo.TRef sig ⟨S_, .i1⟩) (.of main_v65 : StableHlo.TRef sig ⟨S8x8192, .i1⟩) (fun x v => pad S8x8192 ![0, 1] ![0, 0] ![0, 0] x v pads_S8x8191_S8x8192_000_100 h_S_) ]

abbrev hostOps0_36 : List (HloOp τ sig (Elt F)) :=
  [ StableHlo.binary main_v65 main_v18 main_v66 ori,
    StableHlo.nullary main_c_31 (constantI S_ 32 4096#32) ]

abbrev hostOps0_37 : List (HloOp τ sig (Elt F)) :=
  [ StableHlo.TRef.unary (.of main_c_31 : StableHlo.TRef sig ⟨S_, .i32⟩) (.of main_call18_v0 : StableHlo.TRef sig ⟨S_, .i32⟩) id,
    StableHlo.TRef.unary (.of main_call18_v0 : StableHlo.TRef sig ⟨S_, .i32⟩) (.of main_call18_v1 : StableHlo.TRef sig ⟨S8x8192, .i32⟩) (broadcastInDim S8x8192 ![] bcast_S_S8x8192),
    StableHlo.TRef.ternary (.of main_v66 : StableHlo.TRef sig ⟨S8x8192, .i1⟩) (.of main_call18_v1 : StableHlo.TRef sig ⟨S8x8192, .i32⟩) (.of main_v63 : StableHlo.TRef sig ⟨S8x8192, .i32⟩) (.of main_v67 : StableHlo.TRef sig ⟨S8x8192, .i32⟩) select ]

abbrev hostOps0_38 : List (HloOp τ sig (Elt F)) :=
  [ StableHlo.unary main_v63 main_v68 ((extractStridedSlice S8x8191 ![0, 0] · slices_S8x8192_S8x8191_0_0) : (⟨S8x8192, .i32⟩ : BufTy).Contents (Elt F) → (⟨S8x8191, .i32⟩ : BufTy).Contents (Elt F)),
    StableHlo.nullary main_c_32 (constantI S_ 32 0#32) ]

abbrev hostOps0_39 : List (HloOp τ sig (Elt F)) :=
  [ StableHlo.TRef.unary (.of main_c_32 : StableHlo.TRef sig ⟨S_, .i32⟩) (.of main_call19_v0 : StableHlo.TRef sig ⟨S_, .i32⟩) id,
    StableHlo.TRef.binary (.of main_v68 : StableHlo.TRef sig ⟨S8x8191, .i32⟩) (.of main_call19_v0 : StableHlo.TRef sig ⟨S_, .i32⟩) (.of main_v69 : StableHlo.TRef sig ⟨S8x8192, .i32⟩) (fun x v => pad S8x8192 ![0, 1] ![0, 0] ![0, 0] x v pads_S8x8191_S8x8192_000_100 h_S_) ]

abbrev hostOps0_40 : List (HloOp τ sig (Elt F)) :=
  [ StableHlo.nullary main_c_33 (constantI S_ 32 31#32),
    StableHlo.unary main_c_33 main_v70 (broadcastInDim S8x8192 ![] bcast_S_S8x8192),
    StableHlo.binary main_v69 main_v70 main_v71 muli,
    StableHlo.binary main_v71 main_v16 main_v72 addi,
    StableHlo.nullary main_c_34 (constantI S_ 32 4096#32) ]

abbrev hostOps0_41 : List (HloOp τ sig (Elt F)) :=
  [ StableHlo.TRef.unary (.of main_c_34 : StableHlo.TRef sig ⟨S_, .i32⟩) (.of main_call20_v0 : StableHlo.TRef sig ⟨S_, .i32⟩) id,
    StableHlo.TRef.nullary (.of main_call20_c : StableHlo.TRef sig ⟨S_, .i32⟩) (constantI S_ 32 0#32),
    StableHlo.TRef.binary (.of main_call20_v0 : StableHlo.TRef sig ⟨S_, .i32⟩) (.of main_call20_c : StableHlo.TRef sig ⟨S_, .i32⟩) (.of main_call20_v1 : StableHlo.TRef sig ⟨S_, .i1⟩) (cmpi .eq),
    StableHlo.TRef.nullary (.of main_call20_c_0 : StableHlo.TRef sig ⟨S_, .i32⟩) (constantI S_ 32 1#32),
    StableHlo.TRef.ternary (.of main_call20_v1 : StableHlo.TRef sig ⟨S_, .i1⟩) (.of main_call20_c_0 : StableHlo.TRef sig ⟨S_, .i32⟩) (.of main_call20_v0 : StableHlo.TRef sig ⟨S_, .i32⟩) (.of main_call20_v2 : StableHlo.TRef sig ⟨S_, .i32⟩) select,
    StableHlo.TRef.unary main_call20_call0.v0 (.of main_call20_v3 : StableHlo.TRef sig ⟨S8x8192, .i32⟩) (broadcastInDim S8x8192 ![] bcast_S_S8x8192),
    StableHlo.TRef.binary (.of main_v72 : StableHlo.TRef sig ⟨S8x8192, .i32⟩) (.of main_call20_v3 : StableHlo.TRef sig ⟨S8x8192, .i32⟩) (.of main_call20_v4 : StableHlo.TRef sig ⟨S8x8192, .i32⟩) Host.remsi,
    StableHlo.TRef.nullary (.of main_call20_c_1 : StableHlo.TRef sig ⟨S_, .i32⟩) (constantI S_ 32 0#32),
    StableHlo.TRef.unary (.of main_call20_c_1 : StableHlo.TRef sig ⟨S_, .i32⟩) (.of main_call20_v5 : StableHlo.TRef sig ⟨S8x8192, .i32⟩) (broadcastInDim S8x8192 ![] bcast_S_S8x8192),
    StableHlo.TRef.binary (.of main_call20_v4 : StableHlo.TRef sig ⟨S8x8192, .i32⟩) (.of main_call20_v5 : StableHlo.TRef sig ⟨S8x8192, .i32⟩) (.of main_call20_v6 : StableHlo.TRef sig ⟨S8x8192, .i1⟩) (cmpi .ne),
    StableHlo.TRef.nullary (.of main_call20_c_2 : StableHlo.TRef sig ⟨S_, .i32⟩) (constantI S_ 32 0#32),
    StableHlo.TRef.unary (.of main_call20_c_2 : StableHlo.TRef sig ⟨S_, .i32⟩) (.of main_call20_v7 : StableHlo.TRef sig ⟨S8x8192, .i32⟩) (broadcastInDim S8x8192 ![] bcast_S_S8x8192),
    StableHlo.TRef.binary (.of main_call20_v4 : StableHlo.TRef sig ⟨S8x8192, .i32⟩) (.of main_call20_v7 : StableHlo.TRef sig ⟨S8x8192, .i32⟩) (.of main_call20_v8 : StableHlo.TRef sig ⟨S8x8192, .i1⟩) (cmpi .slt),
    StableHlo.TRef.nullary (.of main_call20_c_3 : StableHlo.TRef sig ⟨S_, .i32⟩) (constantI S_ 32 0#32),
    StableHlo.TRef.binary main_call20_call0.v0 (.of main_call20_c_3 : StableHlo.TRef sig ⟨S_, .i32⟩) (.of main_call20_v9 : StableHlo.TRef sig ⟨S_, .i1⟩) (cmpi .slt),
    StableHlo.TRef.unary (.of main_call20_v9 : StableHlo.TRef sig ⟨S_, .i1⟩) (.of main_call20_v10 : StableHlo.TRef sig ⟨S8x8192, .i1⟩) (broadcastInDim S8x8192 ![] bcast_S_S8x8192),
    StableHlo.TRef.binary (.of main_call20_v8 : StableHlo.TRef sig ⟨S8x8192, .i1⟩) (.of main_call20_v10 : StableHlo.TRef sig ⟨S8x8192, .i1⟩) (.of main_call20_v11 : StableHlo.TRef sig ⟨S8x8192, .i1⟩) (cmpi .ne),
    StableHlo.TRef.binary (.of main_call20_v11 : StableHlo.TRef sig ⟨S8x8192, .i1⟩) (.of main_call20_v6 : StableHlo.TRef sig ⟨S8x8192, .i1⟩) (.of main_call20_v12 : StableHlo.TRef sig ⟨S8x8192, .i1⟩) andi,
    StableHlo.TRef.unary main_call20_call0.v0 (.of main_call20_v13 : StableHlo.TRef sig ⟨S8x8192, .i32⟩) (broadcastInDim S8x8192 ![] bcast_S_S8x8192),
    StableHlo.TRef.binary (.of main_call20_v4 : StableHlo.TRef sig ⟨S8x8192, .i32⟩) (.of main_call20_v13 : StableHlo.TRef sig ⟨S8x8192, .i32⟩) (.of main_call20_v14 : StableHlo.TRef sig ⟨S8x8192, .i32⟩) addi,
    StableHlo.TRef.ternary (.of main_call20_v12 : StableHlo.TRef sig ⟨S8x8192, .i1⟩) (.of main_call20_v14 : StableHlo.TRef sig ⟨S8x8192, .i32⟩) (.of main_call20_v4 : StableHlo.TRef sig ⟨S8x8192, .i32⟩) (.of main_v73 : StableHlo.TRef sig ⟨S8x8192, .i32⟩) select ]

abbrev hostOps0_42 : List (HloOp τ sig (Elt F)) :=
  [ StableHlo.unary main_v66 main_v74 ((extractStridedSlice S8x8191 ![0, 0] · slices_S8x8192_S8x8191_0_0) : (⟨S8x8192, .i1⟩ : BufTy).Contents (Elt F) → (⟨S8x8191, .i1⟩ : BufTy).Contents (Elt F)),
    StableHlo.nullary main_c_35 (constantI S_ 1 1#1) ]

abbrev hostOps0_43 : List (HloOp τ sig (Elt F)) :=
  [ StableHlo.TRef.binary (.of main_v74 : StableHlo.TRef sig ⟨S8x8191, .i1⟩) (.of main_c_35 : StableHlo.TRef sig ⟨S_, .i1⟩) (.of main_v75 : StableHlo.TRef sig ⟨S8x8192, .i1⟩) (fun x v => pad S8x8192 ![0, 1] ![0, 0] ![0, 0] x v pads_S8x8191_S8x8192_000_100 h_S_) ]

abbrev hostOps0_44 : List (HloOp τ sig (Elt F)) :=
  [ StableHlo.binary main_v75 main_v18 main_v76 ori,
    StableHlo.nullary main_c_36 (constantI S_ 32 4096#32) ]

abbrev hostOps0_45 : List (HloOp τ sig (Elt F)) :=
  [ StableHlo.TRef.unary (.of main_c_36 : StableHlo.TRef sig ⟨S_, .i32⟩) (.of main_call22_v0 : StableHlo.TRef sig ⟨S_, .i32⟩) id,
    StableHlo.TRef.unary (.of main_call22_v0 : StableHlo.TRef sig ⟨S_, .i32⟩) (.of main_call22_v1 : StableHlo.TRef sig ⟨S8x8192, .i32⟩) (broadcastInDim S8x8192 ![] bcast_S_S8x8192),
    StableHlo.TRef.ternary (.of main_v76 : StableHlo.TRef sig ⟨S8x8192, .i1⟩) (.of main_call22_v1 : StableHlo.TRef sig ⟨S8x8192, .i32⟩) (.of main_v73 : StableHlo.TRef sig ⟨S8x8192, .i32⟩) (.of main_v77 : StableHlo.TRef sig ⟨S8x8192, .i32⟩) select ]

abbrev hostOps0_46 : List (HloOp τ sig (Elt F)) :=
  [ StableHlo.unary main_v73 main_v78 ((extractStridedSlice S8x8191 ![0, 0] · slices_S8x8192_S8x8191_0_0) : (⟨S8x8192, .i32⟩ : BufTy).Contents (Elt F) → (⟨S8x8191, .i32⟩ : BufTy).Contents (Elt F)),
    StableHlo.nullary main_c_37 (constantI S_ 32 0#32) ]

abbrev hostOps0_47 : List (HloOp τ sig (Elt F)) :=
  [ StableHlo.TRef.unary (.of main_c_37 : StableHlo.TRef sig ⟨S_, .i32⟩) (.of main_call23_v0 : StableHlo.TRef sig ⟨S_, .i32⟩) id,
    StableHlo.TRef.binary (.of main_v78 : StableHlo.TRef sig ⟨S8x8191, .i32⟩) (.of main_call23_v0 : StableHlo.TRef sig ⟨S_, .i32⟩) (.of main_v79 : StableHlo.TRef sig ⟨S8x8192, .i32⟩) (fun x v => pad S8x8192 ![0, 1] ![0, 0] ![0, 0] x v pads_S8x8191_S8x8192_000_100 h_S_) ]

abbrev hostOps0_48 : List (HloOp τ sig (Elt F)) :=
  [ StableHlo.nullary main_c_38 (constantI S_ 32 31#32),
    StableHlo.unary main_c_38 main_v80 (broadcastInDim S8x8192 ![] bcast_S_S8x8192),
    StableHlo.binary main_v79 main_v80 main_v81 muli,
    StableHlo.binary main_v81 main_v16 main_v82 addi,
    StableHlo.nullary main_c_39 (constantI S_ 32 4096#32) ]

abbrev hostOps0_49 : List (HloOp τ sig (Elt F)) :=
  [ StableHlo.TRef.unary (.of main_c_39 : StableHlo.TRef sig ⟨S_, .i32⟩) (.of main_call24_v0 : StableHlo.TRef sig ⟨S_, .i32⟩) id,
    StableHlo.TRef.nullary (.of main_call24_c : StableHlo.TRef sig ⟨S_, .i32⟩) (constantI S_ 32 0#32),
    StableHlo.TRef.binary (.of main_call24_v0 : StableHlo.TRef sig ⟨S_, .i32⟩) (.of main_call24_c : StableHlo.TRef sig ⟨S_, .i32⟩) (.of main_call24_v1 : StableHlo.TRef sig ⟨S_, .i1⟩) (cmpi .eq),
    StableHlo.TRef.nullary (.of main_call24_c_0 : StableHlo.TRef sig ⟨S_, .i32⟩) (constantI S_ 32 1#32),
    StableHlo.TRef.ternary (.of main_call24_v1 : StableHlo.TRef sig ⟨S_, .i1⟩) (.of main_call24_c_0 : StableHlo.TRef sig ⟨S_, .i32⟩) (.of main_call24_v0 : StableHlo.TRef sig ⟨S_, .i32⟩) (.of main_call24_v2 : StableHlo.TRef sig ⟨S_, .i32⟩) select,
    StableHlo.TRef.unary main_call24_call0.v0 (.of main_call24_v3 : StableHlo.TRef sig ⟨S8x8192, .i32⟩) (broadcastInDim S8x8192 ![] bcast_S_S8x8192),
    StableHlo.TRef.binary (.of main_v82 : StableHlo.TRef sig ⟨S8x8192, .i32⟩) (.of main_call24_v3 : StableHlo.TRef sig ⟨S8x8192, .i32⟩) (.of main_call24_v4 : StableHlo.TRef sig ⟨S8x8192, .i32⟩) Host.remsi,
    StableHlo.TRef.nullary (.of main_call24_c_1 : StableHlo.TRef sig ⟨S_, .i32⟩) (constantI S_ 32 0#32),
    StableHlo.TRef.unary (.of main_call24_c_1 : StableHlo.TRef sig ⟨S_, .i32⟩) (.of main_call24_v5 : StableHlo.TRef sig ⟨S8x8192, .i32⟩) (broadcastInDim S8x8192 ![] bcast_S_S8x8192),
    StableHlo.TRef.binary (.of main_call24_v4 : StableHlo.TRef sig ⟨S8x8192, .i32⟩) (.of main_call24_v5 : StableHlo.TRef sig ⟨S8x8192, .i32⟩) (.of main_call24_v6 : StableHlo.TRef sig ⟨S8x8192, .i1⟩) (cmpi .ne),
    StableHlo.TRef.nullary (.of main_call24_c_2 : StableHlo.TRef sig ⟨S_, .i32⟩) (constantI S_ 32 0#32),
    StableHlo.TRef.unary (.of main_call24_c_2 : StableHlo.TRef sig ⟨S_, .i32⟩) (.of main_call24_v7 : StableHlo.TRef sig ⟨S8x8192, .i32⟩) (broadcastInDim S8x8192 ![] bcast_S_S8x8192),
    StableHlo.TRef.binary (.of main_call24_v4 : StableHlo.TRef sig ⟨S8x8192, .i32⟩) (.of main_call24_v7 : StableHlo.TRef sig ⟨S8x8192, .i32⟩) (.of main_call24_v8 : StableHlo.TRef sig ⟨S8x8192, .i1⟩) (cmpi .slt),
    StableHlo.TRef.nullary (.of main_call24_c_3 : StableHlo.TRef sig ⟨S_, .i32⟩) (constantI S_ 32 0#32),
    StableHlo.TRef.binary main_call24_call0.v0 (.of main_call24_c_3 : StableHlo.TRef sig ⟨S_, .i32⟩) (.of main_call24_v9 : StableHlo.TRef sig ⟨S_, .i1⟩) (cmpi .slt),
    StableHlo.TRef.unary (.of main_call24_v9 : StableHlo.TRef sig ⟨S_, .i1⟩) (.of main_call24_v10 : StableHlo.TRef sig ⟨S8x8192, .i1⟩) (broadcastInDim S8x8192 ![] bcast_S_S8x8192),
    StableHlo.TRef.binary (.of main_call24_v8 : StableHlo.TRef sig ⟨S8x8192, .i1⟩) (.of main_call24_v10 : StableHlo.TRef sig ⟨S8x8192, .i1⟩) (.of main_call24_v11 : StableHlo.TRef sig ⟨S8x8192, .i1⟩) (cmpi .ne),
    StableHlo.TRef.binary (.of main_call24_v11 : StableHlo.TRef sig ⟨S8x8192, .i1⟩) (.of main_call24_v6 : StableHlo.TRef sig ⟨S8x8192, .i1⟩) (.of main_call24_v12 : StableHlo.TRef sig ⟨S8x8192, .i1⟩) andi,
    StableHlo.TRef.unary main_call24_call0.v0 (.of main_call24_v13 : StableHlo.TRef sig ⟨S8x8192, .i32⟩) (broadcastInDim S8x8192 ![] bcast_S_S8x8192),
    StableHlo.TRef.binary (.of main_call24_v4 : StableHlo.TRef sig ⟨S8x8192, .i32⟩) (.of main_call24_v13 : StableHlo.TRef sig ⟨S8x8192, .i32⟩) (.of main_call24_v14 : StableHlo.TRef sig ⟨S8x8192, .i32⟩) addi,
    StableHlo.TRef.ternary (.of main_call24_v12 : StableHlo.TRef sig ⟨S8x8192, .i1⟩) (.of main_call24_v14 : StableHlo.TRef sig ⟨S8x8192, .i32⟩) (.of main_call24_v4 : StableHlo.TRef sig ⟨S8x8192, .i32⟩) (.of main_v83 : StableHlo.TRef sig ⟨S8x8192, .i32⟩) select ]

abbrev hostOps0_50 : List (HloOp τ sig (Elt F)) :=
  [ StableHlo.unary main_v76 main_v84 ((extractStridedSlice S8x8191 ![0, 0] · slices_S8x8192_S8x8191_0_0) : (⟨S8x8192, .i1⟩ : BufTy).Contents (Elt F) → (⟨S8x8191, .i1⟩ : BufTy).Contents (Elt F)),
    StableHlo.nullary main_c_40 (constantI S_ 1 1#1) ]

abbrev hostOps0_51 : List (HloOp τ sig (Elt F)) :=
  [ StableHlo.TRef.binary (.of main_v84 : StableHlo.TRef sig ⟨S8x8191, .i1⟩) (.of main_c_40 : StableHlo.TRef sig ⟨S_, .i1⟩) (.of main_v85 : StableHlo.TRef sig ⟨S8x8192, .i1⟩) (fun x v => pad S8x8192 ![0, 1] ![0, 0] ![0, 0] x v pads_S8x8191_S8x8192_000_100 h_S_) ]

abbrev hostOps0_52 : List (HloOp τ sig (Elt F)) :=
  [ StableHlo.binary main_v85 main_v18 main_v86 ori,
    StableHlo.nullary main_c_41 (constantI S_ 32 4096#32) ]

abbrev hostOps0_53 : List (HloOp τ sig (Elt F)) :=
  [ StableHlo.TRef.unary (.of main_c_41 : StableHlo.TRef sig ⟨S_, .i32⟩) (.of main_call26_v0 : StableHlo.TRef sig ⟨S_, .i32⟩) id,
    StableHlo.TRef.unary (.of main_call26_v0 : StableHlo.TRef sig ⟨S_, .i32⟩) (.of main_call26_v1 : StableHlo.TRef sig ⟨S8x8192, .i32⟩) (broadcastInDim S8x8192 ![] bcast_S_S8x8192),
    StableHlo.TRef.ternary (.of main_v86 : StableHlo.TRef sig ⟨S8x8192, .i1⟩) (.of main_call26_v1 : StableHlo.TRef sig ⟨S8x8192, .i32⟩) (.of main_v83 : StableHlo.TRef sig ⟨S8x8192, .i32⟩) (.of main_v87 : StableHlo.TRef sig ⟨S8x8192, .i32⟩) select ]

abbrev hostOps0_54 : List (HloOp τ sig (Elt F)) :=
  [ StableHlo.unary main_v83 main_v88 ((extractStridedSlice S8x8191 ![0, 0] · slices_S8x8192_S8x8191_0_0) : (⟨S8x8192, .i32⟩ : BufTy).Contents (Elt F) → (⟨S8x8191, .i32⟩ : BufTy).Contents (Elt F)),
    StableHlo.nullary main_c_42 (constantI S_ 32 0#32) ]

abbrev hostOps0_55 : List (HloOp τ sig (Elt F)) :=
  [ StableHlo.TRef.unary (.of main_c_42 : StableHlo.TRef sig ⟨S_, .i32⟩) (.of main_call27_v0 : StableHlo.TRef sig ⟨S_, .i32⟩) id,
    StableHlo.TRef.binary (.of main_v88 : StableHlo.TRef sig ⟨S8x8191, .i32⟩) (.of main_call27_v0 : StableHlo.TRef sig ⟨S_, .i32⟩) (.of main_v89 : StableHlo.TRef sig ⟨S8x8192, .i32⟩) (fun x v => pad S8x8192 ![0, 1] ![0, 0] ![0, 0] x v pads_S8x8191_S8x8192_000_100 h_S_) ]

abbrev hostOps0_56 : List (HloOp τ sig (Elt F)) :=
  [ StableHlo.nullary main_c_43 (constantI S_ 32 31#32),
    StableHlo.unary main_c_43 main_v90 (broadcastInDim S8x8192 ![] bcast_S_S8x8192),
    StableHlo.binary main_v89 main_v90 main_v91 muli,
    StableHlo.binary main_v91 main_v16 main_v92 addi,
    StableHlo.nullary main_c_44 (constantI S_ 32 4096#32) ]

abbrev hostOps0_57 : List (HloOp τ sig (Elt F)) :=
  [ StableHlo.TRef.unary (.of main_c_44 : StableHlo.TRef sig ⟨S_, .i32⟩) (.of main_call28_v0 : StableHlo.TRef sig ⟨S_, .i32⟩) id,
    StableHlo.TRef.nullary (.of main_call28_c : StableHlo.TRef sig ⟨S_, .i32⟩) (constantI S_ 32 0#32),
    StableHlo.TRef.binary (.of main_call28_v0 : StableHlo.TRef sig ⟨S_, .i32⟩) (.of main_call28_c : StableHlo.TRef sig ⟨S_, .i32⟩) (.of main_call28_v1 : StableHlo.TRef sig ⟨S_, .i1⟩) (cmpi .eq),
    StableHlo.TRef.nullary (.of main_call28_c_0 : StableHlo.TRef sig ⟨S_, .i32⟩) (constantI S_ 32 1#32),
    StableHlo.TRef.ternary (.of main_call28_v1 : StableHlo.TRef sig ⟨S_, .i1⟩) (.of main_call28_c_0 : StableHlo.TRef sig ⟨S_, .i32⟩) (.of main_call28_v0 : StableHlo.TRef sig ⟨S_, .i32⟩) (.of main_call28_v2 : StableHlo.TRef sig ⟨S_, .i32⟩) select,
    StableHlo.TRef.unary main_call28_call0.v0 (.of main_call28_v3 : StableHlo.TRef sig ⟨S8x8192, .i32⟩) (broadcastInDim S8x8192 ![] bcast_S_S8x8192),
    StableHlo.TRef.binary (.of main_v92 : StableHlo.TRef sig ⟨S8x8192, .i32⟩) (.of main_call28_v3 : StableHlo.TRef sig ⟨S8x8192, .i32⟩) (.of main_call28_v4 : StableHlo.TRef sig ⟨S8x8192, .i32⟩) Host.remsi,
    StableHlo.TRef.nullary (.of main_call28_c_1 : StableHlo.TRef sig ⟨S_, .i32⟩) (constantI S_ 32 0#32),
    StableHlo.TRef.unary (.of main_call28_c_1 : StableHlo.TRef sig ⟨S_, .i32⟩) (.of main_call28_v5 : StableHlo.TRef sig ⟨S8x8192, .i32⟩) (broadcastInDim S8x8192 ![] bcast_S_S8x8192),
    StableHlo.TRef.binary (.of main_call28_v4 : StableHlo.TRef sig ⟨S8x8192, .i32⟩) (.of main_call28_v5 : StableHlo.TRef sig ⟨S8x8192, .i32⟩) (.of main_call28_v6 : StableHlo.TRef sig ⟨S8x8192, .i1⟩) (cmpi .ne),
    StableHlo.TRef.nullary (.of main_call28_c_2 : StableHlo.TRef sig ⟨S_, .i32⟩) (constantI S_ 32 0#32),
    StableHlo.TRef.unary (.of main_call28_c_2 : StableHlo.TRef sig ⟨S_, .i32⟩) (.of main_call28_v7 : StableHlo.TRef sig ⟨S8x8192, .i32⟩) (broadcastInDim S8x8192 ![] bcast_S_S8x8192),
    StableHlo.TRef.binary (.of main_call28_v4 : StableHlo.TRef sig ⟨S8x8192, .i32⟩) (.of main_call28_v7 : StableHlo.TRef sig ⟨S8x8192, .i32⟩) (.of main_call28_v8 : StableHlo.TRef sig ⟨S8x8192, .i1⟩) (cmpi .slt),
    StableHlo.TRef.nullary (.of main_call28_c_3 : StableHlo.TRef sig ⟨S_, .i32⟩) (constantI S_ 32 0#32),
    StableHlo.TRef.binary main_call28_call0.v0 (.of main_call28_c_3 : StableHlo.TRef sig ⟨S_, .i32⟩) (.of main_call28_v9 : StableHlo.TRef sig ⟨S_, .i1⟩) (cmpi .slt),
    StableHlo.TRef.unary (.of main_call28_v9 : StableHlo.TRef sig ⟨S_, .i1⟩) (.of main_call28_v10 : StableHlo.TRef sig ⟨S8x8192, .i1⟩) (broadcastInDim S8x8192 ![] bcast_S_S8x8192),
    StableHlo.TRef.binary (.of main_call28_v8 : StableHlo.TRef sig ⟨S8x8192, .i1⟩) (.of main_call28_v10 : StableHlo.TRef sig ⟨S8x8192, .i1⟩) (.of main_call28_v11 : StableHlo.TRef sig ⟨S8x8192, .i1⟩) (cmpi .ne),
    StableHlo.TRef.binary (.of main_call28_v11 : StableHlo.TRef sig ⟨S8x8192, .i1⟩) (.of main_call28_v6 : StableHlo.TRef sig ⟨S8x8192, .i1⟩) (.of main_call28_v12 : StableHlo.TRef sig ⟨S8x8192, .i1⟩) andi,
    StableHlo.TRef.unary main_call28_call0.v0 (.of main_call28_v13 : StableHlo.TRef sig ⟨S8x8192, .i32⟩) (broadcastInDim S8x8192 ![] bcast_S_S8x8192),
    StableHlo.TRef.binary (.of main_call28_v4 : StableHlo.TRef sig ⟨S8x8192, .i32⟩) (.of main_call28_v13 : StableHlo.TRef sig ⟨S8x8192, .i32⟩) (.of main_call28_v14 : StableHlo.TRef sig ⟨S8x8192, .i32⟩) addi,
    StableHlo.TRef.ternary (.of main_call28_v12 : StableHlo.TRef sig ⟨S8x8192, .i1⟩) (.of main_call28_v14 : StableHlo.TRef sig ⟨S8x8192, .i32⟩) (.of main_call28_v4 : StableHlo.TRef sig ⟨S8x8192, .i32⟩) (.of main_v93 : StableHlo.TRef sig ⟨S8x8192, .i32⟩) select ]

abbrev hostOps0_58 : List (HloOp τ sig (Elt F)) :=
  [ StableHlo.unary main_v86 main_v94 ((extractStridedSlice S8x8191 ![0, 0] · slices_S8x8192_S8x8191_0_0) : (⟨S8x8192, .i1⟩ : BufTy).Contents (Elt F) → (⟨S8x8191, .i1⟩ : BufTy).Contents (Elt F)),
    StableHlo.nullary main_c_45 (constantI S_ 1 1#1) ]

abbrev hostOps0_59 : List (HloOp τ sig (Elt F)) :=
  [ StableHlo.TRef.binary (.of main_v94 : StableHlo.TRef sig ⟨S8x8191, .i1⟩) (.of main_c_45 : StableHlo.TRef sig ⟨S_, .i1⟩) (.of main_v95 : StableHlo.TRef sig ⟨S8x8192, .i1⟩) (fun x v => pad S8x8192 ![0, 1] ![0, 0] ![0, 0] x v pads_S8x8191_S8x8192_000_100 h_S_) ]

abbrev hostOps0_60 : List (HloOp τ sig (Elt F)) :=
  [ StableHlo.binary main_v95 main_v18 main_v96 ori,
    StableHlo.nullary main_c_46 (constantI S_ 32 4096#32) ]

abbrev hostOps0_61 : List (HloOp τ sig (Elt F)) :=
  [ StableHlo.TRef.unary (.of main_c_46 : StableHlo.TRef sig ⟨S_, .i32⟩) (.of main_call30_v0 : StableHlo.TRef sig ⟨S_, .i32⟩) id,
    StableHlo.TRef.unary (.of main_call30_v0 : StableHlo.TRef sig ⟨S_, .i32⟩) (.of main_call30_v1 : StableHlo.TRef sig ⟨S8x8192, .i32⟩) (broadcastInDim S8x8192 ![] bcast_S_S8x8192),
    StableHlo.TRef.ternary (.of main_v96 : StableHlo.TRef sig ⟨S8x8192, .i1⟩) (.of main_call30_v1 : StableHlo.TRef sig ⟨S8x8192, .i32⟩) (.of main_v93 : StableHlo.TRef sig ⟨S8x8192, .i32⟩) (.of main_v97 : StableHlo.TRef sig ⟨S8x8192, .i32⟩) select ]

abbrev hostOps0_62 : List (HloOp τ sig (Elt F)) :=
  [ StableHlo.unary main_v93 main_v98 ((extractStridedSlice S8x8191 ![0, 0] · slices_S8x8192_S8x8191_0_0) : (⟨S8x8192, .i32⟩ : BufTy).Contents (Elt F) → (⟨S8x8191, .i32⟩ : BufTy).Contents (Elt F)),
    StableHlo.nullary main_c_47 (constantI S_ 32 0#32) ]

abbrev hostOps0_63 : List (HloOp τ sig (Elt F)) :=
  [ StableHlo.TRef.unary (.of main_c_47 : StableHlo.TRef sig ⟨S_, .i32⟩) (.of main_call31_v0 : StableHlo.TRef sig ⟨S_, .i32⟩) id,
    StableHlo.TRef.binary (.of main_v98 : StableHlo.TRef sig ⟨S8x8191, .i32⟩) (.of main_call31_v0 : StableHlo.TRef sig ⟨S_, .i32⟩) (.of main_v99 : StableHlo.TRef sig ⟨S8x8192, .i32⟩) (fun x v => pad S8x8192 ![0, 1] ![0, 0] ![0, 0] x v pads_S8x8191_S8x8192_000_100 h_S_) ]

abbrev hostOps0_64 : List (HloOp τ sig (Elt F)) :=
  [ StableHlo.nullary main_c_48 (constantI S_ 32 31#32),
    StableHlo.unary main_c_48 main_v100 (broadcastInDim S8x8192 ![] bcast_S_S8x8192),
    StableHlo.binary main_v99 main_v100 main_v101 muli,
    StableHlo.binary main_v101 main_v16 main_v102 addi,
    StableHlo.nullary main_c_49 (constantI S_ 32 4096#32) ]

abbrev hostOps0_65 : List (HloOp τ sig (Elt F)) :=
  [ StableHlo.TRef.unary (.of main_c_49 : StableHlo.TRef sig ⟨S_, .i32⟩) (.of main_call32_v0 : StableHlo.TRef sig ⟨S_, .i32⟩) id,
    StableHlo.TRef.nullary (.of main_call32_c : StableHlo.TRef sig ⟨S_, .i32⟩) (constantI S_ 32 0#32),
    StableHlo.TRef.binary (.of main_call32_v0 : StableHlo.TRef sig ⟨S_, .i32⟩) (.of main_call32_c : StableHlo.TRef sig ⟨S_, .i32⟩) (.of main_call32_v1 : StableHlo.TRef sig ⟨S_, .i1⟩) (cmpi .eq),
    StableHlo.TRef.nullary (.of main_call32_c_0 : StableHlo.TRef sig ⟨S_, .i32⟩) (constantI S_ 32 1#32),
    StableHlo.TRef.ternary (.of main_call32_v1 : StableHlo.TRef sig ⟨S_, .i1⟩) (.of main_call32_c_0 : StableHlo.TRef sig ⟨S_, .i32⟩) (.of main_call32_v0 : StableHlo.TRef sig ⟨S_, .i32⟩) (.of main_call32_v2 : StableHlo.TRef sig ⟨S_, .i32⟩) select,
    StableHlo.TRef.unary main_call32_call0.v0 (.of main_call32_v3 : StableHlo.TRef sig ⟨S8x8192, .i32⟩) (broadcastInDim S8x8192 ![] bcast_S_S8x8192),
    StableHlo.TRef.binary (.of main_v102 : StableHlo.TRef sig ⟨S8x8192, .i32⟩) (.of main_call32_v3 : StableHlo.TRef sig ⟨S8x8192, .i32⟩) (.of main_call32_v4 : StableHlo.TRef sig ⟨S8x8192, .i32⟩) Host.remsi,
    StableHlo.TRef.nullary (.of main_call32_c_1 : StableHlo.TRef sig ⟨S_, .i32⟩) (constantI S_ 32 0#32),
    StableHlo.TRef.unary (.of main_call32_c_1 : StableHlo.TRef sig ⟨S_, .i32⟩) (.of main_call32_v5 : StableHlo.TRef sig ⟨S8x8192, .i32⟩) (broadcastInDim S8x8192 ![] bcast_S_S8x8192),
    StableHlo.TRef.binary (.of main_call32_v4 : StableHlo.TRef sig ⟨S8x8192, .i32⟩) (.of main_call32_v5 : StableHlo.TRef sig ⟨S8x8192, .i32⟩) (.of main_call32_v6 : StableHlo.TRef sig ⟨S8x8192, .i1⟩) (cmpi .ne),
    StableHlo.TRef.nullary (.of main_call32_c_2 : StableHlo.TRef sig ⟨S_, .i32⟩) (constantI S_ 32 0#32),
    StableHlo.TRef.unary (.of main_call32_c_2 : StableHlo.TRef sig ⟨S_, .i32⟩) (.of main_call32_v7 : StableHlo.TRef sig ⟨S8x8192, .i32⟩) (broadcastInDim S8x8192 ![] bcast_S_S8x8192),
    StableHlo.TRef.binary (.of main_call32_v4 : StableHlo.TRef sig ⟨S8x8192, .i32⟩) (.of main_call32_v7 : StableHlo.TRef sig ⟨S8x8192, .i32⟩) (.of main_call32_v8 : StableHlo.TRef sig ⟨S8x8192, .i1⟩) (cmpi .slt),
    StableHlo.TRef.nullary (.of main_call32_c_3 : StableHlo.TRef sig ⟨S_, .i32⟩) (constantI S_ 32 0#32),
    StableHlo.TRef.binary main_call32_call0.v0 (.of main_call32_c_3 : StableHlo.TRef sig ⟨S_, .i32⟩) (.of main_call32_v9 : StableHlo.TRef sig ⟨S_, .i1⟩) (cmpi .slt),
    StableHlo.TRef.unary (.of main_call32_v9 : StableHlo.TRef sig ⟨S_, .i1⟩) (.of main_call32_v10 : StableHlo.TRef sig ⟨S8x8192, .i1⟩) (broadcastInDim S8x8192 ![] bcast_S_S8x8192),
    StableHlo.TRef.binary (.of main_call32_v8 : StableHlo.TRef sig ⟨S8x8192, .i1⟩) (.of main_call32_v10 : StableHlo.TRef sig ⟨S8x8192, .i1⟩) (.of main_call32_v11 : StableHlo.TRef sig ⟨S8x8192, .i1⟩) (cmpi .ne),
    StableHlo.TRef.binary (.of main_call32_v11 : StableHlo.TRef sig ⟨S8x8192, .i1⟩) (.of main_call32_v6 : StableHlo.TRef sig ⟨S8x8192, .i1⟩) (.of main_call32_v12 : StableHlo.TRef sig ⟨S8x8192, .i1⟩) andi,
    StableHlo.TRef.unary main_call32_call0.v0 (.of main_call32_v13 : StableHlo.TRef sig ⟨S8x8192, .i32⟩) (broadcastInDim S8x8192 ![] bcast_S_S8x8192),
    StableHlo.TRef.binary (.of main_call32_v4 : StableHlo.TRef sig ⟨S8x8192, .i32⟩) (.of main_call32_v13 : StableHlo.TRef sig ⟨S8x8192, .i32⟩) (.of main_call32_v14 : StableHlo.TRef sig ⟨S8x8192, .i32⟩) addi,
    StableHlo.TRef.ternary (.of main_call32_v12 : StableHlo.TRef sig ⟨S8x8192, .i1⟩) (.of main_call32_v14 : StableHlo.TRef sig ⟨S8x8192, .i32⟩) (.of main_call32_v4 : StableHlo.TRef sig ⟨S8x8192, .i32⟩) (.of main_v103 : StableHlo.TRef sig ⟨S8x8192, .i32⟩) select ]

abbrev hostOps0_66 : List (HloOp τ sig (Elt F)) :=
  [ StableHlo.unary main_v96 main_v104 ((extractStridedSlice S8x8191 ![0, 0] · slices_S8x8192_S8x8191_0_0) : (⟨S8x8192, .i1⟩ : BufTy).Contents (Elt F) → (⟨S8x8191, .i1⟩ : BufTy).Contents (Elt F)),
    StableHlo.nullary main_c_50 (constantI S_ 1 1#1) ]

abbrev hostOps0_67 : List (HloOp τ sig (Elt F)) :=
  [ StableHlo.TRef.binary (.of main_v104 : StableHlo.TRef sig ⟨S8x8191, .i1⟩) (.of main_c_50 : StableHlo.TRef sig ⟨S_, .i1⟩) (.of main_v105 : StableHlo.TRef sig ⟨S8x8192, .i1⟩) (fun x v => pad S8x8192 ![0, 1] ![0, 0] ![0, 0] x v pads_S8x8191_S8x8192_000_100 h_S_) ]

abbrev hostOps0_68 : List (HloOp τ sig (Elt F)) :=
  [ StableHlo.binary main_v105 main_v18 main_v106 ori,
    StableHlo.nullary main_c_51 (constantI S_ 32 4096#32) ]

abbrev hostOps0_69 : List (HloOp τ sig (Elt F)) :=
  [ StableHlo.TRef.unary (.of main_c_51 : StableHlo.TRef sig ⟨S_, .i32⟩) (.of main_call34_v0 : StableHlo.TRef sig ⟨S_, .i32⟩) id,
    StableHlo.TRef.unary (.of main_call34_v0 : StableHlo.TRef sig ⟨S_, .i32⟩) (.of main_call34_v1 : StableHlo.TRef sig ⟨S8x8192, .i32⟩) (broadcastInDim S8x8192 ![] bcast_S_S8x8192),
    StableHlo.TRef.ternary (.of main_v106 : StableHlo.TRef sig ⟨S8x8192, .i1⟩) (.of main_call34_v1 : StableHlo.TRef sig ⟨S8x8192, .i32⟩) (.of main_v103 : StableHlo.TRef sig ⟨S8x8192, .i32⟩) (.of main_v107 : StableHlo.TRef sig ⟨S8x8192, .i32⟩) select ]

abbrev hostOps0_70 : List (HloOp τ sig (Elt F)) :=
  [ StableHlo.unary main_v103 main_v108 ((extractStridedSlice S8x8191 ![0, 0] · slices_S8x8192_S8x8191_0_0) : (⟨S8x8192, .i32⟩ : BufTy).Contents (Elt F) → (⟨S8x8191, .i32⟩ : BufTy).Contents (Elt F)),
    StableHlo.nullary main_c_52 (constantI S_ 32 0#32) ]

abbrev hostOps0_71 : List (HloOp τ sig (Elt F)) :=
  [ StableHlo.TRef.unary (.of main_c_52 : StableHlo.TRef sig ⟨S_, .i32⟩) (.of main_call35_v0 : StableHlo.TRef sig ⟨S_, .i32⟩) id,
    StableHlo.TRef.binary (.of main_v108 : StableHlo.TRef sig ⟨S8x8191, .i32⟩) (.of main_call35_v0 : StableHlo.TRef sig ⟨S_, .i32⟩) (.of main_v109 : StableHlo.TRef sig ⟨S8x8192, .i32⟩) (fun x v => pad S8x8192 ![0, 1] ![0, 0] ![0, 0] x v pads_S8x8191_S8x8192_000_100 h_S_) ]

abbrev hostOps0_72 : List (HloOp τ sig (Elt F)) :=
  [ StableHlo.nullary main_c_53 (constantI S_ 32 31#32),
    StableHlo.unary main_c_53 main_v110 (broadcastInDim S8x8192 ![] bcast_S_S8x8192),
    StableHlo.binary main_v109 main_v110 main_v111 muli,
    StableHlo.binary main_v111 main_v16 main_v112 addi,
    StableHlo.nullary main_c_54 (constantI S_ 32 4096#32) ]

abbrev hostOps0_73 : List (HloOp τ sig (Elt F)) :=
  [ StableHlo.TRef.unary (.of main_c_54 : StableHlo.TRef sig ⟨S_, .i32⟩) (.of main_call36_v0 : StableHlo.TRef sig ⟨S_, .i32⟩) id,
    StableHlo.TRef.nullary (.of main_call36_c : StableHlo.TRef sig ⟨S_, .i32⟩) (constantI S_ 32 0#32),
    StableHlo.TRef.binary (.of main_call36_v0 : StableHlo.TRef sig ⟨S_, .i32⟩) (.of main_call36_c : StableHlo.TRef sig ⟨S_, .i32⟩) (.of main_call36_v1 : StableHlo.TRef sig ⟨S_, .i1⟩) (cmpi .eq),
    StableHlo.TRef.nullary (.of main_call36_c_0 : StableHlo.TRef sig ⟨S_, .i32⟩) (constantI S_ 32 1#32),
    StableHlo.TRef.ternary (.of main_call36_v1 : StableHlo.TRef sig ⟨S_, .i1⟩) (.of main_call36_c_0 : StableHlo.TRef sig ⟨S_, .i32⟩) (.of main_call36_v0 : StableHlo.TRef sig ⟨S_, .i32⟩) (.of main_call36_v2 : StableHlo.TRef sig ⟨S_, .i32⟩) select,
    StableHlo.TRef.unary main_call36_call0.v0 (.of main_call36_v3 : StableHlo.TRef sig ⟨S8x8192, .i32⟩) (broadcastInDim S8x8192 ![] bcast_S_S8x8192),
    StableHlo.TRef.binary (.of main_v112 : StableHlo.TRef sig ⟨S8x8192, .i32⟩) (.of main_call36_v3 : StableHlo.TRef sig ⟨S8x8192, .i32⟩) (.of main_call36_v4 : StableHlo.TRef sig ⟨S8x8192, .i32⟩) Host.remsi,
    StableHlo.TRef.nullary (.of main_call36_c_1 : StableHlo.TRef sig ⟨S_, .i32⟩) (constantI S_ 32 0#32),
    StableHlo.TRef.unary (.of main_call36_c_1 : StableHlo.TRef sig ⟨S_, .i32⟩) (.of main_call36_v5 : StableHlo.TRef sig ⟨S8x8192, .i32⟩) (broadcastInDim S8x8192 ![] bcast_S_S8x8192),
    StableHlo.TRef.binary (.of main_call36_v4 : StableHlo.TRef sig ⟨S8x8192, .i32⟩) (.of main_call36_v5 : StableHlo.TRef sig ⟨S8x8192, .i32⟩) (.of main_call36_v6 : StableHlo.TRef sig ⟨S8x8192, .i1⟩) (cmpi .ne),
    StableHlo.TRef.nullary (.of main_call36_c_2 : StableHlo.TRef sig ⟨S_, .i32⟩) (constantI S_ 32 0#32),
    StableHlo.TRef.unary (.of main_call36_c_2 : StableHlo.TRef sig ⟨S_, .i32⟩) (.of main_call36_v7 : StableHlo.TRef sig ⟨S8x8192, .i32⟩) (broadcastInDim S8x8192 ![] bcast_S_S8x8192),
    StableHlo.TRef.binary (.of main_call36_v4 : StableHlo.TRef sig ⟨S8x8192, .i32⟩) (.of main_call36_v7 : StableHlo.TRef sig ⟨S8x8192, .i32⟩) (.of main_call36_v8 : StableHlo.TRef sig ⟨S8x8192, .i1⟩) (cmpi .slt),
    StableHlo.TRef.nullary (.of main_call36_c_3 : StableHlo.TRef sig ⟨S_, .i32⟩) (constantI S_ 32 0#32),
    StableHlo.TRef.binary main_call36_call0.v0 (.of main_call36_c_3 : StableHlo.TRef sig ⟨S_, .i32⟩) (.of main_call36_v9 : StableHlo.TRef sig ⟨S_, .i1⟩) (cmpi .slt),
    StableHlo.TRef.unary (.of main_call36_v9 : StableHlo.TRef sig ⟨S_, .i1⟩) (.of main_call36_v10 : StableHlo.TRef sig ⟨S8x8192, .i1⟩) (broadcastInDim S8x8192 ![] bcast_S_S8x8192),
    StableHlo.TRef.binary (.of main_call36_v8 : StableHlo.TRef sig ⟨S8x8192, .i1⟩) (.of main_call36_v10 : StableHlo.TRef sig ⟨S8x8192, .i1⟩) (.of main_call36_v11 : StableHlo.TRef sig ⟨S8x8192, .i1⟩) (cmpi .ne),
    StableHlo.TRef.binary (.of main_call36_v11 : StableHlo.TRef sig ⟨S8x8192, .i1⟩) (.of main_call36_v6 : StableHlo.TRef sig ⟨S8x8192, .i1⟩) (.of main_call36_v12 : StableHlo.TRef sig ⟨S8x8192, .i1⟩) andi,
    StableHlo.TRef.unary main_call36_call0.v0 (.of main_call36_v13 : StableHlo.TRef sig ⟨S8x8192, .i32⟩) (broadcastInDim S8x8192 ![] bcast_S_S8x8192),
    StableHlo.TRef.binary (.of main_call36_v4 : StableHlo.TRef sig ⟨S8x8192, .i32⟩) (.of main_call36_v13 : StableHlo.TRef sig ⟨S8x8192, .i32⟩) (.of main_call36_v14 : StableHlo.TRef sig ⟨S8x8192, .i32⟩) addi,
    StableHlo.TRef.ternary (.of main_call36_v12 : StableHlo.TRef sig ⟨S8x8192, .i1⟩) (.of main_call36_v14 : StableHlo.TRef sig ⟨S8x8192, .i32⟩) (.of main_call36_v4 : StableHlo.TRef sig ⟨S8x8192, .i32⟩) (.of main_v113 : StableHlo.TRef sig ⟨S8x8192, .i32⟩) select ]

abbrev hostOps0_74 : List (HloOp τ sig (Elt F)) :=
  [ StableHlo.unary main_v106 main_v114 ((extractStridedSlice S8x8191 ![0, 0] · slices_S8x8192_S8x8191_0_0) : (⟨S8x8192, .i1⟩ : BufTy).Contents (Elt F) → (⟨S8x8191, .i1⟩ : BufTy).Contents (Elt F)),
    StableHlo.nullary main_c_55 (constantI S_ 1 1#1) ]

abbrev stretchesA : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74]

/-- Each operation is one of the host forms, all over TensorCore references. -/
theorem stretchesA_sub : (stretchesA : List (List (HloOp τ sig (Elt F)))).Forall fun l => l.Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]

end Cert.ReferenceIdeal.Hand

end
-- ==== Proof.R.Ops0b.lean ====
import proofs.«175239_j73718818668652_1_alg».proof.Proof.Gen.ReferenceIdeal
import Idealize.ShloMosaic.Lib.StableHlo.Run

set_option maxRecDepth 3636

noncomputable section

namespace Cert.ReferenceIdeal.Hand

open Idealize.ShloMosaic Idealize.ShloMosaic.TcCoe
open Idealize.SL Idealize.SL.Sem
open Cert.ReferenceIdeal Cert.ReferenceIdeal.Gen

variable {F : FTy → Type} [FloatOps F]

abbrev hostOps0_75 : List (HloOp τ sig (Elt F)) :=
  [ StableHlo.TRef.binary (.of main_v114 : StableHlo.TRef sig ⟨S8x8191, .i1⟩) (.of main_c_55 : StableHlo.TRef sig ⟨S_, .i1⟩) (.of main_v115 : StableHlo.TRef sig ⟨S8x8192, .i1⟩) (fun x v => pad S8x8192 ![0, 1] ![0, 0] ![0, 0] x v pads_S8x8191_S8x8192_000_100 h_S_) ]

abbrev hostOps0_76 : List (HloOp τ sig (Elt F)) :=
  [ StableHlo.binary main_v115 main_v18 main_v116 ori,
    StableHlo.nullary main_c_56 (constantI S_ 32 4096#32) ]

abbrev hostOps0_77 : List (HloOp τ sig (Elt F)) :=
  [ StableHlo.TRef.unary (.of main_c_56 : StableHlo.TRef sig ⟨S_, .i32⟩) (.of main_call38_v0 : StableHlo.TRef sig ⟨S_, .i32⟩) id,
    StableHlo.TRef.unary (.of main_call38_v0 : StableHlo.TRef sig ⟨S_, .i32⟩) (.of main_call38_v1 : StableHlo.TRef sig ⟨S8x8192, .i32⟩) (broadcastInDim S8x8192 ![] bcast_S_S8x8192),
    StableHlo.TRef.ternary (.of main_v116 : StableHlo.TRef sig ⟨S8x8192, .i1⟩) (.of main_call38_v1 : StableHlo.TRef sig ⟨S8x8192, .i32⟩) (.of main_v113 : StableHlo.TRef sig ⟨S8x8192, .i32⟩) (.of main_v117 : StableHlo.TRef sig ⟨S8x8192, .i32⟩) select ]

abbrev hostOps0_78 : List (HloOp τ sig (Elt F)) :=
  [ StableHlo.unary main_v113 main_v118 ((extractStridedSlice S8x8191 ![0, 0] · slices_S8x8192_S8x8191_0_0) : (⟨S8x8192, .i32⟩ : BufTy).Contents (Elt F) → (⟨S8x8191, .i32⟩ : BufTy).Contents (Elt F)),
    StableHlo.nullary main_c_57 (constantI S_ 32 0#32) ]

abbrev hostOps0_79 : List (HloOp τ sig (Elt F)) :=
  [ StableHlo.TRef.unary (.of main_c_57 : StableHlo.TRef sig ⟨S_, .i32⟩) (.of main_call39_v0 : StableHlo.TRef sig ⟨S_, .i32⟩) id,
    StableHlo.TRef.binary (.of main_v118 : StableHlo.TRef sig ⟨S8x8191, .i32⟩) (.of main_call39_v0 : StableHlo.TRef sig ⟨S_, .i32⟩) (.of main_v119 : StableHlo.TRef sig ⟨S8x8192, .i32⟩) (fun x v => pad S8x8192 ![0, 1] ![0, 0] ![0, 0] x v pads_S8x8191_S8x8192_000_100 h_S_) ]

abbrev hostOps0_80 : List (HloOp τ sig (Elt F)) :=
  [ StableHlo.nullary main_c_58 (constantI S_ 32 31#32),
    StableHlo.unary main_c_58 main_v120 (broadcastInDim S8x8192 ![] bcast_S_S8x8192),
    StableHlo.binary main_v119 main_v120 main_v121 muli,
    StableHlo.binary main_v121 main_v16 main_v122 addi,
    StableHlo.nullary main_c_59 (constantI S_ 32 4096#32) ]

abbrev hostOps0_81 : List (HloOp τ sig (Elt F)) :=
  [ StableHlo.TRef.unary (.of main_c_59 : StableHlo.TRef sig ⟨S_, .i32⟩) (.of main_call40_v0 : StableHlo.TRef sig ⟨S_, .i32⟩) id,
    StableHlo.TRef.nullary (.of main_call40_c : StableHlo.TRef sig ⟨S_, .i32⟩) (constantI S_ 32 0#32),
    StableHlo.TRef.binary (.of main_call40_v0 : StableHlo.TRef sig ⟨S_, .i32⟩) (.of main_call40_c : StableHlo.TRef sig ⟨S_, .i32⟩) (.of main_call40_v1 : StableHlo.TRef sig ⟨S_, .i1⟩) (cmpi .eq),
    StableHlo.TRef.nullary (.of main_call40_c_0 : StableHlo.TRef sig ⟨S_, .i32⟩) (constantI S_ 32 1#32),
    StableHlo.TRef.ternary (.of main_call40_v1 : StableHlo.TRef sig ⟨S_, .i1⟩) (.of main_call40_c_0 : StableHlo.TRef sig ⟨S_, .i32⟩) (.of main_call40_v0 : StableHlo.TRef sig ⟨S_, .i32⟩) (.of main_call40_v2 : StableHlo.TRef sig ⟨S_, .i32⟩) select,
    StableHlo.TRef.unary main_call40_call0.v0 (.of main_call40_v3 : StableHlo.TRef sig ⟨S8x8192, .i32⟩) (broadcastInDim S8x8192 ![] bcast_S_S8x8192),
    StableHlo.TRef.binary (.of main_v122 : StableHlo.TRef sig ⟨S8x8192, .i32⟩) (.of main_call40_v3 : StableHlo.TRef sig ⟨S8x8192, .i32⟩) (.of main_call40_v4 : StableHlo.TRef sig ⟨S8x8192, .i32⟩) Host.remsi,
    StableHlo.TRef.nullary (.of main_call40_c_1 : StableHlo.TRef sig ⟨S_, .i32⟩) (constantI S_ 32 0#32),
    StableHlo.TRef.unary (.of main_call40_c_1 : StableHlo.TRef sig ⟨S_, .i32⟩) (.of main_call40_v5 : StableHlo.TRef sig ⟨S8x8192, .i32⟩) (broadcastInDim S8x8192 ![] bcast_S_S8x8192),
    StableHlo.TRef.binary (.of main_call40_v4 : StableHlo.TRef sig ⟨S8x8192, .i32⟩) (.of main_call40_v5 : StableHlo.TRef sig ⟨S8x8192, .i32⟩) (.of main_call40_v6 : StableHlo.TRef sig ⟨S8x8192, .i1⟩) (cmpi .ne),
    StableHlo.TRef.nullary (.of main_call40_c_2 : StableHlo.TRef sig ⟨S_, .i32⟩) (constantI S_ 32 0#32),
    StableHlo.TRef.unary (.of main_call40_c_2 : StableHlo.TRef sig ⟨S_, .i32⟩) (.of main_call40_v7 : StableHlo.TRef sig ⟨S8x8192, .i32⟩) (broadcastInDim S8x8192 ![] bcast_S_S8x8192),
    StableHlo.TRef.binary (.of main_call40_v4 : StableHlo.TRef sig ⟨S8x8192, .i32⟩) (.of main_call40_v7 : StableHlo.TRef sig ⟨S8x8192, .i32⟩) (.of main_call40_v8 : StableHlo.TRef sig ⟨S8x8192, .i1⟩) (cmpi .slt),
    StableHlo.TRef.nullary (.of main_call40_c_3 : StableHlo.TRef sig ⟨S_, .i32⟩) (constantI S_ 32 0#32),
    StableHlo.TRef.binary main_call40_call0.v0 (.of main_call40_c_3 : StableHlo.TRef sig ⟨S_, .i32⟩) (.of main_call40_v9 : StableHlo.TRef sig ⟨S_, .i1⟩) (cmpi .slt),
    StableHlo.TRef.unary (.of main_call40_v9 : StableHlo.TRef sig ⟨S_, .i1⟩) (.of main_call40_v10 : StableHlo.TRef sig ⟨S8x8192, .i1⟩) (broadcastInDim S8x8192 ![] bcast_S_S8x8192),
    StableHlo.TRef.binary (.of main_call40_v8 : StableHlo.TRef sig ⟨S8x8192, .i1⟩) (.of main_call40_v10 : StableHlo.TRef sig ⟨S8x8192, .i1⟩) (.of main_call40_v11 : StableHlo.TRef sig ⟨S8x8192, .i1⟩) (cmpi .ne),
    StableHlo.TRef.binary (.of main_call40_v11 : StableHlo.TRef sig ⟨S8x8192, .i1⟩) (.of main_call40_v6 : StableHlo.TRef sig ⟨S8x8192, .i1⟩) (.of main_call40_v12 : StableHlo.TRef sig ⟨S8x8192, .i1⟩) andi,
    StableHlo.TRef.unary main_call40_call0.v0 (.of main_call40_v13 : StableHlo.TRef sig ⟨S8x8192, .i32⟩) (broadcastInDim S8x8192 ![] bcast_S_S8x8192),
    StableHlo.TRef.binary (.of main_call40_v4 : StableHlo.TRef sig ⟨S8x8192, .i32⟩) (.of main_call40_v13 : StableHlo.TRef sig ⟨S8x8192, .i32⟩) (.of main_call40_v14 : StableHlo.TRef sig ⟨S8x8192, .i32⟩) addi,
    StableHlo.TRef.ternary (.of main_call40_v12 : StableHlo.TRef sig ⟨S8x8192, .i1⟩) (.of main_call40_v14 : StableHlo.TRef sig ⟨S8x8192, .i32⟩) (.of main_call40_v4 : StableHlo.TRef sig ⟨S8x8192, .i32⟩) (.of main_v123 : StableHlo.TRef sig ⟨S8x8192, .i32⟩) select ]

abbrev hostOps0_82 : List (HloOp τ sig (Elt F)) :=
  [ StableHlo.unary main_v116 main_v124 ((extractStridedSlice S8x8191 ![0, 0] · slices_S8x8192_S8x8191_0_0) : (⟨S8x8192, .i1⟩ : BufTy).Contents (Elt F) → (⟨S8x8191, .i1⟩ : BufTy).Contents (Elt F)),
    StableHlo.nullary main_c_60 (constantI S_ 1 1#1) ]

abbrev hostOps0_83 : List (HloOp τ sig (Elt F)) :=
  [ StableHlo.TRef.binary (.of main_v124 : StableHlo.TRef sig ⟨S8x8191, .i1⟩) (.of main_c_60 : StableHlo.TRef sig ⟨S_, .i1⟩) (.of main_v125 : StableHlo.TRef sig ⟨S8x8192, .i1⟩) (fun x v => pad S8x8192 ![0, 1] ![0, 0] ![0, 0] x v pads_S8x8191_S8x8192_000_100 h_S_) ]

abbrev hostOps0_84 : List (HloOp τ sig (Elt F)) :=
  [ StableHlo.binary main_v125 main_v18 main_v126 ori,
    StableHlo.nullary main_c_61 (constantI S_ 32 4096#32) ]

abbrev hostOps0_85 : List (HloOp τ sig (Elt F)) :=
  [ StableHlo.TRef.unary (.of main_c_61 : StableHlo.TRef sig ⟨S_, .i32⟩) (.of main_call42_v0 : StableHlo.TRef sig ⟨S_, .i32⟩) id,
    StableHlo.TRef.unary (.of main_call42_v0 : StableHlo.TRef sig ⟨S_, .i32⟩) (.of main_call42_v1 : StableHlo.TRef sig ⟨S8x8192, .i32⟩) (broadcastInDim S8x8192 ![] bcast_S_S8x8192),
    StableHlo.TRef.ternary (.of main_v126 : StableHlo.TRef sig ⟨S8x8192, .i1⟩) (.of main_call42_v1 : StableHlo.TRef sig ⟨S8x8192, .i32⟩) (.of main_v123 : StableHlo.TRef sig ⟨S8x8192, .i32⟩) (.of main_v127 : StableHlo.TRef sig ⟨S8x8192, .i32⟩) select ]

abbrev hostOps0_86 : List (HloOp τ sig (Elt F)) :=
  [ StableHlo.unary main_v123 main_v128 ((extractStridedSlice S8x8191 ![0, 0] · slices_S8x8192_S8x8191_0_0) : (⟨S8x8192, .i32⟩ : BufTy).Contents (Elt F) → (⟨S8x8191, .i32⟩ : BufTy).Contents (Elt F)),
    StableHlo.nullary main_c_62 (constantI S_ 32 0#32) ]

abbrev hostOps0_87 : List (HloOp τ sig (Elt F)) :=
  [ StableHlo.TRef.unary (.of main_c_62 : StableHlo.TRef sig ⟨S_, .i32⟩) (.of main_call43_v0 : StableHlo.TRef sig ⟨S_, .i32⟩) id,
    StableHlo.TRef.binary (.of main_v128 : StableHlo.TRef sig ⟨S8x8191, .i32⟩) (.of main_call43_v0 : StableHlo.TRef sig ⟨S_, .i32⟩) (.of main_v129 : StableHlo.TRef sig ⟨S8x8192, .i32⟩) (fun x v => pad S8x8192 ![0, 1] ![0, 0] ![0, 0] x v pads_S8x8191_S8x8192_000_100 h_S_) ]

abbrev hostOps0_88 : List (HloOp τ sig (Elt F)) :=
  [ StableHlo.nullary main_c_63 (constantI S_ 32 31#32),
    StableHlo.unary main_c_63 main_v130 (broadcastInDim S8x8192 ![] bcast_S_S8x8192),
    StableHlo.binary main_v129 main_v130 main_v131 muli,
    StableHlo.binary main_v131 main_v16 main_v132 addi,
    StableHlo.nullary main_c_64 (constantI S_ 32 4096#32) ]

abbrev hostOps0_89 : List (HloOp τ sig (Elt F)) :=
  [ StableHlo.TRef.unary (.of main_c_64 : StableHlo.TRef sig ⟨S_, .i32⟩) (.of main_call44_v0 : StableHlo.TRef sig ⟨S_, .i32⟩) id,
    StableHlo.TRef.nullary (.of main_call44_c : StableHlo.TRef sig ⟨S_, .i32⟩) (constantI S_ 32 0#32),
    StableHlo.TRef.binary (.of main_call44_v0 : StableHlo.TRef sig ⟨S_, .i32⟩) (.of main_call44_c : StableHlo.TRef sig ⟨S_, .i32⟩) (.of main_call44_v1 : StableHlo.TRef sig ⟨S_, .i1⟩) (cmpi .eq),
    StableHlo.TRef.nullary (.of main_call44_c_0 : StableHlo.TRef sig ⟨S_, .i32⟩) (constantI S_ 32 1#32),
    StableHlo.TRef.ternary (.of main_call44_v1 : StableHlo.TRef sig ⟨S_, .i1⟩) (.of main_call44_c_0 : StableHlo.TRef sig ⟨S_, .i32⟩) (.of main_call44_v0 : StableHlo.TRef sig ⟨S_, .i32⟩) (.of main_call44_v2 : StableHlo.TRef sig ⟨S_, .i32⟩) select,
    StableHlo.TRef.unary main_call44_call0.v0 (.of main_call44_v3 : StableHlo.TRef sig ⟨S8x8192, .i32⟩) (broadcastInDim S8x8192 ![] bcast_S_S8x8192),
    StableHlo.TRef.binary (.of main_v132 : StableHlo.TRef sig ⟨S8x8192, .i32⟩) (.of main_call44_v3 : StableHlo.TRef sig ⟨S8x8192, .i32⟩) (.of main_call44_v4 : StableHlo.TRef sig ⟨S8x8192, .i32⟩) Host.remsi,
    StableHlo.TRef.nullary (.of main_call44_c_1 : StableHlo.TRef sig ⟨S_, .i32⟩) (constantI S_ 32 0#32),
    StableHlo.TRef.unary (.of main_call44_c_1 : StableHlo.TRef sig ⟨S_, .i32⟩) (.of main_call44_v5 : StableHlo.TRef sig ⟨S8x8192, .i32⟩) (broadcastInDim S8x8192 ![] bcast_S_S8x8192),
    StableHlo.TRef.binary (.of main_call44_v4 : StableHlo.TRef sig ⟨S8x8192, .i32⟩) (.of main_call44_v5 : StableHlo.TRef sig ⟨S8x8192, .i32⟩) (.of main_call44_v6 : StableHlo.TRef sig ⟨S8x8192, .i1⟩) (cmpi .ne),
    StableHlo.TRef.nullary (.of main_call44_c_2 : StableHlo.TRef sig ⟨S_, .i32⟩) (constantI S_ 32 0#32),
    StableHlo.TRef.unary (.of main_call44_c_2 : StableHlo.TRef sig ⟨S_, .i32⟩) (.of main_call44_v7 : StableHlo.TRef sig ⟨S8x8192, .i32⟩) (broadcastInDim S8x8192 ![] bcast_S_S8x8192),
    StableHlo.TRef.binary (.of main_call44_v4 : StableHlo.TRef sig ⟨S8x8192, .i32⟩) (.of main_call44_v7 : StableHlo.TRef sig ⟨S8x8192, .i32⟩) (.of main_call44_v8 : StableHlo.TRef sig ⟨S8x8192, .i1⟩) (cmpi .slt),
    StableHlo.TRef.nullary (.of main_call44_c_3 : StableHlo.TRef sig ⟨S_, .i32⟩) (constantI S_ 32 0#32),
    StableHlo.TRef.binary main_call44_call0.v0 (.of main_call44_c_3 : StableHlo.TRef sig ⟨S_, .i32⟩) (.of main_call44_v9 : StableHlo.TRef sig ⟨S_, .i1⟩) (cmpi .slt),
    StableHlo.TRef.unary (.of main_call44_v9 : StableHlo.TRef sig ⟨S_, .i1⟩) (.of main_call44_v10 : StableHlo.TRef sig ⟨S8x8192, .i1⟩) (broadcastInDim S8x8192 ![] bcast_S_S8x8192),
    StableHlo.TRef.binary (.of main_call44_v8 : StableHlo.TRef sig ⟨S8x8192, .i1⟩) (.of main_call44_v10 : StableHlo.TRef sig ⟨S8x8192, .i1⟩) (.of main_call44_v11 : StableHlo.TRef sig ⟨S8x8192, .i1⟩) (cmpi .ne),
    StableHlo.TRef.binary (.of main_call44_v11 : StableHlo.TRef sig ⟨S8x8192, .i1⟩) (.of main_call44_v6 : StableHlo.TRef sig ⟨S8x8192, .i1⟩) (.of main_call44_v12 : StableHlo.TRef sig ⟨S8x8192, .i1⟩) andi,
    StableHlo.TRef.unary main_call44_call0.v0 (.of main_call44_v13 : StableHlo.TRef sig ⟨S8x8192, .i32⟩) (broadcastInDim S8x8192 ![] bcast_S_S8x8192),
    StableHlo.TRef.binary (.of main_call44_v4 : StableHlo.TRef sig ⟨S8x8192, .i32⟩) (.of main_call44_v13 : StableHlo.TRef sig ⟨S8x8192, .i32⟩) (.of main_call44_v14 : StableHlo.TRef sig ⟨S8x8192, .i32⟩) addi,
    StableHlo.TRef.ternary (.of main_call44_v12 : StableHlo.TRef sig ⟨S8x8192, .i1⟩) (.of main_call44_v14 : StableHlo.TRef sig ⟨S8x8192, .i32⟩) (.of main_call44_v4 : StableHlo.TRef sig ⟨S8x8192, .i32⟩) (.of main_v133 : StableHlo.TRef sig ⟨S8x8192, .i32⟩) select ]

abbrev hostOps0_90 : List (HloOp τ sig (Elt F)) :=
  [ StableHlo.unary main_v126 main_v134 ((extractStridedSlice S8x8191 ![0, 0] · slices_S8x8192_S8x8191_0_0) : (⟨S8x8192, .i1⟩ : BufTy).Contents (Elt F) → (⟨S8x8191, .i1⟩ : BufTy).Contents (Elt F)),
    StableHlo.nullary main_c_65 (constantI S_ 1 1#1) ]

abbrev hostOps0_91 : List (HloOp τ sig (Elt F)) :=
  [ StableHlo.TRef.binary (.of main_v134 : StableHlo.TRef sig ⟨S8x8191, .i1⟩) (.of main_c_65 : StableHlo.TRef sig ⟨S_, .i1⟩) (.of main_v135 : StableHlo.TRef sig ⟨S8x8192, .i1⟩) (fun x v => pad S8x8192 ![0, 1] ![0, 0] ![0, 0] x v pads_S8x8191_S8x8192_000_100 h_S_) ]

abbrev hostOps0_92 : List (HloOp τ sig (Elt F)) :=
  [ StableHlo.binary main_v135 main_v18 main_v136 ori,
    StableHlo.nullary main_c_66 (constantI S_ 32 4096#32) ]

abbrev hostOps0_93 : List (HloOp τ sig (Elt F)) :=
  [ StableHlo.TRef.unary (.of main_c_66 : StableHlo.TRef sig ⟨S_, .i32⟩) (.of main_call46_v0 : StableHlo.TRef sig ⟨S_, .i32⟩) id,
    StableHlo.TRef.unary (.of main_call46_v0 : StableHlo.TRef sig ⟨S_, .i32⟩) (.of main_call46_v1 : StableHlo.TRef sig ⟨S8x8192, .i32⟩) (broadcastInDim S8x8192 ![] bcast_S_S8x8192),
    StableHlo.TRef.ternary (.of main_v136 : StableHlo.TRef sig ⟨S8x8192, .i1⟩) (.of main_call46_v1 : StableHlo.TRef sig ⟨S8x8192, .i32⟩) (.of main_v133 : StableHlo.TRef sig ⟨S8x8192, .i32⟩) (.of main_v137 : StableHlo.TRef sig ⟨S8x8192, .i32⟩) select ]

abbrev hostOps0_94 : List (HloOp τ sig (Elt F)) :=
  [ StableHlo.unary main_v133 main_v138 ((extractStridedSlice S8x8191 ![0, 0] · slices_S8x8192_S8x8191_0_0) : (⟨S8x8192, .i32⟩ : BufTy).Contents (Elt F) → (⟨S8x8191, .i32⟩ : BufTy).Contents (Elt F)),
    StableHlo.nullary main_c_67 (constantI S_ 32 0#32) ]

abbrev hostOps0_95 : List (HloOp τ sig (Elt F)) :=
  [ StableHlo.TRef.unary (.of main_c_67 : StableHlo.TRef sig ⟨S_, .i32⟩) (.of main_call47_v0 : StableHlo.TRef sig ⟨S_, .i32⟩) id,
    StableHlo.TRef.binary (.of main_v138 : StableHlo.TRef sig ⟨S8x8191, .i32⟩) (.of main_call47_v0 : StableHlo.TRef sig ⟨S_, .i32⟩) (.of main_v139 : StableHlo.TRef sig ⟨S8x8192, .i32⟩) (fun x v => pad S8x8192 ![0, 1] ![0, 0] ![0, 0] x v pads_S8x8191_S8x8192_000_100 h_S_) ]

abbrev hostOps0_96 : List (HloOp τ sig (Elt F)) :=
  [ StableHlo.nullary main_c_68 (constantI S_ 32 31#32),
    StableHlo.unary main_c_68 main_v140 (broadcastInDim S8x8192 ![] bcast_S_S8x8192),
    StableHlo.binary main_v139 main_v140 main_v141 muli,
    StableHlo.binary main_v141 main_v16 main_v142 addi,
    StableHlo.nullary main_c_69 (constantI S_ 32 4096#32) ]

abbrev hostOps0_97 : List (HloOp τ sig (Elt F)) :=
  [ StableHlo.TRef.unary (.of main_c_69 : StableHlo.TRef sig ⟨S_, .i32⟩) (.of main_call48_v0 : StableHlo.TRef sig ⟨S_, .i32⟩) id,
    StableHlo.TRef.nullary (.of main_call48_c : StableHlo.TRef sig ⟨S_, .i32⟩) (constantI S_ 32 0#32),
    StableHlo.TRef.binary (.of main_call48_v0 : StableHlo.TRef sig ⟨S_, .i32⟩) (.of main_call48_c : StableHlo.TRef sig ⟨S_, .i32⟩) (.of main_call48_v1 : StableHlo.TRef sig ⟨S_, .i1⟩) (cmpi .eq),
    StableHlo.TRef.nullary (.of main_call48_c_0 : StableHlo.TRef sig ⟨S_, .i32⟩) (constantI S_ 32 1#32),
    StableHlo.TRef.ternary (.of main_call48_v1 : StableHlo.TRef sig ⟨S_, .i1⟩) (.of main_call48_c_0 : StableHlo.TRef sig ⟨S_, .i32⟩) (.of main_call48_v0 : StableHlo.TRef sig ⟨S_, .i32⟩) (.of main_call48_v2 : StableHlo.TRef sig ⟨S_, .i32⟩) select,
    StableHlo.TRef.unary main_call48_call0.v0 (.of main_call48_v3 : StableHlo.TRef sig ⟨S8x8192, .i32⟩) (broadcastInDim S8x8192 ![] bcast_S_S8x8192),
    StableHlo.TRef.binary (.of main_v142 : StableHlo.TRef sig ⟨S8x8192, .i32⟩) (.of main_call48_v3 : StableHlo.TRef sig ⟨S8x8192, .i32⟩) (.of main_call48_v4 : StableHlo.TRef sig ⟨S8x8192, .i32⟩) Host.remsi,
    StableHlo.TRef.nullary (.of main_call48_c_1 : StableHlo.TRef sig ⟨S_, .i32⟩) (constantI S_ 32 0#32),
    StableHlo.TRef.unary (.of main_call48_c_1 : StableHlo.TRef sig ⟨S_, .i32⟩) (.of main_call48_v5 : StableHlo.TRef sig ⟨S8x8192, .i32⟩) (broadcastInDim S8x8192 ![] bcast_S_S8x8192),
    StableHlo.TRef.binary (.of main_call48_v4 : StableHlo.TRef sig ⟨S8x8192, .i32⟩) (.of main_call48_v5 : StableHlo.TRef sig ⟨S8x8192, .i32⟩) (.of main_call48_v6 : StableHlo.TRef sig ⟨S8x8192, .i1⟩) (cmpi .ne),
    StableHlo.TRef.nullary (.of main_call48_c_2 : StableHlo.TRef sig ⟨S_, .i32⟩) (constantI S_ 32 0#32),
    StableHlo.TRef.unary (.of main_call48_c_2 : StableHlo.TRef sig ⟨S_, .i32⟩) (.of main_call48_v7 : StableHlo.TRef sig ⟨S8x8192, .i32⟩) (broadcastInDim S8x8192 ![] bcast_S_S8x8192),
    StableHlo.TRef.binary (.of main_call48_v4 : StableHlo.TRef sig ⟨S8x8192, .i32⟩) (.of main_call48_v7 : StableHlo.TRef sig ⟨S8x8192, .i32⟩) (.of main_call48_v8 : StableHlo.TRef sig ⟨S8x8192, .i1⟩) (cmpi .slt),
    StableHlo.TRef.nullary (.of main_call48_c_3 : StableHlo.TRef sig ⟨S_, .i32⟩) (constantI S_ 32 0#32),
    StableHlo.TRef.binary main_call48_call0.v0 (.of main_call48_c_3 : StableHlo.TRef sig ⟨S_, .i32⟩) (.of main_call48_v9 : StableHlo.TRef sig ⟨S_, .i1⟩) (cmpi .slt),
    StableHlo.TRef.unary (.of main_call48_v9 : StableHlo.TRef sig ⟨S_, .i1⟩) (.of main_call48_v10 : StableHlo.TRef sig ⟨S8x8192, .i1⟩) (broadcastInDim S8x8192 ![] bcast_S_S8x8192),
    StableHlo.TRef.binary (.of main_call48_v8 : StableHlo.TRef sig ⟨S8x8192, .i1⟩) (.of main_call48_v10 : StableHlo.TRef sig ⟨S8x8192, .i1⟩) (.of main_call48_v11 : StableHlo.TRef sig ⟨S8x8192, .i1⟩) (cmpi .ne),
    StableHlo.TRef.binary (.of main_call48_v11 : StableHlo.TRef sig ⟨S8x8192, .i1⟩) (.of main_call48_v6 : StableHlo.TRef sig ⟨S8x8192, .i1⟩) (.of main_call48_v12 : StableHlo.TRef sig ⟨S8x8192, .i1⟩) andi,
    StableHlo.TRef.unary main_call48_call0.v0 (.of main_call48_v13 : StableHlo.TRef sig ⟨S8x8192, .i32⟩) (broadcastInDim S8x8192 ![] bcast_S_S8x8192),
    StableHlo.TRef.binary (.of main_call48_v4 : StableHlo.TRef sig ⟨S8x8192, .i32⟩) (.of main_call48_v13 : StableHlo.TRef sig ⟨S8x8192, .i32⟩) (.of main_call48_v14 : StableHlo.TRef sig ⟨S8x8192, .i32⟩) addi,
    StableHlo.TRef.ternary (.of main_call48_v12 : StableHlo.TRef sig ⟨S8x8192, .i1⟩) (.of main_call48_v14 : StableHlo.TRef sig ⟨S8x8192, .i32⟩) (.of main_call48_v4 : StableHlo.TRef sig ⟨S8x8192, .i32⟩) (.of main_v143 : StableHlo.TRef sig ⟨S8x8192, .i32⟩) select ]

abbrev hostOps0_98 : List (HloOp τ sig (Elt F)) :=
  [ StableHlo.unary main_v136 main_v144 ((extractStridedSlice S8x8191 ![0, 0] · slices_S8x8192_S8x8191_0_0) : (⟨S8x8192, .i1⟩ : BufTy).Contents (Elt F) → (⟨S8x8191, .i1⟩ : BufTy).Contents (Elt F)),
    StableHlo.nullary main_c_70 (constantI S_ 1 1#1) ]

abbrev hostOps0_99 : List (HloOp τ sig (Elt F)) :=
  [ StableHlo.TRef.binary (.of main_v144 : StableHlo.TRef sig ⟨S8x8191, .i1⟩) (.of main_c_70 : StableHlo.TRef sig ⟨S_, .i1⟩) (.of main_v145 : StableHlo.TRef sig ⟨S8x8192, .i1⟩) (fun x v => pad S8x8192 ![0, 1] ![0, 0] ![0, 0] x v pads_S8x8191_S8x8192_000_100 h_S_) ]

abbrev hostOps0_100 : List (HloOp τ sig (Elt F)) :=
  [ StableHlo.binary main_v145 main_v18 main_v146 ori,
    StableHlo.nullary main_c_71 (constantI S_ 32 4096#32) ]

abbrev hostOps0_101 : List (HloOp τ sig (Elt F)) :=
  [ StableHlo.TRef.unary (.of main_c_71 : StableHlo.TRef sig ⟨S_, .i32⟩) (.of main_call50_v0 : StableHlo.TRef sig ⟨S_, .i32⟩) id,
    StableHlo.TRef.unary (.of main_call50_v0 : StableHlo.TRef sig ⟨S_, .i32⟩) (.of main_call50_v1 : StableHlo.TRef sig ⟨S8x8192, .i32⟩) (broadcastInDim S8x8192 ![] bcast_S_S8x8192),
    StableHlo.TRef.ternary (.of main_v146 : StableHlo.TRef sig ⟨S8x8192, .i1⟩) (.of main_call50_v1 : StableHlo.TRef sig ⟨S8x8192, .i32⟩) (.of main_v143 : StableHlo.TRef sig ⟨S8x8192, .i32⟩) (.of main_v147 : StableHlo.TRef sig ⟨S8x8192, .i32⟩) select ]

abbrev hostOps0_102 : List (HloOp τ sig (Elt F)) :=
  [ StableHlo.unary main_v143 main_v148 ((extractStridedSlice S8x8191 ![0, 0] · slices_S8x8192_S8x8191_0_0) : (⟨S8x8192, .i32⟩ : BufTy).Contents (Elt F) → (⟨S8x8191, .i32⟩ : BufTy).Contents (Elt F)),
    StableHlo.nullary main_c_72 (constantI S_ 32 0#32) ]

abbrev hostOps0_103 : List (HloOp τ sig (Elt F)) :=
  [ StableHlo.TRef.unary (.of main_c_72 : StableHlo.TRef sig ⟨S_, .i32⟩) (.of main_call51_v0 : StableHlo.TRef sig ⟨S_, .i32⟩) id,
    StableHlo.TRef.binary (.of main_v148 : StableHlo.TRef sig ⟨S8x8191, .i32⟩) (.of main_call51_v0 : StableHlo.TRef sig ⟨S_, .i32⟩) (.of main_v149 : StableHlo.TRef sig ⟨S8x8192, .i32⟩) (fun x v => pad S8x8192 ![0, 1] ![0, 0] ![0, 0] x v pads_S8x8191_S8x8192_000_100 h_S_) ]

abbrev hostOps0_104 : List (HloOp τ sig (Elt F)) :=
  [ StableHlo.nullary main_c_73 (constantI S_ 32 31#32),
    StableHlo.unary main_c_73 main_v150 (broadcastInDim S8x8192 ![] bcast_S_S8x8192),
    StableHlo.binary main_v149 main_v150 main_v151 muli,
    StableHlo.binary main_v151 main_v16 main_v152 addi,
    StableHlo.nullary main_c_74 (constantI S_ 32 4096#32) ]

abbrev hostOps0_105 : List (HloOp τ sig (Elt F)) :=
  [ StableHlo.TRef.unary (.of main_c_74 : StableHlo.TRef sig ⟨S_, .i32⟩) (.of main_call52_v0 : StableHlo.TRef sig ⟨S_, .i32⟩) id,
    StableHlo.TRef.nullary (.of main_call52_c : StableHlo.TRef sig ⟨S_, .i32⟩) (constantI S_ 32 0#32),
    StableHlo.TRef.binary (.of main_call52_v0 : StableHlo.TRef sig ⟨S_, .i32⟩) (.of main_call52_c : StableHlo.TRef sig ⟨S_, .i32⟩) (.of main_call52_v1 : StableHlo.TRef sig ⟨S_, .i1⟩) (cmpi .eq),
    StableHlo.TRef.nullary (.of main_call52_c_0 : StableHlo.TRef sig ⟨S_, .i32⟩) (constantI S_ 32 1#32),
    StableHlo.TRef.ternary (.of main_call52_v1 : StableHlo.TRef sig ⟨S_, .i1⟩) (.of main_call52_c_0 : StableHlo.TRef sig ⟨S_, .i32⟩) (.of main_call52_v0 : StableHlo.TRef sig ⟨S_, .i32⟩) (.of main_call52_v2 : StableHlo.TRef sig ⟨S_, .i32⟩) select,
    StableHlo.TRef.unary main_call52_call0.v0 (.of main_call52_v3 : StableHlo.TRef sig ⟨S8x8192, .i32⟩) (broadcastInDim S8x8192 ![] bcast_S_S8x8192),
    StableHlo.TRef.binary (.of main_v152 : StableHlo.TRef sig ⟨S8x8192, .i32⟩) (.of main_call52_v3 : StableHlo.TRef sig ⟨S8x8192, .i32⟩) (.of main_call52_v4 : StableHlo.TRef sig ⟨S8x8192, .i32⟩) Host.remsi,
    StableHlo.TRef.nullary (.of main_call52_c_1 : StableHlo.TRef sig ⟨S_, .i32⟩) (constantI S_ 32 0#32),
    StableHlo.TRef.unary (.of main_call52_c_1 : StableHlo.TRef sig ⟨S_, .i32⟩) (.of main_call52_v5 : StableHlo.TRef sig ⟨S8x8192, .i32⟩) (broadcastInDim S8x8192 ![] bcast_S_S8x8192),
    StableHlo.TRef.binary (.of main_call52_v4 : StableHlo.TRef sig ⟨S8x8192, .i32⟩) (.of main_call52_v5 : StableHlo.TRef sig ⟨S8x8192, .i32⟩) (.of main_call52_v6 : StableHlo.TRef sig ⟨S8x8192, .i1⟩) (cmpi .ne),
    StableHlo.TRef.nullary (.of main_call52_c_2 : StableHlo.TRef sig ⟨S_, .i32⟩) (constantI S_ 32 0#32),
    StableHlo.TRef.unary (.of main_call52_c_2 : StableHlo.TRef sig ⟨S_, .i32⟩) (.of main_call52_v7 : StableHlo.TRef sig ⟨S8x8192, .i32⟩) (broadcastInDim S8x8192 ![] bcast_S_S8x8192),
    StableHlo.TRef.binary (.of main_call52_v4 : StableHlo.TRef sig ⟨S8x8192, .i32⟩) (.of main_call52_v7 : StableHlo.TRef sig ⟨S8x8192, .i32⟩) (.of main_call52_v8 : StableHlo.TRef sig ⟨S8x8192, .i1⟩) (cmpi .slt),
    StableHlo.TRef.nullary (.of main_call52_c_3 : StableHlo.TRef sig ⟨S_, .i32⟩) (constantI S_ 32 0#32),
    StableHlo.TRef.binary main_call52_call0.v0 (.of main_call52_c_3 : StableHlo.TRef sig ⟨S_, .i32⟩) (.of main_call52_v9 : StableHlo.TRef sig ⟨S_, .i1⟩) (cmpi .slt),
    StableHlo.TRef.unary (.of main_call52_v9 : StableHlo.TRef sig ⟨S_, .i1⟩) (.of main_call52_v10 : StableHlo.TRef sig ⟨S8x8192, .i1⟩) (broadcastInDim S8x8192 ![] bcast_S_S8x8192),
    StableHlo.TRef.binary (.of main_call52_v8 : StableHlo.TRef sig ⟨S8x8192, .i1⟩) (.of main_call52_v10 : StableHlo.TRef sig ⟨S8x8192, .i1⟩) (.of main_call52_v11 : StableHlo.TRef sig ⟨S8x8192, .i1⟩) (cmpi .ne),
    StableHlo.TRef.binary (.of main_call52_v11 : StableHlo.TRef sig ⟨S8x8192, .i1⟩) (.of main_call52_v6 : StableHlo.TRef sig ⟨S8x8192, .i1⟩) (.of main_call52_v12 : StableHlo.TRef sig ⟨S8x8192, .i1⟩) andi,
    StableHlo.TRef.unary main_call52_call0.v0 (.of main_call52_v13 : StableHlo.TRef sig ⟨S8x8192, .i32⟩) (broadcastInDim S8x8192 ![] bcast_S_S8x8192),
    StableHlo.TRef.binary (.of main_call52_v4 : StableHlo.TRef sig ⟨S8x8192, .i32⟩) (.of main_call52_v13 : StableHlo.TRef sig ⟨S8x8192, .i32⟩) (.of main_call52_v14 : StableHlo.TRef sig ⟨S8x8192, .i32⟩) addi,
    StableHlo.TRef.ternary (.of main_call52_v12 : StableHlo.TRef sig ⟨S8x8192, .i1⟩) (.of main_call52_v14 : StableHlo.TRef sig ⟨S8x8192, .i32⟩) (.of main_call52_v4 : StableHlo.TRef sig ⟨S8x8192, .i32⟩) (.of main_v153 : StableHlo.TRef sig ⟨S8x8192, .i32⟩) select ]

abbrev hostOps0_106 : List (HloOp τ sig (Elt F)) :=
  [ StableHlo.unary main_v146 main_v154 ((extractStridedSlice S8x8191 ![0, 0] · slices_S8x8192_S8x8191_0_0) : (⟨S8x8192, .i1⟩ : BufTy).Contents (Elt F) → (⟨S8x8191, .i1⟩ : BufTy).Contents (Elt F)),
    StableHlo.nullary main_c_75 (constantI S_ 1 1#1) ]

abbrev hostOps0_107 : List (HloOp τ sig (Elt F)) :=
  [ StableHlo.TRef.binary (.of main_v154 : StableHlo.TRef sig ⟨S8x8191, .i1⟩) (.of main_c_75 : StableHlo.TRef sig ⟨S_, .i1⟩) (.of main_v155 : StableHlo.TRef sig ⟨S8x8192, .i1⟩) (fun x v => pad S8x8192 ![0, 1] ![0, 0] ![0, 0] x v pads_S8x8191_S8x8192_000_100 h_S_) ]

abbrev hostOps0_108 : List (HloOp τ sig (Elt F)) :=
  [ StableHlo.binary main_v155 main_v18 main_v156 ori,
    StableHlo.nullary main_c_76 (constantI S_ 32 4096#32) ]

abbrev hostOps0_109 : List (HloOp τ sig (Elt F)) :=
  [ StableHlo.TRef.unary (.of main_c_76 : StableHlo.TRef sig ⟨S_, .i32⟩) (.of main_call54_v0 : StableHlo.TRef sig ⟨S_, .i32⟩) id,
    StableHlo.TRef.unary (.of main_call54_v0 : StableHlo.TRef sig ⟨S_, .i32⟩) (.of main_call54_v1 : StableHlo.TRef sig ⟨S8x8192, .i32⟩) (broadcastInDim S8x8192 ![] bcast_S_S8x8192),
    StableHlo.TRef.ternary (.of main_v156 : StableHlo.TRef sig ⟨S8x8192, .i1⟩) (.of main_call54_v1 : StableHlo.TRef sig ⟨S8x8192, .i32⟩) (.of main_v153 : StableHlo.TRef sig ⟨S8x8192, .i32⟩) (.of main_v157 : StableHlo.TRef sig ⟨S8x8192, .i32⟩) select ]

abbrev hostOps0_110 : List (HloOp τ sig (Elt F)) :=
  [ StableHlo.unary main_v153 main_v158 ((extractStridedSlice S8x8191 ![0, 0] · slices_S8x8192_S8x8191_0_0) : (⟨S8x8192, .i32⟩ : BufTy).Contents (Elt F) → (⟨S8x8191, .i32⟩ : BufTy).Contents (Elt F)),
    StableHlo.nullary main_c_77 (constantI S_ 32 0#32) ]

abbrev hostOps0_111 : List (HloOp τ sig (Elt F)) :=
  [ StableHlo.TRef.unary (.of main_c_77 : StableHlo.TRef sig ⟨S_, .i32⟩) (.of main_call55_v0 : StableHlo.TRef sig ⟨S_, .i32⟩) id,
    StableHlo.TRef.binary (.of main_v158 : StableHlo.TRef sig ⟨S8x8191, .i32⟩) (.of main_call55_v0 : StableHlo.TRef sig ⟨S_, .i32⟩) (.of main_v159 : StableHlo.TRef sig ⟨S8x8192, .i32⟩) (fun x v => pad S8x8192 ![0, 1] ![0, 0] ![0, 0] x v pads_S8x8191_S8x8192_000_100 h_S_) ]

abbrev hostOps0_112 : List (HloOp τ sig (Elt F)) :=
  [ StableHlo.nullary main_c_78 (constantI S_ 32 31#32),
    StableHlo.unary main_c_78 main_v160 (broadcastInDim S8x8192 ![] bcast_S_S8x8192),
    StableHlo.binary main_v159 main_v160 main_v161 muli,
    StableHlo.binary main_v161 main_v16 main_v162 addi,
    StableHlo.nullary main_c_79 (constantI S_ 32 4096#32) ]

abbrev hostOps0_113 : List (HloOp τ sig (Elt F)) :=
  [ StableHlo.TRef.unary (.of main_c_79 : StableHlo.TRef sig ⟨S_, .i32⟩) (.of main_call56_v0 : StableHlo.TRef sig ⟨S_, .i32⟩) id,
    StableHlo.TRef.nullary (.of main_call56_c : StableHlo.TRef sig ⟨S_, .i32⟩) (constantI S_ 32 0#32),
    StableHlo.TRef.binary (.of main_call56_v0 : StableHlo.TRef sig ⟨S_, .i32⟩) (.of main_call56_c : StableHlo.TRef sig ⟨S_, .i32⟩) (.of main_call56_v1 : StableHlo.TRef sig ⟨S_, .i1⟩) (cmpi .eq),
    StableHlo.TRef.nullary (.of main_call56_c_0 : StableHlo.TRef sig ⟨S_, .i32⟩) (constantI S_ 32 1#32),
    StableHlo.TRef.ternary (.of main_call56_v1 : StableHlo.TRef sig ⟨S_, .i1⟩) (.of main_call56_c_0 : StableHlo.TRef sig ⟨S_, .i32⟩) (.of main_call56_v0 : StableHlo.TRef sig ⟨S_, .i32⟩) (.of main_call56_v2 : StableHlo.TRef sig ⟨S_, .i32⟩) select,
    StableHlo.TRef.unary main_call56_call0.v0 (.of main_call56_v3 : StableHlo.TRef sig ⟨S8x8192, .i32⟩) (broadcastInDim S8x8192 ![] bcast_S_S8x8192),
    StableHlo.TRef.binary (.of main_v162 : StableHlo.TRef sig ⟨S8x8192, .i32⟩) (.of main_call56_v3 : StableHlo.TRef sig ⟨S8x8192, .i32⟩) (.of main_call56_v4 : StableHlo.TRef sig ⟨S8x8192, .i32⟩) Host.remsi,
    StableHlo.TRef.nullary (.of main_call56_c_1 : StableHlo.TRef sig ⟨S_, .i32⟩) (constantI S_ 32 0#32),
    StableHlo.TRef.unary (.of main_call56_c_1 : StableHlo.TRef sig ⟨S_, .i32⟩) (.of main_call56_v5 : StableHlo.TRef sig ⟨S8x8192, .i32⟩) (broadcastInDim S8x8192 ![] bcast_S_S8x8192),
    StableHlo.TRef.binary (.of main_call56_v4 : StableHlo.TRef sig ⟨S8x8192, .i32⟩) (.of main_call56_v5 : StableHlo.TRef sig ⟨S8x8192, .i32⟩) (.of main_call56_v6 : StableHlo.TRef sig ⟨S8x8192, .i1⟩) (cmpi .ne),
    StableHlo.TRef.nullary (.of main_call56_c_2 : StableHlo.TRef sig ⟨S_, .i32⟩) (constantI S_ 32 0#32),
    StableHlo.TRef.unary (.of main_call56_c_2 : StableHlo.TRef sig ⟨S_, .i32⟩) (.of main_call56_v7 : StableHlo.TRef sig ⟨S8x8192, .i32⟩) (broadcastInDim S8x8192 ![] bcast_S_S8x8192),
    StableHlo.TRef.binary (.of main_call56_v4 : StableHlo.TRef sig ⟨S8x8192, .i32⟩) (.of main_call56_v7 : StableHlo.TRef sig ⟨S8x8192, .i32⟩) (.of main_call56_v8 : StableHlo.TRef sig ⟨S8x8192, .i1⟩) (cmpi .slt),
    StableHlo.TRef.nullary (.of main_call56_c_3 : StableHlo.TRef sig ⟨S_, .i32⟩) (constantI S_ 32 0#32),
    StableHlo.TRef.binary main_call56_call0.v0 (.of main_call56_c_3 : StableHlo.TRef sig ⟨S_, .i32⟩) (.of main_call56_v9 : StableHlo.TRef sig ⟨S_, .i1⟩) (cmpi .slt),
    StableHlo.TRef.unary (.of main_call56_v9 : StableHlo.TRef sig ⟨S_, .i1⟩) (.of main_call56_v10 : StableHlo.TRef sig ⟨S8x8192, .i1⟩) (broadcastInDim S8x8192 ![] bcast_S_S8x8192),
    StableHlo.TRef.binary (.of main_call56_v8 : StableHlo.TRef sig ⟨S8x8192, .i1⟩) (.of main_call56_v10 : StableHlo.TRef sig ⟨S8x8192, .i1⟩) (.of main_call56_v11 : StableHlo.TRef sig ⟨S8x8192, .i1⟩) (cmpi .ne),
    StableHlo.TRef.binary (.of main_call56_v11 : StableHlo.TRef sig ⟨S8x8192, .i1⟩) (.of main_call56_v6 : StableHlo.TRef sig ⟨S8x8192, .i1⟩) (.of main_call56_v12 : StableHlo.TRef sig ⟨S8x8192, .i1⟩) andi,
    StableHlo.TRef.unary main_call56_call0.v0 (.of main_call56_v13 : StableHlo.TRef sig ⟨S8x8192, .i32⟩) (broadcastInDim S8x8192 ![] bcast_S_S8x8192),
    StableHlo.TRef.binary (.of main_call56_v4 : StableHlo.TRef sig ⟨S8x8192, .i32⟩) (.of main_call56_v13 : StableHlo.TRef sig ⟨S8x8192, .i32⟩) (.of main_call56_v14 : StableHlo.TRef sig ⟨S8x8192, .i32⟩) addi,
    StableHlo.TRef.ternary (.of main_call56_v12 : StableHlo.TRef sig ⟨S8x8192, .i1⟩) (.of main_call56_v14 : StableHlo.TRef sig ⟨S8x8192, .i32⟩) (.of main_call56_v4 : StableHlo.TRef sig ⟨S8x8192, .i32⟩) (.of main_v163 : StableHlo.TRef sig ⟨S8x8192, .i32⟩) select ]

abbrev hostOps0_114 : List (HloOp τ sig (Elt F)) :=
  [ StableHlo.unary main_v156 main_v164 ((extractStridedSlice S8x8191 ![0, 0] · slices_S8x8192_S8x8191_0_0) : (⟨S8x8192, .i1⟩ : BufTy).Contents (Elt F) → (⟨S8x8191, .i1⟩ : BufTy).Contents (Elt F)),
    StableHlo.nullary main_c_80 (constantI S_ 1 1#1) ]

abbrev hostOps0_115 : List (HloOp τ sig (Elt F)) :=
  [ StableHlo.TRef.binary (.of main_v164 : StableHlo.TRef sig ⟨S8x8191, .i1⟩) (.of main_c_80 : StableHlo.TRef sig ⟨S_, .i1⟩) (.of main_v165 : StableHlo.TRef sig ⟨S8x8192, .i1⟩) (fun x v => pad S8x8192 ![0, 1] ![0, 0] ![0, 0] x v pads_S8x8191_S8x8192_000_100 h_S_) ]

abbrev hostOps0_116 : List (HloOp τ sig (Elt F)) :=
  [ StableHlo.binary main_v165 main_v18 main_v166 ori,
    StableHlo.nullary main_c_81 (constantI S_ 32 4096#32) ]

abbrev hostOps0_117 : List (HloOp τ sig (Elt F)) :=
  [ StableHlo.TRef.unary (.of main_c_81 : StableHlo.TRef sig ⟨S_, .i32⟩) (.of main_call58_v0 : StableHlo.TRef sig ⟨S_, .i32⟩) id,
    StableHlo.TRef.unary (.of main_call58_v0 : StableHlo.TRef sig ⟨S_, .i32⟩) (.of main_call58_v1 : StableHlo.TRef sig ⟨S8x8192, .i32⟩) (broadcastInDim S8x8192 ![] bcast_S_S8x8192),
    StableHlo.TRef.ternary (.of main_v166 : StableHlo.TRef sig ⟨S8x8192, .i1⟩) (.of main_call58_v1 : StableHlo.TRef sig ⟨S8x8192, .i32⟩) (.of main_v163 : StableHlo.TRef sig ⟨S8x8192, .i32⟩) (.of main_v167 : StableHlo.TRef sig ⟨S8x8192, .i32⟩) select ]

abbrev hostOps0_118 : List (HloOp τ sig (Elt F)) :=
  [ StableHlo.unary main_v163 main_v168 ((extractStridedSlice S8x8191 ![0, 0] · slices_S8x8192_S8x8191_0_0) : (⟨S8x8192, .i32⟩ : BufTy).Contents (Elt F) → (⟨S8x8191, .i32⟩ : BufTy).Contents (Elt F)),
    StableHlo.nullary main_c_82 (constantI S_ 32 0#32) ]

abbrev hostOps0_119 : List (HloOp τ sig (Elt F)) :=
  [ StableHlo.TRef.unary (.of main_c_82 : StableHlo.TRef sig ⟨S_, .i32⟩) (.of main_call59_v0 : StableHlo.TRef sig ⟨S_, .i32⟩) id,
    StableHlo.TRef.binary (.of main_v168 : StableHlo.TRef sig ⟨S8x8191, .i32⟩) (.of main_call59_v0 : StableHlo.TRef sig ⟨S_, .i32⟩) (.of main_v169 : StableHlo.TRef sig ⟨S8x8192, .i32⟩) (fun x v => pad S8x8192 ![0, 1] ![0, 0] ![0, 0] x v pads_S8x8191_S8x8192_000_100 h_S_) ]

abbrev hostOps0_120 : List (HloOp τ sig (Elt F)) :=
  [ StableHlo.nullary main_c_83 (constantI S_ 32 31#32),
    StableHlo.unary main_c_83 main_v170 (broadcastInDim S8x8192 ![] bcast_S_S8x8192),
    StableHlo.binary main_v169 main_v170 main_v171 muli,
    StableHlo.binary main_v171 main_v16 main_v172 addi,
    StableHlo.nullary main_c_84 (constantI S_ 32 4096#32) ]

abbrev hostOps0_121 : List (HloOp τ sig (Elt F)) :=
  [ StableHlo.TRef.unary (.of main_c_84 : StableHlo.TRef sig ⟨S_, .i32⟩) (.of main_call60_v0 : StableHlo.TRef sig ⟨S_, .i32⟩) id,
    StableHlo.TRef.nullary (.of main_call60_c : StableHlo.TRef sig ⟨S_, .i32⟩) (constantI S_ 32 0#32),
    StableHlo.TRef.binary (.of main_call60_v0 : StableHlo.TRef sig ⟨S_, .i32⟩) (.of main_call60_c : StableHlo.TRef sig ⟨S_, .i32⟩) (.of main_call60_v1 : StableHlo.TRef sig ⟨S_, .i1⟩) (cmpi .eq),
    StableHlo.TRef.nullary (.of main_call60_c_0 : StableHlo.TRef sig ⟨S_, .i32⟩) (constantI S_ 32 1#32),
    StableHlo.TRef.ternary (.of main_call60_v1 : StableHlo.TRef sig ⟨S_, .i1⟩) (.of main_call60_c_0 : StableHlo.TRef sig ⟨S_, .i32⟩) (.of main_call60_v0 : StableHlo.TRef sig ⟨S_, .i32⟩) (.of main_call60_v2 : StableHlo.TRef sig ⟨S_, .i32⟩) select,
    StableHlo.TRef.unary main_call60_call0.v0 (.of main_call60_v3 : StableHlo.TRef sig ⟨S8x8192, .i32⟩) (broadcastInDim S8x8192 ![] bcast_S_S8x8192),
    StableHlo.TRef.binary (.of main_v172 : StableHlo.TRef sig ⟨S8x8192, .i32⟩) (.of main_call60_v3 : StableHlo.TRef sig ⟨S8x8192, .i32⟩) (.of main_call60_v4 : StableHlo.TRef sig ⟨S8x8192, .i32⟩) Host.remsi,
    StableHlo.TRef.nullary (.of main_call60_c_1 : StableHlo.TRef sig ⟨S_, .i32⟩) (constantI S_ 32 0#32),
    StableHlo.TRef.unary (.of main_call60_c_1 : StableHlo.TRef sig ⟨S_, .i32⟩) (.of main_call60_v5 : StableHlo.TRef sig ⟨S8x8192, .i32⟩) (broadcastInDim S8x8192 ![] bcast_S_S8x8192),
    StableHlo.TRef.binary (.of main_call60_v4 : StableHlo.TRef sig ⟨S8x8192, .i32⟩) (.of main_call60_v5 : StableHlo.TRef sig ⟨S8x8192, .i32⟩) (.of main_call60_v6 : StableHlo.TRef sig ⟨S8x8192, .i1⟩) (cmpi .ne),
    StableHlo.TRef.nullary (.of main_call60_c_2 : StableHlo.TRef sig ⟨S_, .i32⟩) (constantI S_ 32 0#32),
    StableHlo.TRef.unary (.of main_call60_c_2 : StableHlo.TRef sig ⟨S_, .i32⟩) (.of main_call60_v7 : StableHlo.TRef sig ⟨S8x8192, .i32⟩) (broadcastInDim S8x8192 ![] bcast_S_S8x8192),
    StableHlo.TRef.binary (.of main_call60_v4 : StableHlo.TRef sig ⟨S8x8192, .i32⟩) (.of main_call60_v7 : StableHlo.TRef sig ⟨S8x8192, .i32⟩) (.of main_call60_v8 : StableHlo.TRef sig ⟨S8x8192, .i1⟩) (cmpi .slt),
    StableHlo.TRef.nullary (.of main_call60_c_3 : StableHlo.TRef sig ⟨S_, .i32⟩) (constantI S_ 32 0#32),
    StableHlo.TRef.binary main_call60_call0.v0 (.of main_call60_c_3 : StableHlo.TRef sig ⟨S_, .i32⟩) (.of main_call60_v9 : StableHlo.TRef sig ⟨S_, .i1⟩) (cmpi .slt),
    StableHlo.TRef.unary (.of main_call60_v9 : StableHlo.TRef sig ⟨S_, .i1⟩) (.of main_call60_v10 : StableHlo.TRef sig ⟨S8x8192, .i1⟩) (broadcastInDim S8x8192 ![] bcast_S_S8x8192),
    StableHlo.TRef.binary (.of main_call60_v8 : StableHlo.TRef sig ⟨S8x8192, .i1⟩) (.of main_call60_v10 : StableHlo.TRef sig ⟨S8x8192, .i1⟩) (.of main_call60_v11 : StableHlo.TRef sig ⟨S8x8192, .i1⟩) (cmpi .ne),
    StableHlo.TRef.binary (.of main_call60_v11 : StableHlo.TRef sig ⟨S8x8192, .i1⟩) (.of main_call60_v6 : StableHlo.TRef sig ⟨S8x8192, .i1⟩) (.of main_call60_v12 : StableHlo.TRef sig ⟨S8x8192, .i1⟩) andi,
    StableHlo.TRef.unary main_call60_call0.v0 (.of main_call60_v13 : StableHlo.TRef sig ⟨S8x8192, .i32⟩) (broadcastInDim S8x8192 ![] bcast_S_S8x8192),
    StableHlo.TRef.binary (.of main_call60_v4 : StableHlo.TRef sig ⟨S8x8192, .i32⟩) (.of main_call60_v13 : StableHlo.TRef sig ⟨S8x8192, .i32⟩) (.of main_call60_v14 : StableHlo.TRef sig ⟨S8x8192, .i32⟩) addi,
    StableHlo.TRef.ternary (.of main_call60_v12 : StableHlo.TRef sig ⟨S8x8192, .i1⟩) (.of main_call60_v14 : StableHlo.TRef sig ⟨S8x8192, .i32⟩) (.of main_call60_v4 : StableHlo.TRef sig ⟨S8x8192, .i32⟩) (.of main_v173 : StableHlo.TRef sig ⟨S8x8192, .i32⟩) select ]

abbrev hostOps0_122 : List (HloOp τ sig (Elt F)) :=
  [ StableHlo.unary main_v166 main_v174 ((extractStridedSlice S8x8191 ![0, 0] · slices_S8x8192_S8x8191_0_0) : (⟨S8x8192, .i1⟩ : BufTy).Contents (Elt F) → (⟨S8x8191, .i1⟩ : BufTy).Contents (Elt F)),
    StableHlo.nullary main_c_85 (constantI S_ 1 1#1) ]

abbrev hostOps0_123 : List (HloOp τ sig (Elt F)) :=
  [ StableHlo.TRef.binary (.of main_v174 : StableHlo.TRef sig ⟨S8x8191, .i1⟩) (.of main_c_85 : StableHlo.TRef sig ⟨S_, .i1⟩) (.of main_v175 : StableHlo.TRef sig ⟨S8x8192, .i1⟩) (fun x v => pad S8x8192 ![0, 1] ![0, 0] ![0, 0] x v pads_S8x8191_S8x8192_000_100 h_S_) ]

abbrev hostOps0_124 : List (HloOp τ sig (Elt F)) :=
  [ StableHlo.binary main_v175 main_v18 main_v176 ori,
    StableHlo.nullary main_c_86 (constantI S_ 32 4096#32) ]

abbrev hostOps0_125 : List (HloOp τ sig (Elt F)) :=
  [ StableHlo.TRef.unary (.of main_c_86 : StableHlo.TRef sig ⟨S_, .i32⟩) (.of main_call62_v0 : StableHlo.TRef sig ⟨S_, .i32⟩) id,
    StableHlo.TRef.unary (.of main_call62_v0 : StableHlo.TRef sig ⟨S_, .i32⟩) (.of main_call62_v1 : StableHlo.TRef sig ⟨S8x8192, .i32⟩) (broadcastInDim S8x8192 ![] bcast_S_S8x8192),
    StableHlo.TRef.ternary (.of main_v176 : StableHlo.TRef sig ⟨S8x8192, .i1⟩) (.of main_call62_v1 : StableHlo.TRef sig ⟨S8x8192, .i32⟩) (.of main_v173 : StableHlo.TRef sig ⟨S8x8192, .i32⟩) (.of main_v177 : StableHlo.TRef sig ⟨S8x8192, .i32⟩) select ]

abbrev hostOps0_126 : List (HloOp τ sig (Elt F)) :=
  [ StableHlo.unary main_v173 main_v178 ((extractStridedSlice S8x8191 ![0, 0] · slices_S8x8192_S8x8191_0_0) : (⟨S8x8192, .i32⟩ : BufTy).Contents (Elt F) → (⟨S8x8191, .i32⟩ : BufTy).Contents (Elt F)),
    StableHlo.nullary main_c_87 (constantI S_ 32 0#32) ]

abbrev hostOps0_127 : List (HloOp τ sig (Elt F)) :=
  [ StableHlo.TRef.unary (.of main_c_87 : StableHlo.TRef sig ⟨S_, .i32⟩) (.of main_call63_v0 : StableHlo.TRef sig ⟨S_, .i32⟩) id,
    StableHlo.TRef.binary (.of main_v178 : StableHlo.TRef sig ⟨S8x8191, .i32⟩) (.of main_call63_v0 : StableHlo.TRef sig ⟨S_, .i32⟩) (.of main_v179 : StableHlo.TRef sig ⟨S8x8192, .i32⟩) (fun x v => pad S8x8192 ![0, 1] ![0, 0] ![0, 0] x v pads_S8x8191_S8x8192_000_100 h_S_) ]

abbrev hostOps0_128 : List (HloOp τ sig (Elt F)) :=
  [ StableHlo.nullary main_c_88 (constantI S_ 32 31#32),
    StableHlo.unary main_c_88 main_v180 (broadcastInDim S8x8192 ![] bcast_S_S8x8192),
    StableHlo.binary main_v179 main_v180 main_v181 muli,
    StableHlo.binary main_v181 main_v16 main_v182 addi,
    StableHlo.nullary main_c_89 (constantI S_ 32 4096#32) ]

abbrev hostOps0_129 : List (HloOp τ sig (Elt F)) :=
  [ StableHlo.TRef.unary (.of main_c_89 : StableHlo.TRef sig ⟨S_, .i32⟩) (.of main_call64_v0 : StableHlo.TRef sig ⟨S_, .i32⟩) id,
    StableHlo.TRef.nullary (.of main_call64_c : StableHlo.TRef sig ⟨S_, .i32⟩) (constantI S_ 32 0#32),
    StableHlo.TRef.binary (.of main_call64_v0 : StableHlo.TRef sig ⟨S_, .i32⟩) (.of main_call64_c : StableHlo.TRef sig ⟨S_, .i32⟩) (.of main_call64_v1 : StableHlo.TRef sig ⟨S_, .i1⟩) (cmpi .eq),
    StableHlo.TRef.nullary (.of main_call64_c_0 : StableHlo.TRef sig ⟨S_, .i32⟩) (constantI S_ 32 1#32),
    StableHlo.TRef.ternary (.of main_call64_v1 : StableHlo.TRef sig ⟨S_, .i1⟩) (.of main_call64_c_0 : StableHlo.TRef sig ⟨S_, .i32⟩) (.of main_call64_v0 : StableHlo.TRef sig ⟨S_, .i32⟩) (.of main_call64_v2 : StableHlo.TRef sig ⟨S_, .i32⟩) select,
    StableHlo.TRef.unary main_call64_call0.v0 (.of main_call64_v3 : StableHlo.TRef sig ⟨S8x8192, .i32⟩) (broadcastInDim S8x8192 ![] bcast_S_S8x8192),
    StableHlo.TRef.binary (.of main_v182 : StableHlo.TRef sig ⟨S8x8192, .i32⟩) (.of main_call64_v3 : StableHlo.TRef sig ⟨S8x8192, .i32⟩) (.of main_call64_v4 : StableHlo.TRef sig ⟨S8x8192, .i32⟩) Host.remsi,
    StableHlo.TRef.nullary (.of main_call64_c_1 : StableHlo.TRef sig ⟨S_, .i32⟩) (constantI S_ 32 0#32),
    StableHlo.TRef.unary (.of main_call64_c_1 : StableHlo.TRef sig ⟨S_, .i32⟩) (.of main_call64_v5 : StableHlo.TRef sig ⟨S8x8192, .i32⟩) (broadcastInDim S8x8192 ![] bcast_S_S8x8192),
    StableHlo.TRef.binary (.of main_call64_v4 : StableHlo.TRef sig ⟨S8x8192, .i32⟩) (.of main_call64_v5 : StableHlo.TRef sig ⟨S8x8192, .i32⟩) (.of main_call64_v6 : StableHlo.TRef sig ⟨S8x8192, .i1⟩) (cmpi .ne),
    StableHlo.TRef.nullary (.of main_call64_c_2 : StableHlo.TRef sig ⟨S_, .i32⟩) (constantI S_ 32 0#32),
    StableHlo.TRef.unary (.of main_call64_c_2 : StableHlo.TRef sig ⟨S_, .i32⟩) (.of main_call64_v7 : StableHlo.TRef sig ⟨S8x8192, .i32⟩) (broadcastInDim S8x8192 ![] bcast_S_S8x8192),
    StableHlo.TRef.binary (.of main_call64_v4 : StableHlo.TRef sig ⟨S8x8192, .i32⟩) (.of main_call64_v7 : StableHlo.TRef sig ⟨S8x8192, .i32⟩) (.of main_call64_v8 : StableHlo.TRef sig ⟨S8x8192, .i1⟩) (cmpi .slt),
    StableHlo.TRef.nullary (.of main_call64_c_3 : StableHlo.TRef sig ⟨S_, .i32⟩) (constantI S_ 32 0#32),
    StableHlo.TRef.binary main_call64_call0.v0 (.of main_call64_c_3 : StableHlo.TRef sig ⟨S_, .i32⟩) (.of main_call64_v9 : StableHlo.TRef sig ⟨S_, .i1⟩) (cmpi .slt),
    StableHlo.TRef.unary (.of main_call64_v9 : StableHlo.TRef sig ⟨S_, .i1⟩) (.of main_call64_v10 : StableHlo.TRef sig ⟨S8x8192, .i1⟩) (broadcastInDim S8x8192 ![] bcast_S_S8x8192),
    StableHlo.TRef.binary (.of main_call64_v8 : StableHlo.TRef sig ⟨S8x8192, .i1⟩) (.of main_call64_v10 : StableHlo.TRef sig ⟨S8x8192, .i1⟩) (.of main_call64_v11 : StableHlo.TRef sig ⟨S8x8192, .i1⟩) (cmpi .ne),
    StableHlo.TRef.binary (.of main_call64_v11 : StableHlo.TRef sig ⟨S8x8192, .i1⟩) (.of main_call64_v6 : StableHlo.TRef sig ⟨S8x8192, .i1⟩) (.of main_call64_v12 : StableHlo.TRef sig ⟨S8x8192, .i1⟩) andi,
    StableHlo.TRef.unary main_call64_call0.v0 (.of main_call64_v13 : StableHlo.TRef sig ⟨S8x8192, .i32⟩) (broadcastInDim S8x8192 ![] bcast_S_S8x8192),
    StableHlo.TRef.binary (.of main_call64_v4 : StableHlo.TRef sig ⟨S8x8192, .i32⟩) (.of main_call64_v13 : StableHlo.TRef sig ⟨S8x8192, .i32⟩) (.of main_call64_v14 : StableHlo.TRef sig ⟨S8x8192, .i32⟩) addi,
    StableHlo.TRef.ternary (.of main_call64_v12 : StableHlo.TRef sig ⟨S8x8192, .i1⟩) (.of main_call64_v14 : StableHlo.TRef sig ⟨S8x8192, .i32⟩) (.of main_call64_v4 : StableHlo.TRef sig ⟨S8x8192, .i32⟩) (.of main_v183 : StableHlo.TRef sig ⟨S8x8192, .i32⟩) select ]

abbrev hostOps0_130 : List (HloOp τ sig (Elt F)) :=
  [ StableHlo.unary main_v176 main_v184 ((extractStridedSlice S8x8191 ![0, 0] · slices_S8x8192_S8x8191_0_0) : (⟨S8x8192, .i1⟩ : BufTy).Contents (Elt F) → (⟨S8x8191, .i1⟩ : BufTy).Contents (Elt F)),
    StableHlo.nullary main_c_90 (constantI S_ 1 1#1) ]

abbrev hostOps0_131 : List (HloOp τ sig (Elt F)) :=
  [ StableHlo.TRef.binary (.of main_v184 : StableHlo.TRef sig ⟨S8x8191, .i1⟩) (.of main_c_90 : StableHlo.TRef sig ⟨S_, .i1⟩) (.of main_v185 : StableHlo.TRef sig ⟨S8x8192, .i1⟩) (fun x v => pad S8x8192 ![0, 1] ![0, 0] ![0, 0] x v pads_S8x8191_S8x8192_000_100 h_S_) ]

abbrev hostOps0_132 : List (HloOp τ sig (Elt F)) :=
  [ StableHlo.binary main_v185 main_v18 main_v186 ori,
    StableHlo.nullary main_c_91 (constantI S_ 32 4096#32) ]

abbrev hostOps0_133 : List (HloOp τ sig (Elt F)) :=
  [ StableHlo.TRef.unary (.of main_c_91 : StableHlo.TRef sig ⟨S_, .i32⟩) (.of main_call66_v0 : StableHlo.TRef sig ⟨S_, .i32⟩) id,
    StableHlo.TRef.unary (.of main_call66_v0 : StableHlo.TRef sig ⟨S_, .i32⟩) (.of main_call66_v1 : StableHlo.TRef sig ⟨S8x8192, .i32⟩) (broadcastInDim S8x8192 ![] bcast_S_S8x8192),
    StableHlo.TRef.ternary (.of main_v186 : StableHlo.TRef sig ⟨S8x8192, .i1⟩) (.of main_call66_v1 : StableHlo.TRef sig ⟨S8x8192, .i32⟩) (.of main_v183 : StableHlo.TRef sig ⟨S8x8192, .i32⟩) (.of main_v187 : StableHlo.TRef sig ⟨S8x8192, .i32⟩) select ]

abbrev hostOps0_134 : List (HloOp τ sig (Elt F)) :=
  [ StableHlo.unary main_v183 main_v188 ((extractStridedSlice S8x8191 ![0, 0] · slices_S8x8192_S8x8191_0_0) : (⟨S8x8192, .i32⟩ : BufTy).Contents (Elt F) → (⟨S8x8191, .i32⟩ : BufTy).Contents (Elt F)),
    StableHlo.nullary main_c_92 (constantI S_ 32 0#32) ]

abbrev hostOps0_135 : List (HloOp τ sig (Elt F)) :=
  [ StableHlo.TRef.unary (.of main_c_92 : StableHlo.TRef sig ⟨S_, .i32⟩) (.of main_call67_v0 : StableHlo.TRef sig ⟨S_, .i32⟩) id,
    StableHlo.TRef.binary (.of main_v188 : StableHlo.TRef sig ⟨S8x8191, .i32⟩) (.of main_call67_v0 : StableHlo.TRef sig ⟨S_, .i32⟩) (.of main_v189 : StableHlo.TRef sig ⟨S8x8192, .i32⟩) (fun x v => pad S8x8192 ![0, 1] ![0, 0] ![0, 0] x v pads_S8x8191_S8x8192_000_100 h_S_) ]

abbrev hostOps0_136 : List (HloOp τ sig (Elt F)) :=
  [ StableHlo.nullary main_c_93 (constantI S_ 32 31#32),
    StableHlo.unary main_c_93 main_v190 (broadcastInDim S8x8192 ![] bcast_S_S8x8192),
    StableHlo.binary main_v189 main_v190 main_v191 muli,
    StableHlo.binary main_v191 main_v16 main_v192 addi,
    StableHlo.nullary main_c_94 (constantI S_ 32 4096#32) ]

abbrev hostOps0_137 : List (HloOp τ sig (Elt F)) :=
  [ StableHlo.TRef.unary (.of main_c_94 : StableHlo.TRef sig ⟨S_, .i32⟩) (.of main_call68_v0 : StableHlo.TRef sig ⟨S_, .i32⟩) id,
    StableHlo.TRef.nullary (.of main_call68_c : StableHlo.TRef sig ⟨S_, .i32⟩) (constantI S_ 32 0#32),
    StableHlo.TRef.binary (.of main_call68_v0 : StableHlo.TRef sig ⟨S_, .i32⟩) (.of main_call68_c : StableHlo.TRef sig ⟨S_, .i32⟩) (.of main_call68_v1 : StableHlo.TRef sig ⟨S_, .i1⟩) (cmpi .eq),
    StableHlo.TRef.nullary (.of main_call68_c_0 : StableHlo.TRef sig ⟨S_, .i32⟩) (constantI S_ 32 1#32),
    StableHlo.TRef.ternary (.of main_call68_v1 : StableHlo.TRef sig ⟨S_, .i1⟩) (.of main_call68_c_0 : StableHlo.TRef sig ⟨S_, .i32⟩) (.of main_call68_v0 : StableHlo.TRef sig ⟨S_, .i32⟩) (.of main_call68_v2 : StableHlo.TRef sig ⟨S_, .i32⟩) select,
    StableHlo.TRef.unary main_call68_call0.v0 (.of main_call68_v3 : StableHlo.TRef sig ⟨S8x8192, .i32⟩) (broadcastInDim S8x8192 ![] bcast_S_S8x8192),
    StableHlo.TRef.binary (.of main_v192 : StableHlo.TRef sig ⟨S8x8192, .i32⟩) (.of main_call68_v3 : StableHlo.TRef sig ⟨S8x8192, .i32⟩) (.of main_call68_v4 : StableHlo.TRef sig ⟨S8x8192, .i32⟩) Host.remsi,
    StableHlo.TRef.nullary (.of main_call68_c_1 : StableHlo.TRef sig ⟨S_, .i32⟩) (constantI S_ 32 0#32),
    StableHlo.TRef.unary (.of main_call68_c_1 : StableHlo.TRef sig ⟨S_, .i32⟩) (.of main_call68_v5 : StableHlo.TRef sig ⟨S8x8192, .i32⟩) (broadcastInDim S8x8192 ![] bcast_S_S8x8192),
    StableHlo.TRef.binary (.of main_call68_v4 : StableHlo.TRef sig ⟨S8x8192, .i32⟩) (.of main_call68_v5 : StableHlo.TRef sig ⟨S8x8192, .i32⟩) (.of main_call68_v6 : StableHlo.TRef sig ⟨S8x8192, .i1⟩) (cmpi .ne),
    StableHlo.TRef.nullary (.of main_call68_c_2 : StableHlo.TRef sig ⟨S_, .i32⟩) (constantI S_ 32 0#32),
    StableHlo.TRef.unary (.of main_call68_c_2 : StableHlo.TRef sig ⟨S_, .i32⟩) (.of main_call68_v7 : StableHlo.TRef sig ⟨S8x8192, .i32⟩) (broadcastInDim S8x8192 ![] bcast_S_S8x8192),
    StableHlo.TRef.binary (.of main_call68_v4 : StableHlo.TRef sig ⟨S8x8192, .i32⟩) (.of main_call68_v7 : StableHlo.TRef sig ⟨S8x8192, .i32⟩) (.of main_call68_v8 : StableHlo.TRef sig ⟨S8x8192, .i1⟩) (cmpi .slt),
    StableHlo.TRef.nullary (.of main_call68_c_3 : StableHlo.TRef sig ⟨S_, .i32⟩) (constantI S_ 32 0#32),
    StableHlo.TRef.binary main_call68_call0.v0 (.of main_call68_c_3 : StableHlo.TRef sig ⟨S_, .i32⟩) (.of main_call68_v9 : StableHlo.TRef sig ⟨S_, .i1⟩) (cmpi .slt),
    StableHlo.TRef.unary (.of main_call68_v9 : StableHlo.TRef sig ⟨S_, .i1⟩) (.of main_call68_v10 : StableHlo.TRef sig ⟨S8x8192, .i1⟩) (broadcastInDim S8x8192 ![] bcast_S_S8x8192),
    StableHlo.TRef.binary (.of main_call68_v8 : StableHlo.TRef sig ⟨S8x8192, .i1⟩) (.of main_call68_v10 : StableHlo.TRef sig ⟨S8x8192, .i1⟩) (.of main_call68_v11 : StableHlo.TRef sig ⟨S8x8192, .i1⟩) (cmpi .ne),
    StableHlo.TRef.binary (.of main_call68_v11 : StableHlo.TRef sig ⟨S8x8192, .i1⟩) (.of main_call68_v6 : StableHlo.TRef sig ⟨S8x8192, .i1⟩) (.of main_call68_v12 : StableHlo.TRef sig ⟨S8x8192, .i1⟩) andi,
    StableHlo.TRef.unary main_call68_call0.v0 (.of main_call68_v13 : StableHlo.TRef sig ⟨S8x8192, .i32⟩) (broadcastInDim S8x8192 ![] bcast_S_S8x8192),
    StableHlo.TRef.binary (.of main_call68_v4 : StableHlo.TRef sig ⟨S8x8192, .i32⟩) (.of main_call68_v13 : StableHlo.TRef sig ⟨S8x8192, .i32⟩) (.of main_call68_v14 : StableHlo.TRef sig ⟨S8x8192, .i32⟩) addi,
    StableHlo.TRef.ternary (.of main_call68_v12 : StableHlo.TRef sig ⟨S8x8192, .i1⟩) (.of main_call68_v14 : StableHlo.TRef sig ⟨S8x8192, .i32⟩) (.of main_call68_v4 : StableHlo.TRef sig ⟨S8x8192, .i32⟩) (.of main_v193 : StableHlo.TRef sig ⟨S8x8192, .i32⟩) select ]

abbrev hostOps0_138 : List (HloOp τ sig (Elt F)) :=
  [ StableHlo.unary main_v186 main_v194 ((extractStridedSlice S8x8191 ![0, 0] · slices_S8x8192_S8x8191_0_0) : (⟨S8x8192, .i1⟩ : BufTy).Contents (Elt F) → (⟨S8x8191, .i1⟩ : BufTy).Contents (Elt F)),
    StableHlo.nullary main_c_95 (constantI S_ 1 1#1) ]

abbrev hostOps0_139 : List (HloOp τ sig (Elt F)) :=
  [ StableHlo.TRef.binary (.of main_v194 : StableHlo.TRef sig ⟨S8x8191, .i1⟩) (.of main_c_95 : StableHlo.TRef sig ⟨S_, .i1⟩) (.of main_v195 : StableHlo.TRef sig ⟨S8x8192, .i1⟩) (fun x v => pad S8x8192 ![0, 1] ![0, 0] ![0, 0] x v pads_S8x8191_S8x8192_000_100 h_S_) ]

abbrev hostOps0_140 : List (HloOp τ sig (Elt F)) :=
  [ StableHlo.binary main_v195 main_v18 main_v196 ori,
    StableHlo.nullary main_c_96 (constantI S_ 32 4096#32) ]

abbrev hostOps0_141 : List (HloOp τ sig (Elt F)) :=
  [ StableHlo.TRef.unary (.of main_c_96 : StableHlo.TRef sig ⟨S_, .i32⟩) (.of main_call70_v0 : StableHlo.TRef sig ⟨S_, .i32⟩) id,
    StableHlo.TRef.unary (.of main_call70_v0 : StableHlo.TRef sig ⟨S_, .i32⟩) (.of main_call70_v1 : StableHlo.TRef sig ⟨S8x8192, .i32⟩) (broadcastInDim S8x8192 ![] bcast_S_S8x8192),
    StableHlo.TRef.ternary (.of main_v196 : StableHlo.TRef sig ⟨S8x8192, .i1⟩) (.of main_call70_v1 : StableHlo.TRef sig ⟨S8x8192, .i32⟩) (.of main_v193 : StableHlo.TRef sig ⟨S8x8192, .i32⟩) (.of main_v197 : StableHlo.TRef sig ⟨S8x8192, .i32⟩) select ]

abbrev hostOps0_142 : List (HloOp τ sig (Elt F)) :=
  [ StableHlo.unary main_v193 main_v198 ((extractStridedSlice S8x8191 ![0, 0] · slices_S8x8192_S8x8191_0_0) : (⟨S8x8192, .i32⟩ : BufTy).Contents (Elt F) → (⟨S8x8191, .i32⟩ : BufTy).Contents (Elt F)),
    StableHlo.nullary main_c_97 (constantI S_ 32 0#32) ]

abbrev hostOps0_143 : List (HloOp τ sig (Elt F)) :=
  [ StableHlo.TRef.unary (.of main_c_97 : StableHlo.TRef sig ⟨S_, .i32⟩) (.of main_call71_v0 : StableHlo.TRef sig ⟨S_, .i32⟩) id,
    StableHlo.TRef.binary (.of main_v198 : StableHlo.TRef sig ⟨S8x8191, .i32⟩) (.of main_call71_v0 : StableHlo.TRef sig ⟨S_, .i32⟩) (.of main_v199 : StableHlo.TRef sig ⟨S8x8192, .i32⟩) (fun x v => pad S8x8192 ![0, 1] ![0, 0] ![0, 0] x v pads_S8x8191_S8x8192_000_100 h_S_) ]

abbrev hostOps0_144 : List (HloOp τ sig (Elt F)) :=
  [ StableHlo.nullary main_c_98 (constantI S_ 32 31#32),
    StableHlo.unary main_c_98 main_v200 (broadcastInDim S8x8192 ![] bcast_S_S8x8192),
    StableHlo.binary main_v199 main_v200 main_v201 muli,
    StableHlo.binary main_v201 main_v16 main_v202 addi,
    StableHlo.nullary main_c_99 (constantI S_ 32 4096#32) ]

abbrev hostOps0_145 : List (HloOp τ sig (Elt F)) :=
  [ StableHlo.TRef.unary (.of main_c_99 : StableHlo.TRef sig ⟨S_, .i32⟩) (.of main_call72_v0 : StableHlo.TRef sig ⟨S_, .i32⟩) id,
    StableHlo.TRef.nullary (.of main_call72_c : StableHlo.TRef sig ⟨S_, .i32⟩) (constantI S_ 32 0#32),
    StableHlo.TRef.binary (.of main_call72_v0 : StableHlo.TRef sig ⟨S_, .i32⟩) (.of main_call72_c : StableHlo.TRef sig ⟨S_, .i32⟩) (.of main_call72_v1 : StableHlo.TRef sig ⟨S_, .i1⟩) (cmpi .eq),
    StableHlo.TRef.nullary (.of main_call72_c_0 : StableHlo.TRef sig ⟨S_, .i32⟩) (constantI S_ 32 1#32),
    StableHlo.TRef.ternary (.of main_call72_v1 : StableHlo.TRef sig ⟨S_, .i1⟩) (.of main_call72_c_0 : StableHlo.TRef sig ⟨S_, .i32⟩) (.of main_call72_v0 : StableHlo.TRef sig ⟨S_, .i32⟩) (.of main_call72_v2 : StableHlo.TRef sig ⟨S_, .i32⟩) select,
    StableHlo.TRef.unary main_call72_call0.v0 (.of main_call72_v3 : StableHlo.TRef sig ⟨S8x8192, .i32⟩) (broadcastInDim S8x8192 ![] bcast_S_S8x8192),
    StableHlo.TRef.binary (.of main_v202 : StableHlo.TRef sig ⟨S8x8192, .i32⟩) (.of main_call72_v3 : StableHlo.TRef sig ⟨S8x8192, .i32⟩) (.of main_call72_v4 : StableHlo.TRef sig ⟨S8x8192, .i32⟩) Host.remsi,
    StableHlo.TRef.nullary (.of main_call72_c_1 : StableHlo.TRef sig ⟨S_, .i32⟩) (constantI S_ 32 0#32),
    StableHlo.TRef.unary (.of main_call72_c_1 : StableHlo.TRef sig ⟨S_, .i32⟩) (.of main_call72_v5 : StableHlo.TRef sig ⟨S8x8192, .i32⟩) (broadcastInDim S8x8192 ![] bcast_S_S8x8192),
    StableHlo.TRef.binary (.of main_call72_v4 : StableHlo.TRef sig ⟨S8x8192, .i32⟩) (.of main_call72_v5 : StableHlo.TRef sig ⟨S8x8192, .i32⟩) (.of main_call72_v6 : StableHlo.TRef sig ⟨S8x8192, .i1⟩) (cmpi .ne),
    StableHlo.TRef.nullary (.of main_call72_c_2 : StableHlo.TRef sig ⟨S_, .i32⟩) (constantI S_ 32 0#32),
    StableHlo.TRef.unary (.of main_call72_c_2 : StableHlo.TRef sig ⟨S_, .i32⟩) (.of main_call72_v7 : StableHlo.TRef sig ⟨S8x8192, .i32⟩) (broadcastInDim S8x8192 ![] bcast_S_S8x8192),
    StableHlo.TRef.binary (.of main_call72_v4 : StableHlo.TRef sig ⟨S8x8192, .i32⟩) (.of main_call72_v7 : StableHlo.TRef sig ⟨S8x8192, .i32⟩) (.of main_call72_v8 : StableHlo.TRef sig ⟨S8x8192, .i1⟩) (cmpi .slt),
    StableHlo.TRef.nullary (.of main_call72_c_3 : StableHlo.TRef sig ⟨S_, .i32⟩) (constantI S_ 32 0#32),
    StableHlo.TRef.binary main_call72_call0.v0 (.of main_call72_c_3 : StableHlo.TRef sig ⟨S_, .i32⟩) (.of main_call72_v9 : StableHlo.TRef sig ⟨S_, .i1⟩) (cmpi .slt),
    StableHlo.TRef.unary (.of main_call72_v9 : StableHlo.TRef sig ⟨S_, .i1⟩) (.of main_call72_v10 : StableHlo.TRef sig ⟨S8x8192, .i1⟩) (broadcastInDim S8x8192 ![] bcast_S_S8x8192),
    StableHlo.TRef.binary (.of main_call72_v8 : StableHlo.TRef sig ⟨S8x8192, .i1⟩) (.of main_call72_v10 : StableHlo.TRef sig ⟨S8x8192, .i1⟩) (.of main_call72_v11 : StableHlo.TRef sig ⟨S8x8192, .i1⟩) (cmpi .ne),
    StableHlo.TRef.binary (.of main_call72_v11 : StableHlo.TRef sig ⟨S8x8192, .i1⟩) (.of main_call72_v6 : StableHlo.TRef sig ⟨S8x8192, .i1⟩) (.of main_call72_v12 : StableHlo.TRef sig ⟨S8x8192, .i1⟩) andi,
    StableHlo.TRef.unary main_call72_call0.v0 (.of main_call72_v13 : StableHlo.TRef sig ⟨S8x8192, .i32⟩) (broadcastInDim S8x8192 ![] bcast_S_S8x8192),
    StableHlo.TRef.binary (.of main_call72_v4 : StableHlo.TRef sig ⟨S8x8192, .i32⟩) (.of main_call72_v13 : StableHlo.TRef sig ⟨S8x8192, .i32⟩) (.of main_call72_v14 : StableHlo.TRef sig ⟨S8x8192, .i32⟩) addi,
    StableHlo.TRef.ternary (.of main_call72_v12 : StableHlo.TRef sig ⟨S8x8192, .i1⟩) (.of main_call72_v14 : StableHlo.TRef sig ⟨S8x8192, .i32⟩) (.of main_call72_v4 : StableHlo.TRef sig ⟨S8x8192, .i32⟩) (.of main_v203 : StableHlo.TRef sig ⟨S8x8192, .i32⟩) select ]

abbrev hostOps0_146 : List (HloOp τ sig (Elt F)) :=
  [ StableHlo.unary main_v196 main_v204 ((extractStridedSlice S8x8191 ![0, 0] · slices_S8x8192_S8x8191_0_0) : (⟨S8x8192, .i1⟩ : BufTy).Contents (Elt F) → (⟨S8x8191, .i1⟩ : BufTy).Contents (Elt F)),
    StableHlo.nullary main_c_100 (constantI S_ 1 1#1) ]

abbrev hostOps0_147 : List (HloOp τ sig (Elt F)) :=
  [ StableHlo.TRef.binary (.of main_v204 : StableHlo.TRef sig ⟨S8x8191, .i1⟩) (.of main_c_100 : StableHlo.TRef sig ⟨S_, .i1⟩) (.of main_v205 : StableHlo.TRef sig ⟨S8x8192, .i1⟩) (fun x v => pad S8x8192 ![0, 1] ![0, 0] ![0, 0] x v pads_S8x8191_S8x8192_000_100 h_S_) ]

abbrev hostOps0_148 : List (HloOp τ sig (Elt F)) :=
  [ StableHlo.binary main_v205 main_v18 main_v206 ori,
    StableHlo.nullary main_c_101 (constantI S_ 32 4096#32) ]

abbrev hostOps0_149 : List (HloOp τ sig (Elt F)) :=
  [ StableHlo.TRef.unary (.of main_c_101 : StableHlo.TRef sig ⟨S_, .i32⟩) (.of main_call74_v0 : StableHlo.TRef sig ⟨S_, .i32⟩) id,
    StableHlo.TRef.unary (.of main_call74_v0 : StableHlo.TRef sig ⟨S_, .i32⟩) (.of main_call74_v1 : StableHlo.TRef sig ⟨S8x8192, .i32⟩) (broadcastInDim S8x8192 ![] bcast_S_S8x8192),
    StableHlo.TRef.ternary (.of main_v206 : StableHlo.TRef sig ⟨S8x8192, .i1⟩) (.of main_call74_v1 : StableHlo.TRef sig ⟨S8x8192, .i32⟩) (.of main_v203 : StableHlo.TRef sig ⟨S8x8192, .i32⟩) (.of main_v207 : StableHlo.TRef sig ⟨S8x8192, .i32⟩) select ]

abbrev stretchesB : List (List (HloOp τ sig (Elt F))) :=
  [hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, hostOps0_101, hostOps0_102, hostOps0_103, hostOps0_104, hostOps0_105, hostOps0_106, hostOps0_107, hostOps0_108, hostOps0_109, hostOps0_110, hostOps0_111, hostOps0_112, hostOps0_113, hostOps0_114, hostOps0_115, hostOps0_116, hostOps0_117, hostOps0_118, hostOps0_119, hostOps0_120, hostOps0_121, hostOps0_122, hostOps0_123, hostOps0_124, hostOps0_125, hostOps0_126, hostOps0_127, hostOps0_128, hostOps0_129, hostOps0_130, hostOps0_131, hostOps0_132, hostOps0_133, hostOps0_134, hostOps0_135, hostOps0_136, hostOps0_137, hostOps0_138, hostOps0_139, hostOps0_140, hostOps0_141, hostOps0_142, hostOps0_143, hostOps0_144, hostOps0_145, hostOps0_146, hostOps0_147, hostOps0_148, hostOps0_149]

/-- Each operation is one of the host forms, all over TensorCore references. -/
theorem stretchesB_sub : (stretchesB : List (List (HloOp τ sig (Elt F)))).Forall fun l => l.Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]

end Cert.ReferenceIdeal.Hand

end
-- ==== Proof.R.Ops1.lean ====
import proofs.«175239_j73718818668652_1_alg».proof.Proof.Gen.ReferenceIdeal
import Idealize.ShloMosaic.Lib.StableHlo.Run

set_option maxRecDepth 3636

noncomputable section

namespace Cert.ReferenceIdeal.Hand

open Idealize.ShloMosaic Idealize.ShloMosaic.TcCoe
open Idealize.SL Idealize.SL.Sem
open Cert.ReferenceIdeal Cert.ReferenceIdeal.Gen

variable {F : FTy → Type} [FloatOps F]

abbrev tailOps0 : List (HloOp τ sig (Elt F)) :=
  [ StableHlo.nullary main_cst (constant S_ .f32 0x00000000#32),
    StableHlo.unary main_cst main_v208 (broadcastInDim S8x8192x256 ![] bcast_S_S8x8192x256) ]

abbrev tailOps1 : List (HloOp τ sig (Elt F)) :=
  [ StableHlo.unary main_arg1 main_v209 ((extractStridedSlice S1x4097x256 ![0, 0, 0] · slices_S18x4097x256_S1x4097x256_0_0_0) : (⟨S18x4097x256, .f32⟩ : BufTy).Contents (Elt F) → (⟨S1x4097x256, .f32⟩ : BufTy).Contents (Elt F)),
    StableHlo.reshape main_v209 main_v210 rfl shapeCasts_S1x4097x256_S4097x256,
    StableHlo.nullary main_c_102 (constantI S_ 32 0#32),
    StableHlo.unary main_c_102 main_v211 (broadcastInDim S8x8192 ![] bcast_S_S8x8192),
    StableHlo.binary main_v37 main_v211 main_v212 (cmpi .slt),
    StableHlo.nullary main_c_103 (constantI S_ 32 4097#32),
    StableHlo.unary main_c_103 main_v213 (broadcastInDim S8x8192 ![] bcast_S_S8x8192),
    StableHlo.binary main_v37 main_v213 main_v214 addi,
    StableHlo.ternary main_v212 main_v214 main_v37 main_v215 select,
    StableHlo.unary main_v215 main_v216 (broadcastInDim S8x8192x1 ![0, 1] bcast_S8x8192_S8x8192x1_0_1),
    StableHlo.binary main_v210 main_v216 main_v217 ((fun x i => Host.gather gather_S4097x256_S8x8192x1_S8x8192x256_2_0_n_n_0_2_1256 x i) : (⟨S4097x256, .f32⟩ : BufTy).Contents (Elt F) → (⟨S8x8192x1, .i32⟩ : BufTy).Contents (Elt F) → (⟨S8x8192x256, .f32⟩ : BufTy).Contents (Elt F)),
    StableHlo.binary main_v208 main_v217 main_v218 addf ]

abbrev tailOps2 : List (HloOp τ sig (Elt F)) :=
  [ StableHlo.unary main_arg1 main_v219 ((extractStridedSlice S1x4097x256 ![1, 0, 0] · slices_S18x4097x256_S1x4097x256_1_0_0) : (⟨S18x4097x256, .f32⟩ : BufTy).Contents (Elt F) → (⟨S1x4097x256, .f32⟩ : BufTy).Contents (Elt F)),
    StableHlo.reshape main_v219 main_v220 rfl shapeCasts_S1x4097x256_S4097x256,
    StableHlo.nullary main_c_104 (constantI S_ 32 0#32),
    StableHlo.unary main_c_104 main_v221 (broadcastInDim S8x8192 ![] bcast_S_S8x8192),
    StableHlo.binary main_v47 main_v221 main_v222 (cmpi .slt),
    StableHlo.nullary main_c_105 (constantI S_ 32 4097#32),
    StableHlo.unary main_c_105 main_v223 (broadcastInDim S8x8192 ![] bcast_S_S8x8192),
    StableHlo.binary main_v47 main_v223 main_v224 addi,
    StableHlo.ternary main_v222 main_v224 main_v47 main_v225 select,
    StableHlo.unary main_v225 main_v226 (broadcastInDim S8x8192x1 ![0, 1] bcast_S8x8192_S8x8192x1_0_1),
    StableHlo.binary main_v220 main_v226 main_v227 ((fun x i => Host.gather gather_S4097x256_S8x8192x1_S8x8192x256_2_0_n_n_0_2_1256 x i) : (⟨S4097x256, .f32⟩ : BufTy).Contents (Elt F) → (⟨S8x8192x1, .i32⟩ : BufTy).Contents (Elt F) → (⟨S8x8192x256, .f32⟩ : BufTy).Contents (Elt F)),
    StableHlo.binary main_v218 main_v227 main_v228 addf ]

abbrev tailOps3 : List (HloOp τ sig (Elt F)) :=
  [ StableHlo.unary main_arg1 main_v229 ((extractStridedSlice S1x4097x256 ![2, 0, 0] · slices_S18x4097x256_S1x4097x256_2_0_0) : (⟨S18x4097x256, .f32⟩ : BufTy).Contents (Elt F) → (⟨S1x4097x256, .f32⟩ : BufTy).Contents (Elt F)),
    StableHlo.reshape main_v229 main_v230 rfl shapeCasts_S1x4097x256_S4097x256,
    StableHlo.nullary main_c_106 (constantI S_ 32 0#32),
    StableHlo.unary main_c_106 main_v231 (broadcastInDim S8x8192 ![] bcast_S_S8x8192),
    StableHlo.binary main_v57 main_v231 main_v232 (cmpi .slt),
    StableHlo.nullary main_c_107 (constantI S_ 32 4097#32),
    StableHlo.unary main_c_107 main_v233 (broadcastInDim S8x8192 ![] bcast_S_S8x8192),
    StableHlo.binary main_v57 main_v233 main_v234 addi,
    StableHlo.ternary main_v232 main_v234 main_v57 main_v235 select,
    StableHlo.unary main_v235 main_v236 (broadcastInDim S8x8192x1 ![0, 1] bcast_S8x8192_S8x8192x1_0_1),
    StableHlo.binary main_v230 main_v236 main_v237 ((fun x i => Host.gather gather_S4097x256_S8x8192x1_S8x8192x256_2_0_n_n_0_2_1256 x i) : (⟨S4097x256, .f32⟩ : BufTy).Contents (Elt F) → (⟨S8x8192x1, .i32⟩ : BufTy).Contents (Elt F) → (⟨S8x8192x256, .f32⟩ : BufTy).Contents (Elt F)),
    StableHlo.binary main_v228 main_v237 main_v238 addf ]

abbrev tailOps4 : List (HloOp τ sig (Elt F)) :=
  [ StableHlo.unary main_arg1 main_v239 ((extractStridedSlice S1x4097x256 ![3, 0, 0] · slices_S18x4097x256_S1x4097x256_3_0_0) : (⟨S18x4097x256, .f32⟩ : BufTy).Contents (Elt F) → (⟨S1x4097x256, .f32⟩ : BufTy).Contents (Elt F)),
    StableHlo.reshape main_v239 main_v240 rfl shapeCasts_S1x4097x256_S4097x256,
    StableHlo.nullary main_c_108 (constantI S_ 32 0#32),
    StableHlo.unary main_c_108 main_v241 (broadcastInDim S8x8192 ![] bcast_S_S8x8192),
    StableHlo.binary main_v67 main_v241 main_v242 (cmpi .slt),
    StableHlo.nullary main_c_109 (constantI S_ 32 4097#32),
    StableHlo.unary main_c_109 main_v243 (broadcastInDim S8x8192 ![] bcast_S_S8x8192),
    StableHlo.binary main_v67 main_v243 main_v244 addi,
    StableHlo.ternary main_v242 main_v244 main_v67 main_v245 select,
    StableHlo.unary main_v245 main_v246 (broadcastInDim S8x8192x1 ![0, 1] bcast_S8x8192_S8x8192x1_0_1),
    StableHlo.binary main_v240 main_v246 main_v247 ((fun x i => Host.gather gather_S4097x256_S8x8192x1_S8x8192x256_2_0_n_n_0_2_1256 x i) : (⟨S4097x256, .f32⟩ : BufTy).Contents (Elt F) → (⟨S8x8192x1, .i32⟩ : BufTy).Contents (Elt F) → (⟨S8x8192x256, .f32⟩ : BufTy).Contents (Elt F)),
    StableHlo.binary main_v238 main_v247 main_v248 addf ]

abbrev tailOps5 : List (HloOp τ sig (Elt F)) :=
  [ StableHlo.unary main_arg1 main_v249 ((extractStridedSlice S1x4097x256 ![4, 0, 0] · slices_S18x4097x256_S1x4097x256_4_0_0) : (⟨S18x4097x256, .f32⟩ : BufTy).Contents (Elt F) → (⟨S1x4097x256, .f32⟩ : BufTy).Contents (Elt F)),
    StableHlo.reshape main_v249 main_v250 rfl shapeCasts_S1x4097x256_S4097x256,
    StableHlo.nullary main_c_110 (constantI S_ 32 0#32),
    StableHlo.unary main_c_110 main_v251 (broadcastInDim S8x8192 ![] bcast_S_S8x8192),
    StableHlo.binary main_v77 main_v251 main_v252 (cmpi .slt),
    StableHlo.nullary main_c_111 (constantI S_ 32 4097#32),
    StableHlo.unary main_c_111 main_v253 (broadcastInDim S8x8192 ![] bcast_S_S8x8192),
    StableHlo.binary main_v77 main_v253 main_v254 addi,
    StableHlo.ternary main_v252 main_v254 main_v77 main_v255 select,
    StableHlo.unary main_v255 main_v256 (broadcastInDim S8x8192x1 ![0, 1] bcast_S8x8192_S8x8192x1_0_1),
    StableHlo.binary main_v250 main_v256 main_v257 ((fun x i => Host.gather gather_S4097x256_S8x8192x1_S8x8192x256_2_0_n_n_0_2_1256 x i) : (⟨S4097x256, .f32⟩ : BufTy).Contents (Elt F) → (⟨S8x8192x1, .i32⟩ : BufTy).Contents (Elt F) → (⟨S8x8192x256, .f32⟩ : BufTy).Contents (Elt F)),
    StableHlo.binary main_v248 main_v257 main_v258 addf ]

abbrev tailOps6 : List (HloOp τ sig (Elt F)) :=
  [ StableHlo.unary main_arg1 main_v259 ((extractStridedSlice S1x4097x256 ![5, 0, 0] · slices_S18x4097x256_S1x4097x256_5_0_0) : (⟨S18x4097x256, .f32⟩ : BufTy).Contents (Elt F) → (⟨S1x4097x256, .f32⟩ : BufTy).Contents (Elt F)),
    StableHlo.reshape main_v259 main_v260 rfl shapeCasts_S1x4097x256_S4097x256,
    StableHlo.nullary main_c_112 (constantI S_ 32 0#32),
    StableHlo.unary main_c_112 main_v261 (broadcastInDim S8x8192 ![] bcast_S_S8x8192),
    StableHlo.binary main_v87 main_v261 main_v262 (cmpi .slt),
    StableHlo.nullary main_c_113 (constantI S_ 32 4097#32),
    StableHlo.unary main_c_113 main_v263 (broadcastInDim S8x8192 ![] bcast_S_S8x8192),
    StableHlo.binary main_v87 main_v263 main_v264 addi,
    StableHlo.ternary main_v262 main_v264 main_v87 main_v265 select,
    StableHlo.unary main_v265 main_v266 (broadcastInDim S8x8192x1 ![0, 1] bcast_S8x8192_S8x8192x1_0_1),
    StableHlo.binary main_v260 main_v266 main_v267 ((fun x i => Host.gather gather_S4097x256_S8x8192x1_S8x8192x256_2_0_n_n_0_2_1256 x i) : (⟨S4097x256, .f32⟩ : BufTy).Contents (Elt F) → (⟨S8x8192x1, .i32⟩ : BufTy).Contents (Elt F) → (⟨S8x8192x256, .f32⟩ : BufTy).Contents (Elt F)),
    StableHlo.binary main_v258 main_v267 main_v268 addf ]

abbrev tailOps7 : List (HloOp τ sig (Elt F)) :=
  [ StableHlo.unary main_arg1 main_v269 ((extractStridedSlice S1x4097x256 ![6, 0, 0] · slices_S18x4097x256_S1x4097x256_6_0_0) : (⟨S18x4097x256, .f32⟩ : BufTy).Contents (Elt F) → (⟨S1x4097x256, .f32⟩ : BufTy).Contents (Elt F)),
    StableHlo.reshape main_v269 main_v270 rfl shapeCasts_S1x4097x256_S4097x256,
    StableHlo.nullary main_c_114 (constantI S_ 32 0#32),
    StableHlo.unary main_c_114 main_v271 (broadcastInDim S8x8192 ![] bcast_S_S8x8192),
    StableHlo.binary main_v97 main_v271 main_v272 (cmpi .slt),
    StableHlo.nullary main_c_115 (constantI S_ 32 4097#32),
    StableHlo.unary main_c_115 main_v273 (broadcastInDim S8x8192 ![] bcast_S_S8x8192),
    StableHlo.binary main_v97 main_v273 main_v274 addi,
    StableHlo.ternary main_v272 main_v274 main_v97 main_v275 select,
    StableHlo.unary main_v275 main_v276 (broadcastInDim S8x8192x1 ![0, 1] bcast_S8x8192_S8x8192x1_0_1),
    StableHlo.binary main_v270 main_v276 main_v277 ((fun x i => Host.gather gather_S4097x256_S8x8192x1_S8x8192x256_2_0_n_n_0_2_1256 x i) : (⟨S4097x256, .f32⟩ : BufTy).Contents (Elt F) → (⟨S8x8192x1, .i32⟩ : BufTy).Contents (Elt F) → (⟨S8x8192x256, .f32⟩ : BufTy).Contents (Elt F)),
    StableHlo.binary main_v268 main_v277 main_v278 addf ]

abbrev tailOps8 : List (HloOp τ sig (Elt F)) :=
  [ StableHlo.unary main_arg1 main_v279 ((extractStridedSlice S1x4097x256 ![7, 0, 0] · slices_S18x4097x256_S1x4097x256_7_0_0) : (⟨S18x4097x256, .f32⟩ : BufTy).Contents (Elt F) → (⟨S1x4097x256, .f32⟩ : BufTy).Contents (Elt F)),
    StableHlo.reshape main_v279 main_v280 rfl shapeCasts_S1x4097x256_S4097x256,
    StableHlo.nullary main_c_116 (constantI S_ 32 0#32),
    StableHlo.unary main_c_116 main_v281 (broadcastInDim S8x8192 ![] bcast_S_S8x8192),
    StableHlo.binary main_v107 main_v281 main_v282 (cmpi .slt),
    StableHlo.nullary main_c_117 (constantI S_ 32 4097#32),
    StableHlo.unary main_c_117 main_v283 (broadcastInDim S8x8192 ![] bcast_S_S8x8192),
    StableHlo.binary main_v107 main_v283 main_v284 addi,
    StableHlo.ternary main_v282 main_v284 main_v107 main_v285 select,
    StableHlo.unary main_v285 main_v286 (broadcastInDim S8x8192x1 ![0, 1] bcast_S8x8192_S8x8192x1_0_1),
    StableHlo.binary main_v280 main_v286 main_v287 ((fun x i => Host.gather gather_S4097x256_S8x8192x1_S8x8192x256_2_0_n_n_0_2_1256 x i) : (⟨S4097x256, .f32⟩ : BufTy).Contents (Elt F) → (⟨S8x8192x1, .i32⟩ : BufTy).Contents (Elt F) → (⟨S8x8192x256, .f32⟩ : BufTy).Contents (Elt F)),
    StableHlo.binary main_v278 main_v287 main_v288 addf ]

abbrev tailOps9 : List (HloOp τ sig (Elt F)) :=
  [ StableHlo.unary main_arg1 main_v289 ((extractStridedSlice S1x4097x256 ![8, 0, 0] · slices_S18x4097x256_S1x4097x256_8_0_0) : (⟨S18x4097x256, .f32⟩ : BufTy).Contents (Elt F) → (⟨S1x4097x256, .f32⟩ : BufTy).Contents (Elt F)),
    StableHlo.reshape main_v289 main_v290 rfl shapeCasts_S1x4097x256_S4097x256,
    StableHlo.nullary main_c_118 (constantI S_ 32 0#32),
    StableHlo.unary main_c_118 main_v291 (broadcastInDim S8x8192 ![] bcast_S_S8x8192),
    StableHlo.binary main_v117 main_v291 main_v292 (cmpi .slt),
    StableHlo.nullary main_c_119 (constantI S_ 32 4097#32),
    StableHlo.unary main_c_119 main_v293 (broadcastInDim S8x8192 ![] bcast_S_S8x8192),
    StableHlo.binary main_v117 main_v293 main_v294 addi,
    StableHlo.ternary main_v292 main_v294 main_v117 main_v295 select,
    StableHlo.unary main_v295 main_v296 (broadcastInDim S8x8192x1 ![0, 1] bcast_S8x8192_S8x8192x1_0_1),
    StableHlo.binary main_v290 main_v296 main_v297 ((fun x i => Host.gather gather_S4097x256_S8x8192x1_S8x8192x256_2_0_n_n_0_2_1256 x i) : (⟨S4097x256, .f32⟩ : BufTy).Contents (Elt F) → (⟨S8x8192x1, .i32⟩ : BufTy).Contents (Elt F) → (⟨S8x8192x256, .f32⟩ : BufTy).Contents (Elt F)),
    StableHlo.binary main_v288 main_v297 main_v298 addf ]

abbrev tailOps10 : List (HloOp τ sig (Elt F)) :=
  [ StableHlo.unary main_arg1 main_v299 ((extractStridedSlice S1x4097x256 ![9, 0, 0] · slices_S18x4097x256_S1x4097x256_9_0_0) : (⟨S18x4097x256, .f32⟩ : BufTy).Contents (Elt F) → (⟨S1x4097x256, .f32⟩ : BufTy).Contents (Elt F)),
    StableHlo.reshape main_v299 main_v300 rfl shapeCasts_S1x4097x256_S4097x256,
    StableHlo.nullary main_c_120 (constantI S_ 32 0#32),
    StableHlo.unary main_c_120 main_v301 (broadcastInDim S8x8192 ![] bcast_S_S8x8192),
    StableHlo.binary main_v127 main_v301 main_v302 (cmpi .slt),
    StableHlo.nullary main_c_121 (constantI S_ 32 4097#32),
    StableHlo.unary main_c_121 main_v303 (broadcastInDim S8x8192 ![] bcast_S_S8x8192),
    StableHlo.binary main_v127 main_v303 main_v304 addi,
    StableHlo.ternary main_v302 main_v304 main_v127 main_v305 select,
    StableHlo.unary main_v305 main_v306 (broadcastInDim S8x8192x1 ![0, 1] bcast_S8x8192_S8x8192x1_0_1),
    StableHlo.binary main_v300 main_v306 main_v307 ((fun x i => Host.gather gather_S4097x256_S8x8192x1_S8x8192x256_2_0_n_n_0_2_1256 x i) : (⟨S4097x256, .f32⟩ : BufTy).Contents (Elt F) → (⟨S8x8192x1, .i32⟩ : BufTy).Contents (Elt F) → (⟨S8x8192x256, .f32⟩ : BufTy).Contents (Elt F)),
    StableHlo.binary main_v298 main_v307 main_v308 addf ]

abbrev tailOps11 : List (HloOp τ sig (Elt F)) :=
  [ StableHlo.unary main_arg1 main_v309 ((extractStridedSlice S1x4097x256 ![10, 0, 0] · slices_S18x4097x256_S1x4097x256_10_0_0) : (⟨S18x4097x256, .f32⟩ : BufTy).Contents (Elt F) → (⟨S1x4097x256, .f32⟩ : BufTy).Contents (Elt F)),
    StableHlo.reshape main_v309 main_v310 rfl shapeCasts_S1x4097x256_S4097x256,
    StableHlo.nullary main_c_122 (constantI S_ 32 0#32),
    StableHlo.unary main_c_122 main_v311 (broadcastInDim S8x8192 ![] bcast_S_S8x8192),
    StableHlo.binary main_v137 main_v311 main_v312 (cmpi .slt),
    StableHlo.nullary main_c_123 (constantI S_ 32 4097#32),
    StableHlo.unary main_c_123 main_v313 (broadcastInDim S8x8192 ![] bcast_S_S8x8192),
    StableHlo.binary main_v137 main_v313 main_v314 addi,
    StableHlo.ternary main_v312 main_v314 main_v137 main_v315 select,
    StableHlo.unary main_v315 main_v316 (broadcastInDim S8x8192x1 ![0, 1] bcast_S8x8192_S8x8192x1_0_1),
    StableHlo.binary main_v310 main_v316 main_v317 ((fun x i => Host.gather gather_S4097x256_S8x8192x1_S8x8192x256_2_0_n_n_0_2_1256 x i) : (⟨S4097x256, .f32⟩ : BufTy).Contents (Elt F) → (⟨S8x8192x1, .i32⟩ : BufTy).Contents (Elt F) → (⟨S8x8192x256, .f32⟩ : BufTy).Contents (Elt F)),
    StableHlo.binary main_v308 main_v317 main_v318 addf ]

abbrev tailOps12 : List (HloOp τ sig (Elt F)) :=
  [ StableHlo.unary main_arg1 main_v319 ((extractStridedSlice S1x4097x256 ![11, 0, 0] · slices_S18x4097x256_S1x4097x256_11_0_0) : (⟨S18x4097x256, .f32⟩ : BufTy).Contents (Elt F) → (⟨S1x4097x256, .f32⟩ : BufTy).Contents (Elt F)),
    StableHlo.reshape main_v319 main_v320 rfl shapeCasts_S1x4097x256_S4097x256,
    StableHlo.nullary main_c_124 (constantI S_ 32 0#32),
    StableHlo.unary main_c_124 main_v321 (broadcastInDim S8x8192 ![] bcast_S_S8x8192),
    StableHlo.binary main_v147 main_v321 main_v322 (cmpi .slt),
    StableHlo.nullary main_c_125 (constantI S_ 32 4097#32),
    StableHlo.unary main_c_125 main_v323 (broadcastInDim S8x8192 ![] bcast_S_S8x8192),
    StableHlo.binary main_v147 main_v323 main_v324 addi,
    StableHlo.ternary main_v322 main_v324 main_v147 main_v325 select,
    StableHlo.unary main_v325 main_v326 (broadcastInDim S8x8192x1 ![0, 1] bcast_S8x8192_S8x8192x1_0_1),
    StableHlo.binary main_v320 main_v326 main_v327 ((fun x i => Host.gather gather_S4097x256_S8x8192x1_S8x8192x256_2_0_n_n_0_2_1256 x i) : (⟨S4097x256, .f32⟩ : BufTy).Contents (Elt F) → (⟨S8x8192x1, .i32⟩ : BufTy).Contents (Elt F) → (⟨S8x8192x256, .f32⟩ : BufTy).Contents (Elt F)),
    StableHlo.binary main_v318 main_v327 main_v328 addf ]

abbrev tailOps13 : List (HloOp τ sig (Elt F)) :=
  [ StableHlo.unary main_arg1 main_v329 ((extractStridedSlice S1x4097x256 ![12, 0, 0] · slices_S18x4097x256_S1x4097x256_12_0_0) : (⟨S18x4097x256, .f32⟩ : BufTy).Contents (Elt F) → (⟨S1x4097x256, .f32⟩ : BufTy).Contents (Elt F)),
    StableHlo.reshape main_v329 main_v330 rfl shapeCasts_S1x4097x256_S4097x256,
    StableHlo.nullary main_c_126 (constantI S_ 32 0#32),
    StableHlo.unary main_c_126 main_v331 (broadcastInDim S8x8192 ![] bcast_S_S8x8192),
    StableHlo.binary main_v157 main_v331 main_v332 (cmpi .slt),
    StableHlo.nullary main_c_127 (constantI S_ 32 4097#32),
    StableHlo.unary main_c_127 main_v333 (broadcastInDim S8x8192 ![] bcast_S_S8x8192),
    StableHlo.binary main_v157 main_v333 main_v334 addi,
    StableHlo.ternary main_v332 main_v334 main_v157 main_v335 select,
    StableHlo.unary main_v335 main_v336 (broadcastInDim S8x8192x1 ![0, 1] bcast_S8x8192_S8x8192x1_0_1),
    StableHlo.binary main_v330 main_v336 main_v337 ((fun x i => Host.gather gather_S4097x256_S8x8192x1_S8x8192x256_2_0_n_n_0_2_1256 x i) : (⟨S4097x256, .f32⟩ : BufTy).Contents (Elt F) → (⟨S8x8192x1, .i32⟩ : BufTy).Contents (Elt F) → (⟨S8x8192x256, .f32⟩ : BufTy).Contents (Elt F)),
    StableHlo.binary main_v328 main_v337 main_v338 addf ]

abbrev tailOps14 : List (HloOp τ sig (Elt F)) :=
  [ StableHlo.unary main_arg1 main_v339 ((extractStridedSlice S1x4097x256 ![13, 0, 0] · slices_S18x4097x256_S1x4097x256_13_0_0) : (⟨S18x4097x256, .f32⟩ : BufTy).Contents (Elt F) → (⟨S1x4097x256, .f32⟩ : BufTy).Contents (Elt F)),
    StableHlo.reshape main_v339 main_v340 rfl shapeCasts_S1x4097x256_S4097x256,
    StableHlo.nullary main_c_128 (constantI S_ 32 0#32),
    StableHlo.unary main_c_128 main_v341 (broadcastInDim S8x8192 ![] bcast_S_S8x8192),
    StableHlo.binary main_v167 main_v341 main_v342 (cmpi .slt),
    StableHlo.nullary main_c_129 (constantI S_ 32 4097#32),
    StableHlo.unary main_c_129 main_v343 (broadcastInDim S8x8192 ![] bcast_S_S8x8192),
    StableHlo.binary main_v167 main_v343 main_v344 addi,
    StableHlo.ternary main_v342 main_v344 main_v167 main_v345 select,
    StableHlo.unary main_v345 main_v346 (broadcastInDim S8x8192x1 ![0, 1] bcast_S8x8192_S8x8192x1_0_1),
    StableHlo.binary main_v340 main_v346 main_v347 ((fun x i => Host.gather gather_S4097x256_S8x8192x1_S8x8192x256_2_0_n_n_0_2_1256 x i) : (⟨S4097x256, .f32⟩ : BufTy).Contents (Elt F) → (⟨S8x8192x1, .i32⟩ : BufTy).Contents (Elt F) → (⟨S8x8192x256, .f32⟩ : BufTy).Contents (Elt F)),
    StableHlo.binary main_v338 main_v347 main_v348 addf ]

abbrev tailOps15 : List (HloOp τ sig (Elt F)) :=
  [ StableHlo.unary main_arg1 main_v349 ((extractStridedSlice S1x4097x256 ![14, 0, 0] · slices_S18x4097x256_S1x4097x256_14_0_0) : (⟨S18x4097x256, .f32⟩ : BufTy).Contents (Elt F) → (⟨S1x4097x256, .f32⟩ : BufTy).Contents (Elt F)),
    StableHlo.reshape main_v349 main_v350 rfl shapeCasts_S1x4097x256_S4097x256,
    StableHlo.nullary main_c_130 (constantI S_ 32 0#32),
    StableHlo.unary main_c_130 main_v351 (broadcastInDim S8x8192 ![] bcast_S_S8x8192),
    StableHlo.binary main_v177 main_v351 main_v352 (cmpi .slt),
    StableHlo.nullary main_c_131 (constantI S_ 32 4097#32),
    StableHlo.unary main_c_131 main_v353 (broadcastInDim S8x8192 ![] bcast_S_S8x8192),
    StableHlo.binary main_v177 main_v353 main_v354 addi,
    StableHlo.ternary main_v352 main_v354 main_v177 main_v355 select,
    StableHlo.unary main_v355 main_v356 (broadcastInDim S8x8192x1 ![0, 1] bcast_S8x8192_S8x8192x1_0_1),
    StableHlo.binary main_v350 main_v356 main_v357 ((fun x i => Host.gather gather_S4097x256_S8x8192x1_S8x8192x256_2_0_n_n_0_2_1256 x i) : (⟨S4097x256, .f32⟩ : BufTy).Contents (Elt F) → (⟨S8x8192x1, .i32⟩ : BufTy).Contents (Elt F) → (⟨S8x8192x256, .f32⟩ : BufTy).Contents (Elt F)),
    StableHlo.binary main_v348 main_v357 main_v358 addf ]

abbrev tailOps16 : List (HloOp τ sig (Elt F)) :=
  [ StableHlo.unary main_arg1 main_v359 ((extractStridedSlice S1x4097x256 ![15, 0, 0] · slices_S18x4097x256_S1x4097x256_15_0_0) : (⟨S18x4097x256, .f32⟩ : BufTy).Contents (Elt F) → (⟨S1x4097x256, .f32⟩ : BufTy).Contents (Elt F)),
    StableHlo.reshape main_v359 main_v360 rfl shapeCasts_S1x4097x256_S4097x256,
    StableHlo.nullary main_c_132 (constantI S_ 32 0#32),
    StableHlo.unary main_c_132 main_v361 (broadcastInDim S8x8192 ![] bcast_S_S8x8192),
    StableHlo.binary main_v187 main_v361 main_v362 (cmpi .slt),
    StableHlo.nullary main_c_133 (constantI S_ 32 4097#32),
    StableHlo.unary main_c_133 main_v363 (broadcastInDim S8x8192 ![] bcast_S_S8x8192),
    StableHlo.binary main_v187 main_v363 main_v364 addi,
    StableHlo.ternary main_v362 main_v364 main_v187 main_v365 select,
    StableHlo.unary main_v365 main_v366 (broadcastInDim S8x8192x1 ![0, 1] bcast_S8x8192_S8x8192x1_0_1),
    StableHlo.binary main_v360 main_v366 main_v367 ((fun x i => Host.gather gather_S4097x256_S8x8192x1_S8x8192x256_2_0_n_n_0_2_1256 x i) : (⟨S4097x256, .f32⟩ : BufTy).Contents (Elt F) → (⟨S8x8192x1, .i32⟩ : BufTy).Contents (Elt F) → (⟨S8x8192x256, .f32⟩ : BufTy).Contents (Elt F)),
    StableHlo.binary main_v358 main_v367 main_v368 addf ]

abbrev tailOps17 : List (HloOp τ sig (Elt F)) :=
  [ StableHlo.unary main_arg1 main_v369 ((extractStridedSlice S1x4097x256 ![16, 0, 0] · slices_S18x4097x256_S1x4097x256_16_0_0) : (⟨S18x4097x256, .f32⟩ : BufTy).Contents (Elt F) → (⟨S1x4097x256, .f32⟩ : BufTy).Contents (Elt F)),
    StableHlo.reshape main_v369 main_v370 rfl shapeCasts_S1x4097x256_S4097x256,
    StableHlo.nullary main_c_134 (constantI S_ 32 0#32),
    StableHlo.unary main_c_134 main_v371 (broadcastInDim S8x8192 ![] bcast_S_S8x8192),
    StableHlo.binary main_v197 main_v371 main_v372 (cmpi .slt),
    StableHlo.nullary main_c_135 (constantI S_ 32 4097#32),
    StableHlo.unary main_c_135 main_v373 (broadcastInDim S8x8192 ![] bcast_S_S8x8192),
    StableHlo.binary main_v197 main_v373 main_v374 addi,
    StableHlo.ternary main_v372 main_v374 main_v197 main_v375 select,
    StableHlo.unary main_v375 main_v376 (broadcastInDim S8x8192x1 ![0, 1] bcast_S8x8192_S8x8192x1_0_1),
    StableHlo.binary main_v370 main_v376 main_v377 ((fun x i => Host.gather gather_S4097x256_S8x8192x1_S8x8192x256_2_0_n_n_0_2_1256 x i) : (⟨S4097x256, .f32⟩ : BufTy).Contents (Elt F) → (⟨S8x8192x1, .i32⟩ : BufTy).Contents (Elt F) → (⟨S8x8192x256, .f32⟩ : BufTy).Contents (Elt F)),
    StableHlo.binary main_v368 main_v377 main_v378 addf ]

abbrev tailOps18 : List (HloOp τ sig (Elt F)) :=
  [ StableHlo.unary main_arg1 main_v379 ((extractStridedSlice S1x4097x256 ![17, 0, 0] · slices_S18x4097x256_S1x4097x256_17_0_0) : (⟨S18x4097x256, .f32⟩ : BufTy).Contents (Elt F) → (⟨S1x4097x256, .f32⟩ : BufTy).Contents (Elt F)),
    StableHlo.reshape main_v379 main_v380 rfl shapeCasts_S1x4097x256_S4097x256,
    StableHlo.nullary main_c_136 (constantI S_ 32 0#32),
    StableHlo.unary main_c_136 main_v381 (broadcastInDim S8x8192 ![] bcast_S_S8x8192),
    StableHlo.binary main_v207 main_v381 main_v382 (cmpi .slt),
    StableHlo.nullary main_c_137 (constantI S_ 32 4097#32),
    StableHlo.unary main_c_137 main_v383 (broadcastInDim S8x8192 ![] bcast_S_S8x8192),
    StableHlo.binary main_v207 main_v383 main_v384 addi,
    StableHlo.ternary main_v382 main_v384 main_v207 main_v385 select,
    StableHlo.unary main_v385 main_v386 (broadcastInDim S8x8192x1 ![0, 1] bcast_S8x8192_S8x8192x1_0_1),
    StableHlo.binary main_v380 main_v386 main_v387 ((fun x i => Host.gather gather_S4097x256_S8x8192x1_S8x8192x256_2_0_n_n_0_2_1256 x i) : (⟨S4097x256, .f32⟩ : BufTy).Contents (Elt F) → (⟨S8x8192x1, .i32⟩ : BufTy).Contents (Elt F) → (⟨S8x8192x256, .f32⟩ : BufTy).Contents (Elt F)),
    StableHlo.binary main_v378 main_v387 main_v388 addf ]

abbrev tailOps19 : List (HloOp τ sig (Elt F)) :=
  [ StableHlo.nullary main_cst_138 (constant S_ .f32 0x41980000#32),
    StableHlo.unary main_cst_138 main_v389 (broadcastInDim S8x8192x256 ![] bcast_S_S8x8192x256),
    StableHlo.binary main_v388 main_v389 main_v390 Host.divf ]

abbrev stretchesT : List (List (HloOp τ sig (Elt F))) :=
  [tailOps0, tailOps1, tailOps2, tailOps3, tailOps4, tailOps5, tailOps6, tailOps7, tailOps8, tailOps9, tailOps10, tailOps11, tailOps12, tailOps13, tailOps14, tailOps15, tailOps16, tailOps17, tailOps18, tailOps19]

/-- Each operation is one of the host forms, all over TensorCore references. -/
theorem stretchesT_sub : (stretchesT : List (List (HloOp τ sig (Elt F)))).Forall fun l => l.Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]

end Cert.ReferenceIdeal.Hand

end
-- ==== Proof.R.Ops2.lean ====
import proofs.«175239_j73718818668652_1_alg».proof.Proof.R.Ops0a
import proofs.«175239_j73718818668652_1_alg».proof.Proof.R.Ops0b
import proofs.«175239_j73718818668652_1_alg».proof.Proof.R.Ops1
import proofs.«175239_j73718818668652_1_alg».proof.Proof.LibHostFold

set_option maxRecDepth 3636

noncomputable section

namespace Cert.ReferenceIdeal.Hand

open Idealize.ShloMosaic Idealize.ShloMosaic.TcCoe
open Idealize.SL Idealize.SL.Sem
open Cert.ReferenceIdeal Cert.ReferenceIdeal.Gen

variable {F : FTy → Type} [FloatOps F]

abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, hostOps0_101, hostOps0_102, hostOps0_103, hostOps0_104, hostOps0_105, hostOps0_106, hostOps0_107, hostOps0_108, hostOps0_109, hostOps0_110, hostOps0_111, hostOps0_112, hostOps0_113, hostOps0_114, hostOps0_115, hostOps0_116, hostOps0_117, hostOps0_118, hostOps0_119, hostOps0_120, hostOps0_121, hostOps0_122, hostOps0_123, hostOps0_124, hostOps0_125, hostOps0_126, hostOps0_127, hostOps0_128, hostOps0_129, hostOps0_130, hostOps0_131, hostOps0_132, hostOps0_133, hostOps0_134, hostOps0_135, hostOps0_136, hostOps0_137, hostOps0_138, hostOps0_139, hostOps0_140, hostOps0_141, hostOps0_142, hostOps0_143, hostOps0_144, hostOps0_145, hostOps0_146, hostOps0_147, hostOps0_148, hostOps0_149, tailOps0, tailOps1, tailOps2, tailOps3, tailOps4, tailOps5, tailOps6, tailOps7, tailOps8, tailOps9, tailOps10, tailOps11, tailOps12, tailOps13, tailOps14, tailOps15, tailOps16, tailOps17, tailOps18, tailOps19]

abbrev ops : List (HloOp τ sig (Elt F)) := List.flatten stretches

theorem hsub : (stretches : List (List (HloOp τ sig (Elt F)))).Forall fun l => l.Forall fun op => op.bufs ⊆ StableHlo.tcRefs τ sig :=
  Cert.LibHostFold.forall_append stretchesA_sub (Cert.LibHostFold.forall_append stretchesB_sub stretchesT_sub)

/-- None of the host forms allocates. -/
theorem hfreshS : (stretches : List (List (HloOp τ sig (Elt F)))).Forall fun l => l.Forall fun op => op.fresh = ∅ := by
  simp only [List.Forall]; repeat' constructor

end Cert.ReferenceIdeal.Hand

end
-- ==== Proof.R.HostArgs.lean ====
import proofs.«175239_j73718818668652_1_alg».proof.Proof.R.Ops2
import proofs.«175239_j73718818668652_1_alg».proof.Proof.LibHostFold

set_option maxRecDepth 16384

noncomputable section

namespace Cert.ReferenceIdeal.HandHost

open Idealize.ShloMosaic Idealize.ShloMosaic.TcCoe Idealize.ShloMosaic.StableHlo
open Cert.ReferenceIdeal Cert.ReferenceIdeal.Gen Cert.ReferenceIdeal.Hand
open Cert.LibHostFold

variable {F : FTy → Type} [FloatOps F]

/-- Stretch by stretch, the results of the operations, in order. -/
abbrev Ws : List (List (Ref sig .tc)) :=
  [[main_c, main_c_0, main_c_1, main_v0, main_c_2, main_v1, main_v2, main_c_3, main_v3, main_v4, main_v5, main_v6, main_v7, main_c_4, main_v8, main_v9, main_c_5, main_v10, main_v11, main_v12, main_v13, main_v14, main_c_6, main_v15, main_v16, main_c_7, main_v17, main_v18, main_v19, main_c_8],
   [main_call0_v0, main_v20],
   [main_c_9, main_v21, main_v22, main_v23, main_c_10],
   [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v24],
   [main_v25, main_c_11],
   [main_v26],
   [main_v27, main_v28, main_c_12],
   [main_call3_v0, main_v29],
   [main_c_13, main_v30, main_v31, main_v32, main_c_14],
   [main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v33],
   [main_v34, main_c_15],
   [main_v35],
   [main_v36, main_c_16],
   [main_call6_v0, main_call6_v1, main_v37],
   [main_v38, main_c_17],
   [main_call7_v0, main_v39],
   [main_c_18, main_v40, main_v41, main_v42, main_c_19],
   [main_call8_v0, main_call8_c, main_call8_v1, main_call8_c_0, main_call8_v2, main_call8_v3, main_call8_v4, main_call8_c_1, main_call8_v5, main_call8_v6, main_call8_c_2, main_call8_v7, main_call8_v8, main_call8_c_3, main_call8_v9, main_call8_v10, main_call8_v11, main_call8_v12, main_call8_v13, main_call8_v14, main_v43],
   [main_v44, main_c_20],
   [main_v45],
   [main_v46, main_c_21],
   [main_call10_v0, main_call10_v1, main_v47],
   [main_v48, main_c_22],
   [main_call11_v0, main_v49],
   [main_c_23, main_v50, main_v51, main_v52, main_c_24],
   [main_call12_v0, main_call12_c, main_call12_v1, main_call12_c_0, main_call12_v2, main_call12_v3, main_call12_v4, main_call12_c_1, main_call12_v5, main_call12_v6, main_call12_c_2, main_call12_v7, main_call12_v8, main_call12_c_3, main_call12_v9, main_call12_v10, main_call12_v11, main_call12_v12, main_call12_v13, main_call12_v14, main_v53],
   [main_v54, main_c_25],
   [main_v55],
   [main_v56, main_c_26],
   [main_call14_v0, main_call14_v1, main_v57],
   [main_v58, main_c_27],
   [main_call15_v0, main_v59],
   [main_c_28, main_v60, main_v61, main_v62, main_c_29],
   [main_call16_v0, main_call16_c, main_call16_v1, main_call16_c_0, main_call16_v2, main_call16_v3, main_call16_v4, main_call16_c_1, main_call16_v5, main_call16_v6, main_call16_c_2, main_call16_v7, main_call16_v8, main_call16_c_3, main_call16_v9, main_call16_v10, main_call16_v11, main_call16_v12, main_call16_v13, main_call16_v14, main_v63],
   [main_v64, main_c_30],
   [main_v65],
   [main_v66, main_c_31],
   [main_call18_v0, main_call18_v1, main_v67],
   [main_v68, main_c_32],
   [main_call19_v0, main_v69],
   [main_c_33, main_v70, main_v71, main_v72, main_c_34],
   [main_call20_v0, main_call20_c, main_call20_v1, main_call20_c_0, main_call20_v2, main_call20_v3, main_call20_v4, main_call20_c_1, main_call20_v5, main_call20_v6, main_call20_c_2, main_call20_v7, main_call20_v8, main_call20_c_3, main_call20_v9, main_call20_v10, main_call20_v11, main_call20_v12, main_call20_v13, main_call20_v14, main_v73],
   [main_v74, main_c_35],
   [main_v75],
   [main_v76, main_c_36],
   [main_call22_v0, main_call22_v1, main_v77],
   [main_v78, main_c_37],
   [main_call23_v0, main_v79],
   [main_c_38, main_v80, main_v81, main_v82, main_c_39],
   [main_call24_v0, main_call24_c, main_call24_v1, main_call24_c_0, main_call24_v2, main_call24_v3, main_call24_v4, main_call24_c_1, main_call24_v5, main_call24_v6, main_call24_c_2, main_call24_v7, main_call24_v8, main_call24_c_3, main_call24_v9, main_call24_v10, main_call24_v11, main_call24_v12, main_call24_v13, main_call24_v14, main_v83],
   [main_v84, main_c_40],
   [main_v85],
   [main_v86, main_c_41],
   [main_call26_v0, main_call26_v1, main_v87],
   [main_v88, main_c_42],
   [main_call27_v0, main_v89],
   [main_c_43, main_v90, main_v91, main_v92, main_c_44],
   [main_call28_v0, main_call28_c, main_call28_v1, main_call28_c_0, main_call28_v2, main_call28_v3, main_call28_v4, main_call28_c_1, main_call28_v5, main_call28_v6, main_call28_c_2, main_call28_v7, main_call28_v8, main_call28_c_3, main_call28_v9, main_call28_v10, main_call28_v11, main_call28_v12, main_call28_v13, main_call28_v14, main_v93],
   [main_v94, main_c_45],
   [main_v95],
   [main_v96, main_c_46],
   [main_call30_v0, main_call30_v1, main_v97],
   [main_v98, main_c_47],
   [main_call31_v0, main_v99],
   [main_c_48, main_v100, main_v101, main_v102, main_c_49],
   [main_call32_v0, main_call32_c, main_call32_v1, main_call32_c_0, main_call32_v2, main_call32_v3, main_call32_v4, main_call32_c_1, main_call32_v5, main_call32_v6, main_call32_c_2, main_call32_v7, main_call32_v8, main_call32_c_3, main_call32_v9, main_call32_v10, main_call32_v11, main_call32_v12, main_call32_v13, main_call32_v14, main_v103],
   [main_v104, main_c_50],
   [main_v105],
   [main_v106, main_c_51],
   [main_call34_v0, main_call34_v1, main_v107],
   [main_v108, main_c_52],
   [main_call35_v0, main_v109],
   [main_c_53, main_v110, main_v111, main_v112, main_c_54],
   [main_call36_v0, main_call36_c, main_call36_v1, main_call36_c_0, main_call36_v2, main_call36_v3, main_call36_v4, main_call36_c_1, main_call36_v5, main_call36_v6, main_call36_c_2, main_call36_v7, main_call36_v8, main_call36_c_3, main_call36_v9, main_call36_v10, main_call36_v11, main_call36_v12, main_call36_v13, main_call36_v14, main_v113],
   [main_v114, main_c_55],
   [main_v115],
   [main_v116, main_c_56],
   [main_call38_v0, main_call38_v1, main_v117],
   [main_v118, main_c_57],
   [main_call39_v0, main_v119],
   [main_c_58, main_v120, main_v121, main_v122, main_c_59],
   [main_call40_v0, main_call40_c, main_call40_v1, main_call40_c_0, main_call40_v2, main_call40_v3, main_call40_v4, main_call40_c_1, main_call40_v5, main_call40_v6, main_call40_c_2, main_call40_v7, main_call40_v8, main_call40_c_3, main_call40_v9, main_call40_v10, main_call40_v11, main_call40_v12, main_call40_v13, main_call40_v14, main_v123],
   [main_v124, main_c_60],
   [main_v125],
   [main_v126, main_c_61],
   [main_call42_v0, main_call42_v1, main_v127],
   [main_v128, main_c_62],
   [main_call43_v0, main_v129],
   [main_c_63, main_v130, main_v131, main_v132, main_c_64],
   [main_call44_v0, main_call44_c, main_call44_v1, main_call44_c_0, main_call44_v2, main_call44_v3, main_call44_v4, main_call44_c_1, main_call44_v5, main_call44_v6, main_call44_c_2, main_call44_v7, main_call44_v8, main_call44_c_3, main_call44_v9, main_call44_v10, main_call44_v11, main_call44_v12, main_call44_v13, main_call44_v14, main_v133],
   [main_v134, main_c_65],
   [main_v135],
   [main_v136, main_c_66],
   [main_call46_v0, main_call46_v1, main_v137],
   [main_v138, main_c_67],
   [main_call47_v0, main_v139],
   [main_c_68, main_v140, main_v141, main_v142, main_c_69],
   [main_call48_v0, main_call48_c, main_call48_v1, main_call48_c_0, main_call48_v2, main_call48_v3, main_call48_v4, main_call48_c_1, main_call48_v5, main_call48_v6, main_call48_c_2, main_call48_v7, main_call48_v8, main_call48_c_3, main_call48_v9, main_call48_v10, main_call48_v11, main_call48_v12, main_call48_v13, main_call48_v14, main_v143],
   [main_v144, main_c_70],
   [main_v145],
   [main_v146, main_c_71],
   [main_call50_v0, main_call50_v1, main_v147],
   [main_v148, main_c_72],
   [main_call51_v0, main_v149],
   [main_c_73, main_v150, main_v151, main_v152, main_c_74],
   [main_call52_v0, main_call52_c, main_call52_v1, main_call52_c_0, main_call52_v2, main_call52_v3, main_call52_v4, main_call52_c_1, main_call52_v5, main_call52_v6, main_call52_c_2, main_call52_v7, main_call52_v8, main_call52_c_3, main_call52_v9, main_call52_v10, main_call52_v11, main_call52_v12, main_call52_v13, main_call52_v14, main_v153],
   [main_v154, main_c_75],
   [main_v155],
   [main_v156, main_c_76],
   [main_call54_v0, main_call54_v1, main_v157],
   [main_v158, main_c_77],
   [main_call55_v0, main_v159],
   [main_c_78, main_v160, main_v161, main_v162, main_c_79],
   [main_call56_v0, main_call56_c, main_call56_v1, main_call56_c_0, main_call56_v2, main_call56_v3, main_call56_v4, main_call56_c_1, main_call56_v5, main_call56_v6, main_call56_c_2, main_call56_v7, main_call56_v8, main_call56_c_3, main_call56_v9, main_call56_v10, main_call56_v11, main_call56_v12, main_call56_v13, main_call56_v14, main_v163],
   [main_v164, main_c_80],
   [main_v165],
   [main_v166, main_c_81],
   [main_call58_v0, main_call58_v1, main_v167],
   [main_v168, main_c_82],
   [main_call59_v0, main_v169],
   [main_c_83, main_v170, main_v171, main_v172, main_c_84],
   [main_call60_v0, main_call60_c, main_call60_v1, main_call60_c_0, main_call60_v2, main_call60_v3, main_call60_v4, main_call60_c_1, main_call60_v5, main_call60_v6, main_call60_c_2, main_call60_v7, main_call60_v8, main_call60_c_3, main_call60_v9, main_call60_v10, main_call60_v11, main_call60_v12, main_call60_v13, main_call60_v14, main_v173],
   [main_v174, main_c_85],
   [main_v175],
   [main_v176, main_c_86],
   [main_call62_v0, main_call62_v1, main_v177],
   [main_v178, main_c_87],
   [main_call63_v0, main_v179],
   [main_c_88, main_v180, main_v181, main_v182, main_c_89],
   [main_call64_v0, main_call64_c, main_call64_v1, main_call64_c_0, main_call64_v2, main_call64_v3, main_call64_v4, main_call64_c_1, main_call64_v5, main_call64_v6, main_call64_c_2, main_call64_v7, main_call64_v8, main_call64_c_3, main_call64_v9, main_call64_v10, main_call64_v11, main_call64_v12, main_call64_v13, main_call64_v14, main_v183],
   [main_v184, main_c_90],
   [main_v185],
   [main_v186, main_c_91],
   [main_call66_v0, main_call66_v1, main_v187],
   [main_v188, main_c_92],
   [main_call67_v0, main_v189],
   [main_c_93, main_v190, main_v191, main_v192, main_c_94],
   [main_call68_v0, main_call68_c, main_call68_v1, main_call68_c_0, main_call68_v2, main_call68_v3, main_call68_v4, main_call68_c_1, main_call68_v5, main_call68_v6, main_call68_c_2, main_call68_v7, main_call68_v8, main_call68_c_3, main_call68_v9, main_call68_v10, main_call68_v11, main_call68_v12, main_call68_v13, main_call68_v14, main_v193],
   [main_v194, main_c_95],
   [main_v195],
   [main_v196, main_c_96],
   [main_call70_v0, main_call70_v1, main_v197],
   [main_v198, main_c_97],
   [main_call71_v0, main_v199],
   [main_c_98, main_v200, main_v201, main_v202, main_c_99],
   [main_call72_v0, main_call72_c, main_call72_v1, main_call72_c_0, main_call72_v2, main_call72_v3, main_call72_v4, main_call72_c_1, main_call72_v5, main_call72_v6, main_call72_c_2, main_call72_v7, main_call72_v8, main_call72_c_3, main_call72_v9, main_call72_v10, main_call72_v11, main_call72_v12, main_call72_v13, main_call72_v14, main_v203],
   [main_v204, main_c_100],
   [main_v205],
   [main_v206, main_c_101],
   [main_call74_v0, main_call74_v1, main_v207],
   [main_cst, main_v208],
   [main_v209, main_v210, main_c_102, main_v211, main_v212, main_c_103, main_v213, main_v214, main_v215, main_v216, main_v217, main_v218],
   [main_v219, main_v220, main_c_104, main_v221, main_v222, main_c_105, main_v223, main_v224, main_v225, main_v226, main_v227, main_v228],
   [main_v229, main_v230, main_c_106, main_v231, main_v232, main_c_107, main_v233, main_v234, main_v235, main_v236, main_v237, main_v238],
   [main_v239, main_v240, main_c_108, main_v241, main_v242, main_c_109, main_v243, main_v244, main_v245, main_v246, main_v247, main_v248],
   [main_v249, main_v250, main_c_110, main_v251, main_v252, main_c_111, main_v253, main_v254, main_v255, main_v256, main_v257, main_v258],
   [main_v259, main_v260, main_c_112, main_v261, main_v262, main_c_113, main_v263, main_v264, main_v265, main_v266, main_v267, main_v268],
   [main_v269, main_v270, main_c_114, main_v271, main_v272, main_c_115, main_v273, main_v274, main_v275, main_v276, main_v277, main_v278],
   [main_v279, main_v280, main_c_116, main_v281, main_v282, main_c_117, main_v283, main_v284, main_v285, main_v286, main_v287, main_v288],
   [main_v289, main_v290, main_c_118, main_v291, main_v292, main_c_119, main_v293, main_v294, main_v295, main_v296, main_v297, main_v298],
   [main_v299, main_v300, main_c_120, main_v301, main_v302, main_c_121, main_v303, main_v304, main_v305, main_v306, main_v307, main_v308],
   [main_v309, main_v310, main_c_122, main_v311, main_v312, main_c_123, main_v313, main_v314, main_v315, main_v316, main_v317, main_v318],
   [main_v319, main_v320, main_c_124, main_v321, main_v322, main_c_125, main_v323, main_v324, main_v325, main_v326, main_v327, main_v328],
   [main_v329, main_v330, main_c_126, main_v331, main_v332, main_c_127, main_v333, main_v334, main_v335, main_v336, main_v337, main_v338],
   [main_v339, main_v340, main_c_128, main_v341, main_v342, main_c_129, main_v343, main_v344, main_v345, main_v346, main_v347, main_v348],
   [main_v349, main_v350, main_c_130, main_v351, main_v352, main_c_131, main_v353, main_v354, main_v355, main_v356, main_v357, main_v358],
   [main_v359, main_v360, main_c_132, main_v361, main_v362, main_c_133, main_v363, main_v364, main_v365, main_v366, main_v367, main_v368],
   [main_v369, main_v370, main_c_134, main_v371, main_v372, main_c_135, main_v373, main_v374, main_v375, main_v376, main_v377, main_v378],
   [main_v379, main_v380, main_c_136, main_v381, main_v382, main_c_137, main_v383, main_v384, main_v385, main_v386, main_v387, main_v388],
   [main_cst_138, main_v389, main_v390]]

/-- Each operation writes its one result, which stands at its place in its stretch's list. -/
theorem Ws_ok : WritesAll τ (stretches : List (List (HloOp τ sig (Elt F)))) Ws :=
  WritesEachAll.writesAll _ _ (by simp only [WritesEachAll, WritesEach]; repeat' constructor)

end Cert.ReferenceIdeal.HandHost

end
-- ==== Proof.R.Ops3.lean ====
import proofs.«175239_j73718818668652_1_alg».proof.Proof.R.Ops0a
import proofs.«175239_j73718818668652_1_alg».proof.Proof.R.Ops0b
import proofs.«175239_j73718818668652_1_alg».proof.Proof.R.Ops1
import Idealize.ShloMosaic.Lib.Pipeline.Regions

set_option maxRecDepth 3636

noncomputable section

namespace Cert.ReferenceIdeal.Hand

open Idealize.ShloMosaic Idealize.ShloMosaic.TcCoe
open Idealize.SL Idealize.SL.Sem
open Cert.ReferenceIdeal Cert.ReferenceIdeal.Gen

variable {F : FTy → Type} [FloatOps F]

abbrev hostOps0_16_hd : List (HloOp τ sig (Elt F)) :=
  [ StableHlo.nullary main_c_18 (constantI S_ 32 31#32) ]

abbrev hostOps0_16_tl : List (HloOp τ sig (Elt F)) :=
  [ StableHlo.unary main_c_18 main_v40 (broadcastInDim S8x8192 ![] bcast_S_S8x8192),
    StableHlo.binary main_v39 main_v40 main_v41 muli,
    StableHlo.binary main_v41 main_v16 main_v42 addi,
    StableHlo.nullary main_c_19 (constantI S_ 32 4096#32) ]

abbrev hostOps0_48_hd : List (HloOp τ sig (Elt F)) :=
  [ StableHlo.nullary main_c_38 (constantI S_ 32 31#32) ]

abbrev hostOps0_48_tl : List (HloOp τ sig (Elt F)) :=
  [ StableHlo.unary main_c_38 main_v80 (broadcastInDim S8x8192 ![] bcast_S_S8x8192),
    StableHlo.binary main_v79 main_v80 main_v81 muli,
    StableHlo.binary main_v81 main_v16 main_v82 addi,
    StableHlo.nullary main_c_39 (constantI S_ 32 4096#32) ]

abbrev hostOps0_80_hd : List (HloOp τ sig (Elt F)) :=
  [ StableHlo.nullary main_c_58 (constantI S_ 32 31#32) ]

abbrev hostOps0_80_tl : List (HloOp τ sig (Elt F)) :=
  [ StableHlo.unary main_c_58 main_v120 (broadcastInDim S8x8192 ![] bcast_S_S8x8192),
    StableHlo.binary main_v119 main_v120 main_v121 muli,
    StableHlo.binary main_v121 main_v16 main_v122 addi,
    StableHlo.nullary main_c_59 (constantI S_ 32 4096#32) ]

abbrev hostOps0_112_hd : List (HloOp τ sig (Elt F)) :=
  [ StableHlo.nullary main_c_78 (constantI S_ 32 31#32) ]

abbrev hostOps0_112_tl : List (HloOp τ sig (Elt F)) :=
  [ StableHlo.unary main_c_78 main_v160 (broadcastInDim S8x8192 ![] bcast_S_S8x8192),
    StableHlo.binary main_v159 main_v160 main_v161 muli,
    StableHlo.binary main_v161 main_v16 main_v162 addi,
    StableHlo.nullary main_c_79 (constantI S_ 32 4096#32) ]

abbrev hostOps0_144_hd : List (HloOp τ sig (Elt F)) :=
  [ StableHlo.nullary main_c_98 (constantI S_ 32 31#32) ]

abbrev hostOps0_144_tl : List (HloOp τ sig (Elt F)) :=
  [ StableHlo.unary main_c_98 main_v200 (broadcastInDim S8x8192 ![] bcast_S_S8x8192),
    StableHlo.binary main_v199 main_v200 main_v201 muli,
    StableHlo.binary main_v201 main_v16 main_v202 addi,
    StableHlo.nullary main_c_99 (constantI S_ 32 4096#32) ]

abbrev tailOps4_hd : List (HloOp τ sig (Elt F)) :=
  [ StableHlo.unary main_arg1 main_v239 ((extractStridedSlice S1x4097x256 ![3, 0, 0] · slices_S18x4097x256_S1x4097x256_3_0_0) : (⟨S18x4097x256, .f32⟩ : BufTy).Contents (Elt F) → (⟨S1x4097x256, .f32⟩ : BufTy).Contents (Elt F)),
    StableHlo.reshape main_v239 main_v240 rfl shapeCasts_S1x4097x256_S4097x256,
    StableHlo.nullary main_c_108 (constantI S_ 32 0#32),
    StableHlo.unary main_c_108 main_v241 (broadcastInDim S8x8192 ![] bcast_S_S8x8192),
    StableHlo.binary main_v67 main_v241 main_v242 (cmpi .slt),
    StableHlo.nullary main_c_109 (constantI S_ 32 4097#32),
    StableHlo.unary main_c_109 main_v243 (broadcastInDim S8x8192 ![] bcast_S_S8x8192),
    StableHlo.binary main_v67 main_v243 main_v244 addi,
    StableHlo.ternary main_v242 main_v244 main_v67 main_v245 select,
    StableHlo.unary main_v245 main_v246 (broadcastInDim S8x8192x1 ![0, 1] bcast_S8x8192_S8x8192x1_0_1),
    StableHlo.binary main_v240 main_v246 main_v247 ((fun x i => Host.gather gather_S4097x256_S8x8192x1_S8x8192x256_2_0_n_n_0_2_1256 x i) : (⟨S4097x256, .f32⟩ : BufTy).Contents (Elt F) → (⟨S8x8192x1, .i32⟩ : BufTy).Contents (Elt F) → (⟨S8x8192x256, .f32⟩ : BufTy).Contents (Elt F)) ]

abbrev tailOps4_tl : List (HloOp τ sig (Elt F)) :=
  [ StableHlo.binary main_v238 main_v247 main_v248 addf ]

abbrev tailOps9_hd : List (HloOp τ sig (Elt F)) :=
  [ StableHlo.unary main_arg1 main_v289 ((extractStridedSlice S1x4097x256 ![8, 0, 0] · slices_S18x4097x256_S1x4097x256_8_0_0) : (⟨S18x4097x256, .f32⟩ : BufTy).Contents (Elt F) → (⟨S1x4097x256, .f32⟩ : BufTy).Contents (Elt F)),
    StableHlo.reshape main_v289 main_v290 rfl shapeCasts_S1x4097x256_S4097x256,
    StableHlo.nullary main_c_118 (constantI S_ 32 0#32),
    StableHlo.unary main_c_118 main_v291 (broadcastInDim S8x8192 ![] bcast_S_S8x8192),
    StableHlo.binary main_v117 main_v291 main_v292 (cmpi .slt),
    StableHlo.nullary main_c_119 (constantI S_ 32 4097#32),
    StableHlo.unary main_c_119 main_v293 (broadcastInDim S8x8192 ![] bcast_S_S8x8192),
    StableHlo.binary main_v117 main_v293 main_v294 addi,
    StableHlo.ternary main_v292 main_v294 main_v117 main_v295 select,
    StableHlo.unary main_v295 main_v296 (broadcastInDim S8x8192x1 ![0, 1] bcast_S8x8192_S8x8192x1_0_1),
    StableHlo.binary main_v290 main_v296 main_v297 ((fun x i => Host.gather gather_S4097x256_S8x8192x1_S8x8192x256_2_0_n_n_0_2_1256 x i) : (⟨S4097x256, .f32⟩ : BufTy).Contents (Elt F) → (⟨S8x8192x1, .i32⟩ : BufTy).Contents (Elt F) → (⟨S8x8192x256, .f32⟩ : BufTy).Contents (Elt F)) ]

abbrev tailOps9_tl : List (HloOp τ sig (Elt F)) :=
  [ StableHlo.binary main_v288 main_v297 main_v298 addf ]

abbrev tailOps14_hd : List (HloOp τ sig (Elt F)) :=
  [ StableHlo.unary main_arg1 main_v339 ((extractStridedSlice S1x4097x256 ![13, 0, 0] · slices_S18x4097x256_S1x4097x256_13_0_0) : (⟨S18x4097x256, .f32⟩ : BufTy).Contents (Elt F) → (⟨S1x4097x256, .f32⟩ : BufTy).Contents (Elt F)),
    StableHlo.reshape main_v339 main_v340 rfl shapeCasts_S1x4097x256_S4097x256,
    StableHlo.nullary main_c_128 (constantI S_ 32 0#32),
    StableHlo.unary main_c_128 main_v341 (broadcastInDim S8x8192 ![] bcast_S_S8x8192),
    StableHlo.binary main_v167 main_v341 main_v342 (cmpi .slt),
    StableHlo.nullary main_c_129 (constantI S_ 32 4097#32),
    StableHlo.unary main_c_129 main_v343 (broadcastInDim S8x8192 ![] bcast_S_S8x8192),
    StableHlo.binary main_v167 main_v343 main_v344 addi,
    StableHlo.ternary main_v342 main_v344 main_v167 main_v345 select,
    StableHlo.unary main_v345 main_v346 (broadcastInDim S8x8192x1 ![0, 1] bcast_S8x8192_S8x8192x1_0_1),
    StableHlo.binary main_v340 main_v346 main_v347 ((fun x i => Host.gather gather_S4097x256_S8x8192x1_S8x8192x256_2_0_n_n_0_2_1256 x i) : (⟨S4097x256, .f32⟩ : BufTy).Contents (Elt F) → (⟨S8x8192x1, .i32⟩ : BufTy).Contents (Elt F) → (⟨S8x8192x256, .f32⟩ : BufTy).Contents (Elt F)) ]

abbrev tailOps14_tl : List (HloOp τ sig (Elt F)) :=
  [ StableHlo.binary main_v338 main_v347 main_v348 addf ]

theorem main_part0_chain (c : Dev nD) : main_part0 (F := F) c = (Pipeline.chainK
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13,
    StableHlo.seq hostOps0_14,
    StableHlo.seq hostOps0_15 ]
  (StableHlo.seq hostOps0_16_hd) : Prog (TpuEff nD τ sig (Elt F) (Pipeline.Sig Λ₀ (Fin 0) fun p => (pcfgs (F := F) p).Adm) .tc) PUnit) := by
  chain_rfl

theorem main_part1_chain (c : Dev nD) : main_part1 (F := F) c = (Pipeline.chainK
  [ StableHlo.seq hostOps0_16_tl,
    StableHlo.seq hostOps0_17,
    StableHlo.seq hostOps0_18,
    StableHlo.seq hostOps0_19,
    StableHlo.seq hostOps0_20,
    StableHlo.seq hostOps0_21,
    StableHlo.seq hostOps0_22,
    StableHlo.seq hostOps0_23,
    StableHlo.seq hostOps0_24,
    StableHlo.seq hostOps0_25,
    StableHlo.seq hostOps0_26,
    StableHlo.seq hostOps0_27,
    StableHlo.seq hostOps0_28,
    StableHlo.seq hostOps0_29,
    StableHlo.seq hostOps0_30,
    StableHlo.seq hostOps0_31,
    StableHlo.seq hostOps0_32,
    StableHlo.seq hostOps0_33,
    StableHlo.seq hostOps0_34,
    StableHlo.seq hostOps0_35,
    StableHlo.seq hostOps0_36,
    StableHlo.seq hostOps0_37,
    StableHlo.seq hostOps0_38,
    StableHlo.seq hostOps0_39,
    StableHlo.seq hostOps0_40,
    StableHlo.seq hostOps0_41,
    StableHlo.seq hostOps0_42,
    StableHlo.seq hostOps0_43,
    StableHlo.seq hostOps0_44,
    StableHlo.seq hostOps0_45,
    StableHlo.seq hostOps0_46,
    StableHlo.seq hostOps0_47 ]
  (StableHlo.seq hostOps0_48_hd) : Prog (TpuEff nD τ sig (Elt F) (Pipeline.Sig Λ₀ (Fin 0) fun p => (pcfgs (F := F) p).Adm) .tc) PUnit) := by
  chain_rfl

theorem main_part2_chain (c : Dev nD) : main_part2 (F := F) c = (Pipeline.chainK
  [ StableHlo.seq hostOps0_48_tl,
    StableHlo.seq hostOps0_49,
    StableHlo.seq hostOps0_50,
    StableHlo.seq hostOps0_51,
    StableHlo.seq hostOps0_52,
    StableHlo.seq hostOps0_53,
    StableHlo.seq hostOps0_54,
    StableHlo.seq hostOps0_55,
    StableHlo.seq hostOps0_56,
    StableHlo.seq hostOps0_57,
    StableHlo.seq hostOps0_58,
    StableHlo.seq hostOps0_59,
    StableHlo.seq hostOps0_60,
    StableHlo.seq hostOps0_61,
    StableHlo.seq hostOps0_62,
    StableHlo.seq hostOps0_63,
    StableHlo.seq hostOps0_64,
    StableHlo.seq hostOps0_65,
    StableHlo.seq hostOps0_66,
    StableHlo.seq hostOps0_67,
    StableHlo.seq hostOps0_68,
    StableHlo.seq hostOps0_69,
    StableHlo.seq hostOps0_70,
    StableHlo.seq hostOps0_71,
    StableHlo.seq hostOps0_72,
    StableHlo.seq hostOps0_73,
    StableHlo.seq hostOps0_74,
    StableHlo.seq hostOps0_75,
    StableHlo.seq hostOps0_76,
    StableHlo.seq hostOps0_77,
    StableHlo.seq hostOps0_78,
    StableHlo.seq hostOps0_79 ]
  (StableHlo.seq hostOps0_80_hd) : Prog (TpuEff nD τ sig (Elt F) (Pipeline.Sig Λ₀ (Fin 0) fun p => (pcfgs (F := F) p).Adm) .tc) PUnit) := by
  chain_rfl

theorem main_part3_chain (c : Dev nD) : main_part3 (F := F) c = (Pipeline.chainK
  [ StableHlo.seq hostOps0_80_tl,
    StableHlo.seq hostOps0_81,
    StableHlo.seq hostOps0_82,
    StableHlo.seq hostOps0_83,
    StableHlo.seq hostOps0_84,
    StableHlo.seq hostOps0_85,
    StableHlo.seq hostOps0_86,
    StableHlo.seq hostOps0_87,
    StableHlo.seq hostOps0_88,
    StableHlo.seq hostOps0_89,
    StableHlo.seq hostOps0_90,
    StableHlo.seq hostOps0_91,
    StableHlo.seq hostOps0_92,
    StableHlo.seq hostOps0_93,
    StableHlo.seq hostOps0_94,
    StableHlo.seq hostOps0_95,
    StableHlo.seq hostOps0_96,
    StableHlo.seq hostOps0_97,
    StableHlo.seq hostOps0_98,
    StableHlo.seq hostOps0_99,
    StableHlo.seq hostOps0_100,
    StableHlo.seq hostOps0_101,
    StableHlo.seq hostOps0_102,
    StableHlo.seq hostOps0_103,
    StableHlo.seq hostOps0_104,
    StableHlo.seq hostOps0_105,
    StableHlo.seq hostOps0_106,
    StableHlo.seq hostOps0_107,
    StableHlo.seq hostOps0_108,
    StableHlo.seq hostOps0_109,
    StableHlo.seq hostOps0_110,
    StableHlo.seq hostOps0_111 ]
  (StableHlo.seq hostOps0_112_hd) : Prog (TpuEff nD τ sig (Elt F) (Pipeline.Sig Λ₀ (Fin 0) fun p => (pcfgs (F := F) p).Adm) .tc) PUnit) := by
  chain_rfl

theorem main_part4_chain (c : Dev nD) : main_part4 (F := F) c = (Pipeline.chainK
  [ StableHlo.seq hostOps0_112_tl,
    StableHlo.seq hostOps0_113,
    StableHlo.seq hostOps0_114,
    StableHlo.seq hostOps0_115,
    StableHlo.seq hostOps0_116,
    StableHlo.seq hostOps0_117,
    StableHlo.seq hostOps0_118,
    StableHlo.seq hostOps0_119,
    StableHlo.seq hostOps0_120,
    StableHlo.seq hostOps0_121,
    StableHlo.seq hostOps0_122,
    StableHlo.seq hostOps0_123,
    StableHlo.seq hostOps0_124,
    StableHlo.seq hostOps0_125,
    StableHlo.seq hostOps0_126,
    StableHlo.seq hostOps0_127,
    StableHlo.seq hostOps0_128,
    StableHlo.seq hostOps0_129,
    StableHlo.seq hostOps0_130,
    StableHlo.seq hostOps0_131,
    StableHlo.seq hostOps0_132,
    StableHlo.seq hostOps0_133,
    StableHlo.seq hostOps0_134,
    StableHlo.seq hostOps0_135,
    StableHlo.seq hostOps0_136,
    StableHlo.seq hostOps0_137,
    StableHlo.seq hostOps0_138,
    StableHlo.seq hostOps0_139,
    StableHlo.seq hostOps0_140,
    StableHlo.seq hostOps0_141,
    StableHlo.seq hostOps0_142,
    StableHlo.seq hostOps0_143 ]
  (StableHlo.seq hostOps0_144_hd) : Prog (TpuEff nD τ sig (Elt F) (Pipeline.Sig Λ₀ (Fin 0) fun p => (pcfgs (F := F) p).Adm) .tc) PUnit) := by
  chain_rfl

theorem main_part5_chain (c : Dev nD) : main_part5 (F := F) c = (Pipeline.chainK
  [ StableHlo.seq hostOps0_144_tl,
    StableHlo.seq hostOps0_145,
    StableHlo.seq hostOps0_146,
    StableHlo.seq hostOps0_147,
    StableHlo.seq hostOps0_148,
    StableHlo.seq hostOps0_149,
    StableHlo.seq tailOps0,
    StableHlo.seq tailOps1,
    StableHlo.seq tailOps2,
    StableHlo.seq tailOps3 ]
  (StableHlo.seq tailOps4_hd) : Prog (TpuEff nD τ sig (Elt F) (Pipeline.Sig Λ₀ (Fin 0) fun p => (pcfgs (F := F) p).Adm) .tc) PUnit) := by
  chain_rfl

theorem main_part6_chain (c : Dev nD) : main_part6 (F := F) c = (Pipeline.chainK
  [ StableHlo.seq tailOps4_tl,
    StableHlo.seq tailOps5,
    StableHlo.seq tailOps6,
    StableHlo.seq tailOps7,
    StableHlo.seq tailOps8 ]
  (StableHlo.seq tailOps9_hd) : Prog (TpuEff nD τ sig (Elt F) (Pipeline.Sig Λ₀ (Fin 0) fun p => (pcfgs (F := F) p).Adm) .tc) PUnit) := by
  chain_rfl

theorem main_part7_chain (c : Dev nD) : main_part7 (F := F) c = (Pipeline.chainK
  [ StableHlo.seq tailOps9_tl,
    StableHlo.seq tailOps10,
    StableHlo.seq tailOps11,
    StableHlo.seq tailOps12,
    StableHlo.seq tailOps13 ]
  (StableHlo.seq tailOps14_hd) : Prog (TpuEff nD τ sig (Elt F) (Pipeline.Sig Λ₀ (Fin 0) fun p => (pcfgs (F := F) p).Adm) .tc) PUnit) := by
  chain_rfl

theorem main_part8_chain (c : Dev nD) : main_part8 (F := F) c = (Pipeline.chain
  [ StableHlo.seq tailOps14_tl,
    StableHlo.seq tailOps15,
    StableHlo.seq tailOps16,
    StableHlo.seq tailOps17,
    StableHlo.seq tailOps18,
    StableHlo.seq tailOps19 ] : Prog (TpuEff nD τ sig (Elt F) (Pipeline.Sig Λ₀ (Fin 0) fun p => (pcfgs (F := F) p).Adm) .tc) PUnit) := by
  chain_rfl

theorem main_chain (c : Dev nD) : main (F := F) c = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13,
    StableHlo.seq hostOps0_14,
    StableHlo.seq hostOps0_15,
    StableHlo.seq hostOps0_16,
    StableHlo.seq hostOps0_17,
    StableHlo.seq hostOps0_18,
    StableHlo.seq hostOps0_19,
    StableHlo.seq hostOps0_20,
    StableHlo.seq hostOps0_21,
    StableHlo.seq hostOps0_22,
    StableHlo.seq hostOps0_23,
    StableHlo.seq hostOps0_24,
    StableHlo.seq hostOps0_25,
    StableHlo.seq hostOps0_26,
    StableHlo.seq hostOps0_27,
    StableHlo.seq hostOps0_28,
    StableHlo.seq hostOps0_29,
    StableHlo.seq hostOps0_30,
    StableHlo.seq hostOps0_31,
    StableHlo.seq hostOps0_32,
    StableHlo.seq hostOps0_33,
    StableHlo.seq hostOps0_34,
    StableHlo.seq hostOps0_35,
    StableHlo.seq hostOps0_36,
    StableHlo.seq hostOps0_37,
    StableHlo.seq hostOps0_38,
    StableHlo.seq hostOps0_39,
    StableHlo.seq hostOps0_40,
    StableHlo.seq hostOps0_41,
    StableHlo.seq hostOps0_42,
    StableHlo.seq hostOps0_43,
    StableHlo.seq hostOps0_44,
    StableHlo.seq hostOps0_45,
    StableHlo.seq hostOps0_46,
    StableHlo.seq hostOps0_47,
    StableHlo.seq hostOps0_48,
    StableHlo.seq hostOps0_49,
    StableHlo.seq hostOps0_50,
    StableHlo.seq hostOps0_51,
    StableHlo.seq hostOps0_52,
    StableHlo.seq hostOps0_53,
    StableHlo.seq hostOps0_54,
    StableHlo.seq hostOps0_55,
    StableHlo.seq hostOps0_56,
    StableHlo.seq hostOps0_57,
    StableHlo.seq hostOps0_58,
    StableHlo.seq hostOps0_59,
    StableHlo.seq hostOps0_60,
    StableHlo.seq hostOps0_61,
    StableHlo.seq hostOps0_62,
    StableHlo.seq hostOps0_63,
    StableHlo.seq hostOps0_64,
    StableHlo.seq hostOps0_65,
    StableHlo.seq hostOps0_66,
    StableHlo.seq hostOps0_67,
    StableHlo.seq hostOps0_68,
    StableHlo.seq hostOps0_69,
    StableHlo.seq hostOps0_70,
    StableHlo.seq hostOps0_71,
    StableHlo.seq hostOps0_72,
    StableHlo.seq hostOps0_73,
    StableHlo.seq hostOps0_74,
    StableHlo.seq hostOps0_75,
    StableHlo.seq hostOps0_76,
    StableHlo.seq hostOps0_77,
    StableHlo.seq hostOps0_78,
    StableHlo.seq hostOps0_79,
    StableHlo.seq hostOps0_80,
    StableHlo.seq hostOps0_81,
    StableHlo.seq hostOps0_82,
    StableHlo.seq hostOps0_83,
    StableHlo.seq hostOps0_84,
    StableHlo.seq hostOps0_85,
    StableHlo.seq hostOps0_86,
    StableHlo.seq hostOps0_87,
    StableHlo.seq hostOps0_88,
    StableHlo.seq hostOps0_89,
    StableHlo.seq hostOps0_90,
    StableHlo.seq hostOps0_91,
    StableHlo.seq hostOps0_92,
    StableHlo.seq hostOps0_93,
    StableHlo.seq hostOps0_94,
    StableHlo.seq hostOps0_95,
    StableHlo.seq hostOps0_96,
    StableHlo.seq hostOps0_97,
    StableHlo.seq hostOps0_98,
    StableHlo.seq hostOps0_99,
    StableHlo.seq hostOps0_100,
    StableHlo.seq hostOps0_101,
    StableHlo.seq hostOps0_102,
    StableHlo.seq hostOps0_103,
    StableHlo.seq hostOps0_104,
    StableHlo.seq hostOps0_105,
    StableHlo.seq hostOps0_106,
    StableHlo.seq hostOps0_107,
    StableHlo.seq hostOps0_108,
    StableHlo.seq hostOps0_109,
    StableHlo.seq hostOps0_110,
    StableHlo.seq hostOps0_111,
    StableHlo.seq hostOps0_112,
    StableHlo.seq hostOps0_113,
    StableHlo.seq hostOps0_114,
    StableHlo.seq hostOps0_115,
    StableHlo.seq hostOps0_116,
    StableHlo.seq hostOps0_117,
    StableHlo.seq hostOps0_118,
    StableHlo.seq hostOps0_119,
    StableHlo.seq hostOps0_120,
    StableHlo.seq hostOps0_121,
    StableHlo.seq hostOps0_122,
    StableHlo.seq hostOps0_123,
    StableHlo.seq hostOps0_124,
    StableHlo.seq hostOps0_125,
    StableHlo.seq hostOps0_126,
    StableHlo.seq hostOps0_127,
    StableHlo.seq hostOps0_128,
    StableHlo.seq hostOps0_129,
    StableHlo.seq hostOps0_130,
    StableHlo.seq hostOps0_131,
    StableHlo.seq hostOps0_132,
    StableHlo.seq hostOps0_133,
    StableHlo.seq hostOps0_134,
    StableHlo.seq hostOps0_135,
    StableHlo.seq hostOps0_136,
    StableHlo.seq hostOps0_137,
    StableHlo.seq hostOps0_138,
    StableHlo.seq hostOps0_139,
    StableHlo.seq hostOps0_140,
    StableHlo.seq hostOps0_141,
    StableHlo.seq hostOps0_142,
    StableHlo.seq hostOps0_143,
    StableHlo.seq hostOps0_144,
    StableHlo.seq hostOps0_145,
    StableHlo.seq hostOps0_146,
    StableHlo.seq hostOps0_147,
    StableHlo.seq hostOps0_148,
    StableHlo.seq hostOps0_149,
    StableHlo.seq tailOps0,
    StableHlo.seq tailOps1,
    StableHlo.seq tailOps2,
    StableHlo.seq tailOps3,
    StableHlo.seq tailOps4,
    StableHlo.seq tailOps5,
    StableHlo.seq tailOps6,
    StableHlo.seq tailOps7,
    StableHlo.seq tailOps8,
    StableHlo.seq tailOps9,
    StableHlo.seq tailOps10,
    StableHlo.seq tailOps11,
    StableHlo.seq tailOps12,
    StableHlo.seq tailOps13,
    StableHlo.seq tailOps14,
    StableHlo.seq tailOps15,
    StableHlo.seq tailOps16,
    StableHlo.seq tailOps17,
    StableHlo.seq tailOps18,
    StableHlo.seq tailOps19 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c >>= fun _ => main_part8 (F := F) c) = _
  rewrite [main_part8_chain, main_part7_chain, Pipeline.chainK_bind_chain, main_part6_chain, Pipeline.chainK_bind_chain, main_part5_chain, Pipeline.chainK_bind_chain, main_part4_chain, Pipeline.chainK_bind_chain, main_part3_chain, Pipeline.chainK_bind_chain, main_part2_chain, Pipeline.chainK_bind_chain, main_part1_chain, Pipeline.chainK_bind_chain, main_part0_chain, Pipeline.chainK_bind_chain]
  chain_rfl

end Cert.ReferenceIdeal.Hand

end
-- ==== Proof.R.Ops.lean ====
import proofs.«175239_j73718818668652_1_alg».proof.Proof.R.HostArgs
import proofs.«175239_j73718818668652_1_alg».proof.Proof.R.Ops3
import Idealize.ShloMosaic.Lib.StableHlo.Run
import Idealize.ShloMosaic.Lib.Pipeline.Regions

noncomputable section

namespace Cert.ReferenceIdeal.Hand

open Idealize.ShloMosaic Idealize.ShloMosaic.TcCoe
open Idealize.SL Idealize.SL.Sem
open Cert.ReferenceIdeal Cert.ReferenceIdeal.Gen

section General

variable {nD : Nat} {τ : Topo} {sig : RefSig} {Val : EltTy → Type} {Λ : Labels}

theorem chain_map_seq : ∀ L : List (List (HloOp τ sig Val)),
    (Pipeline.chain (L.map StableHlo.seq) : Prog (TpuEff nD τ sig Val Λ .tc) PUnit) = StableHlo.seq L.flatten
  | [] => rfl
  | l :: L => by
    simp only [List.map_cons, Pipeline.chain_cons, List.flatten_cons, StableHlo.seq_append, chain_map_seq L]

theorem forall_flatten {α : Type} {p : α → Prop} {L : List (List α)} (h : L.Forall fun l => l.Forall p) :
    L.flatten.Forall p :=
  List.forall_iff_forall_mem.mpr fun a ha => by
    obtain ⟨l, hl, hal⟩ := List.mem_flatten.mp ha
    exact List.forall_iff_forall_mem.mp (List.forall_iff_forall_mem.mp h l hl) a hal

end General

variable {F : FTy → Type} [FloatOps F]

theorem main_eq (c : Dev nD) : main (F := F) c = StableHlo.seq ops := by
  rw [main_chain c]
  exact chain_map_seq (stretches (F := F))

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ StableHlo.tcRefs τ sig :=
  forall_flatten hsub

theorem hfresh : ∀ op ∈ (ops : List (HloOp τ sig (Elt F))), op.fresh = ∅ :=
  List.forall_iff_forall_mem.mp (forall_flatten hfreshS)

theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (StableHlo.launchContents m d) (Proc.devRef .tc b) :=
  StableHlo.run_seq scopedRefs_eq scopedSems_eq defs main (fun _ => ops) main_eq (fun _ => ops_sub) m ρ (fun _ => hfresh)

theorem after_main_arg0 (V : Valuation τ sig (Elt F)) :
    StableHlo.after ops V (Proc.devRef .tc main_arg0) = V (Proc.devRef .tc main_arg0) :=
  Cert.LibHostFold.after_flatten_untouched stretches HandHost.Ws HandHost.Ws_ok V main_arg0 (by decide)

theorem after_main_arg1 (V : Valuation τ sig (Elt F)) :
    StableHlo.after ops V (Proc.devRef .tc main_arg1) = V (Proc.devRef .tc main_arg1) :=
  Cert.LibHostFold.after_flatten_untouched stretches HandHost.Ws HandHost.Ws_ok V main_arg1 (by decide)

theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_arg0).trans (after_main_arg0 (StableHlo.launchContents m c)), (h c main_arg1).trans (after_main_arg1 (StableHlo.launchContents m c))⟩)
    (run_all m ρ)

end Cert.ReferenceIdeal.Hand

end
-- ==== Proof.R.HostStepA.lean ====
import proofs.«175239_j73718818668652_1_alg».proof.Proof.R.Ops0a
import proofs.«175239_j73718818668652_1_alg».proof.Proof.R.Ops0b
import Idealize.ShloMosaic.PureOps.Ideal
import Idealize.ShloMosaic.Lib.StableHlo.Run
import proofs.«175239_j73718818668652_1_alg».proof.Proof.Spec.Ids

set_option maxRecDepth 16384

noncomputable section

namespace Cert.ReferenceIdeal.HandHost

open Idealize.ShloMosaic Idealize.ShloMosaic.TcCoe Idealize.ShloMosaic.StableHlo
open Idealize.SL Idealize.SL.Sem
open Cert.ReferenceIdeal Cert.ReferenceIdeal.Hand

def cutLast {α : Type} (a : Spec.S8x8192.Idx → α) : Spec.S8x8191.Idx → α :=
  extractStridedSlice Spec.S8x8191 ![0, 0] a Spec.slices_S8x8192_S8x8191_0_0

def padFront {α : Type} (v : Spec.S_.Idx → α) (y : Spec.S8x8191.Idx → α) : Spec.S8x8192.Idx → α :=
  pad Spec.S8x8192 ![0, 1] ![0, 0] ![0, 0] y v Spec.pads_S8x8191_S8x8192_000_100 Spec.h_S_

theorem shift_eq {α : Type} (v : Spec.S_.Idx → α) (a : Spec.S8x8192.Idx → α) : Spec.shift v a = padFront v (cutLast a) := rfl

variable (W : Valuation τ sig (Elt Ideal))

set_option maxHeartbeats 1000000 in
/-- What the window's stretches leave, read at the buffers the later windows use. -/
theorem stepA (R : Valuation τ sig (Elt Ideal))
    (hR : R = after hostOps0 (W)) :
    R (no_index (Proc.devRef .tc main_v16)) = Spec.safe (W (Proc.devRef .tc main_arg0))
    ∧ R (no_index (Proc.devRef .tc main_v18)) = Spec.bad1 (W (Proc.devRef .tc main_arg0))
    ∧ R (no_index (Proc.devRef .tc main_v19)) = cutLast (Spec.safe (W (Proc.devRef .tc main_arg0)))
    ∧ R (no_index (Proc.devRef .tc main_c_8)) = constantI Spec.S_ 32 0#32 := by
  subst hR
  simp only [hostOps0]
  refine ⟨?_, ?_, ?_, ?_⟩ <;> after_results_simp <;> rfl

end Cert.ReferenceIdeal.HandHost

end
-- ==== Proof.R.HostStep02.lean ====
import proofs.«175239_j73718818668652_1_alg».proof.Proof.R.Ops0a
import proofs.«175239_j73718818668652_1_alg».proof.Proof.R.Ops0b
import Idealize.ShloMosaic.PureOps.Ideal
import Idealize.ShloMosaic.Lib.StableHlo.Run
import proofs.«175239_j73718818668652_1_alg».proof.Proof.Spec.Ids
import proofs.«175239_j73718818668652_1_alg».proof.Proof.R.HostStepA

set_option maxRecDepth 16384

noncomputable section

namespace Cert.ReferenceIdeal.HandHost

open Idealize.ShloMosaic Idealize.ShloMosaic.TcCoe Idealize.ShloMosaic.StableHlo
open Idealize.SL Idealize.SL.Sem
open Cert.ReferenceIdeal Cert.ReferenceIdeal.Hand

variable (W : Valuation τ sig (Elt Ideal))

set_option maxHeartbeats 1000000 in
/-- What the window's stretches leave, read at the buffers the later windows use. -/
theorem step2 (R : Valuation τ sig (Elt Ideal))
    (hR : R = after hostOps0_5 (after hostOps0_4 (after hostOps0_3 (after hostOps0_2 (after hostOps0_1 (W)))))) :
    R (no_index (Proc.devRef .tc main_v24)) = Spec.floorMod (addi (muli (padFront (W (Proc.devRef .tc main_c_8)) (W (Proc.devRef .tc main_v19))) (Spec.fill 31#32)) (W (Proc.devRef .tc main_v16)))
    ∧ R (no_index (Proc.devRef .tc main_v26)) = Spec.shift (constantI Spec.S_ 1 1#1) (W (Proc.devRef .tc main_v18)) := by
  subst hR
  simp only [hostOps0_1, hostOps0_2, hostOps0_3, hostOps0_4, hostOps0_5]
  refine ⟨?_, ?_⟩ <;> after_results_simp <;> rfl

end Cert.ReferenceIdeal.HandHost

end
-- ==== Proof.R.HostStep03.lean ====
import proofs.«175239_j73718818668652_1_alg».proof.Proof.R.Ops0a
import proofs.«175239_j73718818668652_1_alg».proof.Proof.R.Ops0b
import Idealize.ShloMosaic.PureOps.Ideal
import Idealize.ShloMosaic.Lib.StableHlo.Run
import proofs.«175239_j73718818668652_1_alg».proof.Proof.Spec.Ids

set_option maxRecDepth 16384

noncomputable section

namespace Cert.ReferenceIdeal.HandHost

open Idealize.ShloMosaic Idealize.ShloMosaic.TcCoe Idealize.ShloMosaic.StableHlo
open Idealize.SL Idealize.SL.Sem
open Cert.ReferenceIdeal Cert.ReferenceIdeal.Hand

variable (W : Valuation τ sig (Elt Ideal))

set_option maxHeartbeats 1000000 in
/-- What the window's stretches leave, read at the buffers the later windows use. -/
theorem step3 (R : Valuation τ sig (Elt Ideal))
    (hR : R = after hostOps0_13 (after hostOps0_12 (after hostOps0_11 (after hostOps0_10 (after hostOps0_9 (after hostOps0_8 (after hostOps0_7 (after hostOps0_6 (W))))))))) :
    R (no_index (Proc.devRef .tc main_v33)) = Spec.stepH (W (Proc.devRef .tc main_v16)) (W (Proc.devRef .tc main_v24))
    ∧ R (no_index (Proc.devRef .tc main_v36)) = Spec.stepB (W (Proc.devRef .tc main_v18)) (ori (W (Proc.devRef .tc main_v26)) (W (Proc.devRef .tc main_v18)))
    ∧ R (no_index (Proc.devRef .tc main_v37)) = Spec.idsSel (Spec.stepB (W (Proc.devRef .tc main_v18)) (ori (W (Proc.devRef .tc main_v26)) (W (Proc.devRef .tc main_v18)))) (Spec.stepH (W (Proc.devRef .tc main_v16)) (W (Proc.devRef .tc main_v24))) := by
  subst hR
  simp only [hostOps0_6, hostOps0_7, hostOps0_8, hostOps0_9, hostOps0_10, hostOps0_11, hostOps0_12, hostOps0_13]
  refine ⟨?_, ?_, ?_⟩ <;> after_results_simp <;> rfl

end Cert.ReferenceIdeal.HandHost

end
-- ==== Proof.R.HostStep04.lean ====
import proofs.«175239_j73718818668652_1_alg».proof.Proof.R.Ops0a
import proofs.«175239_j73718818668652_1_alg».proof.Proof.R.Ops0b
import Idealize.ShloMosaic.PureOps.Ideal
import Idealize.ShloMosaic.Lib.StableHlo.Run
import proofs.«175239_j73718818668652_1_alg».proof.Proof.Spec.Ids

set_option maxRecDepth 16384

noncomputable section

namespace Cert.ReferenceIdeal.HandHost

open Idealize.ShloMosaic Idealize.ShloMosaic.TcCoe Idealize.ShloMosaic.StableHlo
open Idealize.SL Idealize.SL.Sem
open Cert.ReferenceIdeal Cert.ReferenceIdeal.Hand

variable (W : Valuation τ sig (Elt Ideal))

set_option maxHeartbeats 1000000 in
/-- What the window's stretches leave, read at the buffers the later windows use. -/
theorem step4 (R : Valuation τ sig (Elt Ideal))
    (hR : R = after hostOps0_21 (after hostOps0_20 (after hostOps0_19 (after hostOps0_18 (after hostOps0_17 (after hostOps0_16 (after hostOps0_15 (after hostOps0_14 (W))))))))) :
    R (no_index (Proc.devRef .tc main_v43)) = Spec.stepH (W (Proc.devRef .tc main_v16)) (W (Proc.devRef .tc main_v33))
    ∧ R (no_index (Proc.devRef .tc main_v46)) = Spec.stepB (W (Proc.devRef .tc main_v18)) (W (Proc.devRef .tc main_v36))
    ∧ R (no_index (Proc.devRef .tc main_v47)) = Spec.idsSel (Spec.stepB (W (Proc.devRef .tc main_v18)) (W (Proc.devRef .tc main_v36))) (Spec.stepH (W (Proc.devRef .tc main_v16)) (W (Proc.devRef .tc main_v33))) := by
  subst hR
  simp only [hostOps0_14, hostOps0_15, hostOps0_16, hostOps0_17, hostOps0_18, hostOps0_19, hostOps0_20, hostOps0_21]
  refine ⟨?_, ?_, ?_⟩ <;> after_results_simp <;> rfl

end Cert.ReferenceIdeal.HandHost

end
-- ==== Proof.R.HostStep05.lean ====
import proofs.«175239_j73718818668652_1_alg».proof.Proof.R.Ops0a
import proofs.«175239_j73718818668652_1_alg».proof.Proof.R.Ops0b
import Idealize.ShloMosaic.PureOps.Ideal
import Idealize.ShloMosaic.Lib.StableHlo.Run
import proofs.«175239_j73718818668652_1_alg».proof.Proof.Spec.Ids

set_option maxRecDepth 16384

noncomputable section

namespace Cert.ReferenceIdeal.HandHost

open Idealize.ShloMosaic Idealize.ShloMosaic.TcCoe Idealize.ShloMosaic.StableHlo
open Idealize.SL Idealize.SL.Sem
open Cert.ReferenceIdeal Cert.ReferenceIdeal.Hand

variable (W : Valuation τ sig (Elt Ideal))

set_option maxHeartbeats 1000000 in
/-- What the window's stretches leave, read at the buffers the later windows use. -/
theorem step5 (R : Valuation τ sig (Elt Ideal))
    (hR : R = after hostOps0_29 (after hostOps0_28 (after hostOps0_27 (after hostOps0_26 (after hostOps0_25 (after hostOps0_24 (after hostOps0_23 (after hostOps0_22 (W))))))))) :
    R (no_index (Proc.devRef .tc main_v53)) = Spec.stepH (W (Proc.devRef .tc main_v16)) (W (Proc.devRef .tc main_v43))
    ∧ R (no_index (Proc.devRef .tc main_v56)) = Spec.stepB (W (Proc.devRef .tc main_v18)) (W (Proc.devRef .tc main_v46))
    ∧ R (no_index (Proc.devRef .tc main_v57)) = Spec.idsSel (Spec.stepB (W (Proc.devRef .tc main_v18)) (W (Proc.devRef .tc main_v46))) (Spec.stepH (W (Proc.devRef .tc main_v16)) (W (Proc.devRef .tc main_v43))) := by
  subst hR
  simp only [hostOps0_22, hostOps0_23, hostOps0_24, hostOps0_25, hostOps0_26, hostOps0_27, hostOps0_28, hostOps0_29]
  refine ⟨?_, ?_, ?_⟩ <;> after_results_simp <;> rfl

end Cert.ReferenceIdeal.HandHost

end
-- ==== Proof.R.HostStep06.lean ====
import proofs.«175239_j73718818668652_1_alg».proof.Proof.R.Ops0a
import proofs.«175239_j73718818668652_1_alg».proof.Proof.R.Ops0b
import Idealize.ShloMosaic.PureOps.Ideal
import Idealize.ShloMosaic.Lib.StableHlo.Run
import proofs.«175239_j73718818668652_1_alg».proof.Proof.Spec.Ids

set_option maxRecDepth 16384

noncomputable section

namespace Cert.ReferenceIdeal.HandHost

open Idealize.ShloMosaic Idealize.ShloMosaic.TcCoe Idealize.ShloMosaic.StableHlo
open Idealize.SL Idealize.SL.Sem
open Cert.ReferenceIdeal Cert.ReferenceIdeal.Hand

variable (W : Valuation τ sig (Elt Ideal))

set_option maxHeartbeats 1000000 in
/-- What the window's stretches leave, read at the buffers the later windows use. -/
theorem step6 (R : Valuation τ sig (Elt Ideal))
    (hR : R = after hostOps0_37 (after hostOps0_36 (after hostOps0_35 (after hostOps0_34 (after hostOps0_33 (after hostOps0_32 (after hostOps0_31 (after hostOps0_30 (W))))))))) :
    R (no_index (Proc.devRef .tc main_v63)) = Spec.stepH (W (Proc.devRef .tc main_v16)) (W (Proc.devRef .tc main_v53))
    ∧ R (no_index (Proc.devRef .tc main_v66)) = Spec.stepB (W (Proc.devRef .tc main_v18)) (W (Proc.devRef .tc main_v56))
    ∧ R (no_index (Proc.devRef .tc main_v67)) = Spec.idsSel (Spec.stepB (W (Proc.devRef .tc main_v18)) (W (Proc.devRef .tc main_v56))) (Spec.stepH (W (Proc.devRef .tc main_v16)) (W (Proc.devRef .tc main_v53))) := by
  subst hR
  simp only [hostOps0_30, hostOps0_31, hostOps0_32, hostOps0_33, hostOps0_34, hostOps0_35, hostOps0_36, hostOps0_37]
  refine ⟨?_, ?_, ?_⟩ <;> after_results_simp <;> rfl

end Cert.ReferenceIdeal.HandHost

end
-- ==== Proof.R.HostStep07.lean ====
import proofs.«175239_j73718818668652_1_alg».proof.Proof.R.Ops0a
import proofs.«175239_j73718818668652_1_alg».proof.Proof.R.Ops0b
import Idealize.ShloMosaic.PureOps.Ideal
import Idealize.ShloMosaic.Lib.StableHlo.Run
import proofs.«175239_j73718818668652_1_alg».proof.Proof.Spec.Ids

set_option maxRecDepth 16384

noncomputable section

namespace Cert.ReferenceIdeal.HandHost

open Idealize.ShloMosaic Idealize.ShloMosaic.TcCoe Idealize.ShloMosaic.StableHlo
open Idealize.SL Idealize.SL.Sem
open Cert.ReferenceIdeal Cert.ReferenceIdeal.Hand

variable (W : Valuation τ sig (Elt Ideal))

set_option maxHeartbeats 1000000 in
/-- What the window's stretches leave, read at the buffers the later windows use. -/
theorem step7 (R : Valuation τ sig (Elt Ideal))
    (hR : R = after hostOps0_45 (after hostOps0_44 (after hostOps0_43 (after hostOps0_42 (after hostOps0_41 (after hostOps0_40 (after hostOps0_39 (after hostOps0_38 (W))))))))) :
    R (no_index (Proc.devRef .tc main_v73)) = Spec.stepH (W (Proc.devRef .tc main_v16)) (W (Proc.devRef .tc main_v63))
    ∧ R (no_index (Proc.devRef .tc main_v76)) = Spec.stepB (W (Proc.devRef .tc main_v18)) (W (Proc.devRef .tc main_v66))
    ∧ R (no_index (Proc.devRef .tc main_v77)) = Spec.idsSel (Spec.stepB (W (Proc.devRef .tc main_v18)) (W (Proc.devRef .tc main_v66))) (Spec.stepH (W (Proc.devRef .tc main_v16)) (W (Proc.devRef .tc main_v63))) := by
  subst hR
  simp only [hostOps0_38, hostOps0_39, hostOps0_40, hostOps0_41, hostOps0_42, hostOps0_43, hostOps0_44, hostOps0_45]
  refine ⟨?_, ?_, ?_⟩ <;> after_results_simp <;> rfl

end Cert.ReferenceIdeal.HandHost

end
-- ==== Proof.R.HostStep08.lean ====
import proofs.«175239_j73718818668652_1_alg».proof.Proof.R.Ops0a
import proofs.«175239_j73718818668652_1_alg».proof.Proof.R.Ops0b
import Idealize.ShloMosaic.PureOps.Ideal
import Idealize.ShloMosaic.Lib.StableHlo.Run
import proofs.«175239_j73718818668652_1_alg».proof.Proof.Spec.Ids

set_option maxRecDepth 16384

noncomputable section

namespace Cert.ReferenceIdeal.HandHost

open Idealize.ShloMosaic Idealize.ShloMosaic.TcCoe Idealize.ShloMosaic.StableHlo
open Idealize.SL Idealize.SL.Sem
open Cert.ReferenceIdeal Cert.ReferenceIdeal.Hand

variable (W : Valuation τ sig (Elt Ideal))

set_option maxHeartbeats 1000000 in
/-- What the window's stretches leave, read at the buffers the later windows use. -/
theorem step8 (R : Valuation τ sig (Elt Ideal))
    (hR : R = after hostOps0_53 (after hostOps0_52 (after hostOps0_51 (after hostOps0_50 (after hostOps0_49 (after hostOps0_48 (after hostOps0_47 (after hostOps0_46 (W))))))))) :
    R (no_index (Proc.devRef .tc main_v83)) = Spec.stepH (W (Proc.devRef .tc main_v16)) (W (Proc.devRef .tc main_v73))
    ∧ R (no_index (Proc.devRef .tc main_v86)) = Spec.stepB (W (Proc.devRef .tc main_v18)) (W (Proc.devRef .tc main_v76))
    ∧ R (no_index (Proc.devRef .tc main_v87)) = Spec.idsSel (Spec.stepB (W (Proc.devRef .tc main_v18)) (W (Proc.devRef .tc main_v76))) (Spec.stepH (W (Proc.devRef .tc main_v16)) (W (Proc.devRef .tc main_v73))) := by
  subst hR
  simp only [hostOps0_46, hostOps0_47, hostOps0_48, hostOps0_49, hostOps0_50, hostOps0_51, hostOps0_52, hostOps0_53]
  refine ⟨?_, ?_, ?_⟩ <;> after_results_simp <;> rfl

end Cert.ReferenceIdeal.HandHost

end
-- ==== Proof.R.HostStep09.lean ====
import proofs.«175239_j73718818668652_1_alg».proof.Proof.R.Ops0a
import proofs.«175239_j73718818668652_1_alg».proof.Proof.R.Ops0b
import Idealize.ShloMosaic.PureOps.Ideal
import Idealize.ShloMosaic.Lib.StableHlo.Run
import proofs.«175239_j73718818668652_1_alg».proof.Proof.Spec.Ids

set_option maxRecDepth 16384

noncomputable section

namespace Cert.ReferenceIdeal.HandHost

open Idealize.ShloMosaic Idealize.ShloMosaic.TcCoe Idealize.ShloMosaic.StableHlo
open Idealize.SL Idealize.SL.Sem
open Cert.ReferenceIdeal Cert.ReferenceIdeal.Hand

variable (W : Valuation τ sig (Elt Ideal))

set_option maxHeartbeats 1000000 in
/-- What the window's stretches leave, read at the buffers the later windows use. -/
theorem step9 (R : Valuation τ sig (Elt Ideal))
    (hR : R = after hostOps0_61 (after hostOps0_60 (after hostOps0_59 (after hostOps0_58 (after hostOps0_57 (after hostOps0_56 (after hostOps0_55 (after hostOps0_54 (W))))))))) :
    R (no_index (Proc.devRef .tc main_v93)) = Spec.stepH (W (Proc.devRef .tc main_v16)) (W (Proc.devRef .tc main_v83))
    ∧ R (no_index (Proc.devRef .tc main_v96)) = Spec.stepB (W (Proc.devRef .tc main_v18)) (W (Proc.devRef .tc main_v86))
    ∧ R (no_index (Proc.devRef .tc main_v97)) = Spec.idsSel (Spec.stepB (W (Proc.devRef .tc main_v18)) (W (Proc.devRef .tc main_v86))) (Spec.stepH (W (Proc.devRef .tc main_v16)) (W (Proc.devRef .tc main_v83))) := by
  subst hR
  simp only [hostOps0_54, hostOps0_55, hostOps0_56, hostOps0_57, hostOps0_58, hostOps0_59, hostOps0_60, hostOps0_61]
  refine ⟨?_, ?_, ?_⟩ <;> after_results_simp <;> rfl

end Cert.ReferenceIdeal.HandHost

end
-- ==== Proof.R.HostStep10.lean ====
import proofs.«175239_j73718818668652_1_alg».proof.Proof.R.Ops0a
import proofs.«175239_j73718818668652_1_alg».proof.Proof.R.Ops0b
import Idealize.ShloMosaic.PureOps.Ideal
import Idealize.ShloMosaic.Lib.StableHlo.Run
import proofs.«175239_j73718818668652_1_alg».proof.Proof.Spec.Ids

set_option maxRecDepth 16384

noncomputable section

namespace Cert.ReferenceIdeal.HandHost

open Idealize.ShloMosaic Idealize.ShloMosaic.TcCoe Idealize.ShloMosaic.StableHlo
open Idealize.SL Idealize.SL.Sem
open Cert.ReferenceIdeal Cert.ReferenceIdeal.Hand

variable (W : Valuation τ sig (Elt Ideal))

set_option maxHeartbeats 1000000 in
/-- What the window's stretches leave, read at the buffers the later windows use. -/
theorem step10 (R : Valuation τ sig (Elt Ideal))
    (hR : R = after hostOps0_69 (after hostOps0_68 (after hostOps0_67 (after hostOps0_66 (after hostOps0_65 (after hostOps0_64 (after hostOps0_63 (after hostOps0_62 (W))))))))) :
    R (no_index (Proc.devRef .tc main_v103)) = Spec.stepH (W (Proc.devRef .tc main_v16)) (W (Proc.devRef .tc main_v93))
    ∧ R (no_index (Proc.devRef .tc main_v106)) = Spec.stepB (W (Proc.devRef .tc main_v18)) (W (Proc.devRef .tc main_v96))
    ∧ R (no_index (Proc.devRef .tc main_v107)) = Spec.idsSel (Spec.stepB (W (Proc.devRef .tc main_v18)) (W (Proc.devRef .tc main_v96))) (Spec.stepH (W (Proc.devRef .tc main_v16)) (W (Proc.devRef .tc main_v93))) := by
  subst hR
  simp only [hostOps0_62, hostOps0_63, hostOps0_64, hostOps0_65, hostOps0_66, hostOps0_67, hostOps0_68, hostOps0_69]
  refine ⟨?_, ?_, ?_⟩ <;> after_results_simp <;> rfl

end Cert.ReferenceIdeal.HandHost

end
-- ==== Proof.R.HostStep11.lean ====
import proofs.«175239_j73718818668652_1_alg».proof.Proof.R.Ops0a
import proofs.«175239_j73718818668652_1_alg».proof.Proof.R.Ops0b
import Idealize.ShloMosaic.PureOps.Ideal
import Idealize.ShloMosaic.Lib.StableHlo.Run
import proofs.«175239_j73718818668652_1_alg».proof.Proof.Spec.Ids

set_option maxRecDepth 16384

noncomputable section

namespace Cert.ReferenceIdeal.HandHost

open Idealize.ShloMosaic Idealize.ShloMosaic.TcCoe Idealize.ShloMosaic.StableHlo
open Idealize.SL Idealize.SL.Sem
open Cert.ReferenceIdeal Cert.ReferenceIdeal.Hand

variable (W : Valuation τ sig (Elt Ideal))

set_option maxHeartbeats 1000000 in
/-- What the window's stretches leave, read at the buffers the later windows use. -/
theorem step11 (R : Valuation τ sig (Elt Ideal))
    (hR : R = after hostOps0_77 (after hostOps0_76 (after hostOps0_75 (after hostOps0_74 (after hostOps0_73 (after hostOps0_72 (after hostOps0_71 (after hostOps0_70 (W))))))))) :
    R (no_index (Proc.devRef .tc main_v113)) = Spec.stepH (W (Proc.devRef .tc main_v16)) (W (Proc.devRef .tc main_v103))
    ∧ R (no_index (Proc.devRef .tc main_v116)) = Spec.stepB (W (Proc.devRef .tc main_v18)) (W (Proc.devRef .tc main_v106))
    ∧ R (no_index (Proc.devRef .tc main_v117)) = Spec.idsSel (Spec.stepB (W (Proc.devRef .tc main_v18)) (W (Proc.devRef .tc main_v106))) (Spec.stepH (W (Proc.devRef .tc main_v16)) (W (Proc.devRef .tc main_v103))) := by
  subst hR
  simp only [hostOps0_70, hostOps0_71, hostOps0_72, hostOps0_73, hostOps0_74, hostOps0_75, hostOps0_76, hostOps0_77]
  refine ⟨?_, ?_, ?_⟩ <;> after_results_simp <;> rfl

end Cert.ReferenceIdeal.HandHost

end
-- ==== Proof.R.HostStep12.lean ====
import proofs.«175239_j73718818668652_1_alg».proof.Proof.R.Ops0a
import proofs.«175239_j73718818668652_1_alg».proof.Proof.R.Ops0b
import Idealize.ShloMosaic.PureOps.Ideal
import Idealize.ShloMosaic.Lib.StableHlo.Run
import proofs.«175239_j73718818668652_1_alg».proof.Proof.Spec.Ids

set_option maxRecDepth 16384

noncomputable section

namespace Cert.ReferenceIdeal.HandHost

open Idealize.ShloMosaic Idealize.ShloMosaic.TcCoe Idealize.ShloMosaic.StableHlo
open Idealize.SL Idealize.SL.Sem
open Cert.ReferenceIdeal Cert.ReferenceIdeal.Hand

variable (W : Valuation τ sig (Elt Ideal))

set_option maxHeartbeats 1000000 in
/-- What the window's stretches leave, read at the buffers the later windows use. -/
theorem step12 (R : Valuation τ sig (Elt Ideal))
    (hR : R = after hostOps0_85 (after hostOps0_84 (after hostOps0_83 (after hostOps0_82 (after hostOps0_81 (after hostOps0_80 (after hostOps0_79 (after hostOps0_78 (W))))))))) :
    R (no_index (Proc.devRef .tc main_v123)) = Spec.stepH (W (Proc.devRef .tc main_v16)) (W (Proc.devRef .tc main_v113))
    ∧ R (no_index (Proc.devRef .tc main_v126)) = Spec.stepB (W (Proc.devRef .tc main_v18)) (W (Proc.devRef .tc main_v116))
    ∧ R (no_index (Proc.devRef .tc main_v127)) = Spec.idsSel (Spec.stepB (W (Proc.devRef .tc main_v18)) (W (Proc.devRef .tc main_v116))) (Spec.stepH (W (Proc.devRef .tc main_v16)) (W (Proc.devRef .tc main_v113))) := by
  subst hR
  simp only [hostOps0_78, hostOps0_79, hostOps0_80, hostOps0_81, hostOps0_82, hostOps0_83, hostOps0_84, hostOps0_85]
  refine ⟨?_, ?_, ?_⟩ <;> after_results_simp <;> rfl

end Cert.ReferenceIdeal.HandHost

end
-- ==== Proof.R.HostStep13.lean ====
import proofs.«175239_j73718818668652_1_alg».proof.Proof.R.Ops0a
import proofs.«175239_j73718818668652_1_alg».proof.Proof.R.Ops0b
import Idealize.ShloMosaic.PureOps.Ideal
import Idealize.ShloMosaic.Lib.StableHlo.Run
import proofs.«175239_j73718818668652_1_alg».proof.Proof.Spec.Ids

set_option maxRecDepth 16384

noncomputable section

namespace Cert.ReferenceIdeal.HandHost

open Idealize.ShloMosaic Idealize.ShloMosaic.TcCoe Idealize.ShloMosaic.StableHlo
open Idealize.SL Idealize.SL.Sem
open Cert.ReferenceIdeal Cert.ReferenceIdeal.Hand

variable (W : Valuation τ sig (Elt Ideal))

set_option maxHeartbeats 1000000 in
/-- What the window's stretches leave, read at the buffers the later windows use. -/
theorem step13 (R : Valuation τ sig (Elt Ideal))
    (hR : R = after hostOps0_93 (after hostOps0_92 (after hostOps0_91 (after hostOps0_90 (after hostOps0_89 (after hostOps0_88 (after hostOps0_87 (after hostOps0_86 (W))))))))) :
    R (no_index (Proc.devRef .tc main_v133)) = Spec.stepH (W (Proc.devRef .tc main_v16)) (W (Proc.devRef .tc main_v123))
    ∧ R (no_index (Proc.devRef .tc main_v136)) = Spec.stepB (W (Proc.devRef .tc main_v18)) (W (Proc.devRef .tc main_v126))
    ∧ R (no_index (Proc.devRef .tc main_v137)) = Spec.idsSel (Spec.stepB (W (Proc.devRef .tc main_v18)) (W (Proc.devRef .tc main_v126))) (Spec.stepH (W (Proc.devRef .tc main_v16)) (W (Proc.devRef .tc main_v123))) := by
  subst hR
  simp only [hostOps0_86, hostOps0_87, hostOps0_88, hostOps0_89, hostOps0_90, hostOps0_91, hostOps0_92, hostOps0_93]
  refine ⟨?_, ?_, ?_⟩ <;> after_results_simp <;> rfl

end Cert.ReferenceIdeal.HandHost

end
-- ==== Proof.R.HostStep14.lean ====
import proofs.«175239_j73718818668652_1_alg».proof.Proof.R.Ops0a
import proofs.«175239_j73718818668652_1_alg».proof.Proof.R.Ops0b
import Idealize.ShloMosaic.PureOps.Ideal
import Idealize.ShloMosaic.Lib.StableHlo.Run
import proofs.«175239_j73718818668652_1_alg».proof.Proof.Spec.Ids

set_option maxRecDepth 16384

noncomputable section

namespace Cert.ReferenceIdeal.HandHost

open Idealize.ShloMosaic Idealize.ShloMosaic.TcCoe Idealize.ShloMosaic.StableHlo
open Idealize.SL Idealize.SL.Sem
open Cert.ReferenceIdeal Cert.ReferenceIdeal.Hand

variable (W : Valuation τ sig (Elt Ideal))

set_option maxHeartbeats 1000000 in
/-- What the window's stretches leave, read at the buffers the later windows use. -/
theorem step14 (R : Valuation τ sig (Elt Ideal))
    (hR : R = after hostOps0_101 (after hostOps0_100 (after hostOps0_99 (after hostOps0_98 (after hostOps0_97 (after hostOps0_96 (after hostOps0_95 (after hostOps0_94 (W))))))))) :
    R (no_index (Proc.devRef .tc main_v143)) = Spec.stepH (W (Proc.devRef .tc main_v16)) (W (Proc.devRef .tc main_v133))
    ∧ R (no_index (Proc.devRef .tc main_v146)) = Spec.stepB (W (Proc.devRef .tc main_v18)) (W (Proc.devRef .tc main_v136))
    ∧ R (no_index (Proc.devRef .tc main_v147)) = Spec.idsSel (Spec.stepB (W (Proc.devRef .tc main_v18)) (W (Proc.devRef .tc main_v136))) (Spec.stepH (W (Proc.devRef .tc main_v16)) (W (Proc.devRef .tc main_v133))) := by
  subst hR
  simp only [hostOps0_94, hostOps0_95, hostOps0_96, hostOps0_97, hostOps0_98, hostOps0_99, hostOps0_100, hostOps0_101]
  refine ⟨?_, ?_, ?_⟩ <;> after_results_simp <;> rfl

end Cert.ReferenceIdeal.HandHost

end
-- ==== Proof.R.HostStep15.lean ====
import proofs.«175239_j73718818668652_1_alg».proof.Proof.R.Ops0a
import proofs.«175239_j73718818668652_1_alg».proof.Proof.R.Ops0b
import Idealize.ShloMosaic.PureOps.Ideal
import Idealize.ShloMosaic.Lib.StableHlo.Run
import proofs.«175239_j73718818668652_1_alg».proof.Proof.Spec.Ids

set_option maxRecDepth 16384

noncomputable section

namespace Cert.ReferenceIdeal.HandHost

open Idealize.ShloMosaic Idealize.ShloMosaic.TcCoe Idealize.ShloMosaic.StableHlo
open Idealize.SL Idealize.SL.Sem
open Cert.ReferenceIdeal Cert.ReferenceIdeal.Hand

variable (W : Valuation τ sig (Elt Ideal))

set_option maxHeartbeats 1000000 in
/-- What the window's stretches leave, read at the buffers the later windows use. -/
theorem step15 (R : Valuation τ sig (Elt Ideal))
    (hR : R = after hostOps0_109 (after hostOps0_108 (after hostOps0_107 (after hostOps0_106 (after hostOps0_105 (after hostOps0_104 (after hostOps0_103 (after hostOps0_102 (W))))))))) :
    R (no_index (Proc.devRef .tc main_v153)) = Spec.stepH (W (Proc.devRef .tc main_v16)) (W (Proc.devRef .tc main_v143))
    ∧ R (no_index (Proc.devRef .tc main_v156)) = Spec.stepB (W (Proc.devRef .tc main_v18)) (W (Proc.devRef .tc main_v146))
    ∧ R (no_index (Proc.devRef .tc main_v157)) = Spec.idsSel (Spec.stepB (W (Proc.devRef .tc main_v18)) (W (Proc.devRef .tc main_v146))) (Spec.stepH (W (Proc.devRef .tc main_v16)) (W (Proc.devRef .tc main_v143))) := by
  subst hR
  simp only [hostOps0_102, hostOps0_103, hostOps0_104, hostOps0_105, hostOps0_106, hostOps0_107, hostOps0_108, hostOps0_109]
  refine ⟨?_, ?_, ?_⟩ <;> after_results_simp <;> rfl

end Cert.ReferenceIdeal.HandHost

end
-- ==== Proof.R.HostStep16.lean ====
import proofs.«175239_j73718818668652_1_alg».proof.Proof.R.Ops0a
import proofs.«175239_j73718818668652_1_alg».proof.Proof.R.Ops0b
import Idealize.ShloMosaic.PureOps.Ideal
import Idealize.ShloMosaic.Lib.StableHlo.Run
import proofs.«175239_j73718818668652_1_alg».proof.Proof.Spec.Ids

set_option maxRecDepth 16384

noncomputable section

namespace Cert.ReferenceIdeal.HandHost

open Idealize.ShloMosaic Idealize.ShloMosaic.TcCoe Idealize.ShloMosaic.StableHlo
open Idealize.SL Idealize.SL.Sem
open Cert.ReferenceIdeal Cert.ReferenceIdeal.Hand

variable (W : Valuation τ sig (Elt Ideal))

set_option maxHeartbeats 1000000 in
/-- What the window's stretches leave, read at the buffers the later windows use. -/
theorem step16 (R : Valuation τ sig (Elt Ideal))
    (hR : R = after hostOps0_117 (after hostOps0_116 (after hostOps0_115 (after hostOps0_114 (after hostOps0_113 (after hostOps0_112 (after hostOps0_111 (after hostOps0_110 (W))))))))) :
    R (no_index (Proc.devRef .tc main_v163)) = Spec.stepH (W (Proc.devRef .tc main_v16)) (W (Proc.devRef .tc main_v153))
    ∧ R (no_index (Proc.devRef .tc main_v166)) = Spec.stepB (W (Proc.devRef .tc main_v18)) (W (Proc.devRef .tc main_v156))
    ∧ R (no_index (Proc.devRef .tc main_v167)) = Spec.idsSel (Spec.stepB (W (Proc.devRef .tc main_v18)) (W (Proc.devRef .tc main_v156))) (Spec.stepH (W (Proc.devRef .tc main_v16)) (W (Proc.devRef .tc main_v153))) := by
  subst hR
  simp only [hostOps0_110, hostOps0_111, hostOps0_112, hostOps0_113, hostOps0_114, hostOps0_115, hostOps0_116, hostOps0_117]
  refine ⟨?_, ?_, ?_⟩ <;> after_results_simp <;> rfl

end Cert.ReferenceIdeal.HandHost

end
-- ==== Proof.R.HostStep17.lean ====
import proofs.«175239_j73718818668652_1_alg».proof.Proof.R.Ops0a
import proofs.«175239_j73718818668652_1_alg».proof.Proof.R.Ops0b
import Idealize.ShloMosaic.PureOps.Ideal
import Idealize.ShloMosaic.Lib.StableHlo.Run
import proofs.«175239_j73718818668652_1_alg».proof.Proof.Spec.Ids

set_option maxRecDepth 16384

noncomputable section

namespace Cert.ReferenceIdeal.HandHost

open Idealize.ShloMosaic Idealize.ShloMosaic.TcCoe Idealize.ShloMosaic.StableHlo
open Idealize.SL Idealize.SL.Sem
open Cert.ReferenceIdeal Cert.ReferenceIdeal.Hand

variable (W : Valuation τ sig (Elt Ideal))

set_option maxHeartbeats 1000000 in
/-- What the window's stretches leave, read at the buffers the later windows use. -/
theorem step17 (R : Valuation τ sig (Elt Ideal))
    (hR : R = after hostOps0_125 (after hostOps0_124 (after hostOps0_123 (after hostOps0_122 (after hostOps0_121 (after hostOps0_120 (after hostOps0_119 (after hostOps0_118 (W))))))))) :
    R (no_index (Proc.devRef .tc main_v173)) = Spec.stepH (W (Proc.devRef .tc main_v16)) (W (Proc.devRef .tc main_v163))
    ∧ R (no_index (Proc.devRef .tc main_v176)) = Spec.stepB (W (Proc.devRef .tc main_v18)) (W (Proc.devRef .tc main_v166))
    ∧ R (no_index (Proc.devRef .tc main_v177)) = Spec.idsSel (Spec.stepB (W (Proc.devRef .tc main_v18)) (W (Proc.devRef .tc main_v166))) (Spec.stepH (W (Proc.devRef .tc main_v16)) (W (Proc.devRef .tc main_v163))) := by
  subst hR
  simp only [hostOps0_118, hostOps0_119, hostOps0_120, hostOps0_121, hostOps0_122, hostOps0_123, hostOps0_124, hostOps0_125]
  refine ⟨?_, ?_, ?_⟩ <;> after_results_simp <;> rfl

end Cert.ReferenceIdeal.HandHost

end
-- ==== Proof.R.HostStep18.lean ====
import proofs.«175239_j73718818668652_1_alg».proof.Proof.R.Ops0a
import proofs.«175239_j73718818668652_1_alg».proof.Proof.R.Ops0b
import Idealize.ShloMosaic.PureOps.Ideal
import Idealize.ShloMosaic.Lib.StableHlo.Run
import proofs.«175239_j73718818668652_1_alg».proof.Proof.Spec.Ids

set_option maxRecDepth 16384

noncomputable section

namespace Cert.ReferenceIdeal.HandHost

open Idealize.ShloMosaic Idealize.ShloMosaic.TcCoe Idealize.ShloMosaic.StableHlo
open Idealize.SL Idealize.SL.Sem
open Cert.ReferenceIdeal Cert.ReferenceIdeal.Hand

variable (W : Valuation τ sig (Elt Ideal))

set_option maxHeartbeats 1000000 in
/-- What the window's stretches leave, read at the buffers the later windows use. -/
theorem step18 (R : Valuation τ sig (Elt Ideal))
    (hR : R = after hostOps0_133 (after hostOps0_132 (after hostOps0_131 (after hostOps0_130 (after hostOps0_129 (after hostOps0_128 (after hostOps0_127 (after hostOps0_126 (W))))))))) :
    R (no_index (Proc.devRef .tc main_v183)) = Spec.stepH (W (Proc.devRef .tc main_v16)) (W (Proc.devRef .tc main_v173))
    ∧ R (no_index (Proc.devRef .tc main_v186)) = Spec.stepB (W (Proc.devRef .tc main_v18)) (W (Proc.devRef .tc main_v176))
    ∧ R (no_index (Proc.devRef .tc main_v187)) = Spec.idsSel (Spec.stepB (W (Proc.devRef .tc main_v18)) (W (Proc.devRef .tc main_v176))) (Spec.stepH (W (Proc.devRef .tc main_v16)) (W (Proc.devRef .tc main_v173))) := by
  subst hR
  simp only [hostOps0_126, hostOps0_127, hostOps0_128, hostOps0_129, hostOps0_130, hostOps0_131, hostOps0_132, hostOps0_133]
  refine ⟨?_, ?_, ?_⟩ <;> after_results_simp <;> rfl

end Cert.ReferenceIdeal.HandHost

end
-- ==== Proof.R.HostStep19.lean ====
import proofs.«175239_j73718818668652_1_alg».proof.Proof.R.Ops0a
import proofs.«175239_j73718818668652_1_alg».proof.Proof.R.Ops0b
import Idealize.ShloMosaic.PureOps.Ideal
import Idealize.ShloMosaic.Lib.StableHlo.Run
import proofs.«175239_j73718818668652_1_alg».proof.Proof.Spec.Ids

set_option maxRecDepth 16384

noncomputable section

namespace Cert.ReferenceIdeal.HandHost

open Idealize.ShloMosaic Idealize.ShloMosaic.TcCoe Idealize.ShloMosaic.StableHlo
open Idealize.SL Idealize.SL.Sem
open Cert.ReferenceIdeal Cert.ReferenceIdeal.Hand

variable (W : Valuation τ sig (Elt Ideal))

set_option maxHeartbeats 1000000 in
/-- What the window's stretches leave, read at the buffers the later windows use. -/
theorem step19 (R : Valuation τ sig (Elt Ideal))
    (hR : R = after hostOps0_141 (after hostOps0_140 (after hostOps0_139 (after hostOps0_138 (after hostOps0_137 (after hostOps0_136 (after hostOps0_135 (after hostOps0_134 (W))))))))) :
    R (no_index (Proc.devRef .tc main_v193)) = Spec.stepH (W (Proc.devRef .tc main_v16)) (W (Proc.devRef .tc main_v183))
    ∧ R (no_index (Proc.devRef .tc main_v196)) = Spec.stepB (W (Proc.devRef .tc main_v18)) (W (Proc.devRef .tc main_v186))
    ∧ R (no_index (Proc.devRef .tc main_v197)) = Spec.idsSel (Spec.stepB (W (Proc.devRef .tc main_v18)) (W (Proc.devRef .tc main_v186))) (Spec.stepH (W (Proc.devRef .tc main_v16)) (W (Proc.devRef .tc main_v183))) := by
  subst hR
  simp only [hostOps0_134, hostOps0_135, hostOps0_136, hostOps0_137, hostOps0_138, hostOps0_139, hostOps0_140, hostOps0_141]
  refine ⟨?_, ?_, ?_⟩ <;> after_results_simp <;> rfl

end Cert.ReferenceIdeal.HandHost

end
-- ==== Proof.R.HostStep20.lean ====
import proofs.«175239_j73718818668652_1_alg».proof.Proof.R.Ops0a
import proofs.«175239_j73718818668652_1_alg».proof.Proof.R.Ops0b
import Idealize.ShloMosaic.PureOps.Ideal
import Idealize.ShloMosaic.Lib.StableHlo.Run
import proofs.«175239_j73718818668652_1_alg».proof.Proof.Spec.Ids

set_option maxRecDepth 16384

noncomputable section

namespace Cert.ReferenceIdeal.HandHost

open Idealize.ShloMosaic Idealize.ShloMosaic.TcCoe Idealize.ShloMosaic.StableHlo
open Idealize.SL Idealize.SL.Sem
open Cert.ReferenceIdeal Cert.ReferenceIdeal.Hand

variable (W : Valuation τ sig (Elt Ideal))

set_option maxHeartbeats 1000000 in
/-- What the window's stretches leave, read at the buffers the later windows use. -/
theorem step20 (R : Valuation τ sig (Elt Ideal))
    (hR : R = after hostOps0_149 (after hostOps0_148 (after hostOps0_147 (after hostOps0_146 (after hostOps0_145 (after hostOps0_144 (after hostOps0_143 (after hostOps0_142 (W))))))))) :
    R (no_index (Proc.devRef .tc main_v203)) = Spec.stepH (W (Proc.devRef .tc main_v16)) (W (Proc.devRef .tc main_v193))
    ∧ R (no_index (Proc.devRef .tc main_v206)) = Spec.stepB (W (Proc.devRef .tc main_v18)) (W (Proc.devRef .tc main_v196))
    ∧ R (no_index (Proc.devRef .tc main_v207)) = Spec.idsSel (Spec.stepB (W (Proc.devRef .tc main_v18)) (W (Proc.devRef .tc main_v196))) (Spec.stepH (W (Proc.devRef .tc main_v16)) (W (Proc.devRef .tc main_v193))) := by
  subst hR
  simp only [hostOps0_142, hostOps0_143, hostOps0_144, hostOps0_145, hostOps0_146, hostOps0_147, hostOps0_148, hostOps0_149]
  refine ⟨?_, ?_, ?_⟩ <;> after_results_simp <;> rfl

end Cert.ReferenceIdeal.HandHost

end
-- ==== Proof.R.HostRec.lean ====
import proofs.«175239_j73718818668652_1_alg».proof.Proof.R.HostArgs
import proofs.«175239_j73718818668652_1_alg».proof.Proof.R.HostStepA
import proofs.«175239_j73718818668652_1_alg».proof.Proof.R.HostStep02
import proofs.«175239_j73718818668652_1_alg».proof.Proof.R.HostStep03
import proofs.«175239_j73718818668652_1_alg».proof.Proof.R.HostStep04
import proofs.«175239_j73718818668652_1_alg».proof.Proof.R.HostStep05
import proofs.«175239_j73718818668652_1_alg».proof.Proof.R.HostStep06
import proofs.«175239_j73718818668652_1_alg».proof.Proof.R.HostStep07
import proofs.«175239_j73718818668652_1_alg».proof.Proof.R.HostStep08
import proofs.«175239_j73718818668652_1_alg».proof.Proof.R.HostStep09
import proofs.«175239_j73718818668652_1_alg».proof.Proof.R.HostStep10
import proofs.«175239_j73718818668652_1_alg».proof.Proof.R.HostStep11
import proofs.«175239_j73718818668652_1_alg».proof.Proof.R.HostStep12
import proofs.«175239_j73718818668652_1_alg».proof.Proof.R.HostStep13
import proofs.«175239_j73718818668652_1_alg».proof.Proof.R.HostStep14
import proofs.«175239_j73718818668652_1_alg».proof.Proof.R.HostStep15
import proofs.«175239_j73718818668652_1_alg».proof.Proof.R.HostStep16
import proofs.«175239_j73718818668652_1_alg».proof.Proof.R.HostStep17
import proofs.«175239_j73718818668652_1_alg».proof.Proof.R.HostStep18
import proofs.«175239_j73718818668652_1_alg».proof.Proof.R.HostStep19
import proofs.«175239_j73718818668652_1_alg».proof.Proof.R.HostStep20

set_option maxRecDepth 16384

noncomputable section

namespace Cert.ReferenceIdeal.HandHost

open Idealize.ShloMosaic Idealize.ShloMosaic.TcCoe Idealize.ShloMosaic.StableHlo
open Idealize.SL Idealize.SL.Sem
open Cert.ReferenceIdeal Cert.ReferenceIdeal.Hand Cert.ReferenceIdeal.Hand
open Cert.LibHostFold

variable (V0 : Valuation τ sig (Elt Ideal))

def val (n : ℕ) : Valuation τ sig (Elt Ideal) := valAt (stretches (F := Ideal)) V0 n

abbrev X : IVec Spec.S8x8192 32 := V0 (Proc.devRef .tc main_arg0)

theorem val_keep (n k : ℕ) (r : Ref sig .tc) (hr : ∀ W ∈ (Ws.drop n).take k, r ∉ W) :
    val V0 (n + k) (Proc.devRef .tc r) = val V0 n (Proc.devRef .tc r) :=
  valAt_keep (stretches (F := Ideal)) Ws Ws_ok V0 n k r hr

theorem val_end : val V0 170 = after (List.flatten (stretches (F := Ideal))) V0 :=
  valAt_of_length_le _ V0 170 (by decide)

theorem val1_safe : val V0 1 (no_index (Proc.devRef .tc main_v16)) = Spec.safe (X V0) :=
  (stepA (val V0 0) _ (valAt_succ _ V0 0 (by decide))).1
theorem val1_bad1 : val V0 1 (no_index (Proc.devRef .tc main_v18)) = Spec.bad1 (X V0) :=
  (stepA (val V0 0) _ (valAt_succ _ V0 0 (by decide))).2.1

theorem val_keep_from (n k : ℕ) (r : Ref sig .tc) (hr : ∀ W ∈ Ws.drop n, r ∉ W) :
    val V0 (n + k) (Proc.devRef .tc r) = val V0 n (Proc.devRef .tc r) :=
  val_keep V0 n k r fun W hW => hr W (List.mem_of_mem_take hW)

/-- Only the first stretch writes the codes, so every later state holds them. -/
theorem val_safe (n : ℕ) (h : 1 ≤ n := by decide) : val V0 n (no_index (Proc.devRef .tc main_v16)) = Spec.safe (X V0) := by
  obtain ⟨k, rfl⟩ := Nat.exists_eq_add_of_le h
  exact (val_keep_from V0 1 k main_v16 (by decide)).trans (val1_safe V0)

/-- Likewise the codes' mask. -/
theorem val_bad1 (n : ℕ) (h : 1 ≤ n := by decide) : val V0 n (no_index (Proc.devRef .tc main_v18)) = Spec.bad1 (X V0) := by
  obtain ⟨k, rfl⟩ := Nat.exists_eq_add_of_le h
  exact (val_keep_from V0 1 k main_v18 (by decide)).trans (val1_bad1 V0)

theorem val1_cut : val V0 1 (no_index (Proc.devRef .tc main_v19)) = cutLast (Spec.safe (X V0)) :=
  (stepA (val V0 0) _ (valAt_succ _ V0 0 (by decide))).2.2.1
theorem val1_zero : val V0 1 (no_index (Proc.devRef .tc main_c_8)) = constantI Spec.S_ 32 0#32 :=
  (stepA (val V0 0) _ (valAt_succ _ V0 0 (by decide))).2.2.2

theorem val6_H : val V0 6 (no_index (Proc.devRef .tc main_v24)) = Spec.H 2 (X V0) :=
  ((step2 (val V0 1) _ (valAt_add _ V0 1 5)).1).trans (by rw [val1_zero V0, val1_cut V0, val1_safe V0]; rfl)
theorem val6_Bshift : val V0 6 (no_index (Proc.devRef .tc main_v26)) = Spec.shift (constantI Spec.S_ 1 1#1) (Spec.bad1 (X V0)) :=
  ((step2 (val V0 1) _ (valAt_add _ V0 1 5)).2).trans (by rw [val1_bad1 V0])

theorem val14_H : val V0 14 (no_index (Proc.devRef .tc main_v33)) = Spec.H 3 (X V0) :=
  ((step3 (val V0 6) _ (valAt_add _ V0 6 8)).1).trans (by rw [val_safe V0 6, val6_H V0]; rfl)
theorem val14_B : val V0 14 (no_index (Proc.devRef .tc main_v36)) = Spec.B 3 (X V0) :=
  ((step3 (val V0 6) _ (valAt_add _ V0 6 8)).2.1).trans (by rw [val_bad1 V0 6, val6_Bshift V0]; rfl)
theorem val14_ids : val V0 14 (no_index (Proc.devRef .tc main_v37)) = Spec.ids 3 (X V0) :=
  ((step3 (val V0 6) _ (valAt_add _ V0 6 8)).2.2).trans (by rw [val_safe V0 6, val_bad1 V0 6, val6_H V0, val6_Bshift V0]; rfl)

theorem val22_H : val V0 22 (no_index (Proc.devRef .tc main_v43)) = Spec.H 4 (X V0) :=
  ((step4 (val V0 14) _ (valAt_add _ V0 14 8)).1).trans (by rw [val_safe V0 14, val14_H V0]; rfl)
theorem val22_B : val V0 22 (no_index (Proc.devRef .tc main_v46)) = Spec.B 4 (X V0) :=
  ((step4 (val V0 14) _ (valAt_add _ V0 14 8)).2.1).trans (by rw [val_bad1 V0 14, val14_B V0]; rfl)
theorem val22_ids : val V0 22 (no_index (Proc.devRef .tc main_v47)) = Spec.ids 4 (X V0) :=
  ((step4 (val V0 14) _ (valAt_add _ V0 14 8)).2.2).trans (by rw [val_safe V0 14, val_bad1 V0 14, val14_H V0, val14_B V0]; rfl)

theorem val30_H : val V0 30 (no_index (Proc.devRef .tc main_v53)) = Spec.H 5 (X V0) :=
  ((step5 (val V0 22) _ (valAt_add _ V0 22 8)).1).trans (by rw [val_safe V0 22, val22_H V0]; rfl)
theorem val30_B : val V0 30 (no_index (Proc.devRef .tc main_v56)) = Spec.B 5 (X V0) :=
  ((step5 (val V0 22) _ (valAt_add _ V0 22 8)).2.1).trans (by rw [val_bad1 V0 22, val22_B V0]; rfl)
theorem val30_ids : val V0 30 (no_index (Proc.devRef .tc main_v57)) = Spec.ids 5 (X V0) :=
  ((step5 (val V0 22) _ (valAt_add _ V0 22 8)).2.2).trans (by rw [val_safe V0 22, val_bad1 V0 22, val22_H V0, val22_B V0]; rfl)

theorem val38_H : val V0 38 (no_index (Proc.devRef .tc main_v63)) = Spec.H 6 (X V0) :=
  ((step6 (val V0 30) _ (valAt_add _ V0 30 8)).1).trans (by rw [val_safe V0 30, val30_H V0]; rfl)
theorem val38_B : val V0 38 (no_index (Proc.devRef .tc main_v66)) = Spec.B 6 (X V0) :=
  ((step6 (val V0 30) _ (valAt_add _ V0 30 8)).2.1).trans (by rw [val_bad1 V0 30, val30_B V0]; rfl)
theorem val38_ids : val V0 38 (no_index (Proc.devRef .tc main_v67)) = Spec.ids 6 (X V0) :=
  ((step6 (val V0 30) _ (valAt_add _ V0 30 8)).2.2).trans (by rw [val_safe V0 30, val_bad1 V0 30, val30_H V0, val30_B V0]; rfl)

theorem val46_H : val V0 46 (no_index (Proc.devRef .tc main_v73)) = Spec.H 7 (X V0) :=
  ((step7 (val V0 38) _ (valAt_add _ V0 38 8)).1).trans (by rw [val_safe V0 38, val38_H V0]; rfl)
theorem val46_B : val V0 46 (no_index (Proc.devRef .tc main_v76)) = Spec.B 7 (X V0) :=
  ((step7 (val V0 38) _ (valAt_add _ V0 38 8)).2.1).trans (by rw [val_bad1 V0 38, val38_B V0]; rfl)
theorem val46_ids : val V0 46 (no_index (Proc.devRef .tc main_v77)) = Spec.ids 7 (X V0) :=
  ((step7 (val V0 38) _ (valAt_add _ V0 38 8)).2.2).trans (by rw [val_safe V0 38, val_bad1 V0 38, val38_H V0, val38_B V0]; rfl)

theorem val54_H : val V0 54 (no_index (Proc.devRef .tc main_v83)) = Spec.H 8 (X V0) :=
  ((step8 (val V0 46) _ (valAt_add _ V0 46 8)).1).trans (by rw [val_safe V0 46, val46_H V0]; rfl)
theorem val54_B : val V0 54 (no_index (Proc.devRef .tc main_v86)) = Spec.B 8 (X V0) :=
  ((step8 (val V0 46) _ (valAt_add _ V0 46 8)).2.1).trans (by rw [val_bad1 V0 46, val46_B V0]; rfl)
theorem val54_ids : val V0 54 (no_index (Proc.devRef .tc main_v87)) = Spec.ids 8 (X V0) :=
  ((step8 (val V0 46) _ (valAt_add _ V0 46 8)).2.2).trans (by rw [val_safe V0 46, val_bad1 V0 46, val46_H V0, val46_B V0]; rfl)

theorem val62_H : val V0 62 (no_index (Proc.devRef .tc main_v93)) = Spec.H 9 (X V0) :=
  ((step9 (val V0 54) _ (valAt_add _ V0 54 8)).1).trans (by rw [val_safe V0 54, val54_H V0]; rfl)
theorem val62_B : val V0 62 (no_index (Proc.devRef .tc main_v96)) = Spec.B 9 (X V0) :=
  ((step9 (val V0 54) _ (valAt_add _ V0 54 8)).2.1).trans (by rw [val_bad1 V0 54, val54_B V0]; rfl)
theorem val62_ids : val V0 62 (no_index (Proc.devRef .tc main_v97)) = Spec.ids 9 (X V0) :=
  ((step9 (val V0 54) _ (valAt_add _ V0 54 8)).2.2).trans (by rw [val_safe V0 54, val_bad1 V0 54, val54_H V0, val54_B V0]; rfl)

theorem val70_H : val V0 70 (no_index (Proc.devRef .tc main_v103)) = Spec.H 10 (X V0) :=
  ((step10 (val V0 62) _ (valAt_add _ V0 62 8)).1).trans (by rw [val_safe V0 62, val62_H V0]; rfl)
theorem val70_B : val V0 70 (no_index (Proc.devRef .tc main_v106)) = Spec.B 10 (X V0) :=
  ((step10 (val V0 62) _ (valAt_add _ V0 62 8)).2.1).trans (by rw [val_bad1 V0 62, val62_B V0]; rfl)
theorem val70_ids : val V0 70 (no_index (Proc.devRef .tc main_v107)) = Spec.ids 10 (X V0) :=
  ((step10 (val V0 62) _ (valAt_add _ V0 62 8)).2.2).trans (by rw [val_safe V0 62, val_bad1 V0 62, val62_H V0, val62_B V0]; rfl)

theorem val78_H : val V0 78 (no_index (Proc.devRef .tc main_v113)) = Spec.H 11 (X V0) :=
  ((step11 (val V0 70) _ (valAt_add _ V0 70 8)).1).trans (by rw [val_safe V0 70, val70_H V0]; rfl)
theorem val78_B : val V0 78 (no_index (Proc.devRef .tc main_v116)) = Spec.B 11 (X V0) :=
  ((step11 (val V0 70) _ (valAt_add _ V0 70 8)).2.1).trans (by rw [val_bad1 V0 70, val70_B V0]; rfl)
theorem val78_ids : val V0 78 (no_index (Proc.devRef .tc main_v117)) = Spec.ids 11 (X V0) :=
  ((step11 (val V0 70) _ (valAt_add _ V0 70 8)).2.2).trans (by rw [val_safe V0 70, val_bad1 V0 70, val70_H V0, val70_B V0]; rfl)

theorem val86_H : val V0 86 (no_index (Proc.devRef .tc main_v123)) = Spec.H 12 (X V0) :=
  ((step12 (val V0 78) _ (valAt_add _ V0 78 8)).1).trans (by rw [val_safe V0 78, val78_H V0]; rfl)
theorem val86_B : val V0 86 (no_index (Proc.devRef .tc main_v126)) = Spec.B 12 (X V0) :=
  ((step12 (val V0 78) _ (valAt_add _ V0 78 8)).2.1).trans (by rw [val_bad1 V0 78, val78_B V0]; rfl)
theorem val86_ids : val V0 86 (no_index (Proc.devRef .tc main_v127)) = Spec.ids 12 (X V0) :=
  ((step12 (val V0 78) _ (valAt_add _ V0 78 8)).2.2).trans (by rw [val_safe V0 78, val_bad1 V0 78, val78_H V0, val78_B V0]; rfl)

theorem val94_H : val V0 94 (no_index (Proc.devRef .tc main_v133)) = Spec.H 13 (X V0) :=
  ((step13 (val V0 86) _ (valAt_add _ V0 86 8)).1).trans (by rw [val_safe V0 86, val86_H V0]; rfl)
theorem val94_B : val V0 94 (no_index (Proc.devRef .tc main_v136)) = Spec.B 13 (X V0) :=
  ((step13 (val V0 86) _ (valAt_add _ V0 86 8)).2.1).trans (by rw [val_bad1 V0 86, val86_B V0]; rfl)
theorem val94_ids : val V0 94 (no_index (Proc.devRef .tc main_v137)) = Spec.ids 13 (X V0) :=
  ((step13 (val V0 86) _ (valAt_add _ V0 86 8)).2.2).trans (by rw [val_safe V0 86, val_bad1 V0 86, val86_H V0, val86_B V0]; rfl)

theorem val102_H : val V0 102 (no_index (Proc.devRef .tc main_v143)) = Spec.H 14 (X V0) :=
  ((step14 (val V0 94) _ (valAt_add _ V0 94 8)).1).trans (by rw [val_safe V0 94, val94_H V0]; rfl)
theorem val102_B : val V0 102 (no_index (Proc.devRef .tc main_v146)) = Spec.B 14 (X V0) :=
  ((step14 (val V0 94) _ (valAt_add _ V0 94 8)).2.1).trans (by rw [val_bad1 V0 94, val94_B V0]; rfl)
theorem val102_ids : val V0 102 (no_index (Proc.devRef .tc main_v147)) = Spec.ids 14 (X V0) :=
  ((step14 (val V0 94) _ (valAt_add _ V0 94 8)).2.2).trans (by rw [val_safe V0 94, val_bad1 V0 94, val94_H V0, val94_B V0]; rfl)

theorem val110_H : val V0 110 (no_index (Proc.devRef .tc main_v153)) = Spec.H 15 (X V0) :=
  ((step15 (val V0 102) _ (valAt_add _ V0 102 8)).1).trans (by rw [val_safe V0 102, val102_H V0]; rfl)
theorem val110_B : val V0 110 (no_index (Proc.devRef .tc main_v156)) = Spec.B 15 (X V0) :=
  ((step15 (val V0 102) _ (valAt_add _ V0 102 8)).2.1).trans (by rw [val_bad1 V0 102, val102_B V0]; rfl)
theorem val110_ids : val V0 110 (no_index (Proc.devRef .tc main_v157)) = Spec.ids 15 (X V0) :=
  ((step15 (val V0 102) _ (valAt_add _ V0 102 8)).2.2).trans (by rw [val_safe V0 102, val_bad1 V0 102, val102_H V0, val102_B V0]; rfl)

theorem val118_H : val V0 118 (no_index (Proc.devRef .tc main_v163)) = Spec.H 16 (X V0) :=
  ((step16 (val V0 110) _ (valAt_add _ V0 110 8)).1).trans (by rw [val_safe V0 110, val110_H V0]; rfl)
theorem val118_B : val V0 118 (no_index (Proc.devRef .tc main_v166)) = Spec.B 16 (X V0) :=
  ((step16 (val V0 110) _ (valAt_add _ V0 110 8)).2.1).trans (by rw [val_bad1 V0 110, val110_B V0]; rfl)
theorem val118_ids : val V0 118 (no_index (Proc.devRef .tc main_v167)) = Spec.ids 16 (X V0) :=
  ((step16 (val V0 110) _ (valAt_add _ V0 110 8)).2.2).trans (by rw [val_safe V0 110, val_bad1 V0 110, val110_H V0, val110_B V0]; rfl)

theorem val126_H : val V0 126 (no_index (Proc.devRef .tc main_v173)) = Spec.H 17 (X V0) :=
  ((step17 (val V0 118) _ (valAt_add _ V0 118 8)).1).trans (by rw [val_safe V0 118, val118_H V0]; rfl)
theorem val126_B : val V0 126 (no_index (Proc.devRef .tc main_v176)) = Spec.B 17 (X V0) :=
  ((step17 (val V0 118) _ (valAt_add _ V0 118 8)).2.1).trans (by rw [val_bad1 V0 118, val118_B V0]; rfl)
theorem val126_ids : val V0 126 (no_index (Proc.devRef .tc main_v177)) = Spec.ids 17 (X V0) :=
  ((step17 (val V0 118) _ (valAt_add _ V0 118 8)).2.2).trans (by rw [val_safe V0 118, val_bad1 V0 118, val118_H V0, val118_B V0]; rfl)

theorem val134_H : val V0 134 (no_index (Proc.devRef .tc main_v183)) = Spec.H 18 (X V0) :=
  ((step18 (val V0 126) _ (valAt_add _ V0 126 8)).1).trans (by rw [val_safe V0 126, val126_H V0]; rfl)
theorem val134_B : val V0 134 (no_index (Proc.devRef .tc main_v186)) = Spec.B 18 (X V0) :=
  ((step18 (val V0 126) _ (valAt_add _ V0 126 8)).2.1).trans (by rw [val_bad1 V0 126, val126_B V0]; rfl)
theorem val134_ids : val V0 134 (no_index (Proc.devRef .tc main_v187)) = Spec.ids 18 (X V0) :=
  ((step18 (val V0 126) _ (valAt_add _ V0 126 8)).2.2).trans (by rw [val_safe V0 126, val_bad1 V0 126, val126_H V0, val126_B V0]; rfl)

theorem val142_H : val V0 142 (no_index (Proc.devRef .tc main_v193)) = Spec.H 19 (X V0) :=
  ((step19 (val V0 134) _ (valAt_add _ V0 134 8)).1).trans (by rw [val_safe V0 134, val134_H V0]; rfl)
theorem val142_B : val V0 142 (no_index (Proc.devRef .tc main_v196)) = Spec.B 19 (X V0) :=
  ((step19 (val V0 134) _ (valAt_add _ V0 134 8)).2.1).trans (by rw [val_bad1 V0 134, val134_B V0]; rfl)
theorem val142_ids : val V0 142 (no_index (Proc.devRef .tc main_v197)) = Spec.ids 19 (X V0) :=
  ((step19 (val V0 134) _ (valAt_add _ V0 134 8)).2.2).trans (by rw [val_safe V0 134, val_bad1 V0 134, val134_H V0, val134_B V0]; rfl)

theorem val150_H : val V0 150 (no_index (Proc.devRef .tc main_v203)) = Spec.H 20 (X V0) :=
  ((step20 (val V0 142) _ (valAt_add _ V0 142 8)).1).trans (by rw [val_safe V0 142, val142_H V0]; rfl)
theorem val150_B : val V0 150 (no_index (Proc.devRef .tc main_v206)) = Spec.B 20 (X V0) :=
  ((step20 (val V0 142) _ (valAt_add _ V0 142 8)).2.1).trans (by rw [val_bad1 V0 142, val142_B V0]; rfl)
theorem val150_ids : val V0 150 (no_index (Proc.devRef .tc main_v207)) = Spec.ids 20 (X V0) :=
  ((step20 (val V0 142) _ (valAt_add _ V0 142 8)).2.2).trans (by rw [val_safe V0 142, val_bad1 V0 142, val142_H V0, val142_B V0]; rfl)

theorem val150_ids3 : val V0 150 (no_index (Proc.devRef .tc main_v37)) = Spec.ids 3 (X V0) :=
  (val_keep V0 14 136 main_v37 (by decide)).trans (val14_ids V0)

theorem val150_ids4 : val V0 150 (no_index (Proc.devRef .tc main_v47)) = Spec.ids 4 (X V0) :=
  (val_keep V0 22 128 main_v47 (by decide)).trans (val22_ids V0)

theorem val150_ids5 : val V0 150 (no_index (Proc.devRef .tc main_v57)) = Spec.ids 5 (X V0) :=
  (val_keep V0 30 120 main_v57 (by decide)).trans (val30_ids V0)

theorem val150_ids6 : val V0 150 (no_index (Proc.devRef .tc main_v67)) = Spec.ids 6 (X V0) :=
  (val_keep V0 38 112 main_v67 (by decide)).trans (val38_ids V0)

theorem val150_ids7 : val V0 150 (no_index (Proc.devRef .tc main_v77)) = Spec.ids 7 (X V0) :=
  (val_keep V0 46 104 main_v77 (by decide)).trans (val46_ids V0)

theorem val150_ids8 : val V0 150 (no_index (Proc.devRef .tc main_v87)) = Spec.ids 8 (X V0) :=
  (val_keep V0 54 96 main_v87 (by decide)).trans (val54_ids V0)

theorem val150_ids9 : val V0 150 (no_index (Proc.devRef .tc main_v97)) = Spec.ids 9 (X V0) :=
  (val_keep V0 62 88 main_v97 (by decide)).trans (val62_ids V0)

theorem val150_ids10 : val V0 150 (no_index (Proc.devRef .tc main_v107)) = Spec.ids 10 (X V0) :=
  (val_keep V0 70 80 main_v107 (by decide)).trans (val70_ids V0)

theorem val150_ids11 : val V0 150 (no_index (Proc.devRef .tc main_v117)) = Spec.ids 11 (X V0) :=
  (val_keep V0 78 72 main_v117 (by decide)).trans (val78_ids V0)

theorem val150_ids12 : val V0 150 (no_index (Proc.devRef .tc main_v127)) = Spec.ids 12 (X V0) :=
  (val_keep V0 86 64 main_v127 (by decide)).trans (val86_ids V0)

theorem val150_ids13 : val V0 150 (no_index (Proc.devRef .tc main_v137)) = Spec.ids 13 (X V0) :=
  (val_keep V0 94 56 main_v137 (by decide)).trans (val94_ids V0)

theorem val150_ids14 : val V0 150 (no_index (Proc.devRef .tc main_v147)) = Spec.ids 14 (X V0) :=
  (val_keep V0 102 48 main_v147 (by decide)).trans (val102_ids V0)

theorem val150_ids15 : val V0 150 (no_index (Proc.devRef .tc main_v157)) = Spec.ids 15 (X V0) :=
  (val_keep V0 110 40 main_v157 (by decide)).trans (val110_ids V0)

theorem val150_ids16 : val V0 150 (no_index (Proc.devRef .tc main_v167)) = Spec.ids 16 (X V0) :=
  (val_keep V0 118 32 main_v167 (by decide)).trans (val118_ids V0)

theorem val150_ids17 : val V0 150 (no_index (Proc.devRef .tc main_v177)) = Spec.ids 17 (X V0) :=
  (val_keep V0 126 24 main_v177 (by decide)).trans (val126_ids V0)

theorem val150_ids18 : val V0 150 (no_index (Proc.devRef .tc main_v187)) = Spec.ids 18 (X V0) :=
  (val_keep V0 134 16 main_v187 (by decide)).trans (val134_ids V0)

theorem val150_ids19 : val V0 150 (no_index (Proc.devRef .tc main_v197)) = Spec.ids 19 (X V0) :=
  (val_keep V0 142 8 main_v197 (by decide)).trans (val142_ids V0)

theorem val150_ids20 : val V0 150 (no_index (Proc.devRef .tc main_v207)) = Spec.ids 20 (X V0) :=
  val150_ids V0

theorem val150_arg1 : val V0 150 (Proc.devRef .tc main_arg1) = V0 (Proc.devRef .tc main_arg1) :=
  val_keep V0 0 150 main_arg1 (by decide)

theorem val150_arg0 : val V0 150 (Proc.devRef .tc main_arg0) = V0 (Proc.devRef .tc main_arg0) :=
  val_keep V0 0 150 main_arg0 (by decide)

end Cert.ReferenceIdeal.HandHost

end
-- ==== Proof.R.TailPure.lean ====
import Idealize.ShloMosaic.Lib.ValueLayout
import Idealize.ShloMosaic.Lib.IdealHost
import Mathlib.Algebra.BigOperators.Fin

noncomputable section

open scoped BigOperators

namespace Cert.RTail

open Idealize.ShloMosaic Idealize.ShloMosaic.ValueIdx

variable {α : Type}

abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

theorem gather_row_apply {N D R C w : Nat}
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (b : Fin R) (l : Fin C) (d : Fin D)
    (r : Fin N) (hr : r.val = min (idx (ix3 b l (0 : Fin 1))).toInt.toNat (N - 1)) :
    Host.gather (rowDims N D R C wf) x idx (ix3 b l d) = x (ix2 r d) := by
  unfold Host.gather
  refine congrArg x (funext fun a => ?_)
  match a with
  | ⟨0, _⟩ =>
    refine Fin.ext ?_
    show (rowDims N D R C wf).start (ix3 b l d) idx 0 + (rowDims N D R C wf).batchCoord (ix3 b l d) 0
      + (rowDims N D R C wf).offCoord (ix3 b l d) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R C wf).startIndexMap from List.mem_singleton.mpr rfl)]
    have hsi : (rowDims N D R C wf).siIdx (ix3 b l d) ⟨List.idxOf (0 : Fin 2) (rowDims N D R C wf).startIndexMap,
        List.idxOf_lt_length_iff.2 (List.mem_singleton.mpr rfl)⟩ = ix3 b l (0 : Fin 1) := by
      funext c; refine Fin.ext ?_
      match c with
      | ⟨0, _⟩ => rfl
      | ⟨1, _⟩ => rfl
      | ⟨2, _⟩ => rfl
    rw [hsi, hr]
    rfl
  | ⟨1, _⟩ =>
    refine Fin.ext ?_
    show (rowDims N D R C wf).start (ix3 b l d) idx 1 + (rowDims N D R C wf).batchCoord (ix3 b l d) 1
      + (rowDims N D R C wf).offCoord (ix3 b l d) 1 = d.val
    have hst : (rowDims N D R C wf).start (ix3 b l d) idx 1 = 0 := by
      unfold GatherDims.start
      exact dif_neg (show (1 : Fin 2) ∉ ([0] : List (Fin 2)) by decide)
    have hoff : (rowDims N D R C wf).offCoord (ix3 b l d) 1 = d.val := by
      unfold GatherDims.offCoord
      rw [dif_pos ((GatherDims.mem_sKept _ _).mpr
        ⟨show (1 : Fin 2) ∉ ([0] : List (Fin 2)) by decide, List.not_mem_nil⟩)]
      rfl
    rw [GatherDims.batchCoord_eq_zero _ _ _ List.not_mem_nil, hst, hoff, Nat.add_zero, Nat.zero_add]

theorem toInt_of_le {v : BitVec 32} (h : v.toNat ≤ 4096) : v.toInt = (v.toNat : Int) :=
  BitVec.toInt_eq_toNat_of_lt (by omega)

theorem cmpi_slt_zero_of_le {v : BitVec 32} (h : v.toNat ≤ 4096) : IntOp.cmpi .slt v 0#32 = 0#1 := by
  have hs : v.slt 0#32 = false := by
    rw [BitVec.slt_eq_decide, toInt_of_le h, BitVec.toInt_zero]
    exact decide_eq_false (by omega)
  show BitVec.ofBool (v.slt 0#32) = 0#1
  rw [hs]; rfl

theorem norm_apply {s : Shape} (w z p : IVec s 32) (i : s.Idx) (hz : z i = 0#32) (hw : (w i).toNat ≤ 4096) :
    select (cmpi .slt w z) (addi w p) w i = w i := by
  show Scalar.select (IntOp.cmpi .slt (w i) (z i)) (IntOp.addi (w i) (p i)) (w i) = w i
  rw [hz, cmpi_slt_zero_of_le hw, select_zero]

abbrev Tabs : Shape := ⟨3, ![18, 4097, 256]⟩
abbrev Tab1 : Shape := ⟨3, ![1, 4097, 256]⟩
abbrev Tab : Shape := ⟨2, ![4097, 256]⟩
abbrev Ids : Shape := ⟨2, ![8, 8192]⟩
abbrev Ids1 : Shape := ⟨3, ![8, 8192, 1]⟩
abbrev Out : Shape := ⟨3, ![8, 8192, 256]⟩

theorem step_apply (t : ℕ) (ht : t < 18) (hs : Tabs.Slices ![t, 0, 0] Tab1) (hc : Tab1.ShapeCasts Tab)
    (hb : Ids.BroadcastsInDim Ids1 ![0, 1])
    (wf : GatherDims.WF Tab Ids1 Out [2] [0] [] [0] [] 2 ![1, 256])
    (tab : Tabs.Idx → α) (w z p : IVec Ids 32) (hz : ∀ i, z i = 0#32) (hw : ∀ i, (w i).toNat ≤ 4096)
    (b : Fin 8) (l : Fin 8192) (d : Fin 256) :
    Host.gather (rowDims 4097 256 8 8192 wf) (shapeCast Tab (extractStridedSlice Tab1 ![t, 0, 0] tab hs) hc)
        (broadcastInDim Ids1 ![0, 1] hb (select (cmpi .slt w z) (addi w p) w)) (ix3 b l d)
      = tab (ix3 (⟨t, ht⟩ : Fin 18) (⟨min (w (ix2 b l)).toNat 4096, by omega⟩ : Fin 4097) d) := by
  have hidx : broadcastInDim Ids1 ![0, 1] hb (select (cmpi .slt w z) (addi w p) w) (ix3 b l (0 : Fin 1))
      = w (ix2 b l) := by
    rw [broadcastInDim_apply ![0, 1] hb _ (ix3 b l (0 : Fin 1)) (ix2 b l) (fun a => by
      match a with
      | ⟨0, _⟩ => rfl
      | ⟨1, _⟩ => rfl)]
    exact norm_apply w z p _ (hz _) (hw _)
  rw [gather_row_apply wf _ _ b l d (⟨min (w (ix2 b l)).toNat 4096, by omega⟩ : Fin 4097) (by
    rw [hidx, toInt_of_le (hw _), Int.toNat_natCast])]
  rw [shapeCast_1ab_ab_apply]
  exact extractStridedSlice_apply _ tab hs _ (ix3 (⟨t, ht⟩ : Fin 18) _ d) (fun a => by
    match a with
    | ⟨0, _⟩ => exact (Nat.add_zero t).symm
    | ⟨1, _⟩ => exact (Nat.zero_add _).symm
    | ⟨2, _⟩ => exact (Nat.zero_add _).symm)

def partialSum (r : ℕ → EReal) : ℕ → EReal
  | 0 => 0
  | n + 1 => partialSum r n + r n

theorem partialSum_eq (r : ℕ → EReal) (n : ℕ) : partialSum r n = ∑ t : Fin n, r t.val := by
  induction n with
  | zero => simp [partialSum]
  | succ n ih => rw [partialSum, ih, Fin.sum_univ_castSucc]; rfl

theorem ofBits_nineteen : Ideal.ofBits .f32 0x41980000#32 = ((19 : ℝ) : EReal) := by
  simp [Ideal.ofBits, Ideal.ieee, -EReal.coe_mul]; norm_num

theorem div_nineteen (x : EReal) : Ideal.div x (Ideal.ofBits .f32 0x41980000#32) = x * ((1 / 19 : ℝ) : EReal) := by
  rw [ofBits_nineteen]; exact Ideal.div_coe (by norm_num) x

theorem divf_nineteen_apply {T : Shape} (h : (⟨0, ![]⟩ : Shape).BroadcastsInDim T ![]) (a : FVec Ideal T .f32) (i : T.Idx) :
    Host.divf a (broadcastInDim T ![] h (constant (F := Ideal) ⟨0, ![]⟩ .f32 0x41980000#32)) i
      = a i * ((1 / 19 : ℝ) : EReal) := by
  rw [hostDivf_apply, broadcastInDim_scalar_apply, constant_apply]; exact div_nineteen _

theorem zero_bcast_apply {T : Shape} (h : (⟨0, ![]⟩ : Shape).BroadcastsInDim T ![]) (i : T.Idx) :
    broadcastInDim T ![] h (constant (F := Ideal) ⟨0, ![]⟩ .f32 0x00000000#32) i = (0 : EReal) := by
  rw [broadcastInDim_scalar_apply, constant_apply]; exact Ideal.ofBits_zero_f32

end Cert.RTail

end
-- ==== Proof.R.TailSpec.lean ====
import proofs.«175239_j73718818668652_1_alg».proof.Proof.R.TailPure
import proofs.«175239_j73718818668652_1_alg».proof.Proof.Spec.G

noncomputable section

open scoped BigOperators

namespace Cert.RTail

open Idealize.ShloMosaic Idealize.ShloMosaic.ValueIdx

def rowAt (x : IVec Spec.S8x8192 32) (tab : Spec.S18x4097x256.Idx → EReal) (t : ℕ) (i : Spec.S8x8192x256.Idx) : EReal :=
  if h : t < 18 then
    tab (ix3 (⟨t, h⟩ : Fin 18) (Spec.rowIdx (Spec.ids (t + 3) x (ix2 (i 0) (i 1)))) (i 2))
  else 0

def total (x : IVec Spec.S8x8192 32) (tab : Spec.S18x4097x256.Idx → EReal) (n : ℕ) : FVec Ideal Spec.S8x8192x256 .f32 :=
  fun i => partialSum (fun t => rowAt x tab t i) n

theorem total_zero (x : IVec Spec.S8x8192 32) (tab : Spec.S18x4097x256.Idx → EReal) :
    total x tab 0 = fun _ => (0 : EReal) := rfl

theorem total_succ (x : IVec Spec.S8x8192 32) (tab : Spec.S18x4097x256.Idx → EReal) (n : ℕ) :
    total x tab (n + 1) = fun i => total x tab n i + rowAt x tab n i := rfl

theorem rowAt_of_lt (x : IVec Spec.S8x8192 32) (tab : Spec.S18x4097x256.Idx → EReal) {t : ℕ} (ht : t < 18)
    (b : Fin 8) (l : Fin 8192) (d : Fin 256) :
    rowAt x tab t (ix3 b l d) = tab (ix3 (⟨t, ht⟩ : Fin 18) (Spec.rowIdx (Spec.ids (t + 3) x (ix2 b l))) d) :=
  dif_pos ht

theorem zero_total (x : IVec Spec.S8x8192 32) (tab : Spec.S18x4097x256.Idx → EReal)
    (h : (⟨0, ![]⟩ : Shape).BroadcastsInDim Out ![]) :
    broadcastInDim Out ![] h (constant (F := Ideal) ⟨0, ![]⟩ .f32 0x00000000#32) = total x tab 0 := by
  funext i; rw [zero_bcast_apply]; rfl

theorem step_total (x : IVec Spec.S8x8192 32) (tab : Spec.S18x4097x256.Idx → EReal) (t : ℕ) (ht : t < 18)
    (hs : Tabs.Slices ![t, 0, 0] Tab1) (hc : Tab1.ShapeCasts Tab) (hb : Ids.BroadcastsInDim Ids1 ![0, 1])
    (wf : GatherDims.WF Tab Ids1 Out [2] [0] [] [0] [] 2 ![1, 256])
    (z p : IVec Ids 32) (hz : ∀ i, z i = 0#32) (hle : ∀ i, (Spec.ids (t + 3) x i).toNat ≤ 4096) :
    addf (total x tab t)
        (Host.gather (rowDims 4097 256 8 8192 wf) (shapeCast Tab (extractStridedSlice Tab1 ![t, 0, 0] tab hs) hc)
          (broadcastInDim Ids1 ![0, 1] hb
            (select (cmpi .slt (Spec.ids (t + 3) x) z) (addi (Spec.ids (t + 3) x) p) (Spec.ids (t + 3) x))))
      = total x tab (t + 1) := by
  funext i
  obtain ⟨b, l, d, rfl⟩ : ∃ (b : Fin 8) (l : Fin 8192) (d : Fin 256), i = ix3 b l d := ⟨i 0, i 1, i 2, eq_ix3 i⟩
  rw [addf_apply, step_apply t ht hs hc hb wf tab (Spec.ids (t + 3) x) z p hz hle b l d]
  exact congrArg (total x tab t (ix3 b l d) + ·) (rowAt_of_lt x tab ht b l d).symm

theorem total_mul_eq_G (x : IVec Spec.S8x8192 32) (tab : Spec.S18x4097x256.Idx → EReal) :
    (fun i => total x tab 18 i * ((1 / 19 : ℝ) : EReal)) = Spec.G x tab := by
  funext i
  unfold total Spec.G
  rw [partialSum_eq]
  refine congrArg (· * Spec.c19) (Finset.sum_congr rfl fun t _ => ?_)
  exact dif_pos t.isLt

theorem total_div_eq_G (x : IVec Spec.S8x8192 32) (tab : Spec.S18x4097x256.Idx → EReal)
    (h : (⟨0, ![]⟩ : Shape).BroadcastsInDim Out ![]) :
    Host.divf (total x tab 18) (broadcastInDim Out ![] h (constant (F := Ideal) ⟨0, ![]⟩ .f32 0x41980000#32))
      = Spec.G x tab := by
  rw [← total_mul_eq_G]
  funext i
  exact divf_nineteen_apply h _ i

end Cert.RTail

end
-- ==== Proof.R.TailVals.lean ====
import proofs.«175239_j73718818668652_1_alg».proof.Proof.R.Ops1
import proofs.«175239_j73718818668652_1_alg».proof.Proof.LibHostFold
import proofs.«175239_j73718818668652_1_alg».proof.Proof.R.TailSpec
import proofs.«175239_j73718818668652_1_alg».proof.Proof.Spec.IdsRange

noncomputable section

namespace Cert.ReferenceIdeal.HandVals

open Cert.ReferenceIdeal Cert.ReferenceIdeal.Gen Cert.ReferenceIdeal.Hand
open Idealize.ShloMosaic Idealize.ShloMosaic.TcCoe Idealize.SL.Sem Idealize.ShloMosaic.StableHlo
open Cert.LibHostFold Cert.RTail

variable {F : FTy → Type} [FloatOps F]

abbrev tailItems : List (List (HloOp τ sig (Elt F))) :=
  [tailOps0, tailOps1, tailOps2, tailOps3, tailOps4, tailOps5, tailOps6, tailOps7, tailOps8, tailOps9, tailOps10, tailOps11, tailOps12, tailOps13, tailOps14, tailOps15, tailOps16, tailOps17, tailOps18, tailOps19]

abbrev tailWs : List (List (Ref sig .tc)) :=
  [[main_cst, main_v208],
   [main_v209, main_v210, main_c_102, main_v211, main_v212, main_c_103, main_v213, main_v214, main_v215, main_v216, main_v217, main_v218],
   [main_v219, main_v220, main_c_104, main_v221, main_v222, main_c_105, main_v223, main_v224, main_v225, main_v226, main_v227, main_v228],
   [main_v229, main_v230, main_c_106, main_v231, main_v232, main_c_107, main_v233, main_v234, main_v235, main_v236, main_v237, main_v238],
   [main_v239, main_v240, main_c_108, main_v241, main_v242, main_c_109, main_v243, main_v244, main_v245, main_v246, main_v247, main_v248],
   [main_v249, main_v250, main_c_110, main_v251, main_v252, main_c_111, main_v253, main_v254, main_v255, main_v256, main_v257, main_v258],
   [main_v259, main_v260, main_c_112, main_v261, main_v262, main_c_113, main_v263, main_v264, main_v265, main_v266, main_v267, main_v268],
   [main_v269, main_v270, main_c_114, main_v271, main_v272, main_c_115, main_v273, main_v274, main_v275, main_v276, main_v277, main_v278],
   [main_v279, main_v280, main_c_116, main_v281, main_v282, main_c_117, main_v283, main_v284, main_v285, main_v286, main_v287, main_v288],
   [main_v289, main_v290, main_c_118, main_v291, main_v292, main_c_119, main_v293, main_v294, main_v295, main_v296, main_v297, main_v298],
   [main_v299, main_v300, main_c_120, main_v301, main_v302, main_c_121, main_v303, main_v304, main_v305, main_v306, main_v307, main_v308],
   [main_v309, main_v310, main_c_122, main_v311, main_v312, main_c_123, main_v313, main_v314, main_v315, main_v316, main_v317, main_v318],
   [main_v319, main_v320, main_c_124, main_v321, main_v322, main_c_125, main_v323, main_v324, main_v325, main_v326, main_v327, main_v328],
   [main_v329, main_v330, main_c_126, main_v331, main_v332, main_c_127, main_v333, main_v334, main_v335, main_v336, main_v337, main_v338],
   [main_v339, main_v340, main_c_128, main_v341, main_v342, main_c_129, main_v343, main_v344, main_v345, main_v346, main_v347, main_v348],
   [main_v349, main_v350, main_c_130, main_v351, main_v352, main_c_131, main_v353, main_v354, main_v355, main_v356, main_v357, main_v358],
   [main_v359, main_v360, main_c_132, main_v361, main_v362, main_c_133, main_v363, main_v364, main_v365, main_v366, main_v367, main_v368],
   [main_v369, main_v370, main_c_134, main_v371, main_v372, main_c_135, main_v373, main_v374, main_v375, main_v376, main_v377, main_v378],
   [main_v379, main_v380, main_c_136, main_v381, main_v382, main_c_137, main_v383, main_v384, main_v385, main_v386, main_v387, main_v388],
   [main_cst_138, main_v389, main_v390]]

theorem tail_writes : WritesAll τ (tailItems (F := F)) tailWs :=
  WritesEachAll.writesAll _ _ (by simp only [WritesEachAll, WritesEach]; repeat' constructor)

theorem tail_keep (V : Valuation τ sig (Elt F)) (n : ℕ) (r : Ref sig .tc) (hr : ∀ W ∈ (tailWs.drop 0).take n, r ∉ W) :
    valAt tailItems V n (Proc.devRef .tc r) = V (Proc.devRef .tc r) := by
  have h := valAt_keep (tailItems (F := F)) tailWs tail_writes V 0 n r hr
  rwa [Nat.zero_add] at h

structure TailIn (V : Valuation τ sig (Elt Ideal)) (x : IVec Spec.S8x8192 32) (tab : Spec.S18x4097x256.Idx → EReal) : Prop where
  tab_eq : (V (Proc.devRef .tc main_arg1) : Spec.S18x4097x256.Idx → EReal) = tab
  ids3 : (V (Proc.devRef .tc main_v37) : IVec Spec.S8x8192 32) = Spec.ids 3 x
  ids4 : (V (Proc.devRef .tc main_v47) : IVec Spec.S8x8192 32) = Spec.ids 4 x
  ids5 : (V (Proc.devRef .tc main_v57) : IVec Spec.S8x8192 32) = Spec.ids 5 x
  ids6 : (V (Proc.devRef .tc main_v67) : IVec Spec.S8x8192 32) = Spec.ids 6 x
  ids7 : (V (Proc.devRef .tc main_v77) : IVec Spec.S8x8192 32) = Spec.ids 7 x
  ids8 : (V (Proc.devRef .tc main_v87) : IVec Spec.S8x8192 32) = Spec.ids 8 x
  ids9 : (V (Proc.devRef .tc main_v97) : IVec Spec.S8x8192 32) = Spec.ids 9 x
  ids10 : (V (Proc.devRef .tc main_v107) : IVec Spec.S8x8192 32) = Spec.ids 10 x
  ids11 : (V (Proc.devRef .tc main_v117) : IVec Spec.S8x8192 32) = Spec.ids 11 x
  ids12 : (V (Proc.devRef .tc main_v127) : IVec Spec.S8x8192 32) = Spec.ids 12 x
  ids13 : (V (Proc.devRef .tc main_v137) : IVec Spec.S8x8192 32) = Spec.ids 13 x
  ids14 : (V (Proc.devRef .tc main_v147) : IVec Spec.S8x8192 32) = Spec.ids 14 x
  ids15 : (V (Proc.devRef .tc main_v157) : IVec Spec.S8x8192 32) = Spec.ids 15 x
  ids16 : (V (Proc.devRef .tc main_v167) : IVec Spec.S8x8192 32) = Spec.ids 16 x
  ids17 : (V (Proc.devRef .tc main_v177) : IVec Spec.S8x8192 32) = Spec.ids 17 x
  ids18 : (V (Proc.devRef .tc main_v187) : IVec Spec.S8x8192 32) = Spec.ids 18 x
  ids19 : (V (Proc.devRef .tc main_v197) : IVec Spec.S8x8192 32) = Spec.ids 19 x
  ids20 : (V (Proc.devRef .tc main_v207) : IVec Spec.S8x8192 32) = Spec.ids 20 x

variable {V : Valuation τ sig (Elt Ideal)} {x : IVec Spec.S8x8192 32} {tab : Spec.S18x4097x256.Idx → EReal}

theorem acc_0 (hin : TailIn V x tab) :
    (valAt tailItems V 1 (no_index (Proc.devRef .tc main_v208)) : FVec Ideal Spec.S8x8192x256 .f32) = total x tab 0 := by
  rw [valAt_succ tailItems V 0 (by decide)]
  show after tailOps0 (valAt tailItems V 0) (Proc.devRef .tc main_v208) = _
  simp only [tailOps0]
  after_results_simp
  exact zero_total x tab _

theorem tab_0 (hin : TailIn V x tab) :
    (valAt tailItems V 1 (no_index (Proc.devRef .tc main_arg1)) : Spec.S18x4097x256.Idx → EReal) = tab :=
  (tail_keep V 1 main_arg1 (by decide)).trans hin.tab_eq

theorem ids_0 (hin : TailIn V x tab) :
    (valAt tailItems V 1 (no_index (Proc.devRef .tc main_v37)) : IVec Spec.S8x8192 32) = Spec.ids 3 x :=
  (tail_keep V 1 main_v37 (by decide)).trans hin.ids3

theorem acc_1 (hin : TailIn V x tab) :
    (valAt tailItems V 2 (no_index (Proc.devRef .tc main_v218)) : FVec Ideal Spec.S8x8192x256 .f32) = total x tab 1 := by
  rw [valAt_succ tailItems V 1 (by decide)]
  show after tailOps1 (valAt tailItems V 1) (Proc.devRef .tc main_v218) = _
  simp only [tailOps1]
  after_results_simp
  simp only [acc_0 hin, tab_0 hin, ids_0 hin]
  exact step_total x tab 0 (by decide) _ _ _ _ _ _ (fun _ => rfl) (Spec.ids_le 3 (by decide) x)

theorem tab_1 (hin : TailIn V x tab) :
    (valAt tailItems V 2 (no_index (Proc.devRef .tc main_arg1)) : Spec.S18x4097x256.Idx → EReal) = tab :=
  (tail_keep V 2 main_arg1 (by decide)).trans hin.tab_eq

theorem ids_1 (hin : TailIn V x tab) :
    (valAt tailItems V 2 (no_index (Proc.devRef .tc main_v47)) : IVec Spec.S8x8192 32) = Spec.ids 4 x :=
  (tail_keep V 2 main_v47 (by decide)).trans hin.ids4

theorem acc_2 (hin : TailIn V x tab) :
    (valAt tailItems V 3 (no_index (Proc.devRef .tc main_v228)) : FVec Ideal Spec.S8x8192x256 .f32) = total x tab 2 := by
  rw [valAt_succ tailItems V 2 (by decide)]
  show after tailOps2 (valAt tailItems V 2) (Proc.devRef .tc main_v228) = _
  simp only [tailOps2]
  after_results_simp
  simp only [acc_1 hin, tab_1 hin, ids_1 hin]
  exact step_total x tab 1 (by decide) _ _ _ _ _ _ (fun _ => rfl) (Spec.ids_le 4 (by decide) x)

theorem tab_2 (hin : TailIn V x tab) :
    (valAt tailItems V 3 (no_index (Proc.devRef .tc main_arg1)) : Spec.S18x4097x256.Idx → EReal) = tab :=
  (tail_keep V 3 main_arg1 (by decide)).trans hin.tab_eq

theorem ids_2 (hin : TailIn V x tab) :
    (valAt tailItems V 3 (no_index (Proc.devRef .tc main_v57)) : IVec Spec.S8x8192 32) = Spec.ids 5 x :=
  (tail_keep V 3 main_v57 (by decide)).trans hin.ids5

theorem acc_3 (hin : TailIn V x tab) :
    (valAt tailItems V 4 (no_index (Proc.devRef .tc main_v238)) : FVec Ideal Spec.S8x8192x256 .f32) = total x tab 3 := by
  rw [valAt_succ tailItems V 3 (by decide)]
  show after tailOps3 (valAt tailItems V 3) (Proc.devRef .tc main_v238) = _
  simp only [tailOps3]
  after_results_simp
  simp only [acc_2 hin, tab_2 hin, ids_2 hin]
  exact step_total x tab 2 (by decide) _ _ _ _ _ _ (fun _ => rfl) (Spec.ids_le 5 (by decide) x)

theorem tab_3 (hin : TailIn V x tab) :
    (valAt tailItems V 4 (no_index (Proc.devRef .tc main_arg1)) : Spec.S18x4097x256.Idx → EReal) = tab :=
  (tail_keep V 4 main_arg1 (by decide)).trans hin.tab_eq

theorem ids_3 (hin : TailIn V x tab) :
    (valAt tailItems V 4 (no_index (Proc.devRef .tc main_v67)) : IVec Spec.S8x8192 32) = Spec.ids 6 x :=
  (tail_keep V 4 main_v67 (by decide)).trans hin.ids6

theorem acc_4 (hin : TailIn V x tab) :
    (valAt tailItems V 5 (no_index (Proc.devRef .tc main_v248)) : FVec Ideal Spec.S8x8192x256 .f32) = total x tab 4 := by
  rw [valAt_succ tailItems V 4 (by decide)]
  show after tailOps4 (valAt tailItems V 4) (Proc.devRef .tc main_v248) = _
  simp only [tailOps4]
  after_results_simp
  simp only [acc_3 hin, tab_3 hin, ids_3 hin]
  exact step_total x tab 3 (by decide) _ _ _ _ _ _ (fun _ => rfl) (Spec.ids_le 6 (by decide) x)

theorem tab_4 (hin : TailIn V x tab) :
    (valAt tailItems V 5 (no_index (Proc.devRef .tc main_arg1)) : Spec.S18x4097x256.Idx → EReal) = tab :=
  (tail_keep V 5 main_arg1 (by decide)).trans hin.tab_eq

theorem ids_4 (hin : TailIn V x tab) :
    (valAt tailItems V 5 (no_index (Proc.devRef .tc main_v77)) : IVec Spec.S8x8192 32) = Spec.ids 7 x :=
  (tail_keep V 5 main_v77 (by decide)).trans hin.ids7

theorem acc_5 (hin : TailIn V x tab) :
    (valAt tailItems V 6 (no_index (Proc.devRef .tc main_v258)) : FVec Ideal Spec.S8x8192x256 .f32) = total x tab 5 := by
  rw [valAt_succ tailItems V 5 (by decide)]
  show after tailOps5 (valAt tailItems V 5) (Proc.devRef .tc main_v258) = _
  simp only [tailOps5]
  after_results_simp
  simp only [acc_4 hin, tab_4 hin, ids_4 hin]
  exact step_total x tab 4 (by decide) _ _ _ _ _ _ (fun _ => rfl) (Spec.ids_le 7 (by decide) x)

theorem tab_5 (hin : TailIn V x tab) :
    (valAt tailItems V 6 (no_index (Proc.devRef .tc main_arg1)) : Spec.S18x4097x256.Idx → EReal) = tab :=
  (tail_keep V 6 main_arg1 (by decide)).trans hin.tab_eq

theorem ids_5 (hin : TailIn V x tab) :
    (valAt tailItems V 6 (no_index (Proc.devRef .tc main_v87)) : IVec Spec.S8x8192 32) = Spec.ids 8 x :=
  (tail_keep V 6 main_v87 (by decide)).trans hin.ids8

theorem acc_6 (hin : TailIn V x tab) :
    (valAt tailItems V 7 (no_index (Proc.devRef .tc main_v268)) : FVec Ideal Spec.S8x8192x256 .f32) = total x tab 6 := by
  rw [valAt_succ tailItems V 6 (by decide)]
  show after tailOps6 (valAt tailItems V 6) (Proc.devRef .tc main_v268) = _
  simp only [tailOps6]
  after_results_simp
  simp only [acc_5 hin, tab_5 hin, ids_5 hin]
  exact step_total x tab 5 (by decide) _ _ _ _ _ _ (fun _ => rfl) (Spec.ids_le 8 (by decide) x)

theorem tab_6 (hin : TailIn V x tab) :
    (valAt tailItems V 7 (no_index (Proc.devRef .tc main_arg1)) : Spec.S18x4097x256.Idx → EReal) = tab :=
  (tail_keep V 7 main_arg1 (by decide)).trans hin.tab_eq

theorem ids_6 (hin : TailIn V x tab) :
    (valAt tailItems V 7 (no_index (Proc.devRef .tc main_v97)) : IVec Spec.S8x8192 32) = Spec.ids 9 x :=
  (tail_keep V 7 main_v97 (by decide)).trans hin.ids9

theorem acc_7 (hin : TailIn V x tab) :
    (valAt tailItems V 8 (no_index (Proc.devRef .tc main_v278)) : FVec Ideal Spec.S8x8192x256 .f32) = total x tab 7 := by
  rw [valAt_succ tailItems V 7 (by decide)]
  show after tailOps7 (valAt tailItems V 7) (Proc.devRef .tc main_v278) = _
  simp only [tailOps7]
  after_results_simp
  simp only [acc_6 hin, tab_6 hin, ids_6 hin]
  exact step_total x tab 6 (by decide) _ _ _ _ _ _ (fun _ => rfl) (Spec.ids_le 9 (by decide) x)

theorem tab_7 (hin : TailIn V x tab) :
    (valAt tailItems V 8 (no_index (Proc.devRef .tc main_arg1)) : Spec.S18x4097x256.Idx → EReal) = tab :=
  (tail_keep V 8 main_arg1 (by decide)).trans hin.tab_eq

theorem ids_7 (hin : TailIn V x tab) :
    (valAt tailItems V 8 (no_index (Proc.devRef .tc main_v107)) : IVec Spec.S8x8192 32) = Spec.ids 10 x :=
  (tail_keep V 8 main_v107 (by decide)).trans hin.ids10

theorem acc_8 (hin : TailIn V x tab) :
    (valAt tailItems V 9 (no_index (Proc.devRef .tc main_v288)) : FVec Ideal Spec.S8x8192x256 .f32) = total x tab 8 := by
  rw [valAt_succ tailItems V 8 (by decide)]
  show after tailOps8 (valAt tailItems V 8) (Proc.devRef .tc main_v288) = _
  simp only [tailOps8]
  after_results_simp
  simp only [acc_7 hin, tab_7 hin, ids_7 hin]
  exact step_total x tab 7 (by decide) _ _ _ _ _ _ (fun _ => rfl) (Spec.ids_le 10 (by decide) x)

theorem tab_8 (hin : TailIn V x tab) :
    (valAt tailItems V 9 (no_index (Proc.devRef .tc main_arg1)) : Spec.S18x4097x256.Idx → EReal) = tab :=
  (tail_keep V 9 main_arg1 (by decide)).trans hin.tab_eq

theorem ids_8 (hin : TailIn V x tab) :
    (valAt tailItems V 9 (no_index (Proc.devRef .tc main_v117)) : IVec Spec.S8x8192 32) = Spec.ids 11 x :=
  (tail_keep V 9 main_v117 (by decide)).trans hin.ids11

theorem acc_9 (hin : TailIn V x tab) :
    (valAt tailItems V 10 (no_index (Proc.devRef .tc main_v298)) : FVec Ideal Spec.S8x8192x256 .f32) = total x tab 9 := by
  rw [valAt_succ tailItems V 9 (by decide)]
  show after tailOps9 (valAt tailItems V 9) (Proc.devRef .tc main_v298) = _
  simp only [tailOps9]
  after_results_simp
  simp only [acc_8 hin, tab_8 hin, ids_8 hin]
  exact step_total x tab 8 (by decide) _ _ _ _ _ _ (fun _ => rfl) (Spec.ids_le 11 (by decide) x)

theorem tab_9 (hin : TailIn V x tab) :
    (valAt tailItems V 10 (no_index (Proc.devRef .tc main_arg1)) : Spec.S18x4097x256.Idx → EReal) = tab :=
  (tail_keep V 10 main_arg1 (by decide)).trans hin.tab_eq

theorem ids_9 (hin : TailIn V x tab) :
    (valAt tailItems V 10 (no_index (Proc.devRef .tc main_v127)) : IVec Spec.S8x8192 32) = Spec.ids 12 x :=
  (tail_keep V 10 main_v127 (by decide)).trans hin.ids12

theorem acc_10 (hin : TailIn V x tab) :
    (valAt tailItems V 11 (no_index (Proc.devRef .tc main_v308)) : FVec Ideal Spec.S8x8192x256 .f32) = total x tab 10 := by
  rw [valAt_succ tailItems V 10 (by decide)]
  show after tailOps10 (valAt tailItems V 10) (Proc.devRef .tc main_v308) = _
  simp only [tailOps10]
  after_results_simp
  simp only [acc_9 hin, tab_9 hin, ids_9 hin]
  exact step_total x tab 9 (by decide) _ _ _ _ _ _ (fun _ => rfl) (Spec.ids_le 12 (by decide) x)

theorem tab_10 (hin : TailIn V x tab) :
    (valAt tailItems V 11 (no_index (Proc.devRef .tc main_arg1)) : Spec.S18x4097x256.Idx → EReal) = tab :=
  (tail_keep V 11 main_arg1 (by decide)).trans hin.tab_eq

theorem ids_10 (hin : TailIn V x tab) :
    (valAt tailItems V 11 (no_index (Proc.devRef .tc main_v137)) : IVec Spec.S8x8192 32) = Spec.ids 13 x :=
  (tail_keep V 11 main_v137 (by decide)).trans hin.ids13

theorem acc_11 (hin : TailIn V x tab) :
    (valAt tailItems V 12 (no_index (Proc.devRef .tc main_v318)) : FVec Ideal Spec.S8x8192x256 .f32) = total x tab 11 := by
  rw [valAt_succ tailItems V 11 (by decide)]
  show after tailOps11 (valAt tailItems V 11) (Proc.devRef .tc main_v318) = _
  simp only [tailOps11]
  after_results_simp
  simp only [acc_10 hin, tab_10 hin, ids_10 hin]
  exact step_total x tab 10 (by decide) _ _ _ _ _ _ (fun _ => rfl) (Spec.ids_le 13 (by decide) x)

theorem tab_11 (hin : TailIn V x tab) :
    (valAt tailItems V 12 (no_index (Proc.devRef .tc main_arg1)) : Spec.S18x4097x256.Idx → EReal) = tab :=
  (tail_keep V 12 main_arg1 (by decide)).trans hin.tab_eq

theorem ids_11 (hin : TailIn V x tab) :
    (valAt tailItems V 12 (no_index (Proc.devRef .tc main_v147)) : IVec Spec.S8x8192 32) = Spec.ids 14 x :=
  (tail_keep V 12 main_v147 (by decide)).trans hin.ids14

theorem acc_12 (hin : TailIn V x tab) :
    (valAt tailItems V 13 (no_index (Proc.devRef .tc main_v328)) : FVec Ideal Spec.S8x8192x256 .f32) = total x tab 12 := by
  rw [valAt_succ tailItems V 12 (by decide)]
  show after tailOps12 (valAt tailItems V 12) (Proc.devRef .tc main_v328) = _
  simp only [tailOps12]
  after_results_simp
  simp only [acc_11 hin, tab_11 hin, ids_11 hin]
  exact step_total x tab 11 (by decide) _ _ _ _ _ _ (fun _ => rfl) (Spec.ids_le 14 (by decide) x)

theorem tab_12 (hin : TailIn V x tab) :
    (valAt tailItems V 13 (no_index (Proc.devRef .tc main_arg1)) : Spec.S18x4097x256.Idx → EReal) = tab :=
  (tail_keep V 13 main_arg1 (by decide)).trans hin.tab_eq

theorem ids_12 (hin : TailIn V x tab) :
    (valAt tailItems V 13 (no_index (Proc.devRef .tc main_v157)) : IVec Spec.S8x8192 32) = Spec.ids 15 x :=
  (tail_keep V 13 main_v157 (by decide)).trans hin.ids15

theorem acc_13 (hin : TailIn V x tab) :
    (valAt tailItems V 14 (no_index (Proc.devRef .tc main_v338)) : FVec Ideal Spec.S8x8192x256 .f32) = total x tab 13 := by
  rw [valAt_succ tailItems V 13 (by decide)]
  show after tailOps13 (valAt tailItems V 13) (Proc.devRef .tc main_v338) = _
  simp only [tailOps13]
  after_results_simp
  simp only [acc_12 hin, tab_12 hin, ids_12 hin]
  exact step_total x tab 12 (by decide) _ _ _ _ _ _ (fun _ => rfl) (Spec.ids_le 15 (by decide) x)

theorem tab_13 (hin : TailIn V x tab) :
    (valAt tailItems V 14 (no_index (Proc.devRef .tc main_arg1)) : Spec.S18x4097x256.Idx → EReal) = tab :=
  (tail_keep V 14 main_arg1 (by decide)).trans hin.tab_eq

theorem ids_13 (hin : TailIn V x tab) :
    (valAt tailItems V 14 (no_index (Proc.devRef .tc main_v167)) : IVec Spec.S8x8192 32) = Spec.ids 16 x :=
  (tail_keep V 14 main_v167 (by decide)).trans hin.ids16

theorem acc_14 (hin : TailIn V x tab) :
    (valAt tailItems V 15 (no_index (Proc.devRef .tc main_v348)) : FVec Ideal Spec.S8x8192x256 .f32) = total x tab 14 := by
  rw [valAt_succ tailItems V 14 (by decide)]
  show after tailOps14 (valAt tailItems V 14) (Proc.devRef .tc main_v348) = _
  simp only [tailOps14]
  after_results_simp
  simp only [acc_13 hin, tab_13 hin, ids_13 hin]
  exact step_total x tab 13 (by decide) _ _ _ _ _ _ (fun _ => rfl) (Spec.ids_le 16 (by decide) x)

theorem tab_14 (hin : TailIn V x tab) :
    (valAt tailItems V 15 (no_index (Proc.devRef .tc main_arg1)) : Spec.S18x4097x256.Idx → EReal) = tab :=
  (tail_keep V 15 main_arg1 (by decide)).trans hin.tab_eq

theorem ids_14 (hin : TailIn V x tab) :
    (valAt tailItems V 15 (no_index (Proc.devRef .tc main_v177)) : IVec Spec.S8x8192 32) = Spec.ids 17 x :=
  (tail_keep V 15 main_v177 (by decide)).trans hin.ids17

theorem acc_15 (hin : TailIn V x tab) :
    (valAt tailItems V 16 (no_index (Proc.devRef .tc main_v358)) : FVec Ideal Spec.S8x8192x256 .f32) = total x tab 15 := by
  rw [valAt_succ tailItems V 15 (by decide)]
  show after tailOps15 (valAt tailItems V 15) (Proc.devRef .tc main_v358) = _
  simp only [tailOps15]
  after_results_simp
  simp only [acc_14 hin, tab_14 hin, ids_14 hin]
  exact step_total x tab 14 (by decide) _ _ _ _ _ _ (fun _ => rfl) (Spec.ids_le 17 (by decide) x)

theorem tab_15 (hin : TailIn V x tab) :
    (valAt tailItems V 16 (no_index (Proc.devRef .tc main_arg1)) : Spec.S18x4097x256.Idx → EReal) = tab :=
  (tail_keep V 16 main_arg1 (by decide)).trans hin.tab_eq

theorem ids_15 (hin : TailIn V x tab) :
    (valAt tailItems V 16 (no_index (Proc.devRef .tc main_v187)) : IVec Spec.S8x8192 32) = Spec.ids 18 x :=
  (tail_keep V 16 main_v187 (by decide)).trans hin.ids18

theorem acc_16 (hin : TailIn V x tab) :
    (valAt tailItems V 17 (no_index (Proc.devRef .tc main_v368)) : FVec Ideal Spec.S8x8192x256 .f32) = total x tab 16 := by
  rw [valAt_succ tailItems V 16 (by decide)]
  show after tailOps16 (valAt tailItems V 16) (Proc.devRef .tc main_v368) = _
  simp only [tailOps16]
  after_results_simp
  simp only [acc_15 hin, tab_15 hin, ids_15 hin]
  exact step_total x tab 15 (by decide) _ _ _ _ _ _ (fun _ => rfl) (Spec.ids_le 18 (by decide) x)

theorem tab_16 (hin : TailIn V x tab) :
    (valAt tailItems V 17 (no_index (Proc.devRef .tc main_arg1)) : Spec.S18x4097x256.Idx → EReal) = tab :=
  (tail_keep V 17 main_arg1 (by decide)).trans hin.tab_eq

theorem ids_16 (hin : TailIn V x tab) :
    (valAt tailItems V 17 (no_index (Proc.devRef .tc main_v197)) : IVec Spec.S8x8192 32) = Spec.ids 19 x :=
  (tail_keep V 17 main_v197 (by decide)).trans hin.ids19

theorem acc_17 (hin : TailIn V x tab) :
    (valAt tailItems V 18 (no_index (Proc.devRef .tc main_v378)) : FVec Ideal Spec.S8x8192x256 .f32) = total x tab 17 := by
  rw [valAt_succ tailItems V 17 (by decide)]
  show after tailOps17 (valAt tailItems V 17) (Proc.devRef .tc main_v378) = _
  simp only [tailOps17]
  after_results_simp
  simp only [acc_16 hin, tab_16 hin, ids_16 hin]
  exact step_total x tab 16 (by decide) _ _ _ _ _ _ (fun _ => rfl) (Spec.ids_le 19 (by decide) x)

theorem tab_17 (hin : TailIn V x tab) :
    (valAt tailItems V 18 (no_index (Proc.devRef .tc main_arg1)) : Spec.S18x4097x256.Idx → EReal) = tab :=
  (tail_keep V 18 main_arg1 (by decide)).trans hin.tab_eq

theorem ids_17 (hin : TailIn V x tab) :
    (valAt tailItems V 18 (no_index (Proc.devRef .tc main_v207)) : IVec Spec.S8x8192 32) = Spec.ids 20 x :=
  (tail_keep V 18 main_v207 (by decide)).trans hin.ids20

theorem acc_18 (hin : TailIn V x tab) :
    (valAt tailItems V 19 (no_index (Proc.devRef .tc main_v388)) : FVec Ideal Spec.S8x8192x256 .f32) = total x tab 18 := by
  rw [valAt_succ tailItems V 18 (by decide)]
  show after tailOps18 (valAt tailItems V 18) (Proc.devRef .tc main_v388) = _
  simp only [tailOps18]
  after_results_simp
  simp only [acc_17 hin, tab_17 hin, ids_17 hin]
  exact step_total x tab 17 (by decide) _ _ _ _ _ _ (fun _ => rfl) (Spec.ids_le 20 (by decide) x)

theorem tail_res (hin : TailIn V x tab) :
    (valAt tailItems V 20 (no_index (Proc.devRef .tc main_v390)) : Spec.S8x8192x256.Idx → EReal) = Spec.G x tab := by
  rw [valAt_succ tailItems V 19 (by decide)]
  show after tailOps19 (valAt tailItems V 19) (Proc.devRef .tc main_v390) = _
  simp only [tailOps19]
  after_results_simp
  simp only [acc_18 hin]
  exact total_div_eq_G x tab _

theorem valAt_all (V : Valuation τ sig (Elt F)) : valAt tailItems V 20 = afterS tailItems V := rfl

theorem tail_untouched (V : Valuation τ sig (Elt F)) (r : Ref sig .tc) (hr : ∀ W ∈ tailWs, r ∉ W) :
    afterS tailItems V (Proc.devRef .tc r) = V (Proc.devRef .tc r) :=
  afterS_keep tailItems tailWs tail_writes V r hr

end Cert.ReferenceIdeal.HandVals

end
-- ==== Proof.R.Vals.lean ====
import proofs.«175239_j73718818668652_1_alg».proof.Proof.R.Ops
import proofs.«175239_j73718818668652_1_alg».proof.Proof.R.HostRec
import proofs.«175239_j73718818668652_1_alg».proof.Proof.R.TailVals

noncomputable section

namespace Cert.ReferenceIdeal.HandVals

open Cert.ReferenceIdeal Cert.ReferenceIdeal.Gen Cert.ReferenceIdeal.Hand Cert.ReferenceIdeal.HandHost
open Idealize.ShloMosaic Idealize.ShloMosaic.TcCoe Idealize.SL Idealize.SL.Sem Idealize.ShloMosaic.StableHlo
open Cert.LibHostFold

theorem stretches_tail : ((stretches (F := Ideal)).drop 150).take 20 = tailItems := rfl

theorem after_ops (V0 : Valuation τ sig (Elt Ideal)) :
    after (ops (F := Ideal)) V0 = afterS tailItems (val V0 150) :=
  ((valAt_of_length_le (stretches (F := Ideal)) V0 (150 + 20) (by decide)).symm).trans
    ((valAt_add (stretches (F := Ideal)) V0 150 20).trans
      (congrArg (fun l => afterS l (valAt (stretches (F := Ideal)) V0 150)) stretches_tail))

theorem tailIn (V0 : Valuation τ sig (Elt Ideal)) :
    TailIn (val V0 150) (X V0) (V0 (Proc.devRef .tc main_arg1)) where
  tab_eq := val150_arg1 V0
  ids3 := val150_ids3 V0
  ids4 := val150_ids4 V0
  ids5 := val150_ids5 V0
  ids6 := val150_ids6 V0
  ids7 := val150_ids7 V0
  ids8 := val150_ids8 V0
  ids9 := val150_ids9 V0
  ids10 := val150_ids10 V0
  ids11 := val150_ids11 V0
  ids12 := val150_ids12 V0
  ids13 := val150_ids13 V0
  ids14 := val150_ids14 V0
  ids15 := val150_ids15 V0
  ids16 := val150_ids16 V0
  ids17 := val150_ids17 V0
  ids18 := val150_ids18 V0
  ids19 := val150_ids19 V0
  ids20 := val150_ids20 V0

theorem res_at (V0 : Valuation τ sig (Elt Ideal)) :
    (after (ops (F := Ideal)) V0 (Proc.devRef .tc main_v390) : Spec.S8x8192x256.Idx → EReal)
      = Spec.G (V0 (Proc.devRef .tc main_arg0)) (V0 (Proc.devRef .tc main_arg1)) := by
  rw [after_ops V0, ← valAt_all]
  exact tail_res (tailIn V0)

theorem res (m : (ℓ : Loc nD τ sig) → Buf (Elt Ideal) ℓ) (d : Dev nD) :
    (after (ops (F := Ideal)) (launchContents m d) (Proc.devRef .tc main_v390) : Spec.S8x8192x256.Idx → EReal)
      = Spec.G (m ((d.tc : Thread nD τ).loc main_arg0)) (m ((d.tc : Thread nD τ).loc main_arg1)) :=
  res_at (launchContents m d)

theorem kept_main_arg0 (m : (ℓ : Loc nD τ sig) → Buf (Elt Ideal) ℓ) (d : Dev nD) :
    after (ops (F := Ideal)) (launchContents m d) (Proc.devRef .tc main_arg0) = m ((d.tc : Thread nD τ).loc main_arg0) :=
  after_main_arg0 (launchContents m d)

theorem kept_main_arg1 (m : (ℓ : Loc nD τ sig) → Buf (Elt Ideal) ℓ) (d : Dev nD) :
    after (ops (F := Ideal)) (launchContents m d) (Proc.devRef .tc main_arg1) = m ((d.tc : Thread nD τ).loc main_arg1) :=
  after_main_arg1 (launchContents m d)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v390)
          = Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_v390).trans (res m c), (h c main_arg0).trans (kept_main_arg0 m c),
      (h c main_arg1).trans (kept_main_arg1 m c)⟩)
    (run_all m ρ)

theorem frame (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).2.1, (h c).2.2⟩) (run m ρ)

end Cert.ReferenceIdeal.HandVals

end
-- ==== Proof.lean ====
/- A one-hot product with a table is a row gather: both programs end with the same gather-sum of the 18 tables at the n-gram ids, times 1/19. -/
import proofs.«175239_j73718818668652_1_alg».proof.Defs
import proofs.«175239_j73718818668652_1_alg».proof.Proof.Gen.Kernel
import proofs.«175239_j73718818668652_1_alg».proof.Proof.Gen.KernelIdeal
import proofs.«175239_j73718818668652_1_alg».proof.Proof.Gen.ReferenceIdeal
import proofs.«175239_j73718818668652_1_alg».proof.Proof.Gen.Pre_finite_inputs
import proofs.«175239_j73718818668652_1_alg».proof.Proof.K.FrameClaim
import proofs.«175239_j73718818668652_1_alg».proof.Proof.KI.FrameClaim
import proofs.«175239_j73718818668652_1_alg».proof.Proof.KI.Value
import proofs.«175239_j73718818668652_1_alg».proof.Proof.R.Vals

noncomputable section

namespace Cert.Proof

open Idealize.ShloMosaic Idealize.ShloMosaic.TcCoe Idealize.SL.Sem

theorem frame_p : Cert.frame_Kernel := fun m ρ _ => Cert.Kernel.Fr.frame m ρ

theorem frame_pi : Cert.frame_KernelIdeal := fun m ρ _ => Cert.KernelIdeal.Fr.frame m ρ

theorem frame_ri : Cert.frame_ReferenceIdeal := fun m ρ _ => Cert.ReferenceIdeal.HandVals.frame m ρ

theorem preserves : Cert.preserves_Kernel_KernelIdeal :=
  IdealRules.named_const.statement Cert.KernelIdeal.κ "inv_19" .f32 0x3D579436#32 ((1 / 19 : ℝ) : EReal) rfl

theorem algebraic : Cert.algebraic_KernelIdeal_ReferenceIdeal := by
  intro m ρ m' ρ' _ hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.FrValue.run m ρ, ?_⟩
  refine (θ_run Cert.ReferenceIdeal.defs _ _).mono (fun _ h c => ⟨(h c).1.trans ?_, (h c).2⟩)
    (Cert.ReferenceIdeal.HandVals.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
